-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v708)) (v1 : (c : Dev Cert.KernelIdeal.nD) → Buf (Elt Ideal) ((c.tc : Thread Cert.KernelIdeal.nD Cert.KernelIdeal.τ).loc Cert.KernelIdeal.main_v710)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v708) = v0 c
          ∧ r.2.mem ((c.tc : Thread Cert.KernelIdeal.nD Cert.KernelIdeal.τ).loc Cert.KernelIdeal.main_v710) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v978) = v0 c
          ∧ r.2.mem ((c.tc : Thread Cert.ReferenceIdeal.nD Cert.ReferenceIdeal.τ).loc Cert.ReferenceIdeal.main_v1134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S204800x20 : Shape := ⟨2, ![204800, 20]⟩
abbrev S2048 : Shape := ⟨1, ![2048]⟩
abbrev S3551 : Shape := ⟨1, ![3551]⟩
abbrev S217264 : Shape := ⟨1, ![217264]⟩
abbrev S20001 : Shape := ⟨1, ![20001]⟩
abbrev S302235 : Shape := ⟨1, ![302235]⟩
abbrev S_ : Shape := ⟨0, ![]⟩

class Facts : Prop where
  bcast_S_S204800x20 : S_.BroadcastsInDim S204800x20 (![] : Fin 0 → Fin S204800x20.rank)
  reducesTo_S204800x20_S_d0_1 : S204800x20.ReducesTo [0, 1] S_
  h_S_ : 0 < S_.numel
  bcast_S_S2048 : S_.BroadcastsInDim S2048 (![] : Fin 0 → Fin S2048.rank)
  reducesTo_S2048_S_d0 : S2048.ReducesTo [0] S_
  bcast_S_S217264 : S_.BroadcastsInDim S217264 (![] : Fin 0 → Fin S217264.rank)
  reducesTo_S217264_S_d0 : S217264.ReducesTo [0] S_
  bcast_S_S302235 : S_.BroadcastsInDim S302235 (![] : Fin 0 → Fin S302235.rank)
  reducesTo_S302235_S_d0 : S302235.ReducesTo [0] S_

variable [Facts]

def fn_part2 {F : FTy → Type} [FloatOps F] (main_v28 : IVec S_ 1) (main_v31 : IVec S_ 1) : IVec S_ 1 :=
  let main_v32 : IVec S_ 1 := andi main_v28 main_v31
  main_v32

def fn_part1 {F : FTy → Type} [FloatOps F] (main_arg4 : IVec S217264 32) (main_arg6 : IVec S302235 32) (main_v12 : IVec S_ 1) (main_v15 : IVec S_ 1) : IVec S_ 1 :=
  let main_v16 : IVec S_ 1 := andi main_v12 main_v15
  let main_c_6 : IVec S_ 32 := constantI S_ 32 0#32
  let main_v17 : IVec S217264 32 := broadcastInDim S217264 ![] bcast_S_S217264 main_c_6
  let main_v18 : IVec S217264 1 := cmpi .sge main_arg4 main_v17
  let main_c_7 : IVec S_ 1 := constantI S_ 1 1#1
  let main_v19 : IVec S_ 1 := (fun x v => Host.reduce IntOp.andi x v reducesTo_S217264_S_d0 h_S_) main_v18 main_c_7
  let main_v20 : IVec S_ 1 := andi main_v16 main_v19
  let main_c_8 : IVec S_ 32 := constantI S_ 32 20000#32
  let main_v21 : IVec S217264 32 := broadcastInDim S217264 ![] bcast_S_S217264 main_c_8
  let main_v22 : IVec S217264 1 := cmpi .slt main_arg4 main_v21
  let main_c_9 : IVec S_ 1 := constantI S_ 1 1#1
  let main_v23 : IVec S_ 1 := (fun x v => Host.reduce IntOp.andi x v reducesTo_S217264_S_d0 h_S_) main_v22 main_c_9
  let main_v24 : IVec S_ 1 := andi main_v20 main_v23
  let main_c_10 : IVec S_ 32 := constantI S_ 32 0#32
  let main_v25 : IVec S302235 32 := broadcastInDim S302235 ![] bcast_S_S302235 main_c_10
  let main_v26 : IVec S302235 1 := cmpi .sge main_arg6 main_v25
  let main_c_11 : IVec S_ 1 := constantI S_ 1 1#1
  let main_v27 : IVec S_ 1 := (fun x v => Host.reduce IntOp.andi x v reducesTo_S302235_S_d0 h_S_) main_v26 main_c_11
  let main_v28 : IVec S_ 1 := andi main_v24 main_v27
  let main_c_12 : IVec S_ 32 := constantI S_ 32 3550#32
  let main_v29 : IVec S302235 32 := broadcastInDim S302235 ![] bcast_S_S302235 main_c_12
  let main_v30 : IVec S302235 1 := cmpi .slt main_arg6 main_v29
  let main_c_13 : IVec S_ 1 := constantI S_ 1 1#1
  let main_v31 : IVec S_ 1 := (fun x v => Host.reduce IntOp.andi x v reducesTo_S302235_S_d0 h_S_) main_v30 main_c_13
  fn_part2 (F := F) main_v28 main_v31

def fn {F : FTy → Type} [FloatOps F] (main_arg0 : FVec F S204800x20 .f32) (main_arg1 : FVec F S204800x20 .f32) (main_arg2 : IVec S2048 32) (main_arg3 : IVec S3551 32) (main_arg4 : IVec S217264 32) (main_arg5 : IVec S20001 32) (main_arg6 : IVec S302235 32) : IVec S_ 1 :=
  let main_v0 : FVec F S204800x20 .f32 := Host.absf main_arg0
  let main_cst : FVec F S_ .f32 := constant S_ .f32 0x7F800000#32
  let main_v1 : FVec F S204800x20 .f32 := broadcastInDim S204800x20 ![] bcast_S_S204800x20 main_cst
  let main_v2 : IVec S204800x20 1 := cmpf .olt main_v0 main_v1
  let main_c : IVec S_ 1 := constantI S_ 1 1#1
  let main_v3 : IVec S_ 1 := (fun x v => Host.reduce IntOp.andi x v reducesTo_S204800x20_S_d0_1 h_S_) main_v2 main_c
  let main_v4 : FVec F S204800x20 .f32 := Host.absf main_arg1
  let main_cst_0 : FVec F S_ .f32 := constant S_ .f32 0x7F800000#32
  let main_v5 : FVec F S204800x20 .f32 := broadcastInDim S204800x20 ![] bcast_S_S204800x20 main_cst_0
  let main_v6 : IVec S204800x20 1 := cmpf .olt main_v4 main_v5
  let main_c_1 : IVec S_ 1 := constantI S_ 1 1#1
  let main_v7 : IVec S_ 1 := (fun x v => Host.reduce IntOp.andi x v reducesTo_S204800x20_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg2 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 3550#32
  let main_v13 : IVec S2048 32 := broadcastInDim S2048 ![] bcast_S_S2048 main_c_4
  let main_v14 : IVec S2048 1 := cmpi .slt main_arg2 main_v13
  let main_c_5 : IVec S_ 1 := constantI S_ 1 1#1
  let main_v15 : IVec S_ 1 := (fun x v => Host.reduce IntOp.andi x v reducesTo_S2048_S_d0 h_S_) main_v14 main_c_5
  fn_part1 (F := F) main_arg4 main_arg6 main_v12 main_v15
-- ==== Kernel.lean ====
abbrev S204800x20 : Shape := ⟨2, ![204800, 20]⟩
abbrev S2048 : Shape := ⟨1, ![2048]⟩
abbrev S3551 : Shape := ⟨1, ![3551]⟩
abbrev S217264 : Shape := ⟨1, ![217264]⟩
abbrev S20001 : Shape := ⟨1, ![20001]⟩
abbrev S302235 : Shape := ⟨1, ![302235]⟩
abbrev S3550 : Shape := ⟨1, ![3550]⟩
abbrev S3550x1 : Shape := ⟨2, ![3550, 1]⟩
abbrev S3550x2 : Shape := ⟨2, ![3550, 2]⟩
abbrev S20000 : Shape := ⟨1, ![20000]⟩
abbrev S20000x1 : Shape := ⟨2, ![20000, 1]⟩
abbrev S20000x2 : Shape := ⟨2, ![20000, 2]⟩
abbrev S1x2048 : Shape := ⟨2, ![1, 2048]⟩
abbrev S100x2048 : Shape := ⟨2, ![100, 2048]⟩
abbrev S204800 : Shape := ⟨1, ![204800]⟩
abbrev S204800x1 : Shape := ⟨2, ![204800, 1]⟩
abbrev S_ : Shape := ⟨0, ![]⟩
abbrev S204800x2 : Shape := ⟨2, ![204800, 2]⟩
abbrev S1x204800 : Shape := ⟨2, ![1, 204800]⟩
abbrev S16x204800 : Shape := ⟨2, ![16, 204800]⟩
abbrev S5x204800 : Shape := ⟨2, ![5, 204800]⟩
abbrev S21x204800 : Shape := ⟨2, ![21, 204800]⟩
abbrev S20x204800 : Shape := ⟨2, ![20, 204800]⟩
abbrev S15x7x204800 : Shape := ⟨3, ![15, 7, 204800]⟩
abbrev S21x12800 : Shape := ⟨2, ![21, 12800]⟩
abbrev S20x12800 : Shape := ⟨2, ![20, 12800]⟩
abbrev S1x12800 : Shape := ⟨2, ![1, 12800]⟩
abbrev S15x7x12800 : Shape := ⟨3, ![15, 7, 12800]⟩
abbrev S7x12800 : Shape := ⟨2, ![7, 12800]⟩
abbrev S1x7x12800 : Shape := ⟨3, ![1, 7, 12800]⟩
abbrev S1x1x12800 : Shape := ⟨3, ![1, 1, 12800]⟩
abbrev S6x12800 : Shape := ⟨2, ![6, 12800]⟩
abbrev S1x6x12800 : Shape := ⟨3, ![1, 6, 12800]⟩
abbrev S15x204800x7 : Shape := ⟨3, ![15, 204800, 7]⟩
abbrev S3072000x7 : Shape := ⟨2, ![3072000, 7]⟩

abbrev nBuf : Space → Nat
  | .hbm => 1219
  | .vmem => 10
  | .smem => 0
  | _ => 0

abbrev hbmTy0_0 (i : Nat) : BufTy := match i % 128 with
  | 0 => ⟨S204800x20, .f32⟩
  | 1 => ⟨S204800x20, .f32⟩
  | 2 => ⟨S2048, .i32⟩
  | 3 => ⟨S3551, .i32⟩
  | 4 => ⟨S217264, .i32⟩
  | 5 => ⟨S20001, .i32⟩
  | 6 => ⟨S302235, .i32⟩
  | 7 => ⟨S3550, .i32⟩
  | 8 => ⟨S3550, .i32⟩
  | 9 => ⟨S3550, .i32⟩
  | 10 => ⟨S3550, .i32⟩
  | 11 => ⟨S3550x1, .i32⟩
  | 12 => ⟨S3550x1, .i32⟩
  | 13 => ⟨S3550x2, .i32⟩
  | 14 => ⟨S20000, .i32⟩
  | 15 => ⟨S20000, .i32⟩
  | 16 => ⟨S20000, .i32⟩
  | 17 => ⟨S20000, .i32⟩
  | 18 => ⟨S20000x1, .i32⟩
  | 19 => ⟨S20000x1, .i32⟩
  | 20 => ⟨S20000x2, .i32⟩
  | 21 => ⟨S1x2048, .i32⟩
  | 22 => ⟨S100x2048, .i32⟩
  | 23 => ⟨S204800, .i32⟩
  | 24 => ⟨S204800x1, .f32⟩
  | 25 => ⟨S204800, .f32⟩
  | 26 => ⟨S_, .i32⟩
  | 27 => ⟨S204800, .i32⟩
  | 28 => ⟨S204800, .i1⟩
  | 29 => ⟨S_, .i32⟩
  | 30 => ⟨S_, .i32⟩
  | 31 => ⟨S204800, .i32⟩
  | 32 => ⟨S204800, .i32⟩
  | 33 => ⟨S_, .i32⟩
  | 34 => ⟨S204800, .i32⟩
  | 35 => ⟨S204800, .i1⟩
  | 36 => ⟨S_, .i32⟩
  | 37 => ⟨S204800, .i32⟩
  | 38 => ⟨S204800, .i32⟩
  | 39 => ⟨S204800, .i32⟩
  | 40 => ⟨S204800x1, .i32⟩
  | 41 => ⟨S204800x2, .i32⟩
  | 42 => ⟨S204800x1, .i32⟩
  | 43 => ⟨S204800, .i32⟩
  | 44 => ⟨S204800x1, .i32⟩
  | 45 => ⟨S204800, .i32⟩
  | 46 => ⟨S_, .i32⟩
  | 47 => ⟨S_, .i32⟩
  | 48 => ⟨S204800, .i32⟩
  | 49 => ⟨S204800, .i32⟩
  | 50 => ⟨S_, .i32⟩
  | 51 => ⟨S204800, .i32⟩
  | 52 => ⟨S204800, .i1⟩
  | 53 => ⟨S_, .i32⟩
  | 54 => ⟨S_, .i32⟩
  | 55 => ⟨S204800, .i32⟩
  | 56 => ⟨S204800, .i32⟩
  | 57 => ⟨S204800, .f32⟩
  | 58 => ⟨S204800, .f32⟩
  | 59 => ⟨S204800, .i32⟩
  | 60 => ⟨S204800, .i32⟩
  | 61 => ⟨S_, .i32⟩
  | 62 => ⟨S_, .i32⟩
  | 63 => ⟨S_, .i32⟩
  | 64 => ⟨S204800, .i32⟩
  | 65 => ⟨S204800, .i32⟩
  | 66 => ⟨S_, .i32⟩
  | 67 => ⟨S204800, .i32⟩
  | 68 => ⟨S204800, .i32⟩
  | 69 => ⟨S_, .i32⟩
  | 70 => ⟨S204800, .i32⟩
  | 71 => ⟨S204800, .i1⟩
  | 72 => ⟨S_, .i32⟩
  | 73 => ⟨S204800, .i32⟩
  | 74 => ⟨S204800, .i32⟩
  | 75 => ⟨S204800, .i32⟩
  | 76 => ⟨S204800x1, .i32⟩
  | 77 => ⟨S204800, .i32⟩
  | 78 => ⟨S_, .i32⟩
  | 79 => ⟨S_, .i32⟩
  | 80 => ⟨S204800, .i32⟩
  | 81 => ⟨S204800, .i32⟩
  | 82 => ⟨S204800x1, .f32⟩
  | 83 => ⟨S204800, .f32⟩
  | 84 => ⟨S_, .i32⟩
  | 85 => ⟨S204800, .i32⟩
  | 86 => ⟨S204800, .i1⟩
  | 87 => ⟨S_, .i32⟩
  | 88 => ⟨S_, .i32⟩
  | 89 => ⟨S204800, .i32⟩
  | 90 => ⟨S204800, .i32⟩
  | 91 => ⟨S_, .i32⟩
  | 92 => ⟨S204800, .i32⟩
  | 93 => ⟨S204800, .i1⟩
  | 94 => ⟨S_, .i32⟩
  | 95 => ⟨S204800, .i32⟩
  | 96 => ⟨S204800, .i32⟩
  | 97 => ⟨S204800, .i32⟩
  | 98 => ⟨S204800x1, .i32⟩
  | 99 => ⟨S204800x2, .i32⟩
  | 100 => ⟨S204800x1, .i32⟩
  | 101 => ⟨S204800, .i32⟩
  | 102 => ⟨S204800x1, .i32⟩
  | 103 => ⟨S204800, .i32⟩
  | 104 => ⟨S_, .i32⟩
  | 105 => ⟨S_, .i32⟩
  | 106 => ⟨S204800, .i32⟩
  | 107 => ⟨S204800, .i32⟩
  | 108 => ⟨S_, .i32⟩
  | 109 => ⟨S204800, .i32⟩
  | 110 => ⟨S204800, .i1⟩
  | 111 => ⟨S_, .i32⟩
  | 112 => ⟨S_, .i32⟩
  | 113 => ⟨S204800, .i32⟩
  | 114 => ⟨S204800, .i32⟩
  | 115 => ⟨S204800, .f32⟩
  | 116 => ⟨S204800, .f32⟩
  | 117 => ⟨S204800, .i32⟩
  | 118 => ⟨S204800, .i32⟩
  | 119 => ⟨S_, .i32⟩
  | 120 => ⟨S_, .i32⟩
  | 121 => ⟨S_, .i32⟩
  | 122 => ⟨S204800, .i32⟩
  | 123 => ⟨S204800, .i32⟩
  | 124 => ⟨S_, .i32⟩
  | 125 => ⟨S204800, .i32⟩
  | 126 => ⟨S204800, .i32⟩
  | 127 => ⟨S_, .i32⟩
  | _ => ⟨S204800x20, .f32⟩

abbrev hbmTy0_1 (i : Nat) : BufTy := match i % 128 with
  | 0 => ⟨S204800, .i32⟩
  | 1 => ⟨S204800, .i1⟩
  | 2 => ⟨S_, .i32⟩
  | 3 => ⟨S204800, .i32⟩
  | 4 => ⟨S204800, .i32⟩
  | 5 => ⟨S204800, .i32⟩
  | 6 => ⟨S204800x1, .i32⟩
  | 7 => ⟨S204800, .i32⟩
  | 8 => ⟨S_, .i32⟩
  | 9 => ⟨S_, .i32⟩
  | 10 => ⟨S204800, .i32⟩
  | 11 => ⟨S204800, .i32⟩
  | 12 => ⟨S204800x1, .f32⟩
  | 13 => ⟨S204800, .f32⟩
  | 14 => ⟨S_, .i32⟩
  | 15 => ⟨S204800, .i32⟩
  | 16 => ⟨S204800, .i1⟩
  | 17 => ⟨S_, .i32⟩
  | 18 => ⟨S_, .i32⟩
  | 19 => ⟨S204800, .i32⟩
  | 20 => ⟨S204800, .i32⟩
  | 21 => ⟨S_, .i32⟩
  | 22 => ⟨S204800, .i32⟩
  | 23 => ⟨S204800, .i1⟩
  | 24 => ⟨S_, .i32⟩
  | 25 => ⟨S204800, .i32⟩
  | 26 => ⟨S204800, .i32⟩
  | 27 => ⟨S204800, .i32⟩
  | 28 => ⟨S204800x1, .i32⟩
  | 29 => ⟨S204800x2, .i32⟩
  | 30 => ⟨S204800x1, .i32⟩
  | 31 => ⟨S204800, .i32⟩
  | 32 => ⟨S204800x1, .i32⟩
  | 33 => ⟨S204800, .i32⟩
  | 34 => ⟨S_, .i32⟩
  | 35 => ⟨S_, .i32⟩
  | 36 => ⟨S204800, .i32⟩
  | 37 => ⟨S204800, .i32⟩
  | 38 => ⟨S_, .i32⟩
  | 39 => ⟨S204800, .i32⟩
  | 40 => ⟨S204800, .i1⟩
  | 41 => ⟨S_, .i32⟩
  | 42 => ⟨S_, .i32⟩
  | 43 => ⟨S204800, .i32⟩
  | 44 => ⟨S204800, .i32⟩
  | 45 => ⟨S204800, .f32⟩
  | 46 => ⟨S204800, .f32⟩
  | 47 => ⟨S204800, .i32⟩
  | 48 => ⟨S204800, .i32⟩
  | 49 => ⟨S_, .i32⟩
  | 50 => ⟨S_, .i32⟩
  | 51 => ⟨S_, .i32⟩
  | 52 => ⟨S204800, .i32⟩
  | 53 => ⟨S204800, .i32⟩
  | 54 => ⟨S_, .i32⟩
  | 55 => ⟨S204800, .i32⟩
  | 56 => ⟨S204800, .i32⟩
  | 57 => ⟨S_, .i32⟩
  | 58 => ⟨S204800, .i32⟩
  | 59 => ⟨S204800, .i1⟩
  | 60 => ⟨S_, .i32⟩
  | 61 => ⟨S204800, .i32⟩
  | 62 => ⟨S204800, .i32⟩
  | 63 => ⟨S204800, .i32⟩
  | 64 => ⟨S204800x1, .i32⟩
  | 65 => ⟨S204800, .i32⟩
  | 66 => ⟨S_, .i32⟩
  | 67 => ⟨S_, .i32⟩
  | 68 => ⟨S204800, .i32⟩
  | 69 => ⟨S204800, .i32⟩
  | 70 => ⟨S204800x1, .f32⟩
  | 71 => ⟨S204800, .f32⟩
  | 72 => ⟨S_, .i32⟩
  | 73 => ⟨S204800, .i32⟩
  | 74 => ⟨S204800, .i1⟩
  | 75 => ⟨S_, .i32⟩
  | 76 => ⟨S_, .i32⟩
  | 77 => ⟨S204800, .i32⟩
  | 78 => ⟨S204800, .i32⟩
  | 79 => ⟨S_, .i32⟩
  | 80 => ⟨S204800, .i32⟩
  | 81 => ⟨S204800, .i1⟩
  | 82 => ⟨S_, .i32⟩
  | 83 => ⟨S204800, .i32⟩
  | 84 => ⟨S204800, .i32⟩
  | 85 => ⟨S204800, .i32⟩
  | 86 => ⟨S204800x1, .i32⟩
  | 87 => ⟨S204800x2, .i32⟩
  | 88 => ⟨S204800x1, .i32⟩
  | 89 => ⟨S204800, .i32⟩
  | 90 => ⟨S204800x1, .i32⟩
  | 91 => ⟨S204800, .i32⟩
  | 92 => ⟨S_, .i32⟩
  | 93 => ⟨S_, .i32⟩
  | 94 => ⟨S204800, .i32⟩
  | 95 => ⟨S204800, .i32⟩
  | 96 => ⟨S_, .i32⟩
  | 97 => ⟨S204800, .i32⟩
  | 98 => ⟨S204800, .i1⟩
  | 99 => ⟨S_, .i32⟩
  | 100 => ⟨S_, .i32⟩
  | 101 => ⟨S204800, .i32⟩
  | 102 => ⟨S204800, .i32⟩
  | 103 => ⟨S204800, .f32⟩
  | 104 => ⟨S204800, .f32⟩
  | 105 => ⟨S204800, .i32⟩
  | 106 => ⟨S204800, .i32⟩
  | 107 => ⟨S_, .i32⟩
  | 108 => ⟨S_, .i32⟩
  | 109 => ⟨S_, .i32⟩
  | 110 => ⟨S204800, .i32⟩
  | 111 => ⟨S204800, .i32⟩
  | 112 => ⟨S_, .i32⟩
  | 113 => ⟨S204800, .i32⟩
  | 114 => ⟨S204800, .i32⟩
  | 115 => ⟨S_, .i32⟩
  | 116 => ⟨S204800, .i32⟩
  | 117 => ⟨S204800, .i1⟩
  | 118 => ⟨S_, .i32⟩
  | 119 => ⟨S204800, .i32⟩
  | 120 => ⟨S204800, .i32⟩
  | 121 => ⟨S204800, .i32⟩
  | 122 => ⟨S204800x1, .i32⟩
  | 123 => ⟨S204800, .i32⟩
  | 124 => ⟨S_, .i32⟩
  | 125 => ⟨S_, .i32⟩
  | 126 => ⟨S204800, .i32⟩
  | 127 => ⟨S204800, .i32⟩
  | _ => ⟨S204800x20, .f32⟩

abbrev hbmTy0_2 (i : Nat) : BufTy := match i % 128 with
  | 0 => ⟨S204800x1, .f32⟩
  | 1 => ⟨S204800, .f32⟩
  | 2 => ⟨S_, .i32⟩
  | 3 => ⟨S204800, .i32⟩
  | 4 => ⟨S204800, .i1⟩
  | 5 => ⟨S_, .i32⟩
  | 6 => ⟨S_, .i32⟩
  | 7 => ⟨S204800, .i32⟩
  | 8 => ⟨S204800, .i32⟩
  | 9 => ⟨S_, .i32⟩
  | 10 => ⟨S204800, .i32⟩
  | 11 => ⟨S204800, .i1⟩
  | 12 => ⟨S_, .i32⟩
  | 13 => ⟨S204800, .i32⟩
  | 14 => ⟨S204800, .i32⟩
  | 15 => ⟨S204800, .i32⟩
  | 16 => ⟨S204800x1, .i32⟩
  | 17 => ⟨S204800x2, .i32⟩
  | 18 => ⟨S204800x1, .i32⟩
  | 19 => ⟨S204800, .i32⟩
  | 20 => ⟨S204800x1, .i32⟩
  | 21 => ⟨S204800, .i32⟩
  | 22 => ⟨S_, .i32⟩
  | 23 => ⟨S_, .i32⟩
  | 24 => ⟨S204800, .i32⟩
  | 25 => ⟨S204800, .i32⟩
  | 26 => ⟨S_, .i32⟩
  | 27 => ⟨S204800, .i32⟩
  | 28 => ⟨S204800, .i1⟩
  | 29 => ⟨S_, .i32⟩
  | 30 => ⟨S_, .i32⟩
  | 31 => ⟨S204800, .i32⟩
  | 32 => ⟨S204800, .i32⟩
  | 33 => ⟨S204800, .f32⟩
  | 34 => ⟨S204800, .f32⟩
  | 35 => ⟨S204800, .i32⟩
  | 36 => ⟨S204800, .i32⟩
  | 37 => ⟨S_, .i32⟩
  | 38 => ⟨S_, .i32⟩
  | 39 => ⟨S_, .i32⟩
  | 40 => ⟨S204800, .i32⟩
  | 41 => ⟨S204800, .i32⟩
  | 42 => ⟨S_, .i32⟩
  | 43 => ⟨S204800, .i32⟩
  | 44 => ⟨S204800, .i32⟩
  | 45 => ⟨S_, .i32⟩
  | 46 => ⟨S204800, .i32⟩
  | 47 => ⟨S204800, .i1⟩
  | 48 => ⟨S_, .i32⟩
  | 49 => ⟨S204800, .i32⟩
  | 50 => ⟨S204800, .i32⟩
  | 51 => ⟨S204800, .i32⟩
  | 52 => ⟨S204800x1, .i32⟩
  | 53 => ⟨S204800, .i32⟩
  | 54 => ⟨S_, .i32⟩
  | 55 => ⟨S_, .i32⟩
  | 56 => ⟨S204800, .i32⟩
  | 57 => ⟨S204800, .i32⟩
  | 58 => ⟨S204800x1, .f32⟩
  | 59 => ⟨S204800, .f32⟩
  | 60 => ⟨S_, .i32⟩
  | 61 => ⟨S204800, .i32⟩
  | 62 => ⟨S204800, .i1⟩
  | 63 => ⟨S_, .i32⟩
  | 64 => ⟨S_, .i32⟩
  | 65 => ⟨S204800, .i32⟩
  | 66 => ⟨S204800, .i32⟩
  | 67 => ⟨S_, .i32⟩
  | 68 => ⟨S204800, .i32⟩
  | 69 => ⟨S204800, .i1⟩
  | 70 => ⟨S_, .i32⟩
  | 71 => ⟨S204800, .i32⟩
  | 72 => ⟨S204800, .i32⟩
  | 73 => ⟨S204800, .i32⟩
  | 74 => ⟨S204800x1, .i32⟩
  | 75 => ⟨S204800x2, .i32⟩
  | 76 => ⟨S204800x1, .i32⟩
  | 77 => ⟨S204800, .i32⟩
  | 78 => ⟨S204800x1, .i32⟩
  | 79 => ⟨S204800, .i32⟩
  | 80 => ⟨S_, .i32⟩
  | 81 => ⟨S_, .i32⟩
  | 82 => ⟨S204800, .i32⟩
  | 83 => ⟨S204800, .i32⟩
  | 84 => ⟨S_, .i32⟩
  | 85 => ⟨S204800, .i32⟩
  | 86 => ⟨S204800, .i1⟩
  | 87 => ⟨S_, .i32⟩
  | 88 => ⟨S_, .i32⟩
  | 89 => ⟨S204800, .i32⟩
  | 90 => ⟨S204800, .i32⟩
  | 91 => ⟨S204800, .f32⟩
  | 92 => ⟨S204800, .f32⟩
  | 93 => ⟨S204800, .i32⟩
  | 94 => ⟨S204800, .i32⟩
  | 95 => ⟨S_, .i32⟩
  | 96 => ⟨S_, .i32⟩
  | 97 => ⟨S_, .i32⟩
  | 98 => ⟨S204800, .i32⟩
  | 99 => ⟨S204800, .i32⟩
  | 100 => ⟨S_, .i32⟩
  | 101 => ⟨S204800, .i32⟩
  | 102 => ⟨S204800, .i32⟩
  | 103 => ⟨S_, .i32⟩
  | 104 => ⟨S204800, .i32⟩
  | 105 => ⟨S204800, .i1⟩
  | 106 => ⟨S_, .i32⟩
  | 107 => ⟨S204800, .i32⟩
  | 108 => ⟨S204800, .i32⟩
  | 109 => ⟨S204800, .i32⟩
  | 110 => ⟨S204800x1, .i32⟩
  | 111 => ⟨S204800, .i32⟩
  | 112 => ⟨S_, .i32⟩
  | 113 => ⟨S_, .i32⟩
  | 114 => ⟨S204800, .i32⟩
  | 115 => ⟨S204800, .i32⟩
  | 116 => ⟨S204800x1, .f32⟩
  | 117 => ⟨S204800, .f32⟩
  | 118 => ⟨S_, .i32⟩
  | 119 => ⟨S204800, .i32⟩
  | 120 => ⟨S204800, .i1⟩
  | 121 => ⟨S_, .i32⟩
  | 122 => ⟨S_, .i32⟩
  | 123 => ⟨S204800, .i32⟩
  | 124 => ⟨S204800, .i32⟩
  | 125 => ⟨S_, .i32⟩
  | 126 => ⟨S204800, .i32⟩
  | 127 => ⟨S204800, .i1⟩
  | _ => ⟨S204800x20, .f32⟩

abbrev hbmTy0_3 (i : Nat) : BufTy := match i % 128 with
  | 0 => ⟨S_, .i32⟩
  | 1 => ⟨S204800, .i32⟩
  | 2 => ⟨S204800, .i32⟩
  | 3 => ⟨S204800, .i32⟩
  | 4 => ⟨S204800x1, .i32⟩
  | 5 => ⟨S204800x2, .i32⟩
  | 6 => ⟨S204800x1, .i32⟩
  | 7 => ⟨S204800, .i32⟩
  | 8 => ⟨S204800x1, .i32⟩
  | 9 => ⟨S204800, .i32⟩
  | 10 => ⟨S_, .i32⟩
  | 11 => ⟨S_, .i32⟩
  | 12 => ⟨S204800, .i32⟩
  | 13 => ⟨S204800, .i32⟩
  | 14 => ⟨S_, .i32⟩
  | 15 => ⟨S204800, .i32⟩
  | 16 => ⟨S204800, .i1⟩
  | 17 => ⟨S_, .i32⟩
  | 18 => ⟨S_, .i32⟩
  | 19 => ⟨S204800, .i32⟩
  | 20 => ⟨S204800, .i32⟩
  | 21 => ⟨S204800, .f32⟩
  | 22 => ⟨S204800, .f32⟩
  | 23 => ⟨S204800, .i32⟩
  | 24 => ⟨S204800, .i32⟩
  | 25 => ⟨S_, .i32⟩
  | 26 => ⟨S_, .i32⟩
  | 27 => ⟨S_, .i32⟩
  | 28 => ⟨S204800, .i32⟩
  | 29 => ⟨S204800, .i32⟩
  | 30 => ⟨S_, .i32⟩
  | 31 => ⟨S204800, .i32⟩
  | 32 => ⟨S204800, .i32⟩
  | 33 => ⟨S_, .i32⟩
  | 34 => ⟨S204800, .i32⟩
  | 35 => ⟨S204800, .i1⟩
  | 36 => ⟨S_, .i32⟩
  | 37 => ⟨S204800, .i32⟩
  | 38 => ⟨S204800, .i32⟩
  | 39 => ⟨S204800, .i32⟩
  | 40 => ⟨S204800x1, .i32⟩
  | 41 => ⟨S204800, .i32⟩
  | 42 => ⟨S_, .i32⟩
  | 43 => ⟨S_, .i32⟩
  | 44 => ⟨S204800, .i32⟩
  | 45 => ⟨S204800, .i32⟩
  | 46 => ⟨S204800x1, .f32⟩
  | 47 => ⟨S204800, .f32⟩
  | 48 => ⟨S_, .i32⟩
  | 49 => ⟨S204800, .i32⟩
  | 50 => ⟨S204800, .i1⟩
  | 51 => ⟨S_, .i32⟩
  | 52 => ⟨S_, .i32⟩
  | 53 => ⟨S204800, .i32⟩
  | 54 => ⟨S204800, .i32⟩
  | 55 => ⟨S_, .i32⟩
  | 56 => ⟨S204800, .i32⟩
  | 57 => ⟨S204800, .i1⟩
  | 58 => ⟨S_, .i32⟩
  | 59 => ⟨S204800, .i32⟩
  | 60 => ⟨S204800, .i32⟩
  | 61 => ⟨S204800, .i32⟩
  | 62 => ⟨S204800x1, .i32⟩
  | 63 => ⟨S204800x2, .i32⟩
  | 64 => ⟨S204800x1, .i32⟩
  | 65 => ⟨S204800, .i32⟩
  | 66 => ⟨S204800x1, .i32⟩
  | 67 => ⟨S204800, .i32⟩
  | 68 => ⟨S_, .i32⟩
  | 69 => ⟨S_, .i32⟩
  | 70 => ⟨S204800, .i32⟩
  | 71 => ⟨S204800, .i32⟩
  | 72 => ⟨S_, .i32⟩
  | 73 => ⟨S204800, .i32⟩
  | 74 => ⟨S204800, .i1⟩
  | 75 => ⟨S_, .i32⟩
  | 76 => ⟨S_, .i32⟩
  | 77 => ⟨S204800, .i32⟩
  | 78 => ⟨S204800, .i32⟩
  | 79 => ⟨S204800, .f32⟩
  | 80 => ⟨S204800, .f32⟩
  | 81 => ⟨S204800, .i32⟩
  | 82 => ⟨S204800, .i32⟩
  | 83 => ⟨S_, .i32⟩
  | 84 => ⟨S_, .i32⟩
  | 85 => ⟨S_, .i32⟩
  | 86 => ⟨S204800, .i32⟩
  | 87 => ⟨S204800, .i32⟩
  | 88 => ⟨S_, .i32⟩
  | 89 => ⟨S204800, .i32⟩
  | 90 => ⟨S204800, .i32⟩
  | 91 => ⟨S_, .i32⟩
  | 92 => ⟨S204800, .i32⟩
  | 93 => ⟨S204800, .i1⟩
  | 94 => ⟨S_, .i32⟩
  | 95 => ⟨S204800, .i32⟩
  | 96 => ⟨S204800, .i32⟩
  | 97 => ⟨S204800, .i32⟩
  | 98 => ⟨S204800x1, .i32⟩
  | 99 => ⟨S204800, .i32⟩
  | 100 => ⟨S_, .i32⟩
  | 101 => ⟨S_, .i32⟩
  | 102 => ⟨S204800, .i32⟩
  | 103 => ⟨S204800, .i32⟩
  | 104 => ⟨S204800x1, .f32⟩
  | 105 => ⟨S204800, .f32⟩
  | 106 => ⟨S_, .i32⟩
  | 107 => ⟨S204800, .i32⟩
  | 108 => ⟨S204800, .i1⟩
  | 109 => ⟨S_, .i32⟩
  | 110 => ⟨S_, .i32⟩
  | 111 => ⟨S204800, .i32⟩
  | 112 => ⟨S204800, .i32⟩
  | 113 => ⟨S_, .i32⟩
  | 114 => ⟨S204800, .i32⟩
  | 115 => ⟨S204800, .i1⟩
  | 116 => ⟨S_, .i32⟩
  | 117 => ⟨S204800, .i32⟩
  | 118 => ⟨S204800, .i32⟩
  | 119 => ⟨S204800, .i32⟩
  | 120 => ⟨S204800x1, .i32⟩
  | 121 => ⟨S204800x2, .i32⟩
  | 122 => ⟨S204800x1, .i32⟩
  | 123 => ⟨S204800, .i32⟩
  | 124 => ⟨S204800x1, .i32⟩
  | 125 => ⟨S204800, .i32⟩
  | 126 => ⟨S_, .i32⟩
  | 127 => ⟨S_, .i32⟩
  | _ => ⟨S204800x20, .f32⟩

abbrev hbmTy0_4 (i : Nat) : BufTy := match i % 128 with
  | 0 => ⟨S204800, .i32⟩
  | 1 => ⟨S204800, .i32⟩
  | 2 => ⟨S_, .i32⟩
  | 3 => ⟨S204800, .i32⟩
  | 4 => ⟨S204800, .i1⟩
  | 5 => ⟨S_, .i32⟩
  | 6 => ⟨S_, .i32⟩
  | 7 => ⟨S204800, .i32⟩
  | 8 => ⟨S204800, .i32⟩
  | 9 => ⟨S204800, .f32⟩
  | 10 => ⟨S204800, .f32⟩
  | 11 => ⟨S204800, .i32⟩
  | 12 => ⟨S204800, .i32⟩
  | 13 => ⟨S_, .i32⟩
  | 14 => ⟨S_, .i32⟩
  | 15 => ⟨S_, .i32⟩
  | 16 => ⟨S204800, .i32⟩
  | 17 => ⟨S204800, .i32⟩
  | 18 => ⟨S_, .i32⟩
  | 19 => ⟨S204800, .i32⟩
  | 20 => ⟨S204800, .i32⟩
  | 21 => ⟨S_, .i32⟩
  | 22 => ⟨S204800, .i32⟩
  | 23 => ⟨S204800, .i1⟩
  | 24 => ⟨S_, .i32⟩
  | 25 => ⟨S204800, .i32⟩
  | 26 => ⟨S204800, .i32⟩
  | 27 => ⟨S204800, .i32⟩
  | 28 => ⟨S204800x1, .i32⟩
  | 29 => ⟨S204800, .i32⟩
  | 30 => ⟨S_, .i32⟩
  | 31 => ⟨S_, .i32⟩
  | 32 => ⟨S204800, .i32⟩
  | 33 => ⟨S204800, .i32⟩
  | 34 => ⟨S204800x1, .f32⟩
  | 35 => ⟨S204800, .f32⟩
  | 36 => ⟨S_, .i32⟩
  | 37 => ⟨S204800, .i32⟩
  | 38 => ⟨S204800, .i1⟩
  | 39 => ⟨S_, .i32⟩
  | 40 => ⟨S_, .i32⟩
  | 41 => ⟨S204800, .i32⟩
  | 42 => ⟨S204800, .i32⟩
  | 43 => ⟨S_, .i32⟩
  | 44 => ⟨S204800, .i32⟩
  | 45 => ⟨S204800, .i1⟩
  | 46 => ⟨S_, .i32⟩
  | 47 => ⟨S204800, .i32⟩
  | 48 => ⟨S204800, .i32⟩
  | 49 => ⟨S204800, .i32⟩
  | 50 => ⟨S204800x1, .i32⟩
  | 51 => ⟨S204800x2, .i32⟩
  | 52 => ⟨S204800x1, .i32⟩
  | 53 => ⟨S204800, .i32⟩
  | 54 => ⟨S204800x1, .i32⟩
  | 55 => ⟨S204800, .i32⟩
  | 56 => ⟨S_, .i32⟩
  | 57 => ⟨S_, .i32⟩
  | 58 => ⟨S204800, .i32⟩
  | 59 => ⟨S204800, .i32⟩
  | 60 => ⟨S_, .i32⟩
  | 61 => ⟨S204800, .i32⟩
  | 62 => ⟨S204800, .i1⟩
  | 63 => ⟨S_, .i32⟩
  | 64 => ⟨S_, .i32⟩
  | 65 => ⟨S204800, .i32⟩
  | 66 => ⟨S204800, .i32⟩
  | 67 => ⟨S204800, .f32⟩
  | 68 => ⟨S204800, .f32⟩
  | 69 => ⟨S204800, .i32⟩
  | 70 => ⟨S204800, .i32⟩
  | 71 => ⟨S_, .i32⟩
  | 72 => ⟨S_, .i32⟩
  | 73 => ⟨S_, .i32⟩
  | 74 => ⟨S204800, .i32⟩
  | 75 => ⟨S204800, .i32⟩
  | 76 => ⟨S_, .i32⟩
  | 77 => ⟨S204800, .i32⟩
  | 78 => ⟨S204800, .i32⟩
  | 79 => ⟨S_, .i32⟩
  | 80 => ⟨S204800, .i32⟩
  | 81 => ⟨S204800, .i1⟩
  | 82 => ⟨S_, .i32⟩
  | 83 => ⟨S204800, .i32⟩
  | 84 => ⟨S204800, .i32⟩
  | 85 => ⟨S204800, .i32⟩
  | 86 => ⟨S204800x1, .i32⟩
  | 87 => ⟨S204800, .i32⟩
  | 88 => ⟨S_, .i32⟩
  | 89 => ⟨S_, .i32⟩
  | 90 => ⟨S204800, .i32⟩
  | 91 => ⟨S204800, .i32⟩
  | 92 => ⟨S204800x1, .f32⟩
  | 93 => ⟨S204800, .f32⟩
  | 94 => ⟨S_, .i32⟩
  | 95 => ⟨S204800, .i32⟩
  | 96 => ⟨S204800, .i1⟩
  | 97 => ⟨S_, .i32⟩
  | 98 => ⟨S_, .i32⟩
  | 99 => ⟨S204800, .i32⟩
  | 100 => ⟨S204800, .i32⟩
  | 101 => ⟨S_, .i32⟩
  | 102 => ⟨S204800, .i32⟩
  | 103 => ⟨S204800, .i1⟩
  | 104 => ⟨S_, .i32⟩
  | 105 => ⟨S204800, .i32⟩
  | 106 => ⟨S204800, .i32⟩
  | 107 => ⟨S204800, .i32⟩
  | 108 => ⟨S204800x1, .i32⟩
  | 109 => ⟨S204800x2, .i32⟩
  | 110 => ⟨S204800x1, .i32⟩
  | 111 => ⟨S204800, .i32⟩
  | 112 => ⟨S204800x1, .i32⟩
  | 113 => ⟨S204800, .i32⟩
  | 114 => ⟨S_, .i32⟩
  | 115 => ⟨S_, .i32⟩
  | 116 => ⟨S204800, .i32⟩
  | 117 => ⟨S204800, .i32⟩
  | 118 => ⟨S_, .i32⟩
  | 119 => ⟨S204800, .i32⟩
  | 120 => ⟨S204800, .i1⟩
  | 121 => ⟨S_, .i32⟩
  | 122 => ⟨S_, .i32⟩
  | 123 => ⟨S204800, .i32⟩
  | 124 => ⟨S204800, .i32⟩
  | 125 => ⟨S204800, .f32⟩
  | 126 => ⟨S204800, .f32⟩
  | 127 => ⟨S204800, .i32⟩
  | _ => ⟨S204800x20, .f32⟩

abbrev hbmTy0_5 (i : Nat) : BufTy := match i % 128 with
  | 0 => ⟨S204800, .i32⟩
  | 1 => ⟨S_, .i32⟩
  | 2 => ⟨S_, .i32⟩
  | 3 => ⟨S_, .i32⟩
  | 4 => ⟨S204800, .i32⟩
  | 5 => ⟨S204800, .i32⟩
  | 6 => ⟨S_, .i32⟩
  | 7 => ⟨S204800, .i32⟩
  | 8 => ⟨S204800, .i32⟩
  | 9 => ⟨S_, .i32⟩
  | 10 => ⟨S204800, .i32⟩
  | 11 => ⟨S204800, .i1⟩
  | 12 => ⟨S_, .i32⟩
  | 13 => ⟨S204800, .i32⟩
  | 14 => ⟨S204800, .i32⟩
  | 15 => ⟨S204800, .i32⟩
  | 16 => ⟨S204800x1, .i32⟩
  | 17 => ⟨S204800, .i32⟩
  | 18 => ⟨S_, .i32⟩
  | 19 => ⟨S_, .i32⟩
  | 20 => ⟨S204800, .i32⟩
  | 21 => ⟨S204800, .i32⟩
  | 22 => ⟨S204800x1, .f32⟩
  | 23 => ⟨S204800, .f32⟩
  | 24 => ⟨S_, .i32⟩
  | 25 => ⟨S204800, .i32⟩
  | 26 => ⟨S204800, .i1⟩
  | 27 => ⟨S_, .i32⟩
  | 28 => ⟨S_, .i32⟩
  | 29 => ⟨S204800, .i32⟩
  | 30 => ⟨S204800, .i32⟩
  | 31 => ⟨S_, .i32⟩
  | 32 => ⟨S204800, .i32⟩
  | 33 => ⟨S204800, .i1⟩
  | 34 => ⟨S_, .i32⟩
  | 35 => ⟨S204800, .i32⟩
  | 36 => ⟨S204800, .i32⟩
  | 37 => ⟨S204800, .i32⟩
  | 38 => ⟨S204800x1, .i32⟩
  | 39 => ⟨S204800x2, .i32⟩
  | 40 => ⟨S204800x1, .i32⟩
  | 41 => ⟨S204800, .i32⟩
  | 42 => ⟨S204800x1, .i32⟩
  | 43 => ⟨S204800, .i32⟩
  | 44 => ⟨S_, .i32⟩
  | 45 => ⟨S_, .i32⟩
  | 46 => ⟨S204800, .i32⟩
  | 47 => ⟨S204800, .i32⟩
  | 48 => ⟨S_, .i32⟩
  | 49 => ⟨S204800, .i32⟩
  | 50 => ⟨S204800, .i1⟩
  | 51 => ⟨S_, .i32⟩
  | 52 => ⟨S_, .i32⟩
  | 53 => ⟨S204800, .i32⟩
  | 54 => ⟨S204800, .i32⟩
  | 55 => ⟨S204800, .f32⟩
  | 56 => ⟨S204800, .f32⟩
  | 57 => ⟨S204800, .i32⟩
  | 58 => ⟨S204800, .i32⟩
  | 59 => ⟨S_, .i32⟩
  | 60 => ⟨S_, .i32⟩
  | 61 => ⟨S_, .i32⟩
  | 62 => ⟨S204800, .i32⟩
  | 63 => ⟨S204800, .i32⟩
  | 64 => ⟨S_, .i32⟩
  | 65 => ⟨S204800, .i32⟩
  | 66 => ⟨S204800, .i32⟩
  | 67 => ⟨S_, .i32⟩
  | 68 => ⟨S204800, .i32⟩
  | 69 => ⟨S204800, .i1⟩
  | 70 => ⟨S_, .i32⟩
  | 71 => ⟨S204800, .i32⟩
  | 72 => ⟨S204800, .i32⟩
  | 73 => ⟨S204800, .i32⟩
  | 74 => ⟨S204800x1, .i32⟩
  | 75 => ⟨S204800, .i32⟩
  | 76 => ⟨S_, .i32⟩
  | 77 => ⟨S_, .i32⟩
  | 78 => ⟨S204800, .i32⟩
  | 79 => ⟨S204800, .i32⟩
  | 80 => ⟨S204800x1, .f32⟩
  | 81 => ⟨S204800, .f32⟩
  | 82 => ⟨S_, .i32⟩
  | 83 => ⟨S204800, .i32⟩
  | 84 => ⟨S204800, .i1⟩
  | 85 => ⟨S_, .i32⟩
  | 86 => ⟨S_, .i32⟩
  | 87 => ⟨S204800, .i32⟩
  | 88 => ⟨S204800, .i32⟩
  | 89 => ⟨S_, .i32⟩
  | 90 => ⟨S204800, .i32⟩
  | 91 => ⟨S204800, .i1⟩
  | 92 => ⟨S_, .i32⟩
  | 93 => ⟨S204800, .i32⟩
  | 94 => ⟨S204800, .i32⟩
  | 95 => ⟨S204800, .i32⟩
  | 96 => ⟨S204800x1, .i32⟩
  | 97 => ⟨S204800x2, .i32⟩
  | 98 => ⟨S204800x1, .i32⟩
  | 99 => ⟨S204800, .i32⟩
  | 100 => ⟨S204800x1, .i32⟩
  | 101 => ⟨S204800, .i32⟩
  | 102 => ⟨S_, .i32⟩
  | 103 => ⟨S_, .i32⟩
  | 104 => ⟨S204800, .i32⟩
  | 105 => ⟨S204800, .i32⟩
  | 106 => ⟨S_, .i32⟩
  | 107 => ⟨S204800, .i32⟩
  | 108 => ⟨S204800, .i1⟩
  | 109 => ⟨S_, .i32⟩
  | 110 => ⟨S_, .i32⟩
  | 111 => ⟨S204800, .i32⟩
  | 112 => ⟨S204800, .i32⟩
  | 113 => ⟨S204800, .f32⟩
  | 114 => ⟨S204800, .f32⟩
  | 115 => ⟨S204800, .i32⟩
  | 116 => ⟨S204800, .i32⟩
  | 117 => ⟨S_, .i32⟩
  | 118 => ⟨S_, .i32⟩
  | 119 => ⟨S_, .i32⟩
  | 120 => ⟨S204800, .i32⟩
  | 121 => ⟨S204800, .i32⟩
  | 122 => ⟨S_, .i32⟩
  | 123 => ⟨S204800, .i32⟩
  | 124 => ⟨S204800, .i32⟩
  | 125 => ⟨S_, .i32⟩
  | 126 => ⟨S204800, .i32⟩
  | 127 => ⟨S204800, .i1⟩
  | _ => ⟨S204800x20, .f32⟩

abbrev hbmTy0_6 (i : Nat) : BufTy := match i % 128 with
  | 0 => ⟨S_, .i32⟩
  | 1 => ⟨S204800, .i32⟩
  | 2 => ⟨S204800, .i32⟩
  | 3 => ⟨S204800, .i32⟩
  | 4 => ⟨S204800x1, .i32⟩
  | 5 => ⟨S204800, .i32⟩
  | 6 => ⟨S_, .i32⟩
  | 7 => ⟨S_, .i32⟩
  | 8 => ⟨S204800, .i32⟩
  | 9 => ⟨S204800, .i32⟩
  | 10 => ⟨S204800x1, .f32⟩
  | 11 => ⟨S204800, .f32⟩
  | 12 => ⟨S_, .i32⟩
  | 13 => ⟨S204800, .i32⟩
  | 14 => ⟨S204800, .i1⟩
  | 15 => ⟨S_, .i32⟩
  | 16 => ⟨S_, .i32⟩
  | 17 => ⟨S204800, .i32⟩
  | 18 => ⟨S204800, .i32⟩
  | 19 => ⟨S_, .i32⟩
  | 20 => ⟨S204800, .i32⟩
  | 21 => ⟨S204800, .i1⟩
  | 22 => ⟨S_, .i32⟩
  | 23 => ⟨S204800, .i32⟩
  | 24 => ⟨S204800, .i32⟩
  | 25 => ⟨S204800, .i32⟩
  | 26 => ⟨S204800x1, .i32⟩
  | 27 => ⟨S204800x2, .i32⟩
  | 28 => ⟨S204800x1, .i32⟩
  | 29 => ⟨S204800, .i32⟩
  | 30 => ⟨S204800x1, .i32⟩
  | 31 => ⟨S204800, .i32⟩
  | 32 => ⟨S_, .i32⟩
  | 33 => ⟨S_, .i32⟩
  | 34 => ⟨S204800, .i32⟩
  | 35 => ⟨S204800, .i32⟩
  | 36 => ⟨S_, .i32⟩
  | 37 => ⟨S204800, .i32⟩
  | 38 => ⟨S204800, .i1⟩
  | 39 => ⟨S_, .i32⟩
  | 40 => ⟨S_, .i32⟩
  | 41 => ⟨S204800, .i32⟩
  | 42 => ⟨S204800, .i32⟩
  | 43 => ⟨S204800, .f32⟩
  | 44 => ⟨S204800, .f32⟩
  | 45 => ⟨S204800, .i32⟩
  | 46 => ⟨S204800, .i32⟩
  | 47 => ⟨S_, .i32⟩
  | 48 => ⟨S_, .i32⟩
  | 49 => ⟨S_, .i32⟩
  | 50 => ⟨S204800, .i32⟩
  | 51 => ⟨S204800, .i32⟩
  | 52 => ⟨S_, .i32⟩
  | 53 => ⟨S204800, .i32⟩
  | 54 => ⟨S204800, .i32⟩
  | 55 => ⟨S_, .i32⟩
  | 56 => ⟨S204800, .i32⟩
  | 57 => ⟨S204800, .i1⟩
  | 58 => ⟨S_, .i32⟩
  | 59 => ⟨S204800, .i32⟩
  | 60 => ⟨S204800, .i32⟩
  | 61 => ⟨S204800, .i32⟩
  | 62 => ⟨S204800x1, .i32⟩
  | 63 => ⟨S204800, .i32⟩
  | 64 => ⟨S_, .i32⟩
  | 65 => ⟨S_, .i32⟩
  | 66 => ⟨S204800, .i32⟩
  | 67 => ⟨S204800, .i32⟩
  | 68 => ⟨S204800x1, .f32⟩
  | 69 => ⟨S204800, .f32⟩
  | 70 => ⟨S_, .i32⟩
  | 71 => ⟨S204800, .i32⟩
  | 72 => ⟨S204800, .i1⟩
  | 73 => ⟨S_, .i32⟩
  | 74 => ⟨S_, .i32⟩
  | 75 => ⟨S204800, .i32⟩
  | 76 => ⟨S204800, .i32⟩
  | 77 => ⟨S_, .i32⟩
  | 78 => ⟨S204800, .i32⟩
  | 79 => ⟨S204800, .i1⟩
  | 80 => ⟨S_, .i32⟩
  | 81 => ⟨S204800, .i32⟩
  | 82 => ⟨S204800, .i32⟩
  | 83 => ⟨S204800, .i32⟩
  | 84 => ⟨S204800x1, .i32⟩
  | 85 => ⟨S204800x2, .i32⟩
  | 86 => ⟨S204800x1, .i32⟩
  | 87 => ⟨S204800, .i32⟩
  | 88 => ⟨S204800x1, .i32⟩
  | 89 => ⟨S204800, .i32⟩
  | 90 => ⟨S_, .i32⟩
  | 91 => ⟨S_, .i32⟩
  | 92 => ⟨S204800, .i32⟩
  | 93 => ⟨S204800, .i32⟩
  | 94 => ⟨S_, .i32⟩
  | 95 => ⟨S204800, .i32⟩
  | 96 => ⟨S204800, .i1⟩
  | 97 => ⟨S_, .i32⟩
  | 98 => ⟨S_, .i32⟩
  | 99 => ⟨S204800, .i32⟩
  | 100 => ⟨S204800, .i32⟩
  | 101 => ⟨S204800, .f32⟩
  | 102 => ⟨S204800, .f32⟩
  | 103 => ⟨S204800, .i32⟩
  | 104 => ⟨S204800, .i32⟩
  | 105 => ⟨S_, .i32⟩
  | 106 => ⟨S_, .i32⟩
  | 107 => ⟨S_, .i32⟩
  | 108 => ⟨S204800, .i32⟩
  | 109 => ⟨S204800, .i32⟩
  | 110 => ⟨S_, .i32⟩
  | 111 => ⟨S204800, .i32⟩
  | 112 => ⟨S204800, .i32⟩
  | 113 => ⟨S_, .i32⟩
  | 114 => ⟨S204800, .i32⟩
  | 115 => ⟨S204800, .i1⟩
  | 116 => ⟨S_, .i32⟩
  | 117 => ⟨S204800, .i32⟩
  | 118 => ⟨S204800, .i32⟩
  | 119 => ⟨S204800, .i32⟩
  | 120 => ⟨S204800x1, .i32⟩
  | 121 => ⟨S204800, .i32⟩
  | 122 => ⟨S_, .i32⟩
  | 123 => ⟨S_, .i32⟩
  | 124 => ⟨S204800, .i32⟩
  | 125 => ⟨S204800, .i32⟩
  | 126 => ⟨S204800x1, .f32⟩
  | 127 => ⟨S204800, .f32⟩
  | _ => ⟨S204800x20, .f32⟩

abbrev hbmTy0_7 (i : Nat) : BufTy := match i % 128 with
  | 0 => ⟨S_, .i32⟩
  | 1 => ⟨S204800, .i32⟩
  | 2 => ⟨S204800, .i1⟩
  | 3 => ⟨S_, .i32⟩
  | 4 => ⟨S_, .i32⟩
  | 5 => ⟨S204800, .i32⟩
  | 6 => ⟨S204800, .i32⟩
  | 7 => ⟨S_, .i32⟩
  | 8 => ⟨S204800, .i32⟩
  | 9 => ⟨S204800, .i1⟩
  | 10 => ⟨S_, .i32⟩
  | 11 => ⟨S204800, .i32⟩
  | 12 => ⟨S204800, .i32⟩
  | 13 => ⟨S204800, .i32⟩
  | 14 => ⟨S204800x1, .i32⟩
  | 15 => ⟨S204800x2, .i32⟩
  | 16 => ⟨S204800x1, .i32⟩
  | 17 => ⟨S204800, .i32⟩
  | 18 => ⟨S204800x1, .i32⟩
  | 19 => ⟨S204800, .i32⟩
  | 20 => ⟨S_, .i32⟩
  | 21 => ⟨S_, .i32⟩
  | 22 => ⟨S204800, .i32⟩
  | 23 => ⟨S204800, .i32⟩
  | 24 => ⟨S_, .i32⟩
  | 25 => ⟨S204800, .i32⟩
  | 26 => ⟨S204800, .i1⟩
  | 27 => ⟨S_, .i32⟩
  | 28 => ⟨S_, .i32⟩
  | 29 => ⟨S204800, .i32⟩
  | 30 => ⟨S204800, .i32⟩
  | 31 => ⟨S204800, .f32⟩
  | 32 => ⟨S204800, .f32⟩
  | 33 => ⟨S204800, .i32⟩
  | 34 => ⟨S204800, .i32⟩
  | 35 => ⟨S_, .i32⟩
  | 36 => ⟨S_, .i32⟩
  | 37 => ⟨S_, .i32⟩
  | 38 => ⟨S204800, .i32⟩
  | 39 => ⟨S204800, .i32⟩
  | 40 => ⟨S_, .i32⟩
  | 41 => ⟨S204800, .i32⟩
  | 42 => ⟨S204800, .i32⟩
  | 43 => ⟨S_, .i32⟩
  | 44 => ⟨S204800, .i32⟩
  | 45 => ⟨S204800, .i1⟩
  | 46 => ⟨S_, .i32⟩
  | 47 => ⟨S204800, .i32⟩
  | 48 => ⟨S204800, .i32⟩
  | 49 => ⟨S204800, .i32⟩
  | 50 => ⟨S204800x1, .i32⟩
  | 51 => ⟨S204800, .i32⟩
  | 52 => ⟨S_, .i32⟩
  | 53 => ⟨S_, .i32⟩
  | 54 => ⟨S204800, .i32⟩
  | 55 => ⟨S204800, .i32⟩
  | 56 => ⟨S204800x1, .f32⟩
  | 57 => ⟨S204800, .f32⟩
  | 58 => ⟨S_, .i32⟩
  | 59 => ⟨S204800, .i32⟩
  | 60 => ⟨S204800, .i1⟩
  | 61 => ⟨S_, .i32⟩
  | 62 => ⟨S_, .i32⟩
  | 63 => ⟨S204800, .i32⟩
  | 64 => ⟨S204800, .i32⟩
  | 65 => ⟨S_, .i32⟩
  | 66 => ⟨S204800, .i32⟩
  | 67 => ⟨S204800, .i1⟩
  | 68 => ⟨S_, .i32⟩
  | 69 => ⟨S204800, .i32⟩
  | 70 => ⟨S204800, .i32⟩
  | 71 => ⟨S204800, .i32⟩
  | 72 => ⟨S204800x1, .i32⟩
  | 73 => ⟨S204800x2, .i32⟩
  | 74 => ⟨S204800x1, .i32⟩
  | 75 => ⟨S204800, .i32⟩
  | 76 => ⟨S204800x1, .i32⟩
  | 77 => ⟨S204800, .i32⟩
  | 78 => ⟨S_, .i32⟩
  | 79 => ⟨S_, .i32⟩
  | 80 => ⟨S204800, .i32⟩
  | 81 => ⟨S204800, .i32⟩
  | 82 => ⟨S_, .i32⟩
  | 83 => ⟨S204800, .i32⟩
  | 84 => ⟨S204800, .i1⟩
  | 85 => ⟨S_, .i32⟩
  | 86 => ⟨S_, .i32⟩
  | 87 => ⟨S204800, .i32⟩
  | 88 => ⟨S204800, .i32⟩
  | 89 => ⟨S204800, .f32⟩
  | 90 => ⟨S204800, .f32⟩
  | 91 => ⟨S204800, .i32⟩
  | 92 => ⟨S204800, .i32⟩
  | 93 => ⟨S_, .i32⟩
  | 94 => ⟨S_, .i32⟩
  | 95 => ⟨S_, .i32⟩
  | 96 => ⟨S204800, .i32⟩
  | 97 => ⟨S204800, .i32⟩
  | 98 => ⟨S_, .i32⟩
  | 99 => ⟨S204800, .i32⟩
  | 100 => ⟨S204800, .i32⟩
  | 101 => ⟨S_, .i32⟩
  | 102 => ⟨S204800, .i32⟩
  | 103 => ⟨S204800, .i1⟩
  | 104 => ⟨S_, .i32⟩
  | 105 => ⟨S204800, .i32⟩
  | 106 => ⟨S204800, .i32⟩
  | 107 => ⟨S204800, .i32⟩
  | 108 => ⟨S204800x1, .i32⟩
  | 109 => ⟨S204800, .i32⟩
  | 110 => ⟨S_, .i32⟩
  | 111 => ⟨S_, .i32⟩
  | 112 => ⟨S204800, .i32⟩
  | 113 => ⟨S204800, .i32⟩
  | 114 => ⟨S204800x1, .f32⟩
  | 115 => ⟨S204800, .f32⟩
  | 116 => ⟨S_, .i32⟩
  | 117 => ⟨S204800, .i32⟩
  | 118 => ⟨S204800, .i1⟩
  | 119 => ⟨S_, .i32⟩
  | 120 => ⟨S_, .i32⟩
  | 121 => ⟨S204800, .i32⟩
  | 122 => ⟨S204800, .i32⟩
  | 123 => ⟨S_, .i32⟩
  | 124 => ⟨S204800, .i32⟩
  | 125 => ⟨S204800, .i1⟩
  | 126 => ⟨S_, .i32⟩
  | 127 => ⟨S204800, .i32⟩
  | _ => ⟨S204800x20, .f32⟩

abbrev hbmTy0_8 (i : Nat) : BufTy := match i % 128 with
  | 0 => ⟨S204800, .i32⟩
  | 1 => ⟨S204800, .i32⟩
  | 2 => ⟨S204800x1, .i32⟩
  | 3 => ⟨S204800x2, .i32⟩
  | 4 => ⟨S204800x1, .i32⟩
  | 5 => ⟨S204800, .i32⟩
  | 6 => ⟨S204800x1, .i32⟩
  | 7 => ⟨S204800, .i32⟩
  | 8 => ⟨S_, .i32⟩
  | 9 => ⟨S_, .i32⟩
  | 10 => ⟨S204800, .i32⟩
  | 11 => ⟨S204800, .i32⟩
  | 12 => ⟨S_, .i32⟩
  | 13 => ⟨S204800, .i32⟩
  | 14 => ⟨S204800, .i1⟩
  | 15 => ⟨S_, .i32⟩
  | 16 => ⟨S_, .i32⟩
  | 17 => ⟨S204800, .i32⟩
  | 18 => ⟨S204800, .i32⟩
  | 19 => ⟨S204800, .f32⟩
  | 20 => ⟨S204800, .f32⟩
  | 21 => ⟨S204800, .i32⟩
  | 22 => ⟨S204800, .i32⟩
  | 23 => ⟨S_, .i32⟩
  | 24 => ⟨S_, .i32⟩
  | 25 => ⟨S_, .i32⟩
  | 26 => ⟨S204800, .i32⟩
  | 27 => ⟨S204800, .i32⟩
  | 28 => ⟨S_, .i32⟩
  | 29 => ⟨S204800, .i32⟩
  | 30 => ⟨S204800, .i32⟩
  | 31 => ⟨S_, .i32⟩
  | 32 => ⟨S204800, .i32⟩
  | 33 => ⟨S204800, .i1⟩
  | 34 => ⟨S_, .i32⟩
  | 35 => ⟨S204800, .i32⟩
  | 36 => ⟨S204800, .i32⟩
  | 37 => ⟨S204800, .i32⟩
  | 38 => ⟨S204800x1, .i32⟩
  | 39 => ⟨S204800, .i32⟩
  | 40 => ⟨S_, .i32⟩
  | 41 => ⟨S_, .i32⟩
  | 42 => ⟨S204800, .i32⟩
  | 43 => ⟨S204800, .i32⟩
  | 44 => ⟨S204800x1, .f32⟩
  | 45 => ⟨S204800, .f32⟩
  | 46 => ⟨S_, .i32⟩
  | 47 => ⟨S204800, .i32⟩
  | 48 => ⟨S204800, .i1⟩
  | 49 => ⟨S_, .i32⟩
  | 50 => ⟨S_, .i32⟩
  | 51 => ⟨S204800, .i32⟩
  | 52 => ⟨S204800, .i32⟩
  | 53 => ⟨S_, .i32⟩
  | 54 => ⟨S204800, .i32⟩
  | 55 => ⟨S204800, .i1⟩
  | 56 => ⟨S_, .i32⟩
  | 57 => ⟨S204800, .i32⟩
  | 58 => ⟨S204800, .i32⟩
  | 59 => ⟨S204800, .i32⟩
  | 60 => ⟨S204800x1, .i32⟩
  | 61 => ⟨S204800x2, .i32⟩
  | 62 => ⟨S204800x1, .i32⟩
  | 63 => ⟨S204800, .i32⟩
  | 64 => ⟨S204800x1, .i32⟩
  | 65 => ⟨S204800, .i32⟩
  | 66 => ⟨S_, .i32⟩
  | 67 => ⟨S_, .i32⟩
  | 68 => ⟨S204800, .i32⟩
  | 69 => ⟨S204800, .i32⟩
  | 70 => ⟨S_, .i32⟩
  | 71 => ⟨S204800, .i32⟩
  | 72 => ⟨S204800, .i1⟩
  | 73 => ⟨S_, .i32⟩
  | 74 => ⟨S_, .i32⟩
  | 75 => ⟨S204800, .i32⟩
  | 76 => ⟨S204800, .i32⟩
  | 77 => ⟨S204800, .f32⟩
  | 78 => ⟨S204800, .f32⟩
  | 79 => ⟨S204800, .i32⟩
  | 80 => ⟨S204800, .i32⟩
  | 81 => ⟨S_, .i32⟩
  | 82 => ⟨S_, .i32⟩
  | 83 => ⟨S_, .i32⟩
  | 84 => ⟨S204800, .i32⟩
  | 85 => ⟨S204800, .i32⟩
  | 86 => ⟨S_, .i32⟩
  | 87 => ⟨S204800, .i32⟩
  | 88 => ⟨S204800, .i32⟩
  | 89 => ⟨S_, .i32⟩
  | 90 => ⟨S204800, .i32⟩
  | 91 => ⟨S204800, .i1⟩
  | 92 => ⟨S_, .i32⟩
  | 93 => ⟨S204800, .i32⟩
  | 94 => ⟨S204800, .i32⟩
  | 95 => ⟨S204800, .i32⟩
  | 96 => ⟨S204800x1, .i32⟩
  | 97 => ⟨S204800, .i32⟩
  | 98 => ⟨S_, .i32⟩
  | 99 => ⟨S_, .i32⟩
  | 100 => ⟨S204800, .i32⟩
  | 101 => ⟨S204800, .i32⟩
  | 102 => ⟨S204800x1, .f32⟩
  | 103 => ⟨S204800, .f32⟩
  | 104 => ⟨S_, .i32⟩
  | 105 => ⟨S204800, .i32⟩
  | 106 => ⟨S204800, .i1⟩
  | 107 => ⟨S_, .i32⟩
  | 108 => ⟨S_, .i32⟩
  | 109 => ⟨S204800, .i32⟩
  | 110 => ⟨S204800, .i32⟩
  | 111 => ⟨S_, .i32⟩
  | 112 => ⟨S204800, .i32⟩
  | 113 => ⟨S204800, .i1⟩
  | 114 => ⟨S_, .i32⟩
  | 115 => ⟨S204800, .i32⟩
  | 116 => ⟨S204800, .i32⟩
  | 117 => ⟨S204800, .i32⟩
  | 118 => ⟨S204800x1, .i32⟩
  | 119 => ⟨S204800x2, .i32⟩
  | 120 => ⟨S204800x1, .i32⟩
  | 121 => ⟨S204800, .i32⟩
  | 122 => ⟨S204800x1, .i32⟩
  | 123 => ⟨S204800, .i32⟩
  | 124 => ⟨S_, .i32⟩
  | 125 => ⟨S_, .i32⟩
  | 126 => ⟨S204800, .i32⟩
  | 127 => ⟨S204800, .i32⟩
  | _ => ⟨S204800x20, .f32⟩

abbrev hbmTy0_9 (i : Nat) : BufTy := match i % 128 with
  | 0 => ⟨S_, .i32⟩
  | 1 => ⟨S204800, .i32⟩
  | 2 => ⟨S204800, .i1⟩
  | 3 => ⟨S_, .i32⟩
  | 4 => ⟨S_, .i32⟩
  | 5 => ⟨S204800, .i32⟩
  | 6 => ⟨S204800, .i32⟩
  | 7 => ⟨S204800, .f32⟩
  | 8 => ⟨S204800, .f32⟩
  | 9 => ⟨S204800, .i32⟩
  | 10 => ⟨S204800, .i32⟩
  | 11 => ⟨S_, .i32⟩
  | 12 => ⟨S_, .i32⟩
  | 13 => ⟨S_, .i32⟩
  | 14 => ⟨S204800, .i32⟩
  | 15 => ⟨S204800, .i32⟩
  | 16 => ⟨S_, .i32⟩
  | 17 => ⟨S204800, .i32⟩
  | 18 => ⟨S204800, .i32⟩
  | 19 => ⟨S_, .i32⟩
  | 20 => ⟨S204800, .i32⟩
  | 21 => ⟨S204800, .i1⟩
  | 22 => ⟨S_, .i32⟩
  | 23 => ⟨S204800, .i32⟩
  | 24 => ⟨S204800, .i32⟩
  | 25 => ⟨S204800, .i32⟩
  | 26 => ⟨S204800x1, .i32⟩
  | 27 => ⟨S204800, .i32⟩
  | 28 => ⟨S_, .i32⟩
  | 29 => ⟨S_, .i32⟩
  | 30 => ⟨S204800, .i32⟩
  | 31 => ⟨S204800, .i32⟩
  | 32 => ⟨S1x204800, .i32⟩
  | 33 => ⟨S1x204800, .i32⟩
  | 34 => ⟨S1x204800, .i32⟩
  | 35 => ⟨S1x204800, .i32⟩
  | 36 => ⟨S1x204800, .i32⟩
  | 37 => ⟨S1x204800, .i32⟩
  | 38 => ⟨S1x204800, .i32⟩
  | 39 => ⟨S1x204800, .i32⟩
  | 40 => ⟨S1x204800, .i32⟩
  | 41 => ⟨S1x204800, .i32⟩
  | 42 => ⟨S1x204800, .i32⟩
  | 43 => ⟨S1x204800, .i32⟩
  | 44 => ⟨S1x204800, .i32⟩
  | 45 => ⟨S1x204800, .i32⟩
  | 46 => ⟨S1x204800, .i32⟩
  | 47 => ⟨S1x204800, .i32⟩
  | 48 => ⟨S1x204800, .i32⟩
  | 49 => ⟨S1x204800, .i32⟩
  | 50 => ⟨S1x204800, .i32⟩
  | 51 => ⟨S1x204800, .i32⟩
  | 52 => ⟨S1x204800, .i32⟩
  | 53 => ⟨S16x204800, .i32⟩
  | 54 => ⟨S5x204800, .i32⟩
  | 55 => ⟨S21x204800, .i32⟩
  | 56 => ⟨S20x204800, .f32⟩
  | 57 => ⟨S1x2048, .i32⟩
  | 58 => ⟨S100x2048, .i32⟩
  | 59 => ⟨S204800, .i32⟩
  | 60 => ⟨S1x204800, .i32⟩
  | 61 => ⟨S15x7x204800, .i32⟩
  | 62 => ⟨S15x7x204800, .i32⟩
  | 63 => ⟨S15x204800x7, .i32⟩
  | 64 => ⟨S3072000x7, .i32⟩
  | 65 => ⟨S15x204800x7, .i32⟩
  | 66 => ⟨S3072000x7, .i32⟩
  | _ => ⟨S204800x20, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S204800x20, .f32⟩

abbrev bufTy : (tb : Table) → Fin (tcTables nBuf tb) → BufTy
  | .hbm, ⟨i, _⟩ => hbmTy i
  | .local _ .vmem, ⟨0, _⟩ => ⟨S21x12800, .i32⟩
  | .local _ .vmem, ⟨1, _⟩ => ⟨S21x12800, .i32⟩
  | .local _ .vmem, ⟨2, _⟩ => ⟨S20x12800, .f32⟩
  | .local _ .vmem, ⟨3, _⟩ => ⟨S20x12800, .f32⟩
  | .local _ .vmem, ⟨4, _⟩ => ⟨S1x12800, .i32⟩
  | .local _ .vmem, ⟨5, _⟩ => ⟨S1x12800, .i32⟩
  | .local _ .vmem, ⟨6, _⟩ => ⟨S15x7x12800, .i32⟩
  | .local _ .vmem, ⟨7, _⟩ => ⟨S15x7x12800, .i32⟩
  | .local _ .vmem, ⟨8, _⟩ => ⟨S15x7x12800, .i32⟩
  | .local _ .vmem, ⟨9, _⟩ => ⟨S15x7x12800, .i32⟩
  | _, _ => ⟨S204800x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_c_7 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_call4_v0 : Ref sig .tc := ⟨.hbm, 79, rfl⟩
abbrev main_call4_v1 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_11 : Ref sig .tc := ⟨.hbm, 84, rfl⟩
abbrev main_v52 : Ref sig .tc := ⟨.hbm, 85, rfl⟩
abbrev main_v53 : Ref sig .tc := ⟨.hbm, 86, rfl⟩
abbrev main_c_12 : Ref sig .tc := ⟨.hbm, 87, rfl⟩
abbrev main_call5_v0 : Ref sig .tc := ⟨.hbm, 88, rfl⟩
abbrev main_call5_v1 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_c_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_15 : Ref sig .tc := ⟨.hbm, 104, rfl⟩
abbrev main_call6_v0 : Ref sig .tc := ⟨.hbm, 105, rfl⟩
abbrev main_call6_v1 : Ref sig .tc := ⟨.hbm, 106, rfl⟩
abbrev main_v66 : Ref sig .tc := ⟨.hbm, 107, rfl⟩
abbrev main_c_16 : Ref sig .tc := ⟨.hbm, 108, rfl⟩
abbrev main_v67 : Ref sig .tc := ⟨.hbm, 109, rfl⟩
abbrev main_v68 : Ref sig .tc := ⟨.hbm, 110, rfl⟩
abbrev main_c_17 : Ref sig .tc := ⟨.hbm, 111, rfl⟩
abbrev main_call7_v0 : Ref sig .tc := ⟨.hbm, 112, rfl⟩
abbrev main_call7_v1 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_18 : Ref sig .tc := ⟨.hbm, 119, rfl⟩
abbrev main_c_19 : Ref sig .tc := ⟨.hbm, 120, rfl⟩
abbrev main_call8_v0 : Ref sig .tc := ⟨.hbm, 121, rfl⟩
abbrev main_call8_v1 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_v74 : Ref sig .tc := ⟨.hbm, 126, rfl⟩
abbrev main_c_20 : Ref sig .tc := ⟨.hbm, 127, rfl⟩
abbrev main_v75 : Ref sig .tc := ⟨.hbm, 128, rfl⟩
abbrev main_v76 : Ref sig .tc := ⟨.hbm, 129, rfl⟩
abbrev main_c_21 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_22 : Ref sig .tc := ⟨.hbm, 136, rfl⟩
abbrev main_call9_v0 : Ref sig .tc := ⟨.hbm, 137, rfl⟩
abbrev main_call9_v1 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_c_23 : Ref sig .tc := ⟨.hbm, 142, rfl⟩
abbrev main_v85 : Ref sig .tc := ⟨.hbm, 143, rfl⟩
abbrev main_v86 : Ref sig .tc := ⟨.hbm, 144, rfl⟩
abbrev main_c_24 : Ref sig .tc := ⟨.hbm, 145, rfl⟩
abbrev main_call10_v0 : Ref sig .tc := ⟨.hbm, 146, rfl⟩
abbrev main_call10_v1 : Ref sig .tc := ⟨.hbm, 147, rfl⟩
abbrev main_v87 : Ref sig .tc := ⟨.hbm, 148, rfl⟩
abbrev main_c_25 : Ref sig .tc := ⟨.hbm, 149, rfl⟩
abbrev main_v88 : Ref sig .tc := ⟨.hbm, 150, rfl⟩
abbrev main_v89 : Ref sig .tc := ⟨.hbm, 151, rfl⟩
abbrev main_c_26 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_c_27 : Ref sig .tc := ⟨.hbm, 162, rfl⟩
abbrev main_call11_v0 : Ref sig .tc := ⟨.hbm, 163, rfl⟩
abbrev main_call11_v1 : Ref sig .tc := ⟨.hbm, 164, rfl⟩
abbrev main_v99 : Ref sig .tc := ⟨.hbm, 165, rfl⟩
abbrev main_c_28 : Ref sig .tc := ⟨.hbm, 166, rfl⟩
abbrev main_v100 : Ref sig .tc := ⟨.hbm, 167, rfl⟩
abbrev main_v101 : Ref sig .tc := ⟨.hbm, 168, rfl⟩
abbrev main_c_29 : Ref sig .tc := ⟨.hbm, 169, rfl⟩
abbrev main_call12_v0 : Ref sig .tc := ⟨.hbm, 170, rfl⟩
abbrev main_call12_v1 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_c_30 : Ref sig .tc := ⟨.hbm, 177, rfl⟩
abbrev main_c_31 : Ref sig .tc := ⟨.hbm, 178, rfl⟩
abbrev main_call13_v0 : Ref sig .tc := ⟨.hbm, 179, rfl⟩
abbrev main_call13_v1 : Ref sig .tc := ⟨.hbm, 180, rfl⟩
abbrev main_call13_v2 : Ref sig .tc := ⟨.hbm, 181, rfl⟩
abbrev main_call13_v3 : Ref sig .tc := ⟨.hbm, 182, rfl⟩
abbrev main_call13_v4 : Ref sig .tc := ⟨.hbm, 183, rfl⟩
abbrev main_v107 : Ref sig .tc := ⟨.hbm, 184, rfl⟩
abbrev main_c_32 : Ref sig .tc := ⟨.hbm, 185, rfl⟩
abbrev main_v108 : Ref sig .tc := ⟨.hbm, 186, rfl⟩
abbrev main_v109 : Ref sig .tc := ⟨.hbm, 187, rfl⟩
abbrev main_c_33 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_c_34 : Ref sig .tc := ⟨.hbm, 194, rfl⟩
abbrev main_call14_v0 : Ref sig .tc := ⟨.hbm, 195, rfl⟩
abbrev main_call14_v1 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_c_35 : Ref sig .tc := ⟨.hbm, 200, rfl⟩
abbrev main_v118 : Ref sig .tc := ⟨.hbm, 201, rfl⟩
abbrev main_v119 : Ref sig .tc := ⟨.hbm, 202, rfl⟩
abbrev main_c_36 : Ref sig .tc := ⟨.hbm, 203, rfl⟩
abbrev main_call15_v0 : Ref sig .tc := ⟨.hbm, 204, rfl⟩
abbrev main_call15_v1 : Ref sig .tc := ⟨.hbm, 205, rfl⟩
abbrev main_v120 : Ref sig .tc := ⟨.hbm, 206, rfl⟩
abbrev main_c_37 : Ref sig .tc := ⟨.hbm, 207, rfl⟩
abbrev main_v121 : Ref sig .tc := ⟨.hbm, 208, rfl⟩
abbrev main_v122 : Ref sig .tc := ⟨.hbm, 209, rfl⟩
abbrev main_c_38 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_c_39 : Ref sig .tc := ⟨.hbm, 220, rfl⟩
abbrev main_call16_v0 : Ref sig .tc := ⟨.hbm, 221, rfl⟩
abbrev main_call16_v1 : Ref sig .tc := ⟨.hbm, 222, rfl⟩
abbrev main_v132 : Ref sig .tc := ⟨.hbm, 223, rfl⟩
abbrev main_c_40 : Ref sig .tc := ⟨.hbm, 224, rfl⟩
abbrev main_v133 : Ref sig .tc := ⟨.hbm, 225, rfl⟩
abbrev main_v134 : Ref sig .tc := ⟨.hbm, 226, rfl⟩
abbrev main_c_41 : Ref sig .tc := ⟨.hbm, 227, rfl⟩
abbrev main_call17_v0 : Ref sig .tc := ⟨.hbm, 228, rfl⟩
abbrev main_call17_v1 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_c_42 : Ref sig .tc := ⟨.hbm, 235, rfl⟩
abbrev main_c_43 : Ref sig .tc := ⟨.hbm, 236, rfl⟩
abbrev main_call18_v0 : Ref sig .tc := ⟨.hbm, 237, rfl⟩
abbrev main_call18_v1 : Ref sig .tc := ⟨.hbm, 238, rfl⟩
abbrev main_call18_v2 : Ref sig .tc := ⟨.hbm, 239, rfl⟩
abbrev main_call18_v3 : Ref sig .tc := ⟨.hbm, 240, rfl⟩
abbrev main_call18_v4 : Ref sig .tc := ⟨.hbm, 241, rfl⟩
abbrev main_v140 : Ref sig .tc := ⟨.hbm, 242, rfl⟩
abbrev main_c_44 : Ref sig .tc := ⟨.hbm, 243, rfl⟩
abbrev main_v141 : Ref sig .tc := ⟨.hbm, 244, rfl⟩
abbrev main_v142 : Ref sig .tc := ⟨.hbm, 245, rfl⟩
abbrev main_c_45 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_c_46 : Ref sig .tc := ⟨.hbm, 252, rfl⟩
abbrev main_call19_v0 : Ref sig .tc := ⟨.hbm, 253, rfl⟩
abbrev main_call19_v1 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_c_47 : Ref sig .tc := ⟨.hbm, 258, rfl⟩
abbrev main_v151 : Ref sig .tc := ⟨.hbm, 259, rfl⟩
abbrev main_v152 : Ref sig .tc := ⟨.hbm, 260, rfl⟩
abbrev main_c_48 : Ref sig .tc := ⟨.hbm, 261, rfl⟩
abbrev main_call20_v0 : Ref sig .tc := ⟨.hbm, 262, rfl⟩
abbrev main_call20_v1 : Ref sig .tc := ⟨.hbm, 263, rfl⟩
abbrev main_v153 : Ref sig .tc := ⟨.hbm, 264, rfl⟩
abbrev main_c_49 : Ref sig .tc := ⟨.hbm, 265, rfl⟩
abbrev main_v154 : Ref sig .tc := ⟨.hbm, 266, rfl⟩
abbrev main_v155 : Ref sig .tc := ⟨.hbm, 267, rfl⟩
abbrev main_c_50 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_c_51 : Ref sig .tc := ⟨.hbm, 278, rfl⟩
abbrev main_call21_v0 : Ref sig .tc := ⟨.hbm, 279, rfl⟩
abbrev main_call21_v1 : Ref sig .tc := ⟨.hbm, 280, rfl⟩
abbrev main_v165 : Ref sig .tc := ⟨.hbm, 281, rfl⟩
abbrev main_c_52 : Ref sig .tc := ⟨.hbm, 282, rfl⟩
abbrev main_v166 : Ref sig .tc := ⟨.hbm, 283, rfl⟩
abbrev main_v167 : Ref sig .tc := ⟨.hbm, 284, rfl⟩
abbrev main_c_53 : Ref sig .tc := ⟨.hbm, 285, rfl⟩
abbrev main_call22_v0 : Ref sig .tc := ⟨.hbm, 286, rfl⟩
abbrev main_call22_v1 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_c_54 : Ref sig .tc := ⟨.hbm, 293, rfl⟩
abbrev main_c_55 : Ref sig .tc := ⟨.hbm, 294, rfl⟩
abbrev main_call23_v0 : Ref sig .tc := ⟨.hbm, 295, rfl⟩
abbrev main_call23_v1 : Ref sig .tc := ⟨.hbm, 296, rfl⟩
abbrev main_call23_v2 : Ref sig .tc := ⟨.hbm, 297, rfl⟩
abbrev main_call23_v3 : Ref sig .tc := ⟨.hbm, 298, rfl⟩
abbrev main_call23_v4 : Ref sig .tc := ⟨.hbm, 299, rfl⟩
abbrev main_v173 : Ref sig .tc := ⟨.hbm, 300, rfl⟩
abbrev main_c_56 : Ref sig .tc := ⟨.hbm, 301, rfl⟩
abbrev main_v174 : Ref sig .tc := ⟨.hbm, 302, rfl⟩
abbrev main_v175 : Ref sig .tc := ⟨.hbm, 303, rfl⟩
abbrev main_c_57 : Ref sig .tc := ⟨.hbm, 304, rfl⟩
abbrev main_v176 : Ref sig .tc := ⟨.hbm, 305, rfl⟩
abbrev main_v177 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_c_58 : Ref sig .tc := ⟨.hbm, 310, rfl⟩
abbrev main_call24_v0 : Ref sig .tc := ⟨.hbm, 311, rfl⟩
abbrev main_call24_v1 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_c_59 : Ref sig .tc := ⟨.hbm, 316, rfl⟩
abbrev main_v184 : Ref sig .tc := ⟨.hbm, 317, rfl⟩
abbrev main_v185 : Ref sig .tc := ⟨.hbm, 318, rfl⟩
abbrev main_c_60 : Ref sig .tc := ⟨.hbm, 319, rfl⟩
abbrev main_call25_v0 : Ref sig .tc := ⟨.hbm, 320, rfl⟩
abbrev main_call25_v1 : Ref sig .tc := ⟨.hbm, 321, rfl⟩
abbrev main_v186 : Ref sig .tc := ⟨.hbm, 322, rfl⟩
abbrev main_c_61 : Ref sig .tc := ⟨.hbm, 323, rfl⟩
abbrev main_v187 : Ref sig .tc := ⟨.hbm, 324, rfl⟩
abbrev main_v188 : Ref sig .tc := ⟨.hbm, 325, rfl⟩
abbrev main_c_62 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_c_63 : Ref sig .tc := ⟨.hbm, 336, rfl⟩
abbrev main_call26_v0 : Ref sig .tc := ⟨.hbm, 337, rfl⟩
abbrev main_call26_v1 : Ref sig .tc := ⟨.hbm, 338, rfl⟩
abbrev main_v198 : Ref sig .tc := ⟨.hbm, 339, rfl⟩
abbrev main_c_64 : Ref sig .tc := ⟨.hbm, 340, rfl⟩
abbrev main_v199 : Ref sig .tc := ⟨.hbm, 341, rfl⟩
abbrev main_v200 : Ref sig .tc := ⟨.hbm, 342, rfl⟩
abbrev main_c_65 : Ref sig .tc := ⟨.hbm, 343, rfl⟩
abbrev main_call27_v0 : Ref sig .tc := ⟨.hbm, 344, rfl⟩
abbrev main_call27_v1 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩
abbrev main_c_66 : Ref sig .tc := ⟨.hbm, 351, rfl⟩
abbrev main_c_67 : Ref sig .tc := ⟨.hbm, 352, rfl⟩
abbrev main_call28_v0 : Ref sig .tc := ⟨.hbm, 353, rfl⟩
abbrev main_call28_v1 : Ref sig .tc := ⟨.hbm, 354, rfl⟩
abbrev main_call28_v2 : Ref sig .tc := ⟨.hbm, 355, rfl⟩
abbrev main_call28_v3 : Ref sig .tc := ⟨.hbm, 356, rfl⟩
abbrev main_call28_v4 : Ref sig .tc := ⟨.hbm, 357, rfl⟩
abbrev main_v206 : Ref sig .tc := ⟨.hbm, 358, rfl⟩
abbrev main_c_68 : Ref sig .tc := ⟨.hbm, 359, rfl⟩
abbrev main_v207 : Ref sig .tc := ⟨.hbm, 360, rfl⟩
abbrev main_v208 : Ref sig .tc := ⟨.hbm, 361, rfl⟩
abbrev main_c_69 : Ref sig .tc := ⟨.hbm, 362, rfl⟩
abbrev main_v209 : Ref sig .tc := ⟨.hbm, 363, rfl⟩
abbrev main_v210 : Ref sig .tc := ⟨.hbm, 364, rfl⟩
abbrev main_v211 : Ref sig .tc := ⟨.hbm, 365, rfl⟩
abbrev main_v212 : Ref sig .tc := ⟨.hbm, 366, rfl⟩
abbrev main_v213 : Ref sig .tc := ⟨.hbm, 367, rfl⟩
abbrev main_c_70 : Ref sig .tc := ⟨.hbm, 368, rfl⟩
abbrev main_call29_v0 : Ref sig .tc := ⟨.hbm, 369, rfl⟩
abbrev main_call29_v1 : Ref sig .tc := ⟨.hbm, 370, rfl⟩
abbrev main_v214 : Ref sig .tc := ⟨.hbm, 371, rfl⟩
abbrev main_v215 : Ref sig .tc := ⟨.hbm, 372, rfl⟩
abbrev main_v216 : Ref sig .tc := ⟨.hbm, 373, rfl⟩
abbrev main_c_71 : Ref sig .tc := ⟨.hbm, 374, rfl⟩
abbrev main_v217 : Ref sig .tc := ⟨.hbm, 375, rfl⟩
abbrev main_v218 : Ref sig .tc := ⟨.hbm, 376, rfl⟩
abbrev main_c_72 : Ref sig .tc := ⟨.hbm, 377, rfl⟩
abbrev main_call30_v0 : Ref sig .tc := ⟨.hbm, 378, rfl⟩
abbrev main_call30_v1 : Ref sig .tc := ⟨.hbm, 379, rfl⟩
abbrev main_v219 : Ref sig .tc := ⟨.hbm, 380, rfl⟩
abbrev main_c_73 : Ref sig .tc := ⟨.hbm, 381, rfl⟩
abbrev main_v220 : Ref sig .tc := ⟨.hbm, 382, rfl⟩
abbrev main_v221 : Ref sig .tc := ⟨.hbm, 383, rfl⟩
abbrev main_c_74 : Ref sig .tc := ⟨.hbm, 384, rfl⟩
abbrev main_v222 : Ref sig .tc := ⟨.hbm, 385, rfl⟩
abbrev main_v223 : Ref sig .tc := ⟨.hbm, 386, rfl⟩
abbrev main_v224 : Ref sig .tc := ⟨.hbm, 387, rfl⟩
abbrev main_v225 : Ref sig .tc := ⟨.hbm, 388, rfl⟩
abbrev main_v226 : Ref sig .tc := ⟨.hbm, 389, rfl⟩
abbrev main_v227 : Ref sig .tc := ⟨.hbm, 390, rfl⟩
abbrev main_v228 : Ref sig .tc := ⟨.hbm, 391, rfl⟩
abbrev main_v229 : Ref sig .tc := ⟨.hbm, 392, rfl⟩
abbrev main_v230 : Ref sig .tc := ⟨.hbm, 393, rfl⟩
abbrev main_c_75 : Ref sig .tc := ⟨.hbm, 394, rfl⟩
abbrev main_call31_v0 : Ref sig .tc := ⟨.hbm, 395, rfl⟩
abbrev main_call31_v1 : Ref sig .tc := ⟨.hbm, 396, rfl⟩
abbrev main_v231 : Ref sig .tc := ⟨.hbm, 397, rfl⟩
abbrev main_c_76 : Ref sig .tc := ⟨.hbm, 398, rfl⟩
abbrev main_v232 : Ref sig .tc := ⟨.hbm, 399, rfl⟩
abbrev main_v233 : Ref sig .tc := ⟨.hbm, 400, rfl⟩
abbrev main_c_77 : Ref sig .tc := ⟨.hbm, 401, rfl⟩
abbrev main_call32_v0 : Ref sig .tc := ⟨.hbm, 402, rfl⟩
abbrev main_call32_v1 : Ref sig .tc := ⟨.hbm, 403, rfl⟩
abbrev main_v234 : Ref sig .tc := ⟨.hbm, 404, rfl⟩
abbrev main_v235 : Ref sig .tc := ⟨.hbm, 405, rfl⟩
abbrev main_v236 : Ref sig .tc := ⟨.hbm, 406, rfl⟩
abbrev main_v237 : Ref sig .tc := ⟨.hbm, 407, rfl⟩
abbrev main_v238 : Ref sig .tc := ⟨.hbm, 408, rfl⟩
abbrev main_c_78 : Ref sig .tc := ⟨.hbm, 409, rfl⟩
abbrev main_c_79 : Ref sig .tc := ⟨.hbm, 410, rfl⟩
abbrev main_call33_v0 : Ref sig .tc := ⟨.hbm, 411, rfl⟩
abbrev main_call33_v1 : Ref sig .tc := ⟨.hbm, 412, rfl⟩
abbrev main_call33_v2 : Ref sig .tc := ⟨.hbm, 413, rfl⟩
abbrev main_call33_v3 : Ref sig .tc := ⟨.hbm, 414, rfl⟩
abbrev main_call33_v4 : Ref sig .tc := ⟨.hbm, 415, rfl⟩
abbrev main_v239 : Ref sig .tc := ⟨.hbm, 416, rfl⟩
abbrev main_c_80 : Ref sig .tc := ⟨.hbm, 417, rfl⟩
abbrev main_v240 : Ref sig .tc := ⟨.hbm, 418, rfl⟩
abbrev main_v241 : Ref sig .tc := ⟨.hbm, 419, rfl⟩
abbrev main_c_81 : Ref sig .tc := ⟨.hbm, 420, rfl⟩
abbrev main_v242 : Ref sig .tc := ⟨.hbm, 421, rfl⟩
abbrev main_v243 : Ref sig .tc := ⟨.hbm, 422, rfl⟩
abbrev main_v244 : Ref sig .tc := ⟨.hbm, 423, rfl⟩
abbrev main_v245 : Ref sig .tc := ⟨.hbm, 424, rfl⟩
abbrev main_v246 : Ref sig .tc := ⟨.hbm, 425, rfl⟩
abbrev main_c_82 : Ref sig .tc := ⟨.hbm, 426, rfl⟩
abbrev main_call34_v0 : Ref sig .tc := ⟨.hbm, 427, rfl⟩
abbrev main_call34_v1 : Ref sig .tc := ⟨.hbm, 428, rfl⟩
abbrev main_v247 : Ref sig .tc := ⟨.hbm, 429, rfl⟩
abbrev main_v248 : Ref sig .tc := ⟨.hbm, 430, rfl⟩
abbrev main_v249 : Ref sig .tc := ⟨.hbm, 431, rfl⟩
abbrev main_c_83 : Ref sig .tc := ⟨.hbm, 432, rfl⟩
abbrev main_v250 : Ref sig .tc := ⟨.hbm, 433, rfl⟩
abbrev main_v251 : Ref sig .tc := ⟨.hbm, 434, rfl⟩
abbrev main_c_84 : Ref sig .tc := ⟨.hbm, 435, rfl⟩
abbrev main_call35_v0 : Ref sig .tc := ⟨.hbm, 436, rfl⟩
abbrev main_call35_v1 : Ref sig .tc := ⟨.hbm, 437, rfl⟩
abbrev main_v252 : Ref sig .tc := ⟨.hbm, 438, rfl⟩
abbrev main_c_85 : Ref sig .tc := ⟨.hbm, 439, rfl⟩
abbrev main_v253 : Ref sig .tc := ⟨.hbm, 440, rfl⟩
abbrev main_v254 : Ref sig .tc := ⟨.hbm, 441, rfl⟩
abbrev main_c_86 : Ref sig .tc := ⟨.hbm, 442, rfl⟩
abbrev main_v255 : Ref sig .tc := ⟨.hbm, 443, rfl⟩
abbrev main_v256 : Ref sig .tc := ⟨.hbm, 444, rfl⟩
abbrev main_v257 : Ref sig .tc := ⟨.hbm, 445, rfl⟩
abbrev main_v258 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_c_87 : Ref sig .tc := ⟨.hbm, 452, rfl⟩
abbrev main_call36_v0 : Ref sig .tc := ⟨.hbm, 453, rfl⟩
abbrev main_call36_v1 : Ref sig .tc := ⟨.hbm, 454, rfl⟩
abbrev main_v264 : Ref sig .tc := ⟨.hbm, 455, rfl⟩
abbrev main_c_88 : Ref sig .tc := ⟨.hbm, 456, rfl⟩
abbrev main_v265 : Ref sig .tc := ⟨.hbm, 457, rfl⟩
abbrev main_v266 : Ref sig .tc := ⟨.hbm, 458, rfl⟩
abbrev main_c_89 : Ref sig .tc := ⟨.hbm, 459, rfl⟩
abbrev main_call37_v0 : Ref sig .tc := ⟨.hbm, 460, rfl⟩
abbrev main_call37_v1 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_c_90 : Ref sig .tc := ⟨.hbm, 467, rfl⟩
abbrev main_c_91 : Ref sig .tc := ⟨.hbm, 468, rfl⟩
abbrev main_call38_v0 : Ref sig .tc := ⟨.hbm, 469, rfl⟩
abbrev main_call38_v1 : Ref sig .tc := ⟨.hbm, 470, rfl⟩
abbrev main_call38_v2 : Ref sig .tc := ⟨.hbm, 471, rfl⟩
abbrev main_call38_v3 : Ref sig .tc := ⟨.hbm, 472, rfl⟩
abbrev main_call38_v4 : Ref sig .tc := ⟨.hbm, 473, rfl⟩
abbrev main_v272 : Ref sig .tc := ⟨.hbm, 474, rfl⟩
abbrev main_c_92 : Ref sig .tc := ⟨.hbm, 475, rfl⟩
abbrev main_v273 : Ref sig .tc := ⟨.hbm, 476, rfl⟩
abbrev main_v274 : Ref sig .tc := ⟨.hbm, 477, rfl⟩
abbrev main_c_93 : Ref sig .tc := ⟨.hbm, 478, rfl⟩
abbrev main_v275 : Ref sig .tc := ⟨.hbm, 479, rfl⟩
abbrev main_v276 : Ref sig .tc := ⟨.hbm, 480, rfl⟩
abbrev main_v277 : Ref sig .tc := ⟨.hbm, 481, rfl⟩
abbrev main_v278 : Ref sig .tc := ⟨.hbm, 482, rfl⟩
abbrev main_v279 : Ref sig .tc := ⟨.hbm, 483, rfl⟩
abbrev main_c_94 : Ref sig .tc := ⟨.hbm, 484, rfl⟩
abbrev main_call39_v0 : Ref sig .tc := ⟨.hbm, 485, rfl⟩
abbrev main_call39_v1 : Ref sig .tc := ⟨.hbm, 486, rfl⟩
abbrev main_v280 : Ref sig .tc := ⟨.hbm, 487, rfl⟩
abbrev main_v281 : Ref sig .tc := ⟨.hbm, 488, rfl⟩
abbrev main_v282 : Ref sig .tc := ⟨.hbm, 489, rfl⟩
abbrev main_c_95 : Ref sig .tc := ⟨.hbm, 490, rfl⟩
abbrev main_v283 : Ref sig .tc := ⟨.hbm, 491, rfl⟩
abbrev main_v284 : Ref sig .tc := ⟨.hbm, 492, rfl⟩
abbrev main_c_96 : Ref sig .tc := ⟨.hbm, 493, rfl⟩
abbrev main_call40_v0 : Ref sig .tc := ⟨.hbm, 494, rfl⟩
abbrev main_call40_v1 : Ref sig .tc := ⟨.hbm, 495, rfl⟩
abbrev main_v285 : Ref sig .tc := ⟨.hbm, 496, rfl⟩
abbrev main_c_97 : Ref sig .tc := ⟨.hbm, 497, rfl⟩
abbrev main_v286 : Ref sig .tc := ⟨.hbm, 498, rfl⟩
abbrev main_v287 : Ref sig .tc := ⟨.hbm, 499, rfl⟩
abbrev main_c_98 : Ref sig .tc := ⟨.hbm, 500, rfl⟩
abbrev main_v288 : Ref sig .tc := ⟨.hbm, 501, rfl⟩
abbrev main_v289 : Ref sig .tc := ⟨.hbm, 502, rfl⟩
abbrev main_v290 : Ref sig .tc := ⟨.hbm, 503, rfl⟩
abbrev main_v291 : Ref sig .tc := ⟨.hbm, 504, rfl⟩
abbrev main_v292 : Ref sig .tc := ⟨.hbm, 505, rfl⟩
abbrev main_v293 : Ref sig .tc := ⟨.hbm, 506, rfl⟩
abbrev main_v294 : Ref sig .tc := ⟨.hbm, 507, rfl⟩
abbrev main_v295 : Ref sig .tc := ⟨.hbm, 508, rfl⟩
abbrev main_v296 : Ref sig .tc := ⟨.hbm, 509, rfl⟩
abbrev main_c_99 : Ref sig .tc := ⟨.hbm, 510, rfl⟩
abbrev main_call41_v0 : Ref sig .tc := ⟨.hbm, 511, rfl⟩
abbrev main_call41_v1 : Ref sig .tc := ⟨.hbm, 512, rfl⟩
abbrev main_v297 : Ref sig .tc := ⟨.hbm, 513, rfl⟩
abbrev main_c_100 : Ref sig .tc := ⟨.hbm, 514, rfl⟩
abbrev main_v298 : Ref sig .tc := ⟨.hbm, 515, rfl⟩
abbrev main_v299 : Ref sig .tc := ⟨.hbm, 516, rfl⟩
abbrev main_c_101 : Ref sig .tc := ⟨.hbm, 517, rfl⟩
abbrev main_call42_v0 : Ref sig .tc := ⟨.hbm, 518, rfl⟩
abbrev main_call42_v1 : Ref sig .tc := ⟨.hbm, 519, rfl⟩
abbrev main_v300 : Ref sig .tc := ⟨.hbm, 520, rfl⟩
abbrev main_v301 : Ref sig .tc := ⟨.hbm, 521, rfl⟩
abbrev main_v302 : Ref sig .tc := ⟨.hbm, 522, rfl⟩
abbrev main_v303 : Ref sig .tc := ⟨.hbm, 523, rfl⟩
abbrev main_v304 : Ref sig .tc := ⟨.hbm, 524, rfl⟩
abbrev main_c_102 : Ref sig .tc := ⟨.hbm, 525, rfl⟩
abbrev main_c_103 : Ref sig .tc := ⟨.hbm, 526, rfl⟩
abbrev main_call43_v0 : Ref sig .tc := ⟨.hbm, 527, rfl⟩
abbrev main_call43_v1 : Ref sig .tc := ⟨.hbm, 528, rfl⟩
abbrev main_call43_v2 : Ref sig .tc := ⟨.hbm, 529, rfl⟩
abbrev main_call43_v3 : Ref sig .tc := ⟨.hbm, 530, rfl⟩
abbrev main_call43_v4 : Ref sig .tc := ⟨.hbm, 531, rfl⟩
abbrev main_v305 : Ref sig .tc := ⟨.hbm, 532, rfl⟩
abbrev main_c_104 : Ref sig .tc := ⟨.hbm, 533, rfl⟩
abbrev main_v306 : Ref sig .tc := ⟨.hbm, 534, rfl⟩
abbrev main_v307 : Ref sig .tc := ⟨.hbm, 535, rfl⟩
abbrev main_c_105 : Ref sig .tc := ⟨.hbm, 536, rfl⟩
abbrev main_v308 : Ref sig .tc := ⟨.hbm, 537, rfl⟩
abbrev main_v309 : Ref sig .tc := ⟨.hbm, 538, rfl⟩
abbrev main_v310 : Ref sig .tc := ⟨.hbm, 539, rfl⟩
abbrev main_v311 : Ref sig .tc := ⟨.hbm, 540, rfl⟩
abbrev main_v312 : Ref sig .tc := ⟨.hbm, 541, rfl⟩
abbrev main_c_106 : Ref sig .tc := ⟨.hbm, 542, rfl⟩
abbrev main_call44_v0 : Ref sig .tc := ⟨.hbm, 543, rfl⟩
abbrev main_call44_v1 : Ref sig .tc := ⟨.hbm, 544, rfl⟩
abbrev main_v313 : Ref sig .tc := ⟨.hbm, 545, rfl⟩
abbrev main_v314 : Ref sig .tc := ⟨.hbm, 546, rfl⟩
abbrev main_v315 : Ref sig .tc := ⟨.hbm, 547, rfl⟩
abbrev main_c_107 : Ref sig .tc := ⟨.hbm, 548, rfl⟩
abbrev main_v316 : Ref sig .tc := ⟨.hbm, 549, rfl⟩
abbrev main_v317 : Ref sig .tc := ⟨.hbm, 550, rfl⟩
abbrev main_c_108 : Ref sig .tc := ⟨.hbm, 551, rfl⟩
abbrev main_call45_v0 : Ref sig .tc := ⟨.hbm, 552, rfl⟩
abbrev main_call45_v1 : Ref sig .tc := ⟨.hbm, 553, rfl⟩
abbrev main_v318 : Ref sig .tc := ⟨.hbm, 554, rfl⟩
abbrev main_c_109 : Ref sig .tc := ⟨.hbm, 555, rfl⟩
abbrev main_v319 : Ref sig .tc := ⟨.hbm, 556, rfl⟩
abbrev main_v320 : Ref sig .tc := ⟨.hbm, 557, rfl⟩
abbrev main_c_110 : Ref sig .tc := ⟨.hbm, 558, rfl⟩
abbrev main_v321 : Ref sig .tc := ⟨.hbm, 559, rfl⟩
abbrev main_v322 : Ref sig .tc := ⟨.hbm, 560, rfl⟩
abbrev main_v323 : Ref sig .tc := ⟨.hbm, 561, rfl⟩
abbrev main_v324 : Ref sig .tc := ⟨.hbm, 562, rfl⟩
abbrev main_v325 : Ref sig .tc := ⟨.hbm, 563, rfl⟩
abbrev main_v326 : Ref sig .tc := ⟨.hbm, 564, rfl⟩
abbrev main_v327 : Ref sig .tc := ⟨.hbm, 565, rfl⟩
abbrev main_v328 : Ref sig .tc := ⟨.hbm, 566, rfl⟩
abbrev main_v329 : Ref sig .tc := ⟨.hbm, 567, rfl⟩
abbrev main_c_111 : Ref sig .tc := ⟨.hbm, 568, rfl⟩
abbrev main_call46_v0 : Ref sig .tc := ⟨.hbm, 569, rfl⟩
abbrev main_call46_v1 : Ref sig .tc := ⟨.hbm, 570, rfl⟩
abbrev main_v330 : Ref sig .tc := ⟨.hbm, 571, rfl⟩
abbrev main_c_112 : Ref sig .tc := ⟨.hbm, 572, rfl⟩
abbrev main_v331 : Ref sig .tc := ⟨.hbm, 573, rfl⟩
abbrev main_v332 : Ref sig .tc := ⟨.hbm, 574, rfl⟩
abbrev main_c_113 : Ref sig .tc := ⟨.hbm, 575, rfl⟩
abbrev main_call47_v0 : Ref sig .tc := ⟨.hbm, 576, rfl⟩
abbrev main_call47_v1 : Ref sig .tc := ⟨.hbm, 577, rfl⟩
abbrev main_v333 : Ref sig .tc := ⟨.hbm, 578, rfl⟩
abbrev main_v334 : Ref sig .tc := ⟨.hbm, 579, rfl⟩
abbrev main_v335 : Ref sig .tc := ⟨.hbm, 580, rfl⟩
abbrev main_v336 : Ref sig .tc := ⟨.hbm, 581, rfl⟩
abbrev main_v337 : Ref sig .tc := ⟨.hbm, 582, rfl⟩
abbrev main_c_114 : Ref sig .tc := ⟨.hbm, 583, rfl⟩
abbrev main_c_115 : Ref sig .tc := ⟨.hbm, 584, rfl⟩
abbrev main_call48_v0 : Ref sig .tc := ⟨.hbm, 585, rfl⟩
abbrev main_call48_v1 : Ref sig .tc := ⟨.hbm, 586, rfl⟩
abbrev main_call48_v2 : Ref sig .tc := ⟨.hbm, 587, rfl⟩
abbrev main_call48_v3 : Ref sig .tc := ⟨.hbm, 588, rfl⟩
abbrev main_call48_v4 : Ref sig .tc := ⟨.hbm, 589, rfl⟩
abbrev main_v338 : Ref sig .tc := ⟨.hbm, 590, rfl⟩
abbrev main_c_116 : Ref sig .tc := ⟨.hbm, 591, rfl⟩
abbrev main_v339 : Ref sig .tc := ⟨.hbm, 592, rfl⟩
abbrev main_v340 : Ref sig .tc := ⟨.hbm, 593, rfl⟩
abbrev main_c_117 : Ref sig .tc := ⟨.hbm, 594, rfl⟩
abbrev main_v341 : Ref sig .tc := ⟨.hbm, 595, rfl⟩
abbrev main_v342 : Ref sig .tc := ⟨.hbm, 596, rfl⟩
abbrev main_v343 : Ref sig .tc := ⟨.hbm, 597, rfl⟩
abbrev main_v344 : Ref sig .tc := ⟨.hbm, 598, rfl⟩
abbrev main_v345 : Ref sig .tc := ⟨.hbm, 599, rfl⟩
abbrev main_c_118 : Ref sig .tc := ⟨.hbm, 600, rfl⟩
abbrev main_call49_v0 : Ref sig .tc := ⟨.hbm, 601, rfl⟩
abbrev main_call49_v1 : Ref sig .tc := ⟨.hbm, 602, rfl⟩
abbrev main_v346 : Ref sig .tc := ⟨.hbm, 603, rfl⟩
abbrev main_v347 : Ref sig .tc := ⟨.hbm, 604, rfl⟩
abbrev main_v348 : Ref sig .tc := ⟨.hbm, 605, rfl⟩
abbrev main_c_119 : Ref sig .tc := ⟨.hbm, 606, rfl⟩
abbrev main_v349 : Ref sig .tc := ⟨.hbm, 607, rfl⟩
abbrev main_v350 : Ref sig .tc := ⟨.hbm, 608, rfl⟩
abbrev main_c_120 : Ref sig .tc := ⟨.hbm, 609, rfl⟩
abbrev main_call50_v0 : Ref sig .tc := ⟨.hbm, 610, rfl⟩
abbrev main_call50_v1 : Ref sig .tc := ⟨.hbm, 611, rfl⟩
abbrev main_v351 : Ref sig .tc := ⟨.hbm, 612, rfl⟩
abbrev main_c_121 : Ref sig .tc := ⟨.hbm, 613, rfl⟩
abbrev main_v352 : Ref sig .tc := ⟨.hbm, 614, rfl⟩
abbrev main_v353 : Ref sig .tc := ⟨.hbm, 615, rfl⟩
abbrev main_c_122 : Ref sig .tc := ⟨.hbm, 616, rfl⟩
abbrev main_v354 : Ref sig .tc := ⟨.hbm, 617, rfl⟩
abbrev main_v355 : Ref sig .tc := ⟨.hbm, 618, rfl⟩
abbrev main_v356 : Ref sig .tc := ⟨.hbm, 619, rfl⟩
abbrev main_v357 : Ref sig .tc := ⟨.hbm, 620, rfl⟩
abbrev main_v358 : Ref sig .tc := ⟨.hbm, 621, rfl⟩
abbrev main_v359 : Ref sig .tc := ⟨.hbm, 622, rfl⟩
abbrev main_v360 : Ref sig .tc := ⟨.hbm, 623, rfl⟩
abbrev main_v361 : Ref sig .tc := ⟨.hbm, 624, rfl⟩
abbrev main_v362 : Ref sig .tc := ⟨.hbm, 625, rfl⟩
abbrev main_c_123 : Ref sig .tc := ⟨.hbm, 626, rfl⟩
abbrev main_call51_v0 : Ref sig .tc := ⟨.hbm, 627, rfl⟩
abbrev main_call51_v1 : Ref sig .tc := ⟨.hbm, 628, rfl⟩
abbrev main_v363 : Ref sig .tc := ⟨.hbm, 629, rfl⟩
abbrev main_c_124 : Ref sig .tc := ⟨.hbm, 630, rfl⟩
abbrev main_v364 : Ref sig .tc := ⟨.hbm, 631, rfl⟩
abbrev main_v365 : Ref sig .tc := ⟨.hbm, 632, rfl⟩
abbrev main_c_125 : Ref sig .tc := ⟨.hbm, 633, rfl⟩
abbrev main_call52_v0 : Ref sig .tc := ⟨.hbm, 634, rfl⟩
abbrev main_call52_v1 : Ref sig .tc := ⟨.hbm, 635, rfl⟩
abbrev main_v366 : Ref sig .tc := ⟨.hbm, 636, rfl⟩
abbrev main_v367 : Ref sig .tc := ⟨.hbm, 637, rfl⟩
abbrev main_v368 : Ref sig .tc := ⟨.hbm, 638, rfl⟩
abbrev main_v369 : Ref sig .tc := ⟨.hbm, 639, rfl⟩
abbrev main_v370 : Ref sig .tc := ⟨.hbm, 640, rfl⟩
abbrev main_c_126 : Ref sig .tc := ⟨.hbm, 641, rfl⟩
abbrev main_c_127 : Ref sig .tc := ⟨.hbm, 642, rfl⟩
abbrev main_call53_v0 : Ref sig .tc := ⟨.hbm, 643, rfl⟩
abbrev main_call53_v1 : Ref sig .tc := ⟨.hbm, 644, rfl⟩
abbrev main_call53_v2 : Ref sig .tc := ⟨.hbm, 645, rfl⟩
abbrev main_call53_v3 : Ref sig .tc := ⟨.hbm, 646, rfl⟩
abbrev main_call53_v4 : Ref sig .tc := ⟨.hbm, 647, rfl⟩
abbrev main_v371 : Ref sig .tc := ⟨.hbm, 648, rfl⟩
abbrev main_c_128 : Ref sig .tc := ⟨.hbm, 649, rfl⟩
abbrev main_v372 : Ref sig .tc := ⟨.hbm, 650, rfl⟩
abbrev main_v373 : Ref sig .tc := ⟨.hbm, 651, rfl⟩
abbrev main_c_129 : Ref sig .tc := ⟨.hbm, 652, rfl⟩
abbrev main_v374 : Ref sig .tc := ⟨.hbm, 653, rfl⟩
abbrev main_v375 : Ref sig .tc := ⟨.hbm, 654, rfl⟩
abbrev main_v376 : Ref sig .tc := ⟨.hbm, 655, rfl⟩
abbrev main_v377 : Ref sig .tc := ⟨.hbm, 656, rfl⟩
abbrev main_v378 : Ref sig .tc := ⟨.hbm, 657, rfl⟩
abbrev main_c_130 : Ref sig .tc := ⟨.hbm, 658, rfl⟩
abbrev main_call54_v0 : Ref sig .tc := ⟨.hbm, 659, rfl⟩
abbrev main_call54_v1 : Ref sig .tc := ⟨.hbm, 660, rfl⟩
abbrev main_v379 : Ref sig .tc := ⟨.hbm, 661, rfl⟩
abbrev main_v380 : Ref sig .tc := ⟨.hbm, 662, rfl⟩
abbrev main_v381 : Ref sig .tc := ⟨.hbm, 663, rfl⟩
abbrev main_c_131 : Ref sig .tc := ⟨.hbm, 664, rfl⟩
abbrev main_v382 : Ref sig .tc := ⟨.hbm, 665, rfl⟩
abbrev main_v383 : Ref sig .tc := ⟨.hbm, 666, rfl⟩
abbrev main_c_132 : Ref sig .tc := ⟨.hbm, 667, rfl⟩
abbrev main_call55_v0 : Ref sig .tc := ⟨.hbm, 668, rfl⟩
abbrev main_call55_v1 : Ref sig .tc := ⟨.hbm, 669, rfl⟩
abbrev main_v384 : Ref sig .tc := ⟨.hbm, 670, rfl⟩
abbrev main_c_133 : Ref sig .tc := ⟨.hbm, 671, rfl⟩
abbrev main_v385 : Ref sig .tc := ⟨.hbm, 672, rfl⟩
abbrev main_v386 : Ref sig .tc := ⟨.hbm, 673, rfl⟩
abbrev main_c_134 : Ref sig .tc := ⟨.hbm, 674, rfl⟩
abbrev main_v387 : Ref sig .tc := ⟨.hbm, 675, rfl⟩
abbrev main_v388 : Ref sig .tc := ⟨.hbm, 676, rfl⟩
abbrev main_v389 : Ref sig .tc := ⟨.hbm, 677, rfl⟩
abbrev main_v390 : Ref sig .tc := ⟨.hbm, 678, rfl⟩
abbrev main_v391 : Ref sig .tc := ⟨.hbm, 679, rfl⟩
abbrev main_v392 : Ref sig .tc := ⟨.hbm, 680, rfl⟩
abbrev main_v393 : Ref sig .tc := ⟨.hbm, 681, rfl⟩
abbrev main_v394 : Ref sig .tc := ⟨.hbm, 682, rfl⟩
abbrev main_v395 : Ref sig .tc := ⟨.hbm, 683, rfl⟩
abbrev main_c_135 : Ref sig .tc := ⟨.hbm, 684, rfl⟩
abbrev main_call56_v0 : Ref sig .tc := ⟨.hbm, 685, rfl⟩
abbrev main_call56_v1 : Ref sig .tc := ⟨.hbm, 686, rfl⟩
abbrev main_v396 : Ref sig .tc := ⟨.hbm, 687, rfl⟩
abbrev main_c_136 : Ref sig .tc := ⟨.hbm, 688, rfl⟩
abbrev main_v397 : Ref sig .tc := ⟨.hbm, 689, rfl⟩
abbrev main_v398 : Ref sig .tc := ⟨.hbm, 690, rfl⟩
abbrev main_c_137 : Ref sig .tc := ⟨.hbm, 691, rfl⟩
abbrev main_call57_v0 : Ref sig .tc := ⟨.hbm, 692, rfl⟩
abbrev main_call57_v1 : Ref sig .tc := ⟨.hbm, 693, rfl⟩
abbrev main_v399 : Ref sig .tc := ⟨.hbm, 694, rfl⟩
abbrev main_v400 : Ref sig .tc := ⟨.hbm, 695, rfl⟩
abbrev main_v401 : Ref sig .tc := ⟨.hbm, 696, rfl⟩
abbrev main_v402 : Ref sig .tc := ⟨.hbm, 697, rfl⟩
abbrev main_v403 : Ref sig .tc := ⟨.hbm, 698, rfl⟩
abbrev main_c_138 : Ref sig .tc := ⟨.hbm, 699, rfl⟩
abbrev main_c_139 : Ref sig .tc := ⟨.hbm, 700, rfl⟩
abbrev main_call58_v0 : Ref sig .tc := ⟨.hbm, 701, rfl⟩
abbrev main_call58_v1 : Ref sig .tc := ⟨.hbm, 702, rfl⟩
abbrev main_call58_v2 : Ref sig .tc := ⟨.hbm, 703, rfl⟩
abbrev main_call58_v3 : Ref sig .tc := ⟨.hbm, 704, rfl⟩
abbrev main_call58_v4 : Ref sig .tc := ⟨.hbm, 705, rfl⟩
abbrev main_v404 : Ref sig .tc := ⟨.hbm, 706, rfl⟩
abbrev main_c_140 : Ref sig .tc := ⟨.hbm, 707, rfl⟩
abbrev main_v405 : Ref sig .tc := ⟨.hbm, 708, rfl⟩
abbrev main_v406 : Ref sig .tc := ⟨.hbm, 709, rfl⟩
abbrev main_c_141 : Ref sig .tc := ⟨.hbm, 710, rfl⟩
abbrev main_v407 : Ref sig .tc := ⟨.hbm, 711, rfl⟩
abbrev main_v408 : Ref sig .tc := ⟨.hbm, 712, rfl⟩
abbrev main_v409 : Ref sig .tc := ⟨.hbm, 713, rfl⟩
abbrev main_v410 : Ref sig .tc := ⟨.hbm, 714, rfl⟩
abbrev main_v411 : Ref sig .tc := ⟨.hbm, 715, rfl⟩
abbrev main_c_142 : Ref sig .tc := ⟨.hbm, 716, rfl⟩
abbrev main_call59_v0 : Ref sig .tc := ⟨.hbm, 717, rfl⟩
abbrev main_call59_v1 : Ref sig .tc := ⟨.hbm, 718, rfl⟩
abbrev main_v412 : Ref sig .tc := ⟨.hbm, 719, rfl⟩
abbrev main_v413 : Ref sig .tc := ⟨.hbm, 720, rfl⟩
abbrev main_v414 : Ref sig .tc := ⟨.hbm, 721, rfl⟩
abbrev main_c_143 : Ref sig .tc := ⟨.hbm, 722, rfl⟩
abbrev main_v415 : Ref sig .tc := ⟨.hbm, 723, rfl⟩
abbrev main_v416 : Ref sig .tc := ⟨.hbm, 724, rfl⟩
abbrev main_c_144 : Ref sig .tc := ⟨.hbm, 725, rfl⟩
abbrev main_call60_v0 : Ref sig .tc := ⟨.hbm, 726, rfl⟩
abbrev main_call60_v1 : Ref sig .tc := ⟨.hbm, 727, rfl⟩
abbrev main_v417 : Ref sig .tc := ⟨.hbm, 728, rfl⟩
abbrev main_c_145 : Ref sig .tc := ⟨.hbm, 729, rfl⟩
abbrev main_v418 : Ref sig .tc := ⟨.hbm, 730, rfl⟩
abbrev main_v419 : Ref sig .tc := ⟨.hbm, 731, rfl⟩
abbrev main_c_146 : Ref sig .tc := ⟨.hbm, 732, rfl⟩
abbrev main_v420 : Ref sig .tc := ⟨.hbm, 733, rfl⟩
abbrev main_v421 : Ref sig .tc := ⟨.hbm, 734, rfl⟩
abbrev main_v422 : Ref sig .tc := ⟨.hbm, 735, rfl⟩
abbrev main_v423 : Ref sig .tc := ⟨.hbm, 736, rfl⟩
abbrev main_v424 : Ref sig .tc := ⟨.hbm, 737, rfl⟩
abbrev main_v425 : Ref sig .tc := ⟨.hbm, 738, rfl⟩
abbrev main_v426 : Ref sig .tc := ⟨.hbm, 739, rfl⟩
abbrev main_v427 : Ref sig .tc := ⟨.hbm, 740, rfl⟩
abbrev main_v428 : Ref sig .tc := ⟨.hbm, 741, rfl⟩
abbrev main_c_147 : Ref sig .tc := ⟨.hbm, 742, rfl⟩
abbrev main_call61_v0 : Ref sig .tc := ⟨.hbm, 743, rfl⟩
abbrev main_call61_v1 : Ref sig .tc := ⟨.hbm, 744, rfl⟩
abbrev main_v429 : Ref sig .tc := ⟨.hbm, 745, rfl⟩
abbrev main_c_148 : Ref sig .tc := ⟨.hbm, 746, rfl⟩
abbrev main_v430 : Ref sig .tc := ⟨.hbm, 747, rfl⟩
abbrev main_v431 : Ref sig .tc := ⟨.hbm, 748, rfl⟩
abbrev main_c_149 : Ref sig .tc := ⟨.hbm, 749, rfl⟩
abbrev main_call62_v0 : Ref sig .tc := ⟨.hbm, 750, rfl⟩
abbrev main_call62_v1 : Ref sig .tc := ⟨.hbm, 751, rfl⟩
abbrev main_v432 : Ref sig .tc := ⟨.hbm, 752, rfl⟩
abbrev main_v433 : Ref sig .tc := ⟨.hbm, 753, rfl⟩
abbrev main_v434 : Ref sig .tc := ⟨.hbm, 754, rfl⟩
abbrev main_v435 : Ref sig .tc := ⟨.hbm, 755, rfl⟩
abbrev main_v436 : Ref sig .tc := ⟨.hbm, 756, rfl⟩
abbrev main_c_150 : Ref sig .tc := ⟨.hbm, 757, rfl⟩
abbrev main_c_151 : Ref sig .tc := ⟨.hbm, 758, rfl⟩
abbrev main_call63_v0 : Ref sig .tc := ⟨.hbm, 759, rfl⟩
abbrev main_call63_v1 : Ref sig .tc := ⟨.hbm, 760, rfl⟩
abbrev main_call63_v2 : Ref sig .tc := ⟨.hbm, 761, rfl⟩
abbrev main_call63_v3 : Ref sig .tc := ⟨.hbm, 762, rfl⟩
abbrev main_call63_v4 : Ref sig .tc := ⟨.hbm, 763, rfl⟩
abbrev main_v437 : Ref sig .tc := ⟨.hbm, 764, rfl⟩
abbrev main_c_152 : Ref sig .tc := ⟨.hbm, 765, rfl⟩
abbrev main_v438 : Ref sig .tc := ⟨.hbm, 766, rfl⟩
abbrev main_v439 : Ref sig .tc := ⟨.hbm, 767, rfl⟩
abbrev main_c_153 : Ref sig .tc := ⟨.hbm, 768, rfl⟩
abbrev main_v440 : Ref sig .tc := ⟨.hbm, 769, rfl⟩
abbrev main_v441 : Ref sig .tc := ⟨.hbm, 770, rfl⟩
abbrev main_v442 : Ref sig .tc := ⟨.hbm, 771, rfl⟩
abbrev main_v443 : Ref sig .tc := ⟨.hbm, 772, rfl⟩
abbrev main_v444 : Ref sig .tc := ⟨.hbm, 773, rfl⟩
abbrev main_c_154 : Ref sig .tc := ⟨.hbm, 774, rfl⟩
abbrev main_call64_v0 : Ref sig .tc := ⟨.hbm, 775, rfl⟩
abbrev main_call64_v1 : Ref sig .tc := ⟨.hbm, 776, rfl⟩
abbrev main_v445 : Ref sig .tc := ⟨.hbm, 777, rfl⟩
abbrev main_v446 : Ref sig .tc := ⟨.hbm, 778, rfl⟩
abbrev main_v447 : Ref sig .tc := ⟨.hbm, 779, rfl⟩
abbrev main_c_155 : Ref sig .tc := ⟨.hbm, 780, rfl⟩
abbrev main_v448 : Ref sig .tc := ⟨.hbm, 781, rfl⟩
abbrev main_v449 : Ref sig .tc := ⟨.hbm, 782, rfl⟩
abbrev main_c_156 : Ref sig .tc := ⟨.hbm, 783, rfl⟩
abbrev main_call65_v0 : Ref sig .tc := ⟨.hbm, 784, rfl⟩
abbrev main_call65_v1 : Ref sig .tc := ⟨.hbm, 785, rfl⟩
abbrev main_v450 : Ref sig .tc := ⟨.hbm, 786, rfl⟩
abbrev main_c_157 : Ref sig .tc := ⟨.hbm, 787, rfl⟩
abbrev main_v451 : Ref sig .tc := ⟨.hbm, 788, rfl⟩
abbrev main_v452 : Ref sig .tc := ⟨.hbm, 789, rfl⟩
abbrev main_c_158 : Ref sig .tc := ⟨.hbm, 790, rfl⟩
abbrev main_v453 : Ref sig .tc := ⟨.hbm, 791, rfl⟩
abbrev main_v454 : Ref sig .tc := ⟨.hbm, 792, rfl⟩
abbrev main_v455 : Ref sig .tc := ⟨.hbm, 793, rfl⟩
abbrev main_v456 : Ref sig .tc := ⟨.hbm, 794, rfl⟩
abbrev main_v457 : Ref sig .tc := ⟨.hbm, 795, rfl⟩
abbrev main_v458 : Ref sig .tc := ⟨.hbm, 796, rfl⟩
abbrev main_v459 : Ref sig .tc := ⟨.hbm, 797, rfl⟩
abbrev main_v460 : Ref sig .tc := ⟨.hbm, 798, rfl⟩
abbrev main_v461 : Ref sig .tc := ⟨.hbm, 799, rfl⟩
abbrev main_c_159 : Ref sig .tc := ⟨.hbm, 800, rfl⟩
abbrev main_call66_v0 : Ref sig .tc := ⟨.hbm, 801, rfl⟩
abbrev main_call66_v1 : Ref sig .tc := ⟨.hbm, 802, rfl⟩
abbrev main_v462 : Ref sig .tc := ⟨.hbm, 803, rfl⟩
abbrev main_c_160 : Ref sig .tc := ⟨.hbm, 804, rfl⟩
abbrev main_v463 : Ref sig .tc := ⟨.hbm, 805, rfl⟩
abbrev main_v464 : Ref sig .tc := ⟨.hbm, 806, rfl⟩
abbrev main_c_161 : Ref sig .tc := ⟨.hbm, 807, rfl⟩
abbrev main_call67_v0 : Ref sig .tc := ⟨.hbm, 808, rfl⟩
abbrev main_call67_v1 : Ref sig .tc := ⟨.hbm, 809, rfl⟩
abbrev main_v465 : Ref sig .tc := ⟨.hbm, 810, rfl⟩
abbrev main_v466 : Ref sig .tc := ⟨.hbm, 811, rfl⟩
abbrev main_v467 : Ref sig .tc := ⟨.hbm, 812, rfl⟩
abbrev main_v468 : Ref sig .tc := ⟨.hbm, 813, rfl⟩
abbrev main_v469 : Ref sig .tc := ⟨.hbm, 814, rfl⟩
abbrev main_c_162 : Ref sig .tc := ⟨.hbm, 815, rfl⟩
abbrev main_c_163 : Ref sig .tc := ⟨.hbm, 816, rfl⟩
abbrev main_call68_v0 : Ref sig .tc := ⟨.hbm, 817, rfl⟩
abbrev main_call68_v1 : Ref sig .tc := ⟨.hbm, 818, rfl⟩
abbrev main_call68_v2 : Ref sig .tc := ⟨.hbm, 819, rfl⟩
abbrev main_call68_v3 : Ref sig .tc := ⟨.hbm, 820, rfl⟩
abbrev main_call68_v4 : Ref sig .tc := ⟨.hbm, 821, rfl⟩
abbrev main_v470 : Ref sig .tc := ⟨.hbm, 822, rfl⟩
abbrev main_c_164 : Ref sig .tc := ⟨.hbm, 823, rfl⟩
abbrev main_v471 : Ref sig .tc := ⟨.hbm, 824, rfl⟩
abbrev main_v472 : Ref sig .tc := ⟨.hbm, 825, rfl⟩
abbrev main_c_165 : Ref sig .tc := ⟨.hbm, 826, rfl⟩
abbrev main_v473 : Ref sig .tc := ⟨.hbm, 827, rfl⟩
abbrev main_v474 : Ref sig .tc := ⟨.hbm, 828, rfl⟩
abbrev main_v475 : Ref sig .tc := ⟨.hbm, 829, rfl⟩
abbrev main_v476 : Ref sig .tc := ⟨.hbm, 830, rfl⟩
abbrev main_v477 : Ref sig .tc := ⟨.hbm, 831, rfl⟩
abbrev main_c_166 : Ref sig .tc := ⟨.hbm, 832, rfl⟩
abbrev main_call69_v0 : Ref sig .tc := ⟨.hbm, 833, rfl⟩
abbrev main_call69_v1 : Ref sig .tc := ⟨.hbm, 834, rfl⟩
abbrev main_v478 : Ref sig .tc := ⟨.hbm, 835, rfl⟩
abbrev main_v479 : Ref sig .tc := ⟨.hbm, 836, rfl⟩
abbrev main_v480 : Ref sig .tc := ⟨.hbm, 837, rfl⟩
abbrev main_c_167 : Ref sig .tc := ⟨.hbm, 838, rfl⟩
abbrev main_v481 : Ref sig .tc := ⟨.hbm, 839, rfl⟩
abbrev main_v482 : Ref sig .tc := ⟨.hbm, 840, rfl⟩
abbrev main_c_168 : Ref sig .tc := ⟨.hbm, 841, rfl⟩
abbrev main_call70_v0 : Ref sig .tc := ⟨.hbm, 842, rfl⟩
abbrev main_call70_v1 : Ref sig .tc := ⟨.hbm, 843, rfl⟩
abbrev main_v483 : Ref sig .tc := ⟨.hbm, 844, rfl⟩
abbrev main_c_169 : Ref sig .tc := ⟨.hbm, 845, rfl⟩
abbrev main_v484 : Ref sig .tc := ⟨.hbm, 846, rfl⟩
abbrev main_v485 : Ref sig .tc := ⟨.hbm, 847, rfl⟩
abbrev main_c_170 : Ref sig .tc := ⟨.hbm, 848, rfl⟩
abbrev main_v486 : Ref sig .tc := ⟨.hbm, 849, rfl⟩
abbrev main_v487 : Ref sig .tc := ⟨.hbm, 850, rfl⟩
abbrev main_v488 : Ref sig .tc := ⟨.hbm, 851, rfl⟩
abbrev main_v489 : Ref sig .tc := ⟨.hbm, 852, rfl⟩
abbrev main_v490 : Ref sig .tc := ⟨.hbm, 853, rfl⟩
abbrev main_v491 : Ref sig .tc := ⟨.hbm, 854, rfl⟩
abbrev main_v492 : Ref sig .tc := ⟨.hbm, 855, rfl⟩
abbrev main_v493 : Ref sig .tc := ⟨.hbm, 856, rfl⟩
abbrev main_v494 : Ref sig .tc := ⟨.hbm, 857, rfl⟩
abbrev main_c_171 : Ref sig .tc := ⟨.hbm, 858, rfl⟩
abbrev main_call71_v0 : Ref sig .tc := ⟨.hbm, 859, rfl⟩
abbrev main_call71_v1 : Ref sig .tc := ⟨.hbm, 860, rfl⟩
abbrev main_v495 : Ref sig .tc := ⟨.hbm, 861, rfl⟩
abbrev main_c_172 : Ref sig .tc := ⟨.hbm, 862, rfl⟩
abbrev main_v496 : Ref sig .tc := ⟨.hbm, 863, rfl⟩
abbrev main_v497 : Ref sig .tc := ⟨.hbm, 864, rfl⟩
abbrev main_c_173 : Ref sig .tc := ⟨.hbm, 865, rfl⟩
abbrev main_call72_v0 : Ref sig .tc := ⟨.hbm, 866, rfl⟩
abbrev main_call72_v1 : Ref sig .tc := ⟨.hbm, 867, rfl⟩
abbrev main_v498 : Ref sig .tc := ⟨.hbm, 868, rfl⟩
abbrev main_v499 : Ref sig .tc := ⟨.hbm, 869, rfl⟩
abbrev main_v500 : Ref sig .tc := ⟨.hbm, 870, rfl⟩
abbrev main_v501 : Ref sig .tc := ⟨.hbm, 871, rfl⟩
abbrev main_v502 : Ref sig .tc := ⟨.hbm, 872, rfl⟩
abbrev main_c_174 : Ref sig .tc := ⟨.hbm, 873, rfl⟩
abbrev main_c_175 : Ref sig .tc := ⟨.hbm, 874, rfl⟩
abbrev main_call73_v0 : Ref sig .tc := ⟨.hbm, 875, rfl⟩
abbrev main_call73_v1 : Ref sig .tc := ⟨.hbm, 876, rfl⟩
abbrev main_call73_v2 : Ref sig .tc := ⟨.hbm, 877, rfl⟩
abbrev main_call73_v3 : Ref sig .tc := ⟨.hbm, 878, rfl⟩
abbrev main_call73_v4 : Ref sig .tc := ⟨.hbm, 879, rfl⟩
abbrev main_v503 : Ref sig .tc := ⟨.hbm, 880, rfl⟩
abbrev main_c_176 : Ref sig .tc := ⟨.hbm, 881, rfl⟩
abbrev main_v504 : Ref sig .tc := ⟨.hbm, 882, rfl⟩
abbrev main_v505 : Ref sig .tc := ⟨.hbm, 883, rfl⟩
abbrev main_c_177 : Ref sig .tc := ⟨.hbm, 884, rfl⟩
abbrev main_v506 : Ref sig .tc := ⟨.hbm, 885, rfl⟩
abbrev main_v507 : Ref sig .tc := ⟨.hbm, 886, rfl⟩
abbrev main_v508 : Ref sig .tc := ⟨.hbm, 887, rfl⟩
abbrev main_v509 : Ref sig .tc := ⟨.hbm, 888, rfl⟩
abbrev main_v510 : Ref sig .tc := ⟨.hbm, 889, rfl⟩
abbrev main_c_178 : Ref sig .tc := ⟨.hbm, 890, rfl⟩
abbrev main_call74_v0 : Ref sig .tc := ⟨.hbm, 891, rfl⟩
abbrev main_call74_v1 : Ref sig .tc := ⟨.hbm, 892, rfl⟩
abbrev main_v511 : Ref sig .tc := ⟨.hbm, 893, rfl⟩
abbrev main_v512 : Ref sig .tc := ⟨.hbm, 894, rfl⟩
abbrev main_v513 : Ref sig .tc := ⟨.hbm, 895, rfl⟩
abbrev main_c_179 : Ref sig .tc := ⟨.hbm, 896, rfl⟩
abbrev main_v514 : Ref sig .tc := ⟨.hbm, 897, rfl⟩
abbrev main_v515 : Ref sig .tc := ⟨.hbm, 898, rfl⟩
abbrev main_c_180 : Ref sig .tc := ⟨.hbm, 899, rfl⟩
abbrev main_call75_v0 : Ref sig .tc := ⟨.hbm, 900, rfl⟩
abbrev main_call75_v1 : Ref sig .tc := ⟨.hbm, 901, rfl⟩
abbrev main_v516 : Ref sig .tc := ⟨.hbm, 902, rfl⟩
abbrev main_c_181 : Ref sig .tc := ⟨.hbm, 903, rfl⟩
abbrev main_v517 : Ref sig .tc := ⟨.hbm, 904, rfl⟩
abbrev main_v518 : Ref sig .tc := ⟨.hbm, 905, rfl⟩
abbrev main_c_182 : Ref sig .tc := ⟨.hbm, 906, rfl⟩
abbrev main_v519 : Ref sig .tc := ⟨.hbm, 907, rfl⟩
abbrev main_v520 : Ref sig .tc := ⟨.hbm, 908, rfl⟩
abbrev main_v521 : Ref sig .tc := ⟨.hbm, 909, rfl⟩
abbrev main_v522 : Ref sig .tc := ⟨.hbm, 910, rfl⟩
abbrev main_v523 : Ref sig .tc := ⟨.hbm, 911, rfl⟩
abbrev main_v524 : Ref sig .tc := ⟨.hbm, 912, rfl⟩
abbrev main_v525 : Ref sig .tc := ⟨.hbm, 913, rfl⟩
abbrev main_v526 : Ref sig .tc := ⟨.hbm, 914, rfl⟩
abbrev main_v527 : Ref sig .tc := ⟨.hbm, 915, rfl⟩
abbrev main_c_183 : Ref sig .tc := ⟨.hbm, 916, rfl⟩
abbrev main_call76_v0 : Ref sig .tc := ⟨.hbm, 917, rfl⟩
abbrev main_call76_v1 : Ref sig .tc := ⟨.hbm, 918, rfl⟩
abbrev main_v528 : Ref sig .tc := ⟨.hbm, 919, rfl⟩
abbrev main_c_184 : Ref sig .tc := ⟨.hbm, 920, rfl⟩
abbrev main_v529 : Ref sig .tc := ⟨.hbm, 921, rfl⟩
abbrev main_v530 : Ref sig .tc := ⟨.hbm, 922, rfl⟩
abbrev main_c_185 : Ref sig .tc := ⟨.hbm, 923, rfl⟩
abbrev main_call77_v0 : Ref sig .tc := ⟨.hbm, 924, rfl⟩
abbrev main_call77_v1 : Ref sig .tc := ⟨.hbm, 925, rfl⟩
abbrev main_v531 : Ref sig .tc := ⟨.hbm, 926, rfl⟩
abbrev main_v532 : Ref sig .tc := ⟨.hbm, 927, rfl⟩
abbrev main_v533 : Ref sig .tc := ⟨.hbm, 928, rfl⟩
abbrev main_v534 : Ref sig .tc := ⟨.hbm, 929, rfl⟩
abbrev main_v535 : Ref sig .tc := ⟨.hbm, 930, rfl⟩
abbrev main_c_186 : Ref sig .tc := ⟨.hbm, 931, rfl⟩
abbrev main_c_187 : Ref sig .tc := ⟨.hbm, 932, rfl⟩
abbrev main_call78_v0 : Ref sig .tc := ⟨.hbm, 933, rfl⟩
abbrev main_call78_v1 : Ref sig .tc := ⟨.hbm, 934, rfl⟩
abbrev main_call78_v2 : Ref sig .tc := ⟨.hbm, 935, rfl⟩
abbrev main_call78_v3 : Ref sig .tc := ⟨.hbm, 936, rfl⟩
abbrev main_call78_v4 : Ref sig .tc := ⟨.hbm, 937, rfl⟩
abbrev main_v536 : Ref sig .tc := ⟨.hbm, 938, rfl⟩
abbrev main_c_188 : Ref sig .tc := ⟨.hbm, 939, rfl⟩
abbrev main_v537 : Ref sig .tc := ⟨.hbm, 940, rfl⟩
abbrev main_v538 : Ref sig .tc := ⟨.hbm, 941, rfl⟩
abbrev main_c_189 : Ref sig .tc := ⟨.hbm, 942, rfl⟩
abbrev main_v539 : Ref sig .tc := ⟨.hbm, 943, rfl⟩
abbrev main_v540 : Ref sig .tc := ⟨.hbm, 944, rfl⟩
abbrev main_v541 : Ref sig .tc := ⟨.hbm, 945, rfl⟩
abbrev main_v542 : Ref sig .tc := ⟨.hbm, 946, rfl⟩
abbrev main_v543 : Ref sig .tc := ⟨.hbm, 947, rfl⟩
abbrev main_c_190 : Ref sig .tc := ⟨.hbm, 948, rfl⟩
abbrev main_call79_v0 : Ref sig .tc := ⟨.hbm, 949, rfl⟩
abbrev main_call79_v1 : Ref sig .tc := ⟨.hbm, 950, rfl⟩
abbrev main_v544 : Ref sig .tc := ⟨.hbm, 951, rfl⟩
abbrev main_v545 : Ref sig .tc := ⟨.hbm, 952, rfl⟩
abbrev main_v546 : Ref sig .tc := ⟨.hbm, 953, rfl⟩
abbrev main_c_191 : Ref sig .tc := ⟨.hbm, 954, rfl⟩
abbrev main_v547 : Ref sig .tc := ⟨.hbm, 955, rfl⟩
abbrev main_v548 : Ref sig .tc := ⟨.hbm, 956, rfl⟩
abbrev main_c_192 : Ref sig .tc := ⟨.hbm, 957, rfl⟩
abbrev main_call80_v0 : Ref sig .tc := ⟨.hbm, 958, rfl⟩
abbrev main_call80_v1 : Ref sig .tc := ⟨.hbm, 959, rfl⟩
abbrev main_v549 : Ref sig .tc := ⟨.hbm, 960, rfl⟩
abbrev main_c_193 : Ref sig .tc := ⟨.hbm, 961, rfl⟩
abbrev main_v550 : Ref sig .tc := ⟨.hbm, 962, rfl⟩
abbrev main_v551 : Ref sig .tc := ⟨.hbm, 963, rfl⟩
abbrev main_c_194 : Ref sig .tc := ⟨.hbm, 964, rfl⟩
abbrev main_v552 : Ref sig .tc := ⟨.hbm, 965, rfl⟩
abbrev main_v553 : Ref sig .tc := ⟨.hbm, 966, rfl⟩
abbrev main_v554 : Ref sig .tc := ⟨.hbm, 967, rfl⟩
abbrev main_v555 : Ref sig .tc := ⟨.hbm, 968, rfl⟩
abbrev main_v556 : Ref sig .tc := ⟨.hbm, 969, rfl⟩
abbrev main_v557 : Ref sig .tc := ⟨.hbm, 970, rfl⟩
abbrev main_v558 : Ref sig .tc := ⟨.hbm, 971, rfl⟩
abbrev main_v559 : Ref sig .tc := ⟨.hbm, 972, rfl⟩
abbrev main_v560 : Ref sig .tc := ⟨.hbm, 973, rfl⟩
abbrev main_c_195 : Ref sig .tc := ⟨.hbm, 974, rfl⟩
abbrev main_call81_v0 : Ref sig .tc := ⟨.hbm, 975, rfl⟩
abbrev main_call81_v1 : Ref sig .tc := ⟨.hbm, 976, rfl⟩
abbrev main_v561 : Ref sig .tc := ⟨.hbm, 977, rfl⟩
abbrev main_c_196 : Ref sig .tc := ⟨.hbm, 978, rfl⟩
abbrev main_v562 : Ref sig .tc := ⟨.hbm, 979, rfl⟩
abbrev main_v563 : Ref sig .tc := ⟨.hbm, 980, rfl⟩
abbrev main_c_197 : Ref sig .tc := ⟨.hbm, 981, rfl⟩
abbrev main_call82_v0 : Ref sig .tc := ⟨.hbm, 982, rfl⟩
abbrev main_call82_v1 : Ref sig .tc := ⟨.hbm, 983, rfl⟩
abbrev main_v564 : Ref sig .tc := ⟨.hbm, 984, rfl⟩
abbrev main_v565 : Ref sig .tc := ⟨.hbm, 985, rfl⟩
abbrev main_v566 : Ref sig .tc := ⟨.hbm, 986, rfl⟩
abbrev main_v567 : Ref sig .tc := ⟨.hbm, 987, rfl⟩
abbrev main_v568 : Ref sig .tc := ⟨.hbm, 988, rfl⟩
abbrev main_c_198 : Ref sig .tc := ⟨.hbm, 989, rfl⟩
abbrev main_c_199 : Ref sig .tc := ⟨.hbm, 990, rfl⟩
abbrev main_call83_v0 : Ref sig .tc := ⟨.hbm, 991, rfl⟩
abbrev main_call83_v1 : Ref sig .tc := ⟨.hbm, 992, rfl⟩
abbrev main_call83_v2 : Ref sig .tc := ⟨.hbm, 993, rfl⟩
abbrev main_call83_v3 : Ref sig .tc := ⟨.hbm, 994, rfl⟩
abbrev main_call83_v4 : Ref sig .tc := ⟨.hbm, 995, rfl⟩
abbrev main_v569 : Ref sig .tc := ⟨.hbm, 996, rfl⟩
abbrev main_c_200 : Ref sig .tc := ⟨.hbm, 997, rfl⟩
abbrev main_v570 : Ref sig .tc := ⟨.hbm, 998, rfl⟩
abbrev main_v571 : Ref sig .tc := ⟨.hbm, 999, rfl⟩
abbrev main_c_201 : Ref sig .tc := ⟨.hbm, 1000, rfl⟩
abbrev main_v572 : Ref sig .tc := ⟨.hbm, 1001, rfl⟩
abbrev main_v573 : Ref sig .tc := ⟨.hbm, 1002, rfl⟩
abbrev main_v574 : Ref sig .tc := ⟨.hbm, 1003, rfl⟩
abbrev main_v575 : Ref sig .tc := ⟨.hbm, 1004, rfl⟩
abbrev main_v576 : Ref sig .tc := ⟨.hbm, 1005, rfl⟩
abbrev main_c_202 : Ref sig .tc := ⟨.hbm, 1006, rfl⟩
abbrev main_call84_v0 : Ref sig .tc := ⟨.hbm, 1007, rfl⟩
abbrev main_call84_v1 : Ref sig .tc := ⟨.hbm, 1008, rfl⟩
abbrev main_v577 : Ref sig .tc := ⟨.hbm, 1009, rfl⟩
abbrev main_v578 : Ref sig .tc := ⟨.hbm, 1010, rfl⟩
abbrev main_v579 : Ref sig .tc := ⟨.hbm, 1011, rfl⟩
abbrev main_c_203 : Ref sig .tc := ⟨.hbm, 1012, rfl⟩
abbrev main_v580 : Ref sig .tc := ⟨.hbm, 1013, rfl⟩
abbrev main_v581 : Ref sig .tc := ⟨.hbm, 1014, rfl⟩
abbrev main_c_204 : Ref sig .tc := ⟨.hbm, 1015, rfl⟩
abbrev main_call85_v0 : Ref sig .tc := ⟨.hbm, 1016, rfl⟩
abbrev main_call85_v1 : Ref sig .tc := ⟨.hbm, 1017, rfl⟩
abbrev main_v582 : Ref sig .tc := ⟨.hbm, 1018, rfl⟩
abbrev main_c_205 : Ref sig .tc := ⟨.hbm, 1019, rfl⟩
abbrev main_v583 : Ref sig .tc := ⟨.hbm, 1020, rfl⟩
abbrev main_v584 : Ref sig .tc := ⟨.hbm, 1021, rfl⟩
abbrev main_c_206 : Ref sig .tc := ⟨.hbm, 1022, rfl⟩
abbrev main_v585 : Ref sig .tc := ⟨.hbm, 1023, rfl⟩
abbrev main_v586 : Ref sig .tc := ⟨.hbm, 1024, rfl⟩
abbrev main_v587 : Ref sig .tc := ⟨.hbm, 1025, rfl⟩
abbrev main_v588 : Ref sig .tc := ⟨.hbm, 1026, rfl⟩
abbrev main_v589 : Ref sig .tc := ⟨.hbm, 1027, rfl⟩
abbrev main_v590 : Ref sig .tc := ⟨.hbm, 1028, rfl⟩
abbrev main_v591 : Ref sig .tc := ⟨.hbm, 1029, rfl⟩
abbrev main_v592 : Ref sig .tc := ⟨.hbm, 1030, rfl⟩
abbrev main_v593 : Ref sig .tc := ⟨.hbm, 1031, rfl⟩
abbrev main_c_207 : Ref sig .tc := ⟨.hbm, 1032, rfl⟩
abbrev main_call86_v0 : Ref sig .tc := ⟨.hbm, 1033, rfl⟩
abbrev main_call86_v1 : Ref sig .tc := ⟨.hbm, 1034, rfl⟩
abbrev main_v594 : Ref sig .tc := ⟨.hbm, 1035, rfl⟩
abbrev main_c_208 : Ref sig .tc := ⟨.hbm, 1036, rfl⟩
abbrev main_v595 : Ref sig .tc := ⟨.hbm, 1037, rfl⟩
abbrev main_v596 : Ref sig .tc := ⟨.hbm, 1038, rfl⟩
abbrev main_c_209 : Ref sig .tc := ⟨.hbm, 1039, rfl⟩
abbrev main_call87_v0 : Ref sig .tc := ⟨.hbm, 1040, rfl⟩
abbrev main_call87_v1 : Ref sig .tc := ⟨.hbm, 1041, rfl⟩
abbrev main_v597 : Ref sig .tc := ⟨.hbm, 1042, rfl⟩
abbrev main_v598 : Ref sig .tc := ⟨.hbm, 1043, rfl⟩
abbrev main_v599 : Ref sig .tc := ⟨.hbm, 1044, rfl⟩
abbrev main_v600 : Ref sig .tc := ⟨.hbm, 1045, rfl⟩
abbrev main_v601 : Ref sig .tc := ⟨.hbm, 1046, rfl⟩
abbrev main_c_210 : Ref sig .tc := ⟨.hbm, 1047, rfl⟩
abbrev main_c_211 : Ref sig .tc := ⟨.hbm, 1048, rfl⟩
abbrev main_call88_v0 : Ref sig .tc := ⟨.hbm, 1049, rfl⟩
abbrev main_call88_v1 : Ref sig .tc := ⟨.hbm, 1050, rfl⟩
abbrev main_call88_v2 : Ref sig .tc := ⟨.hbm, 1051, rfl⟩
abbrev main_call88_v3 : Ref sig .tc := ⟨.hbm, 1052, rfl⟩
abbrev main_call88_v4 : Ref sig .tc := ⟨.hbm, 1053, rfl⟩
abbrev main_v602 : Ref sig .tc := ⟨.hbm, 1054, rfl⟩
abbrev main_c_212 : Ref sig .tc := ⟨.hbm, 1055, rfl⟩
abbrev main_v603 : Ref sig .tc := ⟨.hbm, 1056, rfl⟩
abbrev main_v604 : Ref sig .tc := ⟨.hbm, 1057, rfl⟩
abbrev main_c_213 : Ref sig .tc := ⟨.hbm, 1058, rfl⟩
abbrev main_v605 : Ref sig .tc := ⟨.hbm, 1059, rfl⟩
abbrev main_v606 : Ref sig .tc := ⟨.hbm, 1060, rfl⟩
abbrev main_v607 : Ref sig .tc := ⟨.hbm, 1061, rfl⟩
abbrev main_v608 : Ref sig .tc := ⟨.hbm, 1062, rfl⟩
abbrev main_v609 : Ref sig .tc := ⟨.hbm, 1063, rfl⟩
abbrev main_c_214 : Ref sig .tc := ⟨.hbm, 1064, rfl⟩
abbrev main_call89_v0 : Ref sig .tc := ⟨.hbm, 1065, rfl⟩
abbrev main_call89_v1 : Ref sig .tc := ⟨.hbm, 1066, rfl⟩
abbrev main_v610 : Ref sig .tc := ⟨.hbm, 1067, rfl⟩
abbrev main_v611 : Ref sig .tc := ⟨.hbm, 1068, rfl⟩
abbrev main_v612 : Ref sig .tc := ⟨.hbm, 1069, rfl⟩
abbrev main_c_215 : Ref sig .tc := ⟨.hbm, 1070, rfl⟩
abbrev main_v613 : Ref sig .tc := ⟨.hbm, 1071, rfl⟩
abbrev main_v614 : Ref sig .tc := ⟨.hbm, 1072, rfl⟩
abbrev main_c_216 : Ref sig .tc := ⟨.hbm, 1073, rfl⟩
abbrev main_call90_v0 : Ref sig .tc := ⟨.hbm, 1074, rfl⟩
abbrev main_call90_v1 : Ref sig .tc := ⟨.hbm, 1075, rfl⟩
abbrev main_v615 : Ref sig .tc := ⟨.hbm, 1076, rfl⟩
abbrev main_c_217 : Ref sig .tc := ⟨.hbm, 1077, rfl⟩
abbrev main_v616 : Ref sig .tc := ⟨.hbm, 1078, rfl⟩
abbrev main_v617 : Ref sig .tc := ⟨.hbm, 1079, rfl⟩
abbrev main_c_218 : Ref sig .tc := ⟨.hbm, 1080, rfl⟩
abbrev main_v618 : Ref sig .tc := ⟨.hbm, 1081, rfl⟩
abbrev main_v619 : Ref sig .tc := ⟨.hbm, 1082, rfl⟩
abbrev main_v620 : Ref sig .tc := ⟨.hbm, 1083, rfl⟩
abbrev main_v621 : Ref sig .tc := ⟨.hbm, 1084, rfl⟩
abbrev main_v622 : Ref sig .tc := ⟨.hbm, 1085, rfl⟩
abbrev main_v623 : Ref sig .tc := ⟨.hbm, 1086, rfl⟩
abbrev main_v624 : Ref sig .tc := ⟨.hbm, 1087, rfl⟩
abbrev main_v625 : Ref sig .tc := ⟨.hbm, 1088, rfl⟩
abbrev main_v626 : Ref sig .tc := ⟨.hbm, 1089, rfl⟩
abbrev main_c_219 : Ref sig .tc := ⟨.hbm, 1090, rfl⟩
abbrev main_call91_v0 : Ref sig .tc := ⟨.hbm, 1091, rfl⟩
abbrev main_call91_v1 : Ref sig .tc := ⟨.hbm, 1092, rfl⟩
abbrev main_v627 : Ref sig .tc := ⟨.hbm, 1093, rfl⟩
abbrev main_c_220 : Ref sig .tc := ⟨.hbm, 1094, rfl⟩
abbrev main_v628 : Ref sig .tc := ⟨.hbm, 1095, rfl⟩
abbrev main_v629 : Ref sig .tc := ⟨.hbm, 1096, rfl⟩
abbrev main_c_221 : Ref sig .tc := ⟨.hbm, 1097, rfl⟩
abbrev main_call92_v0 : Ref sig .tc := ⟨.hbm, 1098, rfl⟩
abbrev main_call92_v1 : Ref sig .tc := ⟨.hbm, 1099, rfl⟩
abbrev main_v630 : Ref sig .tc := ⟨.hbm, 1100, rfl⟩
abbrev main_v631 : Ref sig .tc := ⟨.hbm, 1101, rfl⟩
abbrev main_v632 : Ref sig .tc := ⟨.hbm, 1102, rfl⟩
abbrev main_v633 : Ref sig .tc := ⟨.hbm, 1103, rfl⟩
abbrev main_v634 : Ref sig .tc := ⟨.hbm, 1104, rfl⟩
abbrev main_c_222 : Ref sig .tc := ⟨.hbm, 1105, rfl⟩
abbrev main_c_223 : Ref sig .tc := ⟨.hbm, 1106, rfl⟩
abbrev main_call93_v0 : Ref sig .tc := ⟨.hbm, 1107, rfl⟩
abbrev main_call93_v1 : Ref sig .tc := ⟨.hbm, 1108, rfl⟩
abbrev main_call93_v2 : Ref sig .tc := ⟨.hbm, 1109, rfl⟩
abbrev main_call93_v3 : Ref sig .tc := ⟨.hbm, 1110, rfl⟩
abbrev main_call93_v4 : Ref sig .tc := ⟨.hbm, 1111, rfl⟩
abbrev main_v635 : Ref sig .tc := ⟨.hbm, 1112, rfl⟩
abbrev main_c_224 : Ref sig .tc := ⟨.hbm, 1113, rfl⟩
abbrev main_v636 : Ref sig .tc := ⟨.hbm, 1114, rfl⟩
abbrev main_v637 : Ref sig .tc := ⟨.hbm, 1115, rfl⟩
abbrev main_c_225 : Ref sig .tc := ⟨.hbm, 1116, rfl⟩
abbrev main_v638 : Ref sig .tc := ⟨.hbm, 1117, rfl⟩
abbrev main_v639 : Ref sig .tc := ⟨.hbm, 1118, rfl⟩
abbrev main_v640 : Ref sig .tc := ⟨.hbm, 1119, rfl⟩
abbrev main_v641 : Ref sig .tc := ⟨.hbm, 1120, rfl⟩
abbrev main_v642 : Ref sig .tc := ⟨.hbm, 1121, rfl⟩
abbrev main_c_226 : Ref sig .tc := ⟨.hbm, 1122, rfl⟩
abbrev main_call94_v0 : Ref sig .tc := ⟨.hbm, 1123, rfl⟩
abbrev main_call94_v1 : Ref sig .tc := ⟨.hbm, 1124, rfl⟩
abbrev main_v643 : Ref sig .tc := ⟨.hbm, 1125, rfl⟩
abbrev main_v644 : Ref sig .tc := ⟨.hbm, 1126, rfl⟩
abbrev main_v645 : Ref sig .tc := ⟨.hbm, 1127, rfl⟩
abbrev main_c_227 : Ref sig .tc := ⟨.hbm, 1128, rfl⟩
abbrev main_v646 : Ref sig .tc := ⟨.hbm, 1129, rfl⟩
abbrev main_v647 : Ref sig .tc := ⟨.hbm, 1130, rfl⟩
abbrev main_c_228 : Ref sig .tc := ⟨.hbm, 1131, rfl⟩
abbrev main_call95_v0 : Ref sig .tc := ⟨.hbm, 1132, rfl⟩
abbrev main_call95_v1 : Ref sig .tc := ⟨.hbm, 1133, rfl⟩
abbrev main_v648 : Ref sig .tc := ⟨.hbm, 1134, rfl⟩
abbrev main_c_229 : Ref sig .tc := ⟨.hbm, 1135, rfl⟩
abbrev main_v649 : Ref sig .tc := ⟨.hbm, 1136, rfl⟩
abbrev main_v650 : Ref sig .tc := ⟨.hbm, 1137, rfl⟩
abbrev main_c_230 : Ref sig .tc := ⟨.hbm, 1138, rfl⟩
abbrev main_v651 : Ref sig .tc := ⟨.hbm, 1139, rfl⟩
abbrev main_v652 : Ref sig .tc := ⟨.hbm, 1140, rfl⟩
abbrev main_v653 : Ref sig .tc := ⟨.hbm, 1141, rfl⟩
abbrev main_v654 : Ref sig .tc := ⟨.hbm, 1142, rfl⟩
abbrev main_v655 : Ref sig .tc := ⟨.hbm, 1143, rfl⟩
abbrev main_v656 : Ref sig .tc := ⟨.hbm, 1144, rfl⟩
abbrev main_v657 : Ref sig .tc := ⟨.hbm, 1145, rfl⟩
abbrev main_v658 : Ref sig .tc := ⟨.hbm, 1146, rfl⟩
abbrev main_v659 : Ref sig .tc := ⟨.hbm, 1147, rfl⟩
abbrev main_c_231 : Ref sig .tc := ⟨.hbm, 1148, rfl⟩
abbrev main_call96_v0 : Ref sig .tc := ⟨.hbm, 1149, rfl⟩
abbrev main_call96_v1 : Ref sig .tc := ⟨.hbm, 1150, rfl⟩
abbrev main_v660 : Ref sig .tc := ⟨.hbm, 1151, rfl⟩
abbrev main_c_232 : Ref sig .tc := ⟨.hbm, 1152, rfl⟩
abbrev main_v661 : Ref sig .tc := ⟨.hbm, 1153, rfl⟩
abbrev main_v662 : Ref sig .tc := ⟨.hbm, 1154, rfl⟩
abbrev main_c_233 : Ref sig .tc := ⟨.hbm, 1155, rfl⟩
abbrev main_call97_v0 : Ref sig .tc := ⟨.hbm, 1156, rfl⟩
abbrev main_call97_v1 : Ref sig .tc := ⟨.hbm, 1157, rfl⟩
abbrev main_v663 : Ref sig .tc := ⟨.hbm, 1158, rfl⟩
abbrev main_v664 : Ref sig .tc := ⟨.hbm, 1159, rfl⟩
abbrev main_v665 : Ref sig .tc := ⟨.hbm, 1160, rfl⟩
abbrev main_v666 : Ref sig .tc := ⟨.hbm, 1161, rfl⟩
abbrev main_v667 : Ref sig .tc := ⟨.hbm, 1162, rfl⟩
abbrev main_c_234 : Ref sig .tc := ⟨.hbm, 1163, rfl⟩
abbrev main_c_235 : Ref sig .tc := ⟨.hbm, 1164, rfl⟩
abbrev main_call98_v0 : Ref sig .tc := ⟨.hbm, 1165, rfl⟩
abbrev main_call98_v1 : Ref sig .tc := ⟨.hbm, 1166, rfl⟩
abbrev main_call98_v2 : Ref sig .tc := ⟨.hbm, 1167, rfl⟩
abbrev main_call98_v3 : Ref sig .tc := ⟨.hbm, 1168, rfl⟩
abbrev main_call98_v4 : Ref sig .tc := ⟨.hbm, 1169, rfl⟩
abbrev main_v668 : Ref sig .tc := ⟨.hbm, 1170, rfl⟩
abbrev main_c_236 : Ref sig .tc := ⟨.hbm, 1171, rfl⟩
abbrev main_v669 : Ref sig .tc := ⟨.hbm, 1172, rfl⟩
abbrev main_v670 : Ref sig .tc := ⟨.hbm, 1173, rfl⟩
abbrev main_c_237 : Ref sig .tc := ⟨.hbm, 1174, rfl⟩
abbrev main_v671 : Ref sig .tc := ⟨.hbm, 1175, rfl⟩
abbrev main_v672 : Ref sig .tc := ⟨.hbm, 1176, rfl⟩
abbrev main_v673 : Ref sig .tc := ⟨.hbm, 1177, rfl⟩
abbrev main_v674 : Ref sig .tc := ⟨.hbm, 1178, rfl⟩
abbrev main_v675 : Ref sig .tc := ⟨.hbm, 1179, rfl⟩
abbrev main_c_238 : Ref sig .tc := ⟨.hbm, 1180, rfl⟩
abbrev main_call99_v0 : Ref sig .tc := ⟨.hbm, 1181, rfl⟩
abbrev main_call99_v1 : Ref sig .tc := ⟨.hbm, 1182, rfl⟩
abbrev main_v676 : Ref sig .tc := ⟨.hbm, 1183, rfl⟩
abbrev main_v677 : Ref sig .tc := ⟨.hbm, 1184, rfl⟩
abbrev main_v678 : Ref sig .tc := ⟨.hbm, 1185, rfl⟩
abbrev main_v679 : Ref sig .tc := ⟨.hbm, 1186, rfl⟩
abbrev main_v680 : Ref sig .tc := ⟨.hbm, 1187, rfl⟩
abbrev main_v681 : Ref sig .tc := ⟨.hbm, 1188, rfl⟩
abbrev main_v682 : Ref sig .tc := ⟨.hbm, 1189, rfl⟩
abbrev main_v683 : Ref sig .tc := ⟨.hbm, 1190, rfl⟩
abbrev main_v684 : Ref sig .tc := ⟨.hbm, 1191, rfl⟩
abbrev main_v685 : Ref sig .tc := ⟨.hbm, 1192, rfl⟩
abbrev main_v686 : Ref sig .tc := ⟨.hbm, 1193, rfl⟩
abbrev main_v687 : Ref sig .tc := ⟨.hbm, 1194, rfl⟩
abbrev main_v688 : Ref sig .tc := ⟨.hbm, 1195, rfl⟩
abbrev main_v689 : Ref sig .tc := ⟨.hbm, 1196, rfl⟩
abbrev main_v690 : Ref sig .tc := ⟨.hbm, 1197, rfl⟩
abbrev main_v691 : Ref sig .tc := ⟨.hbm, 1198, rfl⟩
abbrev main_v692 : Ref sig .tc := ⟨.hbm, 1199, rfl⟩
abbrev main_v693 : Ref sig .tc := ⟨.hbm, 1200, rfl⟩
abbrev main_v694 : Ref sig .tc := ⟨.hbm, 1201, rfl⟩
abbrev main_v695 : Ref sig .tc := ⟨.hbm, 1202, rfl⟩
abbrev main_v696 : Ref sig .tc := ⟨.hbm, 1203, rfl⟩
abbrev main_v697 : Ref sig .tc := ⟨.hbm, 1204, rfl⟩
abbrev main_v698 : Ref sig .tc := ⟨.hbm, 1205, rfl⟩
abbrev main_v699 : Ref sig .tc := ⟨.hbm, 1206, rfl⟩
abbrev main_v700 : Ref sig .tc := ⟨.hbm, 1207, rfl⟩
abbrev main_v701 : Ref sig .tc := ⟨.hbm, 1208, rfl⟩
abbrev main_v702 : Ref sig .tc := ⟨.hbm, 1209, rfl⟩
abbrev main_v703 : Ref sig .tc := ⟨.hbm, 1210, rfl⟩
abbrev main_v704 : Ref sig .tc := ⟨.hbm, 1211, rfl⟩
abbrev main_v705 : Ref sig .tc := ⟨.hbm, 1212, rfl⟩
abbrev main_v706_0 : Ref sig .tc := ⟨.hbm, 1213, rfl⟩
abbrev main_v706_1 : Ref sig .tc := ⟨.hbm, 1214, rfl⟩
abbrev main_v707 : Ref sig .tc := ⟨.hbm, 1215, rfl⟩
abbrev main_v708 : Ref sig .tc := ⟨.hbm, 1216, rfl⟩
abbrev main_v709 : Ref sig .tc := ⟨.hbm, 1217, rfl⟩
abbrev main_v710 : Ref sig .tc := ⟨.hbm, 1218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S21x12800 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x12800 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S15x7x12800 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S15x7x12800 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S3551_S3550_0 : S3551.Slices ![0] S3550
  slices_S3551_S3550_1 : S3551.Slices ![1] S3550
  bcast_S3550_S3550x1_0 : S3550.BroadcastsInDim S3550x1 (![0] : Fin 1 → Fin S3550x1.rank)
  concatenates_S3550x1_S3550x1_S3550x2_d1 : Shape.Concatenates [S3550x1, S3550x1] S3550x2 1
  slices_S20001_S20000_0 : S20001.Slices ![0] S20000
  slices_S20001_S20000_1 : S20001.Slices ![1] S20000
  bcast_S20000_S20000x1_0 : S20000.BroadcastsInDim S20000x1 (![0] : Fin 1 → Fin S20000x1.rank)
  concatenates_S20000x1_S20000x1_S20000x2_d1 : Shape.Concatenates [S20000x1, S20000x1] S20000x2 1
  shapeCasts_S2048_S1x2048 : S2048.ShapeCasts S1x2048
  bcast_S1x2048_S100x2048_0_1 : S1x2048.BroadcastsInDim S100x2048 (![0, 1] : Fin 2 → Fin S100x2048.rank)
  shapeCasts_S100x2048_S204800 : S100x2048.ShapeCasts S204800
  slices_S204800x20_S204800x1_0_0 : S204800x20.Slices ![0, 0] S204800x1
  shapeCasts_S204800x1_S204800 : S204800x1.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  slices_S204800x2_S204800x1_0_0 : S204800x2.Slices ![0, 0] S204800x1
  slices_S204800x2_S204800x1_0_1 : S204800x2.Slices ![0, 1] S204800x1
  slices_S204800x20_S204800x1_0_1 : S204800x20.Slices ![0, 1] S204800x1
  slices_S204800x20_S204800x1_0_2 : S204800x20.Slices ![0, 2] S204800x1
  slices_S204800x20_S204800x1_0_3 : S204800x20.Slices ![0, 3] S204800x1
  slices_S204800x20_S204800x1_0_4 : S204800x20.Slices ![0, 4] S204800x1
  slices_S204800x20_S204800x1_0_5 : S204800x20.Slices ![0, 5] S204800x1
  slices_S204800x20_S204800x1_0_6 : S204800x20.Slices ![0, 6] S204800x1
  slices_S204800x20_S204800x1_0_7 : S204800x20.Slices ![0, 7] S204800x1
  slices_S204800x20_S204800x1_0_8 : S204800x20.Slices ![0, 8] S204800x1
  slices_S204800x20_S204800x1_0_9 : S204800x20.Slices ![0, 9] S204800x1
  slices_S204800x20_S204800x1_0_10 : S204800x20.Slices ![0, 10] S204800x1
  slices_S204800x20_S204800x1_0_11 : S204800x20.Slices ![0, 11] S204800x1
  slices_S204800x20_S204800x1_0_12 : S204800x20.Slices ![0, 12] S204800x1
  slices_S204800x20_S204800x1_0_13 : S204800x20.Slices ![0, 13] S204800x1
  slices_S204800x20_S204800x1_0_14 : S204800x20.Slices ![0, 14] S204800x1
  slices_S204800x20_S204800x1_0_15 : S204800x20.Slices ![0, 15] S204800x1
  slices_S204800x20_S204800x1_0_16 : S204800x20.Slices ![0, 16] S204800x1
  slices_S204800x20_S204800x1_0_17 : S204800x20.Slices ![0, 17] S204800x1
  slices_S204800x20_S204800x1_0_18 : S204800x20.Slices ![0, 18] S204800x1
  slices_S204800x20_S204800x1_0_19 : S204800x20.Slices ![0, 19] S204800x1
  bcast_S204800_S1x204800_1 : S204800.BroadcastsInDim S1x204800 (![1] : Fin 1 → Fin S1x204800.rank)
  concatenates_S1x204800_S1x204800_S1x204800_S1x204800_S1x204800_S1x204800_S1x204800_S1x204800_S1x204800_S1x204800_S1x204800_S1x204800_S1x204800_S1x204800_S1x204800_S1x204800_S16x204800_d0 : Shape.Concatenates [S1x204800, S1x204800, S1x204800, S1x204800, S1x204800, S1x204800, S1x204800, S1x204800, S1x204800, S1x204800, S1x204800, S1x204800, S1x204800, S1x204800, S1x204800, S1x204800] S16x204800 0
  concatenates_S1x204800_S1x204800_S1x204800_S1x204800_S1x204800_S5x204800_d0 : Shape.Concatenates [S1x204800, S1x204800, S1x204800, S1x204800, S1x204800] S5x204800 0
  concatenates_S16x204800_S5x204800_S21x204800_d0 : Shape.Concatenates [S16x204800, S5x204800] S21x204800 0
  transposes_S204800x20_S20x204800_1_0 : S204800x20.Transposes [1, 0] S20x204800
  shapeCasts_S204800_S1x204800 : S204800.ShapeCasts S1x204800
  inb_S21x12800_S21x12800_0_0 : ∀ a, (![0, 0] : Fin 2 → Nat) a + S21x12800.size a ≤ S21x12800.size a
  h_S21x12800 : 0 < S21x12800.numel
  shapeCasts_S21x12800_S21x12800 : S21x12800.ShapeCasts S21x12800
  iota_S21x12800_d0_w32 : S21x12800.Iotas .tc 32 [0]
  slices_S21x12800_o0_0_S7x12800 : S21x12800.Slices ![0, 0] S7x12800
  inb_S15x7x12800_S1x7x12800_0_0_0 : ∀ a, (![0, 0, 0] : Fin 3 → Nat) a + S1x7x12800.size a ≤ S15x7x12800.size a
  h_S1x7x12800 : 0 < S1x7x12800.numel
  shapeCasts_S1x7x12800_S7x12800 : S1x7x12800.ShapeCasts S7x12800
  shapeCasts_S7x12800_S1x7x12800 : S7x12800.ShapeCasts S1x7x12800
  slices_S21x12800_o1_0_S7x12800 : S21x12800.Slices ![1, 0] S7x12800
  inb_S15x7x12800_S1x7x12800_1_0_0 : ∀ a, (![1, 0, 0] : Fin 3 → Nat) a + S1x7x12800.size a ≤ S15x7x12800.size a
  slices_S21x12800_o2_0_S7x12800 : S21x12800.Slices ![2, 0] S7x12800
  inb_S15x7x12800_S1x7x12800_2_0_0 : ∀ a, (![2, 0, 0] : Fin 3 → Nat) a + S1x7x12800.size a ≤ S15x7x12800.size a
  slices_S21x12800_o3_0_S7x12800 : S21x12800.Slices ![3, 0] S7x12800
  inb_S15x7x12800_S1x7x12800_3_0_0 : ∀ a, (![3, 0, 0] : Fin 3 → Nat) a + S1x7x12800.size a ≤ S15x7x12800.size a
  slices_S21x12800_o4_0_S7x12800 : S21x12800.Slices ![4, 0] S7x12800
  inb_S15x7x12800_S1x7x12800_4_0_0 : ∀ a, (![4, 0, 0] : Fin 3 → Nat) a + S1x7x12800.size a ≤ S15x7x12800.size a
  slices_S21x12800_o5_0_S7x12800 : S21x12800.Slices ![5, 0] S7x12800
  inb_S15x7x12800_S1x7x12800_5_0_0 : ∀ a, (![5, 0, 0] : Fin 3 → Nat) a + S1x7x12800.size a ≤ S15x7x12800.size a
  slices_S21x12800_o6_0_S7x12800 : S21x12800.Slices ![6, 0] S7x12800
  inb_S15x7x12800_S1x7x12800_6_0_0 : ∀ a, (![6, 0, 0] : Fin 3 → Nat) a + S1x7x12800.size a ≤ S15x7x12800.size a
  slices_S21x12800_o7_0_S7x12800 : S21x12800.Slices ![7, 0] S7x12800
  inb_S15x7x12800_S1x7x12800_7_0_0 : ∀ a, (![7, 0, 0] : Fin 3 → Nat) a + S1x7x12800.size a ≤ S15x7x12800.size a
  slices_S21x12800_o8_0_S7x12800 : S21x12800.Slices ![8, 0] S7x12800
  inb_S15x7x12800_S1x7x12800_8_0_0 : ∀ a, (![8, 0, 0] : Fin 3 → Nat) a + S1x7x12800.size a ≤ S15x7x12800.size a
  slices_S21x12800_o9_0_S7x12800 : S21x12800.Slices ![9, 0] S7x12800
  inb_S15x7x12800_S1x7x12800_9_0_0 : ∀ a, (![9, 0, 0] : Fin 3 → Nat) a + S1x7x12800.size a ≤ S15x7x12800.size a
  slices_S21x12800_o10_0_S7x12800 : S21x12800.Slices ![10, 0] S7x12800
  inb_S15x7x12800_S1x7x12800_10_0_0 : ∀ a, (![10, 0, 0] : Fin 3 → Nat) a + S1x7x12800.size a ≤ S15x7x12800.size a
  slices_S21x12800_o11_0_S7x12800 : S21x12800.Slices ![11, 0] S7x12800
  inb_S15x7x12800_S1x7x12800_11_0_0 : ∀ a, (![11, 0, 0] : Fin 3 → Nat) a + S1x7x12800.size a ≤ S15x7x12800.size a
  slices_S21x12800_o12_0_S7x12800 : S21x12800.Slices ![12, 0] S7x12800
  inb_S15x7x12800_S1x7x12800_12_0_0 : ∀ a, (![12, 0, 0] : Fin 3 → Nat) a + S1x7x12800.size a ≤ S15x7x12800.size a
  slices_S21x12800_o13_0_S7x12800 : S21x12800.Slices ![13, 0] S7x12800
  inb_S15x7x12800_S1x7x12800_13_0_0 : ∀ a, (![13, 0, 0] : Fin 3 → Nat) a + S1x7x12800.size a ≤ S15x7x12800.size a
  slices_S21x12800_o14_0_S7x12800 : S21x12800.Slices ![14, 0] S7x12800
  inb_S15x7x12800_S1x7x12800_14_0_0 : ∀ a, (![14, 0, 0] : Fin 3 → Nat) a + S1x7x12800.size a ≤ S15x7x12800.size a
  inb_S20x12800_S20x12800_0_0 : ∀ a, (![0, 0] : Fin 2 → Nat) a + S20x12800.size a ≤ S20x12800.size a
  h_S20x12800 : 0 < S20x12800.numel
  shapeCasts_S20x12800_S20x12800 : S20x12800.ShapeCasts S20x12800
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  iota_S20x12800_d0_w32 : S20x12800.Iotas .tc 32 [0]
  inb_S15x7x12800_S1x1x12800_0_0_0 : ∀ a, (![0, 0, 0] : Fin 3 → Nat) a + S1x1x12800.size a ≤ S15x7x12800.size a
  h_S1x1x12800 : 0 < S1x1x12800.numel
  shapeCasts_S1x1x12800_S1x12800 : S1x1x12800.ShapeCasts S1x12800
  shapeCasts_S1x12800_S1x1x12800 : S1x12800.ShapeCasts S1x1x12800
  slices_S20x12800_o0_0_S6x12800 : S20x12800.Slices ![0, 0] S6x12800
  inb_S15x7x12800_S1x6x12800_0_1_0 : ∀ a, (![0, 1, 0] : Fin 3 → Nat) a + S1x6x12800.size a ≤ S15x7x12800.size a
  h_S1x6x12800 : 0 < S1x6x12800.numel
  shapeCasts_S1x6x12800_S6x12800 : S1x6x12800.ShapeCasts S6x12800
  shapeCasts_S6x12800_S1x6x12800 : S6x12800.ShapeCasts S1x6x12800
  slices_S20x12800_o0_0_S7x12800 : S20x12800.Slices ![0, 0] S7x12800
  slices_S20x12800_o1_0_S7x12800 : S20x12800.Slices ![1, 0] S7x12800
  slices_S20x12800_o2_0_S7x12800 : S20x12800.Slices ![2, 0] S7x12800
  slices_S20x12800_o3_0_S7x12800 : S20x12800.Slices ![3, 0] S7x12800
  slices_S20x12800_o4_0_S7x12800 : S20x12800.Slices ![4, 0] S7x12800
  slices_S20x12800_o5_0_S7x12800 : S20x12800.Slices ![5, 0] S7x12800
  slices_S20x12800_o6_0_S7x12800 : S20x12800.Slices ![6, 0] S7x12800
  slices_S20x12800_o7_0_S7x12800 : S20x12800.Slices ![7, 0] S7x12800
  slices_S20x12800_o8_0_S7x12800 : S20x12800.Slices ![8, 0] S7x12800
  slices_S20x12800_o9_0_S7x12800 : S20x12800.Slices ![9, 0] S7x12800
  slices_S20x12800_o10_0_S7x12800 : S20x12800.Slices ![10, 0] S7x12800
  slices_S20x12800_o11_0_S7x12800 : S20x12800.Slices ![11, 0] S7x12800
  slices_S20x12800_o12_0_S7x12800 : S20x12800.Slices ![12, 0] S7x12800
  slices_S20x12800_o13_0_S7x12800 : S20x12800.Slices ![13, 0] S7x12800
  transposes_S15x7x204800_S15x204800x7_0_2_1 : S15x7x204800.Transposes [0, 2, 1] S15x204800x7
  shapeCasts_S15x204800x7_S3072000x7 : S15x204800x7.ShapeCasts S3072000x7
  gather_S3550x2_S204800x1_S204800x2_1_0_n_n_0_1_12_wf : GatherDims.WF S3550x2 S204800x1 S204800x2 [1] [0] [] [0] [] 1 ![1, 2]
  gather_S217264_S204800x1_S204800_n_0_n_n_0_1_1_wf : GatherDims.WF S217264 S204800x1 S204800 [] [0] [] [0] [] 1 ![1]
  gather_S20000x2_S204800x1_S204800x2_1_0_n_n_0_1_12_wf : GatherDims.WF S20000x2 S204800x1 S204800x2 [1] [0] [] [0] [] 1 ![1, 2]
  gather_S302235_S204800x1_S204800_n_0_n_n_0_1_1_wf : GatherDims.WF S302235 S204800x1 S204800 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S21x12800.size a ≤ S21x204800.size a
  hwx0_0 : ∀ i : grid0.Coords, EltTy.bits .i32 = 32 ∨ (Rect.block (s := S21x204800) S21x12800.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x12800.size a ≤ S20x204800.size a
  hwx0_1 : ∀ i : grid0.Coords, EltTy.bits .f32 = 32 ∨ (Rect.block (s := S20x204800) S20x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12800.size a ≤ S1x204800.size a
  hwx0_2 : ∀ i : grid0.Coords, EltTy.bits .i32 = 32 ∨ (Rect.block (s := S1x204800) S1x12800.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S15x7x12800.size a ≤ S15x7x204800.size a
  hwx0_3 : ∀ i : grid0.Coords, EltTy.bits .i32 = 32 ∨ (Rect.block (s := S15x7x204800) S15x7x12800.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S15x7x12800.size a ≤ S15x7x204800.size a
  hwx0_4 : ∀ i : grid0.Coords, EltTy.bits .i32 = 32 ∨ (Rect.block (s := S15x7x204800) S15x7x12800.size (cc0_transform_4 i) (hinb0_4 i)).WholeWords (EltTy.packing .i32)

variable [Facts₀]

def gather_S3550x2_S204800x1_S204800x2_1_0_n_n_0_1_12 : GatherDims S3550x2 S204800x1 S204800x2 where
  offsetDims := [1]
  collapsedSliceDims := [0]
  operandBatchingDims := []
  startIndicesBatchingDims := []
  startIndexMap := [0]
  indexVectorDim := 1
  sliceSizes := ![1, 2]
  wf := gather_S3550x2_S204800x1_S204800x2_1_0_n_n_0_1_12_wf
def gather_S217264_S204800x1_S204800_n_0_n_n_0_1_1 : GatherDims S217264 S204800x1 S204800 where
  offsetDims := []
  collapsedSliceDims := [0]
  operandBatchingDims := []
  startIndicesBatchingDims := []
  startIndexMap := [0]
  indexVectorDim := 1
  sliceSizes := ![1]
  wf := gather_S217264_S204800x1_S204800_n_0_n_n_0_1_1_wf
def gather_S20000x2_S204800x1_S204800x2_1_0_n_n_0_1_12 : GatherDims S20000x2 S204800x1 S204800x2 where
  offsetDims := [1]
  collapsedSliceDims := [0]
  operandBatchingDims := []
  startIndicesBatchingDims := []
  startIndexMap := [0]
  indexVectorDim := 1
  sliceSizes := ![1, 2]
  wf := gather_S20000x2_S204800x1_S204800x2_1_0_n_n_0_1_12_wf
def gather_S302235_S204800x1_S204800_n_0_n_n_0_1_1 : GatherDims S302235 S204800x1 S204800 where
  offsetDims := []
  collapsedSliceDims := [0]
  operandBatchingDims := []
  startIndicesBatchingDims := []
  startIndexMap := [0]
  indexVectorDim := 1
  sliceSizes := ![1]
  wf := gather_S302235_S204800x1_S204800_n_0_n_n_0_1_1_wf

abbrev win0_0 : Pipeline.Window sig grid0 :=
  Pipeline.Window.ofSpec (Memref.whole main_v700) S21x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v701) S20x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v705) S1x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v706_0) S15x7x12800.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v706_1) S15x7x12800.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S204800x20 : Shape := ⟨2, ![204800, 20]⟩
abbrev S2048 : Shape := ⟨1, ![2048]⟩
abbrev S3551 : Shape := ⟨1, ![3551]⟩
abbrev S217264 : Shape := ⟨1, ![217264]⟩
abbrev S20001 : Shape := ⟨1, ![20001]⟩
abbrev S302235 : Shape := ⟨1, ![302235]⟩
abbrev S21 : Shape := ⟨1, ![21]⟩
abbrev S1x2048 : Shape := ⟨2, ![1, 2048]⟩
abbrev S100x2048 : Shape := ⟨2, ![100, 2048]⟩
abbrev S204800 : Shape := ⟨1, ![204800]⟩
abbrev S204800x1 : Shape := ⟨2, ![204800, 1]⟩
abbrev S_ : Shape := ⟨0, ![]⟩
abbrev S204800x16 : Shape := ⟨2, ![204800, 16]⟩
abbrev S204800x5 : Shape := ⟨2, ![204800, 5]⟩
abbrev S204800x21 : Shape := ⟨2, ![204800, 21]⟩
abbrev S1x21 : Shape := ⟨2, ![1, 21]⟩
abbrev S204800x7 : Shape := ⟨2, ![204800, 7]⟩
abbrev S3072000x7 : Shape := ⟨2, ![3072000, 7]⟩

abbrev nBuf : Space → Nat
  | .hbm => 1775
  | .vmem => 0
  | .smem => 0
  | _ => 0

abbrev hbmTy0_0 (i : Nat) : BufTy := match i % 128 with
  | 0 => ⟨S204800x20, .f32⟩
  | 1 => ⟨S204800x20, .f32⟩
  | 2 => ⟨S2048, .i32⟩
  | 3 => ⟨S3551, .i32⟩
  | 4 => ⟨S217264, .i32⟩
  | 5 => ⟨S20001, .i32⟩
  | 6 => ⟨S302235, .i32⟩
  | 7 => ⟨S21, .i32⟩
  | 8 => ⟨S1x2048, .i32⟩
  | 9 => ⟨S100x2048, .i32⟩
  | 10 => ⟨S204800, .i32⟩
  | 11 => ⟨S204800x1, .f32⟩
  | 12 => ⟨S204800, .f32⟩
  | 13 => ⟨S_, .i32⟩
  | 14 => ⟨S204800, .i32⟩
  | 15 => ⟨S204800, .i1⟩
  | 16 => ⟨S_, .i32⟩
  | 17 => ⟨S_, .i32⟩
  | 18 => ⟨S204800, .i32⟩
  | 19 => ⟨S204800, .i32⟩
  | 20 => ⟨S_, .i32⟩
  | 21 => ⟨S204800, .i32⟩
  | 22 => ⟨S204800, .i32⟩
  | 23 => ⟨S_, .i32⟩
  | 24 => ⟨S204800, .i32⟩
  | 25 => ⟨S204800, .i1⟩
  | 26 => ⟨S_, .i32⟩
  | 27 => ⟨S204800, .i32⟩
  | 28 => ⟨S204800, .i32⟩
  | 29 => ⟨S204800, .i32⟩
  | 30 => ⟨S204800x1, .i32⟩
  | 31 => ⟨S204800, .i32⟩
  | 32 => ⟨S_, .i32⟩
  | 33 => ⟨S204800, .i32⟩
  | 34 => ⟨S204800, .i1⟩
  | 35 => ⟨S_, .i32⟩
  | 36 => ⟨S204800, .i32⟩
  | 37 => ⟨S204800, .i32⟩
  | 38 => ⟨S204800, .i32⟩
  | 39 => ⟨S204800x1, .i32⟩
  | 40 => ⟨S204800, .i32⟩
  | 41 => ⟨S204800, .i32⟩
  | 42 => ⟨S_, .i32⟩
  | 43 => ⟨S_, .i32⟩
  | 44 => ⟨S204800, .i32⟩
  | 45 => ⟨S204800, .i32⟩
  | 46 => ⟨S_, .i32⟩
  | 47 => ⟨S204800, .i32⟩
  | 48 => ⟨S204800, .i1⟩
  | 49 => ⟨S_, .i32⟩
  | 50 => ⟨S204800, .i32⟩
  | 51 => ⟨S204800, .i1⟩
  | 52 => ⟨S_, .i32⟩
  | 53 => ⟨S204800, .i32⟩
  | 54 => ⟨S204800, .i32⟩
  | 55 => ⟨S204800, .i32⟩
  | 56 => ⟨S204800x1, .i32⟩
  | 57 => ⟨S204800, .i32⟩
  | 58 => ⟨S_, .i32⟩
  | 59 => ⟨S_, .i32⟩
  | 60 => ⟨S204800, .i32⟩
  | 61 => ⟨S204800, .i32⟩
  | 62 => ⟨S204800, .f32⟩
  | 63 => ⟨S204800, .f32⟩
  | 64 => ⟨S204800, .i32⟩
  | 65 => ⟨S204800, .i32⟩
  | 66 => ⟨S_, .i32⟩
  | 67 => ⟨S_, .i32⟩
  | 68 => ⟨S_, .i32⟩
  | 69 => ⟨S204800, .i32⟩
  | 70 => ⟨S204800, .i32⟩
  | 71 => ⟨S_, .i32⟩
  | 72 => ⟨S204800, .i32⟩
  | 73 => ⟨S204800, .i32⟩
  | 74 => ⟨S_, .i32⟩
  | 75 => ⟨S204800, .i32⟩
  | 76 => ⟨S204800, .i1⟩
  | 77 => ⟨S_, .i32⟩
  | 78 => ⟨S204800, .i32⟩
  | 79 => ⟨S204800, .i32⟩
  | 80 => ⟨S204800, .i32⟩
  | 81 => ⟨S204800x1, .i32⟩
  | 82 => ⟨S204800, .i32⟩
  | 83 => ⟨S_, .i32⟩
  | 84 => ⟨S_, .i32⟩
  | 85 => ⟨S204800, .i32⟩
  | 86 => ⟨S204800, .i32⟩
  | 87 => ⟨S204800x1, .f32⟩
  | 88 => ⟨S204800, .f32⟩
  | 89 => ⟨S_, .i32⟩
  | 90 => ⟨S204800, .i32⟩
  | 91 => ⟨S204800, .i1⟩
  | 92 => ⟨S_, .i32⟩
  | 93 => ⟨S_, .i32⟩
  | 94 => ⟨S204800, .i32⟩
  | 95 => ⟨S204800, .i32⟩
  | 96 => ⟨S_, .i32⟩
  | 97 => ⟨S204800, .i32⟩
  | 98 => ⟨S204800, .i32⟩
  | 99 => ⟨S_, .i32⟩
  | 100 => ⟨S204800, .i32⟩
  | 101 => ⟨S204800, .i1⟩
  | 102 => ⟨S_, .i32⟩
  | 103 => ⟨S204800, .i32⟩
  | 104 => ⟨S204800, .i32⟩
  | 105 => ⟨S204800, .i32⟩
  | 106 => ⟨S204800x1, .i32⟩
  | 107 => ⟨S204800, .i32⟩
  | 108 => ⟨S_, .i32⟩
  | 109 => ⟨S204800, .i32⟩
  | 110 => ⟨S204800, .i1⟩
  | 111 => ⟨S_, .i32⟩
  | 112 => ⟨S204800, .i32⟩
  | 113 => ⟨S204800, .i32⟩
  | 114 => ⟨S204800, .i32⟩
  | 115 => ⟨S204800x1, .i32⟩
  | 116 => ⟨S204800, .i32⟩
  | 117 => ⟨S204800, .i32⟩
  | 118 => ⟨S_, .i32⟩
  | 119 => ⟨S_, .i32⟩
  | 120 => ⟨S204800, .i32⟩
  | 121 => ⟨S204800, .i32⟩
  | 122 => ⟨S_, .i32⟩
  | 123 => ⟨S204800, .i32⟩
  | 124 => ⟨S204800, .i1⟩
  | 125 => ⟨S_, .i32⟩
  | 126 => ⟨S204800, .i32⟩
  | 127 => ⟨S204800, .i1⟩
  | _ => ⟨S204800x20, .f32⟩

abbrev hbmTy0_1 (i : Nat) : BufTy := match i % 128 with
  | 0 => ⟨S_, .i32⟩
  | 1 => ⟨S204800, .i32⟩
  | 2 => ⟨S204800, .i32⟩
  | 3 => ⟨S204800, .i32⟩
  | 4 => ⟨S204800x1, .i32⟩
  | 5 => ⟨S204800, .i32⟩
  | 6 => ⟨S_, .i32⟩
  | 7 => ⟨S_, .i32⟩
  | 8 => ⟨S204800, .i32⟩
  | 9 => ⟨S204800, .i32⟩
  | 10 => ⟨S204800, .f32⟩
  | 11 => ⟨S204800, .f32⟩
  | 12 => ⟨S204800, .i32⟩
  | 13 => ⟨S204800, .i32⟩
  | 14 => ⟨S_, .i32⟩
  | 15 => ⟨S_, .i32⟩
  | 16 => ⟨S_, .i32⟩
  | 17 => ⟨S204800, .i32⟩
  | 18 => ⟨S204800, .i32⟩
  | 19 => ⟨S_, .i32⟩
  | 20 => ⟨S204800, .i32⟩
  | 21 => ⟨S204800, .i32⟩
  | 22 => ⟨S_, .i32⟩
  | 23 => ⟨S204800, .i32⟩
  | 24 => ⟨S204800, .i1⟩
  | 25 => ⟨S_, .i32⟩
  | 26 => ⟨S204800, .i32⟩
  | 27 => ⟨S204800, .i32⟩
  | 28 => ⟨S204800, .i32⟩
  | 29 => ⟨S204800x1, .i32⟩
  | 30 => ⟨S204800, .i32⟩
  | 31 => ⟨S_, .i32⟩
  | 32 => ⟨S_, .i32⟩
  | 33 => ⟨S204800, .i32⟩
  | 34 => ⟨S204800, .i32⟩
  | 35 => ⟨S204800x1, .f32⟩
  | 36 => ⟨S204800, .f32⟩
  | 37 => ⟨S_, .i32⟩
  | 38 => ⟨S204800, .i32⟩
  | 39 => ⟨S204800, .i1⟩
  | 40 => ⟨S_, .i32⟩
  | 41 => ⟨S_, .i32⟩
  | 42 => ⟨S204800, .i32⟩
  | 43 => ⟨S204800, .i32⟩
  | 44 => ⟨S_, .i32⟩
  | 45 => ⟨S204800, .i32⟩
  | 46 => ⟨S204800, .i32⟩
  | 47 => ⟨S_, .i32⟩
  | 48 => ⟨S204800, .i32⟩
  | 49 => ⟨S204800, .i1⟩
  | 50 => ⟨S_, .i32⟩
  | 51 => ⟨S204800, .i32⟩
  | 52 => ⟨S204800, .i32⟩
  | 53 => ⟨S204800, .i32⟩
  | 54 => ⟨S204800x1, .i32⟩
  | 55 => ⟨S204800, .i32⟩
  | 56 => ⟨S_, .i32⟩
  | 57 => ⟨S204800, .i32⟩
  | 58 => ⟨S204800, .i1⟩
  | 59 => ⟨S_, .i32⟩
  | 60 => ⟨S204800, .i32⟩
  | 61 => ⟨S204800, .i32⟩
  | 62 => ⟨S204800, .i32⟩
  | 63 => ⟨S204800x1, .i32⟩
  | 64 => ⟨S204800, .i32⟩
  | 65 => ⟨S204800, .i32⟩
  | 66 => ⟨S_, .i32⟩
  | 67 => ⟨S_, .i32⟩
  | 68 => ⟨S204800, .i32⟩
  | 69 => ⟨S204800, .i32⟩
  | 70 => ⟨S_, .i32⟩
  | 71 => ⟨S204800, .i32⟩
  | 72 => ⟨S204800, .i1⟩
  | 73 => ⟨S_, .i32⟩
  | 74 => ⟨S204800, .i32⟩
  | 75 => ⟨S204800, .i1⟩
  | 76 => ⟨S_, .i32⟩
  | 77 => ⟨S204800, .i32⟩
  | 78 => ⟨S204800, .i32⟩
  | 79 => ⟨S204800, .i32⟩
  | 80 => ⟨S204800x1, .i32⟩
  | 81 => ⟨S204800, .i32⟩
  | 82 => ⟨S_, .i32⟩
  | 83 => ⟨S_, .i32⟩
  | 84 => ⟨S204800, .i32⟩
  | 85 => ⟨S204800, .i32⟩
  | 86 => ⟨S204800, .f32⟩
  | 87 => ⟨S204800, .f32⟩
  | 88 => ⟨S204800, .i32⟩
  | 89 => ⟨S204800, .i32⟩
  | 90 => ⟨S_, .i32⟩
  | 91 => ⟨S_, .i32⟩
  | 92 => ⟨S_, .i32⟩
  | 93 => ⟨S204800, .i32⟩
  | 94 => ⟨S204800, .i32⟩
  | 95 => ⟨S_, .i32⟩
  | 96 => ⟨S204800, .i32⟩
  | 97 => ⟨S204800, .i32⟩
  | 98 => ⟨S_, .i32⟩
  | 99 => ⟨S204800, .i32⟩
  | 100 => ⟨S204800, .i1⟩
  | 101 => ⟨S_, .i32⟩
  | 102 => ⟨S204800, .i32⟩
  | 103 => ⟨S204800, .i32⟩
  | 104 => ⟨S204800, .i32⟩
  | 105 => ⟨S204800x1, .i32⟩
  | 106 => ⟨S204800, .i32⟩
  | 107 => ⟨S_, .i32⟩
  | 108 => ⟨S_, .i32⟩
  | 109 => ⟨S204800, .i32⟩
  | 110 => ⟨S204800, .i32⟩
  | 111 => ⟨S204800x1, .f32⟩
  | 112 => ⟨S204800, .f32⟩
  | 113 => ⟨S_, .i32⟩
  | 114 => ⟨S204800, .i32⟩
  | 115 => ⟨S204800, .i1⟩
  | 116 => ⟨S_, .i32⟩
  | 117 => ⟨S_, .i32⟩
  | 118 => ⟨S204800, .i32⟩
  | 119 => ⟨S204800, .i32⟩
  | 120 => ⟨S_, .i32⟩
  | 121 => ⟨S204800, .i32⟩
  | 122 => ⟨S204800, .i32⟩
  | 123 => ⟨S_, .i32⟩
  | 124 => ⟨S204800, .i32⟩
  | 125 => ⟨S204800, .i1⟩
  | 126 => ⟨S_, .i32⟩
  | 127 => ⟨S204800, .i32⟩
  | _ => ⟨S204800x20, .f32⟩

abbrev hbmTy0_2 (i : Nat) : BufTy := match i % 128 with
  | 0 => ⟨S204800, .i32⟩
  | 1 => ⟨S204800, .i32⟩
  | 2 => ⟨S204800x1, .i32⟩
  | 3 => ⟨S204800, .i32⟩
  | 4 => ⟨S_, .i32⟩
  | 5 => ⟨S204800, .i32⟩
  | 6 => ⟨S204800, .i1⟩
  | 7 => ⟨S_, .i32⟩
  | 8 => ⟨S204800, .i32⟩
  | 9 => ⟨S204800, .i32⟩
  | 10 => ⟨S204800, .i32⟩
  | 11 => ⟨S204800x1, .i32⟩
  | 12 => ⟨S204800, .i32⟩
  | 13 => ⟨S204800, .i32⟩
  | 14 => ⟨S_, .i32⟩
  | 15 => ⟨S_, .i32⟩
  | 16 => ⟨S204800, .i32⟩
  | 17 => ⟨S204800, .i32⟩
  | 18 => ⟨S_, .i32⟩
  | 19 => ⟨S204800, .i32⟩
  | 20 => ⟨S204800, .i1⟩
  | 21 => ⟨S_, .i32⟩
  | 22 => ⟨S204800, .i32⟩
  | 23 => ⟨S204800, .i1⟩
  | 24 => ⟨S_, .i32⟩
  | 25 => ⟨S204800, .i32⟩
  | 26 => ⟨S204800, .i32⟩
  | 27 => ⟨S204800, .i32⟩
  | 28 => ⟨S204800x1, .i32⟩
  | 29 => ⟨S204800, .i32⟩
  | 30 => ⟨S_, .i32⟩
  | 31 => ⟨S_, .i32⟩
  | 32 => ⟨S204800, .i32⟩
  | 33 => ⟨S204800, .i32⟩
  | 34 => ⟨S204800, .f32⟩
  | 35 => ⟨S204800, .f32⟩
  | 36 => ⟨S204800, .i32⟩
  | 37 => ⟨S204800, .i32⟩
  | 38 => ⟨S_, .i32⟩
  | 39 => ⟨S_, .i32⟩
  | 40 => ⟨S_, .i32⟩
  | 41 => ⟨S204800, .i32⟩
  | 42 => ⟨S204800, .i32⟩
  | 43 => ⟨S_, .i32⟩
  | 44 => ⟨S204800, .i32⟩
  | 45 => ⟨S204800, .i32⟩
  | 46 => ⟨S_, .i32⟩
  | 47 => ⟨S204800, .i32⟩
  | 48 => ⟨S204800, .i1⟩
  | 49 => ⟨S_, .i32⟩
  | 50 => ⟨S204800, .i32⟩
  | 51 => ⟨S204800, .i32⟩
  | 52 => ⟨S204800, .i32⟩
  | 53 => ⟨S204800x1, .i32⟩
  | 54 => ⟨S204800, .i32⟩
  | 55 => ⟨S_, .i32⟩
  | 56 => ⟨S_, .i32⟩
  | 57 => ⟨S204800, .i32⟩
  | 58 => ⟨S204800, .i32⟩
  | 59 => ⟨S204800x1, .f32⟩
  | 60 => ⟨S204800, .f32⟩
  | 61 => ⟨S_, .i32⟩
  | 62 => ⟨S204800, .i32⟩
  | 63 => ⟨S204800, .i1⟩
  | 64 => ⟨S_, .i32⟩
  | 65 => ⟨S_, .i32⟩
  | 66 => ⟨S204800, .i32⟩
  | 67 => ⟨S204800, .i32⟩
  | 68 => ⟨S_, .i32⟩
  | 69 => ⟨S204800, .i32⟩
  | 70 => ⟨S204800, .i32⟩
  | 71 => ⟨S_, .i32⟩
  | 72 => ⟨S204800, .i32⟩
  | 73 => ⟨S204800, .i1⟩
  | 74 => ⟨S_, .i32⟩
  | 75 => ⟨S204800, .i32⟩
  | 76 => ⟨S204800, .i32⟩
  | 77 => ⟨S204800, .i32⟩
  | 78 => ⟨S204800x1, .i32⟩
  | 79 => ⟨S204800, .i32⟩
  | 80 => ⟨S_, .i32⟩
  | 81 => ⟨S204800, .i32⟩
  | 82 => ⟨S204800, .i1⟩
  | 83 => ⟨S_, .i32⟩
  | 84 => ⟨S204800, .i32⟩
  | 85 => ⟨S204800, .i32⟩
  | 86 => ⟨S204800, .i32⟩
  | 87 => ⟨S204800x1, .i32⟩
  | 88 => ⟨S204800, .i32⟩
  | 89 => ⟨S204800, .i32⟩
  | 90 => ⟨S_, .i32⟩
  | 91 => ⟨S_, .i32⟩
  | 92 => ⟨S204800, .i32⟩
  | 93 => ⟨S204800, .i32⟩
  | 94 => ⟨S_, .i32⟩
  | 95 => ⟨S204800, .i32⟩
  | 96 => ⟨S204800, .i1⟩
  | 97 => ⟨S_, .i32⟩
  | 98 => ⟨S204800, .i32⟩
  | 99 => ⟨S204800, .i1⟩
  | 100 => ⟨S_, .i32⟩
  | 101 => ⟨S204800, .i32⟩
  | 102 => ⟨S204800, .i32⟩
  | 103 => ⟨S204800, .i32⟩
  | 104 => ⟨S204800x1, .i32⟩
  | 105 => ⟨S204800, .i32⟩
  | 106 => ⟨S_, .i32⟩
  | 107 => ⟨S_, .i32⟩
  | 108 => ⟨S204800, .i32⟩
  | 109 => ⟨S204800, .i32⟩
  | 110 => ⟨S204800, .f32⟩
  | 111 => ⟨S204800, .f32⟩
  | 112 => ⟨S204800, .i32⟩
  | 113 => ⟨S204800, .i32⟩
  | 114 => ⟨S_, .i32⟩
  | 115 => ⟨S_, .i32⟩
  | 116 => ⟨S_, .i32⟩
  | 117 => ⟨S204800, .i32⟩
  | 118 => ⟨S204800, .i32⟩
  | 119 => ⟨S_, .i32⟩
  | 120 => ⟨S204800, .i32⟩
  | 121 => ⟨S204800, .i32⟩
  | 122 => ⟨S_, .i32⟩
  | 123 => ⟨S204800, .i32⟩
  | 124 => ⟨S204800, .i1⟩
  | 125 => ⟨S_, .i32⟩
  | 126 => ⟨S204800, .i32⟩
  | 127 => ⟨S204800, .i32⟩
  | _ => ⟨S204800x20, .f32⟩

abbrev hbmTy0_3 (i : Nat) : BufTy := match i % 128 with
  | 0 => ⟨S204800, .i32⟩
  | 1 => ⟨S204800x1, .i32⟩
  | 2 => ⟨S204800, .i32⟩
  | 3 => ⟨S_, .i32⟩
  | 4 => ⟨S_, .i32⟩
  | 5 => ⟨S204800, .i32⟩
  | 6 => ⟨S204800, .i32⟩
  | 7 => ⟨S204800x1, .f32⟩
  | 8 => ⟨S204800, .f32⟩
  | 9 => ⟨S_, .i32⟩
  | 10 => ⟨S204800, .i32⟩
  | 11 => ⟨S204800, .i1⟩
  | 12 => ⟨S_, .i32⟩
  | 13 => ⟨S_, .i32⟩
  | 14 => ⟨S204800, .i32⟩
  | 15 => ⟨S204800, .i32⟩
  | 16 => ⟨S_, .i32⟩
  | 17 => ⟨S204800, .i32⟩
  | 18 => ⟨S204800, .i32⟩
  | 19 => ⟨S_, .i32⟩
  | 20 => ⟨S204800, .i32⟩
  | 21 => ⟨S204800, .i1⟩
  | 22 => ⟨S_, .i32⟩
  | 23 => ⟨S204800, .i32⟩
  | 24 => ⟨S204800, .i32⟩
  | 25 => ⟨S204800, .i32⟩
  | 26 => ⟨S204800x1, .i32⟩
  | 27 => ⟨S204800, .i32⟩
  | 28 => ⟨S_, .i32⟩
  | 29 => ⟨S204800, .i32⟩
  | 30 => ⟨S204800, .i1⟩
  | 31 => ⟨S_, .i32⟩
  | 32 => ⟨S204800, .i32⟩
  | 33 => ⟨S204800, .i32⟩
  | 34 => ⟨S204800, .i32⟩
  | 35 => ⟨S204800x1, .i32⟩
  | 36 => ⟨S204800, .i32⟩
  | 37 => ⟨S204800, .i32⟩
  | 38 => ⟨S_, .i32⟩
  | 39 => ⟨S_, .i32⟩
  | 40 => ⟨S204800, .i32⟩
  | 41 => ⟨S204800, .i32⟩
  | 42 => ⟨S_, .i32⟩
  | 43 => ⟨S204800, .i32⟩
  | 44 => ⟨S204800, .i1⟩
  | 45 => ⟨S_, .i32⟩
  | 46 => ⟨S204800, .i32⟩
  | 47 => ⟨S204800, .i1⟩
  | 48 => ⟨S_, .i32⟩
  | 49 => ⟨S204800, .i32⟩
  | 50 => ⟨S204800, .i32⟩
  | 51 => ⟨S204800, .i32⟩
  | 52 => ⟨S204800x1, .i32⟩
  | 53 => ⟨S204800, .i32⟩
  | 54 => ⟨S_, .i32⟩
  | 55 => ⟨S_, .i32⟩
  | 56 => ⟨S204800, .i32⟩
  | 57 => ⟨S204800, .i32⟩
  | 58 => ⟨S204800, .f32⟩
  | 59 => ⟨S204800, .f32⟩
  | 60 => ⟨S204800, .i32⟩
  | 61 => ⟨S204800, .i32⟩
  | 62 => ⟨S_, .i32⟩
  | 63 => ⟨S_, .i32⟩
  | 64 => ⟨S_, .i32⟩
  | 65 => ⟨S204800, .i32⟩
  | 66 => ⟨S204800, .i32⟩
  | 67 => ⟨S_, .i32⟩
  | 68 => ⟨S204800, .i32⟩
  | 69 => ⟨S204800, .i32⟩
  | 70 => ⟨S_, .i32⟩
  | 71 => ⟨S204800, .i32⟩
  | 72 => ⟨S204800, .i1⟩
  | 73 => ⟨S_, .i32⟩
  | 74 => ⟨S204800, .i32⟩
  | 75 => ⟨S204800, .i32⟩
  | 76 => ⟨S204800, .i32⟩
  | 77 => ⟨S204800x1, .i32⟩
  | 78 => ⟨S204800, .i32⟩
  | 79 => ⟨S_, .i32⟩
  | 80 => ⟨S_, .i32⟩
  | 81 => ⟨S204800, .i32⟩
  | 82 => ⟨S204800, .i32⟩
  | 83 => ⟨S204800x1, .f32⟩
  | 84 => ⟨S204800, .f32⟩
  | 85 => ⟨S_, .i32⟩
  | 86 => ⟨S204800, .i32⟩
  | 87 => ⟨S204800, .i1⟩
  | 88 => ⟨S_, .i32⟩
  | 89 => ⟨S_, .i32⟩
  | 90 => ⟨S204800, .i32⟩
  | 91 => ⟨S204800, .i32⟩
  | 92 => ⟨S_, .i32⟩
  | 93 => ⟨S204800, .i32⟩
  | 94 => ⟨S204800, .i32⟩
  | 95 => ⟨S_, .i32⟩
  | 96 => ⟨S204800, .i32⟩
  | 97 => ⟨S204800, .i1⟩
  | 98 => ⟨S_, .i32⟩
  | 99 => ⟨S204800, .i32⟩
  | 100 => ⟨S204800, .i32⟩
  | 101 => ⟨S204800, .i32⟩
  | 102 => ⟨S204800x1, .i32⟩
  | 103 => ⟨S204800, .i32⟩
  | 104 => ⟨S_, .i32⟩
  | 105 => ⟨S204800, .i32⟩
  | 106 => ⟨S204800, .i1⟩
  | 107 => ⟨S_, .i32⟩
  | 108 => ⟨S204800, .i32⟩
  | 109 => ⟨S204800, .i32⟩
  | 110 => ⟨S204800, .i32⟩
  | 111 => ⟨S204800x1, .i32⟩
  | 112 => ⟨S204800, .i32⟩
  | 113 => ⟨S204800, .i32⟩
  | 114 => ⟨S_, .i32⟩
  | 115 => ⟨S_, .i32⟩
  | 116 => ⟨S204800, .i32⟩
  | 117 => ⟨S204800, .i32⟩
  | 118 => ⟨S_, .i32⟩
  | 119 => ⟨S204800, .i32⟩
  | 120 => ⟨S204800, .i1⟩
  | 121 => ⟨S_, .i32⟩
  | 122 => ⟨S204800, .i32⟩
  | 123 => ⟨S204800, .i1⟩
  | 124 => ⟨S_, .i32⟩
  | 125 => ⟨S204800, .i32⟩
  | 126 => ⟨S204800, .i32⟩
  | 127 => ⟨S204800, .i32⟩
  | _ => ⟨S204800x20, .f32⟩

abbrev hbmTy0_4 (i : Nat) : BufTy := match i % 128 with
  | 0 => ⟨S204800x1, .i32⟩
  | 1 => ⟨S204800, .i32⟩
  | 2 => ⟨S_, .i32⟩
  | 3 => ⟨S_, .i32⟩
  | 4 => ⟨S204800, .i32⟩
  | 5 => ⟨S204800, .i32⟩
  | 6 => ⟨S204800, .f32⟩
  | 7 => ⟨S204800, .f32⟩
  | 8 => ⟨S204800, .i32⟩
  | 9 => ⟨S204800, .i32⟩
  | 10 => ⟨S_, .i32⟩
  | 11 => ⟨S_, .i32⟩
  | 12 => ⟨S_, .i32⟩
  | 13 => ⟨S204800, .i32⟩
  | 14 => ⟨S204800, .i32⟩
  | 15 => ⟨S_, .i32⟩
  | 16 => ⟨S204800, .i32⟩
  | 17 => ⟨S204800, .i32⟩
  | 18 => ⟨S_, .i32⟩
  | 19 => ⟨S204800, .i32⟩
  | 20 => ⟨S204800, .i1⟩
  | 21 => ⟨S_, .i32⟩
  | 22 => ⟨S204800, .i32⟩
  | 23 => ⟨S204800, .i32⟩
  | 24 => ⟨S204800, .i32⟩
  | 25 => ⟨S204800x1, .i32⟩
  | 26 => ⟨S204800, .i32⟩
  | 27 => ⟨S_, .i32⟩
  | 28 => ⟨S_, .i32⟩
  | 29 => ⟨S204800, .i32⟩
  | 30 => ⟨S204800, .i32⟩
  | 31 => ⟨S204800x1, .f32⟩
  | 32 => ⟨S204800, .f32⟩
  | 33 => ⟨S_, .i32⟩
  | 34 => ⟨S204800, .i32⟩
  | 35 => ⟨S204800, .i1⟩
  | 36 => ⟨S_, .i32⟩
  | 37 => ⟨S_, .i32⟩
  | 38 => ⟨S204800, .i32⟩
  | 39 => ⟨S204800, .i32⟩
  | 40 => ⟨S_, .i32⟩
  | 41 => ⟨S204800, .i32⟩
  | 42 => ⟨S204800, .i32⟩
  | 43 => ⟨S_, .i32⟩
  | 44 => ⟨S204800, .i32⟩
  | 45 => ⟨S204800, .i1⟩
  | 46 => ⟨S_, .i32⟩
  | 47 => ⟨S204800, .i32⟩
  | 48 => ⟨S204800, .i32⟩
  | 49 => ⟨S204800, .i32⟩
  | 50 => ⟨S204800x1, .i32⟩
  | 51 => ⟨S204800, .i32⟩
  | 52 => ⟨S_, .i32⟩
  | 53 => ⟨S204800, .i32⟩
  | 54 => ⟨S204800, .i1⟩
  | 55 => ⟨S_, .i32⟩
  | 56 => ⟨S204800, .i32⟩
  | 57 => ⟨S204800, .i32⟩
  | 58 => ⟨S204800, .i32⟩
  | 59 => ⟨S204800x1, .i32⟩
  | 60 => ⟨S204800, .i32⟩
  | 61 => ⟨S204800, .i32⟩
  | 62 => ⟨S_, .i32⟩
  | 63 => ⟨S_, .i32⟩
  | 64 => ⟨S204800, .i32⟩
  | 65 => ⟨S204800, .i32⟩
  | 66 => ⟨S_, .i32⟩
  | 67 => ⟨S204800, .i32⟩
  | 68 => ⟨S204800, .i1⟩
  | 69 => ⟨S_, .i32⟩
  | 70 => ⟨S204800, .i32⟩
  | 71 => ⟨S204800, .i1⟩
  | 72 => ⟨S_, .i32⟩
  | 73 => ⟨S204800, .i32⟩
  | 74 => ⟨S204800, .i32⟩
  | 75 => ⟨S204800, .i32⟩
  | 76 => ⟨S204800x1, .i32⟩
  | 77 => ⟨S204800, .i32⟩
  | 78 => ⟨S_, .i32⟩
  | 79 => ⟨S_, .i32⟩
  | 80 => ⟨S204800, .i32⟩
  | 81 => ⟨S204800, .i32⟩
  | 82 => ⟨S204800, .f32⟩
  | 83 => ⟨S204800, .f32⟩
  | 84 => ⟨S204800, .i32⟩
  | 85 => ⟨S204800, .i32⟩
  | 86 => ⟨S_, .i32⟩
  | 87 => ⟨S_, .i32⟩
  | 88 => ⟨S_, .i32⟩
  | 89 => ⟨S204800, .i32⟩
  | 90 => ⟨S204800, .i32⟩
  | 91 => ⟨S_, .i32⟩
  | 92 => ⟨S204800, .i32⟩
  | 93 => ⟨S204800, .i32⟩
  | 94 => ⟨S_, .i32⟩
  | 95 => ⟨S204800, .i32⟩
  | 96 => ⟨S204800, .i1⟩
  | 97 => ⟨S_, .i32⟩
  | 98 => ⟨S204800, .i32⟩
  | 99 => ⟨S204800, .i32⟩
  | 100 => ⟨S204800, .i32⟩
  | 101 => ⟨S204800x1, .i32⟩
  | 102 => ⟨S204800, .i32⟩
  | 103 => ⟨S_, .i32⟩
  | 104 => ⟨S_, .i32⟩
  | 105 => ⟨S204800, .i32⟩
  | 106 => ⟨S204800, .i32⟩
  | 107 => ⟨S204800x1, .f32⟩
  | 108 => ⟨S204800, .f32⟩
  | 109 => ⟨S_, .i32⟩
  | 110 => ⟨S204800, .i32⟩
  | 111 => ⟨S204800, .i1⟩
  | 112 => ⟨S_, .i32⟩
  | 113 => ⟨S_, .i32⟩
  | 114 => ⟨S204800, .i32⟩
  | 115 => ⟨S204800, .i32⟩
  | 116 => ⟨S_, .i32⟩
  | 117 => ⟨S204800, .i32⟩
  | 118 => ⟨S204800, .i32⟩
  | 119 => ⟨S_, .i32⟩
  | 120 => ⟨S204800, .i32⟩
  | 121 => ⟨S204800, .i1⟩
  | 122 => ⟨S_, .i32⟩
  | 123 => ⟨S204800, .i32⟩
  | 124 => ⟨S204800, .i32⟩
  | 125 => ⟨S204800, .i32⟩
  | 126 => ⟨S204800x1, .i32⟩
  | 127 => ⟨S204800, .i32⟩
  | _ => ⟨S204800x20, .f32⟩

abbrev hbmTy0_5 (i : Nat) : BufTy := match i % 128 with
  | 0 => ⟨S_, .i32⟩
  | 1 => ⟨S204800, .i32⟩
  | 2 => ⟨S204800, .i1⟩
  | 3 => ⟨S_, .i32⟩
  | 4 => ⟨S204800, .i32⟩
  | 5 => ⟨S204800, .i32⟩
  | 6 => ⟨S204800, .i32⟩
  | 7 => ⟨S204800x1, .i32⟩
  | 8 => ⟨S204800, .i32⟩
  | 9 => ⟨S204800, .i32⟩
  | 10 => ⟨S_, .i32⟩
  | 11 => ⟨S_, .i32⟩
  | 12 => ⟨S204800, .i32⟩
  | 13 => ⟨S204800, .i32⟩
  | 14 => ⟨S_, .i32⟩
  | 15 => ⟨S204800, .i32⟩
  | 16 => ⟨S204800, .i1⟩
  | 17 => ⟨S_, .i32⟩
  | 18 => ⟨S204800, .i32⟩
  | 19 => ⟨S204800, .i1⟩
  | 20 => ⟨S_, .i32⟩
  | 21 => ⟨S204800, .i32⟩
  | 22 => ⟨S204800, .i32⟩
  | 23 => ⟨S204800, .i32⟩
  | 24 => ⟨S204800x1, .i32⟩
  | 25 => ⟨S204800, .i32⟩
  | 26 => ⟨S_, .i32⟩
  | 27 => ⟨S_, .i32⟩
  | 28 => ⟨S204800, .i32⟩
  | 29 => ⟨S204800, .i32⟩
  | 30 => ⟨S204800, .f32⟩
  | 31 => ⟨S204800, .f32⟩
  | 32 => ⟨S204800, .i32⟩
  | 33 => ⟨S204800, .i32⟩
  | 34 => ⟨S_, .i32⟩
  | 35 => ⟨S_, .i32⟩
  | 36 => ⟨S_, .i32⟩
  | 37 => ⟨S204800, .i32⟩
  | 38 => ⟨S204800, .i32⟩
  | 39 => ⟨S_, .i32⟩
  | 40 => ⟨S204800, .i32⟩
  | 41 => ⟨S204800, .i32⟩
  | 42 => ⟨S_, .i32⟩
  | 43 => ⟨S204800, .i32⟩
  | 44 => ⟨S204800, .i1⟩
  | 45 => ⟨S_, .i32⟩
  | 46 => ⟨S204800, .i32⟩
  | 47 => ⟨S204800, .i32⟩
  | 48 => ⟨S204800, .i32⟩
  | 49 => ⟨S204800x1, .i32⟩
  | 50 => ⟨S204800, .i32⟩
  | 51 => ⟨S_, .i32⟩
  | 52 => ⟨S_, .i32⟩
  | 53 => ⟨S204800, .i32⟩
  | 54 => ⟨S204800, .i32⟩
  | 55 => ⟨S204800x1, .f32⟩
  | 56 => ⟨S204800, .f32⟩
  | 57 => ⟨S_, .i32⟩
  | 58 => ⟨S204800, .i32⟩
  | 59 => ⟨S204800, .i1⟩
  | 60 => ⟨S_, .i32⟩
  | 61 => ⟨S_, .i32⟩
  | 62 => ⟨S204800, .i32⟩
  | 63 => ⟨S204800, .i32⟩
  | 64 => ⟨S_, .i32⟩
  | 65 => ⟨S204800, .i32⟩
  | 66 => ⟨S204800, .i32⟩
  | 67 => ⟨S_, .i32⟩
  | 68 => ⟨S204800, .i32⟩
  | 69 => ⟨S204800, .i1⟩
  | 70 => ⟨S_, .i32⟩
  | 71 => ⟨S204800, .i32⟩
  | 72 => ⟨S204800, .i32⟩
  | 73 => ⟨S204800, .i32⟩
  | 74 => ⟨S204800x1, .i32⟩
  | 75 => ⟨S204800, .i32⟩
  | 76 => ⟨S_, .i32⟩
  | 77 => ⟨S204800, .i32⟩
  | 78 => ⟨S204800, .i1⟩
  | 79 => ⟨S_, .i32⟩
  | 80 => ⟨S204800, .i32⟩
  | 81 => ⟨S204800, .i32⟩
  | 82 => ⟨S204800, .i32⟩
  | 83 => ⟨S204800x1, .i32⟩
  | 84 => ⟨S204800, .i32⟩
  | 85 => ⟨S204800, .i32⟩
  | 86 => ⟨S_, .i32⟩
  | 87 => ⟨S_, .i32⟩
  | 88 => ⟨S204800, .i32⟩
  | 89 => ⟨S204800, .i32⟩
  | 90 => ⟨S_, .i32⟩
  | 91 => ⟨S204800, .i32⟩
  | 92 => ⟨S204800, .i1⟩
  | 93 => ⟨S_, .i32⟩
  | 94 => ⟨S204800, .i32⟩
  | 95 => ⟨S204800, .i1⟩
  | 96 => ⟨S_, .i32⟩
  | 97 => ⟨S204800, .i32⟩
  | 98 => ⟨S204800, .i32⟩
  | 99 => ⟨S204800, .i32⟩
  | 100 => ⟨S204800x1, .i32⟩
  | 101 => ⟨S204800, .i32⟩
  | 102 => ⟨S_, .i32⟩
  | 103 => ⟨S_, .i32⟩
  | 104 => ⟨S204800, .i32⟩
  | 105 => ⟨S204800, .i32⟩
  | 106 => ⟨S204800, .f32⟩
  | 107 => ⟨S204800, .f32⟩
  | 108 => ⟨S204800, .i32⟩
  | 109 => ⟨S204800, .i32⟩
  | 110 => ⟨S_, .i32⟩
  | 111 => ⟨S_, .i32⟩
  | 112 => ⟨S_, .i32⟩
  | 113 => ⟨S204800, .i32⟩
  | 114 => ⟨S204800, .i32⟩
  | 115 => ⟨S_, .i32⟩
  | 116 => ⟨S204800, .i32⟩
  | 117 => ⟨S204800, .i32⟩
  | 118 => ⟨S_, .i32⟩
  | 119 => ⟨S204800, .i32⟩
  | 120 => ⟨S204800, .i1⟩
  | 121 => ⟨S_, .i32⟩
  | 122 => ⟨S204800, .i32⟩
  | 123 => ⟨S204800, .i32⟩
  | 124 => ⟨S204800, .i32⟩
  | 125 => ⟨S204800x1, .i32⟩
  | 126 => ⟨S204800, .i32⟩
  | 127 => ⟨S_, .i32⟩
  | _ => ⟨S204800x20, .f32⟩

abbrev hbmTy0_6 (i : Nat) : BufTy := match i % 128 with
  | 0 => ⟨S_, .i32⟩
  | 1 => ⟨S204800, .i32⟩
  | 2 => ⟨S204800, .i32⟩
  | 3 => ⟨S204800x1, .f32⟩
  | 4 => ⟨S204800, .f32⟩
  | 5 => ⟨S_, .i32⟩
  | 6 => ⟨S204800, .i32⟩
  | 7 => ⟨S204800, .i1⟩
  | 8 => ⟨S_, .i32⟩
  | 9 => ⟨S_, .i32⟩
  | 10 => ⟨S204800, .i32⟩
  | 11 => ⟨S204800, .i32⟩
  | 12 => ⟨S_, .i32⟩
  | 13 => ⟨S204800, .i32⟩
  | 14 => ⟨S204800, .i32⟩
  | 15 => ⟨S_, .i32⟩
  | 16 => ⟨S204800, .i32⟩
  | 17 => ⟨S204800, .i1⟩
  | 18 => ⟨S_, .i32⟩
  | 19 => ⟨S204800, .i32⟩
  | 20 => ⟨S204800, .i32⟩
  | 21 => ⟨S204800, .i32⟩
  | 22 => ⟨S204800x1, .i32⟩
  | 23 => ⟨S204800, .i32⟩
  | 24 => ⟨S_, .i32⟩
  | 25 => ⟨S204800, .i32⟩
  | 26 => ⟨S204800, .i1⟩
  | 27 => ⟨S_, .i32⟩
  | 28 => ⟨S204800, .i32⟩
  | 29 => ⟨S204800, .i32⟩
  | 30 => ⟨S204800, .i32⟩
  | 31 => ⟨S204800x1, .i32⟩
  | 32 => ⟨S204800, .i32⟩
  | 33 => ⟨S204800, .i32⟩
  | 34 => ⟨S_, .i32⟩
  | 35 => ⟨S_, .i32⟩
  | 36 => ⟨S204800, .i32⟩
  | 37 => ⟨S204800, .i32⟩
  | 38 => ⟨S_, .i32⟩
  | 39 => ⟨S204800, .i32⟩
  | 40 => ⟨S204800, .i1⟩
  | 41 => ⟨S_, .i32⟩
  | 42 => ⟨S204800, .i32⟩
  | 43 => ⟨S204800, .i1⟩
  | 44 => ⟨S_, .i32⟩
  | 45 => ⟨S204800, .i32⟩
  | 46 => ⟨S204800, .i32⟩
  | 47 => ⟨S204800, .i32⟩
  | 48 => ⟨S204800x1, .i32⟩
  | 49 => ⟨S204800, .i32⟩
  | 50 => ⟨S_, .i32⟩
  | 51 => ⟨S_, .i32⟩
  | 52 => ⟨S204800, .i32⟩
  | 53 => ⟨S204800, .i32⟩
  | 54 => ⟨S204800, .f32⟩
  | 55 => ⟨S204800, .f32⟩
  | 56 => ⟨S204800, .i32⟩
  | 57 => ⟨S204800, .i32⟩
  | 58 => ⟨S_, .i32⟩
  | 59 => ⟨S_, .i32⟩
  | 60 => ⟨S_, .i32⟩
  | 61 => ⟨S204800, .i32⟩
  | 62 => ⟨S204800, .i32⟩
  | 63 => ⟨S_, .i32⟩
  | 64 => ⟨S204800, .i32⟩
  | 65 => ⟨S204800, .i32⟩
  | 66 => ⟨S_, .i32⟩
  | 67 => ⟨S204800, .i32⟩
  | 68 => ⟨S204800, .i1⟩
  | 69 => ⟨S_, .i32⟩
  | 70 => ⟨S204800, .i32⟩
  | 71 => ⟨S204800, .i32⟩
  | 72 => ⟨S204800, .i32⟩
  | 73 => ⟨S204800x1, .i32⟩
  | 74 => ⟨S204800, .i32⟩
  | 75 => ⟨S_, .i32⟩
  | 76 => ⟨S_, .i32⟩
  | 77 => ⟨S204800, .i32⟩
  | 78 => ⟨S204800, .i32⟩
  | 79 => ⟨S204800x1, .f32⟩
  | 80 => ⟨S204800, .f32⟩
  | 81 => ⟨S_, .i32⟩
  | 82 => ⟨S204800, .i32⟩
  | 83 => ⟨S204800, .i1⟩
  | 84 => ⟨S_, .i32⟩
  | 85 => ⟨S_, .i32⟩
  | 86 => ⟨S204800, .i32⟩
  | 87 => ⟨S204800, .i32⟩
  | 88 => ⟨S_, .i32⟩
  | 89 => ⟨S204800, .i32⟩
  | 90 => ⟨S204800, .i32⟩
  | 91 => ⟨S_, .i32⟩
  | 92 => ⟨S204800, .i32⟩
  | 93 => ⟨S204800, .i1⟩
  | 94 => ⟨S_, .i32⟩
  | 95 => ⟨S204800, .i32⟩
  | 96 => ⟨S204800, .i32⟩
  | 97 => ⟨S204800, .i32⟩
  | 98 => ⟨S204800x1, .i32⟩
  | 99 => ⟨S204800, .i32⟩
  | 100 => ⟨S_, .i32⟩
  | 101 => ⟨S204800, .i32⟩
  | 102 => ⟨S204800, .i1⟩
  | 103 => ⟨S_, .i32⟩
  | 104 => ⟨S204800, .i32⟩
  | 105 => ⟨S204800, .i32⟩
  | 106 => ⟨S204800, .i32⟩
  | 107 => ⟨S204800x1, .i32⟩
  | 108 => ⟨S204800, .i32⟩
  | 109 => ⟨S204800, .i32⟩
  | 110 => ⟨S_, .i32⟩
  | 111 => ⟨S_, .i32⟩
  | 112 => ⟨S204800, .i32⟩
  | 113 => ⟨S204800, .i32⟩
  | 114 => ⟨S_, .i32⟩
  | 115 => ⟨S204800, .i32⟩
  | 116 => ⟨S204800, .i1⟩
  | 117 => ⟨S_, .i32⟩
  | 118 => ⟨S204800, .i32⟩
  | 119 => ⟨S204800, .i1⟩
  | 120 => ⟨S_, .i32⟩
  | 121 => ⟨S204800, .i32⟩
  | 122 => ⟨S204800, .i32⟩
  | 123 => ⟨S204800, .i32⟩
  | 124 => ⟨S204800x1, .i32⟩
  | 125 => ⟨S204800, .i32⟩
  | 126 => ⟨S_, .i32⟩
  | 127 => ⟨S_, .i32⟩
  | _ => ⟨S204800x20, .f32⟩

abbrev hbmTy0_7 (i : Nat) : BufTy := match i % 128 with
  | 0 => ⟨S204800, .i32⟩
  | 1 => ⟨S204800, .i32⟩
  | 2 => ⟨S204800, .f32⟩
  | 3 => ⟨S204800, .f32⟩
  | 4 => ⟨S204800, .i32⟩
  | 5 => ⟨S204800, .i32⟩
  | 6 => ⟨S_, .i32⟩
  | 7 => ⟨S_, .i32⟩
  | 8 => ⟨S_, .i32⟩
  | 9 => ⟨S204800, .i32⟩
  | 10 => ⟨S204800, .i32⟩
  | 11 => ⟨S_, .i32⟩
  | 12 => ⟨S204800, .i32⟩
  | 13 => ⟨S204800, .i32⟩
  | 14 => ⟨S_, .i32⟩
  | 15 => ⟨S204800, .i32⟩
  | 16 => ⟨S204800, .i1⟩
  | 17 => ⟨S_, .i32⟩
  | 18 => ⟨S204800, .i32⟩
  | 19 => ⟨S204800, .i32⟩
  | 20 => ⟨S204800, .i32⟩
  | 21 => ⟨S204800x1, .i32⟩
  | 22 => ⟨S204800, .i32⟩
  | 23 => ⟨S_, .i32⟩
  | 24 => ⟨S_, .i32⟩
  | 25 => ⟨S204800, .i32⟩
  | 26 => ⟨S204800, .i32⟩
  | 27 => ⟨S204800x1, .f32⟩
  | 28 => ⟨S204800, .f32⟩
  | 29 => ⟨S_, .i32⟩
  | 30 => ⟨S204800, .i32⟩
  | 31 => ⟨S204800, .i1⟩
  | 32 => ⟨S_, .i32⟩
  | 33 => ⟨S_, .i32⟩
  | 34 => ⟨S204800, .i32⟩
  | 35 => ⟨S204800, .i32⟩
  | 36 => ⟨S_, .i32⟩
  | 37 => ⟨S204800, .i32⟩
  | 38 => ⟨S204800, .i32⟩
  | 39 => ⟨S_, .i32⟩
  | 40 => ⟨S204800, .i32⟩
  | 41 => ⟨S204800, .i1⟩
  | 42 => ⟨S_, .i32⟩
  | 43 => ⟨S204800, .i32⟩
  | 44 => ⟨S204800, .i32⟩
  | 45 => ⟨S204800, .i32⟩
  | 46 => ⟨S204800x1, .i32⟩
  | 47 => ⟨S204800, .i32⟩
  | 48 => ⟨S_, .i32⟩
  | 49 => ⟨S204800, .i32⟩
  | 50 => ⟨S204800, .i1⟩
  | 51 => ⟨S_, .i32⟩
  | 52 => ⟨S204800, .i32⟩
  | 53 => ⟨S204800, .i32⟩
  | 54 => ⟨S204800, .i32⟩
  | 55 => ⟨S204800x1, .i32⟩
  | 56 => ⟨S204800, .i32⟩
  | 57 => ⟨S204800, .i32⟩
  | 58 => ⟨S_, .i32⟩
  | 59 => ⟨S_, .i32⟩
  | 60 => ⟨S204800, .i32⟩
  | 61 => ⟨S204800, .i32⟩
  | 62 => ⟨S_, .i32⟩
  | 63 => ⟨S204800, .i32⟩
  | 64 => ⟨S204800, .i1⟩
  | 65 => ⟨S_, .i32⟩
  | 66 => ⟨S204800, .i32⟩
  | 67 => ⟨S204800, .i1⟩
  | 68 => ⟨S_, .i32⟩
  | 69 => ⟨S204800, .i32⟩
  | 70 => ⟨S204800, .i32⟩
  | 71 => ⟨S204800, .i32⟩
  | 72 => ⟨S204800x1, .i32⟩
  | 73 => ⟨S204800, .i32⟩
  | 74 => ⟨S_, .i32⟩
  | 75 => ⟨S_, .i32⟩
  | 76 => ⟨S204800, .i32⟩
  | 77 => ⟨S204800, .i32⟩
  | 78 => ⟨S204800, .f32⟩
  | 79 => ⟨S204800, .f32⟩
  | 80 => ⟨S204800, .i32⟩
  | 81 => ⟨S204800, .i32⟩
  | 82 => ⟨S_, .i32⟩
  | 83 => ⟨S_, .i32⟩
  | 84 => ⟨S_, .i32⟩
  | 85 => ⟨S204800, .i32⟩
  | 86 => ⟨S204800, .i32⟩
  | 87 => ⟨S_, .i32⟩
  | 88 => ⟨S204800, .i32⟩
  | 89 => ⟨S204800, .i32⟩
  | 90 => ⟨S_, .i32⟩
  | 91 => ⟨S204800, .i32⟩
  | 92 => ⟨S204800, .i1⟩
  | 93 => ⟨S_, .i32⟩
  | 94 => ⟨S204800, .i32⟩
  | 95 => ⟨S204800, .i32⟩
  | 96 => ⟨S204800, .i32⟩
  | 97 => ⟨S204800x1, .i32⟩
  | 98 => ⟨S204800, .i32⟩
  | 99 => ⟨S_, .i32⟩
  | 100 => ⟨S_, .i32⟩
  | 101 => ⟨S204800, .i32⟩
  | 102 => ⟨S204800, .i32⟩
  | 103 => ⟨S204800x1, .f32⟩
  | 104 => ⟨S204800, .f32⟩
  | 105 => ⟨S_, .i32⟩
  | 106 => ⟨S204800, .i32⟩
  | 107 => ⟨S204800, .i1⟩
  | 108 => ⟨S_, .i32⟩
  | 109 => ⟨S_, .i32⟩
  | 110 => ⟨S204800, .i32⟩
  | 111 => ⟨S204800, .i32⟩
  | 112 => ⟨S_, .i32⟩
  | 113 => ⟨S204800, .i32⟩
  | 114 => ⟨S204800, .i32⟩
  | 115 => ⟨S_, .i32⟩
  | 116 => ⟨S204800, .i32⟩
  | 117 => ⟨S204800, .i1⟩
  | 118 => ⟨S_, .i32⟩
  | 119 => ⟨S204800, .i32⟩
  | 120 => ⟨S204800, .i32⟩
  | 121 => ⟨S204800, .i32⟩
  | 122 => ⟨S204800x1, .i32⟩
  | 123 => ⟨S204800, .i32⟩
  | 124 => ⟨S_, .i32⟩
  | 125 => ⟨S204800, .i32⟩
  | 126 => ⟨S204800, .i1⟩
  | 127 => ⟨S_, .i32⟩
  | _ => ⟨S204800x20, .f32⟩

abbrev hbmTy0_8 (i : Nat) : BufTy := match i % 128 with
  | 0 => ⟨S204800, .i32⟩
  | 1 => ⟨S204800, .i32⟩
  | 2 => ⟨S204800, .i32⟩
  | 3 => ⟨S204800x1, .i32⟩
  | 4 => ⟨S204800, .i32⟩
  | 5 => ⟨S204800, .i32⟩
  | 6 => ⟨S_, .i32⟩
  | 7 => ⟨S_, .i32⟩
  | 8 => ⟨S204800, .i32⟩
  | 9 => ⟨S204800, .i32⟩
  | 10 => ⟨S_, .i32⟩
  | 11 => ⟨S204800, .i32⟩
  | 12 => ⟨S204800, .i1⟩
  | 13 => ⟨S_, .i32⟩
  | 14 => ⟨S204800, .i32⟩
  | 15 => ⟨S204800, .i1⟩
  | 16 => ⟨S_, .i32⟩
  | 17 => ⟨S204800, .i32⟩
  | 18 => ⟨S204800, .i32⟩
  | 19 => ⟨S204800, .i32⟩
  | 20 => ⟨S204800x1, .i32⟩
  | 21 => ⟨S204800, .i32⟩
  | 22 => ⟨S_, .i32⟩
  | 23 => ⟨S_, .i32⟩
  | 24 => ⟨S204800, .i32⟩
  | 25 => ⟨S204800, .i32⟩
  | 26 => ⟨S204800, .f32⟩
  | 27 => ⟨S204800, .f32⟩
  | 28 => ⟨S204800, .i32⟩
  | 29 => ⟨S204800, .i32⟩
  | 30 => ⟨S_, .i32⟩
  | 31 => ⟨S_, .i32⟩
  | 32 => ⟨S_, .i32⟩
  | 33 => ⟨S204800, .i32⟩
  | 34 => ⟨S204800, .i32⟩
  | 35 => ⟨S_, .i32⟩
  | 36 => ⟨S204800, .i32⟩
  | 37 => ⟨S204800, .i32⟩
  | 38 => ⟨S_, .i32⟩
  | 39 => ⟨S204800, .i32⟩
  | 40 => ⟨S204800, .i1⟩
  | 41 => ⟨S_, .i32⟩
  | 42 => ⟨S204800, .i32⟩
  | 43 => ⟨S204800, .i32⟩
  | 44 => ⟨S204800, .i32⟩
  | 45 => ⟨S204800x1, .i32⟩
  | 46 => ⟨S204800, .i32⟩
  | 47 => ⟨S_, .i32⟩
  | 48 => ⟨S_, .i32⟩
  | 49 => ⟨S204800, .i32⟩
  | 50 => ⟨S204800, .i32⟩
  | 51 => ⟨S204800x1, .f32⟩
  | 52 => ⟨S204800, .f32⟩
  | 53 => ⟨S_, .i32⟩
  | 54 => ⟨S204800, .i32⟩
  | 55 => ⟨S204800, .i1⟩
  | 56 => ⟨S_, .i32⟩
  | 57 => ⟨S_, .i32⟩
  | 58 => ⟨S204800, .i32⟩
  | 59 => ⟨S204800, .i32⟩
  | 60 => ⟨S_, .i32⟩
  | 61 => ⟨S204800, .i32⟩
  | 62 => ⟨S204800, .i32⟩
  | 63 => ⟨S_, .i32⟩
  | 64 => ⟨S204800, .i32⟩
  | 65 => ⟨S204800, .i1⟩
  | 66 => ⟨S_, .i32⟩
  | 67 => ⟨S204800, .i32⟩
  | 68 => ⟨S204800, .i32⟩
  | 69 => ⟨S204800, .i32⟩
  | 70 => ⟨S204800x1, .i32⟩
  | 71 => ⟨S204800, .i32⟩
  | 72 => ⟨S_, .i32⟩
  | 73 => ⟨S204800, .i32⟩
  | 74 => ⟨S204800, .i1⟩
  | 75 => ⟨S_, .i32⟩
  | 76 => ⟨S204800, .i32⟩
  | 77 => ⟨S204800, .i32⟩
  | 78 => ⟨S204800, .i32⟩
  | 79 => ⟨S204800x1, .i32⟩
  | 80 => ⟨S204800, .i32⟩
  | 81 => ⟨S204800, .i32⟩
  | 82 => ⟨S_, .i32⟩
  | 83 => ⟨S_, .i32⟩
  | 84 => ⟨S204800, .i32⟩
  | 85 => ⟨S204800, .i32⟩
  | 86 => ⟨S_, .i32⟩
  | 87 => ⟨S204800, .i32⟩
  | 88 => ⟨S204800, .i1⟩
  | 89 => ⟨S_, .i32⟩
  | 90 => ⟨S204800, .i32⟩
  | 91 => ⟨S204800, .i1⟩
  | 92 => ⟨S_, .i32⟩
  | 93 => ⟨S204800, .i32⟩
  | 94 => ⟨S204800, .i32⟩
  | 95 => ⟨S204800, .i32⟩
  | 96 => ⟨S204800x1, .i32⟩
  | 97 => ⟨S204800, .i32⟩
  | 98 => ⟨S_, .i32⟩
  | 99 => ⟨S_, .i32⟩
  | 100 => ⟨S204800, .i32⟩
  | 101 => ⟨S204800, .i32⟩
  | 102 => ⟨S204800, .f32⟩
  | 103 => ⟨S204800, .f32⟩
  | 104 => ⟨S204800, .i32⟩
  | 105 => ⟨S204800, .i32⟩
  | 106 => ⟨S_, .i32⟩
  | 107 => ⟨S_, .i32⟩
  | 108 => ⟨S_, .i32⟩
  | 109 => ⟨S204800, .i32⟩
  | 110 => ⟨S204800, .i32⟩
  | 111 => ⟨S_, .i32⟩
  | 112 => ⟨S204800, .i32⟩
  | 113 => ⟨S204800, .i32⟩
  | 114 => ⟨S_, .i32⟩
  | 115 => ⟨S204800, .i32⟩
  | 116 => ⟨S204800, .i1⟩
  | 117 => ⟨S_, .i32⟩
  | 118 => ⟨S204800, .i32⟩
  | 119 => ⟨S204800, .i32⟩
  | 120 => ⟨S204800, .i32⟩
  | 121 => ⟨S204800x1, .i32⟩
  | 122 => ⟨S204800, .i32⟩
  | 123 => ⟨S_, .i32⟩
  | 124 => ⟨S_, .i32⟩
  | 125 => ⟨S204800, .i32⟩
  | 126 => ⟨S204800, .i32⟩
  | 127 => ⟨S204800x1, .f32⟩
  | _ => ⟨S204800x20, .f32⟩

abbrev hbmTy0_9 (i : Nat) : BufTy := match i % 128 with
  | 0 => ⟨S204800, .f32⟩
  | 1 => ⟨S_, .i32⟩
  | 2 => ⟨S204800, .i32⟩
  | 3 => ⟨S204800, .i1⟩
  | 4 => ⟨S_, .i32⟩
  | 5 => ⟨S_, .i32⟩
  | 6 => ⟨S204800, .i32⟩
  | 7 => ⟨S204800, .i32⟩
  | 8 => ⟨S_, .i32⟩
  | 9 => ⟨S204800, .i32⟩
  | 10 => ⟨S204800, .i32⟩
  | 11 => ⟨S_, .i32⟩
  | 12 => ⟨S204800, .i32⟩
  | 13 => ⟨S204800, .i1⟩
  | 14 => ⟨S_, .i32⟩
  | 15 => ⟨S204800, .i32⟩
  | 16 => ⟨S204800, .i32⟩
  | 17 => ⟨S204800, .i32⟩
  | 18 => ⟨S204800x1, .i32⟩
  | 19 => ⟨S204800, .i32⟩
  | 20 => ⟨S_, .i32⟩
  | 21 => ⟨S204800, .i32⟩
  | 22 => ⟨S204800, .i1⟩
  | 23 => ⟨S_, .i32⟩
  | 24 => ⟨S204800, .i32⟩
  | 25 => ⟨S204800, .i32⟩
  | 26 => ⟨S204800, .i32⟩
  | 27 => ⟨S204800x1, .i32⟩
  | 28 => ⟨S204800, .i32⟩
  | 29 => ⟨S204800, .i32⟩
  | 30 => ⟨S_, .i32⟩
  | 31 => ⟨S_, .i32⟩
  | 32 => ⟨S204800, .i32⟩
  | 33 => ⟨S204800, .i32⟩
  | 34 => ⟨S_, .i32⟩
  | 35 => ⟨S204800, .i32⟩
  | 36 => ⟨S204800, .i1⟩
  | 37 => ⟨S_, .i32⟩
  | 38 => ⟨S204800, .i32⟩
  | 39 => ⟨S204800, .i1⟩
  | 40 => ⟨S_, .i32⟩
  | 41 => ⟨S204800, .i32⟩
  | 42 => ⟨S204800, .i32⟩
  | 43 => ⟨S204800, .i32⟩
  | 44 => ⟨S204800x1, .i32⟩
  | 45 => ⟨S204800, .i32⟩
  | 46 => ⟨S_, .i32⟩
  | 47 => ⟨S_, .i32⟩
  | 48 => ⟨S204800, .i32⟩
  | 49 => ⟨S204800, .i32⟩
  | 50 => ⟨S204800, .f32⟩
  | 51 => ⟨S204800, .f32⟩
  | 52 => ⟨S204800, .i32⟩
  | 53 => ⟨S204800, .i32⟩
  | 54 => ⟨S_, .i32⟩
  | 55 => ⟨S_, .i32⟩
  | 56 => ⟨S_, .i32⟩
  | 57 => ⟨S204800, .i32⟩
  | 58 => ⟨S204800, .i32⟩
  | 59 => ⟨S_, .i32⟩
  | 60 => ⟨S204800, .i32⟩
  | 61 => ⟨S204800, .i32⟩
  | 62 => ⟨S_, .i32⟩
  | 63 => ⟨S204800, .i32⟩
  | 64 => ⟨S204800, .i1⟩
  | 65 => ⟨S_, .i32⟩
  | 66 => ⟨S204800, .i32⟩
  | 67 => ⟨S204800, .i32⟩
  | 68 => ⟨S204800, .i32⟩
  | 69 => ⟨S204800x1, .i32⟩
  | 70 => ⟨S204800, .i32⟩
  | 71 => ⟨S_, .i32⟩
  | 72 => ⟨S_, .i32⟩
  | 73 => ⟨S204800, .i32⟩
  | 74 => ⟨S204800, .i32⟩
  | 75 => ⟨S204800x1, .f32⟩
  | 76 => ⟨S204800, .f32⟩
  | 77 => ⟨S_, .i32⟩
  | 78 => ⟨S204800, .i32⟩
  | 79 => ⟨S204800, .i1⟩
  | 80 => ⟨S_, .i32⟩
  | 81 => ⟨S_, .i32⟩
  | 82 => ⟨S204800, .i32⟩
  | 83 => ⟨S204800, .i32⟩
  | 84 => ⟨S_, .i32⟩
  | 85 => ⟨S204800, .i32⟩
  | 86 => ⟨S204800, .i32⟩
  | 87 => ⟨S_, .i32⟩
  | 88 => ⟨S204800, .i32⟩
  | 89 => ⟨S204800, .i1⟩
  | 90 => ⟨S_, .i32⟩
  | 91 => ⟨S204800, .i32⟩
  | 92 => ⟨S204800, .i32⟩
  | 93 => ⟨S204800, .i32⟩
  | 94 => ⟨S204800x1, .i32⟩
  | 95 => ⟨S204800, .i32⟩
  | 96 => ⟨S_, .i32⟩
  | 97 => ⟨S204800, .i32⟩
  | 98 => ⟨S204800, .i1⟩
  | 99 => ⟨S_, .i32⟩
  | 100 => ⟨S204800, .i32⟩
  | 101 => ⟨S204800, .i32⟩
  | 102 => ⟨S204800, .i32⟩
  | 103 => ⟨S204800x1, .i32⟩
  | 104 => ⟨S204800, .i32⟩
  | 105 => ⟨S204800, .i32⟩
  | 106 => ⟨S_, .i32⟩
  | 107 => ⟨S_, .i32⟩
  | 108 => ⟨S204800, .i32⟩
  | 109 => ⟨S204800, .i32⟩
  | 110 => ⟨S_, .i32⟩
  | 111 => ⟨S204800, .i32⟩
  | 112 => ⟨S204800, .i1⟩
  | 113 => ⟨S_, .i32⟩
  | 114 => ⟨S204800, .i32⟩
  | 115 => ⟨S204800, .i1⟩
  | 116 => ⟨S_, .i32⟩
  | 117 => ⟨S204800, .i32⟩
  | 118 => ⟨S204800, .i32⟩
  | 119 => ⟨S204800, .i32⟩
  | 120 => ⟨S204800x1, .i32⟩
  | 121 => ⟨S204800, .i32⟩
  | 122 => ⟨S_, .i32⟩
  | 123 => ⟨S_, .i32⟩
  | 124 => ⟨S204800, .i32⟩
  | 125 => ⟨S204800, .i32⟩
  | 126 => ⟨S204800, .f32⟩
  | 127 => ⟨S204800, .f32⟩
  | _ => ⟨S204800x20, .f32⟩

abbrev hbmTy0_10 (i : Nat) : BufTy := match i % 128 with
  | 0 => ⟨S204800, .i32⟩
  | 1 => ⟨S204800, .i32⟩
  | 2 => ⟨S_, .i32⟩
  | 3 => ⟨S_, .i32⟩
  | 4 => ⟨S_, .i32⟩
  | 5 => ⟨S204800, .i32⟩
  | 6 => ⟨S204800, .i32⟩
  | 7 => ⟨S_, .i32⟩
  | 8 => ⟨S204800, .i32⟩
  | 9 => ⟨S204800, .i32⟩
  | 10 => ⟨S_, .i32⟩
  | 11 => ⟨S204800, .i32⟩
  | 12 => ⟨S204800, .i1⟩
  | 13 => ⟨S_, .i32⟩
  | 14 => ⟨S204800, .i32⟩
  | 15 => ⟨S204800, .i32⟩
  | 16 => ⟨S204800, .i32⟩
  | 17 => ⟨S204800x1, .i32⟩
  | 18 => ⟨S204800, .i32⟩
  | 19 => ⟨S_, .i32⟩
  | 20 => ⟨S_, .i32⟩
  | 21 => ⟨S204800, .i32⟩
  | 22 => ⟨S204800, .i32⟩
  | 23 => ⟨S204800x1, .f32⟩
  | 24 => ⟨S204800, .f32⟩
  | 25 => ⟨S_, .i32⟩
  | 26 => ⟨S204800, .i32⟩
  | 27 => ⟨S204800, .i1⟩
  | 28 => ⟨S_, .i32⟩
  | 29 => ⟨S_, .i32⟩
  | 30 => ⟨S204800, .i32⟩
  | 31 => ⟨S204800, .i32⟩
  | 32 => ⟨S_, .i32⟩
  | 33 => ⟨S204800, .i32⟩
  | 34 => ⟨S204800, .i32⟩
  | 35 => ⟨S_, .i32⟩
  | 36 => ⟨S204800, .i32⟩
  | 37 => ⟨S204800, .i1⟩
  | 38 => ⟨S_, .i32⟩
  | 39 => ⟨S204800, .i32⟩
  | 40 => ⟨S204800, .i32⟩
  | 41 => ⟨S204800, .i32⟩
  | 42 => ⟨S204800x1, .i32⟩
  | 43 => ⟨S204800, .i32⟩
  | 44 => ⟨S_, .i32⟩
  | 45 => ⟨S204800, .i32⟩
  | 46 => ⟨S204800, .i1⟩
  | 47 => ⟨S_, .i32⟩
  | 48 => ⟨S204800, .i32⟩
  | 49 => ⟨S204800, .i32⟩
  | 50 => ⟨S204800, .i32⟩
  | 51 => ⟨S204800x1, .i32⟩
  | 52 => ⟨S204800, .i32⟩
  | 53 => ⟨S204800, .i32⟩
  | 54 => ⟨S_, .i32⟩
  | 55 => ⟨S_, .i32⟩
  | 56 => ⟨S204800, .i32⟩
  | 57 => ⟨S204800, .i32⟩
  | 58 => ⟨S_, .i32⟩
  | 59 => ⟨S204800, .i32⟩
  | 60 => ⟨S204800, .i1⟩
  | 61 => ⟨S_, .i32⟩
  | 62 => ⟨S204800, .i32⟩
  | 63 => ⟨S204800, .i1⟩
  | 64 => ⟨S_, .i32⟩
  | 65 => ⟨S204800, .i32⟩
  | 66 => ⟨S204800, .i32⟩
  | 67 => ⟨S204800, .i32⟩
  | 68 => ⟨S204800x1, .i32⟩
  | 69 => ⟨S204800, .i32⟩
  | 70 => ⟨S_, .i32⟩
  | 71 => ⟨S_, .i32⟩
  | 72 => ⟨S204800, .i32⟩
  | 73 => ⟨S204800, .i32⟩
  | 74 => ⟨S204800, .f32⟩
  | 75 => ⟨S204800, .f32⟩
  | 76 => ⟨S204800, .i32⟩
  | 77 => ⟨S204800, .i32⟩
  | 78 => ⟨S_, .i32⟩
  | 79 => ⟨S_, .i32⟩
  | 80 => ⟨S_, .i32⟩
  | 81 => ⟨S204800, .i32⟩
  | 82 => ⟨S204800, .i32⟩
  | 83 => ⟨S_, .i32⟩
  | 84 => ⟨S204800, .i32⟩
  | 85 => ⟨S204800, .i32⟩
  | 86 => ⟨S_, .i32⟩
  | 87 => ⟨S204800, .i32⟩
  | 88 => ⟨S204800, .i1⟩
  | 89 => ⟨S_, .i32⟩
  | 90 => ⟨S204800, .i32⟩
  | 91 => ⟨S204800, .i32⟩
  | 92 => ⟨S204800, .i32⟩
  | 93 => ⟨S204800x1, .i32⟩
  | 94 => ⟨S204800, .i32⟩
  | 95 => ⟨S_, .i32⟩
  | 96 => ⟨S_, .i32⟩
  | 97 => ⟨S204800, .i32⟩
  | 98 => ⟨S204800, .i32⟩
  | 99 => ⟨S204800x1, .f32⟩
  | 100 => ⟨S204800, .f32⟩
  | 101 => ⟨S_, .i32⟩
  | 102 => ⟨S204800, .i32⟩
  | 103 => ⟨S204800, .i1⟩
  | 104 => ⟨S_, .i32⟩
  | 105 => ⟨S_, .i32⟩
  | 106 => ⟨S204800, .i32⟩
  | 107 => ⟨S204800, .i32⟩
  | 108 => ⟨S_, .i32⟩
  | 109 => ⟨S204800, .i32⟩
  | 110 => ⟨S204800, .i32⟩
  | 111 => ⟨S_, .i32⟩
  | 112 => ⟨S204800, .i32⟩
  | 113 => ⟨S204800, .i1⟩
  | 114 => ⟨S_, .i32⟩
  | 115 => ⟨S204800, .i32⟩
  | 116 => ⟨S204800, .i32⟩
  | 117 => ⟨S204800, .i32⟩
  | 118 => ⟨S204800x1, .i32⟩
  | 119 => ⟨S204800, .i32⟩
  | 120 => ⟨S_, .i32⟩
  | 121 => ⟨S204800, .i32⟩
  | 122 => ⟨S204800, .i1⟩
  | 123 => ⟨S_, .i32⟩
  | 124 => ⟨S204800, .i32⟩
  | 125 => ⟨S204800, .i32⟩
  | 126 => ⟨S204800, .i32⟩
  | 127 => ⟨S204800x1, .i32⟩
  | _ => ⟨S204800x20, .f32⟩

abbrev hbmTy0_11 (i : Nat) : BufTy := match i % 128 with
  | 0 => ⟨S204800, .i32⟩
  | 1 => ⟨S204800, .i32⟩
  | 2 => ⟨S_, .i32⟩
  | 3 => ⟨S_, .i32⟩
  | 4 => ⟨S204800, .i32⟩
  | 5 => ⟨S204800, .i32⟩
  | 6 => ⟨S_, .i32⟩
  | 7 => ⟨S204800, .i32⟩
  | 8 => ⟨S204800, .i1⟩
  | 9 => ⟨S_, .i32⟩
  | 10 => ⟨S204800, .i32⟩
  | 11 => ⟨S204800, .i1⟩
  | 12 => ⟨S_, .i32⟩
  | 13 => ⟨S204800, .i32⟩
  | 14 => ⟨S204800, .i32⟩
  | 15 => ⟨S204800, .i32⟩
  | 16 => ⟨S204800x1, .i32⟩
  | 17 => ⟨S204800, .i32⟩
  | 18 => ⟨S_, .i32⟩
  | 19 => ⟨S_, .i32⟩
  | 20 => ⟨S204800, .i32⟩
  | 21 => ⟨S204800, .i32⟩
  | 22 => ⟨S204800, .f32⟩
  | 23 => ⟨S204800, .f32⟩
  | 24 => ⟨S204800, .i32⟩
  | 25 => ⟨S204800, .i32⟩
  | 26 => ⟨S_, .i32⟩
  | 27 => ⟨S_, .i32⟩
  | 28 => ⟨S_, .i32⟩
  | 29 => ⟨S204800, .i32⟩
  | 30 => ⟨S204800, .i32⟩
  | 31 => ⟨S_, .i32⟩
  | 32 => ⟨S204800, .i32⟩
  | 33 => ⟨S204800, .i32⟩
  | 34 => ⟨S_, .i32⟩
  | 35 => ⟨S204800, .i32⟩
  | 36 => ⟨S204800, .i1⟩
  | 37 => ⟨S_, .i32⟩
  | 38 => ⟨S204800, .i32⟩
  | 39 => ⟨S204800, .i32⟩
  | 40 => ⟨S204800, .i32⟩
  | 41 => ⟨S204800x1, .i32⟩
  | 42 => ⟨S204800, .i32⟩
  | 43 => ⟨S_, .i32⟩
  | 44 => ⟨S_, .i32⟩
  | 45 => ⟨S204800, .i32⟩
  | 46 => ⟨S204800, .i32⟩
  | 47 => ⟨S204800x1, .f32⟩
  | 48 => ⟨S204800, .f32⟩
  | 49 => ⟨S_, .i32⟩
  | 50 => ⟨S204800, .i32⟩
  | 51 => ⟨S204800, .i1⟩
  | 52 => ⟨S_, .i32⟩
  | 53 => ⟨S_, .i32⟩
  | 54 => ⟨S204800, .i32⟩
  | 55 => ⟨S204800, .i32⟩
  | 56 => ⟨S_, .i32⟩
  | 57 => ⟨S204800, .i32⟩
  | 58 => ⟨S204800, .i32⟩
  | 59 => ⟨S_, .i32⟩
  | 60 => ⟨S204800, .i32⟩
  | 61 => ⟨S204800, .i1⟩
  | 62 => ⟨S_, .i32⟩
  | 63 => ⟨S204800, .i32⟩
  | 64 => ⟨S204800, .i32⟩
  | 65 => ⟨S204800, .i32⟩
  | 66 => ⟨S204800x1, .i32⟩
  | 67 => ⟨S204800, .i32⟩
  | 68 => ⟨S_, .i32⟩
  | 69 => ⟨S204800, .i32⟩
  | 70 => ⟨S204800, .i1⟩
  | 71 => ⟨S_, .i32⟩
  | 72 => ⟨S204800, .i32⟩
  | 73 => ⟨S204800, .i32⟩
  | 74 => ⟨S204800, .i32⟩
  | 75 => ⟨S204800x1, .i32⟩
  | 76 => ⟨S204800, .i32⟩
  | 77 => ⟨S204800, .i32⟩
  | 78 => ⟨S_, .i32⟩
  | 79 => ⟨S_, .i32⟩
  | 80 => ⟨S204800, .i32⟩
  | 81 => ⟨S204800, .i32⟩
  | 82 => ⟨S_, .i32⟩
  | 83 => ⟨S204800, .i32⟩
  | 84 => ⟨S204800, .i1⟩
  | 85 => ⟨S_, .i32⟩
  | 86 => ⟨S204800, .i32⟩
  | 87 => ⟨S204800, .i1⟩
  | 88 => ⟨S_, .i32⟩
  | 89 => ⟨S204800, .i32⟩
  | 90 => ⟨S204800, .i32⟩
  | 91 => ⟨S204800, .i32⟩
  | 92 => ⟨S204800x1, .i32⟩
  | 93 => ⟨S204800, .i32⟩
  | 94 => ⟨S_, .i32⟩
  | 95 => ⟨S_, .i32⟩
  | 96 => ⟨S204800, .i32⟩
  | 97 => ⟨S204800, .i32⟩
  | 98 => ⟨S204800, .f32⟩
  | 99 => ⟨S204800, .f32⟩
  | 100 => ⟨S204800, .i32⟩
  | 101 => ⟨S204800, .i32⟩
  | 102 => ⟨S_, .i32⟩
  | 103 => ⟨S_, .i32⟩
  | 104 => ⟨S_, .i32⟩
  | 105 => ⟨S204800, .i32⟩
  | 106 => ⟨S204800, .i32⟩
  | 107 => ⟨S_, .i32⟩
  | 108 => ⟨S204800, .i32⟩
  | 109 => ⟨S204800, .i32⟩
  | 110 => ⟨S_, .i32⟩
  | 111 => ⟨S204800, .i32⟩
  | 112 => ⟨S204800, .i1⟩
  | 113 => ⟨S_, .i32⟩
  | 114 => ⟨S204800, .i32⟩
  | 115 => ⟨S204800, .i32⟩
  | 116 => ⟨S204800, .i32⟩
  | 117 => ⟨S204800x1, .i32⟩
  | 118 => ⟨S204800, .i32⟩
  | 119 => ⟨S_, .i32⟩
  | 120 => ⟨S_, .i32⟩
  | 121 => ⟨S204800, .i32⟩
  | 122 => ⟨S204800, .i32⟩
  | 123 => ⟨S204800x1, .i32⟩
  | 124 => ⟨S204800x1, .i32⟩
  | 125 => ⟨S204800x1, .i32⟩
  | 126 => ⟨S204800x1, .i32⟩
  | 127 => ⟨S204800x1, .i32⟩
  | _ => ⟨S204800x20, .f32⟩

abbrev hbmTy0_12 (i : Nat) : BufTy := match i % 128 with
  | 0 => ⟨S204800x1, .i32⟩
  | 1 => ⟨S204800x1, .i32⟩
  | 2 => ⟨S204800x1, .i32⟩
  | 3 => ⟨S204800x1, .i32⟩
  | 4 => ⟨S204800x1, .i32⟩
  | 5 => ⟨S204800x1, .i32⟩
  | 6 => ⟨S204800x1, .i32⟩
  | 7 => ⟨S204800x1, .i32⟩
  | 8 => ⟨S204800x1, .i32⟩
  | 9 => ⟨S204800x1, .i32⟩
  | 10 => ⟨S204800x1, .i32⟩
  | 11 => ⟨S204800x1, .i32⟩
  | 12 => ⟨S204800x1, .i32⟩
  | 13 => ⟨S204800x1, .i32⟩
  | 14 => ⟨S204800x1, .i32⟩
  | 15 => ⟨S204800x1, .i32⟩
  | 16 => ⟨S204800x16, .i32⟩
  | 17 => ⟨S204800x5, .i32⟩
  | 18 => ⟨S204800x21, .i32⟩
  | 19 => ⟨S1x21, .i32⟩
  | 20 => ⟨S204800x21, .i32⟩
  | 21 => ⟨S204800x21, .i32⟩
  | 22 => ⟨S_, .i32⟩
  | 23 => ⟨S204800x21, .i32⟩
  | 24 => ⟨S204800x21, .i1⟩
  | 25 => ⟨S_, .i32⟩
  | 26 => ⟨S_, .i32⟩
  | 27 => ⟨S204800x21, .i32⟩
  | 28 => ⟨S204800x21, .i32⟩
  | 29 => ⟨S204800x7, .i32⟩
  | 30 => ⟨S204800x7, .i32⟩
  | 31 => ⟨S204800x7, .i32⟩
  | 32 => ⟨S204800x7, .i32⟩
  | 33 => ⟨S204800x7, .i32⟩
  | 34 => ⟨S204800x7, .i32⟩
  | 35 => ⟨S204800x7, .i32⟩
  | 36 => ⟨S204800x7, .i32⟩
  | 37 => ⟨S204800x7, .i32⟩
  | 38 => ⟨S204800x7, .i32⟩
  | 39 => ⟨S204800x7, .i32⟩
  | 40 => ⟨S204800x7, .i32⟩
  | 41 => ⟨S204800x7, .i32⟩
  | 42 => ⟨S204800x7, .i32⟩
  | 43 => ⟨S204800x7, .i32⟩
  | 44 => ⟨S3072000x7, .i32⟩
  | 45 => ⟨S_, .i32⟩
  | 46 => ⟨S3072000x7, .i32⟩
  | 47 => ⟨S3072000x7, .i1⟩
  | 48 => ⟨S_, .i32⟩
  | 49 => ⟨S3072000x7, .i32⟩
  | 50 => ⟨S3072000x7, .i1⟩
  | 51 => ⟨S3072000x7, .i1⟩
  | 52 => ⟨S_, .i32⟩
  | 53 => ⟨S3072000x7, .i32⟩
  | 54 => ⟨S3072000x7, .i32⟩
  | 55 => ⟨S_, .i32⟩
  | 56 => ⟨S3072000x7, .i32⟩
  | 57 => ⟨S3072000x7, .i32⟩
  | 58 => ⟨S3072000x7, .i32⟩
  | 59 => ⟨S1x2048, .i32⟩
  | 60 => ⟨S100x2048, .i32⟩
  | 61 => ⟨S204800, .i32⟩
  | 62 => ⟨S204800x1, .f32⟩
  | 63 => ⟨S204800, .f32⟩
  | 64 => ⟨S_, .f32⟩
  | 65 => ⟨S204800, .f32⟩
  | 66 => ⟨S204800, .f32⟩
  | 67 => ⟨S204800, .i32⟩
  | 68 => ⟨S204800x1, .f32⟩
  | 69 => ⟨S204800, .f32⟩
  | 70 => ⟨S_, .f32⟩
  | 71 => ⟨S204800, .f32⟩
  | 72 => ⟨S204800, .f32⟩
  | 73 => ⟨S204800, .i32⟩
  | 74 => ⟨S204800x1, .f32⟩
  | 75 => ⟨S204800, .f32⟩
  | 76 => ⟨S_, .f32⟩
  | 77 => ⟨S204800, .f32⟩
  | 78 => ⟨S204800, .f32⟩
  | 79 => ⟨S204800, .i32⟩
  | 80 => ⟨S204800x1, .f32⟩
  | 81 => ⟨S204800, .f32⟩
  | 82 => ⟨S_, .f32⟩
  | 83 => ⟨S204800, .f32⟩
  | 84 => ⟨S204800, .f32⟩
  | 85 => ⟨S204800, .i32⟩
  | 86 => ⟨S204800x1, .f32⟩
  | 87 => ⟨S204800, .f32⟩
  | 88 => ⟨S_, .f32⟩
  | 89 => ⟨S204800, .f32⟩
  | 90 => ⟨S204800, .f32⟩
  | 91 => ⟨S204800, .i32⟩
  | 92 => ⟨S204800x1, .f32⟩
  | 93 => ⟨S204800, .f32⟩
  | 94 => ⟨S_, .f32⟩
  | 95 => ⟨S204800, .f32⟩
  | 96 => ⟨S204800, .f32⟩
  | 97 => ⟨S204800, .i32⟩
  | 98 => ⟨S204800x1, .f32⟩
  | 99 => ⟨S204800, .f32⟩
  | 100 => ⟨S_, .f32⟩
  | 101 => ⟨S204800, .f32⟩
  | 102 => ⟨S204800, .f32⟩
  | 103 => ⟨S204800, .i32⟩
  | 104 => ⟨S204800x1, .f32⟩
  | 105 => ⟨S204800, .f32⟩
  | 106 => ⟨S_, .f32⟩
  | 107 => ⟨S204800, .f32⟩
  | 108 => ⟨S204800, .f32⟩
  | 109 => ⟨S204800, .i32⟩
  | 110 => ⟨S204800x1, .f32⟩
  | 111 => ⟨S204800, .f32⟩
  | 112 => ⟨S_, .f32⟩
  | 113 => ⟨S204800, .f32⟩
  | 114 => ⟨S204800, .f32⟩
  | 115 => ⟨S204800, .i32⟩
  | 116 => ⟨S204800x1, .f32⟩
  | 117 => ⟨S204800, .f32⟩
  | 118 => ⟨S_, .f32⟩
  | 119 => ⟨S204800, .f32⟩
  | 120 => ⟨S204800, .f32⟩
  | 121 => ⟨S204800, .i32⟩
  | 122 => ⟨S204800x1, .f32⟩
  | 123 => ⟨S204800, .f32⟩
  | 124 => ⟨S_, .f32⟩
  | 125 => ⟨S204800, .f32⟩
  | 126 => ⟨S204800, .f32⟩
  | 127 => ⟨S204800, .i32⟩
  | _ => ⟨S204800x20, .f32⟩

abbrev hbmTy0_13 (i : Nat) : BufTy := match i % 128 with
  | 0 => ⟨S204800x1, .f32⟩
  | 1 => ⟨S204800, .f32⟩
  | 2 => ⟨S_, .f32⟩
  | 3 => ⟨S204800, .f32⟩
  | 4 => ⟨S204800, .f32⟩
  | 5 => ⟨S204800, .i32⟩
  | 6 => ⟨S204800x1, .f32⟩
  | 7 => ⟨S204800, .f32⟩
  | 8 => ⟨S_, .f32⟩
  | 9 => ⟨S204800, .f32⟩
  | 10 => ⟨S204800, .f32⟩
  | 11 => ⟨S204800, .i32⟩
  | 12 => ⟨S204800x1, .f32⟩
  | 13 => ⟨S204800, .f32⟩
  | 14 => ⟨S_, .f32⟩
  | 15 => ⟨S204800, .f32⟩
  | 16 => ⟨S204800, .f32⟩
  | 17 => ⟨S204800, .i32⟩
  | 18 => ⟨S204800x1, .f32⟩
  | 19 => ⟨S204800, .f32⟩
  | 20 => ⟨S_, .f32⟩
  | 21 => ⟨S204800, .f32⟩
  | 22 => ⟨S204800, .f32⟩
  | 23 => ⟨S204800, .i32⟩
  | 24 => ⟨S204800x1, .f32⟩
  | 25 => ⟨S204800, .f32⟩
  | 26 => ⟨S_, .f32⟩
  | 27 => ⟨S204800, .f32⟩
  | 28 => ⟨S204800, .f32⟩
  | 29 => ⟨S204800, .i32⟩
  | 30 => ⟨S204800x1, .f32⟩
  | 31 => ⟨S204800, .f32⟩
  | 32 => ⟨S_, .f32⟩
  | 33 => ⟨S204800, .f32⟩
  | 34 => ⟨S204800, .f32⟩
  | 35 => ⟨S204800, .i32⟩
  | 36 => ⟨S204800x1, .f32⟩
  | 37 => ⟨S204800, .f32⟩
  | 38 => ⟨S_, .f32⟩
  | 39 => ⟨S204800, .f32⟩
  | 40 => ⟨S204800, .f32⟩
  | 41 => ⟨S204800, .i32⟩
  | 42 => ⟨S204800x1, .f32⟩
  | 43 => ⟨S204800, .f32⟩
  | 44 => ⟨S_, .f32⟩
  | 45 => ⟨S204800, .f32⟩
  | 46 => ⟨S204800, .f32⟩
  | 47 => ⟨S204800, .i32⟩
  | 48 => ⟨S204800x1, .f32⟩
  | 49 => ⟨S204800, .f32⟩
  | 50 => ⟨S_, .f32⟩
  | 51 => ⟨S204800, .f32⟩
  | 52 => ⟨S204800, .f32⟩
  | 53 => ⟨S204800, .i32⟩
  | 54 => ⟨S204800x1, .i32⟩
  | 55 => ⟨S204800x1, .i32⟩
  | 56 => ⟨S204800x1, .i32⟩
  | 57 => ⟨S204800x1, .i32⟩
  | 58 => ⟨S204800x1, .i32⟩
  | 59 => ⟨S204800x1, .i32⟩
  | 60 => ⟨S204800x1, .i32⟩
  | 61 => ⟨S204800x1, .i32⟩
  | 62 => ⟨S204800x1, .i32⟩
  | 63 => ⟨S204800x1, .i32⟩
  | 64 => ⟨S204800x1, .i32⟩
  | 65 => ⟨S204800x1, .i32⟩
  | 66 => ⟨S204800x1, .i32⟩
  | 67 => ⟨S204800x1, .i32⟩
  | 68 => ⟨S204800x1, .i32⟩
  | 69 => ⟨S204800x1, .i32⟩
  | 70 => ⟨S204800x1, .i32⟩
  | 71 => ⟨S204800x1, .i32⟩
  | 72 => ⟨S204800x1, .i32⟩
  | 73 => ⟨S204800x1, .i32⟩
  | 74 => ⟨S204800x1, .i32⟩
  | 75 => ⟨S204800x16, .i32⟩
  | 76 => ⟨S204800x5, .i32⟩
  | 77 => ⟨S204800x21, .i32⟩
  | 78 => ⟨S1x21, .i32⟩
  | 79 => ⟨S204800x21, .i32⟩
  | 80 => ⟨S204800x21, .i32⟩
  | 81 => ⟨S204800x7, .i32⟩
  | 82 => ⟨S204800x7, .i32⟩
  | 83 => ⟨S204800x7, .i32⟩
  | 84 => ⟨S204800x7, .i32⟩
  | 85 => ⟨S204800x7, .i32⟩
  | 86 => ⟨S204800x7, .i32⟩
  | 87 => ⟨S204800x7, .i32⟩
  | 88 => ⟨S204800x7, .i32⟩
  | 89 => ⟨S204800x7, .i32⟩
  | 90 => ⟨S204800x7, .i32⟩
  | 91 => ⟨S204800x7, .i32⟩
  | 92 => ⟨S204800x7, .i32⟩
  | 93 => ⟨S204800x7, .i32⟩
  | 94 => ⟨S204800x7, .i32⟩
  | 95 => ⟨S204800x7, .i32⟩
  | 96 => ⟨S3072000x7, .i32⟩
  | 97 => ⟨S_, .i32⟩
  | 98 => ⟨S3072000x7, .i32⟩
  | 99 => ⟨S3072000x7, .i1⟩
  | 100 => ⟨S_, .i32⟩
  | 101 => ⟨S3072000x7, .i32⟩
  | 102 => ⟨S3072000x7, .i1⟩
  | 103 => ⟨S3072000x7, .i1⟩
  | 104 => ⟨S_, .i32⟩
  | 105 => ⟨S3072000x7, .i32⟩
  | 106 => ⟨S3072000x7, .i32⟩
  | 107 => ⟨S_, .i32⟩
  | 108 => ⟨S3072000x7, .i32⟩
  | 109 => ⟨S3072000x7, .i32⟩
  | 110 => ⟨S3072000x7, .i32⟩
  | _ => ⟨S204800x20, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S204800x20, .f32⟩

abbrev bufTy : (tb : Table) → Fin (tcTables nBuf tb) → BufTy
  | .hbm, ⟨i, _⟩ => hbmTy i
  | _, _ => ⟨S204800x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_call2_v0 : Ref sig .tc := ⟨.hbm, 59, rfl⟩
abbrev main_call2_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_c_13 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v40 : Ref sig .tc := ⟨.hbm, 73, rfl⟩
abbrev main_c_14 : Ref sig .tc := ⟨.hbm, 74, rfl⟩
abbrev main_v41 : Ref sig .tc := ⟨.hbm, 75, rfl⟩
abbrev main_v42 : Ref sig .tc := ⟨.hbm, 76, rfl⟩
abbrev main_c_15 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_16 : Ref sig .tc := ⟨.hbm, 83, rfl⟩
abbrev main_call4_v0 : Ref sig .tc := ⟨.hbm, 84, rfl⟩
abbrev main_call4_v1 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_17 : Ref sig .tc := ⟨.hbm, 89, rfl⟩
abbrev main_v51 : Ref sig .tc := ⟨.hbm, 90, rfl⟩
abbrev main_v52 : Ref sig .tc := ⟨.hbm, 91, rfl⟩
abbrev main_c_18 : Ref sig .tc := ⟨.hbm, 92, rfl⟩
abbrev main_call5_v0 : Ref sig .tc := ⟨.hbm, 93, rfl⟩
abbrev main_call5_v1 : Ref sig .tc := ⟨.hbm, 94, rfl⟩
abbrev main_v53 : Ref sig .tc := ⟨.hbm, 95, rfl⟩
abbrev main_c_19 : Ref sig .tc := ⟨.hbm, 96, rfl⟩
abbrev main_v54 : Ref sig .tc := ⟨.hbm, 97, rfl⟩
abbrev main_v55 : Ref sig .tc := ⟨.hbm, 98, rfl⟩
abbrev main_c_20 : Ref sig .tc := ⟨.hbm, 99, rfl⟩
abbrev main_v56 : Ref sig .tc := ⟨.hbm, 100, rfl⟩
abbrev main_v57 : Ref sig .tc := ⟨.hbm, 101, rfl⟩
abbrev main_c_21 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_22 : Ref sig .tc := ⟨.hbm, 108, rfl⟩
abbrev main_v63 : Ref sig .tc := ⟨.hbm, 109, rfl⟩
abbrev main_v64 : Ref sig .tc := ⟨.hbm, 110, rfl⟩
abbrev main_c_23 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_24 : Ref sig .tc := ⟨.hbm, 118, rfl⟩
abbrev main_call6_v0 : Ref sig .tc := ⟨.hbm, 119, rfl⟩
abbrev main_call6_v1 : Ref sig .tc := ⟨.hbm, 120, rfl⟩
abbrev main_v71 : Ref sig .tc := ⟨.hbm, 121, rfl⟩
abbrev main_c_25 : Ref sig .tc := ⟨.hbm, 122, rfl⟩
abbrev main_v72 : Ref sig .tc := ⟨.hbm, 123, rfl⟩
abbrev main_v73 : Ref sig .tc := ⟨.hbm, 124, rfl⟩
abbrev main_c_26 : Ref sig .tc := ⟨.hbm, 125, rfl⟩
abbrev main_v74 : Ref sig .tc := ⟨.hbm, 126, rfl⟩
abbrev main_v75 : Ref sig .tc := ⟨.hbm, 127, rfl⟩
abbrev main_c_27 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_28 : Ref sig .tc := ⟨.hbm, 134, rfl⟩
abbrev main_call7_v0 : Ref sig .tc := ⟨.hbm, 135, rfl⟩
abbrev main_call7_v1 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_c_29 : Ref sig .tc := ⟨.hbm, 142, rfl⟩
abbrev main_c_30 : Ref sig .tc := ⟨.hbm, 143, rfl⟩
abbrev main_call8_v0 : Ref sig .tc := ⟨.hbm, 144, rfl⟩
abbrev main_call8_v1 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_v86 : Ref sig .tc := ⟨.hbm, 149, rfl⟩
abbrev main_c_31 : Ref sig .tc := ⟨.hbm, 150, rfl⟩
abbrev main_v87 : Ref sig .tc := ⟨.hbm, 151, rfl⟩
abbrev main_v88 : Ref sig .tc := ⟨.hbm, 152, rfl⟩
abbrev main_c_32 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_33 : Ref sig .tc := ⟨.hbm, 159, rfl⟩
abbrev main_call9_v0 : Ref sig .tc := ⟨.hbm, 160, rfl⟩
abbrev main_call9_v1 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_c_34 : Ref sig .tc := ⟨.hbm, 165, rfl⟩
abbrev main_v97 : Ref sig .tc := ⟨.hbm, 166, rfl⟩
abbrev main_v98 : Ref sig .tc := ⟨.hbm, 167, rfl⟩
abbrev main_c_35 : Ref sig .tc := ⟨.hbm, 168, rfl⟩
abbrev main_call10_v0 : Ref sig .tc := ⟨.hbm, 169, rfl⟩
abbrev main_call10_v1 : Ref sig .tc := ⟨.hbm, 170, rfl⟩
abbrev main_v99 : Ref sig .tc := ⟨.hbm, 171, rfl⟩
abbrev main_c_36 : Ref sig .tc := ⟨.hbm, 172, rfl⟩
abbrev main_v100 : Ref sig .tc := ⟨.hbm, 173, rfl⟩
abbrev main_v101 : Ref sig .tc := ⟨.hbm, 174, rfl⟩
abbrev main_c_37 : Ref sig .tc := ⟨.hbm, 175, rfl⟩
abbrev main_v102 : Ref sig .tc := ⟨.hbm, 176, rfl⟩
abbrev main_v103 : Ref sig .tc := ⟨.hbm, 177, rfl⟩
abbrev main_c_38 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_c_39 : Ref sig .tc := ⟨.hbm, 184, rfl⟩
abbrev main_v109 : Ref sig .tc := ⟨.hbm, 185, rfl⟩
abbrev main_v110 : Ref sig .tc := ⟨.hbm, 186, rfl⟩
abbrev main_c_40 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_c_41 : Ref sig .tc := ⟨.hbm, 194, rfl⟩
abbrev main_call11_v0 : Ref sig .tc := ⟨.hbm, 195, rfl⟩
abbrev main_call11_v1 : Ref sig .tc := ⟨.hbm, 196, rfl⟩
abbrev main_v117 : Ref sig .tc := ⟨.hbm, 197, rfl⟩
abbrev main_c_42 : Ref sig .tc := ⟨.hbm, 198, rfl⟩
abbrev main_v118 : Ref sig .tc := ⟨.hbm, 199, rfl⟩
abbrev main_v119 : Ref sig .tc := ⟨.hbm, 200, rfl⟩
abbrev main_c_43 : Ref sig .tc := ⟨.hbm, 201, rfl⟩
abbrev main_v120 : Ref sig .tc := ⟨.hbm, 202, rfl⟩
abbrev main_v121 : Ref sig .tc := ⟨.hbm, 203, rfl⟩
abbrev main_c_44 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_c_45 : Ref sig .tc := ⟨.hbm, 210, rfl⟩
abbrev main_call12_v0 : Ref sig .tc := ⟨.hbm, 211, rfl⟩
abbrev main_call12_v1 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_c_46 : Ref sig .tc := ⟨.hbm, 218, rfl⟩
abbrev main_c_47 : Ref sig .tc := ⟨.hbm, 219, rfl⟩
abbrev main_call13_v0 : Ref sig .tc := ⟨.hbm, 220, rfl⟩
abbrev main_call13_v1 : Ref sig .tc := ⟨.hbm, 221, rfl⟩
abbrev main_call13_v2 : Ref sig .tc := ⟨.hbm, 222, rfl⟩
abbrev main_call13_v3 : Ref sig .tc := ⟨.hbm, 223, rfl⟩
abbrev main_call13_v4 : Ref sig .tc := ⟨.hbm, 224, rfl⟩
abbrev main_v132 : Ref sig .tc := ⟨.hbm, 225, rfl⟩
abbrev main_c_48 : Ref sig .tc := ⟨.hbm, 226, rfl⟩
abbrev main_v133 : Ref sig .tc := ⟨.hbm, 227, rfl⟩
abbrev main_v134 : Ref sig .tc := ⟨.hbm, 228, rfl⟩
abbrev main_c_49 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_c_50 : Ref sig .tc := ⟨.hbm, 235, rfl⟩
abbrev main_call14_v0 : Ref sig .tc := ⟨.hbm, 236, rfl⟩
abbrev main_call14_v1 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_c_51 : Ref sig .tc := ⟨.hbm, 241, rfl⟩
abbrev main_v143 : Ref sig .tc := ⟨.hbm, 242, rfl⟩
abbrev main_v144 : Ref sig .tc := ⟨.hbm, 243, rfl⟩
abbrev main_c_52 : Ref sig .tc := ⟨.hbm, 244, rfl⟩
abbrev main_call15_v0 : Ref sig .tc := ⟨.hbm, 245, rfl⟩
abbrev main_call15_v1 : Ref sig .tc := ⟨.hbm, 246, rfl⟩
abbrev main_v145 : Ref sig .tc := ⟨.hbm, 247, rfl⟩
abbrev main_c_53 : Ref sig .tc := ⟨.hbm, 248, rfl⟩
abbrev main_v146 : Ref sig .tc := ⟨.hbm, 249, rfl⟩
abbrev main_v147 : Ref sig .tc := ⟨.hbm, 250, rfl⟩
abbrev main_c_54 : Ref sig .tc := ⟨.hbm, 251, rfl⟩
abbrev main_v148 : Ref sig .tc := ⟨.hbm, 252, rfl⟩
abbrev main_v149 : Ref sig .tc := ⟨.hbm, 253, rfl⟩
abbrev main_c_55 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_c_56 : Ref sig .tc := ⟨.hbm, 260, rfl⟩
abbrev main_v155 : Ref sig .tc := ⟨.hbm, 261, rfl⟩
abbrev main_v156 : Ref sig .tc := ⟨.hbm, 262, rfl⟩
abbrev main_c_57 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_c_58 : Ref sig .tc := ⟨.hbm, 270, rfl⟩
abbrev main_call16_v0 : Ref sig .tc := ⟨.hbm, 271, rfl⟩
abbrev main_call16_v1 : Ref sig .tc := ⟨.hbm, 272, rfl⟩
abbrev main_v163 : Ref sig .tc := ⟨.hbm, 273, rfl⟩
abbrev main_c_59 : Ref sig .tc := ⟨.hbm, 274, rfl⟩
abbrev main_v164 : Ref sig .tc := ⟨.hbm, 275, rfl⟩
abbrev main_v165 : Ref sig .tc := ⟨.hbm, 276, rfl⟩
abbrev main_c_60 : Ref sig .tc := ⟨.hbm, 277, rfl⟩
abbrev main_v166 : Ref sig .tc := ⟨.hbm, 278, rfl⟩
abbrev main_v167 : Ref sig .tc := ⟨.hbm, 279, rfl⟩
abbrev main_c_61 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_c_62 : Ref sig .tc := ⟨.hbm, 286, rfl⟩
abbrev main_call17_v0 : Ref sig .tc := ⟨.hbm, 287, rfl⟩
abbrev main_call17_v1 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_c_63 : Ref sig .tc := ⟨.hbm, 294, rfl⟩
abbrev main_c_64 : Ref sig .tc := ⟨.hbm, 295, rfl⟩
abbrev main_call18_v0 : Ref sig .tc := ⟨.hbm, 296, rfl⟩
abbrev main_call18_v1 : Ref sig .tc := ⟨.hbm, 297, rfl⟩
abbrev main_call18_v2 : Ref sig .tc := ⟨.hbm, 298, rfl⟩
abbrev main_call18_v3 : Ref sig .tc := ⟨.hbm, 299, rfl⟩
abbrev main_call18_v4 : Ref sig .tc := ⟨.hbm, 300, rfl⟩
abbrev main_v178 : Ref sig .tc := ⟨.hbm, 301, rfl⟩
abbrev main_c_65 : Ref sig .tc := ⟨.hbm, 302, rfl⟩
abbrev main_v179 : Ref sig .tc := ⟨.hbm, 303, rfl⟩
abbrev main_v180 : Ref sig .tc := ⟨.hbm, 304, rfl⟩
abbrev main_c_66 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_c_67 : Ref sig .tc := ⟨.hbm, 311, rfl⟩
abbrev main_call19_v0 : Ref sig .tc := ⟨.hbm, 312, rfl⟩
abbrev main_call19_v1 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_c_68 : Ref sig .tc := ⟨.hbm, 317, rfl⟩
abbrev main_v189 : Ref sig .tc := ⟨.hbm, 318, rfl⟩
abbrev main_v190 : Ref sig .tc := ⟨.hbm, 319, rfl⟩
abbrev main_c_69 : Ref sig .tc := ⟨.hbm, 320, rfl⟩
abbrev main_call20_v0 : Ref sig .tc := ⟨.hbm, 321, rfl⟩
abbrev main_call20_v1 : Ref sig .tc := ⟨.hbm, 322, rfl⟩
abbrev main_v191 : Ref sig .tc := ⟨.hbm, 323, rfl⟩
abbrev main_c_70 : Ref sig .tc := ⟨.hbm, 324, rfl⟩
abbrev main_v192 : Ref sig .tc := ⟨.hbm, 325, rfl⟩
abbrev main_v193 : Ref sig .tc := ⟨.hbm, 326, rfl⟩
abbrev main_c_71 : Ref sig .tc := ⟨.hbm, 327, rfl⟩
abbrev main_v194 : Ref sig .tc := ⟨.hbm, 328, rfl⟩
abbrev main_v195 : Ref sig .tc := ⟨.hbm, 329, rfl⟩
abbrev main_c_72 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_c_73 : Ref sig .tc := ⟨.hbm, 336, rfl⟩
abbrev main_v201 : Ref sig .tc := ⟨.hbm, 337, rfl⟩
abbrev main_v202 : Ref sig .tc := ⟨.hbm, 338, rfl⟩
abbrev main_c_74 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_v207 : Ref sig .tc := ⟨.hbm, 344, rfl⟩
abbrev main_v208 : Ref sig .tc := ⟨.hbm, 345, rfl⟩
abbrev main_c_75 : Ref sig .tc := ⟨.hbm, 346, rfl⟩
abbrev main_call21_v0 : Ref sig .tc := ⟨.hbm, 347, rfl⟩
abbrev main_call21_v1 : Ref sig .tc := ⟨.hbm, 348, rfl⟩
abbrev main_v209 : Ref sig .tc := ⟨.hbm, 349, rfl⟩
abbrev main_c_76 : Ref sig .tc := ⟨.hbm, 350, rfl⟩
abbrev main_v210 : Ref sig .tc := ⟨.hbm, 351, rfl⟩
abbrev main_v211 : Ref sig .tc := ⟨.hbm, 352, rfl⟩
abbrev main_c_77 : Ref sig .tc := ⟨.hbm, 353, rfl⟩
abbrev main_v212 : Ref sig .tc := ⟨.hbm, 354, rfl⟩
abbrev main_v213 : Ref sig .tc := ⟨.hbm, 355, rfl⟩
abbrev main_c_78 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_c_79 : Ref sig .tc := ⟨.hbm, 362, rfl⟩
abbrev main_call22_v0 : Ref sig .tc := ⟨.hbm, 363, rfl⟩
abbrev main_call22_v1 : Ref sig .tc := ⟨.hbm, 364, rfl⟩
abbrev main_v219 : Ref sig .tc := ⟨.hbm, 365, rfl⟩
abbrev main_v220 : Ref sig .tc := ⟨.hbm, 366, rfl⟩
abbrev main_v221 : Ref sig .tc := ⟨.hbm, 367, rfl⟩
abbrev main_v222 : Ref sig .tc := ⟨.hbm, 368, rfl⟩
abbrev main_v223 : Ref sig .tc := ⟨.hbm, 369, rfl⟩
abbrev main_c_80 : Ref sig .tc := ⟨.hbm, 370, rfl⟩
abbrev main_c_81 : Ref sig .tc := ⟨.hbm, 371, rfl⟩
abbrev main_call23_v0 : Ref sig .tc := ⟨.hbm, 372, rfl⟩
abbrev main_call23_v1 : Ref sig .tc := ⟨.hbm, 373, rfl⟩
abbrev main_call23_v2 : Ref sig .tc := ⟨.hbm, 374, rfl⟩
abbrev main_call23_v3 : Ref sig .tc := ⟨.hbm, 375, rfl⟩
abbrev main_call23_v4 : Ref sig .tc := ⟨.hbm, 376, rfl⟩
abbrev main_v224 : Ref sig .tc := ⟨.hbm, 377, rfl⟩
abbrev main_c_82 : Ref sig .tc := ⟨.hbm, 378, rfl⟩
abbrev main_v225 : Ref sig .tc := ⟨.hbm, 379, rfl⟩
abbrev main_v226 : Ref sig .tc := ⟨.hbm, 380, rfl⟩
abbrev main_c_83 : Ref sig .tc := ⟨.hbm, 381, rfl⟩
abbrev main_v227 : Ref sig .tc := ⟨.hbm, 382, rfl⟩
abbrev main_v228 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_c_84 : Ref sig .tc := ⟨.hbm, 387, rfl⟩
abbrev main_call24_v0 : Ref sig .tc := ⟨.hbm, 388, rfl⟩
abbrev main_call24_v1 : Ref sig .tc := ⟨.hbm, 389, rfl⟩
abbrev main_v232 : Ref sig .tc := ⟨.hbm, 390, rfl⟩
abbrev main_v233 : Ref sig .tc := ⟨.hbm, 391, rfl⟩
abbrev main_v234 : Ref sig .tc := ⟨.hbm, 392, rfl⟩
abbrev main_c_85 : Ref sig .tc := ⟨.hbm, 393, rfl⟩
abbrev main_v235 : Ref sig .tc := ⟨.hbm, 394, rfl⟩
abbrev main_v236 : Ref sig .tc := ⟨.hbm, 395, rfl⟩
abbrev main_c_86 : Ref sig .tc := ⟨.hbm, 396, rfl⟩
abbrev main_call25_v0 : Ref sig .tc := ⟨.hbm, 397, rfl⟩
abbrev main_call25_v1 : Ref sig .tc := ⟨.hbm, 398, rfl⟩
abbrev main_v237 : Ref sig .tc := ⟨.hbm, 399, rfl⟩
abbrev main_c_87 : Ref sig .tc := ⟨.hbm, 400, rfl⟩
abbrev main_v238 : Ref sig .tc := ⟨.hbm, 401, rfl⟩
abbrev main_v239 : Ref sig .tc := ⟨.hbm, 402, rfl⟩
abbrev main_c_88 : Ref sig .tc := ⟨.hbm, 403, rfl⟩
abbrev main_v240 : Ref sig .tc := ⟨.hbm, 404, rfl⟩
abbrev main_v241 : Ref sig .tc := ⟨.hbm, 405, rfl⟩
abbrev main_c_89 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_v245 : Ref sig .tc := ⟨.hbm, 410, rfl⟩
abbrev main_v246 : Ref sig .tc := ⟨.hbm, 411, rfl⟩
abbrev main_c_90 : Ref sig .tc := ⟨.hbm, 412, rfl⟩
abbrev main_v247 : Ref sig .tc := ⟨.hbm, 413, rfl⟩
abbrev main_v248 : Ref sig .tc := ⟨.hbm, 414, rfl⟩
abbrev main_c_91 : Ref sig .tc := ⟨.hbm, 415, rfl⟩
abbrev main_v249 : Ref sig .tc := ⟨.hbm, 416, rfl⟩
abbrev main_v250 : Ref sig .tc := ⟨.hbm, 417, rfl⟩
abbrev main_v251 : Ref sig .tc := ⟨.hbm, 418, rfl⟩
abbrev main_v252 : Ref sig .tc := ⟨.hbm, 419, rfl⟩
abbrev main_v253 : Ref sig .tc := ⟨.hbm, 420, rfl⟩
abbrev main_v254 : Ref sig .tc := ⟨.hbm, 421, rfl⟩
abbrev main_c_92 : Ref sig .tc := ⟨.hbm, 422, rfl⟩
abbrev main_call26_v0 : Ref sig .tc := ⟨.hbm, 423, rfl⟩
abbrev main_call26_v1 : Ref sig .tc := ⟨.hbm, 424, rfl⟩
abbrev main_v255 : Ref sig .tc := ⟨.hbm, 425, rfl⟩
abbrev main_c_93 : Ref sig .tc := ⟨.hbm, 426, rfl⟩
abbrev main_v256 : Ref sig .tc := ⟨.hbm, 427, rfl⟩
abbrev main_v257 : Ref sig .tc := ⟨.hbm, 428, rfl⟩
abbrev main_c_94 : Ref sig .tc := ⟨.hbm, 429, rfl⟩
abbrev main_v258 : Ref sig .tc := ⟨.hbm, 430, rfl⟩
abbrev main_v259 : Ref sig .tc := ⟨.hbm, 431, rfl⟩
abbrev main_c_95 : Ref sig .tc := ⟨.hbm, 432, rfl⟩
abbrev main_v260 : Ref sig .tc := ⟨.hbm, 433, rfl⟩
abbrev main_v261 : Ref sig .tc := ⟨.hbm, 434, rfl⟩
abbrev main_v262 : Ref sig .tc := ⟨.hbm, 435, rfl⟩
abbrev main_v263 : Ref sig .tc := ⟨.hbm, 436, rfl⟩
abbrev main_v264 : Ref sig .tc := ⟨.hbm, 437, rfl⟩
abbrev main_c_96 : Ref sig .tc := ⟨.hbm, 438, rfl⟩
abbrev main_call27_v0 : Ref sig .tc := ⟨.hbm, 439, rfl⟩
abbrev main_call27_v1 : Ref sig .tc := ⟨.hbm, 440, rfl⟩
abbrev main_v265 : Ref sig .tc := ⟨.hbm, 441, rfl⟩
abbrev main_v266 : Ref sig .tc := ⟨.hbm, 442, rfl⟩
abbrev main_v267 : Ref sig .tc := ⟨.hbm, 443, rfl⟩
abbrev main_v268 : Ref sig .tc := ⟨.hbm, 444, rfl⟩
abbrev main_v269 : Ref sig .tc := ⟨.hbm, 445, rfl⟩
abbrev main_c_97 : Ref sig .tc := ⟨.hbm, 446, rfl⟩
abbrev main_c_98 : Ref sig .tc := ⟨.hbm, 447, rfl⟩
abbrev main_call28_v0 : Ref sig .tc := ⟨.hbm, 448, rfl⟩
abbrev main_call28_v1 : Ref sig .tc := ⟨.hbm, 449, rfl⟩
abbrev main_call28_v2 : Ref sig .tc := ⟨.hbm, 450, rfl⟩
abbrev main_call28_v3 : Ref sig .tc := ⟨.hbm, 451, rfl⟩
abbrev main_call28_v4 : Ref sig .tc := ⟨.hbm, 452, rfl⟩
abbrev main_v270 : Ref sig .tc := ⟨.hbm, 453, rfl⟩
abbrev main_c_99 : Ref sig .tc := ⟨.hbm, 454, rfl⟩
abbrev main_v271 : Ref sig .tc := ⟨.hbm, 455, rfl⟩
abbrev main_v272 : Ref sig .tc := ⟨.hbm, 456, rfl⟩
abbrev main_c_100 : Ref sig .tc := ⟨.hbm, 457, rfl⟩
abbrev main_v273 : Ref sig .tc := ⟨.hbm, 458, rfl⟩
abbrev main_v274 : Ref sig .tc := ⟨.hbm, 459, rfl⟩
abbrev main_v275 : Ref sig .tc := ⟨.hbm, 460, rfl⟩
abbrev main_v276 : Ref sig .tc := ⟨.hbm, 461, rfl⟩
abbrev main_v277 : Ref sig .tc := ⟨.hbm, 462, rfl⟩
abbrev main_c_101 : Ref sig .tc := ⟨.hbm, 463, rfl⟩
abbrev main_call29_v0 : Ref sig .tc := ⟨.hbm, 464, rfl⟩
abbrev main_call29_v1 : Ref sig .tc := ⟨.hbm, 465, rfl⟩
abbrev main_v278 : Ref sig .tc := ⟨.hbm, 466, rfl⟩
abbrev main_v279 : Ref sig .tc := ⟨.hbm, 467, rfl⟩
abbrev main_v280 : Ref sig .tc := ⟨.hbm, 468, rfl⟩
abbrev main_c_102 : Ref sig .tc := ⟨.hbm, 469, rfl⟩
abbrev main_v281 : Ref sig .tc := ⟨.hbm, 470, rfl⟩
abbrev main_v282 : Ref sig .tc := ⟨.hbm, 471, rfl⟩
abbrev main_c_103 : Ref sig .tc := ⟨.hbm, 472, rfl⟩
abbrev main_call30_v0 : Ref sig .tc := ⟨.hbm, 473, rfl⟩
abbrev main_call30_v1 : Ref sig .tc := ⟨.hbm, 474, rfl⟩
abbrev main_v283 : Ref sig .tc := ⟨.hbm, 475, rfl⟩
abbrev main_c_104 : Ref sig .tc := ⟨.hbm, 476, rfl⟩
abbrev main_v284 : Ref sig .tc := ⟨.hbm, 477, rfl⟩
abbrev main_v285 : Ref sig .tc := ⟨.hbm, 478, rfl⟩
abbrev main_c_105 : Ref sig .tc := ⟨.hbm, 479, rfl⟩
abbrev main_v286 : Ref sig .tc := ⟨.hbm, 480, rfl⟩
abbrev main_v287 : Ref sig .tc := ⟨.hbm, 481, rfl⟩
abbrev main_c_106 : Ref sig .tc := ⟨.hbm, 482, rfl⟩
abbrev main_v288 : Ref sig .tc := ⟨.hbm, 483, rfl⟩
abbrev main_v289 : Ref sig .tc := ⟨.hbm, 484, rfl⟩
abbrev main_v290 : Ref sig .tc := ⟨.hbm, 485, rfl⟩
abbrev main_v291 : Ref sig .tc := ⟨.hbm, 486, rfl⟩
abbrev main_v292 : Ref sig .tc := ⟨.hbm, 487, rfl⟩
abbrev main_c_107 : Ref sig .tc := ⟨.hbm, 488, rfl⟩
abbrev main_v293 : Ref sig .tc := ⟨.hbm, 489, rfl⟩
abbrev main_v294 : Ref sig .tc := ⟨.hbm, 490, rfl⟩
abbrev main_c_108 : Ref sig .tc := ⟨.hbm, 491, rfl⟩
abbrev main_v295 : Ref sig .tc := ⟨.hbm, 492, rfl⟩
abbrev main_v296 : Ref sig .tc := ⟨.hbm, 493, rfl⟩
abbrev main_v297 : Ref sig .tc := ⟨.hbm, 494, rfl⟩
abbrev main_v298 : Ref sig .tc := ⟨.hbm, 495, rfl⟩
abbrev main_v299 : Ref sig .tc := ⟨.hbm, 496, rfl⟩
abbrev main_v300 : Ref sig .tc := ⟨.hbm, 497, rfl⟩
abbrev main_c_109 : Ref sig .tc := ⟨.hbm, 498, rfl⟩
abbrev main_call31_v0 : Ref sig .tc := ⟨.hbm, 499, rfl⟩
abbrev main_call31_v1 : Ref sig .tc := ⟨.hbm, 500, rfl⟩
abbrev main_v301 : Ref sig .tc := ⟨.hbm, 501, rfl⟩
abbrev main_c_110 : Ref sig .tc := ⟨.hbm, 502, rfl⟩
abbrev main_v302 : Ref sig .tc := ⟨.hbm, 503, rfl⟩
abbrev main_v303 : Ref sig .tc := ⟨.hbm, 504, rfl⟩
abbrev main_c_111 : Ref sig .tc := ⟨.hbm, 505, rfl⟩
abbrev main_v304 : Ref sig .tc := ⟨.hbm, 506, rfl⟩
abbrev main_v305 : Ref sig .tc := ⟨.hbm, 507, rfl⟩
abbrev main_c_112 : Ref sig .tc := ⟨.hbm, 508, rfl⟩
abbrev main_v306 : Ref sig .tc := ⟨.hbm, 509, rfl⟩
abbrev main_v307 : Ref sig .tc := ⟨.hbm, 510, rfl⟩
abbrev main_v308 : Ref sig .tc := ⟨.hbm, 511, rfl⟩
abbrev main_v309 : Ref sig .tc := ⟨.hbm, 512, rfl⟩
abbrev main_v310 : Ref sig .tc := ⟨.hbm, 513, rfl⟩
abbrev main_c_113 : Ref sig .tc := ⟨.hbm, 514, rfl⟩
abbrev main_call32_v0 : Ref sig .tc := ⟨.hbm, 515, rfl⟩
abbrev main_call32_v1 : Ref sig .tc := ⟨.hbm, 516, rfl⟩
abbrev main_v311 : Ref sig .tc := ⟨.hbm, 517, rfl⟩
abbrev main_v312 : Ref sig .tc := ⟨.hbm, 518, rfl⟩
abbrev main_v313 : Ref sig .tc := ⟨.hbm, 519, rfl⟩
abbrev main_v314 : Ref sig .tc := ⟨.hbm, 520, rfl⟩
abbrev main_v315 : Ref sig .tc := ⟨.hbm, 521, rfl⟩
abbrev main_c_114 : Ref sig .tc := ⟨.hbm, 522, rfl⟩
abbrev main_c_115 : Ref sig .tc := ⟨.hbm, 523, rfl⟩
abbrev main_call33_v0 : Ref sig .tc := ⟨.hbm, 524, rfl⟩
abbrev main_call33_v1 : Ref sig .tc := ⟨.hbm, 525, rfl⟩
abbrev main_call33_v2 : Ref sig .tc := ⟨.hbm, 526, rfl⟩
abbrev main_call33_v3 : Ref sig .tc := ⟨.hbm, 527, rfl⟩
abbrev main_call33_v4 : Ref sig .tc := ⟨.hbm, 528, rfl⟩
abbrev main_v316 : Ref sig .tc := ⟨.hbm, 529, rfl⟩
abbrev main_c_116 : Ref sig .tc := ⟨.hbm, 530, rfl⟩
abbrev main_v317 : Ref sig .tc := ⟨.hbm, 531, rfl⟩
abbrev main_v318 : Ref sig .tc := ⟨.hbm, 532, rfl⟩
abbrev main_c_117 : Ref sig .tc := ⟨.hbm, 533, rfl⟩
abbrev main_v319 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_v323 : Ref sig .tc := ⟨.hbm, 538, rfl⟩
abbrev main_c_118 : Ref sig .tc := ⟨.hbm, 539, rfl⟩
abbrev main_call34_v0 : Ref sig .tc := ⟨.hbm, 540, rfl⟩
abbrev main_call34_v1 : Ref sig .tc := ⟨.hbm, 541, rfl⟩
abbrev main_v324 : Ref sig .tc := ⟨.hbm, 542, rfl⟩
abbrev main_v325 : Ref sig .tc := ⟨.hbm, 543, rfl⟩
abbrev main_v326 : Ref sig .tc := ⟨.hbm, 544, rfl⟩
abbrev main_c_119 : Ref sig .tc := ⟨.hbm, 545, rfl⟩
abbrev main_v327 : Ref sig .tc := ⟨.hbm, 546, rfl⟩
abbrev main_v328 : Ref sig .tc := ⟨.hbm, 547, rfl⟩
abbrev main_c_120 : Ref sig .tc := ⟨.hbm, 548, rfl⟩
abbrev main_call35_v0 : Ref sig .tc := ⟨.hbm, 549, rfl⟩
abbrev main_call35_v1 : Ref sig .tc := ⟨.hbm, 550, rfl⟩
abbrev main_v329 : Ref sig .tc := ⟨.hbm, 551, rfl⟩
abbrev main_c_121 : Ref sig .tc := ⟨.hbm, 552, rfl⟩
abbrev main_v330 : Ref sig .tc := ⟨.hbm, 553, rfl⟩
abbrev main_v331 : Ref sig .tc := ⟨.hbm, 554, rfl⟩
abbrev main_c_122 : Ref sig .tc := ⟨.hbm, 555, rfl⟩
abbrev main_v332 : Ref sig .tc := ⟨.hbm, 556, rfl⟩
abbrev main_v333 : Ref sig .tc := ⟨.hbm, 557, rfl⟩
abbrev main_c_123 : Ref sig .tc := ⟨.hbm, 558, rfl⟩
abbrev main_v334 : Ref sig .tc := ⟨.hbm, 559, rfl⟩
abbrev main_v335 : Ref sig .tc := ⟨.hbm, 560, rfl⟩
abbrev main_v336 : Ref sig .tc := ⟨.hbm, 561, rfl⟩
abbrev main_v337 : Ref sig .tc := ⟨.hbm, 562, rfl⟩
abbrev main_v338 : Ref sig .tc := ⟨.hbm, 563, rfl⟩
abbrev main_c_124 : Ref sig .tc := ⟨.hbm, 564, rfl⟩
abbrev main_v339 : Ref sig .tc := ⟨.hbm, 565, rfl⟩
abbrev main_v340 : Ref sig .tc := ⟨.hbm, 566, rfl⟩
abbrev main_c_125 : Ref sig .tc := ⟨.hbm, 567, rfl⟩
abbrev main_v341 : Ref sig .tc := ⟨.hbm, 568, rfl⟩
abbrev main_v342 : Ref sig .tc := ⟨.hbm, 569, rfl⟩
abbrev main_v343 : Ref sig .tc := ⟨.hbm, 570, rfl⟩
abbrev main_v344 : Ref sig .tc := ⟨.hbm, 571, rfl⟩
abbrev main_v345 : Ref sig .tc := ⟨.hbm, 572, rfl⟩
abbrev main_v346 : Ref sig .tc := ⟨.hbm, 573, rfl⟩
abbrev main_c_126 : Ref sig .tc := ⟨.hbm, 574, rfl⟩
abbrev main_call36_v0 : Ref sig .tc := ⟨.hbm, 575, rfl⟩
abbrev main_call36_v1 : Ref sig .tc := ⟨.hbm, 576, rfl⟩
abbrev main_v347 : Ref sig .tc := ⟨.hbm, 577, rfl⟩
abbrev main_c_127 : Ref sig .tc := ⟨.hbm, 578, rfl⟩
abbrev main_v348 : Ref sig .tc := ⟨.hbm, 579, rfl⟩
abbrev main_v349 : Ref sig .tc := ⟨.hbm, 580, rfl⟩
abbrev main_c_128 : Ref sig .tc := ⟨.hbm, 581, rfl⟩
abbrev main_v350 : Ref sig .tc := ⟨.hbm, 582, rfl⟩
abbrev main_v351 : Ref sig .tc := ⟨.hbm, 583, rfl⟩
abbrev main_c_129 : Ref sig .tc := ⟨.hbm, 584, rfl⟩
abbrev main_v352 : Ref sig .tc := ⟨.hbm, 585, rfl⟩
abbrev main_v353 : Ref sig .tc := ⟨.hbm, 586, rfl⟩
abbrev main_v354 : Ref sig .tc := ⟨.hbm, 587, rfl⟩
abbrev main_v355 : Ref sig .tc := ⟨.hbm, 588, rfl⟩
abbrev main_v356 : Ref sig .tc := ⟨.hbm, 589, rfl⟩
abbrev main_c_130 : Ref sig .tc := ⟨.hbm, 590, rfl⟩
abbrev main_call37_v0 : Ref sig .tc := ⟨.hbm, 591, rfl⟩
abbrev main_call37_v1 : Ref sig .tc := ⟨.hbm, 592, rfl⟩
abbrev main_v357 : Ref sig .tc := ⟨.hbm, 593, rfl⟩
abbrev main_v358 : Ref sig .tc := ⟨.hbm, 594, rfl⟩
abbrev main_v359 : Ref sig .tc := ⟨.hbm, 595, rfl⟩
abbrev main_v360 : Ref sig .tc := ⟨.hbm, 596, rfl⟩
abbrev main_v361 : Ref sig .tc := ⟨.hbm, 597, rfl⟩
abbrev main_c_131 : Ref sig .tc := ⟨.hbm, 598, rfl⟩
abbrev main_c_132 : Ref sig .tc := ⟨.hbm, 599, rfl⟩
abbrev main_call38_v0 : Ref sig .tc := ⟨.hbm, 600, rfl⟩
abbrev main_call38_v1 : Ref sig .tc := ⟨.hbm, 601, rfl⟩
abbrev main_call38_v2 : Ref sig .tc := ⟨.hbm, 602, rfl⟩
abbrev main_call38_v3 : Ref sig .tc := ⟨.hbm, 603, rfl⟩
abbrev main_call38_v4 : Ref sig .tc := ⟨.hbm, 604, rfl⟩
abbrev main_v362 : Ref sig .tc := ⟨.hbm, 605, rfl⟩
abbrev main_c_133 : Ref sig .tc := ⟨.hbm, 606, rfl⟩
abbrev main_v363 : Ref sig .tc := ⟨.hbm, 607, rfl⟩
abbrev main_v364 : Ref sig .tc := ⟨.hbm, 608, rfl⟩
abbrev main_c_134 : Ref sig .tc := ⟨.hbm, 609, rfl⟩
abbrev main_v365 : Ref sig .tc := ⟨.hbm, 610, rfl⟩
abbrev main_v366 : Ref sig .tc := ⟨.hbm, 611, rfl⟩
abbrev main_v367 : Ref sig .tc := ⟨.hbm, 612, rfl⟩
abbrev main_v368 : Ref sig .tc := ⟨.hbm, 613, rfl⟩
abbrev main_v369 : Ref sig .tc := ⟨.hbm, 614, rfl⟩
abbrev main_c_135 : Ref sig .tc := ⟨.hbm, 615, rfl⟩
abbrev main_call39_v0 : Ref sig .tc := ⟨.hbm, 616, rfl⟩
abbrev main_call39_v1 : Ref sig .tc := ⟨.hbm, 617, rfl⟩
abbrev main_v370 : Ref sig .tc := ⟨.hbm, 618, rfl⟩
abbrev main_v371 : Ref sig .tc := ⟨.hbm, 619, rfl⟩
abbrev main_v372 : Ref sig .tc := ⟨.hbm, 620, rfl⟩
abbrev main_c_136 : Ref sig .tc := ⟨.hbm, 621, rfl⟩
abbrev main_v373 : Ref sig .tc := ⟨.hbm, 622, rfl⟩
abbrev main_v374 : Ref sig .tc := ⟨.hbm, 623, rfl⟩
abbrev main_c_137 : Ref sig .tc := ⟨.hbm, 624, rfl⟩
abbrev main_call40_v0 : Ref sig .tc := ⟨.hbm, 625, rfl⟩
abbrev main_call40_v1 : Ref sig .tc := ⟨.hbm, 626, rfl⟩
abbrev main_v375 : Ref sig .tc := ⟨.hbm, 627, rfl⟩
abbrev main_c_138 : Ref sig .tc := ⟨.hbm, 628, rfl⟩
abbrev main_v376 : Ref sig .tc := ⟨.hbm, 629, rfl⟩
abbrev main_v377 : Ref sig .tc := ⟨.hbm, 630, rfl⟩
abbrev main_c_139 : Ref sig .tc := ⟨.hbm, 631, rfl⟩
abbrev main_v378 : Ref sig .tc := ⟨.hbm, 632, rfl⟩
abbrev main_v379 : Ref sig .tc := ⟨.hbm, 633, rfl⟩
abbrev main_c_140 : Ref sig .tc := ⟨.hbm, 634, rfl⟩
abbrev main_v380 : Ref sig .tc := ⟨.hbm, 635, rfl⟩
abbrev main_v381 : Ref sig .tc := ⟨.hbm, 636, rfl⟩
abbrev main_v382 : Ref sig .tc := ⟨.hbm, 637, rfl⟩
abbrev main_v383 : Ref sig .tc := ⟨.hbm, 638, rfl⟩
abbrev main_v384 : Ref sig .tc := ⟨.hbm, 639, rfl⟩
abbrev main_c_141 : Ref sig .tc := ⟨.hbm, 640, rfl⟩
abbrev main_v385 : Ref sig .tc := ⟨.hbm, 641, rfl⟩
abbrev main_v386 : Ref sig .tc := ⟨.hbm, 642, rfl⟩
abbrev main_c_142 : Ref sig .tc := ⟨.hbm, 643, rfl⟩
abbrev main_v387 : Ref sig .tc := ⟨.hbm, 644, rfl⟩
abbrev main_v388 : Ref sig .tc := ⟨.hbm, 645, rfl⟩
abbrev main_v389 : Ref sig .tc := ⟨.hbm, 646, rfl⟩
abbrev main_v390 : Ref sig .tc := ⟨.hbm, 647, rfl⟩
abbrev main_v391 : Ref sig .tc := ⟨.hbm, 648, rfl⟩
abbrev main_v392 : Ref sig .tc := ⟨.hbm, 649, rfl⟩
abbrev main_c_143 : Ref sig .tc := ⟨.hbm, 650, rfl⟩
abbrev main_call41_v0 : Ref sig .tc := ⟨.hbm, 651, rfl⟩
abbrev main_call41_v1 : Ref sig .tc := ⟨.hbm, 652, rfl⟩
abbrev main_v393 : Ref sig .tc := ⟨.hbm, 653, rfl⟩
abbrev main_c_144 : Ref sig .tc := ⟨.hbm, 654, rfl⟩
abbrev main_v394 : Ref sig .tc := ⟨.hbm, 655, rfl⟩
abbrev main_v395 : Ref sig .tc := ⟨.hbm, 656, rfl⟩
abbrev main_c_145 : Ref sig .tc := ⟨.hbm, 657, rfl⟩
abbrev main_v396 : Ref sig .tc := ⟨.hbm, 658, rfl⟩
abbrev main_v397 : Ref sig .tc := ⟨.hbm, 659, rfl⟩
abbrev main_c_146 : Ref sig .tc := ⟨.hbm, 660, rfl⟩
abbrev main_v398 : Ref sig .tc := ⟨.hbm, 661, rfl⟩
abbrev main_v399 : Ref sig .tc := ⟨.hbm, 662, rfl⟩
abbrev main_v400 : Ref sig .tc := ⟨.hbm, 663, rfl⟩
abbrev main_v401 : Ref sig .tc := ⟨.hbm, 664, rfl⟩
abbrev main_v402 : Ref sig .tc := ⟨.hbm, 665, rfl⟩
abbrev main_c_147 : Ref sig .tc := ⟨.hbm, 666, rfl⟩
abbrev main_call42_v0 : Ref sig .tc := ⟨.hbm, 667, rfl⟩
abbrev main_call42_v1 : Ref sig .tc := ⟨.hbm, 668, rfl⟩
abbrev main_v403 : Ref sig .tc := ⟨.hbm, 669, rfl⟩
abbrev main_v404 : Ref sig .tc := ⟨.hbm, 670, rfl⟩
abbrev main_v405 : Ref sig .tc := ⟨.hbm, 671, rfl⟩
abbrev main_v406 : Ref sig .tc := ⟨.hbm, 672, rfl⟩
abbrev main_v407 : Ref sig .tc := ⟨.hbm, 673, rfl⟩
abbrev main_c_148 : Ref sig .tc := ⟨.hbm, 674, rfl⟩
abbrev main_c_149 : Ref sig .tc := ⟨.hbm, 675, rfl⟩
abbrev main_call43_v0 : Ref sig .tc := ⟨.hbm, 676, rfl⟩
abbrev main_call43_v1 : Ref sig .tc := ⟨.hbm, 677, rfl⟩
abbrev main_call43_v2 : Ref sig .tc := ⟨.hbm, 678, rfl⟩
abbrev main_call43_v3 : Ref sig .tc := ⟨.hbm, 679, rfl⟩
abbrev main_call43_v4 : Ref sig .tc := ⟨.hbm, 680, rfl⟩
abbrev main_v408 : Ref sig .tc := ⟨.hbm, 681, rfl⟩
abbrev main_c_150 : Ref sig .tc := ⟨.hbm, 682, rfl⟩
abbrev main_v409 : Ref sig .tc := ⟨.hbm, 683, rfl⟩
abbrev main_v410 : Ref sig .tc := ⟨.hbm, 684, rfl⟩
abbrev main_c_151 : Ref sig .tc := ⟨.hbm, 685, rfl⟩
abbrev main_v411 : Ref sig .tc := ⟨.hbm, 686, rfl⟩
abbrev main_v412 : Ref sig .tc := ⟨.hbm, 687, rfl⟩
abbrev main_v413 : Ref sig .tc := ⟨.hbm, 688, rfl⟩
abbrev main_v414 : Ref sig .tc := ⟨.hbm, 689, rfl⟩
abbrev main_v415 : Ref sig .tc := ⟨.hbm, 690, rfl⟩
abbrev main_c_152 : Ref sig .tc := ⟨.hbm, 691, rfl⟩
abbrev main_call44_v0 : Ref sig .tc := ⟨.hbm, 692, rfl⟩
abbrev main_call44_v1 : Ref sig .tc := ⟨.hbm, 693, rfl⟩
abbrev main_v416 : Ref sig .tc := ⟨.hbm, 694, rfl⟩
abbrev main_v417 : Ref sig .tc := ⟨.hbm, 695, rfl⟩
abbrev main_v418 : Ref sig .tc := ⟨.hbm, 696, rfl⟩
abbrev main_c_153 : Ref sig .tc := ⟨.hbm, 697, rfl⟩
abbrev main_v419 : Ref sig .tc := ⟨.hbm, 698, rfl⟩
abbrev main_v420 : Ref sig .tc := ⟨.hbm, 699, rfl⟩
abbrev main_c_154 : Ref sig .tc := ⟨.hbm, 700, rfl⟩
abbrev main_call45_v0 : Ref sig .tc := ⟨.hbm, 701, rfl⟩
abbrev main_call45_v1 : Ref sig .tc := ⟨.hbm, 702, rfl⟩
abbrev main_v421 : Ref sig .tc := ⟨.hbm, 703, rfl⟩
abbrev main_c_155 : Ref sig .tc := ⟨.hbm, 704, rfl⟩
abbrev main_v422 : Ref sig .tc := ⟨.hbm, 705, rfl⟩
abbrev main_v423 : Ref sig .tc := ⟨.hbm, 706, rfl⟩
abbrev main_c_156 : Ref sig .tc := ⟨.hbm, 707, rfl⟩
abbrev main_v424 : Ref sig .tc := ⟨.hbm, 708, rfl⟩
abbrev main_v425 : Ref sig .tc := ⟨.hbm, 709, rfl⟩
abbrev main_c_157 : Ref sig .tc := ⟨.hbm, 710, rfl⟩
abbrev main_v426 : Ref sig .tc := ⟨.hbm, 711, rfl⟩
abbrev main_v427 : Ref sig .tc := ⟨.hbm, 712, rfl⟩
abbrev main_v428 : Ref sig .tc := ⟨.hbm, 713, rfl⟩
abbrev main_v429 : Ref sig .tc := ⟨.hbm, 714, rfl⟩
abbrev main_v430 : Ref sig .tc := ⟨.hbm, 715, rfl⟩
abbrev main_c_158 : Ref sig .tc := ⟨.hbm, 716, rfl⟩
abbrev main_v431 : Ref sig .tc := ⟨.hbm, 717, rfl⟩
abbrev main_v432 : Ref sig .tc := ⟨.hbm, 718, rfl⟩
abbrev main_c_159 : Ref sig .tc := ⟨.hbm, 719, rfl⟩
abbrev main_v433 : Ref sig .tc := ⟨.hbm, 720, rfl⟩
abbrev main_v434 : Ref sig .tc := ⟨.hbm, 721, rfl⟩
abbrev main_v435 : Ref sig .tc := ⟨.hbm, 722, rfl⟩
abbrev main_v436 : Ref sig .tc := ⟨.hbm, 723, rfl⟩
abbrev main_v437 : Ref sig .tc := ⟨.hbm, 724, rfl⟩
abbrev main_v438 : Ref sig .tc := ⟨.hbm, 725, rfl⟩
abbrev main_c_160 : Ref sig .tc := ⟨.hbm, 726, rfl⟩
abbrev main_call46_v0 : Ref sig .tc := ⟨.hbm, 727, rfl⟩
abbrev main_call46_v1 : Ref sig .tc := ⟨.hbm, 728, rfl⟩
abbrev main_v439 : Ref sig .tc := ⟨.hbm, 729, rfl⟩
abbrev main_c_161 : Ref sig .tc := ⟨.hbm, 730, rfl⟩
abbrev main_v440 : Ref sig .tc := ⟨.hbm, 731, rfl⟩
abbrev main_v441 : Ref sig .tc := ⟨.hbm, 732, rfl⟩
abbrev main_c_162 : Ref sig .tc := ⟨.hbm, 733, rfl⟩
abbrev main_v442 : Ref sig .tc := ⟨.hbm, 734, rfl⟩
abbrev main_v443 : Ref sig .tc := ⟨.hbm, 735, rfl⟩
abbrev main_c_163 : Ref sig .tc := ⟨.hbm, 736, rfl⟩
abbrev main_v444 : Ref sig .tc := ⟨.hbm, 737, rfl⟩
abbrev main_v445 : Ref sig .tc := ⟨.hbm, 738, rfl⟩
abbrev main_v446 : Ref sig .tc := ⟨.hbm, 739, rfl⟩
abbrev main_v447 : Ref sig .tc := ⟨.hbm, 740, rfl⟩
abbrev main_v448 : Ref sig .tc := ⟨.hbm, 741, rfl⟩
abbrev main_c_164 : Ref sig .tc := ⟨.hbm, 742, rfl⟩
abbrev main_call47_v0 : Ref sig .tc := ⟨.hbm, 743, rfl⟩
abbrev main_call47_v1 : Ref sig .tc := ⟨.hbm, 744, rfl⟩
abbrev main_v449 : Ref sig .tc := ⟨.hbm, 745, rfl⟩
abbrev main_v450 : Ref sig .tc := ⟨.hbm, 746, rfl⟩
abbrev main_v451 : Ref sig .tc := ⟨.hbm, 747, rfl⟩
abbrev main_v452 : Ref sig .tc := ⟨.hbm, 748, rfl⟩
abbrev main_v453 : Ref sig .tc := ⟨.hbm, 749, rfl⟩
abbrev main_c_165 : Ref sig .tc := ⟨.hbm, 750, rfl⟩
abbrev main_c_166 : Ref sig .tc := ⟨.hbm, 751, rfl⟩
abbrev main_call48_v0 : Ref sig .tc := ⟨.hbm, 752, rfl⟩
abbrev main_call48_v1 : Ref sig .tc := ⟨.hbm, 753, rfl⟩
abbrev main_call48_v2 : Ref sig .tc := ⟨.hbm, 754, rfl⟩
abbrev main_call48_v3 : Ref sig .tc := ⟨.hbm, 755, rfl⟩
abbrev main_call48_v4 : Ref sig .tc := ⟨.hbm, 756, rfl⟩
abbrev main_v454 : Ref sig .tc := ⟨.hbm, 757, rfl⟩
abbrev main_c_167 : Ref sig .tc := ⟨.hbm, 758, rfl⟩
abbrev main_v455 : Ref sig .tc := ⟨.hbm, 759, rfl⟩
abbrev main_v456 : Ref sig .tc := ⟨.hbm, 760, rfl⟩
abbrev main_c_168 : Ref sig .tc := ⟨.hbm, 761, rfl⟩
abbrev main_v457 : Ref sig .tc := ⟨.hbm, 762, rfl⟩
abbrev main_v458 : Ref sig .tc := ⟨.hbm, 763, rfl⟩
abbrev main_v459 : Ref sig .tc := ⟨.hbm, 764, rfl⟩
abbrev main_v460 : Ref sig .tc := ⟨.hbm, 765, rfl⟩
abbrev main_v461 : Ref sig .tc := ⟨.hbm, 766, rfl⟩
abbrev main_c_169 : Ref sig .tc := ⟨.hbm, 767, rfl⟩
abbrev main_call49_v0 : Ref sig .tc := ⟨.hbm, 768, rfl⟩
abbrev main_call49_v1 : Ref sig .tc := ⟨.hbm, 769, rfl⟩
abbrev main_v462 : Ref sig .tc := ⟨.hbm, 770, rfl⟩
abbrev main_v463 : Ref sig .tc := ⟨.hbm, 771, rfl⟩
abbrev main_v464 : Ref sig .tc := ⟨.hbm, 772, rfl⟩
abbrev main_c_170 : Ref sig .tc := ⟨.hbm, 773, rfl⟩
abbrev main_v465 : Ref sig .tc := ⟨.hbm, 774, rfl⟩
abbrev main_v466 : Ref sig .tc := ⟨.hbm, 775, rfl⟩
abbrev main_c_171 : Ref sig .tc := ⟨.hbm, 776, rfl⟩
abbrev main_call50_v0 : Ref sig .tc := ⟨.hbm, 777, rfl⟩
abbrev main_call50_v1 : Ref sig .tc := ⟨.hbm, 778, rfl⟩
abbrev main_v467 : Ref sig .tc := ⟨.hbm, 779, rfl⟩
abbrev main_c_172 : Ref sig .tc := ⟨.hbm, 780, rfl⟩
abbrev main_v468 : Ref sig .tc := ⟨.hbm, 781, rfl⟩
abbrev main_v469 : Ref sig .tc := ⟨.hbm, 782, rfl⟩
abbrev main_c_173 : Ref sig .tc := ⟨.hbm, 783, rfl⟩
abbrev main_v470 : Ref sig .tc := ⟨.hbm, 784, rfl⟩
abbrev main_v471 : Ref sig .tc := ⟨.hbm, 785, rfl⟩
abbrev main_c_174 : Ref sig .tc := ⟨.hbm, 786, rfl⟩
abbrev main_v472 : Ref sig .tc := ⟨.hbm, 787, rfl⟩
abbrev main_v473 : Ref sig .tc := ⟨.hbm, 788, rfl⟩
abbrev main_v474 : Ref sig .tc := ⟨.hbm, 789, rfl⟩
abbrev main_v475 : Ref sig .tc := ⟨.hbm, 790, rfl⟩
abbrev main_v476 : Ref sig .tc := ⟨.hbm, 791, rfl⟩
abbrev main_c_175 : Ref sig .tc := ⟨.hbm, 792, rfl⟩
abbrev main_v477 : Ref sig .tc := ⟨.hbm, 793, rfl⟩
abbrev main_v478 : Ref sig .tc := ⟨.hbm, 794, rfl⟩
abbrev main_c_176 : Ref sig .tc := ⟨.hbm, 795, rfl⟩
abbrev main_v479 : Ref sig .tc := ⟨.hbm, 796, rfl⟩
abbrev main_v480 : Ref sig .tc := ⟨.hbm, 797, rfl⟩
abbrev main_v481 : Ref sig .tc := ⟨.hbm, 798, rfl⟩
abbrev main_v482 : Ref sig .tc := ⟨.hbm, 799, rfl⟩
abbrev main_v483 : Ref sig .tc := ⟨.hbm, 800, rfl⟩
abbrev main_v484 : Ref sig .tc := ⟨.hbm, 801, rfl⟩
abbrev main_c_177 : Ref sig .tc := ⟨.hbm, 802, rfl⟩
abbrev main_call51_v0 : Ref sig .tc := ⟨.hbm, 803, rfl⟩
abbrev main_call51_v1 : Ref sig .tc := ⟨.hbm, 804, rfl⟩
abbrev main_v485 : Ref sig .tc := ⟨.hbm, 805, rfl⟩
abbrev main_c_178 : Ref sig .tc := ⟨.hbm, 806, rfl⟩
abbrev main_v486 : Ref sig .tc := ⟨.hbm, 807, rfl⟩
abbrev main_v487 : Ref sig .tc := ⟨.hbm, 808, rfl⟩
abbrev main_c_179 : Ref sig .tc := ⟨.hbm, 809, rfl⟩
abbrev main_v488 : Ref sig .tc := ⟨.hbm, 810, rfl⟩
abbrev main_v489 : Ref sig .tc := ⟨.hbm, 811, rfl⟩
abbrev main_c_180 : Ref sig .tc := ⟨.hbm, 812, rfl⟩
abbrev main_v490 : Ref sig .tc := ⟨.hbm, 813, rfl⟩
abbrev main_v491 : Ref sig .tc := ⟨.hbm, 814, rfl⟩
abbrev main_v492 : Ref sig .tc := ⟨.hbm, 815, rfl⟩
abbrev main_v493 : Ref sig .tc := ⟨.hbm, 816, rfl⟩
abbrev main_v494 : Ref sig .tc := ⟨.hbm, 817, rfl⟩
abbrev main_c_181 : Ref sig .tc := ⟨.hbm, 818, rfl⟩
abbrev main_call52_v0 : Ref sig .tc := ⟨.hbm, 819, rfl⟩
abbrev main_call52_v1 : Ref sig .tc := ⟨.hbm, 820, rfl⟩
abbrev main_v495 : Ref sig .tc := ⟨.hbm, 821, rfl⟩
abbrev main_v496 : Ref sig .tc := ⟨.hbm, 822, rfl⟩
abbrev main_v497 : Ref sig .tc := ⟨.hbm, 823, rfl⟩
abbrev main_v498 : Ref sig .tc := ⟨.hbm, 824, rfl⟩
abbrev main_v499 : Ref sig .tc := ⟨.hbm, 825, rfl⟩
abbrev main_c_182 : Ref sig .tc := ⟨.hbm, 826, rfl⟩
abbrev main_c_183 : Ref sig .tc := ⟨.hbm, 827, rfl⟩
abbrev main_call53_v0 : Ref sig .tc := ⟨.hbm, 828, rfl⟩
abbrev main_call53_v1 : Ref sig .tc := ⟨.hbm, 829, rfl⟩
abbrev main_call53_v2 : Ref sig .tc := ⟨.hbm, 830, rfl⟩
abbrev main_call53_v3 : Ref sig .tc := ⟨.hbm, 831, rfl⟩
abbrev main_call53_v4 : Ref sig .tc := ⟨.hbm, 832, rfl⟩
abbrev main_v500 : Ref sig .tc := ⟨.hbm, 833, rfl⟩
abbrev main_c_184 : Ref sig .tc := ⟨.hbm, 834, rfl⟩
abbrev main_v501 : Ref sig .tc := ⟨.hbm, 835, rfl⟩
abbrev main_v502 : Ref sig .tc := ⟨.hbm, 836, rfl⟩
abbrev main_c_185 : Ref sig .tc := ⟨.hbm, 837, rfl⟩
abbrev main_v503 : Ref sig .tc := ⟨.hbm, 838, rfl⟩
abbrev main_v504 : Ref sig .tc := ⟨.hbm, 839, rfl⟩
abbrev main_v505 : Ref sig .tc := ⟨.hbm, 840, rfl⟩
abbrev main_v506 : Ref sig .tc := ⟨.hbm, 841, rfl⟩
abbrev main_v507 : Ref sig .tc := ⟨.hbm, 842, rfl⟩
abbrev main_c_186 : Ref sig .tc := ⟨.hbm, 843, rfl⟩
abbrev main_call54_v0 : Ref sig .tc := ⟨.hbm, 844, rfl⟩
abbrev main_call54_v1 : Ref sig .tc := ⟨.hbm, 845, rfl⟩
abbrev main_v508 : Ref sig .tc := ⟨.hbm, 846, rfl⟩
abbrev main_v509 : Ref sig .tc := ⟨.hbm, 847, rfl⟩
abbrev main_v510 : Ref sig .tc := ⟨.hbm, 848, rfl⟩
abbrev main_c_187 : Ref sig .tc := ⟨.hbm, 849, rfl⟩
abbrev main_v511 : Ref sig .tc := ⟨.hbm, 850, rfl⟩
abbrev main_v512 : Ref sig .tc := ⟨.hbm, 851, rfl⟩
abbrev main_c_188 : Ref sig .tc := ⟨.hbm, 852, rfl⟩
abbrev main_call55_v0 : Ref sig .tc := ⟨.hbm, 853, rfl⟩
abbrev main_call55_v1 : Ref sig .tc := ⟨.hbm, 854, rfl⟩
abbrev main_v513 : Ref sig .tc := ⟨.hbm, 855, rfl⟩
abbrev main_c_189 : Ref sig .tc := ⟨.hbm, 856, rfl⟩
abbrev main_v514 : Ref sig .tc := ⟨.hbm, 857, rfl⟩
abbrev main_v515 : Ref sig .tc := ⟨.hbm, 858, rfl⟩
abbrev main_c_190 : Ref sig .tc := ⟨.hbm, 859, rfl⟩
abbrev main_v516 : Ref sig .tc := ⟨.hbm, 860, rfl⟩
abbrev main_v517 : Ref sig .tc := ⟨.hbm, 861, rfl⟩
abbrev main_c_191 : Ref sig .tc := ⟨.hbm, 862, rfl⟩
abbrev main_v518 : Ref sig .tc := ⟨.hbm, 863, rfl⟩
abbrev main_v519 : Ref sig .tc := ⟨.hbm, 864, rfl⟩
abbrev main_v520 : Ref sig .tc := ⟨.hbm, 865, rfl⟩
abbrev main_v521 : Ref sig .tc := ⟨.hbm, 866, rfl⟩
abbrev main_v522 : Ref sig .tc := ⟨.hbm, 867, rfl⟩
abbrev main_c_192 : Ref sig .tc := ⟨.hbm, 868, rfl⟩
abbrev main_v523 : Ref sig .tc := ⟨.hbm, 869, rfl⟩
abbrev main_v524 : Ref sig .tc := ⟨.hbm, 870, rfl⟩
abbrev main_c_193 : Ref sig .tc := ⟨.hbm, 871, rfl⟩
abbrev main_v525 : Ref sig .tc := ⟨.hbm, 872, rfl⟩
abbrev main_v526 : Ref sig .tc := ⟨.hbm, 873, rfl⟩
abbrev main_v527 : Ref sig .tc := ⟨.hbm, 874, rfl⟩
abbrev main_v528 : Ref sig .tc := ⟨.hbm, 875, rfl⟩
abbrev main_v529 : Ref sig .tc := ⟨.hbm, 876, rfl⟩
abbrev main_v530 : Ref sig .tc := ⟨.hbm, 877, rfl⟩
abbrev main_c_194 : Ref sig .tc := ⟨.hbm, 878, rfl⟩
abbrev main_call56_v0 : Ref sig .tc := ⟨.hbm, 879, rfl⟩
abbrev main_call56_v1 : Ref sig .tc := ⟨.hbm, 880, rfl⟩
abbrev main_v531 : Ref sig .tc := ⟨.hbm, 881, rfl⟩
abbrev main_c_195 : Ref sig .tc := ⟨.hbm, 882, rfl⟩
abbrev main_v532 : Ref sig .tc := ⟨.hbm, 883, rfl⟩
abbrev main_v533 : Ref sig .tc := ⟨.hbm, 884, rfl⟩
abbrev main_c_196 : Ref sig .tc := ⟨.hbm, 885, rfl⟩
abbrev main_v534 : Ref sig .tc := ⟨.hbm, 886, rfl⟩
abbrev main_v535 : Ref sig .tc := ⟨.hbm, 887, rfl⟩
abbrev main_c_197 : Ref sig .tc := ⟨.hbm, 888, rfl⟩
abbrev main_v536 : Ref sig .tc := ⟨.hbm, 889, rfl⟩
abbrev main_v537 : Ref sig .tc := ⟨.hbm, 890, rfl⟩
abbrev main_v538 : Ref sig .tc := ⟨.hbm, 891, rfl⟩
abbrev main_v539 : Ref sig .tc := ⟨.hbm, 892, rfl⟩
abbrev main_v540 : Ref sig .tc := ⟨.hbm, 893, rfl⟩
abbrev main_c_198 : Ref sig .tc := ⟨.hbm, 894, rfl⟩
abbrev main_call57_v0 : Ref sig .tc := ⟨.hbm, 895, rfl⟩
abbrev main_call57_v1 : Ref sig .tc := ⟨.hbm, 896, rfl⟩
abbrev main_v541 : Ref sig .tc := ⟨.hbm, 897, rfl⟩
abbrev main_v542 : Ref sig .tc := ⟨.hbm, 898, rfl⟩
abbrev main_v543 : Ref sig .tc := ⟨.hbm, 899, rfl⟩
abbrev main_v544 : Ref sig .tc := ⟨.hbm, 900, rfl⟩
abbrev main_v545 : Ref sig .tc := ⟨.hbm, 901, rfl⟩
abbrev main_c_199 : Ref sig .tc := ⟨.hbm, 902, rfl⟩
abbrev main_c_200 : Ref sig .tc := ⟨.hbm, 903, rfl⟩
abbrev main_call58_v0 : Ref sig .tc := ⟨.hbm, 904, rfl⟩
abbrev main_call58_v1 : Ref sig .tc := ⟨.hbm, 905, rfl⟩
abbrev main_call58_v2 : Ref sig .tc := ⟨.hbm, 906, rfl⟩
abbrev main_call58_v3 : Ref sig .tc := ⟨.hbm, 907, rfl⟩
abbrev main_call58_v4 : Ref sig .tc := ⟨.hbm, 908, rfl⟩
abbrev main_v546 : Ref sig .tc := ⟨.hbm, 909, rfl⟩
abbrev main_c_201 : Ref sig .tc := ⟨.hbm, 910, rfl⟩
abbrev main_v547 : Ref sig .tc := ⟨.hbm, 911, rfl⟩
abbrev main_v548 : Ref sig .tc := ⟨.hbm, 912, rfl⟩
abbrev main_c_202 : Ref sig .tc := ⟨.hbm, 913, rfl⟩
abbrev main_v549 : Ref sig .tc := ⟨.hbm, 914, rfl⟩
abbrev main_v550 : Ref sig .tc := ⟨.hbm, 915, rfl⟩
abbrev main_v551 : Ref sig .tc := ⟨.hbm, 916, rfl⟩
abbrev main_v552 : Ref sig .tc := ⟨.hbm, 917, rfl⟩
abbrev main_v553 : Ref sig .tc := ⟨.hbm, 918, rfl⟩
abbrev main_c_203 : Ref sig .tc := ⟨.hbm, 919, rfl⟩
abbrev main_call59_v0 : Ref sig .tc := ⟨.hbm, 920, rfl⟩
abbrev main_call59_v1 : Ref sig .tc := ⟨.hbm, 921, rfl⟩
abbrev main_v554 : Ref sig .tc := ⟨.hbm, 922, rfl⟩
abbrev main_v555 : Ref sig .tc := ⟨.hbm, 923, rfl⟩
abbrev main_v556 : Ref sig .tc := ⟨.hbm, 924, rfl⟩
abbrev main_c_204 : Ref sig .tc := ⟨.hbm, 925, rfl⟩
abbrev main_v557 : Ref sig .tc := ⟨.hbm, 926, rfl⟩
abbrev main_v558 : Ref sig .tc := ⟨.hbm, 927, rfl⟩
abbrev main_c_205 : Ref sig .tc := ⟨.hbm, 928, rfl⟩
abbrev main_call60_v0 : Ref sig .tc := ⟨.hbm, 929, rfl⟩
abbrev main_call60_v1 : Ref sig .tc := ⟨.hbm, 930, rfl⟩
abbrev main_v559 : Ref sig .tc := ⟨.hbm, 931, rfl⟩
abbrev main_c_206 : Ref sig .tc := ⟨.hbm, 932, rfl⟩
abbrev main_v560 : Ref sig .tc := ⟨.hbm, 933, rfl⟩
abbrev main_v561 : Ref sig .tc := ⟨.hbm, 934, rfl⟩
abbrev main_c_207 : Ref sig .tc := ⟨.hbm, 935, rfl⟩
abbrev main_v562 : Ref sig .tc := ⟨.hbm, 936, rfl⟩
abbrev main_v563 : Ref sig .tc := ⟨.hbm, 937, rfl⟩
abbrev main_c_208 : Ref sig .tc := ⟨.hbm, 938, rfl⟩
abbrev main_v564 : Ref sig .tc := ⟨.hbm, 939, rfl⟩
abbrev main_v565 : Ref sig .tc := ⟨.hbm, 940, rfl⟩
abbrev main_v566 : Ref sig .tc := ⟨.hbm, 941, rfl⟩
abbrev main_v567 : Ref sig .tc := ⟨.hbm, 942, rfl⟩
abbrev main_v568 : Ref sig .tc := ⟨.hbm, 943, rfl⟩
abbrev main_c_209 : Ref sig .tc := ⟨.hbm, 944, rfl⟩
abbrev main_v569 : Ref sig .tc := ⟨.hbm, 945, rfl⟩
abbrev main_v570 : Ref sig .tc := ⟨.hbm, 946, rfl⟩
abbrev main_c_210 : Ref sig .tc := ⟨.hbm, 947, rfl⟩
abbrev main_v571 : Ref sig .tc := ⟨.hbm, 948, rfl⟩
abbrev main_v572 : Ref sig .tc := ⟨.hbm, 949, rfl⟩
abbrev main_v573 : Ref sig .tc := ⟨.hbm, 950, rfl⟩
abbrev main_v574 : Ref sig .tc := ⟨.hbm, 951, rfl⟩
abbrev main_v575 : Ref sig .tc := ⟨.hbm, 952, rfl⟩
abbrev main_v576 : Ref sig .tc := ⟨.hbm, 953, rfl⟩
abbrev main_c_211 : Ref sig .tc := ⟨.hbm, 954, rfl⟩
abbrev main_call61_v0 : Ref sig .tc := ⟨.hbm, 955, rfl⟩
abbrev main_call61_v1 : Ref sig .tc := ⟨.hbm, 956, rfl⟩
abbrev main_v577 : Ref sig .tc := ⟨.hbm, 957, rfl⟩
abbrev main_c_212 : Ref sig .tc := ⟨.hbm, 958, rfl⟩
abbrev main_v578 : Ref sig .tc := ⟨.hbm, 959, rfl⟩
abbrev main_v579 : Ref sig .tc := ⟨.hbm, 960, rfl⟩
abbrev main_c_213 : Ref sig .tc := ⟨.hbm, 961, rfl⟩
abbrev main_v580 : Ref sig .tc := ⟨.hbm, 962, rfl⟩
abbrev main_v581 : Ref sig .tc := ⟨.hbm, 963, rfl⟩
abbrev main_c_214 : Ref sig .tc := ⟨.hbm, 964, rfl⟩
abbrev main_v582 : Ref sig .tc := ⟨.hbm, 965, rfl⟩
abbrev main_v583 : Ref sig .tc := ⟨.hbm, 966, rfl⟩
abbrev main_v584 : Ref sig .tc := ⟨.hbm, 967, rfl⟩
abbrev main_v585 : Ref sig .tc := ⟨.hbm, 968, rfl⟩
abbrev main_v586 : Ref sig .tc := ⟨.hbm, 969, rfl⟩
abbrev main_c_215 : Ref sig .tc := ⟨.hbm, 970, rfl⟩
abbrev main_call62_v0 : Ref sig .tc := ⟨.hbm, 971, rfl⟩
abbrev main_call62_v1 : Ref sig .tc := ⟨.hbm, 972, rfl⟩
abbrev main_v587 : Ref sig .tc := ⟨.hbm, 973, rfl⟩
abbrev main_v588 : Ref sig .tc := ⟨.hbm, 974, rfl⟩
abbrev main_v589 : Ref sig .tc := ⟨.hbm, 975, rfl⟩
abbrev main_v590 : Ref sig .tc := ⟨.hbm, 976, rfl⟩
abbrev main_v591 : Ref sig .tc := ⟨.hbm, 977, rfl⟩
abbrev main_c_216 : Ref sig .tc := ⟨.hbm, 978, rfl⟩
abbrev main_c_217 : Ref sig .tc := ⟨.hbm, 979, rfl⟩
abbrev main_call63_v0 : Ref sig .tc := ⟨.hbm, 980, rfl⟩
abbrev main_call63_v1 : Ref sig .tc := ⟨.hbm, 981, rfl⟩
abbrev main_call63_v2 : Ref sig .tc := ⟨.hbm, 982, rfl⟩
abbrev main_call63_v3 : Ref sig .tc := ⟨.hbm, 983, rfl⟩
abbrev main_call63_v4 : Ref sig .tc := ⟨.hbm, 984, rfl⟩
abbrev main_v592 : Ref sig .tc := ⟨.hbm, 985, rfl⟩
abbrev main_c_218 : Ref sig .tc := ⟨.hbm, 986, rfl⟩
abbrev main_v593 : Ref sig .tc := ⟨.hbm, 987, rfl⟩
abbrev main_v594 : Ref sig .tc := ⟨.hbm, 988, rfl⟩
abbrev main_c_219 : Ref sig .tc := ⟨.hbm, 989, rfl⟩
abbrev main_v595 : Ref sig .tc := ⟨.hbm, 990, rfl⟩
abbrev main_v596 : Ref sig .tc := ⟨.hbm, 991, rfl⟩
abbrev main_v597 : Ref sig .tc := ⟨.hbm, 992, rfl⟩
abbrev main_v598 : Ref sig .tc := ⟨.hbm, 993, rfl⟩
abbrev main_v599 : Ref sig .tc := ⟨.hbm, 994, rfl⟩
abbrev main_c_220 : Ref sig .tc := ⟨.hbm, 995, rfl⟩
abbrev main_call64_v0 : Ref sig .tc := ⟨.hbm, 996, rfl⟩
abbrev main_call64_v1 : Ref sig .tc := ⟨.hbm, 997, rfl⟩
abbrev main_v600 : Ref sig .tc := ⟨.hbm, 998, rfl⟩
abbrev main_v601 : Ref sig .tc := ⟨.hbm, 999, rfl⟩
abbrev main_v602 : Ref sig .tc := ⟨.hbm, 1000, rfl⟩
abbrev main_c_221 : Ref sig .tc := ⟨.hbm, 1001, rfl⟩
abbrev main_v603 : Ref sig .tc := ⟨.hbm, 1002, rfl⟩
abbrev main_v604 : Ref sig .tc := ⟨.hbm, 1003, rfl⟩
abbrev main_c_222 : Ref sig .tc := ⟨.hbm, 1004, rfl⟩
abbrev main_call65_v0 : Ref sig .tc := ⟨.hbm, 1005, rfl⟩
abbrev main_call65_v1 : Ref sig .tc := ⟨.hbm, 1006, rfl⟩
abbrev main_v605 : Ref sig .tc := ⟨.hbm, 1007, rfl⟩
abbrev main_c_223 : Ref sig .tc := ⟨.hbm, 1008, rfl⟩
abbrev main_v606 : Ref sig .tc := ⟨.hbm, 1009, rfl⟩
abbrev main_v607 : Ref sig .tc := ⟨.hbm, 1010, rfl⟩
abbrev main_c_224 : Ref sig .tc := ⟨.hbm, 1011, rfl⟩
abbrev main_v608 : Ref sig .tc := ⟨.hbm, 1012, rfl⟩
abbrev main_v609 : Ref sig .tc := ⟨.hbm, 1013, rfl⟩
abbrev main_c_225 : Ref sig .tc := ⟨.hbm, 1014, rfl⟩
abbrev main_v610 : Ref sig .tc := ⟨.hbm, 1015, rfl⟩
abbrev main_v611 : Ref sig .tc := ⟨.hbm, 1016, rfl⟩
abbrev main_v612 : Ref sig .tc := ⟨.hbm, 1017, rfl⟩
abbrev main_v613 : Ref sig .tc := ⟨.hbm, 1018, rfl⟩
abbrev main_v614 : Ref sig .tc := ⟨.hbm, 1019, rfl⟩
abbrev main_c_226 : Ref sig .tc := ⟨.hbm, 1020, rfl⟩
abbrev main_v615 : Ref sig .tc := ⟨.hbm, 1021, rfl⟩
abbrev main_v616 : Ref sig .tc := ⟨.hbm, 1022, rfl⟩
abbrev main_c_227 : Ref sig .tc := ⟨.hbm, 1023, rfl⟩
abbrev main_v617 : Ref sig .tc := ⟨.hbm, 1024, rfl⟩
abbrev main_v618 : Ref sig .tc := ⟨.hbm, 1025, rfl⟩
abbrev main_v619 : Ref sig .tc := ⟨.hbm, 1026, rfl⟩
abbrev main_v620 : Ref sig .tc := ⟨.hbm, 1027, rfl⟩
abbrev main_v621 : Ref sig .tc := ⟨.hbm, 1028, rfl⟩
abbrev main_v622 : Ref sig .tc := ⟨.hbm, 1029, rfl⟩
abbrev main_c_228 : Ref sig .tc := ⟨.hbm, 1030, rfl⟩
abbrev main_call66_v0 : Ref sig .tc := ⟨.hbm, 1031, rfl⟩
abbrev main_call66_v1 : Ref sig .tc := ⟨.hbm, 1032, rfl⟩
abbrev main_v623 : Ref sig .tc := ⟨.hbm, 1033, rfl⟩
abbrev main_c_229 : Ref sig .tc := ⟨.hbm, 1034, rfl⟩
abbrev main_v624 : Ref sig .tc := ⟨.hbm, 1035, rfl⟩
abbrev main_v625 : Ref sig .tc := ⟨.hbm, 1036, rfl⟩
abbrev main_c_230 : Ref sig .tc := ⟨.hbm, 1037, rfl⟩
abbrev main_v626 : Ref sig .tc := ⟨.hbm, 1038, rfl⟩
abbrev main_v627 : Ref sig .tc := ⟨.hbm, 1039, rfl⟩
abbrev main_c_231 : Ref sig .tc := ⟨.hbm, 1040, rfl⟩
abbrev main_v628 : Ref sig .tc := ⟨.hbm, 1041, rfl⟩
abbrev main_v629 : Ref sig .tc := ⟨.hbm, 1042, rfl⟩
abbrev main_v630 : Ref sig .tc := ⟨.hbm, 1043, rfl⟩
abbrev main_v631 : Ref sig .tc := ⟨.hbm, 1044, rfl⟩
abbrev main_v632 : Ref sig .tc := ⟨.hbm, 1045, rfl⟩
abbrev main_c_232 : Ref sig .tc := ⟨.hbm, 1046, rfl⟩
abbrev main_call67_v0 : Ref sig .tc := ⟨.hbm, 1047, rfl⟩
abbrev main_call67_v1 : Ref sig .tc := ⟨.hbm, 1048, rfl⟩
abbrev main_v633 : Ref sig .tc := ⟨.hbm, 1049, rfl⟩
abbrev main_v634 : Ref sig .tc := ⟨.hbm, 1050, rfl⟩
abbrev main_v635 : Ref sig .tc := ⟨.hbm, 1051, rfl⟩
abbrev main_v636 : Ref sig .tc := ⟨.hbm, 1052, rfl⟩
abbrev main_v637 : Ref sig .tc := ⟨.hbm, 1053, rfl⟩
abbrev main_c_233 : Ref sig .tc := ⟨.hbm, 1054, rfl⟩
abbrev main_c_234 : Ref sig .tc := ⟨.hbm, 1055, rfl⟩
abbrev main_call68_v0 : Ref sig .tc := ⟨.hbm, 1056, rfl⟩
abbrev main_call68_v1 : Ref sig .tc := ⟨.hbm, 1057, rfl⟩
abbrev main_call68_v2 : Ref sig .tc := ⟨.hbm, 1058, rfl⟩
abbrev main_call68_v3 : Ref sig .tc := ⟨.hbm, 1059, rfl⟩
abbrev main_call68_v4 : Ref sig .tc := ⟨.hbm, 1060, rfl⟩
abbrev main_v638 : Ref sig .tc := ⟨.hbm, 1061, rfl⟩
abbrev main_c_235 : Ref sig .tc := ⟨.hbm, 1062, rfl⟩
abbrev main_v639 : Ref sig .tc := ⟨.hbm, 1063, rfl⟩
abbrev main_v640 : Ref sig .tc := ⟨.hbm, 1064, rfl⟩
abbrev main_c_236 : Ref sig .tc := ⟨.hbm, 1065, rfl⟩
abbrev main_v641 : Ref sig .tc := ⟨.hbm, 1066, rfl⟩
abbrev main_v642 : Ref sig .tc := ⟨.hbm, 1067, rfl⟩
abbrev main_v643 : Ref sig .tc := ⟨.hbm, 1068, rfl⟩
abbrev main_v644 : Ref sig .tc := ⟨.hbm, 1069, rfl⟩
abbrev main_v645 : Ref sig .tc := ⟨.hbm, 1070, rfl⟩
abbrev main_c_237 : Ref sig .tc := ⟨.hbm, 1071, rfl⟩
abbrev main_call69_v0 : Ref sig .tc := ⟨.hbm, 1072, rfl⟩
abbrev main_call69_v1 : Ref sig .tc := ⟨.hbm, 1073, rfl⟩
abbrev main_v646 : Ref sig .tc := ⟨.hbm, 1074, rfl⟩
abbrev main_v647 : Ref sig .tc := ⟨.hbm, 1075, rfl⟩
abbrev main_v648 : Ref sig .tc := ⟨.hbm, 1076, rfl⟩
abbrev main_c_238 : Ref sig .tc := ⟨.hbm, 1077, rfl⟩
abbrev main_v649 : Ref sig .tc := ⟨.hbm, 1078, rfl⟩
abbrev main_v650 : Ref sig .tc := ⟨.hbm, 1079, rfl⟩
abbrev main_c_239 : Ref sig .tc := ⟨.hbm, 1080, rfl⟩
abbrev main_call70_v0 : Ref sig .tc := ⟨.hbm, 1081, rfl⟩
abbrev main_call70_v1 : Ref sig .tc := ⟨.hbm, 1082, rfl⟩
abbrev main_v651 : Ref sig .tc := ⟨.hbm, 1083, rfl⟩
abbrev main_c_240 : Ref sig .tc := ⟨.hbm, 1084, rfl⟩
abbrev main_v652 : Ref sig .tc := ⟨.hbm, 1085, rfl⟩
abbrev main_v653 : Ref sig .tc := ⟨.hbm, 1086, rfl⟩
abbrev main_c_241 : Ref sig .tc := ⟨.hbm, 1087, rfl⟩
abbrev main_v654 : Ref sig .tc := ⟨.hbm, 1088, rfl⟩
abbrev main_v655 : Ref sig .tc := ⟨.hbm, 1089, rfl⟩
abbrev main_c_242 : Ref sig .tc := ⟨.hbm, 1090, rfl⟩
abbrev main_v656 : Ref sig .tc := ⟨.hbm, 1091, rfl⟩
abbrev main_v657 : Ref sig .tc := ⟨.hbm, 1092, rfl⟩
abbrev main_v658 : Ref sig .tc := ⟨.hbm, 1093, rfl⟩
abbrev main_v659 : Ref sig .tc := ⟨.hbm, 1094, rfl⟩
abbrev main_v660 : Ref sig .tc := ⟨.hbm, 1095, rfl⟩
abbrev main_c_243 : Ref sig .tc := ⟨.hbm, 1096, rfl⟩
abbrev main_v661 : Ref sig .tc := ⟨.hbm, 1097, rfl⟩
abbrev main_v662 : Ref sig .tc := ⟨.hbm, 1098, rfl⟩
abbrev main_c_244 : Ref sig .tc := ⟨.hbm, 1099, rfl⟩
abbrev main_v663 : Ref sig .tc := ⟨.hbm, 1100, rfl⟩
abbrev main_v664 : Ref sig .tc := ⟨.hbm, 1101, rfl⟩
abbrev main_v665 : Ref sig .tc := ⟨.hbm, 1102, rfl⟩
abbrev main_v666 : Ref sig .tc := ⟨.hbm, 1103, rfl⟩
abbrev main_v667 : Ref sig .tc := ⟨.hbm, 1104, rfl⟩
abbrev main_v668 : Ref sig .tc := ⟨.hbm, 1105, rfl⟩
abbrev main_c_245 : Ref sig .tc := ⟨.hbm, 1106, rfl⟩
abbrev main_call71_v0 : Ref sig .tc := ⟨.hbm, 1107, rfl⟩
abbrev main_call71_v1 : Ref sig .tc := ⟨.hbm, 1108, rfl⟩
abbrev main_v669 : Ref sig .tc := ⟨.hbm, 1109, rfl⟩
abbrev main_c_246 : Ref sig .tc := ⟨.hbm, 1110, rfl⟩
abbrev main_v670 : Ref sig .tc := ⟨.hbm, 1111, rfl⟩
abbrev main_v671 : Ref sig .tc := ⟨.hbm, 1112, rfl⟩
abbrev main_c_247 : Ref sig .tc := ⟨.hbm, 1113, rfl⟩
abbrev main_v672 : Ref sig .tc := ⟨.hbm, 1114, rfl⟩
abbrev main_v673 : Ref sig .tc := ⟨.hbm, 1115, rfl⟩
abbrev main_c_248 : Ref sig .tc := ⟨.hbm, 1116, rfl⟩
abbrev main_v674 : Ref sig .tc := ⟨.hbm, 1117, rfl⟩
abbrev main_v675 : Ref sig .tc := ⟨.hbm, 1118, rfl⟩
abbrev main_v676 : Ref sig .tc := ⟨.hbm, 1119, rfl⟩
abbrev main_v677 : Ref sig .tc := ⟨.hbm, 1120, rfl⟩
abbrev main_v678 : Ref sig .tc := ⟨.hbm, 1121, rfl⟩
abbrev main_c_249 : Ref sig .tc := ⟨.hbm, 1122, rfl⟩
abbrev main_call72_v0 : Ref sig .tc := ⟨.hbm, 1123, rfl⟩
abbrev main_call72_v1 : Ref sig .tc := ⟨.hbm, 1124, rfl⟩
abbrev main_v679 : Ref sig .tc := ⟨.hbm, 1125, rfl⟩
abbrev main_v680 : Ref sig .tc := ⟨.hbm, 1126, rfl⟩
abbrev main_v681 : Ref sig .tc := ⟨.hbm, 1127, rfl⟩
abbrev main_v682 : Ref sig .tc := ⟨.hbm, 1128, rfl⟩
abbrev main_v683 : Ref sig .tc := ⟨.hbm, 1129, rfl⟩
abbrev main_c_250 : Ref sig .tc := ⟨.hbm, 1130, rfl⟩
abbrev main_c_251 : Ref sig .tc := ⟨.hbm, 1131, rfl⟩
abbrev main_call73_v0 : Ref sig .tc := ⟨.hbm, 1132, rfl⟩
abbrev main_call73_v1 : Ref sig .tc := ⟨.hbm, 1133, rfl⟩
abbrev main_call73_v2 : Ref sig .tc := ⟨.hbm, 1134, rfl⟩
abbrev main_call73_v3 : Ref sig .tc := ⟨.hbm, 1135, rfl⟩
abbrev main_call73_v4 : Ref sig .tc := ⟨.hbm, 1136, rfl⟩
abbrev main_v684 : Ref sig .tc := ⟨.hbm, 1137, rfl⟩
abbrev main_c_252 : Ref sig .tc := ⟨.hbm, 1138, rfl⟩
abbrev main_v685 : Ref sig .tc := ⟨.hbm, 1139, rfl⟩
abbrev main_v686 : Ref sig .tc := ⟨.hbm, 1140, rfl⟩
abbrev main_c_253 : Ref sig .tc := ⟨.hbm, 1141, rfl⟩
abbrev main_v687 : Ref sig .tc := ⟨.hbm, 1142, rfl⟩
abbrev main_v688 : Ref sig .tc := ⟨.hbm, 1143, rfl⟩
abbrev main_v689 : Ref sig .tc := ⟨.hbm, 1144, rfl⟩
abbrev main_v690 : Ref sig .tc := ⟨.hbm, 1145, rfl⟩
abbrev main_v691 : Ref sig .tc := ⟨.hbm, 1146, rfl⟩
abbrev main_c_254 : Ref sig .tc := ⟨.hbm, 1147, rfl⟩
abbrev main_call74_v0 : Ref sig .tc := ⟨.hbm, 1148, rfl⟩
abbrev main_call74_v1 : Ref sig .tc := ⟨.hbm, 1149, rfl⟩
abbrev main_v692 : Ref sig .tc := ⟨.hbm, 1150, rfl⟩
abbrev main_v693 : Ref sig .tc := ⟨.hbm, 1151, rfl⟩
abbrev main_v694 : Ref sig .tc := ⟨.hbm, 1152, rfl⟩
abbrev main_c_255 : Ref sig .tc := ⟨.hbm, 1153, rfl⟩
abbrev main_v695 : Ref sig .tc := ⟨.hbm, 1154, rfl⟩
abbrev main_v696 : Ref sig .tc := ⟨.hbm, 1155, rfl⟩
abbrev main_c_256 : Ref sig .tc := ⟨.hbm, 1156, rfl⟩
abbrev main_call75_v0 : Ref sig .tc := ⟨.hbm, 1157, rfl⟩
abbrev main_call75_v1 : Ref sig .tc := ⟨.hbm, 1158, rfl⟩
abbrev main_v697 : Ref sig .tc := ⟨.hbm, 1159, rfl⟩
abbrev main_c_257 : Ref sig .tc := ⟨.hbm, 1160, rfl⟩
abbrev main_v698 : Ref sig .tc := ⟨.hbm, 1161, rfl⟩
abbrev main_v699 : Ref sig .tc := ⟨.hbm, 1162, rfl⟩
abbrev main_c_258 : Ref sig .tc := ⟨.hbm, 1163, rfl⟩
abbrev main_v700 : Ref sig .tc := ⟨.hbm, 1164, rfl⟩
abbrev main_v701 : Ref sig .tc := ⟨.hbm, 1165, rfl⟩
abbrev main_c_259 : Ref sig .tc := ⟨.hbm, 1166, rfl⟩
abbrev main_v702 : Ref sig .tc := ⟨.hbm, 1167, rfl⟩
abbrev main_v703 : Ref sig .tc := ⟨.hbm, 1168, rfl⟩
abbrev main_v704 : Ref sig .tc := ⟨.hbm, 1169, rfl⟩
abbrev main_v705 : Ref sig .tc := ⟨.hbm, 1170, rfl⟩
abbrev main_v706 : Ref sig .tc := ⟨.hbm, 1171, rfl⟩
abbrev main_c_260 : Ref sig .tc := ⟨.hbm, 1172, rfl⟩
abbrev main_v707 : Ref sig .tc := ⟨.hbm, 1173, rfl⟩
abbrev main_v708 : Ref sig .tc := ⟨.hbm, 1174, rfl⟩
abbrev main_c_261 : Ref sig .tc := ⟨.hbm, 1175, rfl⟩
abbrev main_v709 : Ref sig .tc := ⟨.hbm, 1176, rfl⟩
abbrev main_v710 : Ref sig .tc := ⟨.hbm, 1177, rfl⟩
abbrev main_v711 : Ref sig .tc := ⟨.hbm, 1178, rfl⟩
abbrev main_v712 : Ref sig .tc := ⟨.hbm, 1179, rfl⟩
abbrev main_v713 : Ref sig .tc := ⟨.hbm, 1180, rfl⟩
abbrev main_v714 : Ref sig .tc := ⟨.hbm, 1181, rfl⟩
abbrev main_c_262 : Ref sig .tc := ⟨.hbm, 1182, rfl⟩
abbrev main_call76_v0 : Ref sig .tc := ⟨.hbm, 1183, rfl⟩
abbrev main_call76_v1 : Ref sig .tc := ⟨.hbm, 1184, rfl⟩
abbrev main_v715 : Ref sig .tc := ⟨.hbm, 1185, rfl⟩
abbrev main_c_263 : Ref sig .tc := ⟨.hbm, 1186, rfl⟩
abbrev main_v716 : Ref sig .tc := ⟨.hbm, 1187, rfl⟩
abbrev main_v717 : Ref sig .tc := ⟨.hbm, 1188, rfl⟩
abbrev main_c_264 : Ref sig .tc := ⟨.hbm, 1189, rfl⟩
abbrev main_v718 : Ref sig .tc := ⟨.hbm, 1190, rfl⟩
abbrev main_v719 : Ref sig .tc := ⟨.hbm, 1191, rfl⟩
abbrev main_c_265 : Ref sig .tc := ⟨.hbm, 1192, rfl⟩
abbrev main_v720 : Ref sig .tc := ⟨.hbm, 1193, rfl⟩
abbrev main_v721 : Ref sig .tc := ⟨.hbm, 1194, rfl⟩
abbrev main_v722 : Ref sig .tc := ⟨.hbm, 1195, rfl⟩
abbrev main_v723 : Ref sig .tc := ⟨.hbm, 1196, rfl⟩
abbrev main_v724 : Ref sig .tc := ⟨.hbm, 1197, rfl⟩
abbrev main_c_266 : Ref sig .tc := ⟨.hbm, 1198, rfl⟩
abbrev main_call77_v0 : Ref sig .tc := ⟨.hbm, 1199, rfl⟩
abbrev main_call77_v1 : Ref sig .tc := ⟨.hbm, 1200, rfl⟩
abbrev main_v725 : Ref sig .tc := ⟨.hbm, 1201, rfl⟩
abbrev main_v726 : Ref sig .tc := ⟨.hbm, 1202, rfl⟩
abbrev main_v727 : Ref sig .tc := ⟨.hbm, 1203, rfl⟩
abbrev main_v728 : Ref sig .tc := ⟨.hbm, 1204, rfl⟩
abbrev main_v729 : Ref sig .tc := ⟨.hbm, 1205, rfl⟩
abbrev main_c_267 : Ref sig .tc := ⟨.hbm, 1206, rfl⟩
abbrev main_c_268 : Ref sig .tc := ⟨.hbm, 1207, rfl⟩
abbrev main_call78_v0 : Ref sig .tc := ⟨.hbm, 1208, rfl⟩
abbrev main_call78_v1 : Ref sig .tc := ⟨.hbm, 1209, rfl⟩
abbrev main_call78_v2 : Ref sig .tc := ⟨.hbm, 1210, rfl⟩
abbrev main_call78_v3 : Ref sig .tc := ⟨.hbm, 1211, rfl⟩
abbrev main_call78_v4 : Ref sig .tc := ⟨.hbm, 1212, rfl⟩
abbrev main_v730 : Ref sig .tc := ⟨.hbm, 1213, rfl⟩
abbrev main_c_269 : Ref sig .tc := ⟨.hbm, 1214, rfl⟩
abbrev main_v731 : Ref sig .tc := ⟨.hbm, 1215, rfl⟩
abbrev main_v732 : Ref sig .tc := ⟨.hbm, 1216, rfl⟩
abbrev main_c_270 : Ref sig .tc := ⟨.hbm, 1217, rfl⟩
abbrev main_v733 : Ref sig .tc := ⟨.hbm, 1218, rfl⟩
abbrev main_v734 : Ref sig .tc := ⟨.hbm, 1219, rfl⟩
abbrev main_v735 : Ref sig .tc := ⟨.hbm, 1220, rfl⟩
abbrev main_v736 : Ref sig .tc := ⟨.hbm, 1221, rfl⟩
abbrev main_v737 : Ref sig .tc := ⟨.hbm, 1222, rfl⟩
abbrev main_c_271 : Ref sig .tc := ⟨.hbm, 1223, rfl⟩
abbrev main_call79_v0 : Ref sig .tc := ⟨.hbm, 1224, rfl⟩
abbrev main_call79_v1 : Ref sig .tc := ⟨.hbm, 1225, rfl⟩
abbrev main_v738 : Ref sig .tc := ⟨.hbm, 1226, rfl⟩
abbrev main_v739 : Ref sig .tc := ⟨.hbm, 1227, rfl⟩
abbrev main_v740 : Ref sig .tc := ⟨.hbm, 1228, rfl⟩
abbrev main_c_272 : Ref sig .tc := ⟨.hbm, 1229, rfl⟩
abbrev main_v741 : Ref sig .tc := ⟨.hbm, 1230, rfl⟩
abbrev main_v742 : Ref sig .tc := ⟨.hbm, 1231, rfl⟩
abbrev main_c_273 : Ref sig .tc := ⟨.hbm, 1232, rfl⟩
abbrev main_call80_v0 : Ref sig .tc := ⟨.hbm, 1233, rfl⟩
abbrev main_call80_v1 : Ref sig .tc := ⟨.hbm, 1234, rfl⟩
abbrev main_v743 : Ref sig .tc := ⟨.hbm, 1235, rfl⟩
abbrev main_c_274 : Ref sig .tc := ⟨.hbm, 1236, rfl⟩
abbrev main_v744 : Ref sig .tc := ⟨.hbm, 1237, rfl⟩
abbrev main_v745 : Ref sig .tc := ⟨.hbm, 1238, rfl⟩
abbrev main_c_275 : Ref sig .tc := ⟨.hbm, 1239, rfl⟩
abbrev main_v746 : Ref sig .tc := ⟨.hbm, 1240, rfl⟩
abbrev main_v747 : Ref sig .tc := ⟨.hbm, 1241, rfl⟩
abbrev main_c_276 : Ref sig .tc := ⟨.hbm, 1242, rfl⟩
abbrev main_v748 : Ref sig .tc := ⟨.hbm, 1243, rfl⟩
abbrev main_v749 : Ref sig .tc := ⟨.hbm, 1244, rfl⟩
abbrev main_v750 : Ref sig .tc := ⟨.hbm, 1245, rfl⟩
abbrev main_v751 : Ref sig .tc := ⟨.hbm, 1246, rfl⟩
abbrev main_v752 : Ref sig .tc := ⟨.hbm, 1247, rfl⟩
abbrev main_c_277 : Ref sig .tc := ⟨.hbm, 1248, rfl⟩
abbrev main_v753 : Ref sig .tc := ⟨.hbm, 1249, rfl⟩
abbrev main_v754 : Ref sig .tc := ⟨.hbm, 1250, rfl⟩
abbrev main_c_278 : Ref sig .tc := ⟨.hbm, 1251, rfl⟩
abbrev main_v755 : Ref sig .tc := ⟨.hbm, 1252, rfl⟩
abbrev main_v756 : Ref sig .tc := ⟨.hbm, 1253, rfl⟩
abbrev main_v757 : Ref sig .tc := ⟨.hbm, 1254, rfl⟩
abbrev main_v758 : Ref sig .tc := ⟨.hbm, 1255, rfl⟩
abbrev main_v759 : Ref sig .tc := ⟨.hbm, 1256, rfl⟩
abbrev main_v760 : Ref sig .tc := ⟨.hbm, 1257, rfl⟩
abbrev main_c_279 : Ref sig .tc := ⟨.hbm, 1258, rfl⟩
abbrev main_call81_v0 : Ref sig .tc := ⟨.hbm, 1259, rfl⟩
abbrev main_call81_v1 : Ref sig .tc := ⟨.hbm, 1260, rfl⟩
abbrev main_v761 : Ref sig .tc := ⟨.hbm, 1261, rfl⟩
abbrev main_c_280 : Ref sig .tc := ⟨.hbm, 1262, rfl⟩
abbrev main_v762 : Ref sig .tc := ⟨.hbm, 1263, rfl⟩
abbrev main_v763 : Ref sig .tc := ⟨.hbm, 1264, rfl⟩
abbrev main_c_281 : Ref sig .tc := ⟨.hbm, 1265, rfl⟩
abbrev main_v764 : Ref sig .tc := ⟨.hbm, 1266, rfl⟩
abbrev main_v765 : Ref sig .tc := ⟨.hbm, 1267, rfl⟩
abbrev main_c_282 : Ref sig .tc := ⟨.hbm, 1268, rfl⟩
abbrev main_v766 : Ref sig .tc := ⟨.hbm, 1269, rfl⟩
abbrev main_v767 : Ref sig .tc := ⟨.hbm, 1270, rfl⟩
abbrev main_v768 : Ref sig .tc := ⟨.hbm, 1271, rfl⟩
abbrev main_v769 : Ref sig .tc := ⟨.hbm, 1272, rfl⟩
abbrev main_v770 : Ref sig .tc := ⟨.hbm, 1273, rfl⟩
abbrev main_c_283 : Ref sig .tc := ⟨.hbm, 1274, rfl⟩
abbrev main_call82_v0 : Ref sig .tc := ⟨.hbm, 1275, rfl⟩
abbrev main_call82_v1 : Ref sig .tc := ⟨.hbm, 1276, rfl⟩
abbrev main_v771 : Ref sig .tc := ⟨.hbm, 1277, rfl⟩
abbrev main_v772 : Ref sig .tc := ⟨.hbm, 1278, rfl⟩
abbrev main_v773 : Ref sig .tc := ⟨.hbm, 1279, rfl⟩
abbrev main_v774 : Ref sig .tc := ⟨.hbm, 1280, rfl⟩
abbrev main_v775 : Ref sig .tc := ⟨.hbm, 1281, rfl⟩
abbrev main_c_284 : Ref sig .tc := ⟨.hbm, 1282, rfl⟩
abbrev main_c_285 : Ref sig .tc := ⟨.hbm, 1283, rfl⟩
abbrev main_call83_v0 : Ref sig .tc := ⟨.hbm, 1284, rfl⟩
abbrev main_call83_v1 : Ref sig .tc := ⟨.hbm, 1285, rfl⟩
abbrev main_call83_v2 : Ref sig .tc := ⟨.hbm, 1286, rfl⟩
abbrev main_call83_v3 : Ref sig .tc := ⟨.hbm, 1287, rfl⟩
abbrev main_call83_v4 : Ref sig .tc := ⟨.hbm, 1288, rfl⟩
abbrev main_v776 : Ref sig .tc := ⟨.hbm, 1289, rfl⟩
abbrev main_c_286 : Ref sig .tc := ⟨.hbm, 1290, rfl⟩
abbrev main_v777 : Ref sig .tc := ⟨.hbm, 1291, rfl⟩
abbrev main_v778 : Ref sig .tc := ⟨.hbm, 1292, rfl⟩
abbrev main_c_287 : Ref sig .tc := ⟨.hbm, 1293, rfl⟩
abbrev main_v779 : Ref sig .tc := ⟨.hbm, 1294, rfl⟩
abbrev main_v780 : Ref sig .tc := ⟨.hbm, 1295, rfl⟩
abbrev main_v781 : Ref sig .tc := ⟨.hbm, 1296, rfl⟩
abbrev main_v782 : Ref sig .tc := ⟨.hbm, 1297, rfl⟩
abbrev main_v783 : Ref sig .tc := ⟨.hbm, 1298, rfl⟩
abbrev main_c_288 : Ref sig .tc := ⟨.hbm, 1299, rfl⟩
abbrev main_call84_v0 : Ref sig .tc := ⟨.hbm, 1300, rfl⟩
abbrev main_call84_v1 : Ref sig .tc := ⟨.hbm, 1301, rfl⟩
abbrev main_v784 : Ref sig .tc := ⟨.hbm, 1302, rfl⟩
abbrev main_v785 : Ref sig .tc := ⟨.hbm, 1303, rfl⟩
abbrev main_v786 : Ref sig .tc := ⟨.hbm, 1304, rfl⟩
abbrev main_c_289 : Ref sig .tc := ⟨.hbm, 1305, rfl⟩
abbrev main_v787 : Ref sig .tc := ⟨.hbm, 1306, rfl⟩
abbrev main_v788 : Ref sig .tc := ⟨.hbm, 1307, rfl⟩
abbrev main_c_290 : Ref sig .tc := ⟨.hbm, 1308, rfl⟩
abbrev main_call85_v0 : Ref sig .tc := ⟨.hbm, 1309, rfl⟩
abbrev main_call85_v1 : Ref sig .tc := ⟨.hbm, 1310, rfl⟩
abbrev main_v789 : Ref sig .tc := ⟨.hbm, 1311, rfl⟩
abbrev main_c_291 : Ref sig .tc := ⟨.hbm, 1312, rfl⟩
abbrev main_v790 : Ref sig .tc := ⟨.hbm, 1313, rfl⟩
abbrev main_v791 : Ref sig .tc := ⟨.hbm, 1314, rfl⟩
abbrev main_c_292 : Ref sig .tc := ⟨.hbm, 1315, rfl⟩
abbrev main_v792 : Ref sig .tc := ⟨.hbm, 1316, rfl⟩
abbrev main_v793 : Ref sig .tc := ⟨.hbm, 1317, rfl⟩
abbrev main_c_293 : Ref sig .tc := ⟨.hbm, 1318, rfl⟩
abbrev main_v794 : Ref sig .tc := ⟨.hbm, 1319, rfl⟩
abbrev main_v795 : Ref sig .tc := ⟨.hbm, 1320, rfl⟩
abbrev main_v796 : Ref sig .tc := ⟨.hbm, 1321, rfl⟩
abbrev main_v797 : Ref sig .tc := ⟨.hbm, 1322, rfl⟩
abbrev main_v798 : Ref sig .tc := ⟨.hbm, 1323, rfl⟩
abbrev main_c_294 : Ref sig .tc := ⟨.hbm, 1324, rfl⟩
abbrev main_v799 : Ref sig .tc := ⟨.hbm, 1325, rfl⟩
abbrev main_v800 : Ref sig .tc := ⟨.hbm, 1326, rfl⟩
abbrev main_c_295 : Ref sig .tc := ⟨.hbm, 1327, rfl⟩
abbrev main_v801 : Ref sig .tc := ⟨.hbm, 1328, rfl⟩
abbrev main_v802 : Ref sig .tc := ⟨.hbm, 1329, rfl⟩
abbrev main_v803 : Ref sig .tc := ⟨.hbm, 1330, rfl⟩
abbrev main_v804 : Ref sig .tc := ⟨.hbm, 1331, rfl⟩
abbrev main_v805 : Ref sig .tc := ⟨.hbm, 1332, rfl⟩
abbrev main_v806 : Ref sig .tc := ⟨.hbm, 1333, rfl⟩
abbrev main_c_296 : Ref sig .tc := ⟨.hbm, 1334, rfl⟩
abbrev main_call86_v0 : Ref sig .tc := ⟨.hbm, 1335, rfl⟩
abbrev main_call86_v1 : Ref sig .tc := ⟨.hbm, 1336, rfl⟩
abbrev main_v807 : Ref sig .tc := ⟨.hbm, 1337, rfl⟩
abbrev main_c_297 : Ref sig .tc := ⟨.hbm, 1338, rfl⟩
abbrev main_v808 : Ref sig .tc := ⟨.hbm, 1339, rfl⟩
abbrev main_v809 : Ref sig .tc := ⟨.hbm, 1340, rfl⟩
abbrev main_c_298 : Ref sig .tc := ⟨.hbm, 1341, rfl⟩
abbrev main_v810 : Ref sig .tc := ⟨.hbm, 1342, rfl⟩
abbrev main_v811 : Ref sig .tc := ⟨.hbm, 1343, rfl⟩
abbrev main_c_299 : Ref sig .tc := ⟨.hbm, 1344, rfl⟩
abbrev main_v812 : Ref sig .tc := ⟨.hbm, 1345, rfl⟩
abbrev main_v813 : Ref sig .tc := ⟨.hbm, 1346, rfl⟩
abbrev main_v814 : Ref sig .tc := ⟨.hbm, 1347, rfl⟩
abbrev main_v815 : Ref sig .tc := ⟨.hbm, 1348, rfl⟩
abbrev main_v816 : Ref sig .tc := ⟨.hbm, 1349, rfl⟩
abbrev main_c_300 : Ref sig .tc := ⟨.hbm, 1350, rfl⟩
abbrev main_call87_v0 : Ref sig .tc := ⟨.hbm, 1351, rfl⟩
abbrev main_call87_v1 : Ref sig .tc := ⟨.hbm, 1352, rfl⟩
abbrev main_v817 : Ref sig .tc := ⟨.hbm, 1353, rfl⟩
abbrev main_v818 : Ref sig .tc := ⟨.hbm, 1354, rfl⟩
abbrev main_v819 : Ref sig .tc := ⟨.hbm, 1355, rfl⟩
abbrev main_v820 : Ref sig .tc := ⟨.hbm, 1356, rfl⟩
abbrev main_v821 : Ref sig .tc := ⟨.hbm, 1357, rfl⟩
abbrev main_c_301 : Ref sig .tc := ⟨.hbm, 1358, rfl⟩
abbrev main_c_302 : Ref sig .tc := ⟨.hbm, 1359, rfl⟩
abbrev main_call88_v0 : Ref sig .tc := ⟨.hbm, 1360, rfl⟩
abbrev main_call88_v1 : Ref sig .tc := ⟨.hbm, 1361, rfl⟩
abbrev main_call88_v2 : Ref sig .tc := ⟨.hbm, 1362, rfl⟩
abbrev main_call88_v3 : Ref sig .tc := ⟨.hbm, 1363, rfl⟩
abbrev main_call88_v4 : Ref sig .tc := ⟨.hbm, 1364, rfl⟩
abbrev main_v822 : Ref sig .tc := ⟨.hbm, 1365, rfl⟩
abbrev main_c_303 : Ref sig .tc := ⟨.hbm, 1366, rfl⟩
abbrev main_v823 : Ref sig .tc := ⟨.hbm, 1367, rfl⟩
abbrev main_v824 : Ref sig .tc := ⟨.hbm, 1368, rfl⟩
abbrev main_c_304 : Ref sig .tc := ⟨.hbm, 1369, rfl⟩
abbrev main_v825 : Ref sig .tc := ⟨.hbm, 1370, rfl⟩
abbrev main_v826 : Ref sig .tc := ⟨.hbm, 1371, rfl⟩
abbrev main_v827 : Ref sig .tc := ⟨.hbm, 1372, rfl⟩
abbrev main_v828 : Ref sig .tc := ⟨.hbm, 1373, rfl⟩
abbrev main_v829 : Ref sig .tc := ⟨.hbm, 1374, rfl⟩
abbrev main_c_305 : Ref sig .tc := ⟨.hbm, 1375, rfl⟩
abbrev main_call89_v0 : Ref sig .tc := ⟨.hbm, 1376, rfl⟩
abbrev main_call89_v1 : Ref sig .tc := ⟨.hbm, 1377, rfl⟩
abbrev main_v830 : Ref sig .tc := ⟨.hbm, 1378, rfl⟩
abbrev main_v831 : Ref sig .tc := ⟨.hbm, 1379, rfl⟩
abbrev main_v832 : Ref sig .tc := ⟨.hbm, 1380, rfl⟩
abbrev main_c_306 : Ref sig .tc := ⟨.hbm, 1381, rfl⟩
abbrev main_v833 : Ref sig .tc := ⟨.hbm, 1382, rfl⟩
abbrev main_v834 : Ref sig .tc := ⟨.hbm, 1383, rfl⟩
abbrev main_c_307 : Ref sig .tc := ⟨.hbm, 1384, rfl⟩
abbrev main_call90_v0 : Ref sig .tc := ⟨.hbm, 1385, rfl⟩
abbrev main_call90_v1 : Ref sig .tc := ⟨.hbm, 1386, rfl⟩
abbrev main_v835 : Ref sig .tc := ⟨.hbm, 1387, rfl⟩
abbrev main_c_308 : Ref sig .tc := ⟨.hbm, 1388, rfl⟩
abbrev main_v836 : Ref sig .tc := ⟨.hbm, 1389, rfl⟩
abbrev main_v837 : Ref sig .tc := ⟨.hbm, 1390, rfl⟩
abbrev main_c_309 : Ref sig .tc := ⟨.hbm, 1391, rfl⟩
abbrev main_v838 : Ref sig .tc := ⟨.hbm, 1392, rfl⟩
abbrev main_v839 : Ref sig .tc := ⟨.hbm, 1393, rfl⟩
abbrev main_c_310 : Ref sig .tc := ⟨.hbm, 1394, rfl⟩
abbrev main_v840 : Ref sig .tc := ⟨.hbm, 1395, rfl⟩
abbrev main_v841 : Ref sig .tc := ⟨.hbm, 1396, rfl⟩
abbrev main_v842 : Ref sig .tc := ⟨.hbm, 1397, rfl⟩
abbrev main_v843 : Ref sig .tc := ⟨.hbm, 1398, rfl⟩
abbrev main_v844 : Ref sig .tc := ⟨.hbm, 1399, rfl⟩
abbrev main_c_311 : Ref sig .tc := ⟨.hbm, 1400, rfl⟩
abbrev main_v845 : Ref sig .tc := ⟨.hbm, 1401, rfl⟩
abbrev main_v846 : Ref sig .tc := ⟨.hbm, 1402, rfl⟩
abbrev main_c_312 : Ref sig .tc := ⟨.hbm, 1403, rfl⟩
abbrev main_v847 : Ref sig .tc := ⟨.hbm, 1404, rfl⟩
abbrev main_v848 : Ref sig .tc := ⟨.hbm, 1405, rfl⟩
abbrev main_v849 : Ref sig .tc := ⟨.hbm, 1406, rfl⟩
abbrev main_v850 : Ref sig .tc := ⟨.hbm, 1407, rfl⟩
abbrev main_v851 : Ref sig .tc := ⟨.hbm, 1408, rfl⟩
abbrev main_v852 : Ref sig .tc := ⟨.hbm, 1409, rfl⟩
abbrev main_c_313 : Ref sig .tc := ⟨.hbm, 1410, rfl⟩
abbrev main_call91_v0 : Ref sig .tc := ⟨.hbm, 1411, rfl⟩
abbrev main_call91_v1 : Ref sig .tc := ⟨.hbm, 1412, rfl⟩
abbrev main_v853 : Ref sig .tc := ⟨.hbm, 1413, rfl⟩
abbrev main_c_314 : Ref sig .tc := ⟨.hbm, 1414, rfl⟩
abbrev main_v854 : Ref sig .tc := ⟨.hbm, 1415, rfl⟩
abbrev main_v855 : Ref sig .tc := ⟨.hbm, 1416, rfl⟩
abbrev main_c_315 : Ref sig .tc := ⟨.hbm, 1417, rfl⟩
abbrev main_v856 : Ref sig .tc := ⟨.hbm, 1418, rfl⟩
abbrev main_v857 : Ref sig .tc := ⟨.hbm, 1419, rfl⟩
abbrev main_c_316 : Ref sig .tc := ⟨.hbm, 1420, rfl⟩
abbrev main_v858 : Ref sig .tc := ⟨.hbm, 1421, rfl⟩
abbrev main_v859 : Ref sig .tc := ⟨.hbm, 1422, rfl⟩
abbrev main_v860 : Ref sig .tc := ⟨.hbm, 1423, rfl⟩
abbrev main_v861 : Ref sig .tc := ⟨.hbm, 1424, rfl⟩
abbrev main_v862 : Ref sig .tc := ⟨.hbm, 1425, rfl⟩
abbrev main_c_317 : Ref sig .tc := ⟨.hbm, 1426, rfl⟩
abbrev main_call92_v0 : Ref sig .tc := ⟨.hbm, 1427, rfl⟩
abbrev main_call92_v1 : Ref sig .tc := ⟨.hbm, 1428, rfl⟩
abbrev main_v863 : Ref sig .tc := ⟨.hbm, 1429, rfl⟩
abbrev main_v864 : Ref sig .tc := ⟨.hbm, 1430, rfl⟩
abbrev main_v865 : Ref sig .tc := ⟨.hbm, 1431, rfl⟩
abbrev main_v866 : Ref sig .tc := ⟨.hbm, 1432, rfl⟩
abbrev main_v867 : Ref sig .tc := ⟨.hbm, 1433, rfl⟩
abbrev main_c_318 : Ref sig .tc := ⟨.hbm, 1434, rfl⟩
abbrev main_c_319 : Ref sig .tc := ⟨.hbm, 1435, rfl⟩
abbrev main_call93_v0 : Ref sig .tc := ⟨.hbm, 1436, rfl⟩
abbrev main_call93_v1 : Ref sig .tc := ⟨.hbm, 1437, rfl⟩
abbrev main_call93_v2 : Ref sig .tc := ⟨.hbm, 1438, rfl⟩
abbrev main_call93_v3 : Ref sig .tc := ⟨.hbm, 1439, rfl⟩
abbrev main_call93_v4 : Ref sig .tc := ⟨.hbm, 1440, rfl⟩
abbrev main_v868 : Ref sig .tc := ⟨.hbm, 1441, rfl⟩
abbrev main_c_320 : Ref sig .tc := ⟨.hbm, 1442, rfl⟩
abbrev main_v869 : Ref sig .tc := ⟨.hbm, 1443, rfl⟩
abbrev main_v870 : Ref sig .tc := ⟨.hbm, 1444, rfl⟩
abbrev main_c_321 : Ref sig .tc := ⟨.hbm, 1445, rfl⟩
abbrev main_v871 : Ref sig .tc := ⟨.hbm, 1446, rfl⟩
abbrev main_v872 : Ref sig .tc := ⟨.hbm, 1447, rfl⟩
abbrev main_v873 : Ref sig .tc := ⟨.hbm, 1448, rfl⟩
abbrev main_v874 : Ref sig .tc := ⟨.hbm, 1449, rfl⟩
abbrev main_v875 : Ref sig .tc := ⟨.hbm, 1450, rfl⟩
abbrev main_c_322 : Ref sig .tc := ⟨.hbm, 1451, rfl⟩
abbrev main_call94_v0 : Ref sig .tc := ⟨.hbm, 1452, rfl⟩
abbrev main_call94_v1 : Ref sig .tc := ⟨.hbm, 1453, rfl⟩
abbrev main_v876 : Ref sig .tc := ⟨.hbm, 1454, rfl⟩
abbrev main_v877 : Ref sig .tc := ⟨.hbm, 1455, rfl⟩
abbrev main_v878 : Ref sig .tc := ⟨.hbm, 1456, rfl⟩
abbrev main_c_323 : Ref sig .tc := ⟨.hbm, 1457, rfl⟩
abbrev main_v879 : Ref sig .tc := ⟨.hbm, 1458, rfl⟩
abbrev main_v880 : Ref sig .tc := ⟨.hbm, 1459, rfl⟩
abbrev main_c_324 : Ref sig .tc := ⟨.hbm, 1460, rfl⟩
abbrev main_call95_v0 : Ref sig .tc := ⟨.hbm, 1461, rfl⟩
abbrev main_call95_v1 : Ref sig .tc := ⟨.hbm, 1462, rfl⟩
abbrev main_v881 : Ref sig .tc := ⟨.hbm, 1463, rfl⟩
abbrev main_c_325 : Ref sig .tc := ⟨.hbm, 1464, rfl⟩
abbrev main_v882 : Ref sig .tc := ⟨.hbm, 1465, rfl⟩
abbrev main_v883 : Ref sig .tc := ⟨.hbm, 1466, rfl⟩
abbrev main_c_326 : Ref sig .tc := ⟨.hbm, 1467, rfl⟩
abbrev main_v884 : Ref sig .tc := ⟨.hbm, 1468, rfl⟩
abbrev main_v885 : Ref sig .tc := ⟨.hbm, 1469, rfl⟩
abbrev main_c_327 : Ref sig .tc := ⟨.hbm, 1470, rfl⟩
abbrev main_v886 : Ref sig .tc := ⟨.hbm, 1471, rfl⟩
abbrev main_v887 : Ref sig .tc := ⟨.hbm, 1472, rfl⟩
abbrev main_v888 : Ref sig .tc := ⟨.hbm, 1473, rfl⟩
abbrev main_v889 : Ref sig .tc := ⟨.hbm, 1474, rfl⟩
abbrev main_v890 : Ref sig .tc := ⟨.hbm, 1475, rfl⟩
abbrev main_c_328 : Ref sig .tc := ⟨.hbm, 1476, rfl⟩
abbrev main_v891 : Ref sig .tc := ⟨.hbm, 1477, rfl⟩
abbrev main_v892 : Ref sig .tc := ⟨.hbm, 1478, rfl⟩
abbrev main_c_329 : Ref sig .tc := ⟨.hbm, 1479, rfl⟩
abbrev main_v893 : Ref sig .tc := ⟨.hbm, 1480, rfl⟩
abbrev main_v894 : Ref sig .tc := ⟨.hbm, 1481, rfl⟩
abbrev main_v895 : Ref sig .tc := ⟨.hbm, 1482, rfl⟩
abbrev main_v896 : Ref sig .tc := ⟨.hbm, 1483, rfl⟩
abbrev main_v897 : Ref sig .tc := ⟨.hbm, 1484, rfl⟩
abbrev main_v898 : Ref sig .tc := ⟨.hbm, 1485, rfl⟩
abbrev main_c_330 : Ref sig .tc := ⟨.hbm, 1486, rfl⟩
abbrev main_call96_v0 : Ref sig .tc := ⟨.hbm, 1487, rfl⟩
abbrev main_call96_v1 : Ref sig .tc := ⟨.hbm, 1488, rfl⟩
abbrev main_v899 : Ref sig .tc := ⟨.hbm, 1489, rfl⟩
abbrev main_c_331 : Ref sig .tc := ⟨.hbm, 1490, rfl⟩
abbrev main_v900 : Ref sig .tc := ⟨.hbm, 1491, rfl⟩
abbrev main_v901 : Ref sig .tc := ⟨.hbm, 1492, rfl⟩
abbrev main_c_332 : Ref sig .tc := ⟨.hbm, 1493, rfl⟩
abbrev main_v902 : Ref sig .tc := ⟨.hbm, 1494, rfl⟩
abbrev main_v903 : Ref sig .tc := ⟨.hbm, 1495, rfl⟩
abbrev main_c_333 : Ref sig .tc := ⟨.hbm, 1496, rfl⟩
abbrev main_v904 : Ref sig .tc := ⟨.hbm, 1497, rfl⟩
abbrev main_v905 : Ref sig .tc := ⟨.hbm, 1498, rfl⟩
abbrev main_v906 : Ref sig .tc := ⟨.hbm, 1499, rfl⟩
abbrev main_v907 : Ref sig .tc := ⟨.hbm, 1500, rfl⟩
abbrev main_v908 : Ref sig .tc := ⟨.hbm, 1501, rfl⟩
abbrev main_c_334 : Ref sig .tc := ⟨.hbm, 1502, rfl⟩
abbrev main_call97_v0 : Ref sig .tc := ⟨.hbm, 1503, rfl⟩
abbrev main_call97_v1 : Ref sig .tc := ⟨.hbm, 1504, rfl⟩
abbrev main_v909 : Ref sig .tc := ⟨.hbm, 1505, rfl⟩
abbrev main_v910 : Ref sig .tc := ⟨.hbm, 1506, rfl⟩
abbrev main_v911 : Ref sig .tc := ⟨.hbm, 1507, rfl⟩
abbrev main_v912 : Ref sig .tc := ⟨.hbm, 1508, rfl⟩
abbrev main_v913 : Ref sig .tc := ⟨.hbm, 1509, rfl⟩
abbrev main_c_335 : Ref sig .tc := ⟨.hbm, 1510, rfl⟩
abbrev main_c_336 : Ref sig .tc := ⟨.hbm, 1511, rfl⟩
abbrev main_call98_v0 : Ref sig .tc := ⟨.hbm, 1512, rfl⟩
abbrev main_call98_v1 : Ref sig .tc := ⟨.hbm, 1513, rfl⟩
abbrev main_call98_v2 : Ref sig .tc := ⟨.hbm, 1514, rfl⟩
abbrev main_call98_v3 : Ref sig .tc := ⟨.hbm, 1515, rfl⟩
abbrev main_call98_v4 : Ref sig .tc := ⟨.hbm, 1516, rfl⟩
abbrev main_v914 : Ref sig .tc := ⟨.hbm, 1517, rfl⟩
abbrev main_c_337 : Ref sig .tc := ⟨.hbm, 1518, rfl⟩
abbrev main_v915 : Ref sig .tc := ⟨.hbm, 1519, rfl⟩
abbrev main_v916 : Ref sig .tc := ⟨.hbm, 1520, rfl⟩
abbrev main_c_338 : Ref sig .tc := ⟨.hbm, 1521, rfl⟩
abbrev main_v917 : Ref sig .tc := ⟨.hbm, 1522, rfl⟩
abbrev main_v918 : Ref sig .tc := ⟨.hbm, 1523, rfl⟩
abbrev main_v919 : Ref sig .tc := ⟨.hbm, 1524, rfl⟩
abbrev main_v920 : Ref sig .tc := ⟨.hbm, 1525, rfl⟩
abbrev main_v921 : Ref sig .tc := ⟨.hbm, 1526, rfl⟩
abbrev main_c_339 : Ref sig .tc := ⟨.hbm, 1527, rfl⟩
abbrev main_call99_v0 : Ref sig .tc := ⟨.hbm, 1528, rfl⟩
abbrev main_call99_v1 : Ref sig .tc := ⟨.hbm, 1529, rfl⟩
abbrev main_v922 : Ref sig .tc := ⟨.hbm, 1530, rfl⟩
abbrev main_v923 : Ref sig .tc := ⟨.hbm, 1531, rfl⟩
abbrev main_v924 : Ref sig .tc := ⟨.hbm, 1532, rfl⟩
abbrev main_v925 : Ref sig .tc := ⟨.hbm, 1533, rfl⟩
abbrev main_v926 : Ref sig .tc := ⟨.hbm, 1534, rfl⟩
abbrev main_v927 : Ref sig .tc := ⟨.hbm, 1535, rfl⟩
abbrev main_v928 : Ref sig .tc := ⟨.hbm, 1536, rfl⟩
abbrev main_v929 : Ref sig .tc := ⟨.hbm, 1537, rfl⟩
abbrev main_v930 : Ref sig .tc := ⟨.hbm, 1538, rfl⟩
abbrev main_v931 : Ref sig .tc := ⟨.hbm, 1539, rfl⟩
abbrev main_v932 : Ref sig .tc := ⟨.hbm, 1540, rfl⟩
abbrev main_v933 : Ref sig .tc := ⟨.hbm, 1541, rfl⟩
abbrev main_v934 : Ref sig .tc := ⟨.hbm, 1542, rfl⟩
abbrev main_v935 : Ref sig .tc := ⟨.hbm, 1543, rfl⟩
abbrev main_v936 : Ref sig .tc := ⟨.hbm, 1544, rfl⟩
abbrev main_v937 : Ref sig .tc := ⟨.hbm, 1545, rfl⟩
abbrev main_v938 : Ref sig .tc := ⟨.hbm, 1546, rfl⟩
abbrev main_v939 : Ref sig .tc := ⟨.hbm, 1547, rfl⟩
abbrev main_v940 : Ref sig .tc := ⟨.hbm, 1548, rfl⟩
abbrev main_v941 : Ref sig .tc := ⟨.hbm, 1549, rfl⟩
abbrev main_v942 : Ref sig .tc := ⟨.hbm, 1550, rfl⟩
abbrev main_v943 : Ref sig .tc := ⟨.hbm, 1551, rfl⟩
abbrev main_v944 : Ref sig .tc := ⟨.hbm, 1552, rfl⟩
abbrev main_v945 : Ref sig .tc := ⟨.hbm, 1553, rfl⟩
abbrev main_v946 : Ref sig .tc := ⟨.hbm, 1554, rfl⟩
abbrev main_v947 : Ref sig .tc := ⟨.hbm, 1555, rfl⟩
abbrev main_v948 : Ref sig .tc := ⟨.hbm, 1556, rfl⟩
abbrev main_v949 : Ref sig .tc := ⟨.hbm, 1557, rfl⟩
abbrev main_c_340 : Ref sig .tc := ⟨.hbm, 1558, rfl⟩
abbrev main_v950 : Ref sig .tc := ⟨.hbm, 1559, rfl⟩
abbrev main_v951 : Ref sig .tc := ⟨.hbm, 1560, rfl⟩
abbrev main_c_341 : Ref sig .tc := ⟨.hbm, 1561, rfl⟩
abbrev main_call100_v0 : Ref sig .tc := ⟨.hbm, 1562, rfl⟩
abbrev main_call100_v1 : Ref sig .tc := ⟨.hbm, 1563, rfl⟩
abbrev main_v952 : Ref sig .tc := ⟨.hbm, 1564, rfl⟩
abbrev main_v953 : Ref sig .tc := ⟨.hbm, 1565, rfl⟩
abbrev main_v954 : Ref sig .tc := ⟨.hbm, 1566, rfl⟩
abbrev main_v955 : Ref sig .tc := ⟨.hbm, 1567, rfl⟩
abbrev main_v956 : Ref sig .tc := ⟨.hbm, 1568, rfl⟩
abbrev main_v957 : Ref sig .tc := ⟨.hbm, 1569, rfl⟩
abbrev main_v958 : Ref sig .tc := ⟨.hbm, 1570, rfl⟩
abbrev main_v959 : Ref sig .tc := ⟨.hbm, 1571, rfl⟩
abbrev main_v960 : Ref sig .tc := ⟨.hbm, 1572, rfl⟩
abbrev main_v961 : Ref sig .tc := ⟨.hbm, 1573, rfl⟩
abbrev main_v962 : Ref sig .tc := ⟨.hbm, 1574, rfl⟩
abbrev main_v963 : Ref sig .tc := ⟨.hbm, 1575, rfl⟩
abbrev main_v964 : Ref sig .tc := ⟨.hbm, 1576, rfl⟩
abbrev main_v965 : Ref sig .tc := ⟨.hbm, 1577, rfl⟩
abbrev main_v966 : Ref sig .tc := ⟨.hbm, 1578, rfl⟩
abbrev main_v967 : Ref sig .tc := ⟨.hbm, 1579, rfl⟩
abbrev main_v968 : Ref sig .tc := ⟨.hbm, 1580, rfl⟩
abbrev main_c_342 : Ref sig .tc := ⟨.hbm, 1581, rfl⟩
abbrev main_v969 : Ref sig .tc := ⟨.hbm, 1582, rfl⟩
abbrev main_v970 : Ref sig .tc := ⟨.hbm, 1583, rfl⟩
abbrev main_c_343 : Ref sig .tc := ⟨.hbm, 1584, rfl⟩
abbrev main_v971 : Ref sig .tc := ⟨.hbm, 1585, rfl⟩
abbrev main_v972 : Ref sig .tc := ⟨.hbm, 1586, rfl⟩
abbrev main_v973 : Ref sig .tc := ⟨.hbm, 1587, rfl⟩
abbrev main_c_344 : Ref sig .tc := ⟨.hbm, 1588, rfl⟩
abbrev main_v974 : Ref sig .tc := ⟨.hbm, 1589, rfl⟩
abbrev main_v975 : Ref sig .tc := ⟨.hbm, 1590, rfl⟩
abbrev main_c_345 : Ref sig .tc := ⟨.hbm, 1591, rfl⟩
abbrev main_v976 : Ref sig .tc := ⟨.hbm, 1592, rfl⟩
abbrev main_v977 : Ref sig .tc := ⟨.hbm, 1593, rfl⟩
abbrev main_v978 : Ref sig .tc := ⟨.hbm, 1594, rfl⟩
abbrev main_v979 : Ref sig .tc := ⟨.hbm, 1595, rfl⟩
abbrev main_v980 : Ref sig .tc := ⟨.hbm, 1596, rfl⟩
abbrev main_v981 : Ref sig .tc := ⟨.hbm, 1597, rfl⟩
abbrev main_v982 : Ref sig .tc := ⟨.hbm, 1598, rfl⟩
abbrev main_v983 : Ref sig .tc := ⟨.hbm, 1599, rfl⟩
abbrev main_cst : Ref sig .tc := ⟨.hbm, 1600, rfl⟩
abbrev main_v984 : Ref sig .tc := ⟨.hbm, 1601, rfl⟩
abbrev main_v985 : Ref sig .tc := ⟨.hbm, 1602, rfl⟩
abbrev main_v986 : Ref sig .tc := ⟨.hbm, 1603, rfl⟩
abbrev main_v987 : Ref sig .tc := ⟨.hbm, 1604, rfl⟩
abbrev main_v988 : Ref sig .tc := ⟨.hbm, 1605, rfl⟩
abbrev main_cst_346 : Ref sig .tc := ⟨.hbm, 1606, rfl⟩
abbrev main_v989 : Ref sig .tc := ⟨.hbm, 1607, rfl⟩
abbrev main_v990 : Ref sig .tc := ⟨.hbm, 1608, rfl⟩
abbrev main_v991 : Ref sig .tc := ⟨.hbm, 1609, rfl⟩
abbrev main_v992 : Ref sig .tc := ⟨.hbm, 1610, rfl⟩
abbrev main_v993 : Ref sig .tc := ⟨.hbm, 1611, rfl⟩
abbrev main_cst_347 : Ref sig .tc := ⟨.hbm, 1612, rfl⟩
abbrev main_v994 : Ref sig .tc := ⟨.hbm, 1613, rfl⟩
abbrev main_v995 : Ref sig .tc := ⟨.hbm, 1614, rfl⟩
abbrev main_v996 : Ref sig .tc := ⟨.hbm, 1615, rfl⟩
abbrev main_v997 : Ref sig .tc := ⟨.hbm, 1616, rfl⟩
abbrev main_v998 : Ref sig .tc := ⟨.hbm, 1617, rfl⟩
abbrev main_cst_348 : Ref sig .tc := ⟨.hbm, 1618, rfl⟩
abbrev main_v999 : Ref sig .tc := ⟨.hbm, 1619, rfl⟩
abbrev main_v1000 : Ref sig .tc := ⟨.hbm, 1620, rfl⟩
abbrev main_v1001 : Ref sig .tc := ⟨.hbm, 1621, rfl⟩
abbrev main_v1002 : Ref sig .tc := ⟨.hbm, 1622, rfl⟩
abbrev main_v1003 : Ref sig .tc := ⟨.hbm, 1623, rfl⟩
abbrev main_cst_349 : Ref sig .tc := ⟨.hbm, 1624, rfl⟩
abbrev main_v1004 : Ref sig .tc := ⟨.hbm, 1625, rfl⟩
abbrev main_v1005 : Ref sig .tc := ⟨.hbm, 1626, rfl⟩
abbrev main_v1006 : Ref sig .tc := ⟨.hbm, 1627, rfl⟩
abbrev main_v1007 : Ref sig .tc := ⟨.hbm, 1628, rfl⟩
abbrev main_v1008 : Ref sig .tc := ⟨.hbm, 1629, rfl⟩
abbrev main_cst_350 : Ref sig .tc := ⟨.hbm, 1630, rfl⟩
abbrev main_v1009 : Ref sig .tc := ⟨.hbm, 1631, rfl⟩
abbrev main_v1010 : Ref sig .tc := ⟨.hbm, 1632, rfl⟩
abbrev main_v1011 : Ref sig .tc := ⟨.hbm, 1633, rfl⟩
abbrev main_v1012 : Ref sig .tc := ⟨.hbm, 1634, rfl⟩
abbrev main_v1013 : Ref sig .tc := ⟨.hbm, 1635, rfl⟩
abbrev main_cst_351 : Ref sig .tc := ⟨.hbm, 1636, rfl⟩
abbrev main_v1014 : Ref sig .tc := ⟨.hbm, 1637, rfl⟩
abbrev main_v1015 : Ref sig .tc := ⟨.hbm, 1638, rfl⟩
abbrev main_v1016 : Ref sig .tc := ⟨.hbm, 1639, rfl⟩
abbrev main_v1017 : Ref sig .tc := ⟨.hbm, 1640, rfl⟩
abbrev main_v1018 : Ref sig .tc := ⟨.hbm, 1641, rfl⟩
abbrev main_cst_352 : Ref sig .tc := ⟨.hbm, 1642, rfl⟩
abbrev main_v1019 : Ref sig .tc := ⟨.hbm, 1643, rfl⟩
abbrev main_v1020 : Ref sig .tc := ⟨.hbm, 1644, rfl⟩
abbrev main_v1021 : Ref sig .tc := ⟨.hbm, 1645, rfl⟩
abbrev main_v1022 : Ref sig .tc := ⟨.hbm, 1646, rfl⟩
abbrev main_v1023 : Ref sig .tc := ⟨.hbm, 1647, rfl⟩
abbrev main_cst_353 : Ref sig .tc := ⟨.hbm, 1648, rfl⟩
abbrev main_v1024 : Ref sig .tc := ⟨.hbm, 1649, rfl⟩
abbrev main_v1025 : Ref sig .tc := ⟨.hbm, 1650, rfl⟩
abbrev main_v1026 : Ref sig .tc := ⟨.hbm, 1651, rfl⟩
abbrev main_v1027 : Ref sig .tc := ⟨.hbm, 1652, rfl⟩
abbrev main_v1028 : Ref sig .tc := ⟨.hbm, 1653, rfl⟩
abbrev main_cst_354 : Ref sig .tc := ⟨.hbm, 1654, rfl⟩
abbrev main_v1029 : Ref sig .tc := ⟨.hbm, 1655, rfl⟩
abbrev main_v1030 : Ref sig .tc := ⟨.hbm, 1656, rfl⟩
abbrev main_v1031 : Ref sig .tc := ⟨.hbm, 1657, rfl⟩
abbrev main_v1032 : Ref sig .tc := ⟨.hbm, 1658, rfl⟩
abbrev main_v1033 : Ref sig .tc := ⟨.hbm, 1659, rfl⟩
abbrev main_cst_355 : Ref sig .tc := ⟨.hbm, 1660, rfl⟩
abbrev main_v1034 : Ref sig .tc := ⟨.hbm, 1661, rfl⟩
abbrev main_v1035 : Ref sig .tc := ⟨.hbm, 1662, rfl⟩
abbrev main_v1036 : Ref sig .tc := ⟨.hbm, 1663, rfl⟩
abbrev main_v1037 : Ref sig .tc := ⟨.hbm, 1664, rfl⟩
abbrev main_v1038 : Ref sig .tc := ⟨.hbm, 1665, rfl⟩
abbrev main_cst_356 : Ref sig .tc := ⟨.hbm, 1666, rfl⟩
abbrev main_v1039 : Ref sig .tc := ⟨.hbm, 1667, rfl⟩
abbrev main_v1040 : Ref sig .tc := ⟨.hbm, 1668, rfl⟩
abbrev main_v1041 : Ref sig .tc := ⟨.hbm, 1669, rfl⟩
abbrev main_v1042 : Ref sig .tc := ⟨.hbm, 1670, rfl⟩
abbrev main_v1043 : Ref sig .tc := ⟨.hbm, 1671, rfl⟩
abbrev main_cst_357 : Ref sig .tc := ⟨.hbm, 1672, rfl⟩
abbrev main_v1044 : Ref sig .tc := ⟨.hbm, 1673, rfl⟩
abbrev main_v1045 : Ref sig .tc := ⟨.hbm, 1674, rfl⟩
abbrev main_v1046 : Ref sig .tc := ⟨.hbm, 1675, rfl⟩
abbrev main_v1047 : Ref sig .tc := ⟨.hbm, 1676, rfl⟩
abbrev main_v1048 : Ref sig .tc := ⟨.hbm, 1677, rfl⟩
abbrev main_cst_358 : Ref sig .tc := ⟨.hbm, 1678, rfl⟩
abbrev main_v1049 : Ref sig .tc := ⟨.hbm, 1679, rfl⟩
abbrev main_v1050 : Ref sig .tc := ⟨.hbm, 1680, rfl⟩
abbrev main_v1051 : Ref sig .tc := ⟨.hbm, 1681, rfl⟩
abbrev main_v1052 : Ref sig .tc := ⟨.hbm, 1682, rfl⟩
abbrev main_v1053 : Ref sig .tc := ⟨.hbm, 1683, rfl⟩
abbrev main_cst_359 : Ref sig .tc := ⟨.hbm, 1684, rfl⟩
abbrev main_v1054 : Ref sig .tc := ⟨.hbm, 1685, rfl⟩
abbrev main_v1055 : Ref sig .tc := ⟨.hbm, 1686, rfl⟩
abbrev main_v1056 : Ref sig .tc := ⟨.hbm, 1687, rfl⟩
abbrev main_v1057 : Ref sig .tc := ⟨.hbm, 1688, rfl⟩
abbrev main_v1058 : Ref sig .tc := ⟨.hbm, 1689, rfl⟩
abbrev main_cst_360 : Ref sig .tc := ⟨.hbm, 1690, rfl⟩
abbrev main_v1059 : Ref sig .tc := ⟨.hbm, 1691, rfl⟩
abbrev main_v1060 : Ref sig .tc := ⟨.hbm, 1692, rfl⟩
abbrev main_v1061 : Ref sig .tc := ⟨.hbm, 1693, rfl⟩
abbrev main_v1062 : Ref sig .tc := ⟨.hbm, 1694, rfl⟩
abbrev main_v1063 : Ref sig .tc := ⟨.hbm, 1695, rfl⟩
abbrev main_cst_361 : Ref sig .tc := ⟨.hbm, 1696, rfl⟩
abbrev main_v1064 : Ref sig .tc := ⟨.hbm, 1697, rfl⟩
abbrev main_v1065 : Ref sig .tc := ⟨.hbm, 1698, rfl⟩
abbrev main_v1066 : Ref sig .tc := ⟨.hbm, 1699, rfl⟩
abbrev main_v1067 : Ref sig .tc := ⟨.hbm, 1700, rfl⟩
abbrev main_v1068 : Ref sig .tc := ⟨.hbm, 1701, rfl⟩
abbrev main_cst_362 : Ref sig .tc := ⟨.hbm, 1702, rfl⟩
abbrev main_v1069 : Ref sig .tc := ⟨.hbm, 1703, rfl⟩
abbrev main_v1070 : Ref sig .tc := ⟨.hbm, 1704, rfl⟩
abbrev main_v1071 : Ref sig .tc := ⟨.hbm, 1705, rfl⟩
abbrev main_v1072 : Ref sig .tc := ⟨.hbm, 1706, rfl⟩
abbrev main_v1073 : Ref sig .tc := ⟨.hbm, 1707, rfl⟩
abbrev main_cst_363 : Ref sig .tc := ⟨.hbm, 1708, rfl⟩
abbrev main_v1074 : Ref sig .tc := ⟨.hbm, 1709, rfl⟩
abbrev main_v1075 : Ref sig .tc := ⟨.hbm, 1710, rfl⟩
abbrev main_v1076 : Ref sig .tc := ⟨.hbm, 1711, rfl⟩
abbrev main_v1077 : Ref sig .tc := ⟨.hbm, 1712, rfl⟩
abbrev main_v1078 : Ref sig .tc := ⟨.hbm, 1713, rfl⟩
abbrev main_cst_364 : Ref sig .tc := ⟨.hbm, 1714, rfl⟩
abbrev main_v1079 : Ref sig .tc := ⟨.hbm, 1715, rfl⟩
abbrev main_v1080 : Ref sig .tc := ⟨.hbm, 1716, rfl⟩
abbrev main_v1081 : Ref sig .tc := ⟨.hbm, 1717, rfl⟩
abbrev main_v1082 : Ref sig .tc := ⟨.hbm, 1718, rfl⟩
abbrev main_v1083 : Ref sig .tc := ⟨.hbm, 1719, rfl⟩
abbrev main_v1084 : Ref sig .tc := ⟨.hbm, 1720, rfl⟩
abbrev main_v1085 : Ref sig .tc := ⟨.hbm, 1721, rfl⟩
abbrev main_v1086 : Ref sig .tc := ⟨.hbm, 1722, rfl⟩
abbrev main_v1087 : Ref sig .tc := ⟨.hbm, 1723, rfl⟩
abbrev main_v1088 : Ref sig .tc := ⟨.hbm, 1724, rfl⟩
abbrev main_v1089 : Ref sig .tc := ⟨.hbm, 1725, rfl⟩
abbrev main_v1090 : Ref sig .tc := ⟨.hbm, 1726, rfl⟩
abbrev main_v1091 : Ref sig .tc := ⟨.hbm, 1727, rfl⟩
abbrev main_v1092 : Ref sig .tc := ⟨.hbm, 1728, rfl⟩
abbrev main_v1093 : Ref sig .tc := ⟨.hbm, 1729, rfl⟩
abbrev main_v1094 : Ref sig .tc := ⟨.hbm, 1730, rfl⟩
abbrev main_v1095 : Ref sig .tc := ⟨.hbm, 1731, rfl⟩
abbrev main_v1096 : Ref sig .tc := ⟨.hbm, 1732, rfl⟩
abbrev main_v1097 : Ref sig .tc := ⟨.hbm, 1733, rfl⟩
abbrev main_v1098 : Ref sig .tc := ⟨.hbm, 1734, rfl⟩
abbrev main_v1099 : Ref sig .tc := ⟨.hbm, 1735, rfl⟩
abbrev main_v1100 : Ref sig .tc := ⟨.hbm, 1736, rfl⟩
abbrev main_v1101 : Ref sig .tc := ⟨.hbm, 1737, rfl⟩
abbrev main_v1102 : Ref sig .tc := ⟨.hbm, 1738, rfl⟩
abbrev main_v1103 : Ref sig .tc := ⟨.hbm, 1739, rfl⟩
abbrev main_v1104 : Ref sig .tc := ⟨.hbm, 1740, rfl⟩
abbrev main_v1105 : Ref sig .tc := ⟨.hbm, 1741, rfl⟩
abbrev main_v1106 : Ref sig .tc := ⟨.hbm, 1742, rfl⟩
abbrev main_v1107 : Ref sig .tc := ⟨.hbm, 1743, rfl⟩
abbrev main_v1108 : Ref sig .tc := ⟨.hbm, 1744, rfl⟩
abbrev main_v1109 : Ref sig .tc := ⟨.hbm, 1745, rfl⟩
abbrev main_v1110 : Ref sig .tc := ⟨.hbm, 1746, rfl⟩
abbrev main_v1111 : Ref sig .tc := ⟨.hbm, 1747, rfl⟩
abbrev main_v1112 : Ref sig .tc := ⟨.hbm, 1748, rfl⟩
abbrev main_v1113 : Ref sig .tc := ⟨.hbm, 1749, rfl⟩
abbrev main_v1114 : Ref sig .tc := ⟨.hbm, 1750, rfl⟩
abbrev main_v1115 : Ref sig .tc := ⟨.hbm, 1751, rfl⟩
abbrev main_v1116 : Ref sig .tc := ⟨.hbm, 1752, rfl⟩
abbrev main_v1117 : Ref sig .tc := ⟨.hbm, 1753, rfl⟩
abbrev main_v1118 : Ref sig .tc := ⟨.hbm, 1754, rfl⟩
abbrev main_v1119 : Ref sig .tc := ⟨.hbm, 1755, rfl⟩
abbrev main_v1120 : Ref sig .tc := ⟨.hbm, 1756, rfl⟩
abbrev main_v1121 : Ref sig .tc := ⟨.hbm, 1757, rfl⟩
abbrev main_v1122 : Ref sig .tc := ⟨.hbm, 1758, rfl⟩
abbrev main_v1123 : Ref sig .tc := ⟨.hbm, 1759, rfl⟩
abbrev main_v1124 : Ref sig .tc := ⟨.hbm, 1760, rfl⟩
abbrev main_c_365 : Ref sig .tc := ⟨.hbm, 1761, rfl⟩
abbrev main_v1125 : Ref sig .tc := ⟨.hbm, 1762, rfl⟩
abbrev main_v1126 : Ref sig .tc := ⟨.hbm, 1763, rfl⟩
abbrev main_c_366 : Ref sig .tc := ⟨.hbm, 1764, rfl⟩
abbrev main_v1127 : Ref sig .tc := ⟨.hbm, 1765, rfl⟩
abbrev main_v1128 : Ref sig .tc := ⟨.hbm, 1766, rfl⟩
abbrev main_v1129 : Ref sig .tc := ⟨.hbm, 1767, rfl⟩
abbrev main_c_367 : Ref sig .tc := ⟨.hbm, 1768, rfl⟩
abbrev main_v1130 : Ref sig .tc := ⟨.hbm, 1769, rfl⟩
abbrev main_v1131 : Ref sig .tc := ⟨.hbm, 1770, rfl⟩
abbrev main_c_368 : Ref sig .tc := ⟨.hbm, 1771, rfl⟩
abbrev main_v1132 : Ref sig .tc := ⟨.hbm, 1772, rfl⟩
abbrev main_v1133 : Ref sig .tc := ⟨.hbm, 1773, rfl⟩
abbrev main_v1134 : Ref sig .tc := ⟨.hbm, 1774, rfl⟩

abbrev nD : Nat := 1
abbrev τ : Topo := Topo.v7x

variable {F : FTy → Type} [FloatOps F]

class Facts₀ : Prop where
  shapeCasts_S2048_S1x2048 : S2048.ShapeCasts S1x2048
  bcast_S1x2048_S100x2048_0_1 : S1x2048.BroadcastsInDim S100x2048 (![0, 1] : Fin 2 → Fin S100x2048.rank)
  shapeCasts_S100x2048_S204800 : S100x2048.ShapeCasts S204800
  slices_S204800x20_S204800x1_0_0 : S204800x20.Slices ![0, 0] S204800x1
  shapeCasts_S204800x1_S204800 : S204800x1.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  slices_S204800x20_S204800x1_0_1 : S204800x20.Slices ![0, 1] S204800x1
  slices_S204800x20_S204800x1_0_2 : S204800x20.Slices ![0, 2] S204800x1
  slices_S204800x20_S204800x1_0_3 : S204800x20.Slices ![0, 3] S204800x1
  slices_S204800x20_S204800x1_0_4 : S204800x20.Slices ![0, 4] S204800x1
  slices_S204800x20_S204800x1_0_5 : S204800x20.Slices ![0, 5] S204800x1
  slices_S204800x20_S204800x1_0_6 : S204800x20.Slices ![0, 6] S204800x1
  slices_S204800x20_S204800x1_0_7 : S204800x20.Slices ![0, 7] S204800x1
  slices_S204800x20_S204800x1_0_8 : S204800x20.Slices ![0, 8] S204800x1
  slices_S204800x20_S204800x1_0_9 : S204800x20.Slices ![0, 9] S204800x1
  slices_S204800x20_S204800x1_0_10 : S204800x20.Slices ![0, 10] S204800x1
  slices_S204800x20_S204800x1_0_11 : S204800x20.Slices ![0, 11] S204800x1
  slices_S204800x20_S204800x1_0_12 : S204800x20.Slices ![0, 12] S204800x1
  slices_S204800x20_S204800x1_0_13 : S204800x20.Slices ![0, 13] S204800x1
  slices_S204800x20_S204800x1_0_14 : S204800x20.Slices ![0, 14] S204800x1
  slices_S204800x20_S204800x1_0_15 : S204800x20.Slices ![0, 15] S204800x1
  slices_S204800x20_S204800x1_0_16 : S204800x20.Slices ![0, 16] S204800x1
  slices_S204800x20_S204800x1_0_17 : S204800x20.Slices ![0, 17] S204800x1
  slices_S204800x20_S204800x1_0_18 : S204800x20.Slices ![0, 18] S204800x1
  slices_S204800x20_S204800x1_0_19 : S204800x20.Slices ![0, 19] S204800x1
  concatenates_S204800x1_S204800x1_S204800x1_S204800x1_S204800x1_S204800x1_S204800x1_S204800x1_S204800x1_S204800x1_S204800x1_S204800x1_S204800x1_S204800x1_S204800x1_S204800x1_S204800x16_d1 : Shape.Concatenates [S204800x1, S204800x1, S204800x1, S204800x1, S204800x1, S204800x1, S204800x1, S204800x1, S204800x1, S204800x1, S204800x1, S204800x1, S204800x1, S204800x1, S204800x1, S204800x1] S204800x16 1
  concatenates_S204800x1_S204800x1_S204800x1_S204800x1_S204800x1_S204800x5_d1 : Shape.Concatenates [S204800x1, S204800x1, S204800x1, S204800x1, S204800x1] S204800x5 1
  concatenates_S204800x16_S204800x5_S204800x21_d1 : Shape.Concatenates [S204800x16, S204800x5] S204800x21 1
  bcast_S21_S1x21_1 : S21.BroadcastsInDim S1x21 (![1] : Fin 1 → Fin S1x21.rank)
  bcast_S1x21_S204800x21_0_1 : S1x21.BroadcastsInDim S204800x21 (![0, 1] : Fin 2 → Fin S204800x21.rank)
  bcast_S_S204800x21 : S_.BroadcastsInDim S204800x21 (![] : Fin 0 → Fin S204800x21.rank)
  slices_S204800x21_S204800x7_0_0 : S204800x21.Slices ![0, 0] S204800x7
  slices_S204800x21_S204800x7_0_1 : S204800x21.Slices ![0, 1] S204800x7
  slices_S204800x21_S204800x7_0_2 : S204800x21.Slices ![0, 2] S204800x7
  slices_S204800x21_S204800x7_0_3 : S204800x21.Slices ![0, 3] S204800x7
  slices_S204800x21_S204800x7_0_4 : S204800x21.Slices ![0, 4] S204800x7
  slices_S204800x21_S204800x7_0_5 : S204800x21.Slices ![0, 5] S204800x7
  slices_S204800x21_S204800x7_0_6 : S204800x21.Slices ![0, 6] S204800x7
  slices_S204800x21_S204800x7_0_7 : S204800x21.Slices ![0, 7] S204800x7
  slices_S204800x21_S204800x7_0_8 : S204800x21.Slices ![0, 8] S204800x7
  slices_S204800x21_S204800x7_0_9 : S204800x21.Slices ![0, 9] S204800x7
  slices_S204800x21_S204800x7_0_10 : S204800x21.Slices ![0, 10] S204800x7
  slices_S204800x21_S204800x7_0_11 : S204800x21.Slices ![0, 11] S204800x7
  slices_S204800x21_S204800x7_0_12 : S204800x21.Slices ![0, 12] S204800x7
  slices_S204800x21_S204800x7_0_13 : S204800x21.Slices ![0, 13] S204800x7
  slices_S204800x21_S204800x7_0_14 : S204800x21.Slices ![0, 14] S204800x7
  concatenates_S204800x7_S204800x7_S204800x7_S204800x7_S204800x7_S204800x7_S204800x7_S204800x7_S204800x7_S204800x7_S204800x7_S204800x7_S204800x7_S204800x7_S204800x7_S3072000x7_d0 : Shape.Concatenates [S204800x7, S204800x7, S204800x7, S204800x7, S204800x7, S204800x7, S204800x7, S204800x7, S204800x7, S204800x7, S204800x7, S204800x7, S204800x7, S204800x7, S204800x7] S3072000x7 0
  bcast_S_S3072000x7 : S_.BroadcastsInDim S3072000x7 (![] : Fin 0 → Fin S3072000x7.rank)
  gather_S3551_S204800x1_S204800_n_0_n_n_0_1_1_wf : GatherDims.WF S3551 S204800x1 S204800 [] [0] [] [0] [] 1 ![1]
  gather_S217264_S204800x1_S204800_n_0_n_n_0_1_1_wf : GatherDims.WF S217264 S204800x1 S204800 [] [0] [] [0] [] 1 ![1]
  gather_S20001_S204800x1_S204800_n_0_n_n_0_1_1_wf : GatherDims.WF S20001 S204800x1 S204800 [] [0] [] [0] [] 1 ![1]
  gather_S302235_S204800x1_S204800_n_0_n_n_0_1_1_wf : GatherDims.WF S302235 S204800x1 S204800 [] [0] [] [0] [] 1 ![1]

variable [Facts₀]

def gather_S3551_S204800x1_S204800_n_0_n_n_0_1_1 : GatherDims S3551 S204800x1 S204800 where
  offsetDims := []
  collapsedSliceDims := [0]
  operandBatchingDims := []
  startIndicesBatchingDims := []
  startIndexMap := [0]
  indexVectorDim := 1
  sliceSizes := ![1]
  wf := gather_S3551_S204800x1_S204800_n_0_n_n_0_1_1_wf
def gather_S217264_S204800x1_S204800_n_0_n_n_0_1_1 : GatherDims S217264 S204800x1 S204800 where
  offsetDims := []
  collapsedSliceDims := [0]
  operandBatchingDims := []
  startIndicesBatchingDims := []
  startIndexMap := [0]
  indexVectorDim := 1
  sliceSizes := ![1]
  wf := gather_S217264_S204800x1_S204800_n_0_n_n_0_1_1_wf
def gather_S20001_S204800x1_S204800_n_0_n_n_0_1_1 : GatherDims S20001 S204800x1 S204800 where
  offsetDims := []
  collapsedSliceDims := [0]
  operandBatchingDims := []
  startIndicesBatchingDims := []
  startIndexMap := [0]
  indexVectorDim := 1
  sliceSizes := ![1]
  wf := gather_S20001_S204800x1_S204800_n_0_n_n_0_1_1_wf
def gather_S302235_S204800x1_S204800_n_0_n_n_0_1_1 : GatherDims S302235 S204800x1 S204800 where
  offsetDims := []
  collapsedSliceDims := [0]
  operandBatchingDims := []
  startIndicesBatchingDims := []
  startIndexMap := [0]
  indexVectorDim := 1
  sliceSizes := ![1]
  wf := gather_S302235_S204800x1_S204800_n_0_n_n_0_1_1_wf

class Facts : Prop extends Facts₀ where

variable [Facts]
-- ==== Proof.Spec.lean ====
import Idealize.ShloMosaic.PureOps.Ideal
import Idealize.ShloMosaic.Lib.ValueIdx

noncomputable section

namespace Cert.Walk

open Idealize.ShloMosaic

abbrev SW : Shape := ⟨1, ![204800]⟩
abbrev SB : Shape := ⟨1, ![2048]⟩
abbrev SU : Shape := ⟨2, ![204800, 20]⟩
abbrev SR : Shape := ⟨2, ![3072000, 7]⟩

abbrev dummy : BitVec 32 := 120000#32

def offOf (p : ℕ) : BitVec 32 := if p % 2 = 1 then 3550#32 else 0#32

def clipD (x : BitVec 32) : BitVec 32 := Scalar.select (IntOp.cmpi .sgt x dummy) dummy x

def remap (x : BitVec 32) : BitVec 32 :=
  Scalar.select (IntOp.andi (IntOp.cmpi .ne x dummy) (IntOp.cmpi .sge x 3550#32)) (IntOp.addi (IntOp.subi x 3550#32) 9100#32) x

def winOf (i : SR.Idx) : ℕ := (i 0).val / 204800
def walkOf (i : SR.Idx) : Fin 204800 := ⟨(i 0).val % 204800, Nat.mod_lt _ (by decide)⟩
def posOf (i : SR.Idx) : ℕ := winOf i + (i 1).val

def posSpec (rw : ℕ → IVec SW 32) : IVec SR 32 := fun i =>
  remap (clipD (IntOp.addi (rw (posOf i) (ValueIdx.ix1 (walkOf i))) (offOf (posOf i))))

def scaleOf (q : ℕ) : BitVec 32 := if q % 2 = 0 then 20000#32 else 3550#32

def negRowG (start : Fin 204800 → BitVec 32) (draw : Fin 204800 → Fin 20 → Ideal .f32) (p : ℕ) (w : Fin 204800) : BitVec 32 :=
  if p = 0 then start w
  else if hq : p - 1 < 20 then
    IntOp.addi (FloatOps.fptosi (F := Ideal) 32 (FloatOps.mulf (F := Ideal) (φ := .f32) (draw w ⟨p - 1, hq⟩)
      (FloatOps.sitofp (F := Ideal) .f32 (scaleOf (p - 1))))) (offOf p)
  else 0#32

def negSpecG (start : Fin 204800 → BitVec 32) (draw : Fin 204800 → Fin 20 → Ideal .f32) : IVec SR 32 := fun i =>
  remap (negRowG start draw (posOf i) (walkOf i))

theorem posOf_le (i : SR.Idx) : posOf i ≤ 20 := by
  have h0 : (i 0).val < 3072000 := (i 0).isLt
  have h1 : (i 1).val < 7 := (i 1).isLt
  unfold posOf winOf
  omega

theorem posSpec_congr {rw rw' : ℕ → IVec SW 32} (h : ∀ p, p ≤ 20 → rw p = rw' p) : posSpec rw = posSpec rw' := by
  funext i
  unfold posSpec
  rw [h _ (posOf_le i)]

theorem negSpecG_congr {s s' : Fin 204800 → BitVec 32} {d d' : Fin 204800 → Fin 20 → Ideal .f32}
    (hs : ∀ w, s w = s' w) (hd : ∀ w q, d w q = d' w q) : negSpecG s d = negSpecG s' d' := by
  have e1 : s = s' := funext hs
  have e2 : d = d' := funext fun w => funext (hd w)
  rw [e1, e2]

def negSpec (batch : IVec SB 32) (neg : FVec Ideal SU .f32) : IVec SR 32 :=
  negSpecG (fun w => batch (ValueIdx.ix1 ⟨w.val % 2048, Nat.mod_lt _ (by decide)⟩)) (fun w q => neg (ValueIdx.ix2 w q))

end Cert.Walk

end
-- ==== Proof.KBase.lean ====
import proofs.«416388_j86139864089342_3_alg».proof.Proof.Gen.Kernel.Launch
import proofs.«416388_j86139864089342_3_alg».proof.Proof.Gen.Kernel.Skeleton
import proofs.«416388_j86139864089342_3_alg».proof.Proof.Gen.Kernel.Points

noncomputable section

namespace Cert.Kernel.Hand

open Idealize.ShloMosaic Idealize.ShloMosaic.TcCoe Idealize.SL.Sem Cert.Kernel Cert.Kernel.Gen

variable {F : FTy → Type} [FloatOps F]

noncomputable abbrev preStretches : List (List (HloOp τ sig (Elt F))) :=
  [ hostOps0,
    hostOps0_1,
    hostOps0_2,
    hostOps0_3,
    hostOps0_4,
    hostOps0_5,
    hostOps0_6,
    hostOps0_7,
    hostOps0_8,
    hostOps0_9,
    hostOps0_10,
    hostOps0_11,
    hostOps0_12,
    hostOps0_13,
    hostOps0_14,
    hostOps0_15,
    hostOps0_16,
    hostOps0_17,
    hostOps0_18,
    hostOps0_19,
    hostOps0_20,
    hostOps0_21,
    hostOps0_22,
    hostOps0_23,
    hostOps0_24,
    hostOps0_25,
    hostOps0_26,
    hostOps0_27,
    hostOps0_28,
    hostOps0_29,
    hostOps0_30,
    hostOps0_31,
    hostOps0_32,
    hostOps0_33,
    hostOps0_34,
    hostOps0_35,
    hostOps0_36,
    hostOps0_37,
    hostOps0_38,
    hostOps0_39,
    hostOps0_40,
    hostOps0_41,
    hostOps0_42,
    hostOps0_43,
    hostOps0_44,
    hostOps0_45,
    hostOps0_46,
    hostOps0_47,
    hostOps0_48,
    hostOps0_49,
    hostOps0_50,
    hostOps0_51,
    hostOps0_52,
    hostOps0_53,
    hostOps0_54,
    hostOps0_55,
    hostOps0_56,
    hostOps0_57,
    hostOps0_58,
    hostOps0_59,
    hostOps0_60,
    hostOps0_61,
    hostOps0_62,
    hostOps0_63,
    hostOps0_64,
    hostOps0_65,
    hostOps0_66,
    hostOps0_67,
    hostOps0_68,
    hostOps0_69,
    hostOps0_70,
    hostOps0_71,
    hostOps0_72,
    hostOps0_73,
    hostOps0_74,
    hostOps0_75,
    hostOps0_76,
    hostOps0_77,
    hostOps0_78,
    hostOps0_79,
    hostOps0_80,
    hostOps0_81,
    hostOps0_82,
    hostOps0_83,
    hostOps0_84,
    hostOps0_85,
    hostOps0_86,
    hostOps0_87,
    hostOps0_88,
    hostOps0_89,
    hostOps0_90,
    hostOps0_91,
    hostOps0_92,
    hostOps0_93,
    hostOps0_94,
    hostOps0_95,
    hostOps0_96,
    hostOps0_97,
    hostOps0_98,
    hostOps0_99,
    hostOps0_100,
    hostOps0_101,
    hostOps0_102,
    hostOps0_103,
    hostOps0_104,
    hostOps0_105,
    hostOps0_106,
    hostOps0_107,
    hostOps0_108,
    hostOps0_109,
    hostOps0_110,
    hostOps0_111,
    hostOps0_112,
    hostOps0_113,
    hostOps0_114,
    hostOps0_115,
    hostOps0_116,
    hostOps0_117,
    hostOps0_118,
    hostOps0_119,
    hostOps0_120,
    hostOps0_121,
    hostOps0_122,
    hostOps0_123,
    hostOps0_124,
    hostOps0_125,
    hostOps0_126,
    hostOps0_127,
    hostOps0_128,
    hostOps0_129,
    hostOps0_130,
    hostOps0_131,
    hostOps0_132,
    hostOps0_133,
    hostOps0_134,
    hostOps0_135,
    hostOps0_136,
    hostOps0_137,
    hostOps0_138,
    hostOps0_139,
    hostOps0_140,
    hostOps0_141,
    hostOps0_142,
    hostOps0_143,
    hostOps0_144,
    hostOps0_145,
    hostOps0_146,
    hostOps0_147,
    hostOps0_148,
    hostOps0_149,
    hostOps0_150,
    hostOps0_151,
    hostOps0_152,
    hostOps0_153,
    hostOps0_154,
    hostOps0_155,
    hostOps0_156,
    hostOps0_157,
    hostOps0_158,
    hostOps0_159,
    hostOps0_160,
    hostOps0_161,
    hostOps0_162,
    hostOps0_163,
    hostOps0_164,
    hostOps0_165,
    hostOps0_166,
    hostOps0_167,
    hostOps0_168,
    hostOps0_169,
    hostOps0_170,
    hostOps0_171,
    hostOps0_172,
    hostOps0_173,
    hostOps0_174,
    hostOps0_175,
    hostOps0_176,
    hostOps0_177,
    hostOps0_178,
    hostOps0_179,
    hostOps0_180,
    hostOps0_181,
    hostOps0_182,
    hostOps0_183,
    hostOps0_184,
    hostOps0_185,
    hostOps0_186,
    hostOps0_187,
    hostOps0_188,
    hostOps0_189,
    hostOps0_190,
    hostOps0_191,
    hostOps0_192,
    hostOps0_193,
    hostOps0_194,
    hostOps0_195,
    hostOps0_196,
    hostOps0_197,
    hostOps0_198,
    hostOps0_199,
    hostOps0_200 ]

variable (m : (ℓ : Loc nD τ sig) → Buf (Elt F) ℓ)

noncomputable abbrev V0 (c : Dev nD) : Valuation τ sig (Elt F) := StableHlo.after (List.flatten preStretches) (fun b => m (c, b))

noncomputable abbrev V (c : Dev nD) (b : Ref sig .tc) : Buf (Elt F) ((c : Thread nD τ).loc b) := V0 m c (Proc.devRef .tc b)

end Cert.Kernel.Hand

end
-- ==== Proof.KBody.lean ====
import proofs.«416388_j86139864089342_3_alg».proof.Proof.KBase
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S21x12800 := Rect.unit (s := S21x12800) ![0, 0] S21x12800.size inb_S21x12800_S21x12800_0_0
abbrev r0_1 : Rect S15x7x12800 := Rect.unit (s := S15x7x12800) ![0, 0, 0] S1x7x12800.size inb_S15x7x12800_S1x7x12800_0_0_0
abbrev r0_2 : Rect S15x7x12800 := Rect.unit (s := S15x7x12800) ![1, 0, 0] S1x7x12800.size inb_S15x7x12800_S1x7x12800_1_0_0
abbrev r0_3 : Rect S15x7x12800 := Rect.unit (s := S15x7x12800) ![2, 0, 0] S1x7x12800.size inb_S15x7x12800_S1x7x12800_2_0_0
abbrev r0_4 : Rect S15x7x12800 := Rect.unit (s := S15x7x12800) ![3, 0, 0] S1x7x12800.size inb_S15x7x12800_S1x7x12800_3_0_0
abbrev r0_5 : Rect S15x7x12800 := Rect.unit (s := S15x7x12800) ![4, 0, 0] S1x7x12800.size inb_S15x7x12800_S1x7x12800_4_0_0
abbrev r0_6 : Rect S15x7x12800 := Rect.unit (s := S15x7x12800) ![5, 0, 0] S1x7x12800.size inb_S15x7x12800_S1x7x12800_5_0_0
abbrev r0_7 : Rect S15x7x12800 := Rect.unit (s := S15x7x12800) ![6, 0, 0] S1x7x12800.size inb_S15x7x12800_S1x7x12800_6_0_0
abbrev r0_8 : Rect S15x7x12800 := Rect.unit (s := S15x7x12800) ![7, 0, 0] S1x7x12800.size inb_S15x7x12800_S1x7x12800_7_0_0
abbrev r0_9 : Rect S15x7x12800 := Rect.unit (s := S15x7x12800) ![8, 0, 0] S1x7x12800.size inb_S15x7x12800_S1x7x12800_8_0_0
abbrev r0_10 : Rect S15x7x12800 := Rect.unit (s := S15x7x12800) ![9, 0, 0] S1x7x12800.size inb_S15x7x12800_S1x7x12800_9_0_0
abbrev r0_11 : Rect S15x7x12800 := Rect.unit (s := S15x7x12800) ![10, 0, 0] S1x7x12800.size inb_S15x7x12800_S1x7x12800_10_0_0
abbrev r0_12 : Rect S15x7x12800 := Rect.unit (s := S15x7x12800) ![11, 0, 0] S1x7x12800.size inb_S15x7x12800_S1x7x12800_11_0_0
abbrev r0_13 : Rect S15x7x12800 := Rect.unit (s := S15x7x12800) ![12, 0, 0] S1x7x12800.size inb_S15x7x12800_S1x7x12800_12_0_0
abbrev r0_14 : Rect S15x7x12800 := Rect.unit (s := S15x7x12800) ![13, 0, 0] S1x7x12800.size inb_S15x7x12800_S1x7x12800_13_0_0
abbrev r0_15 : Rect S15x7x12800 := Rect.unit (s := S15x7x12800) ![14, 0, 0] S1x7x12800.size inb_S15x7x12800_S1x7x12800_14_0_0
abbrev r0_16 : Rect S20x12800 := Rect.unit (s := S20x12800) ![0, 0] S20x12800.size inb_S20x12800_S20x12800_0_0
abbrev r0_17 : Rect S1x12800 := Rect.unit (s := S1x12800) ![0, 0] S1x12800.size inb_S1x12800_S1x12800_0_0
abbrev r0_18 : Rect S15x7x12800 := Rect.unit (s := S15x7x12800) ![0, 0, 0] S1x1x12800.size inb_S15x7x12800_S1x1x12800_0_0_0
abbrev r0_19 : Rect S15x7x12800 := Rect.unit (s := S15x7x12800) ![0, 1, 0] S1x6x12800.size inb_S15x7x12800_S1x6x12800_0_1_0

def out0_3 (x0 : Vec F S21x12800 .i32) : Vec F S15x7x12800 .i32 :=
  View.canon [⟨r0_15, k0_pay24 (k0_pay7 (View.ld x0 r0_0))⟩,
    ⟨r0_14, k0_pay23 (k0_pay7 (View.ld x0 r0_0))⟩,
    ⟨r0_13, k0_pay22 (k0_pay7 (View.ld x0 r0_0))⟩,
    ⟨r0_12, k0_pay21 (k0_pay7 (View.ld x0 r0_0))⟩,
    ⟨r0_11, k0_pay20 (k0_pay19 (k0_pay7 (View.ld x0 r0_0)))⟩,
    ⟨r0_10, k0_pay18 (k0_pay7 (View.ld x0 r0_0))⟩,
    ⟨r0_9, k0_pay17 (k0_pay7 (View.ld x0 r0_0))⟩,
    ⟨r0_8, k0_pay16 (k0_pay7 (View.ld x0 r0_0))⟩,
    ⟨r0_7, k0_pay15 (k0_pay7 (View.ld x0 r0_0))⟩,
    ⟨r0_6, k0_pay14 (k0_pay7 (View.ld x0 r0_0))⟩,
    ⟨r0_5, k0_pay13 (k0_pay7 (View.ld x0 r0_0))⟩,
    ⟨r0_4, k0_pay12 (k0_pay7 (View.ld x0 r0_0))⟩,
    ⟨r0_3, k0_pay11 (k0_pay10 (View.ld x0 r0_0))⟩,
    ⟨r0_2, k0_pay9 (View.ld x0 r0_0)⟩,
    ⟨r0_1, k0_pay8 (View.ld x0 r0_0)⟩]

theorem cover0_3 (p0 : Vec F S1x7x12800 .i32) (p1 : Vec F S1x7x12800 .i32) (p2 : Vec F S1x7x12800 .i32) (p3 : Vec F S1x7x12800 .i32) (p4 : Vec F S1x7x12800 .i32) (p5 : Vec F S1x7x12800 .i32) (p6 : Vec F S1x7x12800 .i32) (p7 : Vec F S1x7x12800 .i32) (p8 : Vec F S1x7x12800 .i32) (p9 : Vec F S1x7x12800 .i32) (p10 : Vec F S1x7x12800 .i32) (p11 : Vec F S1x7x12800 .i32) (p12 : Vec F S1x7x12800 .i32) (p13 : Vec F S1x7x12800 .i32) (p14 : Vec F S1x7x12800 .i32) (y : S15x7x12800.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩] : List (View.Piece (Elt F) S15x7x12800 .i32)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩] S1x7x12800.size (by rfl) y

def out0_4 (x1 : Vec F S20x12800 .f32) (x2 : Vec F S1x12800 .i32) : Vec F S15x7x12800 .i32 :=
  View.canon [⟨r0_15, k0_pay6 (k0_pay28 k0_pay26 (k0_pay27 (View.ld x1 r0_16)))⟩,
    ⟨r0_14, k0_pay5 (k0_pay28 k0_pay26 (k0_pay27 (View.ld x1 r0_16)))⟩,
    ⟨r0_13, k0_pay4 (k0_pay28 k0_pay26 (k0_pay27 (View.ld x1 r0_16)))⟩,
    ⟨r0_12, k0_pay3 (k0_pay28 k0_pay26 (k0_pay27 (View.ld x1 r0_16)))⟩,
    ⟨r0_11, k0_pay2 (k0_pay28 k0_pay26 (k0_pay27 (View.ld x1 r0_16)))⟩,
    ⟨r0_10, k0_pay1 (k0_pay40 (k0_pay28 k0_pay26 (k0_pay27 (View.ld x1 r0_16))))⟩,
    ⟨r0_9, k0_pay39 (k0_pay28 k0_pay26 (k0_pay27 (View.ld x1 r0_16)))⟩,
    ⟨r0_8, k0_pay38 (k0_pay28 k0_pay26 (k0_pay27 (View.ld x1 r0_16)))⟩,
    ⟨r0_7, k0_pay37 (k0_pay28 k0_pay26 (k0_pay27 (View.ld x1 r0_16)))⟩,
    ⟨r0_6, k0_pay36 (k0_pay28 k0_pay26 (k0_pay27 (View.ld x1 r0_16)))⟩,
    ⟨r0_5, k0_pay35 (k0_pay28 k0_pay26 (k0_pay27 (View.ld x1 r0_16)))⟩,
    ⟨r0_4, k0_pay34 (k0_pay28 k0_pay26 (k0_pay27 (View.ld x1 r0_16)))⟩,
    ⟨r0_3, k0_pay33 (k0_pay32 k0_pay26 (k0_pay27 (View.ld x1 r0_16)))⟩,
    ⟨r0_2, k0_pay31 k0_pay26 (k0_pay27 (View.ld x1 r0_16))⟩,
    ⟨r0_19, k0_pay30 k0_pay26 (k0_pay27 (View.ld x1 r0_16))⟩,
    ⟨r0_18, k0_pay29 (k0_pay25 (View.ld x2 r0_17))⟩]

theorem cover0_4 (p0 : Vec F S1x7x12800 .i32) (p1 : Vec F S1x7x12800 .i32) (p2 : Vec F S1x7x12800 .i32) (p3 : Vec F S1x7x12800 .i32) (p4 : Vec F S1x7x12800 .i32) (p5 : Vec F S1x7x12800 .i32) (p6 : Vec F S1x7x12800 .i32) (p7 : Vec F S1x7x12800 .i32) (p8 : Vec F S1x7x12800 .i32) (p9 : Vec F S1x7x12800 .i32) (p10 : Vec F S1x7x12800 .i32) (p11 : Vec F S1x7x12800 .i32) (p12 : Vec F S1x7x12800 .i32) (p13 : Vec F S1x7x12800 .i32) (p14 : Vec F S1x6x12800 .i32) (p15 : Vec F S1x1x12800 .i32) (y : S15x7x12800.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_19, p14⟩, ⟨r0_18, p15⟩] : List (View.Piece (Elt F) S15x7x12800 .i32)), y ∈ pc.1.set :=
  View.cover_of_tiledBy [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_19, p14⟩, ⟨r0_18, p15⟩] ![1, 1, 12800] (by sl_kernel_rfl) y

set_option maxHeartbeats 4000000 in

theorem sound_kernel (c : Dev nD) (E : Set ℕ) (i : grid0.Coords) (arg1 : Memref sig .tc .vmem S21x12800 .i32) (harg1 : arg1.IsWhole) (arg2 : Memref sig .tc .vmem S20x12800 .f32) (harg2 : arg2.IsWhole) (arg3 : Memref sig .tc .vmem S1x12800 .i32) (harg3 : arg3.IsWhole) (arg4 : Memref sig .tc .vmem S15x7x12800 .i32) (harg4 : arg4.IsWhole) (arg5 : Memref sig .tc .vmem S15x7x12800 .i32) (harg5 : arg5.IsWhole)
    (x0 : Vec F S21x12800 .i32) (x1 : Vec F S20x12800 .f32) (x2 : Vec F S1x12800 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0) ∗ owns (c : Thread nD τ) arg5 fullShare (out0_4 x1 x2)) -∗ K ⟨⟩))
      ⊢ wp frame (wpE (defs₀ (F := F)) Variants.none c none) E (cc0__fused_window_kernel i arg1 harg1 arg2 harg2 arg3 harg3 arg4 harg4 arg5 harg5) K := by
  simp only [cc0__fused_window_kernel_eq_skeleton]; unfold cc0__fused_window_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _ _ _ _ _ _ _ _ _ _ _ _ _ _ _)
  iexists _; isplitr
  swap; · iexact H4
  ipureintro
  try dsimp only
  exact View.read_writes_eq_canon _ _ _ (cover0_4 _ _ _ _ _ _ _ _ _ _ _ _ _ _ _ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t)
    | ⟨4, _⟩ => out0_4 (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 1 t) (iblk m c 2 t) := by dsimp only [dats]

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrame.lean ====
import proofs.«416388_j86139864089342_3_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem pre_sub : (preStretches (F := F)).Forall fun ops => ops.Forall fun op => op.bufs ⊆ StableHlo.tcRefs τ sig :=
  ⟨
    hostOps0_sub, hostOps0_1_sub, hostOps0_2_sub, hostOps0_3_sub, hostOps0_4_sub, hostOps0_5_sub,
    hostOps0_6_sub, hostOps0_7_sub, hostOps0_8_sub, hostOps0_9_sub, hostOps0_10_sub, hostOps0_11_sub,
    hostOps0_12_sub, hostOps0_13_sub, hostOps0_14_sub, hostOps0_15_sub, hostOps0_16_sub, hostOps0_17_sub,
    hostOps0_18_sub, hostOps0_19_sub, hostOps0_20_sub, hostOps0_21_sub, hostOps0_22_sub, hostOps0_23_sub,
    hostOps0_24_sub, hostOps0_25_sub, hostOps0_26_sub, hostOps0_27_sub, hostOps0_28_sub, hostOps0_29_sub,
    hostOps0_30_sub, hostOps0_31_sub, hostOps0_32_sub, hostOps0_33_sub, hostOps0_34_sub, hostOps0_35_sub,
    hostOps0_36_sub, hostOps0_37_sub, hostOps0_38_sub, hostOps0_39_sub, hostOps0_40_sub, hostOps0_41_sub,
    hostOps0_42_sub, hostOps0_43_sub, hostOps0_44_sub, hostOps0_45_sub, hostOps0_46_sub, hostOps0_47_sub,
    hostOps0_48_sub, hostOps0_49_sub, hostOps0_50_sub, hostOps0_51_sub, hostOps0_52_sub, hostOps0_53_sub,
    hostOps0_54_sub, hostOps0_55_sub, hostOps0_56_sub, hostOps0_57_sub, hostOps0_58_sub, hostOps0_59_sub,
    hostOps0_60_sub, hostOps0_61_sub, hostOps0_62_sub, hostOps0_63_sub, hostOps0_64_sub, hostOps0_65_sub,
    hostOps0_66_sub, hostOps0_67_sub, hostOps0_68_sub, hostOps0_69_sub, hostOps0_70_sub, hostOps0_71_sub,
    hostOps0_72_sub, hostOps0_73_sub, hostOps0_74_sub, hostOps0_75_sub, hostOps0_76_sub, hostOps0_77_sub,
    hostOps0_78_sub, hostOps0_79_sub, hostOps0_80_sub, hostOps0_81_sub, hostOps0_82_sub, hostOps0_83_sub,
    hostOps0_84_sub, hostOps0_85_sub, hostOps0_86_sub, hostOps0_87_sub, hostOps0_88_sub, hostOps0_89_sub,
    hostOps0_90_sub, hostOps0_91_sub, hostOps0_92_sub, hostOps0_93_sub, hostOps0_94_sub, hostOps0_95_sub,
    hostOps0_96_sub, hostOps0_97_sub, hostOps0_98_sub, hostOps0_99_sub, hostOps0_100_sub, hostOps0_101_sub,
    hostOps0_102_sub, hostOps0_103_sub, hostOps0_104_sub, hostOps0_105_sub, hostOps0_106_sub, hostOps0_107_sub,
    hostOps0_108_sub, hostOps0_109_sub, hostOps0_110_sub, hostOps0_111_sub, hostOps0_112_sub, hostOps0_113_sub,
    hostOps0_114_sub, hostOps0_115_sub, hostOps0_116_sub, hostOps0_117_sub, hostOps0_118_sub, hostOps0_119_sub,
    hostOps0_120_sub, hostOps0_121_sub, hostOps0_122_sub, hostOps0_123_sub, hostOps0_124_sub, hostOps0_125_sub,
    hostOps0_126_sub, hostOps0_127_sub, hostOps0_128_sub, hostOps0_129_sub, hostOps0_130_sub, hostOps0_131_sub,
    hostOps0_132_sub, hostOps0_133_sub, hostOps0_134_sub, hostOps0_135_sub, hostOps0_136_sub, hostOps0_137_sub,
    hostOps0_138_sub, hostOps0_139_sub, hostOps0_140_sub, hostOps0_141_sub, hostOps0_142_sub, hostOps0_143_sub,
    hostOps0_144_sub, hostOps0_145_sub, hostOps0_146_sub, hostOps0_147_sub, hostOps0_148_sub, hostOps0_149_sub,
    hostOps0_150_sub, hostOps0_151_sub, hostOps0_152_sub, hostOps0_153_sub, hostOps0_154_sub, hostOps0_155_sub,
    hostOps0_156_sub, hostOps0_157_sub, hostOps0_158_sub, hostOps0_159_sub, hostOps0_160_sub, hostOps0_161_sub,
    hostOps0_162_sub, hostOps0_163_sub, hostOps0_164_sub, hostOps0_165_sub, hostOps0_166_sub, hostOps0_167_sub,
    hostOps0_168_sub, hostOps0_169_sub, hostOps0_170_sub, hostOps0_171_sub, hostOps0_172_sub, hostOps0_173_sub,
    hostOps0_174_sub, hostOps0_175_sub, hostOps0_176_sub, hostOps0_177_sub, hostOps0_178_sub, hostOps0_179_sub,
    hostOps0_180_sub, hostOps0_181_sub, hostOps0_182_sub, hostOps0_183_sub, hostOps0_184_sub, hostOps0_185_sub,
    hostOps0_186_sub, hostOps0_187_sub, hostOps0_188_sub, hostOps0_189_sub, hostOps0_190_sub, hostOps0_191_sub,
    hostOps0_192_sub, hostOps0_193_sub, hostOps0_194_sub, hostOps0_195_sub, hostOps0_196_sub, hostOps0_197_sub,
    hostOps0_198_sub, hostOps0_199_sub, hostOps0_200_sub⟩

theorem hostOps_fresh : (preStretches (F := F)).Forall fun ops => ops.Forall fun op => op.fresh = ∅ := by
  simp only [List.Forall]
  repeat' apply And.intro
  all_goals rfl

def KeepsArgs (op : HloOp τ sig (Elt F)) : Prop :=
  ∀ r : Ref sig .tc, r.idx.val < 7 → Proc.devRef (τ := τ) .tc r ∉ op.writes

theorem keepsArgs_of_writes {op : HloOp τ sig (Elt F)} {y : Ref sig .tc} (hw : op.writes = {Proc.devRef (τ := τ) .tc y})
    (hy : 7 ≤ y.idx.val) : KeepsArgs op := fun r hr hmem => by
  rw [hw, Finset.mem_singleton] at hmem
  have e := Proc.devRef_injective _ hmem
  subst e
  omega

theorem pre_keeps : (preStretches (F := F)).Forall fun ops => ops.Forall KeepsArgs := by
  simp only [List.Forall]
  repeat' apply And.intro
  all_goals exact keepsArgs_of_writes rfl (by decide)

variable (m : (ℓ : Loc nD τ sig) → Buf (Elt F) ℓ) (ρ : Dev nD → PrngReg)

theorem V_of_lt (c : Dev nD) (r : Ref sig .tc) (hr : r.idx.val < 7) : V m c r = m ((c : Thread nD τ).loc r) :=
  StableHlo.after_of_forall_not_mem (b := Proc.devRef .tc r) _ _ fun op hop => by
    obtain ⟨ops, hops, hop'⟩ := List.mem_flatten.mp hop
    exact (List.forall_iff_forall_mem.mp ((List.forall_iff_forall_mem.mp pre_keeps) ops hops)) op hop' r hr

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preStretches [hostOps1] pre_sub hostOps_fresh main_chain

theorem hostOps1_fresh : (hostOps1 : List (HloOp τ sig (Elt F))).Forall fun op => op.fresh = ∅ := by
  simp only [List.Forall]; repeat' constructor

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem hostOps1_writes : (hostOps1 : List (HloOp τ sig (Elt F))).Forall fun op =>
    op.writes ⊆ (([main_v707, main_v708, main_v709, main_v710] : List (Ref sig .tc)).map (Proc.devRef (τ := τ) .tc)).toFinset := by
  simp only [List.Forall, hostOps1, StableHlo.unary_writes, StableHlo.reshape_writes, List.map_cons, List.map_nil, List.toFinset_cons,
    List.toFinset_nil, Finset.singleton_subset_iff, Finset.mem_insert, Finset.mem_singleton, true_or, or_true, and_self]

theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  obtain ⟨y, hy, he⟩ := List.mem_map.mp (List.mem_toFinset.mp ((List.forall_iff_forall_mem.mp hostOps1_writes) op hop hmem))
  have e : y = Pipeline.arrRef spec0 w := Proc.devRef_injective _ he
  subst e
  exact (by decide : ∀ w, Pipeline.arrRef spec0 w ∉ ([main_v707, main_v708, main_v709, main_v710] : List (Ref sig .tc))) w hy

theorem V_main_arg0 (c : Dev nD) : V m c main_arg0 = m ((c : Thread nD τ).loc main_arg0) := V_of_lt m c main_arg0 (by decide)
theorem V_main_arg1 (c : Dev nD) : V m c main_arg1 = m ((c : Thread nD τ).loc main_arg1) := V_of_lt m c main_arg1 (by decide)
theorem V_main_arg2 (c : Dev nD) : V m c main_arg2 = m ((c : Thread nD τ).loc main_arg2) := V_of_lt m c main_arg2 (by decide)
theorem V_main_arg3 (c : Dev nD) : V m c main_arg3 = m ((c : Thread nD τ).loc main_arg3) := V_of_lt m c main_arg3 (by decide)
theorem V_main_arg4 (c : Dev nD) : V m c main_arg4 = m ((c : Thread nD τ).loc main_arg4) := V_of_lt m c main_arg4 (by decide)
theorem V_main_arg5 (c : Dev nD) : V m c main_arg5 = m ((c : Thread nD τ).loc main_arg5) := V_of_lt m c main_arg5 (by decide)
theorem V_main_arg6 (c : Dev nD) : V m c main_arg6 = m ((c : Thread nD τ).loc main_arg6) := V_of_lt m c main_arg6 (by decide)

theorem W_of_lt (dats : (p : Fin _) → (c : Dev nD) → Dat τ (Elt F) Unit ℕ (UR sig nD τ) ℕ (cfgs p) c) (c : Dev nD) (r : Ref sig .tc)
    (hr : r ∉ ([main_v707, main_v708, main_v709, main_v710] : List (Ref sig .tc))) (ha : ∀ w, Pipeline.arrRef spec0 w ≠ r) :
    Pipeline.afterTail₀ cfgs dats 0 (V0 m) [hostOps1] c r = V m c r := by
  unfold Pipeline.afterTail₀
  rw [List.flatten_cons, List.flatten_nil, List.append_nil, StableHlo.after_of_writes_sub hostOps1 _ hostOps1_writes hr,
    Pipeline.withArrays_of_ne _ c (V0 m c) _ r ha]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_lt m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_lt m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_lt m dats c main_arg2 (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_lt m dats c main_arg3 (by decide) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_lt m dats c main_arg4 (by decide) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_lt m dats c main_arg5 (by decide) (by decide)).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_lt m dats c main_arg6 (by decide) (by decide)).trans (V_main_arg6 m c)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KIBase.lean ====
import proofs.«416388_j86139864089342_3_alg».proof.Proof.Gen.KernelIdeal.Launch
import proofs.«416388_j86139864089342_3_alg».proof.Proof.Gen.KernelIdeal.Skeleton
import proofs.«416388_j86139864089342_3_alg».proof.Proof.Gen.KernelIdeal.Points

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev preStretches : List (List (HloOp τ sig (Elt F))) :=
  [ hostOps0,
    hostOps0_1,
    hostOps0_2,
    hostOps0_3,
    hostOps0_4,
    hostOps0_5,
    hostOps0_6,
    hostOps0_7,
    hostOps0_8,
    hostOps0_9,
    hostOps0_10,
    hostOps0_11,
    hostOps0_12,
    hostOps0_13,
    hostOps0_14,
    hostOps0_15,
    hostOps0_16,
    hostOps0_17,
    hostOps0_18,
    hostOps0_19,
    hostOps0_20,
    hostOps0_21,
    hostOps0_22,
    hostOps0_23,
    hostOps0_24,
    hostOps0_25,
    hostOps0_26,
    hostOps0_27,
    hostOps0_28,
    hostOps0_29,
    hostOps0_30,
    hostOps0_31,
    hostOps0_32,
    hostOps0_33,
    hostOps0_34,
    hostOps0_35,
    hostOps0_36,
    hostOps0_37,
    hostOps0_38,
    hostOps0_39,
    hostOps0_40,
    hostOps0_41,
    hostOps0_42,
    hostOps0_43,
    hostOps0_44,
    hostOps0_45,
    hostOps0_46,
    hostOps0_47,
    hostOps0_48,
    hostOps0_49,
    hostOps0_50,
    hostOps0_51,
    hostOps0_52,
    hostOps0_53,
    hostOps0_54,
    hostOps0_55,
    hostOps0_56,
    hostOps0_57,
    hostOps0_58,
    hostOps0_59,
    hostOps0_60,
    hostOps0_61,
    hostOps0_62,
    hostOps0_63,
    hostOps0_64,
    hostOps0_65,
    hostOps0_66,
    hostOps0_67,
    hostOps0_68,
    hostOps0_69,
    hostOps0_70,
    hostOps0_71,
    hostOps0_72,
    hostOps0_73,
    hostOps0_74,
    hostOps0_75,
    hostOps0_76,
    hostOps0_77,
    hostOps0_78,
    hostOps0_79,
    hostOps0_80,
    hostOps0_81,
    hostOps0_82,
    hostOps0_83,
    hostOps0_84,
    hostOps0_85,
    hostOps0_86,
    hostOps0_87,
    hostOps0_88,
    hostOps0_89,
    hostOps0_90,
    hostOps0_91,
    hostOps0_92,
    hostOps0_93,
    hostOps0_94,
    hostOps0_95,
    hostOps0_96,
    hostOps0_97,
    hostOps0_98,
    hostOps0_99,
    hostOps0_100,
    hostOps0_101,
    hostOps0_102,
    hostOps0_103,
    hostOps0_104,
    hostOps0_105,
    hostOps0_106,
    hostOps0_107,
    hostOps0_108,
    hostOps0_109,
    hostOps0_110,
    hostOps0_111,
    hostOps0_112,
    hostOps0_113,
    hostOps0_114,
    hostOps0_115,
    hostOps0_116,
    hostOps0_117,
    hostOps0_118,
    hostOps0_119,
    hostOps0_120,
    hostOps0_121,
    hostOps0_122,
    hostOps0_123,
    hostOps0_124,
    hostOps0_125,
    hostOps0_126,
    hostOps0_127,
    hostOps0_128,
    hostOps0_129,
    hostOps0_130,
    hostOps0_131,
    hostOps0_132,
    hostOps0_133,
    hostOps0_134,
    hostOps0_135,
    hostOps0_136,
    hostOps0_137,
    hostOps0_138,
    hostOps0_139,
    hostOps0_140,
    hostOps0_141,
    hostOps0_142,
    hostOps0_143,
    hostOps0_144,
    hostOps0_145,
    hostOps0_146,
    hostOps0_147,
    hostOps0_148,
    hostOps0_149,
    hostOps0_150,
    hostOps0_151,
    hostOps0_152,
    hostOps0_153,
    hostOps0_154,
    hostOps0_155,
    hostOps0_156,
    hostOps0_157,
    hostOps0_158,
    hostOps0_159,
    hostOps0_160,
    hostOps0_161,
    hostOps0_162,
    hostOps0_163,
    hostOps0_164,
    hostOps0_165,
    hostOps0_166,
    hostOps0_167,
    hostOps0_168,
    hostOps0_169,
    hostOps0_170,
    hostOps0_171,
    hostOps0_172,
    hostOps0_173,
    hostOps0_174,
    hostOps0_175,
    hostOps0_176,
    hostOps0_177,
    hostOps0_178,
    hostOps0_179,
    hostOps0_180,
    hostOps0_181,
    hostOps0_182,
    hostOps0_183,
    hostOps0_184,
    hostOps0_185,
    hostOps0_186,
    hostOps0_187,
    hostOps0_188,
    hostOps0_189,
    hostOps0_190,
    hostOps0_191,
    hostOps0_192,
    hostOps0_193,
    hostOps0_194,
    hostOps0_195,
    hostOps0_196,
    hostOps0_197,
    hostOps0_198,
    hostOps0_199,
    hostOps0_200 ]

variable (m : (ℓ : Loc nD τ sig) → Buf (Elt F) ℓ)

noncomputable abbrev V0 (c : Dev nD) : Valuation τ sig (Elt F) := StableHlo.after (List.flatten preStretches) (fun b => m (c, b))

noncomputable abbrev V (c : Dev nD) (b : Ref sig .tc) : Buf (Elt F) ((c : Thread nD τ).loc b) := V0 m c (Proc.devRef .tc b)

end Cert.KernelIdeal.Hand

end
-- ==== Proof.KIBody.lean ====
import proofs.«416388_j86139864089342_3_alg».proof.Proof.KIBase
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S21x12800 := Rect.unit (s := S21x12800) ![0, 0] S21x12800.size inb_S21x12800_S21x12800_0_0
abbrev r0_1 : Rect S15x7x12800 := Rect.unit (s := S15x7x12800) ![0, 0, 0] S1x7x12800.size inb_S15x7x12800_S1x7x12800_0_0_0
abbrev r0_2 : Rect S15x7x12800 := Rect.unit (s := S15x7x12800) ![1, 0, 0] S1x7x12800.size inb_S15x7x12800_S1x7x12800_1_0_0
abbrev r0_3 : Rect S15x7x12800 := Rect.unit (s := S15x7x12800) ![2, 0, 0] S1x7x12800.size inb_S15x7x12800_S1x7x12800_2_0_0
abbrev r0_4 : Rect S15x7x12800 := Rect.unit (s := S15x7x12800) ![3, 0, 0] S1x7x12800.size inb_S15x7x12800_S1x7x12800_3_0_0
abbrev r0_5 : Rect S15x7x12800 := Rect.unit (s := S15x7x12800) ![4, 0, 0] S1x7x12800.size inb_S15x7x12800_S1x7x12800_4_0_0
abbrev r0_6 : Rect S15x7x12800 := Rect.unit (s := S15x7x12800) ![5, 0, 0] S1x7x12800.size inb_S15x7x12800_S1x7x12800_5_0_0
abbrev r0_7 : Rect S15x7x12800 := Rect.unit (s := S15x7x12800) ![6, 0, 0] S1x7x12800.size inb_S15x7x12800_S1x7x12800_6_0_0
abbrev r0_8 : Rect S15x7x12800 := Rect.unit (s := S15x7x12800) ![7, 0, 0] S1x7x12800.size inb_S15x7x12800_S1x7x12800_7_0_0
abbrev r0_9 : Rect S15x7x12800 := Rect.unit (s := S15x7x12800) ![8, 0, 0] S1x7x12800.size inb_S15x7x12800_S1x7x12800_8_0_0
abbrev r0_10 : Rect S15x7x12800 := Rect.unit (s := S15x7x12800) ![9, 0, 0] S1x7x12800.size inb_S15x7x12800_S1x7x12800_9_0_0
abbrev r0_11 : Rect S15x7x12800 := Rect.unit (s := S15x7x12800) ![10, 0, 0] S1x7x12800.size inb_S15x7x12800_S1x7x12800_10_0_0
abbrev r0_12 : Rect S15x7x12800 := Rect.unit (s := S15x7x12800) ![11, 0, 0] S1x7x12800.size inb_S15x7x12800_S1x7x12800_11_0_0
abbrev r0_13 : Rect S15x7x12800 := Rect.unit (s := S15x7x12800) ![12, 0, 0] S1x7x12800.size inb_S15x7x12800_S1x7x12800_12_0_0
abbrev r0_14 : Rect S15x7x12800 := Rect.unit (s := S15x7x12800) ![13, 0, 0] S1x7x12800.size inb_S15x7x12800_S1x7x12800_13_0_0
abbrev r0_15 : Rect S15x7x12800 := Rect.unit (s := S15x7x12800) ![14, 0, 0] S1x7x12800.size inb_S15x7x12800_S1x7x12800_14_0_0
abbrev r0_16 : Rect S20x12800 := Rect.unit (s := S20x12800) ![0, 0] S20x12800.size inb_S20x12800_S20x12800_0_0
abbrev r0_17 : Rect S1x12800 := Rect.unit (s := S1x12800) ![0, 0] S1x12800.size inb_S1x12800_S1x12800_0_0
abbrev r0_18 : Rect S15x7x12800 := Rect.unit (s := S15x7x12800) ![0, 0, 0] S1x1x12800.size inb_S15x7x12800_S1x1x12800_0_0_0
abbrev r0_19 : Rect S15x7x12800 := Rect.unit (s := S15x7x12800) ![0, 1, 0] S1x6x12800.size inb_S15x7x12800_S1x6x12800_0_1_0

def out0_3 (x0 : Vec F S21x12800 .i32) : Vec F S15x7x12800 .i32 :=
  View.canon [⟨r0_15, k0_pay24 (k0_pay7 (View.ld x0 r0_0))⟩,
    ⟨r0_14, k0_pay23 (k0_pay7 (View.ld x0 r0_0))⟩,
    ⟨r0_13, k0_pay22 (k0_pay7 (View.ld x0 r0_0))⟩,
    ⟨r0_12, k0_pay21 (k0_pay7 (View.ld x0 r0_0))⟩,
    ⟨r0_11, k0_pay20 (k0_pay19 (k0_pay7 (View.ld x0 r0_0)))⟩,
    ⟨r0_10, k0_pay18 (k0_pay7 (View.ld x0 r0_0))⟩,
    ⟨r0_9, k0_pay17 (k0_pay7 (View.ld x0 r0_0))⟩,
    ⟨r0_8, k0_pay16 (k0_pay7 (View.ld x0 r0_0))⟩,
    ⟨r0_7, k0_pay15 (k0_pay7 (View.ld x0 r0_0))⟩,
    ⟨r0_6, k0_pay14 (k0_pay7 (View.ld x0 r0_0))⟩,
    ⟨r0_5, k0_pay13 (k0_pay7 (View.ld x0 r0_0))⟩,
    ⟨r0_4, k0_pay12 (k0_pay7 (View.ld x0 r0_0))⟩,
    ⟨r0_3, k0_pay11 (k0_pay10 (View.ld x0 r0_0))⟩,
    ⟨r0_2, k0_pay9 (View.ld x0 r0_0)⟩,
    ⟨r0_1, k0_pay8 (View.ld x0 r0_0)⟩]

theorem cover0_3 (p0 : Vec F S1x7x12800 .i32) (p1 : Vec F S1x7x12800 .i32) (p2 : Vec F S1x7x12800 .i32) (p3 : Vec F S1x7x12800 .i32) (p4 : Vec F S1x7x12800 .i32) (p5 : Vec F S1x7x12800 .i32) (p6 : Vec F S1x7x12800 .i32) (p7 : Vec F S1x7x12800 .i32) (p8 : Vec F S1x7x12800 .i32) (p9 : Vec F S1x7x12800 .i32) (p10 : Vec F S1x7x12800 .i32) (p11 : Vec F S1x7x12800 .i32) (p12 : Vec F S1x7x12800 .i32) (p13 : Vec F S1x7x12800 .i32) (p14 : Vec F S1x7x12800 .i32) (y : S15x7x12800.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩] : List (View.Piece (Elt F) S15x7x12800 .i32)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_1, p14⟩] S1x7x12800.size (by rfl) y

def out0_4 (x1 : Vec F S20x12800 .f32) (x2 : Vec F S1x12800 .i32) : Vec F S15x7x12800 .i32 :=
  View.canon [⟨r0_15, k0_pay6 (k0_pay28 k0_pay26 (k0_pay27 (View.ld x1 r0_16)))⟩,
    ⟨r0_14, k0_pay5 (k0_pay28 k0_pay26 (k0_pay27 (View.ld x1 r0_16)))⟩,
    ⟨r0_13, k0_pay4 (k0_pay28 k0_pay26 (k0_pay27 (View.ld x1 r0_16)))⟩,
    ⟨r0_12, k0_pay3 (k0_pay28 k0_pay26 (k0_pay27 (View.ld x1 r0_16)))⟩,
    ⟨r0_11, k0_pay2 (k0_pay28 k0_pay26 (k0_pay27 (View.ld x1 r0_16)))⟩,
    ⟨r0_10, k0_pay1 (k0_pay40 (k0_pay28 k0_pay26 (k0_pay27 (View.ld x1 r0_16))))⟩,
    ⟨r0_9, k0_pay39 (k0_pay28 k0_pay26 (k0_pay27 (View.ld x1 r0_16)))⟩,
    ⟨r0_8, k0_pay38 (k0_pay28 k0_pay26 (k0_pay27 (View.ld x1 r0_16)))⟩,
    ⟨r0_7, k0_pay37 (k0_pay28 k0_pay26 (k0_pay27 (View.ld x1 r0_16)))⟩,
    ⟨r0_6, k0_pay36 (k0_pay28 k0_pay26 (k0_pay27 (View.ld x1 r0_16)))⟩,
    ⟨r0_5, k0_pay35 (k0_pay28 k0_pay26 (k0_pay27 (View.ld x1 r0_16)))⟩,
    ⟨r0_4, k0_pay34 (k0_pay28 k0_pay26 (k0_pay27 (View.ld x1 r0_16)))⟩,
    ⟨r0_3, k0_pay33 (k0_pay32 k0_pay26 (k0_pay27 (View.ld x1 r0_16)))⟩,
    ⟨r0_2, k0_pay31 k0_pay26 (k0_pay27 (View.ld x1 r0_16))⟩,
    ⟨r0_19, k0_pay30 k0_pay26 (k0_pay27 (View.ld x1 r0_16))⟩,
    ⟨r0_18, k0_pay29 (k0_pay25 (View.ld x2 r0_17))⟩]

theorem cover0_4 (p0 : Vec F S1x7x12800 .i32) (p1 : Vec F S1x7x12800 .i32) (p2 : Vec F S1x7x12800 .i32) (p3 : Vec F S1x7x12800 .i32) (p4 : Vec F S1x7x12800 .i32) (p5 : Vec F S1x7x12800 .i32) (p6 : Vec F S1x7x12800 .i32) (p7 : Vec F S1x7x12800 .i32) (p8 : Vec F S1x7x12800 .i32) (p9 : Vec F S1x7x12800 .i32) (p10 : Vec F S1x7x12800 .i32) (p11 : Vec F S1x7x12800 .i32) (p12 : Vec F S1x7x12800 .i32) (p13 : Vec F S1x7x12800 .i32) (p14 : Vec F S1x6x12800 .i32) (p15 : Vec F S1x1x12800 .i32) (y : S15x7x12800.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_19, p14⟩, ⟨r0_18, p15⟩] : List (View.Piece (Elt F) S15x7x12800 .i32)), y ∈ pc.1.set :=
  View.cover_of_tiledBy [⟨r0_15, p0⟩, ⟨r0_14, p1⟩, ⟨r0_13, p2⟩, ⟨r0_12, p3⟩, ⟨r0_11, p4⟩, ⟨r0_10, p5⟩, ⟨r0_9, p6⟩, ⟨r0_8, p7⟩, ⟨r0_7, p8⟩, ⟨r0_6, p9⟩, ⟨r0_5, p10⟩, ⟨r0_4, p11⟩, ⟨r0_3, p12⟩, ⟨r0_2, p13⟩, ⟨r0_19, p14⟩, ⟨r0_18, p15⟩] ![1, 1, 12800] (by sl_kernel_rfl) y

set_option maxHeartbeats 4000000 in

theorem sound_kernel (c : Dev nD) (E : Set ℕ) (i : grid0.Coords) (arg1 : Memref sig .tc .vmem S21x12800 .i32) (harg1 : arg1.IsWhole) (arg2 : Memref sig .tc .vmem S20x12800 .f32) (harg2 : arg2.IsWhole) (arg3 : Memref sig .tc .vmem S1x12800 .i32) (harg3 : arg3.IsWhole) (arg4 : Memref sig .tc .vmem S15x7x12800 .i32) (harg4 : arg4.IsWhole) (arg5 : Memref sig .tc .vmem S15x7x12800 .i32) (harg5 : arg5.IsWhole)
    (x0 : Vec F S21x12800 .i32) (x1 : Vec F S20x12800 .f32) (x2 : Vec F S1x12800 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0) ∗ owns (c : Thread nD τ) arg5 fullShare (out0_4 x1 x2)) -∗ K ⟨⟩))
      ⊢ wp frame (wpE (defs₀ (F := F)) Variants.none c none) E (cc0__fused_window_kernel i arg1 harg1 arg2 harg2 arg3 harg3 arg4 harg4 arg5 harg5) K := by
  simp only [cc0__fused_window_kernel_eq_skeleton]; unfold cc0__fused_window_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _ _ _ _ _ _ _ _ _ _ _ _ _ _ _)
  iexists _; isplitr
  swap; · iexact H4
  ipureintro
  try dsimp only
  exact View.read_writes_eq_canon _ _ _ (cover0_4 _ _ _ _ _ _ _ _ _ _ _ _ _ _ _ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t)
    | ⟨4, _⟩ => out0_4 (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 1 t) (iblk m c 2 t) := by dsimp only [dats]

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrame.lean ====
import proofs.«416388_j86139864089342_3_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem pre_sub : (preStretches (F := F)).Forall fun ops => ops.Forall fun op => op.bufs ⊆ StableHlo.tcRefs τ sig :=
  ⟨
    hostOps0_sub, hostOps0_1_sub, hostOps0_2_sub, hostOps0_3_sub, hostOps0_4_sub, hostOps0_5_sub,
    hostOps0_6_sub, hostOps0_7_sub, hostOps0_8_sub, hostOps0_9_sub, hostOps0_10_sub, hostOps0_11_sub,
    hostOps0_12_sub, hostOps0_13_sub, hostOps0_14_sub, hostOps0_15_sub, hostOps0_16_sub, hostOps0_17_sub,
    hostOps0_18_sub, hostOps0_19_sub, hostOps0_20_sub, hostOps0_21_sub, hostOps0_22_sub, hostOps0_23_sub,
    hostOps0_24_sub, hostOps0_25_sub, hostOps0_26_sub, hostOps0_27_sub, hostOps0_28_sub, hostOps0_29_sub,
    hostOps0_30_sub, hostOps0_31_sub, hostOps0_32_sub, hostOps0_33_sub, hostOps0_34_sub, hostOps0_35_sub,
    hostOps0_36_sub, hostOps0_37_sub, hostOps0_38_sub, hostOps0_39_sub, hostOps0_40_sub, hostOps0_41_sub,
    hostOps0_42_sub, hostOps0_43_sub, hostOps0_44_sub, hostOps0_45_sub, hostOps0_46_sub, hostOps0_47_sub,
    hostOps0_48_sub, hostOps0_49_sub, hostOps0_50_sub, hostOps0_51_sub, hostOps0_52_sub, hostOps0_53_sub,
    hostOps0_54_sub, hostOps0_55_sub, hostOps0_56_sub, hostOps0_57_sub, hostOps0_58_sub, hostOps0_59_sub,
    hostOps0_60_sub, hostOps0_61_sub, hostOps0_62_sub, hostOps0_63_sub, hostOps0_64_sub, hostOps0_65_sub,
    hostOps0_66_sub, hostOps0_67_sub, hostOps0_68_sub, hostOps0_69_sub, hostOps0_70_sub, hostOps0_71_sub,
    hostOps0_72_sub, hostOps0_73_sub, hostOps0_74_sub, hostOps0_75_sub, hostOps0_76_sub, hostOps0_77_sub,
    hostOps0_78_sub, hostOps0_79_sub, hostOps0_80_sub, hostOps0_81_sub, hostOps0_82_sub, hostOps0_83_sub,
    hostOps0_84_sub, hostOps0_85_sub, hostOps0_86_sub, hostOps0_87_sub, hostOps0_88_sub, hostOps0_89_sub,
    hostOps0_90_sub, hostOps0_91_sub, hostOps0_92_sub, hostOps0_93_sub, hostOps0_94_sub, hostOps0_95_sub,
    hostOps0_96_sub, hostOps0_97_sub, hostOps0_98_sub, hostOps0_99_sub, hostOps0_100_sub, hostOps0_101_sub,
    hostOps0_102_sub, hostOps0_103_sub, hostOps0_104_sub, hostOps0_105_sub, hostOps0_106_sub, hostOps0_107_sub,
    hostOps0_108_sub, hostOps0_109_sub, hostOps0_110_sub, hostOps0_111_sub, hostOps0_112_sub, hostOps0_113_sub,
    hostOps0_114_sub, hostOps0_115_sub, hostOps0_116_sub, hostOps0_117_sub, hostOps0_118_sub, hostOps0_119_sub,
    hostOps0_120_sub, hostOps0_121_sub, hostOps0_122_sub, hostOps0_123_sub, hostOps0_124_sub, hostOps0_125_sub,
    hostOps0_126_sub, hostOps0_127_sub, hostOps0_128_sub, hostOps0_129_sub, hostOps0_130_sub, hostOps0_131_sub,
    hostOps0_132_sub, hostOps0_133_sub, hostOps0_134_sub, hostOps0_135_sub, hostOps0_136_sub, hostOps0_137_sub,
    hostOps0_138_sub, hostOps0_139_sub, hostOps0_140_sub, hostOps0_141_sub, hostOps0_142_sub, hostOps0_143_sub,
    hostOps0_144_sub, hostOps0_145_sub, hostOps0_146_sub, hostOps0_147_sub, hostOps0_148_sub, hostOps0_149_sub,
    hostOps0_150_sub, hostOps0_151_sub, hostOps0_152_sub, hostOps0_153_sub, hostOps0_154_sub, hostOps0_155_sub,
    hostOps0_156_sub, hostOps0_157_sub, hostOps0_158_sub, hostOps0_159_sub, hostOps0_160_sub, hostOps0_161_sub,
    hostOps0_162_sub, hostOps0_163_sub, hostOps0_164_sub, hostOps0_165_sub, hostOps0_166_sub, hostOps0_167_sub,
    hostOps0_168_sub, hostOps0_169_sub, hostOps0_170_sub, hostOps0_171_sub, hostOps0_172_sub, hostOps0_173_sub,
    hostOps0_174_sub, hostOps0_175_sub, hostOps0_176_sub, hostOps0_177_sub, hostOps0_178_sub, hostOps0_179_sub,
    hostOps0_180_sub, hostOps0_181_sub, hostOps0_182_sub, hostOps0_183_sub, hostOps0_184_sub, hostOps0_185_sub,
    hostOps0_186_sub, hostOps0_187_sub, hostOps0_188_sub, hostOps0_189_sub, hostOps0_190_sub, hostOps0_191_sub,
    hostOps0_192_sub, hostOps0_193_sub, hostOps0_194_sub, hostOps0_195_sub, hostOps0_196_sub, hostOps0_197_sub,
    hostOps0_198_sub, hostOps0_199_sub, hostOps0_200_sub⟩

theorem hostOps_fresh : (preStretches (F := F)).Forall fun ops => ops.Forall fun op => op.fresh = ∅ := by
  simp only [List.Forall]
  repeat' apply And.intro
  all_goals rfl

def KeepsArgs (op : HloOp τ sig (Elt F)) : Prop :=
  ∀ r : Ref sig .tc, r.idx.val < 7 → Proc.devRef (τ := τ) .tc r ∉ op.writes

theorem keepsArgs_of_writes {op : HloOp τ sig (Elt F)} {y : Ref sig .tc} (hw : op.writes = {Proc.devRef (τ := τ) .tc y})
    (hy : 7 ≤ y.idx.val) : KeepsArgs op := fun r hr hmem => by
  rw [hw, Finset.mem_singleton] at hmem
  have e := Proc.devRef_injective _ hmem
  subst e
  omega

theorem pre_keeps : (preStretches (F := F)).Forall fun ops => ops.Forall KeepsArgs := by
  simp only [List.Forall]
  repeat' apply And.intro
  all_goals exact keepsArgs_of_writes rfl (by decide)

variable (m : (ℓ : Loc nD τ sig) → Buf (Elt F) ℓ) (ρ : Dev nD → PrngReg)

theorem V_of_lt (c : Dev nD) (r : Ref sig .tc) (hr : r.idx.val < 7) : V m c r = m ((c : Thread nD τ).loc r) :=
  StableHlo.after_of_forall_not_mem (b := Proc.devRef .tc r) _ _ fun op hop => by
    obtain ⟨ops, hops, hop'⟩ := List.mem_flatten.mp hop
    exact (List.forall_iff_forall_mem.mp ((List.forall_iff_forall_mem.mp pre_keeps) ops hops)) op hop' r hr

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preStretches [hostOps1] pre_sub hostOps_fresh main_chain

theorem hostOps1_fresh : (hostOps1 : List (HloOp τ sig (Elt F))).Forall fun op => op.fresh = ∅ := by
  simp only [List.Forall]; repeat' constructor

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem hostOps1_writes : (hostOps1 : List (HloOp τ sig (Elt F))).Forall fun op =>
    op.writes ⊆ (([main_v707, main_v708, main_v709, main_v710] : List (Ref sig .tc)).map (Proc.devRef (τ := τ) .tc)).toFinset := by
  simp only [List.Forall, hostOps1, StableHlo.unary_writes, StableHlo.reshape_writes, List.map_cons, List.map_nil, List.toFinset_cons,
    List.toFinset_nil, Finset.singleton_subset_iff, Finset.mem_insert, Finset.mem_singleton, true_or, or_true, and_self]

theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  obtain ⟨y, hy, he⟩ := List.mem_map.mp (List.mem_toFinset.mp ((List.forall_iff_forall_mem.mp hostOps1_writes) op hop hmem))
  have e : y = Pipeline.arrRef spec0 w := Proc.devRef_injective _ he
  subst e
  exact (by decide : ∀ w, Pipeline.arrRef spec0 w ∉ ([main_v707, main_v708, main_v709, main_v710] : List (Ref sig .tc))) w hy

theorem V_main_arg0 (c : Dev nD) : V m c main_arg0 = m ((c : Thread nD τ).loc main_arg0) := V_of_lt m c main_arg0 (by decide)
theorem V_main_arg1 (c : Dev nD) : V m c main_arg1 = m ((c : Thread nD τ).loc main_arg1) := V_of_lt m c main_arg1 (by decide)
theorem V_main_arg2 (c : Dev nD) : V m c main_arg2 = m ((c : Thread nD τ).loc main_arg2) := V_of_lt m c main_arg2 (by decide)
theorem V_main_arg3 (c : Dev nD) : V m c main_arg3 = m ((c : Thread nD τ).loc main_arg3) := V_of_lt m c main_arg3 (by decide)
theorem V_main_arg4 (c : Dev nD) : V m c main_arg4 = m ((c : Thread nD τ).loc main_arg4) := V_of_lt m c main_arg4 (by decide)
theorem V_main_arg5 (c : Dev nD) : V m c main_arg5 = m ((c : Thread nD τ).loc main_arg5) := V_of_lt m c main_arg5 (by decide)
theorem V_main_arg6 (c : Dev nD) : V m c main_arg6 = m ((c : Thread nD τ).loc main_arg6) := V_of_lt m c main_arg6 (by decide)

theorem W_of_lt (dats : (p : Fin _) → (c : Dev nD) → Dat τ (Elt F) Unit ℕ (UR sig nD τ) ℕ (cfgs p) c) (c : Dev nD) (r : Ref sig .tc)
    (hr : r ∉ ([main_v707, main_v708, main_v709, main_v710] : List (Ref sig .tc))) (ha : ∀ w, Pipeline.arrRef spec0 w ≠ r) :
    Pipeline.afterTail₀ cfgs dats 0 (V0 m) [hostOps1] c r = V m c r := by
  unfold Pipeline.afterTail₀
  rw [List.flatten_cons, List.flatten_nil, List.append_nil, StableHlo.after_of_writes_sub hostOps1 _ hostOps1_writes hr,
    Pipeline.withArrays_of_ne _ c (V0 m c) _ r ha]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_lt m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_lt m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_lt m dats c main_arg2 (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_lt m dats c main_arg3 (by decide) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_lt m dats c main_arg4 (by decide) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_lt m dats c main_arg5 (by decide) (by decide)).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_lt m dats c main_arg6 (by decide) (by decide)).trans (V_main_arg6 m c)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KIPay.lean ====
import proofs.«416388_j86139864089342_3_alg».proof.Proof.Spec
import proofs.«416388_j86139864089342_3_alg».proof.Proof.Gen.KernelIdeal.Skeleton
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen Cert.Walk

theorem off_word : ∀ p : Fin 21,
    Scalar.select (IntOp.cmpi .eq (IntOp.andi (BitVec.ofNat 32 p.val) 1#32) 1#32) 3550#32 0#32 = offOf p.val := by
  decide +kernel

theorem scale_word : ∀ q : Fin 20,
    Scalar.select (IntOp.cmpi .eq (IntOp.andi (BitVec.ofNat 32 q.val) 1#32) 0#32) 20000#32 3550#32 = scaleOf q.val := by
  decide +kernel

theorem off_tail_word : ∀ q : Fin 20,
    Scalar.select (IntOp.cmpi .eq (IntOp.andi (BitVec.ofNat 32 q.val) 1#32) 0#32) 3550#32 0#32 = offOf (q.val + 1) := by
  decide +kernel

def posAt (p : ℕ) (x : BitVec 32) : BitVec 32 := remap (clipD (IntOp.addi x (offOf p)))

def negCell (s : BitVec 32) (d : Fin 20 → Ideal .f32) (p : ℕ) : BitVec 32 :=
  if p = 0 then s
  else if hq : p - 1 < 20 then
    IntOp.addi (FloatOps.fptosi (F := Ideal) 32 (FloatOps.mulf (F := Ideal) (φ := .f32) (d ⟨p - 1, hq⟩)
      (FloatOps.sitofp (F := Ideal) .f32 (scaleOf (p - 1))))) (offOf p)
  else 0#32

theorem negRowG_eq (start : Fin 204800 → BitVec 32) (draw : Fin 204800 → Fin 20 → Ideal .f32) (p : ℕ) (w : Fin 204800) :
    negRowG start draw p w = negCell (start w) (draw w) p := rfl

theorem negCell_zero (s : BitVec 32) (d : Fin 20 → Ideal .f32) : negCell s d 0 = s := if_pos rfl

theorem negCell_succ (s : BitVec 32) (d : Fin 20 → Ideal .f32) (q : Fin 20) :
    negCell s d (q.val + 1) = IntOp.addi (FloatOps.fptosi (F := Ideal) 32 (FloatOps.mulf (F := Ideal) (φ := .f32) (d q)
      (FloatOps.sitofp (F := Ideal) .f32 (scaleOf q.val)))) (offOf (q.val + 1)) := by
  unfold negCell
  rw [if_neg (Nat.succ_ne_zero _), dif_pos (show q.val + 1 - 1 < 20 from by have := q.isLt; omega)]
  rfl

theorem pay7_apply (v0 : IVec S21x12800 32) (p : Fin 21) (l : Fin 12800) :
    k0_pay7 (F := Ideal) v0 (ix2 p l) = posAt p.val (v0 (ix2 p l)) := by
  unfold k0_pay7
  dsimp only
  rw [shapeCast_self]
  show remap (clipD (IntOp.addi (v0 (ix2 p l)) (Scalar.select (IntOp.cmpi .eq (IntOp.andi (iota .tc S21x12800 32 [0] iota_S21x12800_d0_w32 (ix2 p l)) 1#32) 1#32) 3550#32 0#32))) = _
  rw [iota_single_apply]
  exact congrArg (fun z => remap (clipD (IntOp.addi (v0 (ix2 p l)) z))) (off_word p)

theorem tail_apply (x1 : FVec Ideal S20x12800 .f32) (q : Fin 20) (l : Fin 12800) :
    k0_pay28 (F := Ideal) k0_pay26 (k0_pay27 x1) (ix2 q l)
      = remap (IntOp.addi (FloatOps.fptosi (F := Ideal) 32 (FloatOps.mulf (F := Ideal) (φ := .f32) (x1 (ix2 q l))
          (FloatOps.sitofp (F := Ideal) .f32 (scaleOf q.val)))) (offOf (q.val + 1))) := by
  unfold k0_pay28 k0_pay27 k0_pay26
  dsimp only
  rw [shapeCast_self]
  show remap (IntOp.addi (FloatOps.fptosi (F := Ideal) 32 (FloatOps.mulf (F := Ideal) (φ := .f32) (x1 (ix2 q l))
      (FloatOps.sitofp (F := Ideal) .f32 (Scalar.select (IntOp.cmpi .eq (IntOp.andi (iota .tc S20x12800 32 [0] iota_S20x12800_d0_w32 (ix2 q l)) 1#32) 0#32) 20000#32 3550#32))))
      (Scalar.select (IntOp.cmpi .eq (IntOp.andi (iota .tc S20x12800 32 [0] iota_S20x12800_d0_w32 (ix2 q l)) 1#32) 0#32) 3550#32 0#32)) = _
  rw [iota_single_apply, scale_word q, off_tail_word q]

theorem start_apply (x2 : IVec S1x12800 32) (z z' : Fin 1) (l : Fin 12800) :
    k0_pay29 (k0_pay25 (F := Ideal) x2) (ix3 z z' l) = remap (x2 (ix2 0 l)) := by
  unfold k0_pay29 k0_pay25
  dsimp only
  rw [shapeCast_self]
  refine (shapeCast_apply _ _ (ix3 z z' l) (ix2 0 l) ?_).trans rfl
  rw [Shape.rowMajor_val_two, Shape.rowMajor_val_three]
  show (0 : ℕ) * 12800 + l.val = (z.val * 1 + z'.val) * 12800 + l.val
  have := z.isLt; have := z'.isLt; omega

theorem slab_apply {α : Type} {N R n : ℕ} (k : ℕ) (v : (⟨2, ![N, n]⟩ : Shape).Idx → α)
    (hs : (⟨2, ![N, n]⟩ : Shape).Slices ![k, 0] ⟨2, ![R, n]⟩) (hc : (⟨2, ![R, n]⟩ : Shape).ShapeCasts ⟨3, ![1, R, n]⟩)
    (z : Fin 1) (r : Fin R) (l : Fin n) (h : k + r.val < N) :
    shapeCast ⟨3, ![1, R, n]⟩ (extractStridedSlice ⟨2, ![R, n]⟩ ![k, 0] v hs) hc (ix3 z r l) = v (ix2 ⟨k + r.val, h⟩ l) := by
  refine (shapeCast_apply _ hc (ix3 z r l) (ix2 r l) ?_).trans ?_
  · rw [Shape.rowMajor_val_two, Shape.rowMajor_val_three]
    show r.val * n + l.val = (z.val * R + r.val) * n + l.val
    have hz : z.val = 0 := by have := z.isLt; omega
    rw [hz, Nat.zero_mul, Nat.zero_add]
  · refine extractStridedSlice_apply _ v hs (ix2 r l) (ix2 ⟨k + r.val, h⟩ l) fun a => ?_
    match a with
    | ⟨0, _⟩ => rfl
    | ⟨1, _⟩ => show l.val = 0 + l.val; omega

def posWin {n : ℕ} (v : (⟨2, ![21, n]⟩ : Shape).Idx → BitVec 32) : (⟨3, ![15, 7, n]⟩ : Shape).Idx → BitVec 32 := fun y =>
  posAt ((y 0).val + (y 1).val)
    (v (ix2 ⟨(y 0).val + (y 1).val, by have h0 : (y 0).val < 15 := (y 0).isLt; have h1 : (y 1).val < 7 := (y 1).isLt; omega⟩
      ⟨(y 2).val, (y 2).isLt⟩))

def negWin {n : ℕ} (d : (⟨2, ![20, n]⟩ : Shape).Idx → Ideal .f32) (s : (⟨2, ![1, n]⟩ : Shape).Idx → BitVec 32) :
    (⟨3, ![15, 7, n]⟩ : Shape).Idx → BitVec 32 := fun y =>
  remap (negCell (s (ix2 0 ⟨(y 2).val, (y 2).isLt⟩)) (fun q => d (ix2 q ⟨(y 2).val, (y 2).isLt⟩)) ((y 0).val + (y 1).val))

theorem posWin_apply {n : ℕ} (v : (⟨2, ![21, n]⟩ : Shape).Idx → BitVec 32) (k : Fin 15) (c : Fin 7) (l : Fin n) (h : k.val + c.val < 21) :
    posWin v (ix3 k c l) = posAt (k.val + c.val) (v (ix2 ⟨k.val + c.val, h⟩ l)) := rfl

theorem negWin_apply {n : ℕ} (d : (⟨2, ![20, n]⟩ : Shape).Idx → Ideal .f32) (s : (⟨2, ![1, n]⟩ : Shape).Idx → BitVec 32)
    (k : Fin 15) (c : Fin 7) (l : Fin n) :
    negWin d s (ix3 k c l) = remap (negCell (s (ix2 0 l)) (fun q => d (ix2 q l)) (k.val + c.val)) := rfl

end Cert.KernelIdeal.Hand

end
-- ==== Proof.KIValuePos.lean ====
import proofs.«416388_j86139864089342_3_alg».proof.Proof.Spec
import proofs.«416388_j86139864089342_3_alg».proof.Proof.KIBody
import proofs.«416388_j86139864089342_3_alg».proof.Proof.KIPay
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Walk

variable (m : (ℓ : Loc nD τ sig) → Buf (Elt Ideal) ℓ)

def rowsOf (a : IVec S21x204800 32) : ℕ → IVec Cert.Walk.SW 32 := fun p j =>
  if h : p < 21 then a (ValueIdx.ix2 ⟨p, h⟩ (j 0)) else 0#32

def posArr (rwT : IVec S21x204800 32) : IVec S15x7x204800 32 := fun j =>
  Cert.Walk.remap (Cert.Walk.clipD (IntOp.addi (rowsOf rwT ((j 0).val + (j 1).val) (ValueIdx.ix1 ⟨(j 2).val, (j 2).isLt⟩))
    (Cert.Walk.offOf ((j 0).val + (j 1).val))))

theorem posArr_eq (rwT : IVec S21x204800 32) : posArr rwT = posWin (n := 204800) rwT := by
  funext j
  have h0 : (j 0).val < 15 := (j 0).isLt
  have h1 : (j 1).val < 7 := (j 1).isLt
  unfold posArr rowsOf
  rw [dif_pos (show (j 0).val + (j 1).val < 21 by omega)]
  rfl

theorem hz2 : (![0, 0] : Fin 2 → Nat) = fun _ => 0 := funext fun a => by fin_cases a <;> rfl

theorem pos_piece (k : ℕ) (hk : k + 7 ≤ 21) (x0 : IVec S21x12800 32) (hs : S21x12800.Slices ![k, 0] S7x12800)
    (hc : S7x12800.ShapeCasts S1x7x12800)
    (inb : ∀ a, (![k, 0, 0] : Fin 3 → ℕ) a + S1x7x12800.size a ≤ S15x7x12800.size a) (x : S1x7x12800.Idx) :
    shapeCast S1x7x12800 (extractStridedSlice S7x12800 ![k, 0] (k0_pay7 (F := Ideal) x0) hs) hc x
      = posWin (n := 12800) x0 ((Rect.unit (s := S15x7x12800) ![k, 0, 0] S1x7x12800.size inb).emb x) := by
  obtain ⟨z, r, l, rfl⟩ : ∃ (z : Fin 1) (r : Fin 7) (l : Fin 12800), x = ix3 z r l := ⟨x 0, x 1, x 2, eq_ix3 x⟩
  have hr : r.val < 7 := r.isLt
  have hz : z.val = 0 := by have := z.isLt; omega
  refine (slab_apply k _ hs hc z r l (by omega)).trans ?_
  refine (pay7_apply x0 ⟨k + r.val, by omega⟩ l).trans ?_
  have e : (Rect.unit (s := S15x7x12800) ![k, 0, 0] S1x7x12800.size inb).emb (ix3 z r l)
      = ix3 (⟨k, by omega⟩ : Fin 15) r l := by
    funext a; apply Fin.ext
    match a with
    | ⟨0, _⟩ => show k + 1 * z.val = k; omega
    | ⟨1, _⟩ => show 0 + 1 * r.val = r.val; omega
    | ⟨2, _⟩ => show 0 + 1 * l.val = l.val; omega
  rw [e]
  exact (posWin_apply x0 ⟨k, by omega⟩ r l (by show k + r.val < 21; omega)).symm

theorem out0_3_eq (x0 : IVec S21x12800 32) : out0_3 (F := Ideal) x0 = posWin (n := 12800) x0 := by
  funext y
  unfold out0_3
  rw [View.ld_unit_zero (S := S21x12800) hz2]
  refine View.canon_apply_of_pieces (posWin (n := 12800) x0) _ ?_ y (cover0_3 (F := Ideal) _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl
  · exact pos_piece 14 (by decide) x0 slices_S21x12800_o14_0_S7x12800 shapeCasts_S7x12800_S1x7x12800 inb_S15x7x12800_S1x7x12800_14_0_0 x
  · exact pos_piece 13 (by decide) x0 slices_S21x12800_o13_0_S7x12800 shapeCasts_S7x12800_S1x7x12800 inb_S15x7x12800_S1x7x12800_13_0_0 x
  · exact pos_piece 12 (by decide) x0 slices_S21x12800_o12_0_S7x12800 shapeCasts_S7x12800_S1x7x12800 inb_S15x7x12800_S1x7x12800_12_0_0 x
  · exact pos_piece 11 (by decide) x0 slices_S21x12800_o11_0_S7x12800 shapeCasts_S7x12800_S1x7x12800 inb_S15x7x12800_S1x7x12800_11_0_0 x
  · exact pos_piece 10 (by decide) x0 slices_S21x12800_o10_0_S7x12800 shapeCasts_S7x12800_S1x7x12800 inb_S15x7x12800_S1x7x12800_10_0_0 x
  · exact pos_piece 9 (by decide) x0 slices_S21x12800_o9_0_S7x12800 shapeCasts_S7x12800_S1x7x12800 inb_S15x7x12800_S1x7x12800_9_0_0 x
  · exact pos_piece 8 (by decide) x0 slices_S21x12800_o8_0_S7x12800 shapeCasts_S7x12800_S1x7x12800 inb_S15x7x12800_S1x7x12800_8_0_0 x
  · exact pos_piece 7 (by decide) x0 slices_S21x12800_o7_0_S7x12800 shapeCasts_S7x12800_S1x7x12800 inb_S15x7x12800_S1x7x12800_7_0_0 x
  · exact pos_piece 6 (by decide) x0 slices_S21x12800_o6_0_S7x12800 shapeCasts_S7x12800_S1x7x12800 inb_S15x7x12800_S1x7x12800_6_0_0 x
  · exact pos_piece 5 (by decide) x0 slices_S21x12800_o5_0_S7x12800 shapeCasts_S7x12800_S1x7x12800 inb_S15x7x12800_S1x7x12800_5_0_0 x
  · exact pos_piece 4 (by decide) x0 slices_S21x12800_o4_0_S7x12800 shapeCasts_S7x12800_S1x7x12800 inb_S15x7x12800_S1x7x12800_4_0_0 x
  · exact pos_piece 3 (by decide) x0 slices_S21x12800_o3_0_S7x12800 shapeCasts_S7x12800_S1x7x12800 inb_S15x7x12800_S1x7x12800_3_0_0 x
  · exact pos_piece 2 (by decide) x0 slices_S21x12800_o2_0_S7x12800 shapeCasts_S7x12800_S1x7x12800 inb_S15x7x12800_S1x7x12800_2_0_0 x
  · exact pos_piece 1 (by decide) x0 slices_S21x12800_o1_0_S7x12800 shapeCasts_S7x12800_S1x7x12800 inb_S15x7x12800_S1x7x12800_1_0_0 x
  · exact pos_piece 0 (by decide) x0 slices_S21x12800_o0_0_S7x12800 shapeCasts_S7x12800_S1x7x12800 inb_S15x7x12800_S1x7x12800_0_0_0 x

theorem idx_facts3 : ∀ t : Fin cfg0.N, win0_0.index t (0 : Fin 2) = 0 ∧ win0_0.index t (1 : Fin 2) = t.val
    ∧ win0_3.index t (0 : Fin 3) = 0 ∧ win0_3.index t (1 : Fin 3) = 0 ∧ win0_3.index t (2 : Fin 3) = t.val :=
  (by decide +kernel : ∀ t : Fin grid0.N, _)

theorem arr0_eq (c : Dev nD) : V m c (Pipeline.arrRef spec0 0) = V m c main_v700 := rfl

theorem blk0_read (a0 : IVec S21x204800 32) (t : Fin cfg0.N) (x : S21x12800.Idx) (k : S21x204800.Idx)
    (hk0 : (k 0).val = (x 0).val) (hk1 : (k 1).val = 12800 * t.val + (x 1).val) :
    (((cfg0.win 0).blk t).view.read (Elt Ideal) a0 : IVec S21x12800 32) x = a0 k := by
  obtain ⟨e0, e1, -⟩ := idx_facts3 t
  rw [View.read_apply]
  show a0 _ = a0 _
  congr 1
  funext a
  apply Fin.ext
  match a with
  | ⟨0, _⟩ => show win0_0.index t (0 : Fin 2) * 21 + 1 * (x 0).val = (k 0).val; rw [e0, hk0]; omega
  | ⟨1, _⟩ => show win0_0.index t (1 : Fin 2) * 12800 + 1 * (x 1).val = (k 1).val; rw [e1, hk1]; omega

theorem posWin_block (rwT : IVec S21x204800 32) (x0 : IVec S21x12800 32) (T : ℕ)
    (hx : ∀ (x : S21x12800.Idx) (k : S21x204800.Idx), (k 0).val = (x 0).val → (k 1).val = 12800 * T + (x 1).val → x0 x = rwT k)
    (y : S15x7x12800.Idx) (j : S15x7x204800.Idx) (hj0 : (j 0).val = (y 0).val) (hj1 : (j 1).val = (y 1).val)
    (hj2 : (j 2).val = 12800 * T + (y 2).val) :
    posWin (n := 12800) x0 y = posWin (n := 204800) rwT j := by
  unfold posWin
  have hp : (j 0).val + (j 1).val = (y 0).val + (y 1).val := by rw [hj0, hj1]
  rw [hx _ (ix2 ⟨(j 0).val + (j 1).val, by have h0 : (y 0).val < 15 := (y 0).isLt; have h1 : (y 1).val < 7 := (y 1).isLt; omega⟩
    ⟨(j 2).val, (j 2).isLt⟩) hp hj2]
  exact congrArg (fun p => posAt p _) hp.symm

theorem flushed3_eq (c : Dev nD) (t : Fin cfg0.N) :
    (dats (F := Ideal) m 0 c).flushed 3 t = ((cfg0.win 3).blk t).view.read (Elt Ideal) (posArr (V m c main_v700)) := by
  show (cfg0.win 3).cut (grid0.coords t) ((dats m 0 c).after 3 t) = _
  rw [after0_3, posArr_eq]
  obtain ⟨-, -, e0, e1, e2⟩ := idx_facts3 t
  show out0_3 (F := Ideal) (iblk m c 0 t) = _
  refine (out0_3_eq (iblk m c 0 t)).trans ?_
  funext y
  rw [View.read_apply]
  refine posWin_block (V m c main_v700) (iblk m c 0 t) t.val (fun x k h0 h1 => blk0_read (V m c main_v700) t x k h0 h1) y _ ?_ ?_ ?_
  · show win0_3.index t (0 : Fin 3) * 15 + 1 * (y 0).val = (y 0).val; rw [e0]; omega
  · show win0_3.index t (1 : Fin 3) * 7 + 1 * (y 1).val = (y 1).val; rw [e1]; omega
  · show win0_3.index t (2 : Fin 3) * 12800 + 1 * (y 2).val = 12800 * t.val + (y 2).val; rw [e2]; omega

theorem cover3 (i : S15x7x204800.Idx) :
    ∃ t : Fin cfg0.N, (cfg0.win 3).flush t = true ∧ i ∈ ((cfg0.win 3).blk t).view.set := by
  have h0 : (i 0).val < 15 := (i 0).isLt
  have h1 : (i 1).val < 7 := (i 1).isLt
  have h2 : (i 2).val < 204800 := (i 2).isLt
  have hN : cfg0.N = 16 := by decide
  let t : Fin cfg0.N := ⟨(i 2).val / 12800, by rw [hN]; omega⟩
  obtain ⟨-, -, e0, e1, e2⟩ := idx_facts3 t
  have e2' : win0_3.index t (2 : Fin 3) = (i 2).val / 12800 := e2
  refine ⟨t, flush0_3 t, ?_⟩
  show i ∈ ((View.whole main_v706_0).slice (win0_3.rect t)).set
  rw [View.set_slice_whole, Rect.mem_set_unit]
  intro a
  match a with
  | ⟨0, _⟩ => show win0_3.index t (0 : Fin 3) * 15 ≤ (i 0).val ∧ (i 0).val < win0_3.index t (0 : Fin 3) * 15 + 15; rw [e0]; omega
  | ⟨1, _⟩ => show win0_3.index t (1 : Fin 3) * 7 ≤ (i 1).val ∧ (i 1).val < win0_3.index t (1 : Fin 3) * 7 + 7; rw [e1]; omega
  | ⟨2, _⟩ => show win0_3.index t (2 : Fin 3) * 12800 ≤ (i 2).val ∧ (i 2).val < win0_3.index t (2 : Fin 3) * 12800 + 12800; rw [e2']; omega

theorem final3 (c : Dev nD) : (dats (F := Ideal) m 0 c).arrAt 3 cfg0.N = posArr (V m c main_v700) :=
  (dats (F := Ideal) m 0 c).arrAt_eq_of_cover 3 (posArr (V m c main_v700)) (fun t _ => flushed3_eq m c t) cover3

end Cert.KernelIdeal.Hand

end
-- ==== Proof.KIValueNeg.lean ====
import proofs.«416388_j86139864089342_3_alg».proof.Proof.KIPay
import proofs.«416388_j86139864089342_3_alg».proof.Proof.KIBody
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Walk

variable (m : (ℓ : Loc nD τ sig) → Buf (Elt Ideal) ℓ)

def negArr (negT : FVec Ideal S20x204800 .f32) (tb : IVec S1x204800 32) : IVec S15x7x204800 32 := fun j =>
  remap (negRowG (fun w => tb (ix2 0 w)) (fun w q => negT (ix2 q w)) ((j 0).val + (j 1).val) ⟨(j 2).val, (j 2).isLt⟩)

theorem negArr_eq_negWin (negT : FVec Ideal S20x204800 .f32) (tb : IVec S1x204800 32) : negArr negT tb = negWin negT tb := rfl

namespace Neg

theorem hz2 : (![0, 0] : Fin 2 → Nat) = fun _ => 0 := funext fun a => by fin_cases a <;> rfl

theorem idx_piece {R : ℕ} (k c0 : ℕ) (inb : ∀ a, (![k, c0, 0] : Fin 3 → ℕ) a + (![1, R, 12800] : Fin 3 → ℕ) a ≤ S15x7x12800.size a)
    (z : Fin 1) (r : Fin R) (l : Fin 12800) (hk : k < 15) (hc : c0 + r.val < 7) :
    (Rect.unit (s := S15x7x12800) ![k, c0, 0] ![1, R, 12800] inb).idx (ix3 z r l) = ix3 ⟨k, hk⟩ ⟨c0 + r.val, hc⟩ l := by
  funext a; apply Fin.ext
  match a with
  | ⟨0, _⟩ => show k + 1 * z.val = k; have := z.isLt; omega
  | ⟨1, _⟩ => show c0 + 1 * r.val = c0 + r.val; omega
  | ⟨2, _⟩ => show 0 + 1 * l.val = l.val; omega

theorem neg_slab (x1 : FVec Ideal S20x12800 .f32) (x2 : IVec S1x12800 32) {R : ℕ} (k c0 o : ℕ) (hko : k + c0 = o + 1)
    (hoR : o + R ≤ 20) (hk : k < 15) (hc0 : c0 + R ≤ 7)
    (hs : S20x12800.Slices ![o, 0] ⟨2, ![R, 12800]⟩) (hc : (⟨2, ![R, 12800]⟩ : Shape).ShapeCasts ⟨3, ![1, R, 12800]⟩)
    (z : Fin 1) (r : Fin R) (l : Fin 12800) :
    shapeCast ⟨3, ![1, R, 12800]⟩ (extractStridedSlice ⟨2, ![R, 12800]⟩ ![o, 0] (k0_pay28 (F := Ideal) k0_pay26 (k0_pay27 (View.ld x1 r0_16))) hs) hc (ix3 z r l)
      = negWin x1 x2 (ix3 ⟨k, hk⟩ ⟨c0 + r.val, by have := r.isLt; omega⟩ l) := by
  have hr : r.val < R := r.isLt
  have h : o + r.val < 20 := by omega
  rw [View.ld_unit_zero (S := S20x12800) hz2]
  refine (slab_apply o _ hs hc z r l h).trans ?_
  rw [tail_apply x1 ⟨o + r.val, h⟩ l, negWin_apply]
  have e : k + (c0 + r.val) = (⟨o + r.val, h⟩ : Fin 20).val + 1 := by show k + (c0 + r.val) = o + r.val + 1; omega
  rw [e, negCell_succ]

theorem neg_start (x1 : FVec Ideal S20x12800 .f32) (x2 : IVec S1x12800 32) (z r : Fin 1) (l : Fin 12800) :
    k0_pay29 (k0_pay25 (F := Ideal) (View.ld x2 r0_17)) (ix3 z r l)
      = negWin x1 x2 (ix3 ⟨0, by omega⟩ ⟨0 + r.val, by have := r.isLt; omega⟩ l) := by
  have hr : r.val < 1 := r.isLt
  rw [View.ld_unit_zero (S := S1x12800) hz2, start_apply, negWin_apply]
  have e : (0 : ℕ) + (0 + r.val) = 0 := by omega
  rw [e, negCell_zero]

theorem neg_block (x1 : FVec Ideal S20x12800 .f32) (x2 : IVec S1x12800 32) : out0_4 (F := Ideal) x1 x2 = negWin x1 x2 := by
  funext y
  unfold out0_4
  refine View.canon_apply_of_pieces (negWin x1 x2) _ ?_ y (cover0_4 (F := Ideal) _ _ _ _ _ _ _ _ _ _ _ _ _ _ _ _ y)
  intro pc hpc x
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 14 0 13 rfl (by omega) (by omega) (by omega) slices_S20x12800_o13_0_S7x12800 shapeCasts_S7x12800_S1x7x12800 z r l) ?_
    exact congrArg (negWin x1 x2) (idx_piece 14 0 inb_S15x7x12800_S1x7x12800_14_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 13 0 12 rfl (by omega) (by omega) (by omega) slices_S20x12800_o12_0_S7x12800 shapeCasts_S7x12800_S1x7x12800 z r l) ?_
    exact congrArg (negWin x1 x2) (idx_piece 13 0 inb_S15x7x12800_S1x7x12800_13_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 12 0 11 rfl (by omega) (by omega) (by omega) slices_S20x12800_o11_0_S7x12800 shapeCasts_S7x12800_S1x7x12800 z r l) ?_
    exact congrArg (negWin x1 x2) (idx_piece 12 0 inb_S15x7x12800_S1x7x12800_12_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 11 0 10 rfl (by omega) (by omega) (by omega) slices_S20x12800_o10_0_S7x12800 shapeCasts_S7x12800_S1x7x12800 z r l) ?_
    exact congrArg (negWin x1 x2) (idx_piece 11 0 inb_S15x7x12800_S1x7x12800_11_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 10 0 9 rfl (by omega) (by omega) (by omega) slices_S20x12800_o9_0_S7x12800 shapeCasts_S7x12800_S1x7x12800 z r l) ?_
    exact congrArg (negWin x1 x2) (idx_piece 10 0 inb_S15x7x12800_S1x7x12800_10_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 9 0 8 rfl (by omega) (by omega) (by omega) slices_S20x12800_o8_0_S7x12800 shapeCasts_S7x12800_S1x7x12800 z r l) ?_
    exact congrArg (negWin x1 x2) (idx_piece 9 0 inb_S15x7x12800_S1x7x12800_9_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 8 0 7 rfl (by omega) (by omega) (by omega) slices_S20x12800_o7_0_S7x12800 shapeCasts_S7x12800_S1x7x12800 z r l) ?_
    exact congrArg (negWin x1 x2) (idx_piece 8 0 inb_S15x7x12800_S1x7x12800_8_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 7 0 6 rfl (by omega) (by omega) (by omega) slices_S20x12800_o6_0_S7x12800 shapeCasts_S7x12800_S1x7x12800 z r l) ?_
    exact congrArg (negWin x1 x2) (idx_piece 7 0 inb_S15x7x12800_S1x7x12800_7_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 6 0 5 rfl (by omega) (by omega) (by omega) slices_S20x12800_o5_0_S7x12800 shapeCasts_S7x12800_S1x7x12800 z r l) ?_
    exact congrArg (negWin x1 x2) (idx_piece 6 0 inb_S15x7x12800_S1x7x12800_6_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 5 0 4 rfl (by omega) (by omega) (by omega) slices_S20x12800_o4_0_S7x12800 shapeCasts_S7x12800_S1x7x12800 z r l) ?_
    exact congrArg (negWin x1 x2) (idx_piece 5 0 inb_S15x7x12800_S1x7x12800_5_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 4 0 3 rfl (by omega) (by omega) (by omega) slices_S20x12800_o3_0_S7x12800 shapeCasts_S7x12800_S1x7x12800 z r l) ?_
    exact congrArg (negWin x1 x2) (idx_piece 4 0 inb_S15x7x12800_S1x7x12800_4_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 3 0 2 rfl (by omega) (by omega) (by omega) slices_S20x12800_o2_0_S7x12800 shapeCasts_S7x12800_S1x7x12800 z r l) ?_
    exact congrArg (negWin x1 x2) (idx_piece 3 0 inb_S15x7x12800_S1x7x12800_3_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 2 0 1 rfl (by omega) (by omega) (by omega) slices_S20x12800_o1_0_S7x12800 shapeCasts_S7x12800_S1x7x12800 z r l) ?_
    exact congrArg (negWin x1 x2) (idx_piece 2 0 inb_S15x7x12800_S1x7x12800_2_0_0 z r l (by omega) (by omega)).symm
  rcases List.mem_cons.mp hpc with rfl | hpc
  · obtain ⟨z, r, l, rfl⟩ : ∃ (z : Fin 1) (r : Fin 7) (l : Fin 12800), x = ix3 z r l := ⟨x 0, x 1, x 2, eq_ix3 x⟩
    have hr : r.val < 7 := r.isLt
    refine Eq.trans (neg_slab x1 x2 1 0 0 rfl (by omega) (by omega) (by omega) slices_S20x12800_o0_0_S7x12800 shapeCasts_S7x12800_S1x7x12800 z r l) ?_
    exact congrArg (negWin x1 x2) (idx_piece 1 0 inb_S15x7x12800_S1x7x12800_1_0_0 z r l (by omega) (by omega)).symm
  rcases List.mem_cons.mp hpc with rfl | hpc
  · obtain ⟨z, r, l, rfl⟩ : ∃ (z : Fin 1) (r : Fin 6) (l : Fin 12800), x = ix3 z r l := ⟨x 0, x 1, x 2, eq_ix3 x⟩
    have hr : r.val < 6 := r.isLt
    refine Eq.trans (neg_slab x1 x2 0 1 0 rfl (by omega) (by omega) (by omega) slices_S20x12800_o0_0_S6x12800 shapeCasts_S6x12800_S1x6x12800 z r l) ?_
    exact congrArg (negWin x1 x2) (idx_piece 0 1 inb_S15x7x12800_S1x6x12800_0_1_0 z r l (by omega) (by omega)).symm
  rcases List.mem_cons.mp hpc with rfl | hpc
  · obtain ⟨z, r, l, rfl⟩ : ∃ (z : Fin 1) (r : Fin 1) (l : Fin 12800), x = ix3 z r l := ⟨x 0, x 1, x 2, eq_ix3 x⟩
    have hr : r.val < 1 := r.isLt
    refine Eq.trans (neg_start x1 x2 z r l) ?_
    exact congrArg (negWin x1 x2) (idx_piece 0 0 inb_S15x7x12800_S1x1x12800_0_0_0 z r l (by omega) (by omega)).symm
  nomatch hpc

theorem idx_facts : ∀ t : Fin cfg0.N, win0_1.index t (0 : Fin 2) = 0 ∧ win0_1.index t (1 : Fin 2) = t.val
    ∧ win0_2.index t (0 : Fin 2) = 0 ∧ win0_2.index t (1 : Fin 2) = t.val
    ∧ win0_4.index t (0 : Fin 3) = 0 ∧ win0_4.index t (1 : Fin 3) = 0 ∧ win0_4.index t (2 : Fin 3) = t.val :=
  (by decide +kernel : ∀ t : Fin grid0.N, _)

theorem blk1_read (a1 : FVec Ideal S20x204800 .f32) (t : Fin cfg0.N) (x : S20x12800.Idx) (k : S20x204800.Idx)
    (hk0 : (k 0).val = (x 0).val) (hk1 : (k 1).val = 12800 * t.val + (x 1).val) :
    (((cfg0.win 1).blk t).view.read (Elt Ideal) a1 : FVec Ideal S20x12800 .f32) x = a1 k := by
  obtain ⟨e0, e1, -⟩ := idx_facts t
  rw [View.read_apply]
  show a1 _ = a1 _
  congr 1
  funext a
  apply Fin.ext
  match a with
  | ⟨0, _⟩ => show win0_1.index t (0 : Fin 2) * 20 + 1 * (x 0).val = (k 0).val; rw [e0, hk0]; omega
  | ⟨1, _⟩ => show win0_1.index t (1 : Fin 2) * 12800 + 1 * (x 1).val = (k 1).val; rw [e1, hk1]; omega

theorem blk2_read (a2 : IVec S1x204800 32) (t : Fin cfg0.N) (x : S1x12800.Idx) (k : S1x204800.Idx)
    (hk0 : (k 0).val = (x 0).val) (hk1 : (k 1).val = 12800 * t.val + (x 1).val) :
    (((cfg0.win 2).blk t).view.read (Elt Ideal) a2 : IVec S1x12800 32) x = a2 k := by
  obtain ⟨-, -, e0, e1, -⟩ := idx_facts t
  rw [View.read_apply]
  show a2 _ = a2 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 12800 + 1 * (x 1).val = (k 1).val; rw [e1, hk1]; omega

theorem negWin_block (negT : FVec Ideal S20x204800 .f32) (tb : IVec S1x204800 32) (x1 : FVec Ideal S20x12800 .f32)
    (x2 : IVec S1x12800 32) (T : ℕ)
    (h1 : ∀ (x : S20x12800.Idx) (k : S20x204800.Idx), (k 0).val = (x 0).val → (k 1).val = 12800 * T + (x 1).val → x1 x = negT k)
    (h2 : ∀ (x : S1x12800.Idx) (k : S1x204800.Idx), (k 0).val = (x 0).val → (k 1).val = 12800 * T + (x 1).val → x2 x = tb k)
    (y : S15x7x12800.Idx) (j : S15x7x204800.Idx) (hj0 : (j 0).val = (y 0).val) (hj1 : (j 1).val = (y 1).val)
    (hj2 : (j 2).val = 12800 * T + (y 2).val) :
    negWin (n := 12800) x1 x2 y = negWin (n := 204800) negT tb j := by
  show remap (negCell (x2 (ix2 0 ⟨(y 2).val, (y 2).isLt⟩)) (fun q => x1 (ix2 q ⟨(y 2).val, (y 2).isLt⟩)) ((y 0).val + (y 1).val))
    = remap (negCell (tb (ix2 0 ⟨(j 2).val, (j 2).isLt⟩)) (fun q => negT (ix2 q ⟨(j 2).val, (j 2).isLt⟩)) ((j 0).val + (j 1).val))
  have hp : (y 0).val + (y 1).val = (j 0).val + (j 1).val := by rw [hj0, hj1]
  have hs : x2 (ix2 0 ⟨(y 2).val, (y 2).isLt⟩) = tb (ix2 0 ⟨(j 2).val, (j 2).isLt⟩) := h2 _ _ rfl hj2
  have hd : (fun q : Fin 20 => x1 (ix2 q ⟨(y 2).val, (y 2).isLt⟩)) = fun q => negT (ix2 q ⟨(j 2).val, (j 2).isLt⟩) :=
    funext fun q => h1 _ _ rfl hj2
  rw [hs, hd, hp]

theorem flushed4_eq (c : Dev nD) (t : Fin cfg0.N) :
    (dats (F := Ideal) m 0 c).flushed 4 t = ((cfg0.win 4).blk t).view.read (Elt Ideal) (negArr (V m c main_v701) (V m c main_v705)) := by
  show (cfg0.win 4).cut (grid0.coords t) ((dats m 0 c).after 4 t) = _
  rw [after0_4, negArr_eq_negWin]
  obtain ⟨-, -, -, -, e0, e1, e2⟩ := idx_facts t
  show out0_4 (F := Ideal) (iblk m c 1 t) (iblk m c 2 t) = _
  refine (neg_block (iblk m c 1 t) (iblk m c 2 t)).trans ?_
  funext y
  rw [View.read_apply]
  refine negWin_block (V m c main_v701) (V m c main_v705) (iblk m c 1 t) (iblk m c 2 t) t.val
    (fun x k h0 h1 => blk1_read (V m c main_v701) t x k h0 h1) (fun x k h0 h1 => blk2_read (V m c main_v705) t x k h0 h1) y _ ?_ ?_ ?_
  · show win0_4.index t (0 : Fin 3) * 15 + 1 * (y 0).val = (y 0).val; rw [e0]; omega
  · show win0_4.index t (1 : Fin 3) * 7 + 1 * (y 1).val = (y 1).val; rw [e1]; omega
  · show win0_4.index t (2 : Fin 3) * 12800 + 1 * (y 2).val = 12800 * t.val + (y 2).val; rw [e2]; omega

theorem cover4 (i : S15x7x204800.Idx) :
    ∃ t : Fin cfg0.N, (cfg0.win 4).flush t = true ∧ i ∈ ((cfg0.win 4).blk t).view.set := by
  have h0 : (i 0).val < 15 := (i 0).isLt
  have h1 : (i 1).val < 7 := (i 1).isLt
  have h2 : (i 2).val < 204800 := (i 2).isLt
  have hN : cfg0.N = 16 := N_0
  obtain ⟨t, ht⟩ : ∃ t : Fin cfg0.N, t.val = (i 2).val / 12800 := ⟨⟨(i 2).val / 12800, by rw [hN]; omega⟩, rfl⟩
  obtain ⟨-, -, -, -, e0, e1, e2⟩ := idx_facts t
  refine ⟨t, flush0_4 t, ?_⟩
  show i ∈ ((View.whole main_v706_1).slice (win0_4.rect t)).set
  rw [View.set_slice_whole, Rect.mem_set_unit]
  intro a
  match a with
  | ⟨0, _⟩ => show win0_4.index t (0 : Fin 3) * 15 ≤ (i 0).val ∧ (i 0).val < win0_4.index t (0 : Fin 3) * 15 + 15; rw [e0]; omega
  | ⟨1, _⟩ => show win0_4.index t (1 : Fin 3) * 7 ≤ (i 1).val ∧ (i 1).val < win0_4.index t (1 : Fin 3) * 7 + 7; rw [e1]; omega
  | ⟨2, _⟩ => show win0_4.index t (2 : Fin 3) * 12800 ≤ (i 2).val ∧ (i 2).val < win0_4.index t (2 : Fin 3) * 12800 + 12800; rw [e2, ht]; omega

end Neg

theorem final4 (c : Dev nD) : (dats (F := Ideal) m 0 c).arrAt 4 cfg0.N = negArr (V m c main_v701) (V m c main_v705) :=
  (dats (F := Ideal) m 0 c).arrAt_eq_of_cover 4 (negArr (V m c main_v701) (V m c main_v705)) (fun t _ => Neg.flushed4_eq m c t) Neg.cover4

end Cert.KernelIdeal.Hand

end
-- ==== Proof.KIValueTail.lean ====
import proofs.«416388_j86139864089342_3_alg».proof.Proof.Spec
import proofs.«416388_j86139864089342_3_alg».proof.Proof.KIValuePos
import proofs.«416388_j86139864089342_3_alg».proof.Proof.KIFrame
import Idealize.ShloMosaic.Lib.Pipeline.Value

noncomputable section

namespace Cert.KernelIdeal.Hand

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.Walk

variable (m : (ℓ : Loc nD τ sig) → Buf (Elt Ideal) ℓ) (ρ : Dev nD → PrngReg)

def tailOf {α : Type} (A : S15x7x204800.Idx → α) : S3072000x7.Idx → α :=
  shapeCast S3072000x7 (transpose S15x204800x7 [0, 2, 1] A transposes_S15x7x204800_S15x204800x7_0_2_1) shapeCasts_S15x204800x7_S3072000x7

theorem tailOf_apply {α : Type} (A : S15x7x204800.Idx → α) (i : S3072000x7.Idx) :
    tailOf A i = A (ix3 (⟨(i 0).val / 204800, by have h0 : (i 0).val < 3072000 := (i 0).isLt; omega⟩ : Fin 15)
      (⟨(i 1).val, (i 1).isLt⟩ : Fin 7) (⟨(i 0).val % 204800, Nat.mod_lt _ (by decide)⟩ : Fin 204800)) := by
  have h0 : (i 0).val < 3072000 := (i 0).isLt
  have h1 : (i 1).val < 7 := (i 1).isLt
  unfold tailOf
  refine (shapeCast_apply _ _ i (ix3 (⟨(i 0).val / 204800, by omega⟩ : Fin 15)
    (⟨(i 0).val % 204800, Nat.mod_lt _ (by decide)⟩ : Fin 204800) (⟨(i 1).val, h1⟩ : Fin 7)) ?_).trans ?_
  · rw [Shape.rowMajor_val_three, Shape.rowMajor_val_two]
    show ((i 0).val / 204800 * 204800 + (i 0).val % 204800) * 7 + (i 1).val = (i 0).val * 7 + (i 1).val
    omega
  · refine transpose_apply _ A _ _ _ fun b => ?_
    match b with
    | ⟨0, _⟩ => rfl
    | ⟨1, _⟩ => rfl
    | ⟨2, _⟩ => rfl

def posK (rwT : IVec S21x204800 32) : IVec S3072000x7 32 := Cert.Walk.posSpec (rowsOf rwT)

def negK (negT : FVec Ideal S20x204800 .f32) (tb : IVec S1x204800 32) : IVec S3072000x7 32 :=
  Cert.Walk.negSpecG (fun w => tb (ValueIdx.ix2 0 w)) (fun w q => negT (ValueIdx.ix2 q w))

theorem tailOf_posArr (rwT : IVec S21x204800 32) : tailOf (posArr rwT) = posK rwT := by
  funext i
  rw [tailOf_apply]
  rfl

theorem tailOf_neg (negT : FVec Ideal S20x204800 .f32) (tb : IVec S1x204800 32) (A : IVec S15x7x204800 32)
    (hA : ∀ j : S15x7x204800.Idx, A j = remap (negRowG (fun w => tb (ValueIdx.ix2 0 w)) (fun w q => negT (ValueIdx.ix2 q w))
      ((j 0).val + (j 1).val) ⟨(j 2).val, (j 2).isLt⟩)) :
    tailOf A = negK negT tb := by
  funext i
  rw [tailOf_apply, hA]
  rfl

theorem val708 (c : Dev nD) : Pipeline.afterTail₀ cfgs (dats (F := Ideal) m) 0 (V0 m) [hostOps1] c main_v708
    = tailOf ((dats (F := Ideal) m 0 c).arrAt 3 cfg0.N) := by
  unfold Pipeline.afterTail₀
  show StableHlo.after hostOps1 _ (Proc.devRef .tc main_v708) = _
  after_results
  exact congrArg tailOf (Pipeline.withArrays_arr spec0 launch0.win.arr_inj c (V0 m c) (fun w => (dats (F := Ideal) m 0 c).arrAt w cfg0.N) 3)

theorem val710 (c : Dev nD) : Pipeline.afterTail₀ cfgs (dats (F := Ideal) m) 0 (V0 m) [hostOps1] c main_v710
    = tailOf ((dats (F := Ideal) m 0 c).arrAt 4 cfg0.N) := by
  unfold Pipeline.afterTail₀
  show StableHlo.after hostOps1 _ (Proc.devRef .tc main_v710) = _
  after_results
  exact congrArg tailOf (Pipeline.withArrays_arr spec0 launch0.win.arr_inj c (V0 m c) (fun w => (dats (F := Ideal) m 0 c).arrAt w cfg0.N) 4)

theorem res708 (c : Dev nD) : Pipeline.afterTail₀ cfgs (dats (F := Ideal) m) 0 (V0 m) [hostOps1] c main_v708 = posK (V m c main_v700) := by
  rw [val708, final3, tailOf_posArr]

end Cert.KernelIdeal.Hand

end
-- ==== Proof.KIValue.lean ====
import proofs.«416388_j86139864089342_3_alg».proof.Proof.Spec
import proofs.«416388_j86139864089342_3_alg».proof.Proof.KIValuePos
import proofs.«416388_j86139864089342_3_alg».proof.Proof.KIValueNeg
import proofs.«416388_j86139864089342_3_alg».proof.Proof.KIValueTail
import proofs.«416388_j86139864089342_3_alg».proof.Proof.KIFrame

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Walk

variable (m : (ℓ : Loc nD τ sig) → Buf (Elt Ideal) ℓ) (ρ : Dev nD → PrngReg)

theorem res710 (c : Dev nD) : Pipeline.afterTail₀ cfgs (dats (F := Ideal) m) 0 (V0 m) [hostOps1] c main_v710
    = negK (V m c main_v701) (V m c main_v705) := by
  rw [val710, final4]
  exact tailOf_neg (V m c main_v701) (V m c main_v705) (negArr (V m c main_v701) (V m c main_v705)) (fun j => rfl)

theorem run_val : θ_run (defs (F := Ideal)) (onTc (τ := τ) (main (F := Ideal))) ⟨m, fun _ => 0, ρ⟩ (fun r => ∀ c : Dev nD,
      r.2.mem ((c.tc : Thread nD τ).loc main_v708) = posK (V m c main_v700)
      ∧ r.2.mem ((c.tc : Thread nD τ).loc main_v710) = negK (V m c main_v701) (V m c main_v705)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    ((h c).2 main_v708 (Pipeline.mem_restRefs_of main_v708 (by decide) (by decide))).trans (res708 m c),
    ((h c).2 main_v710 (Pipeline.mem_restRefs_of main_v710 (by decide) (by decide))).trans (res710 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩)
    (run_main m ρ)

end Cert.KernelIdeal.Hand

end
-- ==== Proof.KIStep.lean ====
import proofs.«416388_j86139864089342_3_alg».proof.KernelIdeal

noncomputable section

namespace Cert.KernelIdeal.Hand

open Idealize.ShloMosaic Cert.KernelIdeal Cert.KernelIdeal.Facts₀

variable {F : FTy → Type} [FloatOps F] [Facts₀]

def bc (x : BitVec 32) : IVec S204800 32 := broadcastInDim S204800 ![] bcast_S_S204800 (constantI S_ 32 x)

def asCol (v : IVec S204800 32) : IVec S204800x1 32 := broadcastInDim S204800x1 ![0] bcast_S204800_S204800x1_0 v

def wrapIdx (n : BitVec 32) (v : IVec S204800 32) : IVec S204800 32 :=
  select (cmpi .slt v (bc 0#32)) (addi v (bc n)) v

def fieldOff (g : IVec S204800x2 32) : IVec S204800 32 :=
  shapeCast S204800 (extractStridedSlice S204800x1 ![0, 0] g slices_S204800x2_S204800x1_0_0) shapeCasts_S204800x1_S204800
def fieldCnt (g : IVec S204800x2 32) : IVec S204800 32 :=
  shapeCast S204800 (extractStridedSlice S204800x1 ![0, 1] g slices_S204800x2_S204800x1_0_1) shapeCasts_S204800x1_S204800

def aliveOf (cur : IVec S204800 32) : IVec S204800 1 := cmpi .slt cur (bc 120000#32)

def safeOf (cur : IVec S204800 32) : IVec S204800 32 := select (aliveOf cur) cur (bc 0#32)

def rowcountOf (alive : IVec S204800 1) (rcRaw : IVec S204800 32) : IVec S204800 32 := select alive rcRaw (bc 0#32)

def okOf (rowcount : IVec S204800 32) : IVec S204800 1 := cmpi .sgt rowcount (bc 0#32)

def offOf (ok : IVec S204800 1) (offRaw : IVec S204800 32) : IVec S204800 32 := select ok offRaw (bc 0#32)

def pickIdx (u : FVec F S204800 .f32) (rowcount off : IVec S204800 32) : IVec S204800 32 :=
  addi (fptosi 32 (mulf u (sitofp .f32 rowcount))) off

def clipIdx (hi : BitVec 32) (idx : IVec S204800 32) : IVec S204800 32 := minsi (bc hi) (maxsi (bc 0#32) idx)

def sampleTail (hi ncol : BitVec 32) (look : IVec S204800x1 32 → IVec S204800 32) (alive : IVec S204800 1)
    (rcRaw offRaw : IVec S204800 32) (u : FVec F S204800 .f32) : IVec S204800 32 :=
  select (okOf (rowcountOf alive rcRaw))
    (look (asCol (wrapIdx ncol (clipIdx hi (pickIdx u (rowcountOf alive rcRaw) (offOf (okOf (rowcountOf alive rcRaw)) offRaw))))))
    (bc 120000#32)

def rowsAd (info : IVec S3550x2 32) (cur : IVec S204800 32) : IVec S204800x2 32 :=
  Host.gather gather_S3550x2_S204800x1_S204800x2_1_0_n_n_0_1_12 info (asCol (wrapIdx 3550#32 (safeOf cur)))

def rowsDa (info : IVec S20000x2 32) (cur : IVec S204800 32) : IVec S204800x2 32 :=
  Host.gather gather_S20000x2_S204800x1_S204800x2_1_0_n_n_0_1_12 info (asCol (wrapIdx 20000#32 (safeOf cur)))

def lookAd (col : IVec S217264 32) (i : IVec S204800x1 32) : IVec S204800 32 :=
  Host.gather gather_S217264_S204800x1_S204800_n_0_n_n_0_1_1 col i
def lookDa (col : IVec S302235 32) (i : IVec S204800x1 32) : IVec S204800 32 :=
  Host.gather gather_S302235_S204800x1_S204800_n_0_n_n_0_1_1 col i

def stepK_ad (info : IVec S3550x2 32) (col : IVec S217264 32) (cur : IVec S204800 32) (u : FVec F S204800 .f32) :
    IVec S204800 32 :=
  sampleTail 217263#32 217264#32 (lookAd col) (aliveOf cur) (fieldCnt (rowsAd info cur)) (fieldOff (rowsAd info cur)) u

def stepK_da (info : IVec S20000x2 32) (col : IVec S302235 32) (cur : IVec S204800 32) (u : FVec F S204800 .f32) :
    IVec S204800 32 :=
  sampleTail 302234#32 302235#32 (lookDa col) (aliveOf cur) (fieldCnt (rowsDa info cur)) (fieldOff (rowsDa info cur)) u

def infoAd (rowptr : IVec S3551 32) : IVec S3550x2 32 :=
  concatenate S3550x2 1
    [⟨S3550x1, broadcastInDim S3550x1 ![0] bcast_S3550_S3550x1_0 (extractStridedSlice S3550 ![0] rowptr slices_S3551_S3550_0)⟩,
     ⟨S3550x1, broadcastInDim S3550x1 ![0] bcast_S3550_S3550x1_0
        (subi (extractStridedSlice S3550 ![1] rowptr slices_S3551_S3550_1) (extractStridedSlice S3550 ![0] rowptr slices_S3551_S3550_0))⟩]
    concatenates_S3550x1_S3550x1_S3550x2_d1

def infoDa (rowptr : IVec S20001 32) : IVec S20000x2 32 :=
  concatenate S20000x2 1
    [⟨S20000x1, broadcastInDim S20000x1 ![0] bcast_S20000_S20000x1_0 (extractStridedSlice S20000 ![0] rowptr slices_S20001_S20000_0)⟩,
     ⟨S20000x1, broadcastInDim S20000x1 ![0] bcast_S20000_S20000x1_0
        (subi (extractStridedSlice S20000 ![1] rowptr slices_S20001_S20000_1) (extractStridedSlice S20000 ![0] rowptr slices_S20001_S20000_0))⟩]
    concatenates_S20000x1_S20000x1_S20000x2_d1

def tile (batch : IVec S2048 32) : IVec S204800 32 :=
  shapeCast S204800 (broadcastInDim S100x2048 ![0, 1] bcast_S1x2048_S100x2048_0_1 (shapeCast S1x2048 batch shapeCasts_S2048_S1x2048))
    shapeCasts_S100x2048_S204800

def ucol_0 (pr : FVec F S204800x20 .f32) : FVec F S204800 .f32 :=
  shapeCast S204800 (extractStridedSlice S204800x1 ![0, 0] pr slices_S204800x20_S204800x1_0_0) shapeCasts_S204800x1_S204800

def ucol_1 (pr : FVec F S204800x20 .f32) : FVec F S204800 .f32 :=
  shapeCast S204800 (extractStridedSlice S204800x1 ![0, 1] pr slices_S204800x20_S204800x1_0_1) shapeCasts_S204800x1_S204800

def ucol_2 (pr : FVec F S204800x20 .f32) : FVec F S204800 .f32 :=
  shapeCast S204800 (extractStridedSlice S204800x1 ![0, 2] pr slices_S204800x20_S204800x1_0_2) shapeCasts_S204800x1_S204800

def ucol_3 (pr : FVec F S204800x20 .f32) : FVec F S204800 .f32 :=
  shapeCast S204800 (extractStridedSlice S204800x1 ![0, 3] pr slices_S204800x20_S204800x1_0_3) shapeCasts_S204800x1_S204800

def ucol_4 (pr : FVec F S204800x20 .f32) : FVec F S204800 .f32 :=
  shapeCast S204800 (extractStridedSlice S204800x1 ![0, 4] pr slices_S204800x20_S204800x1_0_4) shapeCasts_S204800x1_S204800

def ucol_5 (pr : FVec F S204800x20 .f32) : FVec F S204800 .f32 :=
  shapeCast S204800 (extractStridedSlice S204800x1 ![0, 5] pr slices_S204800x20_S204800x1_0_5) shapeCasts_S204800x1_S204800

def ucol_6 (pr : FVec F S204800x20 .f32) : FVec F S204800 .f32 :=
  shapeCast S204800 (extractStridedSlice S204800x1 ![0, 6] pr slices_S204800x20_S204800x1_0_6) shapeCasts_S204800x1_S204800

def ucol_7 (pr : FVec F S204800x20 .f32) : FVec F S204800 .f32 :=
  shapeCast S204800 (extractStridedSlice S204800x1 ![0, 7] pr slices_S204800x20_S204800x1_0_7) shapeCasts_S204800x1_S204800

def ucol_8 (pr : FVec F S204800x20 .f32) : FVec F S204800 .f32 :=
  shapeCast S204800 (extractStridedSlice S204800x1 ![0, 8] pr slices_S204800x20_S204800x1_0_8) shapeCasts_S204800x1_S204800

def ucol_9 (pr : FVec F S204800x20 .f32) : FVec F S204800 .f32 :=
  shapeCast S204800 (extractStridedSlice S204800x1 ![0, 9] pr slices_S204800x20_S204800x1_0_9) shapeCasts_S204800x1_S204800

def ucol_10 (pr : FVec F S204800x20 .f32) : FVec F S204800 .f32 :=
  shapeCast S204800 (extractStridedSlice S204800x1 ![0, 10] pr slices_S204800x20_S204800x1_0_10) shapeCasts_S204800x1_S204800

def ucol_11 (pr : FVec F S204800x20 .f32) : FVec F S204800 .f32 :=
  shapeCast S204800 (extractStridedSlice S204800x1 ![0, 11] pr slices_S204800x20_S204800x1_0_11) shapeCasts_S204800x1_S204800

def ucol_12 (pr : FVec F S204800x20 .f32) : FVec F S204800 .f32 :=
  shapeCast S204800 (extractStridedSlice S204800x1 ![0, 12] pr slices_S204800x20_S204800x1_0_12) shapeCasts_S204800x1_S204800

def ucol_13 (pr : FVec F S204800x20 .f32) : FVec F S204800 .f32 :=
  shapeCast S204800 (extractStridedSlice S204800x1 ![0, 13] pr slices_S204800x20_S204800x1_0_13) shapeCasts_S204800x1_S204800

def ucol_14 (pr : FVec F S204800x20 .f32) : FVec F S204800 .f32 :=
  shapeCast S204800 (extractStridedSlice S204800x1 ![0, 14] pr slices_S204800x20_S204800x1_0_14) shapeCasts_S204800x1_S204800

def ucol_15 (pr : FVec F S204800x20 .f32) : FVec F S204800 .f32 :=
  shapeCast S204800 (extractStridedSlice S204800x1 ![0, 15] pr slices_S204800x20_S204800x1_0_15) shapeCasts_S204800x1_S204800

def ucol_16 (pr : FVec F S204800x20 .f32) : FVec F S204800 .f32 :=
  shapeCast S204800 (extractStridedSlice S204800x1 ![0, 16] pr slices_S204800x20_S204800x1_0_16) shapeCasts_S204800x1_S204800

def ucol_17 (pr : FVec F S204800x20 .f32) : FVec F S204800 .f32 :=
  shapeCast S204800 (extractStridedSlice S204800x1 ![0, 17] pr slices_S204800x20_S204800x1_0_17) shapeCasts_S204800x1_S204800

def ucol_18 (pr : FVec F S204800x20 .f32) : FVec F S204800 .f32 :=
  shapeCast S204800 (extractStridedSlice S204800x1 ![0, 18] pr slices_S204800x20_S204800x1_0_18) shapeCasts_S204800x1_S204800

def ucol_19 (pr : FVec F S204800x20 .f32) : FVec F S204800 .f32 :=
  shapeCast S204800 (extractStridedSlice S204800x1 ![0, 19] pr slices_S204800x20_S204800x1_0_19) shapeCasts_S204800x1_S204800

def ucol (i : ℕ) (pr : FVec F S204800x20 .f32) : FVec F S204800 .f32 :=
  match i with
  | 0 => ucol_0 pr
  | 1 => ucol_1 pr
  | 2 => ucol_2 pr
  | 3 => ucol_3 pr
  | 4 => ucol_4 pr
  | 5 => ucol_5 pr
  | 6 => ucol_6 pr
  | 7 => ucol_7 pr
  | 8 => ucol_8 pr
  | 9 => ucol_9 pr
  | 10 => ucol_10 pr
  | 11 => ucol_11 pr
  | 12 => ucol_12 pr
  | 13 => ucol_13 pr
  | 14 => ucol_14 pr
  | 15 => ucol_15 pr
  | 16 => ucol_16 pr
  | 17 => ucol_17 pr
  | 18 => ucol_18 pr
  | 19 => ucol_19 pr
  | _ => ucol_0 pr

end Cert.KernelIdeal.Hand

end
-- ==== Proof.KIHostWalk.lean ====
import proofs.«416388_j86139864089342_3_alg».proof.Proof.KIStep

noncomputable section

namespace Cert.KernelIdeal.Hand

open Idealize.ShloMosaic Idealize.ShloMosaic.TcCoe Idealize.SL.Sem Cert.KernelIdeal

variable {F : FTy → Type} [FloatOps F] [Facts₀]
variable (m : (ℓ : Loc nD τ sig) → Buf (Elt F) ℓ)

def walkK (c : Dev nD) : ℕ → IVec S204800 32
  | 0 => tile (m ((c : Thread nD τ).loc main_arg2))
  | n + 1 =>
    if n % 2 = 0 then
      stepK_ad (infoAd (m ((c : Thread nD τ).loc main_arg3))) (m ((c : Thread nD τ).loc main_arg4)) (walkK c n) (ucol n (m ((c : Thread nD τ).loc main_arg0)))
    else
      stepK_da (infoDa (m ((c : Thread nD τ).loc main_arg5))) (m ((c : Thread nD τ).loc main_arg6)) (walkK c n) (ucol n (m ((c : Thread nD τ).loc main_arg0)))

theorem walkK_zero (c : Dev nD) : walkK m c 0 = tile (m ((c : Thread nD τ).loc main_arg2)) := rfl

theorem walkK_succ_even (c : Dev nD) (j : ℕ) :
    walkK m c (2 * j + 1)
      = stepK_ad (infoAd (m ((c : Thread nD τ).loc main_arg3))) (m ((c : Thread nD τ).loc main_arg4)) (walkK m c (2 * j))
          (ucol (2 * j) (m ((c : Thread nD τ).loc main_arg0))) := by
  rw [walkK, if_pos (by omega)]

theorem walkK_succ_odd (c : Dev nD) (j : ℕ) :
    walkK m c (2 * j + 2)
      = stepK_da (infoDa (m ((c : Thread nD τ).loc main_arg5))) (m ((c : Thread nD τ).loc main_arg6)) (walkK m c (2 * j + 1))
          (ucol (2 * j + 1) (m ((c : Thread nD τ).loc main_arg0))) := by
  show walkK m c (2 * j + 1 + 1) = _
  rw [walkK, if_neg (by omega)]

end Cert.KernelIdeal.Hand

end
-- ==== Proof.LibWrites.lean ====
import Idealize.ShloMosaic.Lib.StableHlo.Run

noncomputable section

namespace Cert

open Idealize.ShloMosaic Idealize.SL.Sem Idealize.ShloMosaic.StableHlo

variable {τ : Topo} {sig : RefSig} {Val : EltTy → Type}

def WritesFrom (N : ℕ) (op : HloOp τ sig Val) : Prop :=
  ∀ b ∈ op.writes, ∃ y : Ref sig .tc, b = Proc.devRef .tc y ∧ N ≤ y.idx.val

theorem writesFrom_of_single {N : ℕ} {op : HloOp τ sig Val} {y : Ref sig .tc} (hw : op.writes = {Proc.devRef .tc y})
    (hy : N ≤ y.idx.val) : WritesFrom N op :=
  fun b hb => ⟨y, by rw [hw] at hb; exact Finset.mem_singleton.1 hb, hy⟩

/-- Over membership, not by recursion on the list: a long literal list is never unfolded. -/
def AllFrom (N : ℕ) (l : List (HloOp τ sig Val)) : Prop := ∀ op ∈ l, WritesFrom N op

section

variable {N N' : ℕ} {l l' : List (HloOp τ sig Val)}

theorem AllFrom.of_forall (h : l.Forall (WritesFrom N)) : AllFrom N l := List.forall_iff_forall_mem.1 h

theorem AllFrom.append (h : AllFrom N l) (h' : AllFrom N l') : AllFrom N (l ++ l') :=
  fun op hop => (List.mem_append.1 hop).elim (h op) (h' op)

theorem AllFrom.take (h : AllFrom N l) (n : ℕ) : AllFrom N (l.take n) := fun op hop => h op (List.mem_of_mem_take hop)

theorem AllFrom.mono (hN : N ≤ N') (h : AllFrom N' l) : AllFrom N l :=
  fun op hop b hb => let ⟨y, e, hy⟩ := h op hop b hb; ⟨y, e, hN.trans hy⟩

/-- Operations that write from buffer N on leave every buffer below N alone. -/
theorem AllFrom.kept (h : AllFrom N l) (V : Valuation τ sig Val) {r : Ref sig .tc} (hr : r.idx.val < N) :
    after l V (Proc.devRef .tc r) = V (Proc.devRef .tc r) :=
  after_of_forall_not_mem l V fun op hop hb => by
    obtain ⟨y, he, hy⟩ := h op hop _ hb
    have e : r = y := Proc.devRef_injective _ he
    subst e
    omega

end

macro "writes_from" : tactic => `(tactic|
  (simp only [List.Forall]
   repeat' apply And.intro
   all_goals exact writesFrom_of_single rfl (by decide)))

/-- Buffers are numbered in program order: the operations of the list write buffers b, b + 1, … in turn. -/
def Numbered : ℕ → List (HloOp τ sig Val) → Prop
  | _, [] => True
  | b, op :: l => (∃ y : Ref sig .tc, op.writes = {Proc.devRef .tc y} ∧ y.idx.val = b) ∧ Numbered (b + 1) l

theorem Numbered.drop : ∀ {b : ℕ} {l : List (HloOp τ sig Val)} (n : ℕ), Numbered b l → Numbered (b + n) (l.drop n)
  | _, _, 0, h => h
  | _, [], _ + 1, _ => True.intro
  | b, _ :: l, n + 1, h => by
    rw [List.drop_succ_cons, show b + (n + 1) = b + 1 + n by omega]
    exact h.2.drop n

theorem Numbered.allFrom : ∀ {b : ℕ} {l : List (HloOp τ sig Val)}, Numbered b l → AllFrom b l
  | _, [], _ => fun _ h => absurd h List.not_mem_nil
  | b, _ :: l, ⟨⟨y, hw, hy⟩, hl⟩ => fun o ho => by
    rcases List.mem_cons.1 ho with rfl | ho
    · exact writesFrom_of_single hw hy.ge
    · exact (hl.allFrom.mono (Nat.le_succ b)) o ho

macro "numbered" : tactic => `(tactic|
  (simp only [Numbered]
   repeat' apply And.intro
   all_goals first | exact True.intro | exact ⟨_, rfl, by decide⟩))

open Lean in
/-- A stretch of a program is a slice of its printed windows; this evaluates the slice to the literal list. -/
macro "open_slices " ls:ident,+ : tactic => do
  let ts ← ls.getElems.mapM fun i => `(Lean.Parser.Tactic.simpLemma| $i:ident)
  `(tactic|
    (simp only [$ts,*]
     simp only [List.take_succ_cons, List.take_zero, List.drop_succ_cons, List.drop_zero, List.cons_append, List.nil_append]))

/-- Reads a buffer back after a literal list of operations: fold the operations' results and compare. -/
macro "read_values" : tactic =>
  `(tactic|
    (after_results_simp
     try simp only [StableHlo.TRef.ofBuf, StableHlo.TRef.toBuf, cast_eq]
     rfl))

end Cert

end
-- ==== Proof.KIHostStep00.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_0 : List (HloOp τ sig (Elt F)) :=
  hostOps0 ++ hostOps0_1 ++ hostOps0_2 ++ hostOps0_3 ++ hostOps0_4 ++ hostOps0_5 ++ hostOps0_6 ++ hostOps0_7 ++ hostOps0_8 ++ hostOps0_9

theorem chunk_0_from : AllFrom 7 (chunk_0 (F := F)) := .of_forall (by
  simp only [chunk_0, hostOps0, hostOps0_1, hostOps0_2, hostOps0_3, hostOps0_4, hostOps0_5, hostOps0_6, hostOps0_7, hostOps0_8, hostOps0_9, List.cons_append, List.nil_append]
  writes_from)

theorem chunk_0_v6 (W : Valuation τ sig (Elt F)) :
    StableHlo.after chunk_0 W (Proc.devRef .tc main_v6) = infoAd (W (Proc.devRef .tc main_arg3)) := by
  simp only [chunk_0, StableHlo.after_append]
  open StableHlo in after_results_simp
  rfl

theorem chunk_0_v13 (W : Valuation τ sig (Elt F)) :
    StableHlo.after chunk_0 W (Proc.devRef .tc main_v13) = infoDa (W (Proc.devRef .tc main_arg5)) := by
  simp only [chunk_0, StableHlo.after_append]
  open StableHlo in after_results_simp
  rfl

theorem chunk_0_v16 (W : Valuation τ sig (Elt F)) :
    StableHlo.after chunk_0 W (Proc.devRef .tc main_v16) = tile (W (Proc.devRef .tc main_arg2)) := by
  simp only [chunk_0, StableHlo.after_append]
  open StableHlo in after_results_simp
  rfl

theorem chunk_0_value (W : Valuation τ sig (Elt F)) :
    StableHlo.after chunk_0 W (Proc.devRef .tc main_v49)
      = stepK_ad (infoAd (W (Proc.devRef .tc main_arg3))) (W (Proc.devRef .tc main_arg4)) (tile (W (Proc.devRef .tc main_arg2)))
          (ucol_0 (W (Proc.devRef .tc main_arg0))) := by
  simp only [chunk_0, StableHlo.after_append]
  open StableHlo in after_results_simp
  simp only [StableHlo.TRef.toBuf, StableHlo.TRef.ofBuf, cast_eq, id_eq]
  rfl

end Cert.KernelIdeal.Hand

end
-- ==== Proof.KIHostStep01.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_1 : List (HloOp τ sig (Elt F)) :=
  hostOps0_10 ++ hostOps0_11 ++ hostOps0_12 ++ hostOps0_13 ++ hostOps0_14 ++ hostOps0_15 ++ hostOps0_16 ++ hostOps0_17 ++ hostOps0_18 ++ hostOps0_19

theorem chunk_1_from : AllFrom 82 (chunk_1 (F := F)) := .of_forall (by
  simp only [chunk_1, hostOps0_10, hostOps0_11, hostOps0_12, hostOps0_13, hostOps0_14, hostOps0_15, hostOps0_16, hostOps0_17, hostOps0_18, hostOps0_19, List.cons_append, List.nil_append]
  writes_from)

theorem chunk_1_value (W : Valuation τ sig (Elt F)) :
    StableHlo.after chunk_1 W (Proc.devRef .tc main_v82)
      = stepK_da (W (Proc.devRef .tc main_v13)) (W (Proc.devRef .tc main_arg6)) (W (Proc.devRef .tc main_v49))
          (ucol_1 (W (Proc.devRef .tc main_arg0))) := by
  simp only [chunk_1, StableHlo.after_append]
  open StableHlo in after_results_simp
  simp only [StableHlo.TRef.toBuf, StableHlo.TRef.ofBuf, cast_eq, id_eq]
  rfl

end Cert.KernelIdeal.Hand

end
-- ==== Proof.KIHostStep02.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_2 : List (HloOp τ sig (Elt F)) :=
  hostOps0_20 ++ hostOps0_21 ++ hostOps0_22 ++ hostOps0_23 ++ hostOps0_24 ++ hostOps0_25 ++ hostOps0_26 ++ hostOps0_27 ++ hostOps0_28 ++ hostOps0_29

theorem chunk_2_from : AllFrom 140 (chunk_2 (F := F)) := .of_forall (by
  simp only [chunk_2, hostOps0_20, hostOps0_21, hostOps0_22, hostOps0_23, hostOps0_24, hostOps0_25, hostOps0_26, hostOps0_27, hostOps0_28, hostOps0_29, List.cons_append, List.nil_append]
  writes_from)

theorem chunk_2_value (W : Valuation τ sig (Elt F)) :
    StableHlo.after chunk_2 W (Proc.devRef .tc main_v115)
      = stepK_ad (W (Proc.devRef .tc main_v6)) (W (Proc.devRef .tc main_arg4)) (W (Proc.devRef .tc main_v82))
          (ucol_2 (W (Proc.devRef .tc main_arg0))) := by
  simp only [chunk_2, StableHlo.after_append]
  open StableHlo in after_results_simp
  simp only [StableHlo.TRef.toBuf, StableHlo.TRef.ofBuf, cast_eq, id_eq]
  rfl

end Cert.KernelIdeal.Hand

end
-- ==== Proof.KIHostStep03.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_3 : List (HloOp τ sig (Elt F)) :=
  hostOps0_30 ++ hostOps0_31 ++ hostOps0_32 ++ hostOps0_33 ++ hostOps0_34 ++ hostOps0_35 ++ hostOps0_36 ++ hostOps0_37 ++ hostOps0_38 ++ hostOps0_39

theorem chunk_3_from : AllFrom 198 (chunk_3 (F := F)) := .of_forall (by
  simp only [chunk_3, hostOps0_30, hostOps0_31, hostOps0_32, hostOps0_33, hostOps0_34, hostOps0_35, hostOps0_36, hostOps0_37, hostOps0_38, hostOps0_39, List.cons_append, List.nil_append]
  writes_from)

theorem chunk_3_value (W : Valuation τ sig (Elt F)) :
    StableHlo.after chunk_3 W (Proc.devRef .tc main_v148)
      = stepK_da (W (Proc.devRef .tc main_v13)) (W (Proc.devRef .tc main_arg6)) (W (Proc.devRef .tc main_v115))
          (ucol_3 (W (Proc.devRef .tc main_arg0))) := by
  simp only [chunk_3, StableHlo.after_append]
  open StableHlo in after_results_simp
  simp only [StableHlo.TRef.toBuf, StableHlo.TRef.ofBuf, cast_eq, id_eq]
  rfl

end Cert.KernelIdeal.Hand

end
-- ==== Proof.KIHostStep04.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_4 : List (HloOp τ sig (Elt F)) :=
  hostOps0_40 ++ hostOps0_41 ++ hostOps0_42 ++ hostOps0_43 ++ hostOps0_44 ++ hostOps0_45 ++ hostOps0_46 ++ hostOps0_47 ++ hostOps0_48 ++ hostOps0_49

theorem chunk_4_from : AllFrom 256 (chunk_4 (F := F)) := .of_forall (by
  simp only [chunk_4, hostOps0_40, hostOps0_41, hostOps0_42, hostOps0_43, hostOps0_44, hostOps0_45, hostOps0_46, hostOps0_47, hostOps0_48, hostOps0_49, List.cons_append, List.nil_append]
  writes_from)

theorem chunk_4_value (W : Valuation τ sig (Elt F)) :
    StableHlo.after chunk_4 W (Proc.devRef .tc main_v181)
      = stepK_ad (W (Proc.devRef .tc main_v6)) (W (Proc.devRef .tc main_arg4)) (W (Proc.devRef .tc main_v148))
          (ucol_4 (W (Proc.devRef .tc main_arg0))) := by
  simp only [chunk_4, StableHlo.after_append]
  open StableHlo in after_results_simp
  simp only [StableHlo.TRef.toBuf, StableHlo.TRef.ofBuf, cast_eq, id_eq]
  rfl

end Cert.KernelIdeal.Hand

end
-- ==== Proof.KIHostStep05.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_5 : List (HloOp τ sig (Elt F)) :=
  hostOps0_50 ++ hostOps0_51 ++ hostOps0_52 ++ hostOps0_53 ++ hostOps0_54 ++ hostOps0_55 ++ hostOps0_56 ++ hostOps0_57 ++ hostOps0_58 ++ hostOps0_59

theorem chunk_5_from : AllFrom 314 (chunk_5 (F := F)) := .of_forall (by
  simp only [chunk_5, hostOps0_50, hostOps0_51, hostOps0_52, hostOps0_53, hostOps0_54, hostOps0_55, hostOps0_56, hostOps0_57, hostOps0_58, hostOps0_59, List.cons_append, List.nil_append]
  writes_from)

theorem chunk_5_value (W : Valuation τ sig (Elt F)) :
    StableHlo.after chunk_5 W (Proc.devRef .tc main_v214)
      = stepK_da (W (Proc.devRef .tc main_v13)) (W (Proc.devRef .tc main_arg6)) (W (Proc.devRef .tc main_v181))
          (ucol_5 (W (Proc.devRef .tc main_arg0))) := by
  simp only [chunk_5, StableHlo.after_append]
  open StableHlo in after_results_simp
  simp only [StableHlo.TRef.toBuf, StableHlo.TRef.ofBuf, cast_eq, id_eq]
  rfl

end Cert.KernelIdeal.Hand

end
-- ==== Proof.KIHostStep06.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_6 : List (HloOp τ sig (Elt F)) :=
  hostOps0_60 ++ hostOps0_61 ++ hostOps0_62 ++ hostOps0_63 ++ hostOps0_64 ++ hostOps0_65 ++ hostOps0_66 ++ hostOps0_67 ++ hostOps0_68 ++ hostOps0_69

theorem chunk_6_from : AllFrom 372 (chunk_6 (F := F)) := .of_forall (by
  simp only [chunk_6, hostOps0_60, hostOps0_61, hostOps0_62, hostOps0_63, hostOps0_64, hostOps0_65, hostOps0_66, hostOps0_67, hostOps0_68, hostOps0_69, List.cons_append, List.nil_append]
  writes_from)

theorem chunk_6_value (W : Valuation τ sig (Elt F)) :
    StableHlo.after chunk_6 W (Proc.devRef .tc main_v247)
      = stepK_ad (W (Proc.devRef .tc main_v6)) (W (Proc.devRef .tc main_arg4)) (W (Proc.devRef .tc main_v214))
          (ucol_6 (W (Proc.devRef .tc main_arg0))) := by
  simp only [chunk_6, StableHlo.after_append]
  open StableHlo in after_results_simp
  simp only [StableHlo.TRef.toBuf, StableHlo.TRef.ofBuf, cast_eq, id_eq]
  rfl

end Cert.KernelIdeal.Hand

end
-- ==== Proof.KIHostStep07.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_7 : List (HloOp τ sig (Elt F)) :=
  hostOps0_70 ++ hostOps0_71 ++ hostOps0_72 ++ hostOps0_73 ++ hostOps0_74 ++ hostOps0_75 ++ hostOps0_76 ++ hostOps0_77 ++ hostOps0_78 ++ hostOps0_79

theorem chunk_7_from : AllFrom 430 (chunk_7 (F := F)) := .of_forall (by
  simp only [chunk_7, hostOps0_70, hostOps0_71, hostOps0_72, hostOps0_73, hostOps0_74, hostOps0_75, hostOps0_76, hostOps0_77, hostOps0_78, hostOps0_79, List.cons_append, List.nil_append]
  writes_from)

theorem chunk_7_value (W : Valuation τ sig (Elt F)) :
    StableHlo.after chunk_7 W (Proc.devRef .tc main_v280)
      = stepK_da (W (Proc.devRef .tc main_v13)) (W (Proc.devRef .tc main_arg6)) (W (Proc.devRef .tc main_v247))
          (ucol_7 (W (Proc.devRef .tc main_arg0))) := by
  simp only [chunk_7, StableHlo.after_append]
  open StableHlo in after_results_simp
  simp only [StableHlo.TRef.toBuf, StableHlo.TRef.ofBuf, cast_eq, id_eq]
  rfl

end Cert.KernelIdeal.Hand

end
-- ==== Proof.KIHostStep08.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_8 : List (HloOp τ sig (Elt F)) :=
  hostOps0_80 ++ hostOps0_81 ++ hostOps0_82 ++ hostOps0_83 ++ hostOps0_84 ++ hostOps0_85 ++ hostOps0_86 ++ hostOps0_87 ++ hostOps0_88 ++ hostOps0_89

theorem chunk_8_from : AllFrom 488 (chunk_8 (F := F)) := .of_forall (by
  simp only [chunk_8, hostOps0_80, hostOps0_81, hostOps0_82, hostOps0_83, hostOps0_84, hostOps0_85, hostOps0_86, hostOps0_87, hostOps0_88, hostOps0_89, List.cons_append, List.nil_append]
  writes_from)

theorem chunk_8_value (W : Valuation τ sig (Elt F)) :
    StableHlo.after chunk_8 W (Proc.devRef .tc main_v313)
      = stepK_ad (W (Proc.devRef .tc main_v6)) (W (Proc.devRef .tc main_arg4)) (W (Proc.devRef .tc main_v280))
          (ucol_8 (W (Proc.devRef .tc main_arg0))) := by
  simp only [chunk_8, StableHlo.after_append]
  open StableHlo in after_results_simp
  simp only [StableHlo.TRef.toBuf, StableHlo.TRef.ofBuf, cast_eq, id_eq]
  rfl

end Cert.KernelIdeal.Hand

end
-- ==== Proof.KIHostStep09.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_9 : List (HloOp τ sig (Elt F)) :=
  hostOps0_90 ++ hostOps0_91 ++ hostOps0_92 ++ hostOps0_93 ++ hostOps0_94 ++ hostOps0_95 ++ hostOps0_96 ++ hostOps0_97 ++ hostOps0_98 ++ hostOps0_99

theorem chunk_9_from : AllFrom 546 (chunk_9 (F := F)) := .of_forall (by
  simp only [chunk_9, hostOps0_90, hostOps0_91, hostOps0_92, hostOps0_93, hostOps0_94, hostOps0_95, hostOps0_96, hostOps0_97, hostOps0_98, hostOps0_99, List.cons_append, List.nil_append]
  writes_from)

theorem chunk_9_value (W : Valuation τ sig (Elt F)) :
    StableHlo.after chunk_9 W (Proc.devRef .tc main_v346)
      = stepK_da (W (Proc.devRef .tc main_v13)) (W (Proc.devRef .tc main_arg6)) (W (Proc.devRef .tc main_v313))
          (ucol_9 (W (Proc.devRef .tc main_arg0))) := by
  simp only [chunk_9, StableHlo.after_append]
  open StableHlo in after_results_simp
  simp only [StableHlo.TRef.toBuf, StableHlo.TRef.ofBuf, cast_eq, id_eq]
  rfl

end Cert.KernelIdeal.Hand

end
-- ==== Proof.KIHostStep10.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_10 : List (HloOp τ sig (Elt F)) :=
  hostOps0_100 ++ hostOps0_101 ++ hostOps0_102 ++ hostOps0_103 ++ hostOps0_104 ++ hostOps0_105 ++ hostOps0_106 ++ hostOps0_107 ++ hostOps0_108 ++ hostOps0_109

theorem chunk_10_from : AllFrom 604 (chunk_10 (F := F)) := .of_forall (by
  simp only [chunk_10, hostOps0_100, hostOps0_101, hostOps0_102, hostOps0_103, hostOps0_104, hostOps0_105, hostOps0_106, hostOps0_107, hostOps0_108, hostOps0_109, List.cons_append, List.nil_append]
  writes_from)

theorem chunk_10_value (W : Valuation τ sig (Elt F)) :
    StableHlo.after chunk_10 W (Proc.devRef .tc main_v379)
      = stepK_ad (W (Proc.devRef .tc main_v6)) (W (Proc.devRef .tc main_arg4)) (W (Proc.devRef .tc main_v346))
          (ucol_10 (W (Proc.devRef .tc main_arg0))) := by
  simp only [chunk_10, StableHlo.after_append]
  open StableHlo in after_results_simp
  simp only [StableHlo.TRef.toBuf, StableHlo.TRef.ofBuf, cast_eq, id_eq]
  rfl

end Cert.KernelIdeal.Hand

end
-- ==== Proof.KIHostStep11.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_11 : List (HloOp τ sig (Elt F)) :=
  hostOps0_110 ++ hostOps0_111 ++ hostOps0_112 ++ hostOps0_113 ++ hostOps0_114 ++ hostOps0_115 ++ hostOps0_116 ++ hostOps0_117 ++ hostOps0_118 ++ hostOps0_119

theorem chunk_11_from : AllFrom 662 (chunk_11 (F := F)) := .of_forall (by
  simp only [chunk_11, hostOps0_110, hostOps0_111, hostOps0_112, hostOps0_113, hostOps0_114, hostOps0_115, hostOps0_116, hostOps0_117, hostOps0_118, hostOps0_119, List.cons_append, List.nil_append]
  writes_from)

theorem chunk_11_value (W : Valuation τ sig (Elt F)) :
    StableHlo.after chunk_11 W (Proc.devRef .tc main_v412)
      = stepK_da (W (Proc.devRef .tc main_v13)) (W (Proc.devRef .tc main_arg6)) (W (Proc.devRef .tc main_v379))
          (ucol_11 (W (Proc.devRef .tc main_arg0))) := by
  simp only [chunk_11, StableHlo.after_append]
  open StableHlo in after_results_simp
  simp only [StableHlo.TRef.toBuf, StableHlo.TRef.ofBuf, cast_eq, id_eq]
  rfl

end Cert.KernelIdeal.Hand

end
-- ==== Proof.KIHostStep12.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_12 : List (HloOp τ sig (Elt F)) :=
  hostOps0_120 ++ hostOps0_121 ++ hostOps0_122 ++ hostOps0_123 ++ hostOps0_124 ++ hostOps0_125 ++ hostOps0_126 ++ hostOps0_127 ++ hostOps0_128 ++ hostOps0_129

theorem chunk_12_from : AllFrom 720 (chunk_12 (F := F)) := .of_forall (by
  simp only [chunk_12, hostOps0_120, hostOps0_121, hostOps0_122, hostOps0_123, hostOps0_124, hostOps0_125, hostOps0_126, hostOps0_127, hostOps0_128, hostOps0_129, List.cons_append, List.nil_append]
  writes_from)

theorem chunk_12_value (W : Valuation τ sig (Elt F)) :
    StableHlo.after chunk_12 W (Proc.devRef .tc main_v445)
      = stepK_ad (W (Proc.devRef .tc main_v6)) (W (Proc.devRef .tc main_arg4)) (W (Proc.devRef .tc main_v412))
          (ucol_12 (W (Proc.devRef .tc main_arg0))) := by
  simp only [chunk_12, StableHlo.after_append]
  open StableHlo in after_results_simp
  simp only [StableHlo.TRef.toBuf, StableHlo.TRef.ofBuf, cast_eq, id_eq]
  rfl

end Cert.KernelIdeal.Hand

end
-- ==== Proof.KIHostStep13.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_13 : List (HloOp τ sig (Elt F)) :=
  hostOps0_130 ++ hostOps0_131 ++ hostOps0_132 ++ hostOps0_133 ++ hostOps0_134 ++ hostOps0_135 ++ hostOps0_136 ++ hostOps0_137 ++ hostOps0_138 ++ hostOps0_139

theorem chunk_13_from : AllFrom 778 (chunk_13 (F := F)) := .of_forall (by
  simp only [chunk_13, hostOps0_130, hostOps0_131, hostOps0_132, hostOps0_133, hostOps0_134, hostOps0_135, hostOps0_136, hostOps0_137, hostOps0_138, hostOps0_139, List.cons_append, List.nil_append]
  writes_from)

theorem chunk_13_value (W : Valuation τ sig (Elt F)) :
    StableHlo.after chunk_13 W (Proc.devRef .tc main_v478)
      = stepK_da (W (Proc.devRef .tc main_v13)) (W (Proc.devRef .tc main_arg6)) (W (Proc.devRef .tc main_v445))
          (ucol_13 (W (Proc.devRef .tc main_arg0))) := by
  simp only [chunk_13, StableHlo.after_append]
  open StableHlo in after_results_simp
  simp only [StableHlo.TRef.toBuf, StableHlo.TRef.ofBuf, cast_eq, id_eq]
  rfl

end Cert.KernelIdeal.Hand

end
-- ==== Proof.KIHostStep14.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_14 : List (HloOp τ sig (Elt F)) :=
  hostOps0_140 ++ hostOps0_141 ++ hostOps0_142 ++ hostOps0_143 ++ hostOps0_144 ++ hostOps0_145 ++ hostOps0_146 ++ hostOps0_147 ++ hostOps0_148 ++ hostOps0_149

theorem chunk_14_from : AllFrom 836 (chunk_14 (F := F)) := .of_forall (by
  simp only [chunk_14, hostOps0_140, hostOps0_141, hostOps0_142, hostOps0_143, hostOps0_144, hostOps0_145, hostOps0_146, hostOps0_147, hostOps0_148, hostOps0_149, List.cons_append, List.nil_append]
  writes_from)

theorem chunk_14_value (W : Valuation τ sig (Elt F)) :
    StableHlo.after chunk_14 W (Proc.devRef .tc main_v511)
      = stepK_ad (W (Proc.devRef .tc main_v6)) (W (Proc.devRef .tc main_arg4)) (W (Proc.devRef .tc main_v478))
          (ucol_14 (W (Proc.devRef .tc main_arg0))) := by
  simp only [chunk_14, StableHlo.after_append]
  open StableHlo in after_results_simp
  simp only [StableHlo.TRef.toBuf, StableHlo.TRef.ofBuf, cast_eq, id_eq]
  rfl

end Cert.KernelIdeal.Hand

end
-- ==== Proof.KIHostStep15.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_15 : List (HloOp τ sig (Elt F)) :=
  hostOps0_150 ++ hostOps0_151 ++ hostOps0_152 ++ hostOps0_153 ++ hostOps0_154 ++ hostOps0_155 ++ hostOps0_156 ++ hostOps0_157 ++ hostOps0_158 ++ hostOps0_159

theorem chunk_15_from : AllFrom 894 (chunk_15 (F := F)) := .of_forall (by
  simp only [chunk_15, hostOps0_150, hostOps0_151, hostOps0_152, hostOps0_153, hostOps0_154, hostOps0_155, hostOps0_156, hostOps0_157, hostOps0_158, hostOps0_159, List.cons_append, List.nil_append]
  writes_from)

theorem chunk_15_value (W : Valuation τ sig (Elt F)) :
    StableHlo.after chunk_15 W (Proc.devRef .tc main_v544)
      = stepK_da (W (Proc.devRef .tc main_v13)) (W (Proc.devRef .tc main_arg6)) (W (Proc.devRef .tc main_v511))
          (ucol_15 (W (Proc.devRef .tc main_arg0))) := by
  simp only [chunk_15, StableHlo.after_append]
  open StableHlo in after_results_simp
  simp only [StableHlo.TRef.toBuf, StableHlo.TRef.ofBuf, cast_eq, id_eq]
  rfl

end Cert.KernelIdeal.Hand

end
-- ==== Proof.KIHostStep16.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_16 : List (HloOp τ sig (Elt F)) :=
  hostOps0_160 ++ hostOps0_161 ++ hostOps0_162 ++ hostOps0_163 ++ hostOps0_164 ++ hostOps0_165 ++ hostOps0_166 ++ hostOps0_167 ++ hostOps0_168 ++ hostOps0_169

theorem chunk_16_from : AllFrom 952 (chunk_16 (F := F)) := .of_forall (by
  simp only [chunk_16, hostOps0_160, hostOps0_161, hostOps0_162, hostOps0_163, hostOps0_164, hostOps0_165, hostOps0_166, hostOps0_167, hostOps0_168, hostOps0_169, List.cons_append, List.nil_append]
  writes_from)

theorem chunk_16_value (W : Valuation τ sig (Elt F)) :
    StableHlo.after chunk_16 W (Proc.devRef .tc main_v577)
      = stepK_ad (W (Proc.devRef .tc main_v6)) (W (Proc.devRef .tc main_arg4)) (W (Proc.devRef .tc main_v544))
          (ucol_16 (W (Proc.devRef .tc main_arg0))) := by
  simp only [chunk_16, StableHlo.after_append]
  open StableHlo in after_results_simp
  simp only [StableHlo.TRef.toBuf, StableHlo.TRef.ofBuf, cast_eq, id_eq]
  rfl

end Cert.KernelIdeal.Hand

end
-- ==== Proof.KIHostStep17.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_17 : List (HloOp τ sig (Elt F)) :=
  hostOps0_170 ++ hostOps0_171 ++ hostOps0_172 ++ hostOps0_173 ++ hostOps0_174 ++ hostOps0_175 ++ hostOps0_176 ++ hostOps0_177 ++ hostOps0_178 ++ hostOps0_179

theorem chunk_17_from : AllFrom 1010 (chunk_17 (F := F)) := .of_forall (by
  simp only [chunk_17, hostOps0_170, hostOps0_171, hostOps0_172, hostOps0_173, hostOps0_174, hostOps0_175, hostOps0_176, hostOps0_177, hostOps0_178, hostOps0_179, List.cons_append, List.nil_append]
  writes_from)

theorem chunk_17_value (W : Valuation τ sig (Elt F)) :
    StableHlo.after chunk_17 W (Proc.devRef .tc main_v610)
      = stepK_da (W (Proc.devRef .tc main_v13)) (W (Proc.devRef .tc main_arg6)) (W (Proc.devRef .tc main_v577))
          (ucol_17 (W (Proc.devRef .tc main_arg0))) := by
  simp only [chunk_17, StableHlo.after_append]
  open StableHlo in after_results_simp
  simp only [StableHlo.TRef.toBuf, StableHlo.TRef.ofBuf, cast_eq, id_eq]
  rfl

end Cert.KernelIdeal.Hand

end
-- ==== Proof.KIHostStep18.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_18 : List (HloOp τ sig (Elt F)) :=
  hostOps0_180 ++ hostOps0_181 ++ hostOps0_182 ++ hostOps0_183 ++ hostOps0_184 ++ hostOps0_185 ++ hostOps0_186 ++ hostOps0_187 ++ hostOps0_188 ++ hostOps0_189

theorem chunk_18_from : AllFrom 1068 (chunk_18 (F := F)) := .of_forall (by
  simp only [chunk_18, hostOps0_180, hostOps0_181, hostOps0_182, hostOps0_183, hostOps0_184, hostOps0_185, hostOps0_186, hostOps0_187, hostOps0_188, hostOps0_189, List.cons_append, List.nil_append]
  writes_from)

theorem chunk_18_value (W : Valuation τ sig (Elt F)) :
    StableHlo.after chunk_18 W (Proc.devRef .tc main_v643)
      = stepK_ad (W (Proc.devRef .tc main_v6)) (W (Proc.devRef .tc main_arg4)) (W (Proc.devRef .tc main_v610))
          (ucol_18 (W (Proc.devRef .tc main_arg0))) := by
  simp only [chunk_18, StableHlo.after_append]
  open StableHlo in after_results_simp
  simp only [StableHlo.TRef.toBuf, StableHlo.TRef.ofBuf, cast_eq, id_eq]
  rfl

end Cert.KernelIdeal.Hand

end
-- ==== Proof.KIHostStep19.lean ====
import proofs.«416388_j86139864089342_3_alg».proof.Proof.Gen.KernelIdeal.Launch
import proofs.«416388_j86139864089342_3_alg».proof.Proof.KIStep
import proofs.«416388_j86139864089342_3_alg».proof.Proof.LibWrites
import Idealize.ShloMosaic.Lib.Pipeline.Frame

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]

noncomputable abbrev chunk_19 : List (HloOp τ sig (Elt F)) :=
  hostOps0_190 ++ hostOps0_191 ++ hostOps0_192 ++ hostOps0_193 ++ hostOps0_194 ++ hostOps0_195 ++ hostOps0_196 ++ hostOps0_197 ++ hostOps0_198 ++ hostOps0_199

theorem chunk_19_from : AllFrom 1126 (chunk_19 (F := F)) := .of_forall (by
  simp only [chunk_19, hostOps0_190, hostOps0_191, hostOps0_192, hostOps0_193, hostOps0_194, hostOps0_195, hostOps0_196, hostOps0_197, hostOps0_198, hostOps0_199, List.cons_append, List.nil_append]
  writes_from)

theorem chunk_19_value (W : Valuation τ sig (Elt F)) :
    StableHlo.after chunk_19 W (Proc.devRef .tc main_v676)
      = stepK_da (W (Proc.devRef .tc main_v13)) (W (Proc.devRef .tc main_arg6)) (W (Proc.devRef .tc main_v643))
          (ucol_19 (W (Proc.devRef .tc main_arg0))) := by
  simp only [chunk_19, StableHlo.after_append]
  open StableHlo in after_results_simp
  simp only [StableHlo.TRef.toBuf, StableHlo.TRef.ofBuf, cast_eq, id_eq]
  rfl

end Cert.KernelIdeal.Hand

end
-- ==== Proof.KIHostChain.lean ====
import proofs.«416388_j86139864089342_3_alg».proof.Proof.KIHostWalk
import proofs.«416388_j86139864089342_3_alg».proof.Proof.KIHostStep00
import proofs.«416388_j86139864089342_3_alg».proof.Proof.KIHostStep01
import proofs.«416388_j86139864089342_3_alg».proof.Proof.KIHostStep02
import proofs.«416388_j86139864089342_3_alg».proof.Proof.KIHostStep03
import proofs.«416388_j86139864089342_3_alg».proof.Proof.KIHostStep04
import proofs.«416388_j86139864089342_3_alg».proof.Proof.KIHostStep05
import proofs.«416388_j86139864089342_3_alg».proof.Proof.KIHostStep06
import proofs.«416388_j86139864089342_3_alg».proof.Proof.KIHostStep07
import proofs.«416388_j86139864089342_3_alg».proof.Proof.KIHostStep08
import proofs.«416388_j86139864089342_3_alg».proof.Proof.KIHostStep09
import proofs.«416388_j86139864089342_3_alg».proof.Proof.KIHostStep10
import proofs.«416388_j86139864089342_3_alg».proof.Proof.KIHostStep11
import proofs.«416388_j86139864089342_3_alg».proof.Proof.KIHostStep12
import proofs.«416388_j86139864089342_3_alg».proof.Proof.KIHostStep13
import proofs.«416388_j86139864089342_3_alg».proof.Proof.KIHostStep14
import proofs.«416388_j86139864089342_3_alg».proof.Proof.KIHostStep15
import proofs.«416388_j86139864089342_3_alg».proof.Proof.KIHostStep16
import proofs.«416388_j86139864089342_3_alg».proof.Proof.KIHostStep17
import proofs.«416388_j86139864089342_3_alg».proof.Proof.KIHostStep18
import proofs.«416388_j86139864089342_3_alg».proof.Proof.KIHostStep19

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The number of the first buffer step `k` writes: buffers are numbered in program order. -/
def lo : ℕ → ℕ
  | 0 => 7
  | k + 1 => 82 + 58 * k

theorem lo_mono {j k : ℕ} (h : j ≤ k) : lo j ≤ lo k := by
  cases j <;> cases k <;> simp only [lo] <;> omega

/-- Step `k`'s operations; they write no buffer numbered below `lo k`. -/
noncomputable def ops : (k : ℕ) → {l : List (HloOp τ sig (Elt F)) // AllFrom (lo k) l}
  | 0 => ⟨chunk_0, chunk_0_from⟩
  | 1 => ⟨chunk_1, chunk_1_from⟩
  | 2 => ⟨chunk_2, chunk_2_from⟩
  | 3 => ⟨chunk_3, chunk_3_from⟩
  | 4 => ⟨chunk_4, chunk_4_from⟩
  | 5 => ⟨chunk_5, chunk_5_from⟩
  | 6 => ⟨chunk_6, chunk_6_from⟩
  | 7 => ⟨chunk_7, chunk_7_from⟩
  | 8 => ⟨chunk_8, chunk_8_from⟩
  | 9 => ⟨chunk_9, chunk_9_from⟩
  | 10 => ⟨chunk_10, chunk_10_from⟩
  | 11 => ⟨chunk_11, chunk_11_from⟩
  | 12 => ⟨chunk_12, chunk_12_from⟩
  | 13 => ⟨chunk_13, chunk_13_from⟩
  | 14 => ⟨chunk_14, chunk_14_from⟩
  | 15 => ⟨chunk_15, chunk_15_from⟩
  | 16 => ⟨chunk_16, chunk_16_from⟩
  | 17 => ⟨chunk_17, chunk_17_from⟩
  | 18 => ⟨chunk_18, chunk_18_from⟩
  | 19 => ⟨chunk_19, chunk_19_from⟩
  | _ + 20 => ⟨[], fun _ h => nomatch h⟩

/-- The buffer of the walk's row `p`. -/
def cur : ℕ → StableHlo.TRef sig ⟨S204800, .i32⟩
  | 0 => .of main_v16
  | 1 => .of main_v49
  | 2 => .of main_v82
  | 3 => .of main_v115
  | 4 => .of main_v148
  | 5 => .of main_v181
  | 6 => .of main_v214
  | 7 => .of main_v247
  | 8 => .of main_v280
  | 9 => .of main_v313
  | 10 => .of main_v346
  | 11 => .of main_v379
  | 12 => .of main_v412
  | 13 => .of main_v445
  | 14 => .of main_v478
  | 15 => .of main_v511
  | 16 => .of main_v544
  | 17 => .of main_v577
  | 18 => .of main_v610
  | 19 => .of main_v643
  | _ => .of main_v676

/-- Row `p` as `W` holds it. -/
noncomputable def row (W : Valuation τ sig (Elt F)) (p : ℕ) : IVec S204800 32 := (cur p).ofBuf (W (cur p).ref)

/-- Core `c`'s buffers after the first `k` steps. -/
noncomputable def Wk (c : Dev nD) : ℕ → Valuation τ sig (Elt F)
  | 0 => fun b => m (c, b)
  | k + 1 => StableHlo.after (ops k).1 (Wk c k)

noncomputable def Wk20 (c : Dev nD) : Valuation τ sig (Elt F) := Wk m c 20

/-- A buffer numbered below step `j`'s first holds at every later stage what it held at stage `j`. -/
theorem Wk_keep (c : Dev nD) (r : Ref sig .tc) (j : ℕ) {k : ℕ} (hjk : j ≤ k) (hr : r.idx.val < lo j := by decide) :
    Wk m c k r = Wk m c j r := by
  induction k, hjk using Nat.le_induction with
  | base => rfl
  | succ k hjk ih => exact ((ops k).2.kept _ (hr.trans_le (lo_mono hjk))).trans ih

theorem Wk_arg (c : Dev nD) (r : Ref sig .tc) {k : ℕ} (hr : r.idx.val < lo 0 := by decide) :
    Wk m c k r = m ((c : Thread nD τ).loc r) :=
  Wk_keep m c r 0 (Nat.zero_le k) hr

/-- Step `k + 1` makes row `k + 2` by one sampling step from row `k + 1`, through the table and edge list of its parity. -/
theorem ops_value : ∀ k < 19, ∀ W : Valuation τ sig (Elt F),
    HEq (StableHlo.after (ops (k + 1)).1 W (cur (k + 2)).ref)
      ((match (k + 1) % 2 with
        | 0 => stepK_ad (W main_v6) (W main_arg4)
        | _ => stepK_da (W main_v13) (W main_arg6))
        (row W (k + 1)) (ucol (k + 1) (W main_arg0)))
  | 0, _, W => heq_of_eq (chunk_1_value W)
  | 1, _, W => heq_of_eq (chunk_2_value W)
  | 2, _, W => heq_of_eq (chunk_3_value W)
  | 3, _, W => heq_of_eq (chunk_4_value W)
  | 4, _, W => heq_of_eq (chunk_5_value W)
  | 5, _, W => heq_of_eq (chunk_6_value W)
  | 6, _, W => heq_of_eq (chunk_7_value W)
  | 7, _, W => heq_of_eq (chunk_8_value W)
  | 8, _, W => heq_of_eq (chunk_9_value W)
  | 9, _, W => heq_of_eq (chunk_10_value W)
  | 10, _, W => heq_of_eq (chunk_11_value W)
  | 11, _, W => heq_of_eq (chunk_12_value W)
  | 12, _, W => heq_of_eq (chunk_13_value W)
  | 13, _, W => heq_of_eq (chunk_14_value W)
  | 14, _, W => heq_of_eq (chunk_15_value W)
  | 15, _, W => heq_of_eq (chunk_16_value W)
  | 16, _, W => heq_of_eq (chunk_17_value W)
  | 17, _, W => heq_of_eq (chunk_18_value W)
  | 18, _, W => heq_of_eq (chunk_19_value W)
  | _ + 19, h, _ => absurd h (by omega)

/-- Stage `p + 1` holds row `p + 1`: step `p` has just made it from row `p`, the tables step 0 packed and the arguments. -/
theorem Wk_row (c : Dev nD) : ∀ p < 20, HEq (Wk m c (p + 1) (cur (p + 1)).ref) (walkK m c (p + 1))
  | 0, _ => heq_of_eq ((chunk_0_value _).trans (walkK_succ_even m c 0).symm)
  | p + 1, h => by
    have e : row (Wk m c (p + 1)) (p + 1) = walkK m c (p + 1) := eq_of_heq ((cast_heq _ _).trans (Wk_row c p (Nat.lt_of_succ_lt h)))
    refine (ops_value p (Nat.lt_of_succ_lt_succ h) _).trans (heq_of_eq ?_)
    rw [e, (Wk_keep m c main_v6 1 (Nat.le_add_left 1 p)).trans (chunk_0_v6 _),
      (Wk_keep m c main_v13 1 (Nat.le_add_left 1 p)).trans (chunk_0_v13 _), Wk_arg m c main_arg4, Wk_arg m c main_arg6, Wk_arg m c main_arg0]
    conv_rhs => rw [walkK]
    cases (p + 1) % 2 with
    | zero => exact (if_pos rfl).symm
    | succ n => exact (if_neg n.succ_ne_zero).symm

theorem cur_lt : ∀ p < 20, (cur (p + 1)).ref.idx.val < lo (p + 1) := by decide

/-- Row `p + 1` is the last buffer step `p` writes, so it is still there after the last step. -/
theorem Wk20_row (c : Dev nD) (p : ℕ) (hp : p < 20 := by decide) : HEq (Wk20 m c (cur (p + 1)).ref) (walkK m c (p + 1)) :=
  (heq_of_eq (Wk_keep m c _ (p + 1) hp (cur_lt p hp))).trans (Wk_row m c p hp)

theorem Wk20_arg0 (c : Dev nD) : Wk20 m c (Proc.devRef .tc main_arg0) = m ((c : Thread nD τ).loc main_arg0) := Wk_arg m c _
theorem Wk20_arg1 (c : Dev nD) : Wk20 m c (Proc.devRef .tc main_arg1) = m ((c : Thread nD τ).loc main_arg1) := Wk_arg m c _
theorem Wk20_arg2 (c : Dev nD) : Wk20 m c (Proc.devRef .tc main_arg2) = m ((c : Thread nD τ).loc main_arg2) := Wk_arg m c _
theorem Wk20_arg3 (c : Dev nD) : Wk20 m c (Proc.devRef .tc main_arg3) = m ((c : Thread nD τ).loc main_arg3) := Wk_arg m c _
theorem Wk20_arg4 (c : Dev nD) : Wk20 m c (Proc.devRef .tc main_arg4) = m ((c : Thread nD τ).loc main_arg4) := Wk_arg m c _
theorem Wk20_arg5 (c : Dev nD) : Wk20 m c (Proc.devRef .tc main_arg5) = m ((c : Thread nD τ).loc main_arg5) := Wk_arg m c _
theorem Wk20_arg6 (c : Dev nD) : Wk20 m c (Proc.devRef .tc main_arg6) = m ((c : Thread nD τ).loc main_arg6) := Wk_arg m c _

theorem Wk20_cur0 (c : Dev nD) : Wk20 m c (Proc.devRef .tc main_v16) = walkK m c 0 :=
  (Wk_keep m c main_v16 1 (by decide)).trans (chunk_0_v16 _)
theorem Wk20_cur1 (c : Dev nD) : Wk20 m c (Proc.devRef .tc main_v49) = walkK m c 1 := eq_of_heq (Wk20_row m c 0)
theorem Wk20_cur2 (c : Dev nD) : Wk20 m c (Proc.devRef .tc main_v82) = walkK m c 2 := eq_of_heq (Wk20_row m c 1)
theorem Wk20_cur3 (c : Dev nD) : Wk20 m c (Proc.devRef .tc main_v115) = walkK m c 3 := eq_of_heq (Wk20_row m c 2)
theorem Wk20_cur4 (c : Dev nD) : Wk20 m c (Proc.devRef .tc main_v148) = walkK m c 4 := eq_of_heq (Wk20_row m c 3)
theorem Wk20_cur5 (c : Dev nD) : Wk20 m c (Proc.devRef .tc main_v181) = walkK m c 5 := eq_of_heq (Wk20_row m c 4)
theorem Wk20_cur6 (c : Dev nD) : Wk20 m c (Proc.devRef .tc main_v214) = walkK m c 6 := eq_of_heq (Wk20_row m c 5)
theorem Wk20_cur7 (c : Dev nD) : Wk20 m c (Proc.devRef .tc main_v247) = walkK m c 7 := eq_of_heq (Wk20_row m c 6)
theorem Wk20_cur8 (c : Dev nD) : Wk20 m c (Proc.devRef .tc main_v280) = walkK m c 8 := eq_of_heq (Wk20_row m c 7)
theorem Wk20_cur9 (c : Dev nD) : Wk20 m c (Proc.devRef .tc main_v313) = walkK m c 9 := eq_of_heq (Wk20_row m c 8)
theorem Wk20_cur10 (c : Dev nD) : Wk20 m c (Proc.devRef .tc main_v346) = walkK m c 10 := eq_of_heq (Wk20_row m c 9)
theorem Wk20_cur11 (c : Dev nD) : Wk20 m c (Proc.devRef .tc main_v379) = walkK m c 11 := eq_of_heq (Wk20_row m c 10)
theorem Wk20_cur12 (c : Dev nD) : Wk20 m c (Proc.devRef .tc main_v412) = walkK m c 12 := eq_of_heq (Wk20_row m c 11)
theorem Wk20_cur13 (c : Dev nD) : Wk20 m c (Proc.devRef .tc main_v445) = walkK m c 13 := eq_of_heq (Wk20_row m c 12)
theorem Wk20_cur14 (c : Dev nD) : Wk20 m c (Proc.devRef .tc main_v478) = walkK m c 14 := eq_of_heq (Wk20_row m c 13)
theorem Wk20_cur15 (c : Dev nD) : Wk20 m c (Proc.devRef .tc main_v511) = walkK m c 15 := eq_of_heq (Wk20_row m c 14)
theorem Wk20_cur16 (c : Dev nD) : Wk20 m c (Proc.devRef .tc main_v544) = walkK m c 16 := eq_of_heq (Wk20_row m c 15)
theorem Wk20_cur17 (c : Dev nD) : Wk20 m c (Proc.devRef .tc main_v577) = walkK m c 17 := eq_of_heq (Wk20_row m c 16)
theorem Wk20_cur18 (c : Dev nD) : Wk20 m c (Proc.devRef .tc main_v610) = walkK m c 18 := eq_of_heq (Wk20_row m c 17)
theorem Wk20_cur19 (c : Dev nD) : Wk20 m c (Proc.devRef .tc main_v643) = walkK m c 19 := eq_of_heq (Wk20_row m c 18)
theorem Wk20_cur20 (c : Dev nD) : Wk20 m c (Proc.devRef .tc main_v676) = walkK m c 20 := eq_of_heq (Wk20_row m c 19)

end Cert.KernelIdeal.Hand

end
-- ==== Proof.KIHostTail.lean ====
import proofs.«416388_j86139864089342_3_alg».proof.Proof.Gen.KernelIdeal.Launch
import proofs.«416388_j86139864089342_3_alg».proof.Proof.LibWrites
import proofs.«416388_j86139864089342_3_alg».proof.Proof.KIStep
import Idealize.ShloMosaic.Lib.ValueIdx
import Idealize.ShloMosaic.Lib.ValueLayout
import Idealize.ShloMosaic.Lib.Pipeline.Value

set_option maxRecDepth 4096

noncomputable section

namespace Cert.KernelIdeal.Hand

open Idealize.ShloMosaic Idealize.ShloMosaic.TcCoe Idealize.SL.Sem Cert.KernelIdeal Cert.KernelIdeal.Gen
open Idealize.ShloMosaic.ValueIdx

variable {F : FTy → Type} [FloatOps F]

theorem tile_apply (batch : IVec S2048 32) (w : Fin 204800) :
    tile batch (ix1 w) = batch (ix1 ⟨w.val % 2048, Nat.mod_lt _ (by decide)⟩) := by
  unfold tile
  have hq : w.val / 2048 < 100 := by have := w.isLt; omega
  refine (shapeCast_apply _ _ (ix1 w) (ix2 (⟨w.val / 2048, hq⟩ : Fin 100) (⟨w.val % 2048, Nat.mod_lt _ (by decide)⟩ : Fin 2048)) ?_).trans ?_
  · rw [Shape.rowMajor_val_two, Shape.rowMajor_val_one]
    show w.val / 2048 * 2048 + w.val % 2048 = w.val
    omega
  refine (broadcastInDim_apply _ _ _ _ (ix2 (0 : Fin 1) (⟨w.val % 2048, Nat.mod_lt _ (by decide)⟩ : Fin 2048))
    (fun a => match a with | ⟨0, _⟩ => rfl | ⟨1, _⟩ => rfl)).trans ?_
  exact shapeCast_a_1a_apply _ _ _ _

def up (v : IVec S204800 32) : IVec S1x204800 32 := broadcastInDim S1x204800 ![1] bcast_S204800_S1x204800_1 v

theorem up_apply (v : IVec S204800 32) (u : Fin 1) (w : Fin 204800) : up v (ix2 u w) = v (ix1 w) :=
  broadcastInDim_apply _ _ _ _ _ (fun a => match a with | ⟨0, _⟩ => rfl)

theorem stack_apply {N : ℕ} (r : Fin N → IVec S204800 32)
    (h : Shape.Concatenates ((List.ofFn fun n : Fin N => (⟨S1x204800, up (r n)⟩ : (s : Shape) × (s.Idx → BitVec 32))).map (·.1))
      ⟨2, ![N, 204800]⟩ 0) (n : Fin N) (w : Fin 204800) :
    concatenate ⟨2, ![N, 204800]⟩ 0 (List.ofFn fun n : Fin N => (⟨S1x204800, up (r n)⟩ : (s : Shape) × (s.Idx → BitVec 32))) h (ix2 n w)
      = r n (ix1 w) :=
  (concatenate_ofFn_unit_apply (t := ⟨2, ![N, 204800]⟩) (s₁ := S1x204800) (0 : Fin 2) (fun n => up (r n)) h rfl rfl (ix2 n w) n rfl (ix2 (0 : Fin 1) w)
    (fun b => match b with | ⟨0, _⟩ => fun hb => absurd rfl hb | ⟨1, _⟩ => fun _ => rfl)).trans (up_apply _ _ _)

def curRows (W : Valuation τ sig (Elt F)) : Fin 21 → IVec S204800 32
  | ⟨0, _⟩ => W (Proc.devRef .tc main_v16)
  | ⟨1, _⟩ => W (Proc.devRef .tc main_v49)
  | ⟨2, _⟩ => W (Proc.devRef .tc main_v82)
  | ⟨3, _⟩ => W (Proc.devRef .tc main_v115)
  | ⟨4, _⟩ => W (Proc.devRef .tc main_v148)
  | ⟨5, _⟩ => W (Proc.devRef .tc main_v181)
  | ⟨6, _⟩ => W (Proc.devRef .tc main_v214)
  | ⟨7, _⟩ => W (Proc.devRef .tc main_v247)
  | ⟨8, _⟩ => W (Proc.devRef .tc main_v280)
  | ⟨9, _⟩ => W (Proc.devRef .tc main_v313)
  | ⟨10, _⟩ => W (Proc.devRef .tc main_v346)
  | ⟨11, _⟩ => W (Proc.devRef .tc main_v379)
  | ⟨12, _⟩ => W (Proc.devRef .tc main_v412)
  | ⟨13, _⟩ => W (Proc.devRef .tc main_v445)
  | ⟨14, _⟩ => W (Proc.devRef .tc main_v478)
  | ⟨15, _⟩ => W (Proc.devRef .tc main_v511)
  | ⟨16, _⟩ => W (Proc.devRef .tc main_v544)
  | ⟨17, _⟩ => W (Proc.devRef .tc main_v577)
  | ⟨18, _⟩ => W (Proc.devRef .tc main_v610)
  | ⟨19, _⟩ => W (Proc.devRef .tc main_v643)
  | ⟨20, _⟩ => W (Proc.devRef .tc main_v676)
  | ⟨_ + 21, h⟩ => absurd h (Nat.not_lt.2 (Nat.le_add_left _ _))

def stack21 (W : Valuation τ sig (Elt F)) : IVec S21x204800 32 :=
  concatenate S21x204800 0
    [⟨S16x204800, concatenate S16x204800 0
        (List.ofFn fun n : Fin 16 => (⟨S1x204800, up (curRows W (Fin.castLE (by decide) n))⟩ : (s : Shape) × (s.Idx → BitVec 32)))
        concatenates_S1x204800_S1x204800_S1x204800_S1x204800_S1x204800_S1x204800_S1x204800_S1x204800_S1x204800_S1x204800_S1x204800_S1x204800_S1x204800_S1x204800_S1x204800_S1x204800_S16x204800_d0⟩,
     ⟨S5x204800, concatenate S5x204800 0
        (List.ofFn fun n : Fin 5 => (⟨S1x204800, up (curRows W (Fin.natAdd 16 n))⟩ : (s : Shape) × (s.Idx → BitVec 32)))
        concatenates_S1x204800_S1x204800_S1x204800_S1x204800_S1x204800_S5x204800_d0⟩]
    concatenates_S16x204800_S5x204800_S21x204800_d0

theorem stack21_apply (W : Valuation τ sig (Elt F)) (p : Fin 21) (w : Fin 204800) :
    stack21 W (ix2 p w) = curRows W p (ix1 w) := by
  unfold stack21
  by_cases hp : p.val < 16
  · refine (concatenate_pair_apply_left (t := S21x204800) (s₁ := S16x204800) (s₂ := S5x204800) (0 : Fin 2) _ _ _ (ix2 p w) rfl (ix2 (⟨p.val, hp⟩ : Fin 16) w)
      (fun b => match b with | ⟨0, _⟩ => rfl | ⟨1, _⟩ => rfl)).trans ?_
    exact (stack_apply (N := 16) (fun n => curRows W (Fin.castLE (by decide) n)) _ ⟨p.val, hp⟩ w)
  · have hq : p.val - 16 < 5 := by have := p.isLt; omega
    refine (concatenate_pair_apply_right (t := S21x204800) (s₁ := S16x204800) (s₂ := S5x204800) (0 : Fin 2) _ _ _ (ix2 p w) rfl rfl (ix2 (⟨p.val - 16, hq⟩ : Fin 5) w)
      (fun b => match b with | ⟨0, _⟩ => fun hb => absurd rfl hb | ⟨1, _⟩ => fun _ => rfl) ?_).trans ?_
    · show p.val - 16 + 16 = p.val
      omega
    refine (stack_apply (N := 5) (fun n => curRows W (Fin.natAdd 16 n)) _ ⟨p.val - 16, hq⟩ w).trans ?_
    exact congrArg (fun q => curRows W q (ix1 w)) (Fin.ext (show 16 + (p.val - 16) = p.val by omega))

theorem tail_v700 (W : Valuation τ sig (Elt F)) :
    StableHlo.after hostOps0_200 W (Proc.devRef .tc main_v700) = stack21 W := by
  open StableHlo in
  simp (disch := decide) only [after_cons, after_nil, unary_result', binary_result', reshape_result', nary_result',
    unary_result_ne', binary_result_ne', reshape_result_ne', nary_result_ne', Matrix.cons_val]
  rfl

theorem tail_v701 (W : Valuation τ sig (Elt F)) (q : Fin 20) (w : Fin 204800) :
    StableHlo.after hostOps0_200 W (Proc.devRef .tc main_v701) (ix2 q w) = W (Proc.devRef .tc main_arg1) (ix2 w q) := by
  have h : StableHlo.after hostOps0_200 W (Proc.devRef .tc main_v701)
      = transpose S20x204800 [1, 0] (W (Proc.devRef .tc main_arg1)) transposes_S204800x20_S20x204800_1_0 := by
    open StableHlo in after_results_simp
  rw [h]
  exact transpose_ix2_apply _ _ q w

theorem tail_v705 (W : Valuation τ sig (Elt F)) (w : Fin 204800) :
    StableHlo.after hostOps0_200 W (Proc.devRef .tc main_v705) (ix2 (0 : Fin 1) w)
      = W (Proc.devRef .tc main_arg2) (ix1 ⟨w.val % 2048, Nat.mod_lt _ (by decide)⟩) := by
  have h : StableHlo.after hostOps0_200 W (Proc.devRef .tc main_v705)
      = shapeCast S1x204800 (tile (W (Proc.devRef .tc main_arg2))) shapeCasts_S204800_S1x204800 := by
    open StableHlo in after_results_simp
    rfl
  rw [h]
  exact (shapeCast_a_1a_apply _ _ _ _).trans (tile_apply _ w)

theorem tail_from : AllFrom 1184 (hostOps0_200 : List (HloOp τ sig (Elt F))) := .of_forall (by
  simp only [hostOps0_200]
  writes_from)

theorem tail_keep (W : Valuation τ sig (Elt F)) (r : Ref sig .tc) (h : r.idx.val < 1184) :
    StableHlo.after hostOps0_200 W (Proc.devRef .tc r) = W (Proc.devRef .tc r) := tail_from.kept W h

end Cert.KernelIdeal.Hand

end
-- ==== Proof.KIHost.lean ====
import proofs.«416388_j86139864089342_3_alg».proof.Proof.KIBase
import proofs.«416388_j86139864089342_3_alg».proof.Proof.KIHostChain
import proofs.«416388_j86139864089342_3_alg».proof.Proof.KIHostTail
import Mathlib.Tactic.IntervalCases

set_option maxRecDepth 4096

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

theorem preStretches_flatten :
    List.flatten (preStretches (F := F))
      = chunk_0 ++ (chunk_1 ++ (chunk_2 ++ (chunk_3 ++ (chunk_4 ++ (chunk_5 ++ (chunk_6 ++ (chunk_7 ++ (chunk_8 ++ (chunk_9 ++ (chunk_10 ++ (chunk_11 ++ (chunk_12 ++ (chunk_13 ++ (chunk_14 ++ (chunk_15 ++ (chunk_16 ++ (chunk_17 ++ (chunk_18 ++ (chunk_19 ++ hostOps0_200))))))))))))))))))) := by
  simp only [preStretches, chunk_0, chunk_1, chunk_2, chunk_3, chunk_4, chunk_5, chunk_6, chunk_7, chunk_8, chunk_9, chunk_10, chunk_11, chunk_12, chunk_13, chunk_14, chunk_15, chunk_16, chunk_17, chunk_18, chunk_19, List.flatten_cons, List.flatten_nil,
    List.append_assoc, List.append_nil]

theorem V0_eq (c : Dev nD) : V0 m c = StableHlo.after hostOps0_200 (Wk20 m c) := by
  show StableHlo.after (List.flatten preStretches) (fun b => m (c, b)) = _
  rw [preStretches_flatten, StableHlo.after_append chunk_0, StableHlo.after_append chunk_1, StableHlo.after_append chunk_2, StableHlo.after_append chunk_3, StableHlo.after_append chunk_4, StableHlo.after_append chunk_5, StableHlo.after_append chunk_6, StableHlo.after_append chunk_7, StableHlo.after_append chunk_8, StableHlo.after_append chunk_9, StableHlo.after_append chunk_10, StableHlo.after_append chunk_11, StableHlo.after_append chunk_12, StableHlo.after_append chunk_13, StableHlo.after_append chunk_14, StableHlo.after_append chunk_15, StableHlo.after_append chunk_16, StableHlo.after_append chunk_17, StableHlo.after_append chunk_18, StableHlo.after_append chunk_19]
  rfl

theorem V_cur0 (c : Dev nD) : V m c main_v16 = walkK m c 0 :=
  (congrFun (V0_eq m c) (Proc.devRef .tc main_v16)).trans ((tail_keep _ main_v16 (by decide)).trans (Wk20_cur0 m c))
theorem V_cur1 (c : Dev nD) : V m c main_v49 = walkK m c 1 :=
  (congrFun (V0_eq m c) (Proc.devRef .tc main_v49)).trans ((tail_keep _ main_v49 (by decide)).trans (Wk20_cur1 m c))
theorem V_cur2 (c : Dev nD) : V m c main_v82 = walkK m c 2 :=
  (congrFun (V0_eq m c) (Proc.devRef .tc main_v82)).trans ((tail_keep _ main_v82 (by decide)).trans (Wk20_cur2 m c))
theorem V_cur3 (c : Dev nD) : V m c main_v115 = walkK m c 3 :=
  (congrFun (V0_eq m c) (Proc.devRef .tc main_v115)).trans ((tail_keep _ main_v115 (by decide)).trans (Wk20_cur3 m c))
theorem V_cur4 (c : Dev nD) : V m c main_v148 = walkK m c 4 :=
  (congrFun (V0_eq m c) (Proc.devRef .tc main_v148)).trans ((tail_keep _ main_v148 (by decide)).trans (Wk20_cur4 m c))
theorem V_cur5 (c : Dev nD) : V m c main_v181 = walkK m c 5 :=
  (congrFun (V0_eq m c) (Proc.devRef .tc main_v181)).trans ((tail_keep _ main_v181 (by decide)).trans (Wk20_cur5 m c))
theorem V_cur6 (c : Dev nD) : V m c main_v214 = walkK m c 6 :=
  (congrFun (V0_eq m c) (Proc.devRef .tc main_v214)).trans ((tail_keep _ main_v214 (by decide)).trans (Wk20_cur6 m c))
theorem V_cur7 (c : Dev nD) : V m c main_v247 = walkK m c 7 :=
  (congrFun (V0_eq m c) (Proc.devRef .tc main_v247)).trans ((tail_keep _ main_v247 (by decide)).trans (Wk20_cur7 m c))
theorem V_cur8 (c : Dev nD) : V m c main_v280 = walkK m c 8 :=
  (congrFun (V0_eq m c) (Proc.devRef .tc main_v280)).trans ((tail_keep _ main_v280 (by decide)).trans (Wk20_cur8 m c))
theorem V_cur9 (c : Dev nD) : V m c main_v313 = walkK m c 9 :=
  (congrFun (V0_eq m c) (Proc.devRef .tc main_v313)).trans ((tail_keep _ main_v313 (by decide)).trans (Wk20_cur9 m c))
theorem V_cur10 (c : Dev nD) : V m c main_v346 = walkK m c 10 :=
  (congrFun (V0_eq m c) (Proc.devRef .tc main_v346)).trans ((tail_keep _ main_v346 (by decide)).trans (Wk20_cur10 m c))
theorem V_cur11 (c : Dev nD) : V m c main_v379 = walkK m c 11 :=
  (congrFun (V0_eq m c) (Proc.devRef .tc main_v379)).trans ((tail_keep _ main_v379 (by decide)).trans (Wk20_cur11 m c))
theorem V_cur12 (c : Dev nD) : V m c main_v412 = walkK m c 12 :=
  (congrFun (V0_eq m c) (Proc.devRef .tc main_v412)).trans ((tail_keep _ main_v412 (by decide)).trans (Wk20_cur12 m c))
theorem V_cur13 (c : Dev nD) : V m c main_v445 = walkK m c 13 :=
  (congrFun (V0_eq m c) (Proc.devRef .tc main_v445)).trans ((tail_keep _ main_v445 (by decide)).trans (Wk20_cur13 m c))
theorem V_cur14 (c : Dev nD) : V m c main_v478 = walkK m c 14 :=
  (congrFun (V0_eq m c) (Proc.devRef .tc main_v478)).trans ((tail_keep _ main_v478 (by decide)).trans (Wk20_cur14 m c))
theorem V_cur15 (c : Dev nD) : V m c main_v511 = walkK m c 15 :=
  (congrFun (V0_eq m c) (Proc.devRef .tc main_v511)).trans ((tail_keep _ main_v511 (by decide)).trans (Wk20_cur15 m c))
theorem V_cur16 (c : Dev nD) : V m c main_v544 = walkK m c 16 :=
  (congrFun (V0_eq m c) (Proc.devRef .tc main_v544)).trans ((tail_keep _ main_v544 (by decide)).trans (Wk20_cur16 m c))
theorem V_cur17 (c : Dev nD) : V m c main_v577 = walkK m c 17 :=
  (congrFun (V0_eq m c) (Proc.devRef .tc main_v577)).trans ((tail_keep _ main_v577 (by decide)).trans (Wk20_cur17 m c))
theorem V_cur18 (c : Dev nD) : V m c main_v610 = walkK m c 18 :=
  (congrFun (V0_eq m c) (Proc.devRef .tc main_v610)).trans ((tail_keep _ main_v610 (by decide)).trans (Wk20_cur18 m c))
theorem V_cur19 (c : Dev nD) : V m c main_v643 = walkK m c 19 :=
  (congrFun (V0_eq m c) (Proc.devRef .tc main_v643)).trans ((tail_keep _ main_v643 (by decide)).trans (Wk20_cur19 m c))
theorem V_cur20 (c : Dev nD) : V m c main_v676 = walkK m c 20 :=
  (congrFun (V0_eq m c) (Proc.devRef .tc main_v676)).trans ((tail_keep _ main_v676 (by decide)).trans (Wk20_cur20 m c))

theorem curRows_of (W : Valuation τ sig (Elt F)) (f : ℕ → IVec S204800 32)
    (h0 : W (Proc.devRef .tc main_v16) = f 0)
    (h1 : W (Proc.devRef .tc main_v49) = f 1)
    (h2 : W (Proc.devRef .tc main_v82) = f 2)
    (h3 : W (Proc.devRef .tc main_v115) = f 3)
    (h4 : W (Proc.devRef .tc main_v148) = f 4)
    (h5 : W (Proc.devRef .tc main_v181) = f 5)
    (h6 : W (Proc.devRef .tc main_v214) = f 6)
    (h7 : W (Proc.devRef .tc main_v247) = f 7)
    (h8 : W (Proc.devRef .tc main_v280) = f 8)
    (h9 : W (Proc.devRef .tc main_v313) = f 9)
    (h10 : W (Proc.devRef .tc main_v346) = f 10)
    (h11 : W (Proc.devRef .tc main_v379) = f 11)
    (h12 : W (Proc.devRef .tc main_v412) = f 12)
    (h13 : W (Proc.devRef .tc main_v445) = f 13)
    (h14 : W (Proc.devRef .tc main_v478) = f 14)
    (h15 : W (Proc.devRef .tc main_v511) = f 15)
    (h16 : W (Proc.devRef .tc main_v544) = f 16)
    (h17 : W (Proc.devRef .tc main_v577) = f 17)
    (h18 : W (Proc.devRef .tc main_v610) = f 18)
    (h19 : W (Proc.devRef .tc main_v643) = f 19)
    (h20 : W (Proc.devRef .tc main_v676) = f 20)
    (p : Fin 21) : curRows W p = f p.val := by
  obtain ⟨p, hp⟩ := p
  interval_cases p
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18
  · exact h19
  · exact h20

theorem curRows_Wk20 (c : Dev nD) (p : Fin 21) : curRows (Wk20 m c) p = walkK m c p.val :=
  curRows_of (Wk20 m c) (walkK m c)
    (Wk20_cur0 m c)
    (Wk20_cur1 m c)
    (Wk20_cur2 m c)
    (Wk20_cur3 m c)
    (Wk20_cur4 m c)
    (Wk20_cur5 m c)
    (Wk20_cur6 m c)
    (Wk20_cur7 m c)
    (Wk20_cur8 m c)
    (Wk20_cur9 m c)
    (Wk20_cur10 m c)
    (Wk20_cur11 m c)
    (Wk20_cur12 m c)
    (Wk20_cur13 m c)
    (Wk20_cur14 m c)
    (Wk20_cur15 m c)
    (Wk20_cur16 m c)
    (Wk20_cur17 m c)
    (Wk20_cur18 m c)
    (Wk20_cur19 m c)
    (Wk20_cur20 m c)
    p

theorem V_rwT (c : Dev nD) (p : Fin 21) (w : Fin 204800) :
    V m c main_v700 (ValueIdx.ix2 p w) = walkK m c p.val (ValueIdx.ix1 w) :=
  (congrFun ((congrFun (V0_eq m c) (Proc.devRef .tc main_v700)).trans (tail_v700 _)) (ValueIdx.ix2 p w)).trans
    ((stack21_apply _ p w).trans (congrFun (curRows_Wk20 m c p) (ValueIdx.ix1 w)))

theorem V_negT (c : Dev nD) (q : Fin 20) (w : Fin 204800) :
    V m c main_v701 (ValueIdx.ix2 q w) = m ((c : Thread nD τ).loc main_arg1) (ValueIdx.ix2 w q) :=
  (congrFun (congrFun (V0_eq m c) (Proc.devRef .tc main_v701)) (ValueIdx.ix2 q w)).trans
    ((tail_v701 _ q w).trans (congrFun (Wk20_arg1 m c) (ValueIdx.ix2 w q)))

theorem V_tb (c : Dev nD) (w : Fin 204800) :
    V m c main_v705 (ValueIdx.ix2 (0 : Fin 1) w)
      = m ((c : Thread nD τ).loc main_arg2) (ValueIdx.ix1 ⟨w.val % 2048, Nat.mod_lt _ (by decide)⟩) :=
  (congrFun (congrFun (V0_eq m c) (Proc.devRef .tc main_v705)) (ValueIdx.ix2 (0 : Fin 1) w)).trans
    ((tail_v705 _ w).trans (congrFun (Wk20_arg2 m c) _))

theorem V_arg0 (c : Dev nD) : V m c main_arg0 = m ((c : Thread nD τ).loc main_arg0) :=
  (congrFun (V0_eq m c) (Proc.devRef .tc main_arg0)).trans ((tail_keep _ main_arg0 (by decide)).trans (Wk20_arg0 m c))
theorem V_arg1 (c : Dev nD) : V m c main_arg1 = m ((c : Thread nD τ).loc main_arg1) :=
  (congrFun (V0_eq m c) (Proc.devRef .tc main_arg1)).trans ((tail_keep _ main_arg1 (by decide)).trans (Wk20_arg1 m c))
theorem V_arg2 (c : Dev nD) : V m c main_arg2 = m ((c : Thread nD τ).loc main_arg2) :=
  (congrFun (V0_eq m c) (Proc.devRef .tc main_arg2)).trans ((tail_keep _ main_arg2 (by decide)).trans (Wk20_arg2 m c))
theorem V_arg3 (c : Dev nD) : V m c main_arg3 = m ((c : Thread nD τ).loc main_arg3) :=
  (congrFun (V0_eq m c) (Proc.devRef .tc main_arg3)).trans ((tail_keep _ main_arg3 (by decide)).trans (Wk20_arg3 m c))
theorem V_arg4 (c : Dev nD) : V m c main_arg4 = m ((c : Thread nD τ).loc main_arg4) :=
  (congrFun (V0_eq m c) (Proc.devRef .tc main_arg4)).trans ((tail_keep _ main_arg4 (by decide)).trans (Wk20_arg4 m c))
theorem V_arg5 (c : Dev nD) : V m c main_arg5 = m ((c : Thread nD τ).loc main_arg5) :=
  (congrFun (V0_eq m c) (Proc.devRef .tc main_arg5)).trans ((tail_keep _ main_arg5 (by decide)).trans (Wk20_arg5 m c))
theorem V_arg6 (c : Dev nD) : V m c main_arg6 = m ((c : Thread nD τ).loc main_arg6) :=
  (congrFun (V0_eq m c) (Proc.devRef .tc main_arg6)).trans ((tail_keep _ main_arg6 (by decide)).trans (Wk20_arg6 m c))

end Cert.KernelIdeal.Hand

end
-- ==== Proof.KISpec.lean ====
import proofs.«416388_j86139864089342_3_alg».proof.Proof.Spec
import proofs.«416388_j86139864089342_3_alg».proof.Proof.KIValue
import proofs.«416388_j86139864089342_3_alg».proof.Proof.KIHost

noncomputable section

namespace Cert.KernelIdeal.Hand

open Idealize.ShloMosaic Idealize.ShloMosaic.TcCoe Idealize.ShloMosaic.ValueIdx Idealize.SL.Sem
open Cert.KernelIdeal Cert.KernelIdeal.Gen Cert.Walk

variable (m : (ℓ : Loc nD τ sig) → Buf (Elt Ideal) ℓ) (ρ : Dev nD → PrngReg)

theorem posK_walk (c : Dev nD) : posK (V m c main_v700) = posSpec (walkK m c) := by
  unfold posK
  refine posSpec_congr fun p hp => ?_
  have hp21 : p < 21 := by omega
  funext j
  have e : rowsOf (V m c main_v700) p j = V m c main_v700 (ix2 ⟨p, hp21⟩ (j 0)) := dif_pos hp21
  rw [e, V_rwT m c ⟨p, hp21⟩ (j 0)]
  exact congrArg (walkK m c p) (eq_ix1 j).symm

theorem negK_spec (c : Dev nD) :
    negK (V m c main_v701) (V m c main_v705)
      = negSpec (m ((c.tc : Thread nD τ).loc main_arg2)) (m ((c.tc : Thread nD τ).loc main_arg1)) := by
  unfold negK negSpec
  exact negSpecG_congr (fun w => V_tb m c w) (fun w q => V_negT m c q w)

theorem run_spec : θ_run (defs (F := Ideal)) (onTc (τ := τ) (main (F := Ideal))) ⟨m, fun _ => 0, ρ⟩ (fun r => ∀ c : Dev nD,
      r.2.mem ((c.tc : Thread nD τ).loc main_v708) = posSpec (walkK m c)
      ∧ r.2.mem ((c.tc : Thread nD τ).loc main_v710)
          = negSpec (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (posK_walk m c), (h c).2.1.trans (negK_spec m c), (h c).2.2⟩)
    (run_val m ρ)

end Cert.KernelIdeal.Hand

end
-- ==== Proof.RRunOps.lean ====
/- A table: the operations of the reference program, one list per printed window of its entry function, in order;
   a call of an outlined function contributes that function's operations over the call's operands and the buffers
   the call's record names. -/
import proofs.«416388_j86139864089342_3_alg».proof.Proof.Gen.ReferenceIdeal

noncomputable section

namespace Cert.ReferenceIdeal.Hand

open Idealize.ShloMosaic Idealize.SL.Sem Cert.ReferenceIdeal Cert.ReferenceIdeal.Facts₀

variable {F : FTy → Type} [FloatOps F]

/-- Window 0 of the entry function: its 71 operations, calls inlined. -/
abbrev ops0 : List (HloOp τ sig (Elt F)) :=
  [ StableHlo.nullary main_c (fun i => lit0 (S21.rowMajor i)),
    StableHlo.reshape main_arg2 main_v0 rfl shapeCasts_S2048_S1x2048,
    StableHlo.unary main_v0 main_v1 (broadcastInDim S100x2048 ![0, 1] bcast_S1x2048_S100x2048_0_1 : (⟨S1x2048, .i32⟩ : BufTy).Contents (Elt F) → (⟨S100x2048, .i32⟩ : BufTy).Contents (Elt F)),
    StableHlo.reshape main_v1 main_v2 rfl shapeCasts_S100x2048_S204800,
    StableHlo.unary main_arg0 main_v3 ((extractStridedSlice S204800x1 ![0, 0] · slices_S204800x20_S204800x1_0_0) : (⟨S204800x20, .f32⟩ : BufTy).Contents (Elt F) → (⟨S204800x1, .f32⟩ : BufTy).Contents (Elt F)),
    StableHlo.reshape main_v3 main_v4 rfl shapeCasts_S204800x1_S204800,
    StableHlo.nullary main_c_0 (constantI S_ 32 120000#32),
    StableHlo.unary main_c_0 main_v5 (broadcastInDim S204800 ![] bcast_S_S204800 : (⟨S_, .i32⟩ : BufTy).Contents (Elt F) → (⟨S204800, .i32⟩ : BufTy).Contents (Elt F)),
    StableHlo.binary main_v2 main_v5 main_v6 (cmpi .slt : (⟨S204800, .i32⟩ : BufTy).Contents (Elt F) → (⟨S204800, .i32⟩ : BufTy).Contents (Elt F) → (⟨S204800, .i1⟩ : BufTy).Contents (Elt F)),
    StableHlo.nullary main_c_1 (constantI S_ 32 0#32),
    StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S204800, .i32⟩) (broadcastInDim S204800 ![] bcast_S_S204800),
    StableHlo.TRef.ternary (.of main_v6 : StableHlo.TRef sig ⟨S204800, .i1⟩) (.of main_v2 : StableHlo.TRef sig ⟨S204800, .i32⟩) (.of main_call0_v1 : StableHlo.TRef sig ⟨S204800, .i32⟩) (.of main_v7 : StableHlo.TRef sig ⟨S204800, .i32⟩) select,
    StableHlo.nullary main_c_2 (constantI S_ 32 1#32),
    StableHlo.unary main_c_2 main_v8 (broadcastInDim S204800 ![] bcast_S_S204800 : (⟨S_, .i32⟩ : BufTy).Contents (Elt F) → (⟨S204800, .i32⟩ : BufTy).Contents (Elt F)),
    StableHlo.binary main_v7 main_v8 main_v9 (addi : (⟨S204800, .i32⟩ : BufTy).Contents (Elt F) → (⟨S204800, .i32⟩ : BufTy).Contents (Elt F) → (⟨S204800, .i32⟩ : BufTy).Contents (Elt F)),
    StableHlo.nullary main_c_3 (constantI S_ 32 0#32),
    StableHlo.unary main_c_3 main_v10 (broadcastInDim S204800 ![] bcast_S_S204800 : (⟨S_, .i32⟩ : BufTy).Contents (Elt F) → (⟨S204800, .i32⟩ : BufTy).Contents (Elt F)),
    StableHlo.binary main_v9 main_v10 main_v11 (cmpi .slt : (⟨S204800, .i32⟩ : BufTy).Contents (Elt F) → (⟨S204800, .i32⟩ : BufTy).Contents (Elt F) → (⟨S204800, .i1⟩ : BufTy).Contents (Elt F)),
    StableHlo.nullary main_c_4 (constantI S_ 32 3551#32),
    StableHlo.unary main_c_4 main_v12 (broadcastInDim S204800 ![] bcast_S_S204800 : (⟨S_, .i32⟩ : BufTy).Contents (Elt F) → (⟨S204800, .i32⟩ : BufTy).Contents (Elt F)),
    StableHlo.binary main_v9 main_v12 main_v13 (addi : (⟨S204800, .i32⟩ : BufTy).Contents (Elt F) → (⟨S204800, .i32⟩ : BufTy).Contents (Elt F) → (⟨S204800, .i32⟩ : BufTy).Contents (Elt F)),
    StableHlo.ternary main_v11 main_v13 main_v9 main_v14 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v14 main_v15 (broadcastInDim S204800x1 ![0] bcast_S204800_S204800x1_0 : (⟨S204800, .i32⟩ : BufTy).Contents (Elt F) → (⟨S204800x1, .i32⟩ : BufTy).Contents (Elt F)),
    StableHlo.binary main_arg3 main_v15 main_v16 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_5 (constantI S_ 32 0#32),
    StableHlo.unary main_c_5 main_v17 (broadcastInDim S204800 ![] bcast_S_S204800 : (⟨S_, .i32⟩ : BufTy).Contents (Elt F) → (⟨S204800, .i32⟩ : BufTy).Contents (Elt F)),
    StableHlo.binary main_v7 main_v17 main_v18 (cmpi .slt : (⟨S204800, .i32⟩ : BufTy).Contents (Elt F) → (⟨S204800, .i32⟩ : BufTy).Contents (Elt F) → (⟨S204800, .i1⟩ : BufTy).Contents (Elt F)),
    StableHlo.nullary main_c_6 (constantI S_ 32 3551#32),
    StableHlo.unary main_c_6 main_v19 (broadcastInDim S204800 ![] bcast_S_S204800 : (⟨S_, .i32⟩ : BufTy).Contents (Elt F) → (⟨S204800, .i32⟩ : BufTy).Contents (Elt F)),
    StableHlo.binary main_v7 main_v19 main_v20 (addi : (⟨S204800, .i32⟩ : BufTy).Contents (Elt F) → (⟨S204800, .i32⟩ : BufTy).Contents (Elt F) → (⟨S204800, .i32⟩ : BufTy).Contents (Elt F)),
    StableHlo.ternary main_v18 main_v20 main_v7 main_v21 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v21 main_v22 (broadcastInDim S204800x1 ![0] bcast_S204800_S204800x1_0 : (⟨S204800, .i32⟩ : BufTy).Contents (Elt F) → (⟨S204800x1, .i32⟩ : BufTy).Contents (Elt F)),
    StableHlo.binary main_arg3 main_v22 main_v23 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v16 main_v23 main_v24 (subi : (⟨S204800, .i32⟩ : BufTy).Contents (Elt F) → (⟨S204800, .i32⟩ : BufTy).Contents (Elt F) → (⟨S204800, .i32⟩ : BufTy).Contents (Elt F)),
    StableHlo.nullary main_c_7 (constantI S_ 32 0#32),
    StableHlo.TRef.unary (.of main_c_7 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S204800, .i32⟩) (broadcastInDim S204800 ![] bcast_S_S204800),
    StableHlo.TRef.ternary (.of main_v6 : StableHlo.TRef sig ⟨S204800, .i1⟩) (.of main_v24 : StableHlo.TRef sig ⟨S204800, .i32⟩) (.of main_call1_v1 : StableHlo.TRef sig ⟨S204800, .i32⟩) (.of main_v25 : StableHlo.TRef sig ⟨S204800, .i32⟩) select,
    StableHlo.nullary main_c_8 (constantI S_ 32 0#32),
    StableHlo.unary main_c_8 main_v26 (broadcastInDim S204800 ![] bcast_S_S204800 : (⟨S_, .i32⟩ : BufTy).Contents (Elt F) → (⟨S204800, .i32⟩ : BufTy).Contents (Elt F)),
    StableHlo.binary main_v25 main_v26 main_v27 (cmpi .sgt : (⟨S204800, .i32⟩ : BufTy).Contents (Elt F) → (⟨S204800, .i32⟩ : BufTy).Contents (Elt F) → (⟨S204800, .i1⟩ : BufTy).Contents (Elt F)),
    StableHlo.nullary main_c_9 (constantI S_ 32 0#32),
    StableHlo.unary main_c_9 main_v28 (broadcastInDim S204800 ![] bcast_S_S204800 : (⟨S_, .i32⟩ : BufTy).Contents (Elt F) → (⟨S204800, .i32⟩ : BufTy).Contents (Elt F)),
    StableHlo.binary main_v7 main_v28 main_v29 (cmpi .slt : (⟨S204800, .i32⟩ : BufTy).Contents (Elt F) → (⟨S204800, .i32⟩ : BufTy).Contents (Elt F) → (⟨S204800, .i1⟩ : BufTy).Contents (Elt F)),
    StableHlo.nullary main_c_10 (constantI S_ 32 3551#32),
    StableHlo.unary main_c_10 main_v30 (broadcastInDim S204800 ![] bcast_S_S204800 : (⟨S_, .i32⟩ : BufTy).Contents (Elt F) → (⟨S204800, .i32⟩ : BufTy).Contents (Elt F)),
    StableHlo.binary main_v7 main_v30 main_v31 (addi : (⟨S204800, .i32⟩ : BufTy).Contents (Elt F) → (⟨S204800, .i32⟩ : BufTy).Contents (Elt F) → (⟨S204800, .i32⟩ : BufTy).Contents (Elt F)),
    StableHlo.ternary main_v29 main_v31 main_v7 main_v32 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v32 main_v33 (broadcastInDim S204800x1 ![0] bcast_S204800_S204800x1_0 : (⟨S204800, .i32⟩ : BufTy).Contents (Elt F) → (⟨S204800x1, .i32⟩ : BufTy).Contents (Elt F)),
    StableHlo.binary main_arg3 main_v33 main_v34 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_11 (constantI S_ 32 0#32),
    StableHlo.TRef.unary (.of main_c_11 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S204800, .i32⟩) (broadcastInDim S204800 ![] bcast_S_S204800),
    StableHlo.TRef.ternary (.of main_v27 : StableHlo.TRef sig ⟨S204800, .i1⟩) (.of main_v34 : StableHlo.TRef sig ⟨S204800, .i32⟩) (.of main_call2_v1 : StableHlo.TRef sig ⟨S204800, .i32⟩) (.of main_v35 : StableHlo.TRef sig ⟨S204800, .i32⟩) select,
    StableHlo.unary main_v25 main_v36 (sitofp .f32 : (⟨S204800, .i32⟩ : BufTy).Contents (Elt F) → (⟨S204800, .f32⟩ : BufTy).Contents (Elt F)),
    StableHlo.binary main_v4 main_v36 main_v37 (mulf : (⟨S204800, .f32⟩ : BufTy).Contents (Elt F) → (⟨S204800, .f32⟩ : BufTy).Contents (Elt F) → (⟨S204800, .f32⟩ : BufTy).Contents (Elt F)),
    StableHlo.unary main_v37 main_v38 (fptosi 32 : (⟨S204800, .f32⟩ : BufTy).Contents (Elt F) → (⟨S204800, .i32⟩ : BufTy).Contents (Elt F)),
    StableHlo.binary main_v38 main_v35 main_v39 (addi : (⟨S204800, .i32⟩ : BufTy).Contents (Elt F) → (⟨S204800, .i32⟩ : BufTy).Contents (Elt F) → (⟨S204800, .i32⟩ : BufTy).Contents (Elt F)),
    StableHlo.nullary main_c_12 (constantI S_ 32 0#32),
    StableHlo.nullary main_c_13 (constantI S_ 32 217263#32),
    StableHlo.TRef.unary (.of main_c_12 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S204800, .i32⟩) (broadcastInDim S204800 ![] bcast_S_S204800),
    StableHlo.TRef.binary (.of main_call3_v1 : StableHlo.TRef sig ⟨S204800, .i32⟩) (.of main_v39 : StableHlo.TRef sig ⟨S204800, .i32⟩) (.of main_call3_v2 : StableHlo.TRef sig ⟨S204800, .i32⟩) maxsi,
    StableHlo.TRef.unary (.of main_c_13 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S204800, .i32⟩) (broadcastInDim S204800 ![] bcast_S_S204800),
    StableHlo.TRef.binary (.of main_call3_v4 : StableHlo.TRef sig ⟨S204800, .i32⟩) (.of main_call3_v2 : StableHlo.TRef sig ⟨S204800, .i32⟩) (.of main_v40 : StableHlo.TRef sig ⟨S204800, .i32⟩) minsi,
    StableHlo.nullary main_c_14 (constantI S_ 32 0#32),
    StableHlo.unary main_c_14 main_v41 (broadcastInDim S204800 ![] bcast_S_S204800 : (⟨S_, .i32⟩ : BufTy).Contents (Elt F) → (⟨S204800, .i32⟩ : BufTy).Contents (Elt F)),
    StableHlo.binary main_v40 main_v41 main_v42 (cmpi .slt : (⟨S204800, .i32⟩ : BufTy).Contents (Elt F) → (⟨S204800, .i32⟩ : BufTy).Contents (Elt F) → (⟨S204800, .i1⟩ : BufTy).Contents (Elt F)),
    StableHlo.nullary main_c_15 (constantI S_ 32 217264#32) ]

/-- Window 1 of the entry function: its 73 operations, calls inlined. -/
abbrev ops1 : List (HloOp τ sig (Elt F)) :=
  [ StableHlo.unary main_c_15 main_v43 (broadcastInDim S204800 ![] bcast_S_S204800 : (⟨S_, .i32⟩ : BufTy).Contents (Elt F) → (⟨S204800, .i32⟩ : BufTy).Contents (Elt F)),
    StableHlo.binary main_v40 main_v43 main_v44 (addi : (⟨S204800, .i32⟩ : BufTy).Contents (Elt F) → (⟨S204800, .i32⟩ : BufTy).Contents (Elt F) → (⟨S204800, .i32⟩ : BufTy).Contents (Elt F)),
    StableHlo.ternary main_v42 main_v44 main_v40 main_v45 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v45 main_v46 (broadcastInDim S204800x1 ![0] bcast_S204800_S204800x1_0 : (⟨S204800, .i32⟩ : BufTy).Contents (Elt F) → (⟨S204800x1, .i32⟩ : BufTy).Contents (Elt F)),
    StableHlo.binary main_arg4 main_v46 main_v47 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_16 (constantI S_ 32 120000#32),
    StableHlo.TRef.unary (.of main_c_16 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S204800, .i32⟩) (broadcastInDim S204800 ![] bcast_S_S204800),
    StableHlo.TRef.ternary (.of main_v27 : StableHlo.TRef sig ⟨S204800, .i1⟩) (.of main_v47 : StableHlo.TRef sig ⟨S204800, .i32⟩) (.of main_call4_v1 : StableHlo.TRef sig ⟨S204800, .i32⟩) (.of main_v48 : StableHlo.TRef sig ⟨S204800, .i32⟩) select,
    StableHlo.unary main_arg0 main_v49 ((extractStridedSlice S204800x1 ![0, 1] · slices_S204800x20_S204800x1_0_1) : (⟨S204800x20, .f32⟩ : BufTy).Contents (Elt F) → (⟨S204800x1, .f32⟩ : BufTy).Contents (Elt F)),
    StableHlo.reshape main_v49 main_v50 rfl shapeCasts_S204800x1_S204800,
    StableHlo.nullary main_c_17 (constantI S_ 32 120000#32),
    StableHlo.unary main_c_17 main_v51 (broadcastInDim S204800 ![] bcast_S_S204800 : (⟨S_, .i32⟩ : BufTy).Contents (Elt F) → (⟨S204800, .i32⟩ : BufTy).Contents (Elt F)),
    StableHlo.binary main_v48 main_v51 main_v52 (cmpi .slt : (⟨S204800, .i32⟩ : BufTy).Contents (Elt F) → (⟨S204800, .i32⟩ : BufTy).Contents (Elt F) → (⟨S204800, .i1⟩ : BufTy).Contents (Elt F)),
    StableHlo.nullary main_c_18 (constantI S_ 32 0#32),
    StableHlo.TRef.unary (.of main_c_18 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S204800, .i32⟩) (broadcastInDim S204800 ![] bcast_S_S204800),
    StableHlo.TRef.ternary (.of main_v52 : StableHlo.TRef sig ⟨S204800, .i1⟩) (.of main_v48 : StableHlo.TRef sig ⟨S204800, .i32⟩) (.of main_call5_v1 : StableHlo.TRef sig ⟨S204800, .i32⟩) (.of main_v53 : StableHlo.TRef sig ⟨S204800, .i32⟩) select,
    StableHlo.nullary main_c_19 (constantI S_ 32 1#32),
    StableHlo.unary main_c_19 main_v54 (broadcastInDim S204800 ![] bcast_S_S204800 : (⟨S_, .i32⟩ : BufTy).Contents (Elt F) → (⟨S204800, .i32⟩ : BufTy).Contents (Elt F)),
    StableHlo.binary main_v53 main_v54 main_v55 (addi : (⟨S204800, .i32⟩ : BufTy).Contents (Elt F) → (⟨S204800, .i32⟩ : BufTy).Contents (Elt F) → (⟨S204800, .i32⟩ : BufTy).Contents (Elt F)),
    StableHlo.nullary main_c_20 (constantI S_ 32 0#32),
    StableHlo.unary main_c_20 main_v56 (broadcastInDim S204800 ![] bcast_S_S204800 : (⟨S_, .i32⟩ : BufTy).Contents (Elt F) → (⟨S204800, .i32⟩ : BufTy).Contents (Elt F)),
    StableHlo.binary main_v55 main_v56 main_v57 (cmpi .slt : (⟨S204800, .i32⟩ : BufTy).Contents (Elt F) → (⟨S204800, .i32⟩ : BufTy).Contents (Elt F) → (⟨S204800, .i1⟩ : BufTy).Contents (Elt F)),
    StableHlo.nullary main_c_21 (constantI S_ 32 20001#32),
    StableHlo.unary main_c_21 main_v58 (broadcastInDim S204800 ![] bcast_S_S204800 : (⟨S_, .i32⟩ : BufTy).Contents (Elt F) → (⟨S204800, .i32⟩ : BufTy).Contents (Elt F)),
    StableHlo.binary main_v55 main_v58 main_v59 (addi : (⟨S204800, .i32⟩ : BufTy).Contents (Elt F) → (⟨S204800, .i32⟩ : BufTy).Contents (Elt F) → (⟨S204800, .i32⟩ : BufTy).Contents (Elt F)),
    StableHlo.ternary main_v57 main_v59 main_v55 main_v60 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v60 main_v61 (broadcastInDim S204800x1 ![0] bcast_S204800_S204800x1_0 : (⟨S204800, .i32⟩ : BufTy).Contents (Elt F) → (⟨S204800x1, .i32⟩ : BufTy).Contents (Elt F)),
    StableHlo.binary main_arg5 main_v61 main_v62 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_22 (constantI S_ 32 0#32),
    StableHlo.unary main_c_22 main_v63 (broadcastInDim S204800 ![] bcast_S_S204800 : (⟨S_, .i32⟩ : BufTy).Contents (Elt F) → (⟨S204800, .i32⟩ : BufTy).Contents (Elt F)),
    StableHlo.binary main_v53 main_v63 main_v64 (cmpi .slt : (⟨S204800, .i32⟩ : BufTy).Contents (Elt F) → (⟨S204800, .i32⟩ : BufTy).Contents (Elt F) → (⟨S204800, .i1⟩ : BufTy).Contents (Elt F)),
    StableHlo.nullary main_c_23 (constantI S_ 32 20001#32),
    StableHlo.unary main_c_23 main_v65 (broadcastInDim S204800 ![] bcast_S_S204800 : (⟨S_, .i32⟩ : BufTy).Contents (Elt F) → (⟨S204800, .i32⟩ : BufTy).Contents (Elt F)),
    StableHlo.binary main_v53 main_v65 main_v66 (addi : (⟨S204800, .i32⟩ : BufTy).Contents (Elt F) → (⟨S204800, .i32⟩ : BufTy).Contents (Elt F) → (⟨S204800, .i32⟩ : BufTy).Contents (Elt F)),
    StableHlo.ternary main_v64 main_v66 main_v53 main_v67 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v67 main_v68 (broadcastInDim S204800x1 ![0] bcast_S204800_S204800x1_0 : (⟨S204800, .i32⟩ : BufTy).Contents (Elt F) → (⟨S204800x1, .i32⟩ : BufTy).Contents (Elt F)),
    StableHlo.binary main_arg5 main_v68 main_v69 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v62 main_v69 main_v70 (subi : (⟨S204800, .i32⟩ : BufTy).Contents (Elt F) → (⟨S204800, .i32⟩ : BufTy).Contents (Elt F) → (⟨S204800, .i32⟩ : BufTy).Contents (Elt F)),
    StableHlo.nullary main_c_24 (constantI S_ 32 0#32),
    StableHlo.TRef.unary (.of main_c_24 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S204800, .i32⟩) (broadcastInDim S204800 ![] bcast_S_S204800),
    StableHlo.TRef.ternary (.of main_v52 : StableHlo.TRef sig ⟨S204800, .i1⟩) (.of main_v70 : StableHlo.TRef sig ⟨S204800, .i32⟩) (.of main_call6_v1 : StableHlo.TRef sig ⟨S204800, .i32⟩) (.of main_v71 : StableHlo.TRef sig ⟨S204800, .i32⟩) select,
    StableHlo.nullary main_c_25 (constantI S_ 32 0#32),
    StableHlo.unary main_c_25 main_v72 (broadcastInDim S204800 ![] bcast_S_S204800 : (⟨S_, .i32⟩ : BufTy).Contents (Elt F) → (⟨S204800, .i32⟩ : BufTy).Contents (Elt F)),
    StableHlo.binary main_v71 main_v72 main_v73 (cmpi .sgt : (⟨S204800, .i32⟩ : BufTy).Contents (Elt F) → (⟨S204800, .i32⟩ : BufTy).Contents (Elt F) → (⟨S204800, .i1⟩ : BufTy).Contents (Elt F)),
    StableHlo.nullary main_c_26 (constantI S_ 32 0#32),
    StableHlo.unary main_c_26 main_v74 (broadcastInDim S204800 ![] bcast_S_S204800 : (⟨S_, .i32⟩ : BufTy).Contents (Elt F) → (⟨S204800, .i32⟩ : BufTy).Contents (Elt F)),
    StableHlo.binary main_v53 main_v74 main_v75 (cmpi .slt : (⟨S204800, .i32⟩ : BufTy).Contents (Elt F) → (⟨S204800, .i32⟩ : BufTy).Contents (Elt F) → (⟨S204800, .i1⟩ : BufTy).Contents (Elt F)),
    StableHlo.nullary main_c_27 (constantI S_ 32 20001#32),
    StableHlo.unary main_c_27 main_v76 (broadcastInDim S204800 ![] bcast_S_S204800 : (⟨S_, .i32⟩ : BufTy).Contents (Elt F) → (⟨S204800, .i32⟩ : BufTy).Contents (Elt F)),
    StableHlo.binary main_v53 main_v76 main_v77 (addi : (⟨S204800, .i32⟩ : BufTy).Contents (Elt F) → (⟨S204800, .i32⟩ : BufTy).Contents (Elt F) → (⟨S204800, .i32⟩ : BufTy).Contents (Elt F)),
    StableHlo.ternary main_v75 main_v77 main_v53 main_v78 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v78 main_v79 (broadcastInDim S204800x1 ![0] bcast_S204800_S204800x1_0 : (⟨S204800, .i32⟩ : BufTy).Contents (Elt F) → (⟨S204800x1, .i32⟩ : BufTy).Contents (Elt F)),
    StableHlo.binary main_arg5 main_v79 main_v80 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_28 (constantI S_ 32 0#32),
    StableHlo.TRef.unary (.of main_c_28 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S204800, .i32⟩) (broadcastInDim S204800 ![] bcast_S_S204800),
    StableHlo.TRef.ternary (.of main_v73 : StableHlo.TRef sig ⟨S204800, .i1⟩) (.of main_v80 : StableHlo.TRef sig ⟨S204800, .i32⟩) (.of main_call7_v1 : StableHlo.TRef sig ⟨S204800, .i32⟩) (.of main_v81 : StableHlo.TRef sig ⟨S204800, .i32⟩) select,
    StableHlo.unary main_v71 main_v82 (sitofp .f32 : (⟨S204800, .i32⟩ : BufTy).Contents (Elt F) → (⟨S204800, .f32⟩ : BufTy).Contents (Elt F)),
    StableHlo.binary main_v50 main_v82 main_v83 (mulf : (⟨S204800, .f32⟩ : BufTy).Contents (Elt F) → (⟨S204800, .f32⟩ : BufTy).Contents (Elt F) → (⟨S204800, .f32⟩ : BufTy).Contents (Elt F)),
    StableHlo.unary main_v83 main_v84 (fptosi 32 : (⟨S204800, .f32⟩ : BufTy).Contents (Elt F) → (⟨S204800, .i32⟩ : BufTy).Contents (Elt F)),
    StableHlo.binary main_v84 main_v81 main_v85 (addi : (⟨S204800, .i32⟩ : BufTy).Contents (Elt F) → (⟨S204800, .i32⟩ : BufTy).Contents (Elt F) → (⟨S204800, .i32⟩ : BufTy).Contents (Elt F)),
    StableHlo.nullary main_c_29 (constantI S_ 32 0#32),
    StableHlo.nullary main_c_30 (constantI S_ 32 302234#32),
    StableHlo.TRef.unary (.of main_c_29 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S204800, .i32⟩) (broadcastInDim S204800 ![] bcast_S_S204800),
    StableHlo.TRef.binary (.of main_call8_v1 : StableHlo.TRef sig ⟨S204800, .i32⟩) (.of main_v85 : StableHlo.TRef sig ⟨S204800, .i32⟩) (.of main_call8_v2 : StableHlo.TRef sig ⟨S204800, .i32⟩) maxsi,
    StableHlo.TRef.unary (.of main_c_30 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S204800, .i32⟩) (broadcastInDim S204800 ![] bcast_S_S204800),
    StableHlo.TRef.binary (.of main_call8_v4 : StableHlo.TRef sig ⟨S204800, .i32⟩) (.of main_call8_v2 : StableHlo.TRef sig ⟨S204800, .i32⟩) (.of main_v86 : StableHlo.TRef sig ⟨S204800, .i32⟩) minsi,
    StableHlo.nullary main_c_31 (constantI S_ 32 0#32) ]

/-- Window 2 of the entry function: its 68 operations, calls inlined. -/
abbrev ops2 : List (HloOp τ sig (Elt F)) :=
  [ StableHlo.unary main_c_31 main_v87 (broadcastInDim S204800 ![] bcast_S_S204800 : (⟨S_, .i32⟩ : BufTy).Contents (Elt F) → (⟨S204800, .i32⟩ : BufTy).Contents (Elt F)),
    StableHlo.binary main_v86 main_v87 main_v88 (cmpi .slt : (⟨S204800, .i32⟩ : BufTy).Contents (Elt F) → (⟨S204800, .i32⟩ : BufTy).Contents (Elt F) → (⟨S204800, .i1⟩ : BufTy).Contents (Elt F)),
    StableHlo.nullary main_c_32 (constantI S_ 32 302235#32),
    StableHlo.unary main_c_32 main_v89 (broadcastInDim S204800 ![] bcast_S_S204800 : (⟨S_, .i32⟩ : BufTy).Contents (Elt F) → (⟨S204800, .i32⟩ : BufTy).Contents (Elt F)),
    StableHlo.binary main_v86 main_v89 main_v90 (addi : (⟨S204800, .i32⟩ : BufTy).Contents (Elt F) → (⟨S204800, .i32⟩ : BufTy).Contents (Elt F) → (⟨S204800, .i32⟩ : BufTy).Contents (Elt F)),
    StableHlo.ternary main_v88 main_v90 main_v86 main_v91 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v91 main_v92 (broadcastInDim S204800x1 ![0] bcast_S204800_S204800x1_0 : (⟨S204800, .i32⟩ : BufTy).Contents (Elt F) → (⟨S204800x1, .i32⟩ : BufTy).Contents (Elt F)),
    StableHlo.binary main_arg6 main_v92 main_v93 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_33 (constantI S_ 32 120000#32),
    StableHlo.TRef.unary (.of main_c_33 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S204800, .i32⟩) (broadcastInDim S204800 ![] bcast_S_S204800),
    StableHlo.TRef.ternary (.of main_v73 : StableHlo.TRef sig ⟨S204800, .i1⟩) (.of main_v93 : StableHlo.TRef sig ⟨S204800, .i32⟩) (.of main_call9_v1 : StableHlo.TRef sig ⟨S204800, .i32⟩) (.of main_v94 : StableHlo.TRef sig ⟨S204800, .i32⟩) select,
    StableHlo.unary main_arg0 main_v95 ((extractStridedSlice S204800x1 ![0, 2] · slices_S204800x20_S204800x1_0_2) : (⟨S204800x20, .f32⟩ : BufTy).Contents (Elt F) → (⟨S204800x1, .f32⟩ : BufTy).Contents (Elt F)),
    StableHlo.reshape main_v95 main_v96 rfl shapeCasts_S204800x1_S204800,
    StableHlo.nullary main_c_34 (constantI S_ 32 120000#32),
    StableHlo.unary main_c_34 main_v97 (broadcastInDim S204800 ![] bcast_S_S204800 : (⟨S_, .i32⟩ : BufTy).Contents (Elt F) → (⟨S204800, .i32⟩ : BufTy).Contents (Elt F)),
    StableHlo.binary main_v94 main_v97 main_v98 (cmpi .slt : (⟨S204800, .i32⟩ : BufTy).Contents (Elt F) → (⟨S204800, .i32⟩ : BufTy).Contents (Elt F) → (⟨S204800, .i1⟩ : BufTy).Contents (Elt F)),
    StableHlo.nullary main_c_35 (constantI S_ 32 0#32),
    StableHlo.TRef.unary (.of main_c_35 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S204800, .i32⟩) (broadcastInDim S204800 ![] bcast_S_S204800),
    StableHlo.TRef.ternary (.of main_v98 : StableHlo.TRef sig ⟨S204800, .i1⟩) (.of main_v94 : StableHlo.TRef sig ⟨S204800, .i32⟩) (.of main_call10_v1 : StableHlo.TRef sig ⟨S204800, .i32⟩) (.of main_v99 : StableHlo.TRef sig ⟨S204800, .i32⟩) select,
    StableHlo.nullary main_c_36 (constantI S_ 32 1#32),
    StableHlo.unary main_c_36 main_v100 (broadcastInDim S204800 ![] bcast_S_S204800 : (⟨S_, .i32⟩ : BufTy).Contents (Elt F) → (⟨S204800, .i32⟩ : BufTy).Contents (Elt F)),
    StableHlo.binary main_v99 main_v100 main_v101 (addi : (⟨S204800, .i32⟩ : BufTy).Contents (Elt F) → (⟨S204800, .i32⟩ : BufTy).Contents (Elt F) → (⟨S204800, .i32⟩ : BufTy).Contents (Elt F)),
    StableHlo.nullary main_c_37 (constantI S_ 32 0#32),
    StableHlo.unary main_c_37 main_v102 (broadcastInDim S204800 ![] bcast_S_S204800 : (⟨S_, .i32⟩ : BufTy).Contents (Elt F) → (⟨S204800, .i32⟩ : BufTy).Contents (Elt F)),
    StableHlo.binary main_v101 main_v102 main_v103 (cmpi .slt : (⟨S204800, .i32⟩ : BufTy).Contents (Elt F) → (⟨S204800, .i32⟩ : BufTy).Contents (Elt F) → (⟨S204800, .i1⟩ : BufTy).Contents (Elt F)),
    StableHlo.nullary main_c_38 (constantI S_ 32 3551#32),
    StableHlo.unary main_c_38 main_v104 (broadcastInDim S204800 ![] bcast_S_S204800 : (⟨S_, .i32⟩ : BufTy).Contents (Elt F) → (⟨S204800, .i32⟩ : BufTy).Contents (Elt F)),
    StableHlo.binary main_v101 main_v104 main_v105 (addi : (⟨S204800, .i32⟩ : BufTy).Contents (Elt F) → (⟨S204800, .i32⟩ : BufTy).Contents (Elt F) → (⟨S204800, .i32⟩ : BufTy).Contents (Elt F)),
    StableHlo.ternary main_v103 main_v105 main_v101 main_v106 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v106 main_v107 (broadcastInDim S204800x1 ![0] bcast_S204800_S204800x1_0 : (⟨S204800, .i32⟩ : BufTy).Contents (Elt F) → (⟨S204800x1, .i32⟩ : BufTy).Contents (Elt F)),
    StableHlo.binary main_arg3 main_v107 main_v108 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_39 (constantI S_ 32 0#32),
    StableHlo.unary main_c_39 main_v109 (broadcastInDim S204800 ![] bcast_S_S204800 : (⟨S_, .i32⟩ : BufTy).Contents (Elt F) → (⟨S204800, .i32⟩ : BufTy).Contents (Elt F)),
    StableHlo.binary main_v99 main_v109 main_v110 (cmpi .slt : (⟨S204800, .i32⟩ : BufTy).Contents (Elt F) → (⟨S204800, .i32⟩ : BufTy).Contents (Elt F) → (⟨S204800, .i1⟩ : BufTy).Contents (Elt F)),
    StableHlo.nullary main_c_40 (constantI S_ 32 3551#32),
    StableHlo.unary main_c_40 main_v111 (broadcastInDim S204800 ![] bcast_S_S204800 : (⟨S_, .i32⟩ : BufTy).Contents (Elt F) → (⟨S204800, .i32⟩ : BufTy).Contents (Elt F)),
    StableHlo.binary main_v99 main_v111 main_v112 (addi : (⟨S204800, .i32⟩ : BufTy).Contents (Elt F) → (⟨S204800, .i32⟩ : BufTy).Contents (Elt F) → (⟨S204800, .i32⟩ : BufTy).Contents (Elt F)),
    StableHlo.ternary main_v110 main_v112 main_v99 main_v113 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v113 main_v114 (broadcastInDim S204800x1 ![0] bcast_S204800_S204800x1_0 : (⟨S204800, .i32⟩ : BufTy).Contents (Elt F) → (⟨S204800x1, .i32⟩ : BufTy).Contents (Elt F)),
    StableHlo.binary main_arg3 main_v114 main_v115 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v108 main_v115 main_v116 (subi : (⟨S204800, .i32⟩ : BufTy).Contents (Elt F) → (⟨S204800, .i32⟩ : BufTy).Contents (Elt F) → (⟨S204800, .i32⟩ : BufTy).Contents (Elt F)),
    StableHlo.nullary main_c_41 (constantI S_ 32 0#32),
    StableHlo.TRef.unary (.of main_c_41 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S204800, .i32⟩) (broadcastInDim S204800 ![] bcast_S_S204800),
    StableHlo.TRef.ternary (.of main_v98 : StableHlo.TRef sig ⟨S204800, .i1⟩) (.of main_v116 : StableHlo.TRef sig ⟨S204800, .i32⟩) (.of main_call11_v1 : StableHlo.TRef sig ⟨S204800, .i32⟩) (.of main_v117 : StableHlo.TRef sig ⟨S204800, .i32⟩) select,
    StableHlo.nullary main_c_42 (constantI S_ 32 0#32),
    StableHlo.unary main_c_42 main_v118 (broadcastInDim S204800 ![] bcast_S_S204800 : (⟨S_, .i32⟩ : BufTy).Contents (Elt F) → (⟨S204800, .i32⟩ : BufTy).Contents (Elt F)),
    StableHlo.binary main_v117 main_v118 main_v119 (cmpi .sgt : (⟨S204800, .i32⟩ : BufTy).Contents (Elt F) → (⟨S204800, .i32⟩ : BufTy).Contents (Elt F) → (⟨S204800, .i1⟩ : BufTy).Contents (Elt F)),
    StableHlo.nullary main_c_43 (constantI S_ 32 0#32),
    StableHlo.unary main_c_43 main_v120 (broadcastInDim S204800 ![] bcast_S_S204800 : (⟨S_, .i32⟩ : BufTy).Contents (Elt F) → (⟨S204800, .i32⟩ : BufTy).Contents (Elt F)),
    StableHlo.binary main_v99 main_v120 main_v121 (cmpi .slt : (⟨S204800, .i32⟩ : BufTy).Contents (Elt F) → (⟨S204800, .i32⟩ : BufTy).Contents (Elt F) → (⟨S204800, .i1⟩ : BufTy).Contents (Elt F)),
    StableHlo.nullary main_c_44 (constantI S_ 32 3551#32),
    StableHlo.unary main_c_44 main_v122 (broadcastInDim S204800 ![] bcast_S_S204800 : (⟨S_, .i32⟩ : BufTy).Contents (Elt F) → (⟨S204800, .i32⟩ : BufTy).Contents (Elt F)),
    StableHlo.binary main_v99 main_v122 main_v123 (addi : (⟨S204800, .i32⟩ : BufTy).Contents (Elt F) → (⟨S204800, .i32⟩ : BufTy).Contents (Elt F) → (⟨S204800, .i32⟩ : BufTy).Contents (Elt F)),
    StableHlo.ternary main_v121 main_v123 main_v99 main_v124 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v124 main_v125 (broadcastInDim S204800x1 ![0] bcast_S204800_S204800x1_0 : (⟨S204800, .i32⟩ : BufTy).Contents (Elt F) → (⟨S204800x1, .i32⟩ : BufTy).Contents (Elt F)),
    StableHlo.binary main_arg3 main_v125 main_v126 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_45 (constantI S_ 32 0#32),
    StableHlo.TRef.unary (.of main_c_45 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S204800, .i32⟩) (broadcastInDim S204800 ![] bcast_S_S204800),
    StableHlo.TRef.ternary (.of main_v119 : StableHlo.TRef sig ⟨S204800, .i1⟩) (.of main_v126 : StableHlo.TRef sig ⟨S204800, .i32⟩) (.of main_call12_v1 : StableHlo.TRef sig ⟨S204800, .i32⟩) (.of main_v127 : StableHlo.TRef sig ⟨S204800, .i32⟩) select,
    StableHlo.unary main_v117 main_v128 (sitofp .f32 : (⟨S204800, .i32⟩ : BufTy).Contents (Elt F) → (⟨S204800, .f32⟩ : BufTy).Contents (Elt F)),
    StableHlo.binary main_v96 main_v128 main_v129 (mulf : (⟨S204800, .f32⟩ : BufTy).Contents (Elt F) → (⟨S204800, .f32⟩ : BufTy).Contents (Elt F) → (⟨S204800, .f32⟩ : BufTy).Contents (Elt F)),
    StableHlo.unary main_v129 main_v130 (fptosi 32 : (⟨S204800, .f32⟩ : BufTy).Contents (Elt F) → (⟨S204800, .i32⟩ : BufTy).Contents (Elt F)),
    StableHlo.binary main_v130 main_v127 main_v131 (addi : (⟨S204800, .i32⟩ : BufTy).Contents (Elt F) → (⟨S204800, .i32⟩ : BufTy).Contents (Elt F) → (⟨S204800, .i32⟩ : BufTy).Contents (Elt F)),
    StableHlo.nullary main_c_46 (constantI S_ 32 0#32) ]

/-- Window 3 of the entry function: its 73 operations, calls inlined. -/
abbrev ops3 : List (HloOp τ sig (Elt F)) :=
  [ StableHlo.nullary main_c_47 (constantI S_ 32 217263#32),
    StableHlo.TRef.unary (.of main_c_46 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S204800, .i32⟩) (broadcastInDim S204800 ![] bcast_S_S204800),
    StableHlo.TRef.binary (.of main_call13_v1 : StableHlo.TRef sig ⟨S204800, .i32⟩) (.of main_v131 : StableHlo.TRef sig ⟨S204800, .i32⟩) (.of main_call13_v2 : StableHlo.TRef sig ⟨S204800, .i32⟩) maxsi,
    StableHlo.TRef.unary (.of main_c_47 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S204800, .i32⟩) (broadcastInDim S204800 ![] bcast_S_S204800),
    StableHlo.TRef.binary (.of main_call13_v4 : StableHlo.TRef sig ⟨S204800, .i32⟩) (.of main_call13_v2 : StableHlo.TRef sig ⟨S204800, .i32⟩) (.of main_v132 : StableHlo.TRef sig ⟨S204800, .i32⟩) minsi,
    StableHlo.nullary main_c_48 (constantI S_ 32 0#32),
    StableHlo.unary main_c_48 main_v133 (broadcastInDim S204800 ![] bcast_S_S204800 : (⟨S_, .i32⟩ : BufTy).Contents (Elt F) → (⟨S204800, .i32⟩ : BufTy).Contents (Elt F)),
    StableHlo.binary main_v132 main_v133 main_v134 (cmpi .slt : (⟨S204800, .i32⟩ : BufTy).Contents (Elt F) → (⟨S204800, .i32⟩ : BufTy).Contents (Elt F) → (⟨S204800, .i1⟩ : BufTy).Contents (Elt F)),
    StableHlo.nullary main_c_49 (constantI S_ 32 217264#32),
    StableHlo.unary main_c_49 main_v135 (broadcastInDim S204800 ![] bcast_S_S204800 : (⟨S_, .i32⟩ : BufTy).Contents (Elt F) → (⟨S204800, .i32⟩ : BufTy).Contents (Elt F)),
    StableHlo.binary main_v132 main_v135 main_v136 (addi : (⟨S204800, .i32⟩ : BufTy).Contents (Elt F) → (⟨S204800, .i32⟩ : BufTy).Contents (Elt F) → (⟨S204800, .i32⟩ : BufTy).Contents (Elt F)),
    StableHlo.ternary main_v134 main_v136 main_v132 main_v137 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v137 main_v138 (broadcastInDim S204800x1 ![0] bcast_S204800_S204800x1_0 : (⟨S204800, .i32⟩ : BufTy).Contents (Elt F) → (⟨S204800x1, .i32⟩ : BufTy).Contents (Elt F)),
    StableHlo.binary main_arg4 main_v138 main_v139 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_50 (constantI S_ 32 120000#32),
    StableHlo.TRef.unary (.of main_c_50 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S204800, .i32⟩) (broadcastInDim S204800 ![] bcast_S_S204800),
    StableHlo.TRef.ternary (.of main_v119 : StableHlo.TRef sig ⟨S204800, .i1⟩) (.of main_v139 : StableHlo.TRef sig ⟨S204800, .i32⟩) (.of main_call14_v1 : StableHlo.TRef sig ⟨S204800, .i32⟩) (.of main_v140 : StableHlo.TRef sig ⟨S204800, .i32⟩) select,
    StableHlo.unary main_arg0 main_v141 ((extractStridedSlice S204800x1 ![0, 3] · slices_S204800x20_S204800x1_0_3) : (⟨S204800x20, .f32⟩ : BufTy).Contents (Elt F) → (⟨S204800x1, .f32⟩ : BufTy).Contents (Elt F)),
    StableHlo.reshape main_v141 main_v142 rfl shapeCasts_S204800x1_S204800,
    StableHlo.nullary main_c_51 (constantI S_ 32 120000#32),
    StableHlo.unary main_c_51 main_v143 (broadcastInDim S204800 ![] bcast_S_S204800 : (⟨S_, .i32⟩ : BufTy).Contents (Elt F) → (⟨S204800, .i32⟩ : BufTy).Contents (Elt F)),
    StableHlo.binary main_v140 main_v143 main_v144 (cmpi .slt : (⟨S204800, .i32⟩ : BufTy).Contents (Elt F) → (⟨S204800, .i32⟩ : BufTy).Contents (Elt F) → (⟨S204800, .i1⟩ : BufTy).Contents (Elt F)),
    StableHlo.nullary main_c_52 (constantI S_ 32 0#32),
    StableHlo.TRef.unary (.of main_c_52 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S204800, .i32⟩) (broadcastInDim S204800 ![] bcast_S_S204800),
    StableHlo.TRef.ternary (.of main_v144 : StableHlo.TRef sig ⟨S204800, .i1⟩) (.of main_v140 : StableHlo.TRef sig ⟨S204800, .i32⟩) (.of main_call15_v1 : StableHlo.TRef sig ⟨S204800, .i32⟩) (.of main_v145 : StableHlo.TRef sig ⟨S204800, .i32⟩) select,
    StableHlo.nullary main_c_53 (constantI S_ 32 1#32),
    StableHlo.unary main_c_53 main_v146 (broadcastInDim S204800 ![] bcast_S_S204800 : (⟨S_, .i32⟩ : BufTy).Contents (Elt F) → (⟨S204800, .i32⟩ : BufTy).Contents (Elt F)),
    StableHlo.binary main_v145 main_v146 main_v147 (addi : (⟨S204800, .i32⟩ : BufTy).Contents (Elt F) → (⟨S204800, .i32⟩ : BufTy).Contents (Elt F) → (⟨S204800, .i32⟩ : BufTy).Contents (Elt F)),
    StableHlo.nullary main_c_54 (constantI S_ 32 0#32),
    StableHlo.unary main_c_54 main_v148 (broadcastInDim S204800 ![] bcast_S_S204800 : (⟨S_, .i32⟩ : BufTy).Contents (Elt F) → (⟨S204800, .i32⟩ : BufTy).Contents (Elt F)),
    StableHlo.binary main_v147 main_v148 main_v149 (cmpi .slt : (⟨S204800, .i32⟩ : BufTy).Contents (Elt F) → (⟨S204800, .i32⟩ : BufTy).Contents (Elt F) → (⟨S204800, .i1⟩ : BufTy).Contents (Elt F)),
    StableHlo.nullary main_c_55 (constantI S_ 32 20001#32),
    StableHlo.unary main_c_55 main_v150 (broadcastInDim S204800 ![] bcast_S_S204800 : (⟨S_, .i32⟩ : BufTy).Contents (Elt F) → (⟨S204800, .i32⟩ : BufTy).Contents (Elt F)),
    StableHlo.binary main_v147 main_v150 main_v151 (addi : (⟨S204800, .i32⟩ : BufTy).Contents (Elt F) → (⟨S204800, .i32⟩ : BufTy).Contents (Elt F) → (⟨S204800, .i32⟩ : BufTy).Contents (Elt F)),
    StableHlo.ternary main_v149 main_v151 main_v147 main_v152 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v152 main_v153 (broadcastInDim S204800x1 ![0] bcast_S204800_S204800x1_0 : (⟨S204800, .i32⟩ : BufTy).Contents (Elt F) → (⟨S204800x1, .i32⟩ : BufTy).Contents (Elt F)),
    StableHlo.binary main_arg5 main_v153 main_v154 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_56 (constantI S_ 32 0#32),
    StableHlo.unary main_c_56 main_v155 (broadcastInDim S204800 ![] bcast_S_S204800 : (⟨S_, .i32⟩ : BufTy).Contents (Elt F) → (⟨S204800, .i32⟩ : BufTy).Contents (Elt F)),
    StableHlo.binary main_v145 main_v155 main_v156 (cmpi .slt : (⟨S204800, .i32⟩ : BufTy).Contents (Elt F) → (⟨S204800, .i32⟩ : BufTy).Contents (Elt F) → (⟨S204800, .i1⟩ : BufTy).Contents (Elt F)),
    StableHlo.nullary main_c_57 (constantI S_ 32 20001#32),
    StableHlo.unary main_c_57 main_v157 (broadcastInDim S204800 ![] bcast_S_S204800 : (⟨S_, .i32⟩ : BufTy).Contents (Elt F) → (⟨S204800, .i32⟩ : BufTy).Contents (Elt F)),
    StableHlo.binary main_v145 main_v157 main_v158 (addi : (⟨S204800, .i32⟩ : BufTy).Contents (Elt F) → (⟨S204800, .i32⟩ : BufTy).Contents (Elt F) → (⟨S204800, .i32⟩ : BufTy).Contents (Elt F)),
    StableHlo.ternary main_v156 main_v158 main_v145 main_v159 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v159 main_v160 (broadcastInDim S204800x1 ![0] bcast_S204800_S204800x1_0 : (⟨S204800, .i32⟩ : BufTy).Contents (Elt F) → (⟨S204800x1, .i32⟩ : BufTy).Contents (Elt F)),
    StableHlo.binary main_arg5 main_v160 main_v161 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v154 main_v161 main_v162 (subi : (⟨S204800, .i32⟩ : BufTy).Contents (Elt F) → (⟨S204800, .i32⟩ : BufTy).Contents (Elt F) → (⟨S204800, .i32⟩ : BufTy).Contents (Elt F)),
    StableHlo.nullary main_c_58 (constantI S_ 32 0#32),
    StableHlo.TRef.unary (.of main_c_58 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S204800, .i32⟩) (broadcastInDim S204800 ![] bcast_S_S204800),
    StableHlo.TRef.ternary (.of main_v144 : StableHlo.TRef sig ⟨S204800, .i1⟩) (.of main_v162 : StableHlo.TRef sig ⟨S204800, .i32⟩) (.of main_call16_v1 : StableHlo.TRef sig ⟨S204800, .i32⟩) (.of main_v163 : StableHlo.TRef sig ⟨S204800, .i32⟩) select,
    StableHlo.nullary main_c_59 (constantI S_ 32 0#32),
    StableHlo.unary main_c_59 main_v164 (broadcastInDim S204800 ![] bcast_S_S204800 : (⟨S_, .i32⟩ : BufTy).Contents (Elt F) → (⟨S204800, .i32⟩ : BufTy).Contents (Elt F)),
    StableHlo.binary main_v163 main_v164 main_v165 (cmpi .sgt : (⟨S204800, .i32⟩ : BufTy).Contents (Elt F) → (⟨S204800, .i32⟩ : BufTy).Contents (Elt F) → (⟨S204800, .i1⟩ : BufTy).Contents (Elt F)),
    StableHlo.nullary main_c_60 (constantI S_ 32 0#32),
    StableHlo.unary main_c_60 main_v166 (broadcastInDim S204800 ![] bcast_S_S204800 : (⟨S_, .i32⟩ : BufTy).Contents (Elt F) → (⟨S204800, .i32⟩ : BufTy).Contents (Elt F)),
    StableHlo.binary main_v145 main_v166 main_v167 (cmpi .slt : (⟨S204800, .i32⟩ : BufTy).Contents (Elt F) → (⟨S204800, .i32⟩ : BufTy).Contents (Elt F) → (⟨S204800, .i1⟩ : BufTy).Contents (Elt F)),
    StableHlo.nullary main_c_61 (constantI S_ 32 20001#32),
    StableHlo.unary main_c_61 main_v168 (broadcastInDim S204800 ![] bcast_S_S204800 : (⟨S_, .i32⟩ : BufTy).Contents (Elt F) → (⟨S204800, .i32⟩ : BufTy).Contents (Elt F)),
    StableHlo.binary main_v145 main_v168 main_v169 (addi : (⟨S204800, .i32⟩ : BufTy).Contents (Elt F) → (⟨S204800, .i32⟩ : BufTy).Contents (Elt F) → (⟨S204800, .i32⟩ : BufTy).Contents (Elt F)),
    StableHlo.ternary main_v167 main_v169 main_v145 main_v170 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v170 main_v171 (broadcastInDim S204800x1 ![0] bcast_S204800_S204800x1_0 : (⟨S204800, .i32⟩ : BufTy).Contents (Elt F) → (⟨S204800x1, .i32⟩ : BufTy).Contents (Elt F)),
    StableHlo.binary main_arg5 main_v171 main_v172 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_62 (constantI S_ 32 0#32),
    StableHlo.TRef.unary (.of main_c_62 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S204800, .i32⟩) (broadcastInDim S204800 ![] bcast_S_S204800),
    StableHlo.TRef.ternary (.of main_v165 : StableHlo.TRef sig ⟨S204800, .i1⟩) (.of main_v172 : StableHlo.TRef sig ⟨S204800, .i32⟩) (.of main_call17_v1 : StableHlo.TRef sig ⟨S204800, .i32⟩) (.of main_v173 : StableHlo.TRef sig ⟨S204800, .i32⟩) select,
    StableHlo.unary main_v163 main_v174 (sitofp .f32 : (⟨S204800, .i32⟩ : BufTy).Contents (Elt F) → (⟨S204800, .f32⟩ : BufTy).Contents (Elt F)),
    StableHlo.binary main_v142 main_v174 main_v175 (mulf : (⟨S204800, .f32⟩ : BufTy).Contents (Elt F) → (⟨S204800, .f32⟩ : BufTy).Contents (Elt F) → (⟨S204800, .f32⟩ : BufTy).Contents (Elt F)) ]

/-- Window 4 of the entry function: its 71 operations, calls inlined. -/
abbrev ops4 : List (HloOp τ sig (Elt F)) :=
  [ StableHlo.unary main_v175 main_v176 (fptosi 32 : (⟨S204800, .f32⟩ : BufTy).Contents (Elt F) → (⟨S204800, .i32⟩ : BufTy).Contents (Elt F)),
    StableHlo.binary main_v176 main_v173 main_v177 (addi : (⟨S204800, .i32⟩ : BufTy).Contents (Elt F) → (⟨S204800, .i32⟩ : BufTy).Contents (Elt F) → (⟨S204800, .i32⟩ : BufTy).Contents (Elt F)),
    StableHlo.nullary main_c_63 (constantI S_ 32 0#32),
    StableHlo.nullary main_c_64 (constantI S_ 32 302234#32),
    StableHlo.TRef.unary (.of main_c_63 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S204800, .i32⟩) (broadcastInDim S204800 ![] bcast_S_S204800),
    StableHlo.TRef.binary (.of main_call18_v1 : StableHlo.TRef sig ⟨S204800, .i32⟩) (.of main_v177 : StableHlo.TRef sig ⟨S204800, .i32⟩) (.of main_call18_v2 : StableHlo.TRef sig ⟨S204800, .i32⟩) maxsi,
    StableHlo.TRef.unary (.of main_c_64 : StableHlo.TRef sig ⟨S_, .i32⟩) (.of main_call18_v3 : StableHlo.TRef sig ⟨S_, .i32⟩) id,
    StableHlo.TRef.unary (.of main_call18_v3 : StableHlo.TRef sig ⟨S_, .i32⟩) (.of main_call18_v4 : StableHlo.TRef sig ⟨S204800, .i32⟩) (broadcastInDim S204800 ![] bcast_S_S204800),
    StableHlo.TRef.binary (.of main_call18_v4 : StableHlo.TRef sig ⟨S204800, .i32⟩) (.of main_call18_v2 : StableHlo.TRef sig ⟨S204800, .i32⟩) (.of main_v178 : StableHlo.TRef sig ⟨S204800, .i32⟩) minsi,
    StableHlo.nullary main_c_65 (constantI S_ 32 0#32),
    StableHlo.unary main_c_65 main_v179 (broadcastInDim S204800 ![] bcast_S_S204800 : (⟨S_, .i32⟩ : BufTy).Contents (Elt F) → (⟨S204800, .i32⟩ : BufTy).Contents (Elt F)),
    StableHlo.binary main_v178 main_v179 main_v180 (cmpi .slt : (⟨S204800, .i32⟩ : BufTy).Contents (Elt F) → (⟨S204800, .i32⟩ : BufTy).Contents (Elt F) → (⟨S204800, .i1⟩ : BufTy).Contents (Elt F)),
    StableHlo.nullary main_c_66 (constantI S_ 32 302235#32),
    StableHlo.unary main_c_66 main_v181 (broadcastInDim S204800 ![] bcast_S_S204800 : (⟨S_, .i32⟩ : BufTy).Contents (Elt F) → (⟨S204800, .i32⟩ : BufTy).Contents (Elt F)),
    StableHlo.binary main_v178 main_v181 main_v182 (addi : (⟨S204800, .i32⟩ : BufTy).Contents (Elt F) → (⟨S204800, .i32⟩ : BufTy).Contents (Elt F) → (⟨S204800, .i32⟩ : BufTy).Contents (Elt F)),
    StableHlo.ternary main_v180 main_v182 main_v178 main_v183 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v183 main_v184 (broadcastInDim S204800x1 ![0] bcast_S204800_S204800x1_0 : (⟨S204800, .i32⟩ : BufTy).Contents (Elt F) → (⟨S204800x1, .i32⟩ : BufTy).Contents (Elt F)),
    StableHlo.binary main_arg6 main_v184 main_v185 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_67 (constantI S_ 32 120000#32),
    StableHlo.TRef.unary (.of main_c_67 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S204800, .i32⟩) (broadcastInDim S204800 ![] bcast_S_S204800),
    StableHlo.TRef.ternary (.of main_v165 : StableHlo.TRef sig ⟨S204800, .i1⟩) (.of main_v185 : StableHlo.TRef sig ⟨S204800, .i32⟩) (.of main_call19_v1 : StableHlo.TRef sig ⟨S204800, .i32⟩) (.of main_v186 : StableHlo.TRef sig ⟨S204800, .i32⟩) select,
    StableHlo.unary main_arg0 main_v187 ((extractStridedSlice S204800x1 ![0, 4] · slices_S204800x20_S204800x1_0_4) : (⟨S204800x20, .f32⟩ : BufTy).Contents (Elt F) → (⟨S204800x1, .f32⟩ : BufTy).Contents (Elt F)),
    StableHlo.reshape main_v187 main_v188 rfl shapeCasts_S204800x1_S204800,
    StableHlo.nullary main_c_68 (constantI S_ 32 120000#32),
    StableHlo.unary main_c_68 main_v189 (broadcastInDim S204800 ![] bcast_S_S204800 : (⟨S_, .i32⟩ : BufTy).Contents (Elt F) → (⟨S204800, .i32⟩ : BufTy).Contents (Elt F)),
    StableHlo.binary main_v186 main_v189 main_v190 (cmpi .slt : (⟨S204800, .i32⟩ : BufTy).Contents (Elt F) → (⟨S204800, .i32⟩ : BufTy).Contents (Elt F) → (⟨S204800, .i1⟩ : BufTy).Contents (Elt F)),
    StableHlo.nullary main_c_69 (constantI S_ 32 0#32),
    StableHlo.TRef.unary (.of main_c_69 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S204800, .i32⟩) (broadcastInDim S204800 ![] bcast_S_S204800),
    StableHlo.TRef.ternary (.of main_v190 : StableHlo.TRef sig ⟨S204800, .i1⟩) (.of main_v186 : StableHlo.TRef sig ⟨S204800, .i32⟩) (.of main_call20_v1 : StableHlo.TRef sig ⟨S204800, .i32⟩) (.of main_v191 : StableHlo.TRef sig ⟨S204800, .i32⟩) select,
    StableHlo.nullary main_c_70 (constantI S_ 32 1#32),
    StableHlo.unary main_c_70 main_v192 (broadcastInDim S204800 ![] bcast_S_S204800 : (⟨S_, .i32⟩ : BufTy).Contents (Elt F) → (⟨S204800, .i32⟩ : BufTy).Contents (Elt F)),
    StableHlo.binary main_v191 main_v192 main_v193 (addi : (⟨S204800, .i32⟩ : BufTy).Contents (Elt F) → (⟨S204800, .i32⟩ : BufTy).Contents (Elt F) → (⟨S204800, .i32⟩ : BufTy).Contents (Elt F)),
    StableHlo.nullary main_c_71 (constantI S_ 32 0#32),
    StableHlo.unary main_c_71 main_v194 (broadcastInDim S204800 ![] bcast_S_S204800 : (⟨S_, .i32⟩ : BufTy).Contents (Elt F) → (⟨S204800, .i32⟩ : BufTy).Contents (Elt F)),
    StableHlo.binary main_v193 main_v194 main_v195 (cmpi .slt : (⟨S204800, .i32⟩ : BufTy).Contents (Elt F) → (⟨S204800, .i32⟩ : BufTy).Contents (Elt F) → (⟨S204800, .i1⟩ : BufTy).Contents (Elt F)),
    StableHlo.nullary main_c_72 (constantI S_ 32 3551#32),
    StableHlo.unary main_c_72 main_v196 (broadcastInDim S204800 ![] bcast_S_S204800 : (⟨S_, .i32⟩ : BufTy).Contents (Elt F) → (⟨S204800, .i32⟩ : BufTy).Contents (Elt F)),
    StableHlo.binary main_v193 main_v196 main_v197 (addi : (⟨S204800, .i32⟩ : BufTy).Contents (Elt F) → (⟨S204800, .i32⟩ : BufTy).Contents (Elt F) → (⟨S204800, .i32⟩ : BufTy).Contents (Elt F)),
    StableHlo.ternary main_v195 main_v197 main_v193 main_v198 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v198 main_v199 (broadcastInDim S204800x1 ![0] bcast_S204800_S204800x1_0 : (⟨S204800, .i32⟩ : BufTy).Contents (Elt F) → (⟨S204800x1, .i32⟩ : BufTy).Contents (Elt F)),
    StableHlo.binary main_arg3 main_v199 main_v200 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_73 (constantI S_ 32 0#32),
    StableHlo.unary main_c_73 main_v201 (broadcastInDim S204800 ![] bcast_S_S204800 : (⟨S_, .i32⟩ : BufTy).Contents (Elt F) → (⟨S204800, .i32⟩ : BufTy).Contents (Elt F)),
    StableHlo.binary main_v191 main_v201 main_v202 (cmpi .slt : (⟨S204800, .i32⟩ : BufTy).Contents (Elt F) → (⟨S204800, .i32⟩ : BufTy).Contents (Elt F) → (⟨S204800, .i1⟩ : BufTy).Contents (Elt F)),
    StableHlo.nullary main_c_74 (constantI S_ 32 3551#32),
    StableHlo.unary main_c_74 main_v203 (broadcastInDim S204800 ![] bcast_S_S204800 : (⟨S_, .i32⟩ : BufTy).Contents (Elt F) → (⟨S204800, .i32⟩ : BufTy).Contents (Elt F)),
    StableHlo.binary main_v191 main_v203 main_v204 (addi : (⟨S204800, .i32⟩ : BufTy).Contents (Elt F) → (⟨S204800, .i32⟩ : BufTy).Contents (Elt F) → (⟨S204800, .i32⟩ : BufTy).Contents (Elt F)),
    StableHlo.ternary main_v202 main_v204 main_v191 main_v205 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v205 main_v206 (broadcastInDim S204800x1 ![0] bcast_S204800_S204800x1_0 : (⟨S204800, .i32⟩ : BufTy).Contents (Elt F) → (⟨S204800x1, .i32⟩ : BufTy).Contents (Elt F)),
    StableHlo.binary main_arg3 main_v206 main_v207 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v200 main_v207 main_v208 (subi : (⟨S204800, .i32⟩ : BufTy).Contents (Elt F) → (⟨S204800, .i32⟩ : BufTy).Contents (Elt F) → (⟨S204800, .i32⟩ : BufTy).Contents (Elt F)),
    StableHlo.nullary main_c_75 (constantI S_ 32 0#32),
    StableHlo.TRef.unary (.of main_c_75 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S204800, .i32⟩) (broadcastInDim S204800 ![] bcast_S_S204800),
    StableHlo.TRef.ternary (.of main_v190 : StableHlo.TRef sig ⟨S204800, .i1⟩) (.of main_v208 : StableHlo.TRef sig ⟨S204800, .i32⟩) (.of main_call21_v1 : StableHlo.TRef sig ⟨S204800, .i32⟩) (.of main_v209 : StableHlo.TRef sig ⟨S204800, .i32⟩) select,
    StableHlo.nullary main_c_76 (constantI S_ 32 0#32),
    StableHlo.unary main_c_76 main_v210 (broadcastInDim S204800 ![] bcast_S_S204800 : (⟨S_, .i32⟩ : BufTy).Contents (Elt F) → (⟨S204800, .i32⟩ : BufTy).Contents (Elt F)),
    StableHlo.binary main_v209 main_v210 main_v211 (cmpi .sgt : (⟨S204800, .i32⟩ : BufTy).Contents (Elt F) → (⟨S204800, .i32⟩ : BufTy).Contents (Elt F) → (⟨S204800, .i1⟩ : BufTy).Contents (Elt F)),
    StableHlo.nullary main_c_77 (constantI S_ 32 0#32),
    StableHlo.unary main_c_77 main_v212 (broadcastInDim S204800 ![] bcast_S_S204800 : (⟨S_, .i32⟩ : BufTy).Contents (Elt F) → (⟨S204800, .i32⟩ : BufTy).Contents (Elt F)),
    StableHlo.binary main_v191 main_v212 main_v213 (cmpi .slt : (⟨S204800, .i32⟩ : BufTy).Contents (Elt F) → (⟨S204800, .i32⟩ : BufTy).Contents (Elt F) → (⟨S204800, .i1⟩ : BufTy).Contents (Elt F)),
    StableHlo.nullary main_c_78 (constantI S_ 32 3551#32),
    StableHlo.unary main_c_78 main_v214 (broadcastInDim S204800 ![] bcast_S_S204800 : (⟨S_, .i32⟩ : BufTy).Contents (Elt F) → (⟨S204800, .i32⟩ : BufTy).Contents (Elt F)),
    StableHlo.binary main_v191 main_v214 main_v215 (addi : (⟨S204800, .i32⟩ : BufTy).Contents (Elt F) → (⟨S204800, .i32⟩ : BufTy).Contents (Elt F) → (⟨S204800, .i32⟩ : BufTy).Contents (Elt F)),
    StableHlo.ternary main_v213 main_v215 main_v191 main_v216 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v216 main_v217 (broadcastInDim S204800x1 ![0] bcast_S204800_S204800x1_0 : (⟨S204800, .i32⟩ : BufTy).Contents (Elt F) → (⟨S204800x1, .i32⟩ : BufTy).Contents (Elt F)),
    StableHlo.binary main_arg3 main_v217 main_v218 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_79 (constantI S_ 32 0#32) ]

/-- Window 5 of the entry function: its 73 operations, calls inlined. -/
abbrev ops5 : List (HloOp τ sig (Elt F)) :=
  [ StableHlo.TRef.unary (.of main_c_79 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S204800, .i32⟩) (broadcastInDim S204800 ![] bcast_S_S204800),
    StableHlo.TRef.ternary (.of main_v211 : StableHlo.TRef sig ⟨S204800, .i1⟩) (.of main_v218 : StableHlo.TRef sig ⟨S204800, .i32⟩) (.of main_call22_v1 : StableHlo.TRef sig ⟨S204800, .i32⟩) (.of main_v219 : StableHlo.TRef sig ⟨S204800, .i32⟩) select,
    StableHlo.unary main_v209 main_v220 (sitofp .f32 : (⟨S204800, .i32⟩ : BufTy).Contents (Elt F) → (⟨S204800, .f32⟩ : BufTy).Contents (Elt F)),
    StableHlo.binary main_v188 main_v220 main_v221 (mulf : (⟨S204800, .f32⟩ : BufTy).Contents (Elt F) → (⟨S204800, .f32⟩ : BufTy).Contents (Elt F) → (⟨S204800, .f32⟩ : BufTy).Contents (Elt F)),
    StableHlo.unary main_v221 main_v222 (fptosi 32 : (⟨S204800, .f32⟩ : BufTy).Contents (Elt F) → (⟨S204800, .i32⟩ : BufTy).Contents (Elt F)),
    StableHlo.binary main_v222 main_v219 main_v223 (addi : (⟨S204800, .i32⟩ : BufTy).Contents (Elt F) → (⟨S204800, .i32⟩ : BufTy).Contents (Elt F) → (⟨S204800, .i32⟩ : BufTy).Contents (Elt F)),
    StableHlo.nullary main_c_80 (constantI S_ 32 0#32),
    StableHlo.nullary main_c_81 (constantI S_ 32 217263#32),
    StableHlo.TRef.unary (.of main_c_80 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S204800, .i32⟩) (broadcastInDim S204800 ![] bcast_S_S204800),
    StableHlo.TRef.binary (.of main_call23_v1 : StableHlo.TRef sig ⟨S204800, .i32⟩) (.of main_v223 : StableHlo.TRef sig ⟨S204800, .i32⟩) (.of main_call23_v2 : StableHlo.TRef sig ⟨S204800, .i32⟩) maxsi,
    StableHlo.TRef.unary (.of main_c_81 : StableHlo.TRef sig ⟨S_, .i32⟩) (.of main_call23_v3 : StableHlo.TRef sig ⟨S_, .i32⟩) id,
    StableHlo.TRef.unary (.of main_call23_v3 : StableHlo.TRef sig ⟨S_, .i32⟩) (.of main_call23_v4 : StableHlo.TRef sig ⟨S204800, .i32⟩) (broadcastInDim S204800 ![] bcast_S_S204800),
    StableHlo.TRef.binary (.of main_call23_v4 : StableHlo.TRef sig ⟨S204800, .i32⟩) (.of main_call23_v2 : StableHlo.TRef sig ⟨S204800, .i32⟩) (.of main_v224 : StableHlo.TRef sig ⟨S204800, .i32⟩) minsi,
    StableHlo.nullary main_c_82 (constantI S_ 32 0#32),
    StableHlo.unary main_c_82 main_v225 (broadcastInDim S204800 ![] bcast_S_S204800 : (⟨S_, .i32⟩ : BufTy).Contents (Elt F) → (⟨S204800, .i32⟩ : BufTy).Contents (Elt F)),
    StableHlo.binary main_v224 main_v225 main_v226 (cmpi .slt : (⟨S204800, .i32⟩ : BufTy).Contents (Elt F) → (⟨S204800, .i32⟩ : BufTy).Contents (Elt F) → (⟨S204800, .i1⟩ : BufTy).Contents (Elt F)),
    StableHlo.nullary main_c_83 (constantI S_ 32 217264#32),
    StableHlo.unary main_c_83 main_v227 (broadcastInDim S204800 ![] bcast_S_S204800 : (⟨S_, .i32⟩ : BufTy).Contents (Elt F) → (⟨S204800, .i32⟩ : BufTy).Contents (Elt F)),
    StableHlo.binary main_v224 main_v227 main_v228 (addi : (⟨S204800, .i32⟩ : BufTy).Contents (Elt F) → (⟨S204800, .i32⟩ : BufTy).Contents (Elt F) → (⟨S204800, .i32⟩ : BufTy).Contents (Elt F)),
    StableHlo.ternary main_v226 main_v228 main_v224 main_v229 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v229 main_v230 (broadcastInDim S204800x1 ![0] bcast_S204800_S204800x1_0 : (⟨S204800, .i32⟩ : BufTy).Contents (Elt F) → (⟨S204800x1, .i32⟩ : BufTy).Contents (Elt F)),
    StableHlo.binary main_arg4 main_v230 main_v231 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_84 (constantI S_ 32 120000#32),
    StableHlo.TRef.unary (.of main_c_84 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S204800, .i32⟩) (broadcastInDim S204800 ![] bcast_S_S204800),
    StableHlo.TRef.ternary (.of main_v211 : StableHlo.TRef sig ⟨S204800, .i1⟩) (.of main_v231 : StableHlo.TRef sig ⟨S204800, .i32⟩) (.of main_call24_v1 : StableHlo.TRef sig ⟨S204800, .i32⟩) (.of main_v232 : StableHlo.TRef sig ⟨S204800, .i32⟩) select,
    StableHlo.unary main_arg0 main_v233 ((extractStridedSlice S204800x1 ![0, 5] · slices_S204800x20_S204800x1_0_5) : (⟨S204800x20, .f32⟩ : BufTy).Contents (Elt F) → (⟨S204800x1, .f32⟩ : BufTy).Contents (Elt F)),
    StableHlo.reshape main_v233 main_v234 rfl shapeCasts_S204800x1_S204800,
    StableHlo.nullary main_c_85 (constantI S_ 32 120000#32),
    StableHlo.unary main_c_85 main_v235 (broadcastInDim S204800 ![] bcast_S_S204800 : (⟨S_, .i32⟩ : BufTy).Contents (Elt F) → (⟨S204800, .i32⟩ : BufTy).Contents (Elt F)),
    StableHlo.binary main_v232 main_v235 main_v236 (cmpi .slt : (⟨S204800, .i32⟩ : BufTy).Contents (Elt F) → (⟨S204800, .i32⟩ : BufTy).Contents (Elt F) → (⟨S204800, .i1⟩ : BufTy).Contents (Elt F)),
    StableHlo.nullary main_c_86 (constantI S_ 32 0#32),
    StableHlo.TRef.unary (.of main_c_86 : StableHlo.TRef sig ⟨S_, .i32⟩) (.of main_call25_v0 : StableHlo.TRef sig ⟨S_, .i32⟩) id,
    StableHlo.TRef.unary (.of main_call25_v0 : StableHlo.TRef sig ⟨S_, .i32⟩) (.of main_call25_v1 : StableHlo.TRef sig ⟨S204800, .i32⟩) (broadcastInDim S204800 ![] bcast_S_S204800),
    StableHlo.TRef.ternary (.of main_v236 : StableHlo.TRef sig ⟨S204800, .i1⟩) (.of main_v232 : StableHlo.TRef sig ⟨S204800, .i32⟩) (.of main_call25_v1 : StableHlo.TRef sig ⟨S204800, .i32⟩) (.of main_v237 : StableHlo.TRef sig ⟨S204800, .i32⟩) select,
    StableHlo.nullary main_c_87 (constantI S_ 32 1#32),
    StableHlo.unary main_c_87 main_v238 (broadcastInDim S204800 ![] bcast_S_S204800 : (⟨S_, .i32⟩ : BufTy).Contents (Elt F) → (⟨S204800, .i32⟩ : BufTy).Contents (Elt F)),
    StableHlo.binary main_v237 main_v238 main_v239 (addi : (⟨S204800, .i32⟩ : BufTy).Contents (Elt F) → (⟨S204800, .i32⟩ : BufTy).Contents (Elt F) → (⟨S204800, .i32⟩ : BufTy).Contents (Elt F)),
    StableHlo.nullary main_c_88 (constantI S_ 32 0#32),
    StableHlo.unary main_c_88 main_v240 (broadcastInDim S204800 ![] bcast_S_S204800 : (⟨S_, .i32⟩ : BufTy).Contents (Elt F) → (⟨S204800, .i32⟩ : BufTy).Contents (Elt F)),
    StableHlo.binary main_v239 main_v240 main_v241 (cmpi .slt : (⟨S204800, .i32⟩ : BufTy).Contents (Elt F) → (⟨S204800, .i32⟩ : BufTy).Contents (Elt F) → (⟨S204800, .i1⟩ : BufTy).Contents (Elt F)),
    StableHlo.nullary main_c_89 (constantI S_ 32 20001#32),
    StableHlo.unary main_c_89 main_v242 (broadcastInDim S204800 ![] bcast_S_S204800 : (⟨S_, .i32⟩ : BufTy).Contents (Elt F) → (⟨S204800, .i32⟩ : BufTy).Contents (Elt F)),
    StableHlo.binary main_v239 main_v242 main_v243 (addi : (⟨S204800, .i32⟩ : BufTy).Contents (Elt F) → (⟨S204800, .i32⟩ : BufTy).Contents (Elt F) → (⟨S204800, .i32⟩ : BufTy).Contents (Elt F)),
    StableHlo.ternary main_v241 main_v243 main_v239 main_v244 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v244 main_v245 (broadcastInDim S204800x1 ![0] bcast_S204800_S204800x1_0 : (⟨S204800, .i32⟩ : BufTy).Contents (Elt F) → (⟨S204800x1, .i32⟩ : BufTy).Contents (Elt F)),
    StableHlo.binary main_arg5 main_v245 main_v246 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_90 (constantI S_ 32 0#32),
    StableHlo.unary main_c_90 main_v247 (broadcastInDim S204800 ![] bcast_S_S204800 : (⟨S_, .i32⟩ : BufTy).Contents (Elt F) → (⟨S204800, .i32⟩ : BufTy).Contents (Elt F)),
    StableHlo.binary main_v237 main_v247 main_v248 (cmpi .slt : (⟨S204800, .i32⟩ : BufTy).Contents (Elt F) → (⟨S204800, .i32⟩ : BufTy).Contents (Elt F) → (⟨S204800, .i1⟩ : BufTy).Contents (Elt F)),
    StableHlo.nullary main_c_91 (constantI S_ 32 20001#32),
    StableHlo.unary main_c_91 main_v249 (broadcastInDim S204800 ![] bcast_S_S204800 : (⟨S_, .i32⟩ : BufTy).Contents (Elt F) → (⟨S204800, .i32⟩ : BufTy).Contents (Elt F)),
    StableHlo.binary main_v237 main_v249 main_v250 (addi : (⟨S204800, .i32⟩ : BufTy).Contents (Elt F) → (⟨S204800, .i32⟩ : BufTy).Contents (Elt F) → (⟨S204800, .i32⟩ : BufTy).Contents (Elt F)),
    StableHlo.ternary main_v248 main_v250 main_v237 main_v251 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v251 main_v252 (broadcastInDim S204800x1 ![0] bcast_S204800_S204800x1_0 : (⟨S204800, .i32⟩ : BufTy).Contents (Elt F) → (⟨S204800x1, .i32⟩ : BufTy).Contents (Elt F)),
    StableHlo.binary main_arg5 main_v252 main_v253 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v246 main_v253 main_v254 (subi : (⟨S204800, .i32⟩ : BufTy).Contents (Elt F) → (⟨S204800, .i32⟩ : BufTy).Contents (Elt F) → (⟨S204800, .i32⟩ : BufTy).Contents (Elt F)),
    StableHlo.nullary main_c_92 (constantI S_ 32 0#32),
    StableHlo.TRef.unary (.of main_c_92 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S204800, .i32⟩) (broadcastInDim S204800 ![] bcast_S_S204800),
    StableHlo.TRef.ternary (.of main_v236 : StableHlo.TRef sig ⟨S204800, .i1⟩) (.of main_v254 : StableHlo.TRef sig ⟨S204800, .i32⟩) (.of main_call26_v1 : StableHlo.TRef sig ⟨S204800, .i32⟩) (.of main_v255 : StableHlo.TRef sig ⟨S204800, .i32⟩) select,
    StableHlo.nullary main_c_93 (constantI S_ 32 0#32),
    StableHlo.unary main_c_93 main_v256 (broadcastInDim S204800 ![] bcast_S_S204800 : (⟨S_, .i32⟩ : BufTy).Contents (Elt F) → (⟨S204800, .i32⟩ : BufTy).Contents (Elt F)),
    StableHlo.binary main_v255 main_v256 main_v257 (cmpi .sgt : (⟨S204800, .i32⟩ : BufTy).Contents (Elt F) → (⟨S204800, .i32⟩ : BufTy).Contents (Elt F) → (⟨S204800, .i1⟩ : BufTy).Contents (Elt F)),
    StableHlo.nullary main_c_94 (constantI S_ 32 0#32),
    StableHlo.unary main_c_94 main_v258 (broadcastInDim S204800 ![] bcast_S_S204800 : (⟨S_, .i32⟩ : BufTy).Contents (Elt F) → (⟨S204800, .i32⟩ : BufTy).Contents (Elt F)),
    StableHlo.binary main_v237 main_v258 main_v259 (cmpi .slt : (⟨S204800, .i32⟩ : BufTy).Contents (Elt F) → (⟨S204800, .i32⟩ : BufTy).Contents (Elt F) → (⟨S204800, .i1⟩ : BufTy).Contents (Elt F)),
    StableHlo.nullary main_c_95 (constantI S_ 32 20001#32),
    StableHlo.unary main_c_95 main_v260 (broadcastInDim S204800 ![] bcast_S_S204800 : (⟨S_, .i32⟩ : BufTy).Contents (Elt F) → (⟨S204800, .i32⟩ : BufTy).Contents (Elt F)),
    StableHlo.binary main_v237 main_v260 main_v261 (addi : (⟨S204800, .i32⟩ : BufTy).Contents (Elt F) → (⟨S204800, .i32⟩ : BufTy).Contents (Elt F) → (⟨S204800, .i32⟩ : BufTy).Contents (Elt F)),
    StableHlo.ternary main_v259 main_v261 main_v237 main_v262 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)) ]

/-- Window 6 of the entry function: its 73 operations, calls inlined. -/
abbrev ops6 : List (HloOp τ sig (Elt F)) :=
  [ StableHlo.unary main_v262 main_v263 (broadcastInDim S204800x1 ![0] bcast_S204800_S204800x1_0 : (⟨S204800, .i32⟩ : BufTy).Contents (Elt F) → (⟨S204800x1, .i32⟩ : BufTy).Contents (Elt F)),
    StableHlo.binary main_arg5 main_v263 main_v264 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_96 (constantI S_ 32 0#32),
    StableHlo.TRef.unary (.of main_c_96 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S204800, .i32⟩) (broadcastInDim S204800 ![] bcast_S_S204800),
    StableHlo.TRef.ternary (.of main_v257 : StableHlo.TRef sig ⟨S204800, .i1⟩) (.of main_v264 : StableHlo.TRef sig ⟨S204800, .i32⟩) (.of main_call27_v1 : StableHlo.TRef sig ⟨S204800, .i32⟩) (.of main_v265 : StableHlo.TRef sig ⟨S204800, .i32⟩) select,
    StableHlo.unary main_v255 main_v266 (sitofp .f32 : (⟨S204800, .i32⟩ : BufTy).Contents (Elt F) → (⟨S204800, .f32⟩ : BufTy).Contents (Elt F)),
    StableHlo.binary main_v234 main_v266 main_v267 (mulf : (⟨S204800, .f32⟩ : BufTy).Contents (Elt F) → (⟨S204800, .f32⟩ : BufTy).Contents (Elt F) → (⟨S204800, .f32⟩ : BufTy).Contents (Elt F)),
    StableHlo.unary main_v267 main_v268 (fptosi 32 : (⟨S204800, .f32⟩ : BufTy).Contents (Elt F) → (⟨S204800, .i32⟩ : BufTy).Contents (Elt F)),
    StableHlo.binary main_v268 main_v265 main_v269 (addi : (⟨S204800, .i32⟩ : BufTy).Contents (Elt F) → (⟨S204800, .i32⟩ : BufTy).Contents (Elt F) → (⟨S204800, .i32⟩ : BufTy).Contents (Elt F)),
    StableHlo.nullary main_c_97 (constantI S_ 32 0#32),
    StableHlo.nullary main_c_98 (constantI S_ 32 302234#32),
    StableHlo.TRef.unary (.of main_c_97 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S204800, .i32⟩) (broadcastInDim S204800 ![] bcast_S_S204800),
    StableHlo.TRef.binary (.of main_call28_v1 : StableHlo.TRef sig ⟨S204800, .i32⟩) (.of main_v269 : StableHlo.TRef sig ⟨S204800, .i32⟩) (.of main_call28_v2 : StableHlo.TRef sig ⟨S204800, .i32⟩) maxsi,
    StableHlo.TRef.unary (.of main_c_98 : StableHlo.TRef sig ⟨S_, .i32⟩) (.of main_call28_v3 : StableHlo.TRef sig ⟨S_, .i32⟩) id,
    StableHlo.TRef.unary (.of main_call28_v3 : StableHlo.TRef sig ⟨S_, .i32⟩) (.of main_call28_v4 : StableHlo.TRef sig ⟨S204800, .i32⟩) (broadcastInDim S204800 ![] bcast_S_S204800),
    StableHlo.TRef.binary (.of main_call28_v4 : StableHlo.TRef sig ⟨S204800, .i32⟩) (.of main_call28_v2 : StableHlo.TRef sig ⟨S204800, .i32⟩) (.of main_v270 : StableHlo.TRef sig ⟨S204800, .i32⟩) minsi,
    StableHlo.nullary main_c_99 (constantI S_ 32 0#32),
    StableHlo.unary main_c_99 main_v271 (broadcastInDim S204800 ![] bcast_S_S204800 : (⟨S_, .i32⟩ : BufTy).Contents (Elt F) → (⟨S204800, .i32⟩ : BufTy).Contents (Elt F)),
    StableHlo.binary main_v270 main_v271 main_v272 (cmpi .slt : (⟨S204800, .i32⟩ : BufTy).Contents (Elt F) → (⟨S204800, .i32⟩ : BufTy).Contents (Elt F) → (⟨S204800, .i1⟩ : BufTy).Contents (Elt F)),
    StableHlo.nullary main_c_100 (constantI S_ 32 302235#32),
    StableHlo.unary main_c_100 main_v273 (broadcastInDim S204800 ![] bcast_S_S204800 : (⟨S_, .i32⟩ : BufTy).Contents (Elt F) → (⟨S204800, .i32⟩ : BufTy).Contents (Elt F)),
    StableHlo.binary main_v270 main_v273 main_v274 (addi : (⟨S204800, .i32⟩ : BufTy).Contents (Elt F) → (⟨S204800, .i32⟩ : BufTy).Contents (Elt F) → (⟨S204800, .i32⟩ : BufTy).Contents (Elt F)),
    StableHlo.ternary main_v272 main_v274 main_v270 main_v275 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v275 main_v276 (broadcastInDim S204800x1 ![0] bcast_S204800_S204800x1_0 : (⟨S204800, .i32⟩ : BufTy).Contents (Elt F) → (⟨S204800x1, .i32⟩ : BufTy).Contents (Elt F)),
    StableHlo.binary main_arg6 main_v276 main_v277 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_101 (constantI S_ 32 120000#32),
    StableHlo.TRef.unary (.of main_c_101 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S204800, .i32⟩) (broadcastInDim S204800 ![] bcast_S_S204800),
    StableHlo.TRef.ternary (.of main_v257 : StableHlo.TRef sig ⟨S204800, .i1⟩) (.of main_v277 : StableHlo.TRef sig ⟨S204800, .i32⟩) (.of main_call29_v1 : StableHlo.TRef sig ⟨S204800, .i32⟩) (.of main_v278 : StableHlo.TRef sig ⟨S204800, .i32⟩) select,
    StableHlo.unary main_arg0 main_v279 ((extractStridedSlice S204800x1 ![0, 6] · slices_S204800x20_S204800x1_0_6) : (⟨S204800x20, .f32⟩ : BufTy).Contents (Elt F) → (⟨S204800x1, .f32⟩ : BufTy).Contents (Elt F)),
    StableHlo.reshape main_v279 main_v280 rfl shapeCasts_S204800x1_S204800,
    StableHlo.nullary main_c_102 (constantI S_ 32 120000#32),
    StableHlo.unary main_c_102 main_v281 (broadcastInDim S204800 ![] bcast_S_S204800 : (⟨S_, .i32⟩ : BufTy).Contents (Elt F) → (⟨S204800, .i32⟩ : BufTy).Contents (Elt F)),
    StableHlo.binary main_v278 main_v281 main_v282 (cmpi .slt : (⟨S204800, .i32⟩ : BufTy).Contents (Elt F) → (⟨S204800, .i32⟩ : BufTy).Contents (Elt F) → (⟨S204800, .i1⟩ : BufTy).Contents (Elt F)),
    StableHlo.nullary main_c_103 (constantI S_ 32 0#32),
    StableHlo.TRef.unary (.of main_c_103 : StableHlo.TRef sig ⟨S_, .i32⟩) (.of main_call30_v0 : StableHlo.TRef sig ⟨S_, .i32⟩) id,
    StableHlo.TRef.unary (.of main_call30_v0 : StableHlo.TRef sig ⟨S_, .i32⟩) (.of main_call30_v1 : StableHlo.TRef sig ⟨S204800, .i32⟩) (broadcastInDim S204800 ![] bcast_S_S204800),
    StableHlo.TRef.ternary (.of main_v282 : StableHlo.TRef sig ⟨S204800, .i1⟩) (.of main_v278 : StableHlo.TRef sig ⟨S204800, .i32⟩) (.of main_call30_v1 : StableHlo.TRef sig ⟨S204800, .i32⟩) (.of main_v283 : StableHlo.TRef sig ⟨S204800, .i32⟩) select,
    StableHlo.nullary main_c_104 (constantI S_ 32 1#32),
    StableHlo.unary main_c_104 main_v284 (broadcastInDim S204800 ![] bcast_S_S204800 : (⟨S_, .i32⟩ : BufTy).Contents (Elt F) → (⟨S204800, .i32⟩ : BufTy).Contents (Elt F)),
    StableHlo.binary main_v283 main_v284 main_v285 (addi : (⟨S204800, .i32⟩ : BufTy).Contents (Elt F) → (⟨S204800, .i32⟩ : BufTy).Contents (Elt F) → (⟨S204800, .i32⟩ : BufTy).Contents (Elt F)),
    StableHlo.nullary main_c_105 (constantI S_ 32 0#32),
    StableHlo.unary main_c_105 main_v286 (broadcastInDim S204800 ![] bcast_S_S204800 : (⟨S_, .i32⟩ : BufTy).Contents (Elt F) → (⟨S204800, .i32⟩ : BufTy).Contents (Elt F)),
    StableHlo.binary main_v285 main_v286 main_v287 (cmpi .slt : (⟨S204800, .i32⟩ : BufTy).Contents (Elt F) → (⟨S204800, .i32⟩ : BufTy).Contents (Elt F) → (⟨S204800, .i1⟩ : BufTy).Contents (Elt F)),
    StableHlo.nullary main_c_106 (constantI S_ 32 3551#32),
    StableHlo.unary main_c_106 main_v288 (broadcastInDim S204800 ![] bcast_S_S204800 : (⟨S_, .i32⟩ : BufTy).Contents (Elt F) → (⟨S204800, .i32⟩ : BufTy).Contents (Elt F)),
    StableHlo.binary main_v285 main_v288 main_v289 (addi : (⟨S204800, .i32⟩ : BufTy).Contents (Elt F) → (⟨S204800, .i32⟩ : BufTy).Contents (Elt F) → (⟨S204800, .i32⟩ : BufTy).Contents (Elt F)),
    StableHlo.ternary main_v287 main_v289 main_v285 main_v290 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v290 main_v291 (broadcastInDim S204800x1 ![0] bcast_S204800_S204800x1_0 : (⟨S204800, .i32⟩ : BufTy).Contents (Elt F) → (⟨S204800x1, .i32⟩ : BufTy).Contents (Elt F)),
    StableHlo.binary main_arg3 main_v291 main_v292 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_107 (constantI S_ 32 0#32),
    StableHlo.unary main_c_107 main_v293 (broadcastInDim S204800 ![] bcast_S_S204800 : (⟨S_, .i32⟩ : BufTy).Contents (Elt F) → (⟨S204800, .i32⟩ : BufTy).Contents (Elt F)),
    StableHlo.binary main_v283 main_v293 main_v294 (cmpi .slt : (⟨S204800, .i32⟩ : BufTy).Contents (Elt F) → (⟨S204800, .i32⟩ : BufTy).Contents (Elt F) → (⟨S204800, .i1⟩ : BufTy).Contents (Elt F)),
    StableHlo.nullary main_c_108 (constantI S_ 32 3551#32),
    StableHlo.unary main_c_108 main_v295 (broadcastInDim S204800 ![] bcast_S_S204800 : (⟨S_, .i32⟩ : BufTy).Contents (Elt F) → (⟨S204800, .i32⟩ : BufTy).Contents (Elt F)),
    StableHlo.binary main_v283 main_v295 main_v296 (addi : (⟨S204800, .i32⟩ : BufTy).Contents (Elt F) → (⟨S204800, .i32⟩ : BufTy).Contents (Elt F) → (⟨S204800, .i32⟩ : BufTy).Contents (Elt F)),
    StableHlo.ternary main_v294 main_v296 main_v283 main_v297 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v297 main_v298 (broadcastInDim S204800x1 ![0] bcast_S204800_S204800x1_0 : (⟨S204800, .i32⟩ : BufTy).Contents (Elt F) → (⟨S204800x1, .i32⟩ : BufTy).Contents (Elt F)),
    StableHlo.binary main_arg3 main_v298 main_v299 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v292 main_v299 main_v300 (subi : (⟨S204800, .i32⟩ : BufTy).Contents (Elt F) → (⟨S204800, .i32⟩ : BufTy).Contents (Elt F) → (⟨S204800, .i32⟩ : BufTy).Contents (Elt F)),
    StableHlo.nullary main_c_109 (constantI S_ 32 0#32),
    StableHlo.TRef.unary (.of main_c_109 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S204800, .i32⟩) (broadcastInDim S204800 ![] bcast_S_S204800),
    StableHlo.TRef.ternary (.of main_v282 : StableHlo.TRef sig ⟨S204800, .i1⟩) (.of main_v300 : StableHlo.TRef sig ⟨S204800, .i32⟩) (.of main_call31_v1 : StableHlo.TRef sig ⟨S204800, .i32⟩) (.of main_v301 : StableHlo.TRef sig ⟨S204800, .i32⟩) select,
    StableHlo.nullary main_c_110 (constantI S_ 32 0#32),
    StableHlo.unary main_c_110 main_v302 (broadcastInDim S204800 ![] bcast_S_S204800 : (⟨S_, .i32⟩ : BufTy).Contents (Elt F) → (⟨S204800, .i32⟩ : BufTy).Contents (Elt F)),
    StableHlo.binary main_v301 main_v302 main_v303 (cmpi .sgt : (⟨S204800, .i32⟩ : BufTy).Contents (Elt F) → (⟨S204800, .i32⟩ : BufTy).Contents (Elt F) → (⟨S204800, .i1⟩ : BufTy).Contents (Elt F)),
    StableHlo.nullary main_c_111 (constantI S_ 32 0#32),
    StableHlo.unary main_c_111 main_v304 (broadcastInDim S204800 ![] bcast_S_S204800 : (⟨S_, .i32⟩ : BufTy).Contents (Elt F) → (⟨S204800, .i32⟩ : BufTy).Contents (Elt F)),
    StableHlo.binary main_v283 main_v304 main_v305 (cmpi .slt : (⟨S204800, .i32⟩ : BufTy).Contents (Elt F) → (⟨S204800, .i32⟩ : BufTy).Contents (Elt F) → (⟨S204800, .i1⟩ : BufTy).Contents (Elt F)),
    StableHlo.nullary main_c_112 (constantI S_ 32 3551#32) ]

/-- Window 7 of the entry function: its 73 operations, calls inlined. -/
abbrev ops7 : List (HloOp τ sig (Elt F)) :=
  [ StableHlo.unary main_c_112 main_v306 (broadcastInDim S204800 ![] bcast_S_S204800 : (⟨S_, .i32⟩ : BufTy).Contents (Elt F) → (⟨S204800, .i32⟩ : BufTy).Contents (Elt F)),
    StableHlo.binary main_v283 main_v306 main_v307 (addi : (⟨S204800, .i32⟩ : BufTy).Contents (Elt F) → (⟨S204800, .i32⟩ : BufTy).Contents (Elt F) → (⟨S204800, .i32⟩ : BufTy).Contents (Elt F)),
    StableHlo.ternary main_v305 main_v307 main_v283 main_v308 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v308 main_v309 (broadcastInDim S204800x1 ![0] bcast_S204800_S204800x1_0 : (⟨S204800, .i32⟩ : BufTy).Contents (Elt F) → (⟨S204800x1, .i32⟩ : BufTy).Contents (Elt F)),
    StableHlo.binary main_arg3 main_v309 main_v310 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_113 (constantI S_ 32 0#32),
    StableHlo.TRef.unary (.of main_c_113 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S204800, .i32⟩) (broadcastInDim S204800 ![] bcast_S_S204800),
    StableHlo.TRef.ternary (.of main_v303 : StableHlo.TRef sig ⟨S204800, .i1⟩) (.of main_v310 : StableHlo.TRef sig ⟨S204800, .i32⟩) (.of main_call32_v1 : StableHlo.TRef sig ⟨S204800, .i32⟩) (.of main_v311 : StableHlo.TRef sig ⟨S204800, .i32⟩) select,
    StableHlo.unary main_v301 main_v312 (sitofp .f32 : (⟨S204800, .i32⟩ : BufTy).Contents (Elt F) → (⟨S204800, .f32⟩ : BufTy).Contents (Elt F)),
    StableHlo.binary main_v280 main_v312 main_v313 (mulf : (⟨S204800, .f32⟩ : BufTy).Contents (Elt F) → (⟨S204800, .f32⟩ : BufTy).Contents (Elt F) → (⟨S204800, .f32⟩ : BufTy).Contents (Elt F)),
    StableHlo.unary main_v313 main_v314 (fptosi 32 : (⟨S204800, .f32⟩ : BufTy).Contents (Elt F) → (⟨S204800, .i32⟩ : BufTy).Contents (Elt F)),
    StableHlo.binary main_v314 main_v311 main_v315 (addi : (⟨S204800, .i32⟩ : BufTy).Contents (Elt F) → (⟨S204800, .i32⟩ : BufTy).Contents (Elt F) → (⟨S204800, .i32⟩ : BufTy).Contents (Elt F)),
    StableHlo.nullary main_c_114 (constantI S_ 32 0#32),
    StableHlo.nullary main_c_115 (constantI S_ 32 217263#32),
    StableHlo.TRef.unary (.of main_c_114 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S204800, .i32⟩) (broadcastInDim S204800 ![] bcast_S_S204800),
    StableHlo.TRef.binary (.of main_call33_v1 : StableHlo.TRef sig ⟨S204800, .i32⟩) (.of main_v315 : StableHlo.TRef sig ⟨S204800, .i32⟩) (.of main_call33_v2 : StableHlo.TRef sig ⟨S204800, .i32⟩) maxsi,
    StableHlo.TRef.unary (.of main_c_115 : StableHlo.TRef sig ⟨S_, .i32⟩) (.of main_call33_v3 : StableHlo.TRef sig ⟨S_, .i32⟩) id,
    StableHlo.TRef.unary (.of main_call33_v3 : StableHlo.TRef sig ⟨S_, .i32⟩) (.of main_call33_v4 : StableHlo.TRef sig ⟨S204800, .i32⟩) (broadcastInDim S204800 ![] bcast_S_S204800),
    StableHlo.TRef.binary (.of main_call33_v4 : StableHlo.TRef sig ⟨S204800, .i32⟩) (.of main_call33_v2 : StableHlo.TRef sig ⟨S204800, .i32⟩) (.of main_v316 : StableHlo.TRef sig ⟨S204800, .i32⟩) minsi,
    StableHlo.nullary main_c_116 (constantI S_ 32 0#32),
    StableHlo.unary main_c_116 main_v317 (broadcastInDim S204800 ![] bcast_S_S204800 : (⟨S_, .i32⟩ : BufTy).Contents (Elt F) → (⟨S204800, .i32⟩ : BufTy).Contents (Elt F)),
    StableHlo.binary main_v316 main_v317 main_v318 (cmpi .slt : (⟨S204800, .i32⟩ : BufTy).Contents (Elt F) → (⟨S204800, .i32⟩ : BufTy).Contents (Elt F) → (⟨S204800, .i1⟩ : BufTy).Contents (Elt F)),
    StableHlo.nullary main_c_117 (constantI S_ 32 217264#32),
    StableHlo.unary main_c_117 main_v319 (broadcastInDim S204800 ![] bcast_S_S204800 : (⟨S_, .i32⟩ : BufTy).Contents (Elt F) → (⟨S204800, .i32⟩ : BufTy).Contents (Elt F)),
    StableHlo.binary main_v316 main_v319 main_v320 (addi : (⟨S204800, .i32⟩ : BufTy).Contents (Elt F) → (⟨S204800, .i32⟩ : BufTy).Contents (Elt F) → (⟨S204800, .i32⟩ : BufTy).Contents (Elt F)),
    StableHlo.ternary main_v318 main_v320 main_v316 main_v321 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v321 main_v322 (broadcastInDim S204800x1 ![0] bcast_S204800_S204800x1_0 : (⟨S204800, .i32⟩ : BufTy).Contents (Elt F) → (⟨S204800x1, .i32⟩ : BufTy).Contents (Elt F)),
    StableHlo.binary main_arg4 main_v322 main_v323 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_118 (constantI S_ 32 120000#32),
    StableHlo.TRef.unary (.of main_c_118 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S204800, .i32⟩) (broadcastInDim S204800 ![] bcast_S_S204800),
    StableHlo.TRef.ternary (.of main_v303 : StableHlo.TRef sig ⟨S204800, .i1⟩) (.of main_v323 : StableHlo.TRef sig ⟨S204800, .i32⟩) (.of main_call34_v1 : StableHlo.TRef sig ⟨S204800, .i32⟩) (.of main_v324 : StableHlo.TRef sig ⟨S204800, .i32⟩) select,
    StableHlo.unary main_arg0 main_v325 ((extractStridedSlice S204800x1 ![0, 7] · slices_S204800x20_S204800x1_0_7) : (⟨S204800x20, .f32⟩ : BufTy).Contents (Elt F) → (⟨S204800x1, .f32⟩ : BufTy).Contents (Elt F)),
    StableHlo.reshape main_v325 main_v326 rfl shapeCasts_S204800x1_S204800,
    StableHlo.nullary main_c_119 (constantI S_ 32 120000#32),
    StableHlo.unary main_c_119 main_v327 (broadcastInDim S204800 ![] bcast_S_S204800 : (⟨S_, .i32⟩ : BufTy).Contents (Elt F) → (⟨S204800, .i32⟩ : BufTy).Contents (Elt F)),
    StableHlo.binary main_v324 main_v327 main_v328 (cmpi .slt : (⟨S204800, .i32⟩ : BufTy).Contents (Elt F) → (⟨S204800, .i32⟩ : BufTy).Contents (Elt F) → (⟨S204800, .i1⟩ : BufTy).Contents (Elt F)),
    StableHlo.nullary main_c_120 (constantI S_ 32 0#32),
    StableHlo.TRef.unary (.of main_c_120 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S204800, .i32⟩) (broadcastInDim S204800 ![] bcast_S_S204800),
    StableHlo.TRef.ternary (.of main_v328 : StableHlo.TRef sig ⟨S204800, .i1⟩) (.of main_v324 : StableHlo.TRef sig ⟨S204800, .i32⟩) (.of main_call35_v1 : StableHlo.TRef sig ⟨S204800, .i32⟩) (.of main_v329 : StableHlo.TRef sig ⟨S204800, .i32⟩) select,
    StableHlo.nullary main_c_121 (constantI S_ 32 1#32),
    StableHlo.unary main_c_121 main_v330 (broadcastInDim S204800 ![] bcast_S_S204800 : (⟨S_, .i32⟩ : BufTy).Contents (Elt F) → (⟨S204800, .i32⟩ : BufTy).Contents (Elt F)),
    StableHlo.binary main_v329 main_v330 main_v331 (addi : (⟨S204800, .i32⟩ : BufTy).Contents (Elt F) → (⟨S204800, .i32⟩ : BufTy).Contents (Elt F) → (⟨S204800, .i32⟩ : BufTy).Contents (Elt F)),
    StableHlo.nullary main_c_122 (constantI S_ 32 0#32),
    StableHlo.unary main_c_122 main_v332 (broadcastInDim S204800 ![] bcast_S_S204800 : (⟨S_, .i32⟩ : BufTy).Contents (Elt F) → (⟨S204800, .i32⟩ : BufTy).Contents (Elt F)),
    StableHlo.binary main_v331 main_v332 main_v333 (cmpi .slt : (⟨S204800, .i32⟩ : BufTy).Contents (Elt F) → (⟨S204800, .i32⟩ : BufTy).Contents (Elt F) → (⟨S204800, .i1⟩ : BufTy).Contents (Elt F)),
    StableHlo.nullary main_c_123 (constantI S_ 32 20001#32),
    StableHlo.unary main_c_123 main_v334 (broadcastInDim S204800 ![] bcast_S_S204800 : (⟨S_, .i32⟩ : BufTy).Contents (Elt F) → (⟨S204800, .i32⟩ : BufTy).Contents (Elt F)),
    StableHlo.binary main_v331 main_v334 main_v335 (addi : (⟨S204800, .i32⟩ : BufTy).Contents (Elt F) → (⟨S204800, .i32⟩ : BufTy).Contents (Elt F) → (⟨S204800, .i32⟩ : BufTy).Contents (Elt F)),
    StableHlo.ternary main_v333 main_v335 main_v331 main_v336 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v336 main_v337 (broadcastInDim S204800x1 ![0] bcast_S204800_S204800x1_0 : (⟨S204800, .i32⟩ : BufTy).Contents (Elt F) → (⟨S204800x1, .i32⟩ : BufTy).Contents (Elt F)),
    StableHlo.binary main_arg5 main_v337 main_v338 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_124 (constantI S_ 32 0#32),
    StableHlo.unary main_c_124 main_v339 (broadcastInDim S204800 ![] bcast_S_S204800 : (⟨S_, .i32⟩ : BufTy).Contents (Elt F) → (⟨S204800, .i32⟩ : BufTy).Contents (Elt F)),
    StableHlo.binary main_v329 main_v339 main_v340 (cmpi .slt : (⟨S204800, .i32⟩ : BufTy).Contents (Elt F) → (⟨S204800, .i32⟩ : BufTy).Contents (Elt F) → (⟨S204800, .i1⟩ : BufTy).Contents (Elt F)),
    StableHlo.nullary main_c_125 (constantI S_ 32 20001#32),
    StableHlo.unary main_c_125 main_v341 (broadcastInDim S204800 ![] bcast_S_S204800 : (⟨S_, .i32⟩ : BufTy).Contents (Elt F) → (⟨S204800, .i32⟩ : BufTy).Contents (Elt F)),
    StableHlo.binary main_v329 main_v341 main_v342 (addi : (⟨S204800, .i32⟩ : BufTy).Contents (Elt F) → (⟨S204800, .i32⟩ : BufTy).Contents (Elt F) → (⟨S204800, .i32⟩ : BufTy).Contents (Elt F)),
    StableHlo.ternary main_v340 main_v342 main_v329 main_v343 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v343 main_v344 (broadcastInDim S204800x1 ![0] bcast_S204800_S204800x1_0 : (⟨S204800, .i32⟩ : BufTy).Contents (Elt F) → (⟨S204800x1, .i32⟩ : BufTy).Contents (Elt F)),
    StableHlo.binary main_arg5 main_v344 main_v345 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v338 main_v345 main_v346 (subi : (⟨S204800, .i32⟩ : BufTy).Contents (Elt F) → (⟨S204800, .i32⟩ : BufTy).Contents (Elt F) → (⟨S204800, .i32⟩ : BufTy).Contents (Elt F)),
    StableHlo.nullary main_c_126 (constantI S_ 32 0#32),
    StableHlo.TRef.unary (.of main_c_126 : StableHlo.TRef sig ⟨S_, .i32⟩) (.of main_call36_v0 : StableHlo.TRef sig ⟨S_, .i32⟩) id,
    StableHlo.TRef.unary (.of main_call36_v0 : StableHlo.TRef sig ⟨S_, .i32⟩) (.of main_call36_v1 : StableHlo.TRef sig ⟨S204800, .i32⟩) (broadcastInDim S204800 ![] bcast_S_S204800),
    StableHlo.TRef.ternary (.of main_v328 : StableHlo.TRef sig ⟨S204800, .i1⟩) (.of main_v346 : StableHlo.TRef sig ⟨S204800, .i32⟩) (.of main_call36_v1 : StableHlo.TRef sig ⟨S204800, .i32⟩) (.of main_v347 : StableHlo.TRef sig ⟨S204800, .i32⟩) select,
    StableHlo.nullary main_c_127 (constantI S_ 32 0#32),
    StableHlo.unary main_c_127 main_v348 (broadcastInDim S204800 ![] bcast_S_S204800 : (⟨S_, .i32⟩ : BufTy).Contents (Elt F) → (⟨S204800, .i32⟩ : BufTy).Contents (Elt F)),
    StableHlo.binary main_v347 main_v348 main_v349 (cmpi .sgt : (⟨S204800, .i32⟩ : BufTy).Contents (Elt F) → (⟨S204800, .i32⟩ : BufTy).Contents (Elt F) → (⟨S204800, .i1⟩ : BufTy).Contents (Elt F)),
    StableHlo.nullary main_c_128 (constantI S_ 32 0#32) ]

/-- Window 8 of the entry function: its 73 operations, calls inlined. -/
abbrev ops8 : List (HloOp τ sig (Elt F)) :=
  [ StableHlo.unary main_c_128 main_v350 (broadcastInDim S204800 ![] bcast_S_S204800 : (⟨S_, .i32⟩ : BufTy).Contents (Elt F) → (⟨S204800, .i32⟩ : BufTy).Contents (Elt F)),
    StableHlo.binary main_v329 main_v350 main_v351 (cmpi .slt : (⟨S204800, .i32⟩ : BufTy).Contents (Elt F) → (⟨S204800, .i32⟩ : BufTy).Contents (Elt F) → (⟨S204800, .i1⟩ : BufTy).Contents (Elt F)),
    StableHlo.nullary main_c_129 (constantI S_ 32 20001#32),
    StableHlo.unary main_c_129 main_v352 (broadcastInDim S204800 ![] bcast_S_S204800 : (⟨S_, .i32⟩ : BufTy).Contents (Elt F) → (⟨S204800, .i32⟩ : BufTy).Contents (Elt F)),
    StableHlo.binary main_v329 main_v352 main_v353 (addi : (⟨S204800, .i32⟩ : BufTy).Contents (Elt F) → (⟨S204800, .i32⟩ : BufTy).Contents (Elt F) → (⟨S204800, .i32⟩ : BufTy).Contents (Elt F)),
    StableHlo.ternary main_v351 main_v353 main_v329 main_v354 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v354 main_v355 (broadcastInDim S204800x1 ![0] bcast_S204800_S204800x1_0 : (⟨S204800, .i32⟩ : BufTy).Contents (Elt F) → (⟨S204800x1, .i32⟩ : BufTy).Contents (Elt F)),
    StableHlo.binary main_arg5 main_v355 main_v356 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_130 (constantI S_ 32 0#32),
    StableHlo.TRef.unary (.of main_c_130 : StableHlo.TRef sig ⟨S_, .i32⟩) (.of main_call37_v0 : StableHlo.TRef sig ⟨S_, .i32⟩) id,
    StableHlo.TRef.unary (.of main_call37_v0 : StableHlo.TRef sig ⟨S_, .i32⟩) (.of main_call37_v1 : StableHlo.TRef sig ⟨S204800, .i32⟩) (broadcastInDim S204800 ![] bcast_S_S204800),
    StableHlo.TRef.ternary (.of main_v349 : StableHlo.TRef sig ⟨S204800, .i1⟩) (.of main_v356 : StableHlo.TRef sig ⟨S204800, .i32⟩) (.of main_call37_v1 : StableHlo.TRef sig ⟨S204800, .i32⟩) (.of main_v357 : StableHlo.TRef sig ⟨S204800, .i32⟩) select,
    StableHlo.unary main_v347 main_v358 (sitofp .f32 : (⟨S204800, .i32⟩ : BufTy).Contents (Elt F) → (⟨S204800, .f32⟩ : BufTy).Contents (Elt F)),
    StableHlo.binary main_v326 main_v358 main_v359 (mulf : (⟨S204800, .f32⟩ : BufTy).Contents (Elt F) → (⟨S204800, .f32⟩ : BufTy).Contents (Elt F) → (⟨S204800, .f32⟩ : BufTy).Contents (Elt F)),
    StableHlo.unary main_v359 main_v360 (fptosi 32 : (⟨S204800, .f32⟩ : BufTy).Contents (Elt F) → (⟨S204800, .i32⟩ : BufTy).Contents (Elt F)),
    StableHlo.binary main_v360 main_v357 main_v361 (addi : (⟨S204800, .i32⟩ : BufTy).Contents (Elt F) → (⟨S204800, .i32⟩ : BufTy).Contents (Elt F) → (⟨S204800, .i32⟩ : BufTy).Contents (Elt F)),
    StableHlo.nullary main_c_131 (constantI S_ 32 0#32),
    StableHlo.nullary main_c_132 (constantI S_ 32 302234#32),
    StableHlo.TRef.unary (.of main_c_131 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S204800, .i32⟩) (broadcastInDim S204800 ![] bcast_S_S204800),
    StableHlo.TRef.binary (.of main_call38_v1 : StableHlo.TRef sig ⟨S204800, .i32⟩) (.of main_v361 : StableHlo.TRef sig ⟨S204800, .i32⟩) (.of main_call38_v2 : StableHlo.TRef sig ⟨S204800, .i32⟩) maxsi,
    StableHlo.TRef.unary (.of main_c_132 : StableHlo.TRef sig ⟨S_, .i32⟩) (.of main_call38_v3 : StableHlo.TRef sig ⟨S_, .i32⟩) id,
    StableHlo.TRef.unary (.of main_call38_v3 : StableHlo.TRef sig ⟨S_, .i32⟩) (.of main_call38_v4 : StableHlo.TRef sig ⟨S204800, .i32⟩) (broadcastInDim S204800 ![] bcast_S_S204800),
    StableHlo.TRef.binary (.of main_call38_v4 : StableHlo.TRef sig ⟨S204800, .i32⟩) (.of main_call38_v2 : StableHlo.TRef sig ⟨S204800, .i32⟩) (.of main_v362 : StableHlo.TRef sig ⟨S204800, .i32⟩) minsi,
    StableHlo.nullary main_c_133 (constantI S_ 32 0#32),
    StableHlo.unary main_c_133 main_v363 (broadcastInDim S204800 ![] bcast_S_S204800 : (⟨S_, .i32⟩ : BufTy).Contents (Elt F) → (⟨S204800, .i32⟩ : BufTy).Contents (Elt F)),
    StableHlo.binary main_v362 main_v363 main_v364 (cmpi .slt : (⟨S204800, .i32⟩ : BufTy).Contents (Elt F) → (⟨S204800, .i32⟩ : BufTy).Contents (Elt F) → (⟨S204800, .i1⟩ : BufTy).Contents (Elt F)),
    StableHlo.nullary main_c_134 (constantI S_ 32 302235#32),
    StableHlo.unary main_c_134 main_v365 (broadcastInDim S204800 ![] bcast_S_S204800 : (⟨S_, .i32⟩ : BufTy).Contents (Elt F) → (⟨S204800, .i32⟩ : BufTy).Contents (Elt F)),
    StableHlo.binary main_v362 main_v365 main_v366 (addi : (⟨S204800, .i32⟩ : BufTy).Contents (Elt F) → (⟨S204800, .i32⟩ : BufTy).Contents (Elt F) → (⟨S204800, .i32⟩ : BufTy).Contents (Elt F)),
    StableHlo.ternary main_v364 main_v366 main_v362 main_v367 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v367 main_v368 (broadcastInDim S204800x1 ![0] bcast_S204800_S204800x1_0 : (⟨S204800, .i32⟩ : BufTy).Contents (Elt F) → (⟨S204800x1, .i32⟩ : BufTy).Contents (Elt F)),
    StableHlo.binary main_arg6 main_v368 main_v369 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_135 (constantI S_ 32 120000#32),
    StableHlo.TRef.unary (.of main_c_135 : StableHlo.TRef sig ⟨S_, .i32⟩) (.of main_call39_v0 : StableHlo.TRef sig ⟨S_, .i32⟩) id,
    StableHlo.TRef.unary (.of main_call39_v0 : StableHlo.TRef sig ⟨S_, .i32⟩) (.of main_call39_v1 : StableHlo.TRef sig ⟨S204800, .i32⟩) (broadcastInDim S204800 ![] bcast_S_S204800),
    StableHlo.TRef.ternary (.of main_v349 : StableHlo.TRef sig ⟨S204800, .i1⟩) (.of main_v369 : StableHlo.TRef sig ⟨S204800, .i32⟩) (.of main_call39_v1 : StableHlo.TRef sig ⟨S204800, .i32⟩) (.of main_v370 : StableHlo.TRef sig ⟨S204800, .i32⟩) select,
    StableHlo.unary main_arg0 main_v371 ((extractStridedSlice S204800x1 ![0, 8] · slices_S204800x20_S204800x1_0_8) : (⟨S204800x20, .f32⟩ : BufTy).Contents (Elt F) → (⟨S204800x1, .f32⟩ : BufTy).Contents (Elt F)),
    StableHlo.reshape main_v371 main_v372 rfl shapeCasts_S204800x1_S204800,
    StableHlo.nullary main_c_136 (constantI S_ 32 120000#32),
    StableHlo.unary main_c_136 main_v373 (broadcastInDim S204800 ![] bcast_S_S204800 : (⟨S_, .i32⟩ : BufTy).Contents (Elt F) → (⟨S204800, .i32⟩ : BufTy).Contents (Elt F)),
    StableHlo.binary main_v370 main_v373 main_v374 (cmpi .slt : (⟨S204800, .i32⟩ : BufTy).Contents (Elt F) → (⟨S204800, .i32⟩ : BufTy).Contents (Elt F) → (⟨S204800, .i1⟩ : BufTy).Contents (Elt F)),
    StableHlo.nullary main_c_137 (constantI S_ 32 0#32),
    StableHlo.TRef.unary (.of main_c_137 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S204800, .i32⟩) (broadcastInDim S204800 ![] bcast_S_S204800),
    StableHlo.TRef.ternary (.of main_v374 : StableHlo.TRef sig ⟨S204800, .i1⟩) (.of main_v370 : StableHlo.TRef sig ⟨S204800, .i32⟩) (.of main_call40_v1 : StableHlo.TRef sig ⟨S204800, .i32⟩) (.of main_v375 : StableHlo.TRef sig ⟨S204800, .i32⟩) select,
    StableHlo.nullary main_c_138 (constantI S_ 32 1#32),
    StableHlo.unary main_c_138 main_v376 (broadcastInDim S204800 ![] bcast_S_S204800 : (⟨S_, .i32⟩ : BufTy).Contents (Elt F) → (⟨S204800, .i32⟩ : BufTy).Contents (Elt F)),
    StableHlo.binary main_v375 main_v376 main_v377 (addi : (⟨S204800, .i32⟩ : BufTy).Contents (Elt F) → (⟨S204800, .i32⟩ : BufTy).Contents (Elt F) → (⟨S204800, .i32⟩ : BufTy).Contents (Elt F)),
    StableHlo.nullary main_c_139 (constantI S_ 32 0#32),
    StableHlo.unary main_c_139 main_v378 (broadcastInDim S204800 ![] bcast_S_S204800 : (⟨S_, .i32⟩ : BufTy).Contents (Elt F) → (⟨S204800, .i32⟩ : BufTy).Contents (Elt F)),
    StableHlo.binary main_v377 main_v378 main_v379 (cmpi .slt : (⟨S204800, .i32⟩ : BufTy).Contents (Elt F) → (⟨S204800, .i32⟩ : BufTy).Contents (Elt F) → (⟨S204800, .i1⟩ : BufTy).Contents (Elt F)),
    StableHlo.nullary main_c_140 (constantI S_ 32 3551#32),
    StableHlo.unary main_c_140 main_v380 (broadcastInDim S204800 ![] bcast_S_S204800 : (⟨S_, .i32⟩ : BufTy).Contents (Elt F) → (⟨S204800, .i32⟩ : BufTy).Contents (Elt F)),
    StableHlo.binary main_v377 main_v380 main_v381 (addi : (⟨S204800, .i32⟩ : BufTy).Contents (Elt F) → (⟨S204800, .i32⟩ : BufTy).Contents (Elt F) → (⟨S204800, .i32⟩ : BufTy).Contents (Elt F)),
    StableHlo.ternary main_v379 main_v381 main_v377 main_v382 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v382 main_v383 (broadcastInDim S204800x1 ![0] bcast_S204800_S204800x1_0 : (⟨S204800, .i32⟩ : BufTy).Contents (Elt F) → (⟨S204800x1, .i32⟩ : BufTy).Contents (Elt F)),
    StableHlo.binary main_arg3 main_v383 main_v384 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_141 (constantI S_ 32 0#32),
    StableHlo.unary main_c_141 main_v385 (broadcastInDim S204800 ![] bcast_S_S204800 : (⟨S_, .i32⟩ : BufTy).Contents (Elt F) → (⟨S204800, .i32⟩ : BufTy).Contents (Elt F)),
    StableHlo.binary main_v375 main_v385 main_v386 (cmpi .slt : (⟨S204800, .i32⟩ : BufTy).Contents (Elt F) → (⟨S204800, .i32⟩ : BufTy).Contents (Elt F) → (⟨S204800, .i1⟩ : BufTy).Contents (Elt F)),
    StableHlo.nullary main_c_142 (constantI S_ 32 3551#32),
    StableHlo.unary main_c_142 main_v387 (broadcastInDim S204800 ![] bcast_S_S204800 : (⟨S_, .i32⟩ : BufTy).Contents (Elt F) → (⟨S204800, .i32⟩ : BufTy).Contents (Elt F)),
    StableHlo.binary main_v375 main_v387 main_v388 (addi : (⟨S204800, .i32⟩ : BufTy).Contents (Elt F) → (⟨S204800, .i32⟩ : BufTy).Contents (Elt F) → (⟨S204800, .i32⟩ : BufTy).Contents (Elt F)),
    StableHlo.ternary main_v386 main_v388 main_v375 main_v389 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v389 main_v390 (broadcastInDim S204800x1 ![0] bcast_S204800_S204800x1_0 : (⟨S204800, .i32⟩ : BufTy).Contents (Elt F) → (⟨S204800x1, .i32⟩ : BufTy).Contents (Elt F)),
    StableHlo.binary main_arg3 main_v390 main_v391 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v384 main_v391 main_v392 (subi : (⟨S204800, .i32⟩ : BufTy).Contents (Elt F) → (⟨S204800, .i32⟩ : BufTy).Contents (Elt F) → (⟨S204800, .i32⟩ : BufTy).Contents (Elt F)),
    StableHlo.nullary main_c_143 (constantI S_ 32 0#32),
    StableHlo.TRef.unary (.of main_c_143 : StableHlo.TRef sig ⟨S_, .i32⟩) (.of main_call41_v0 : StableHlo.TRef sig ⟨S_, .i32⟩) id,
    StableHlo.TRef.unary (.of main_call41_v0 : StableHlo.TRef sig ⟨S_, .i32⟩) (.of main_call41_v1 : StableHlo.TRef sig ⟨S204800, .i32⟩) (broadcastInDim S204800 ![] bcast_S_S204800),
    StableHlo.TRef.ternary (.of main_v374 : StableHlo.TRef sig ⟨S204800, .i1⟩) (.of main_v392 : StableHlo.TRef sig ⟨S204800, .i32⟩) (.of main_call41_v1 : StableHlo.TRef sig ⟨S204800, .i32⟩) (.of main_v393 : StableHlo.TRef sig ⟨S204800, .i32⟩) select,
    StableHlo.nullary main_c_144 (constantI S_ 32 0#32) ]

/-- Window 9 of the entry function: its 71 operations, calls inlined. -/
abbrev ops9 : List (HloOp τ sig (Elt F)) :=
  [ StableHlo.unary main_c_144 main_v394 (broadcastInDim S204800 ![] bcast_S_S204800 : (⟨S_, .i32⟩ : BufTy).Contents (Elt F) → (⟨S204800, .i32⟩ : BufTy).Contents (Elt F)),
    StableHlo.binary main_v393 main_v394 main_v395 (cmpi .sgt : (⟨S204800, .i32⟩ : BufTy).Contents (Elt F) → (⟨S204800, .i32⟩ : BufTy).Contents (Elt F) → (⟨S204800, .i1⟩ : BufTy).Contents (Elt F)),
    StableHlo.nullary main_c_145 (constantI S_ 32 0#32),
    StableHlo.unary main_c_145 main_v396 (broadcastInDim S204800 ![] bcast_S_S204800 : (⟨S_, .i32⟩ : BufTy).Contents (Elt F) → (⟨S204800, .i32⟩ : BufTy).Contents (Elt F)),
    StableHlo.binary main_v375 main_v396 main_v397 (cmpi .slt : (⟨S204800, .i32⟩ : BufTy).Contents (Elt F) → (⟨S204800, .i32⟩ : BufTy).Contents (Elt F) → (⟨S204800, .i1⟩ : BufTy).Contents (Elt F)),
    StableHlo.nullary main_c_146 (constantI S_ 32 3551#32),
    StableHlo.unary main_c_146 main_v398 (broadcastInDim S204800 ![] bcast_S_S204800 : (⟨S_, .i32⟩ : BufTy).Contents (Elt F) → (⟨S204800, .i32⟩ : BufTy).Contents (Elt F)),
    StableHlo.binary main_v375 main_v398 main_v399 (addi : (⟨S204800, .i32⟩ : BufTy).Contents (Elt F) → (⟨S204800, .i32⟩ : BufTy).Contents (Elt F) → (⟨S204800, .i32⟩ : BufTy).Contents (Elt F)),
    StableHlo.ternary main_v397 main_v399 main_v375 main_v400 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v400 main_v401 (broadcastInDim S204800x1 ![0] bcast_S204800_S204800x1_0 : (⟨S204800, .i32⟩ : BufTy).Contents (Elt F) → (⟨S204800x1, .i32⟩ : BufTy).Contents (Elt F)),
    StableHlo.binary main_arg3 main_v401 main_v402 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_147 (constantI S_ 32 0#32),
    StableHlo.TRef.unary (.of main_c_147 : StableHlo.TRef sig ⟨S_, .i32⟩) (.of main_call42_v0 : StableHlo.TRef sig ⟨S_, .i32⟩) id,
    StableHlo.TRef.unary (.of main_call42_v0 : StableHlo.TRef sig ⟨S_, .i32⟩) (.of main_call42_v1 : StableHlo.TRef sig ⟨S204800, .i32⟩) (broadcastInDim S204800 ![] bcast_S_S204800),
    StableHlo.TRef.ternary (.of main_v395 : StableHlo.TRef sig ⟨S204800, .i1⟩) (.of main_v402 : StableHlo.TRef sig ⟨S204800, .i32⟩) (.of main_call42_v1 : StableHlo.TRef sig ⟨S204800, .i32⟩) (.of main_v403 : StableHlo.TRef sig ⟨S204800, .i32⟩) select,
    StableHlo.unary main_v393 main_v404 (sitofp .f32 : (⟨S204800, .i32⟩ : BufTy).Contents (Elt F) → (⟨S204800, .f32⟩ : BufTy).Contents (Elt F)),
    StableHlo.binary main_v372 main_v404 main_v405 (mulf : (⟨S204800, .f32⟩ : BufTy).Contents (Elt F) → (⟨S204800, .f32⟩ : BufTy).Contents (Elt F) → (⟨S204800, .f32⟩ : BufTy).Contents (Elt F)),
    StableHlo.unary main_v405 main_v406 (fptosi 32 : (⟨S204800, .f32⟩ : BufTy).Contents (Elt F) → (⟨S204800, .i32⟩ : BufTy).Contents (Elt F)),
    StableHlo.binary main_v406 main_v403 main_v407 (addi : (⟨S204800, .i32⟩ : BufTy).Contents (Elt F) → (⟨S204800, .i32⟩ : BufTy).Contents (Elt F) → (⟨S204800, .i32⟩ : BufTy).Contents (Elt F)),
    StableHlo.nullary main_c_148 (constantI S_ 32 0#32),
    StableHlo.nullary main_c_149 (constantI S_ 32 217263#32),
    StableHlo.TRef.unary (.of main_c_148 : StableHlo.TRef sig ⟨S_, .i32⟩) (.of main_call43_v0 : StableHlo.TRef sig ⟨S_, .i32⟩) id,
    StableHlo.TRef.unary (.of main_call43_v0 : StableHlo.TRef sig ⟨S_, .i32⟩) (.of main_call43_v1 : StableHlo.TRef sig ⟨S204800, .i32⟩) (broadcastInDim S204800 ![] bcast_S_S204800),
    StableHlo.TRef.binary (.of main_call43_v1 : StableHlo.TRef sig ⟨S204800, .i32⟩) (.of main_v407 : StableHlo.TRef sig ⟨S204800, .i32⟩) (.of main_call43_v2 : StableHlo.TRef sig ⟨S204800, .i32⟩) maxsi,
    StableHlo.TRef.unary (.of main_c_149 : StableHlo.TRef sig ⟨S_, .i32⟩) (.of main_call43_v3 : StableHlo.TRef sig ⟨S_, .i32⟩) id,
    StableHlo.TRef.unary (.of main_call43_v3 : StableHlo.TRef sig ⟨S_, .i32⟩) (.of main_call43_v4 : StableHlo.TRef sig ⟨S204800, .i32⟩) (broadcastInDim S204800 ![] bcast_S_S204800),
    StableHlo.TRef.binary (.of main_call43_v4 : StableHlo.TRef sig ⟨S204800, .i32⟩) (.of main_call43_v2 : StableHlo.TRef sig ⟨S204800, .i32⟩) (.of main_v408 : StableHlo.TRef sig ⟨S204800, .i32⟩) minsi,
    StableHlo.nullary main_c_150 (constantI S_ 32 0#32),
    StableHlo.unary main_c_150 main_v409 (broadcastInDim S204800 ![] bcast_S_S204800 : (⟨S_, .i32⟩ : BufTy).Contents (Elt F) → (⟨S204800, .i32⟩ : BufTy).Contents (Elt F)),
    StableHlo.binary main_v408 main_v409 main_v410 (cmpi .slt : (⟨S204800, .i32⟩ : BufTy).Contents (Elt F) → (⟨S204800, .i32⟩ : BufTy).Contents (Elt F) → (⟨S204800, .i1⟩ : BufTy).Contents (Elt F)),
    StableHlo.nullary main_c_151 (constantI S_ 32 217264#32),
    StableHlo.unary main_c_151 main_v411 (broadcastInDim S204800 ![] bcast_S_S204800 : (⟨S_, .i32⟩ : BufTy).Contents (Elt F) → (⟨S204800, .i32⟩ : BufTy).Contents (Elt F)),
    StableHlo.binary main_v408 main_v411 main_v412 (addi : (⟨S204800, .i32⟩ : BufTy).Contents (Elt F) → (⟨S204800, .i32⟩ : BufTy).Contents (Elt F) → (⟨S204800, .i32⟩ : BufTy).Contents (Elt F)),
    StableHlo.ternary main_v410 main_v412 main_v408 main_v413 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v413 main_v414 (broadcastInDim S204800x1 ![0] bcast_S204800_S204800x1_0 : (⟨S204800, .i32⟩ : BufTy).Contents (Elt F) → (⟨S204800x1, .i32⟩ : BufTy).Contents (Elt F)),
    StableHlo.binary main_arg4 main_v414 main_v415 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_152 (constantI S_ 32 120000#32),
    StableHlo.TRef.unary (.of main_c_152 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S204800, .i32⟩) (broadcastInDim S204800 ![] bcast_S_S204800),
    StableHlo.TRef.ternary (.of main_v395 : StableHlo.TRef sig ⟨S204800, .i1⟩) (.of main_v415 : StableHlo.TRef sig ⟨S204800, .i32⟩) (.of main_call44_v1 : StableHlo.TRef sig ⟨S204800, .i32⟩) (.of main_v416 : StableHlo.TRef sig ⟨S204800, .i32⟩) select,
    StableHlo.unary main_arg0 main_v417 ((extractStridedSlice S204800x1 ![0, 9] · slices_S204800x20_S204800x1_0_9) : (⟨S204800x20, .f32⟩ : BufTy).Contents (Elt F) → (⟨S204800x1, .f32⟩ : BufTy).Contents (Elt F)),
    StableHlo.reshape main_v417 main_v418 rfl shapeCasts_S204800x1_S204800,
    StableHlo.nullary main_c_153 (constantI S_ 32 120000#32),
    StableHlo.unary main_c_153 main_v419 (broadcastInDim S204800 ![] bcast_S_S204800 : (⟨S_, .i32⟩ : BufTy).Contents (Elt F) → (⟨S204800, .i32⟩ : BufTy).Contents (Elt F)),
    StableHlo.binary main_v416 main_v419 main_v420 (cmpi .slt : (⟨S204800, .i32⟩ : BufTy).Contents (Elt F) → (⟨S204800, .i32⟩ : BufTy).Contents (Elt F) → (⟨S204800, .i1⟩ : BufTy).Contents (Elt F)),
    StableHlo.nullary main_c_154 (constantI S_ 32 0#32),
    StableHlo.TRef.unary (.of main_c_154 : StableHlo.TRef sig ⟨S_, .i32⟩) (.of main_call45_v0 : StableHlo.TRef sig ⟨S_, .i32⟩) id,
    StableHlo.TRef.unary (.of main_call45_v0 : StableHlo.TRef sig ⟨S_, .i32⟩) (.of main_call45_v1 : StableHlo.TRef sig ⟨S204800, .i32⟩) (broadcastInDim S204800 ![] bcast_S_S204800),
    StableHlo.TRef.ternary (.of main_v420 : StableHlo.TRef sig ⟨S204800, .i1⟩) (.of main_v416 : StableHlo.TRef sig ⟨S204800, .i32⟩) (.of main_call45_v1 : StableHlo.TRef sig ⟨S204800, .i32⟩) (.of main_v421 : StableHlo.TRef sig ⟨S204800, .i32⟩) select,
    StableHlo.nullary main_c_155 (constantI S_ 32 1#32),
    StableHlo.unary main_c_155 main_v422 (broadcastInDim S204800 ![] bcast_S_S204800 : (⟨S_, .i32⟩ : BufTy).Contents (Elt F) → (⟨S204800, .i32⟩ : BufTy).Contents (Elt F)),
    StableHlo.binary main_v421 main_v422 main_v423 (addi : (⟨S204800, .i32⟩ : BufTy).Contents (Elt F) → (⟨S204800, .i32⟩ : BufTy).Contents (Elt F) → (⟨S204800, .i32⟩ : BufTy).Contents (Elt F)),
    StableHlo.nullary main_c_156 (constantI S_ 32 0#32),
    StableHlo.unary main_c_156 main_v424 (broadcastInDim S204800 ![] bcast_S_S204800 : (⟨S_, .i32⟩ : BufTy).Contents (Elt F) → (⟨S204800, .i32⟩ : BufTy).Contents (Elt F)),
    StableHlo.binary main_v423 main_v424 main_v425 (cmpi .slt : (⟨S204800, .i32⟩ : BufTy).Contents (Elt F) → (⟨S204800, .i32⟩ : BufTy).Contents (Elt F) → (⟨S204800, .i1⟩ : BufTy).Contents (Elt F)),
    StableHlo.nullary main_c_157 (constantI S_ 32 20001#32),
    StableHlo.unary main_c_157 main_v426 (broadcastInDim S204800 ![] bcast_S_S204800 : (⟨S_, .i32⟩ : BufTy).Contents (Elt F) → (⟨S204800, .i32⟩ : BufTy).Contents (Elt F)),
    StableHlo.binary main_v423 main_v426 main_v427 (addi : (⟨S204800, .i32⟩ : BufTy).Contents (Elt F) → (⟨S204800, .i32⟩ : BufTy).Contents (Elt F) → (⟨S204800, .i32⟩ : BufTy).Contents (Elt F)),
    StableHlo.ternary main_v425 main_v427 main_v423 main_v428 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v428 main_v429 (broadcastInDim S204800x1 ![0] bcast_S204800_S204800x1_0 : (⟨S204800, .i32⟩ : BufTy).Contents (Elt F) → (⟨S204800x1, .i32⟩ : BufTy).Contents (Elt F)),
    StableHlo.binary main_arg5 main_v429 main_v430 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_158 (constantI S_ 32 0#32),
    StableHlo.unary main_c_158 main_v431 (broadcastInDim S204800 ![] bcast_S_S204800 : (⟨S_, .i32⟩ : BufTy).Contents (Elt F) → (⟨S204800, .i32⟩ : BufTy).Contents (Elt F)),
    StableHlo.binary main_v421 main_v431 main_v432 (cmpi .slt : (⟨S204800, .i32⟩ : BufTy).Contents (Elt F) → (⟨S204800, .i32⟩ : BufTy).Contents (Elt F) → (⟨S204800, .i1⟩ : BufTy).Contents (Elt F)),
    StableHlo.nullary main_c_159 (constantI S_ 32 20001#32),
    StableHlo.unary main_c_159 main_v433 (broadcastInDim S204800 ![] bcast_S_S204800 : (⟨S_, .i32⟩ : BufTy).Contents (Elt F) → (⟨S204800, .i32⟩ : BufTy).Contents (Elt F)),
    StableHlo.binary main_v421 main_v433 main_v434 (addi : (⟨S204800, .i32⟩ : BufTy).Contents (Elt F) → (⟨S204800, .i32⟩ : BufTy).Contents (Elt F) → (⟨S204800, .i32⟩ : BufTy).Contents (Elt F)),
    StableHlo.ternary main_v432 main_v434 main_v421 main_v435 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v435 main_v436 (broadcastInDim S204800x1 ![0] bcast_S204800_S204800x1_0 : (⟨S204800, .i32⟩ : BufTy).Contents (Elt F) → (⟨S204800x1, .i32⟩ : BufTy).Contents (Elt F)),
    StableHlo.binary main_arg5 main_v436 main_v437 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v430 main_v437 main_v438 (subi : (⟨S204800, .i32⟩ : BufTy).Contents (Elt F) → (⟨S204800, .i32⟩ : BufTy).Contents (Elt F) → (⟨S204800, .i32⟩ : BufTy).Contents (Elt F)) ]

/-- Window 10 of the entry function: its 73 operations, calls inlined. -/
abbrev ops10 : List (HloOp τ sig (Elt F)) :=
  [ StableHlo.nullary main_c_160 (constantI S_ 32 0#32),
    StableHlo.TRef.unary (.of main_c_160 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S204800, .i32⟩) (broadcastInDim S204800 ![] bcast_S_S204800),
    StableHlo.TRef.ternary (.of main_v420 : StableHlo.TRef sig ⟨S204800, .i1⟩) (.of main_v438 : StableHlo.TRef sig ⟨S204800, .i32⟩) (.of main_call46_v1 : StableHlo.TRef sig ⟨S204800, .i32⟩) (.of main_v439 : StableHlo.TRef sig ⟨S204800, .i32⟩) select,
    StableHlo.nullary main_c_161 (constantI S_ 32 0#32),
    StableHlo.unary main_c_161 main_v440 (broadcastInDim S204800 ![] bcast_S_S204800 : (⟨S_, .i32⟩ : BufTy).Contents (Elt F) → (⟨S204800, .i32⟩ : BufTy).Contents (Elt F)),
    StableHlo.binary main_v439 main_v440 main_v441 (cmpi .sgt : (⟨S204800, .i32⟩ : BufTy).Contents (Elt F) → (⟨S204800, .i32⟩ : BufTy).Contents (Elt F) → (⟨S204800, .i1⟩ : BufTy).Contents (Elt F)),
    StableHlo.nullary main_c_162 (constantI S_ 32 0#32),
    StableHlo.unary main_c_162 main_v442 (broadcastInDim S204800 ![] bcast_S_S204800 : (⟨S_, .i32⟩ : BufTy).Contents (Elt F) → (⟨S204800, .i32⟩ : BufTy).Contents (Elt F)),
    StableHlo.binary main_v421 main_v442 main_v443 (cmpi .slt : (⟨S204800, .i32⟩ : BufTy).Contents (Elt F) → (⟨S204800, .i32⟩ : BufTy).Contents (Elt F) → (⟨S204800, .i1⟩ : BufTy).Contents (Elt F)),
    StableHlo.nullary main_c_163 (constantI S_ 32 20001#32),
    StableHlo.unary main_c_163 main_v444 (broadcastInDim S204800 ![] bcast_S_S204800 : (⟨S_, .i32⟩ : BufTy).Contents (Elt F) → (⟨S204800, .i32⟩ : BufTy).Contents (Elt F)),
    StableHlo.binary main_v421 main_v444 main_v445 (addi : (⟨S204800, .i32⟩ : BufTy).Contents (Elt F) → (⟨S204800, .i32⟩ : BufTy).Contents (Elt F) → (⟨S204800, .i32⟩ : BufTy).Contents (Elt F)),
    StableHlo.ternary main_v443 main_v445 main_v421 main_v446 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v446 main_v447 (broadcastInDim S204800x1 ![0] bcast_S204800_S204800x1_0 : (⟨S204800, .i32⟩ : BufTy).Contents (Elt F) → (⟨S204800x1, .i32⟩ : BufTy).Contents (Elt F)),
    StableHlo.binary main_arg5 main_v447 main_v448 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_164 (constantI S_ 32 0#32),
    StableHlo.TRef.unary (.of main_c_164 : StableHlo.TRef sig ⟨S_, .i32⟩) (.of main_call47_v0 : StableHlo.TRef sig ⟨S_, .i32⟩) id,
    StableHlo.TRef.unary (.of main_call47_v0 : StableHlo.TRef sig ⟨S_, .i32⟩) (.of main_call47_v1 : StableHlo.TRef sig ⟨S204800, .i32⟩) (broadcastInDim S204800 ![] bcast_S_S204800),
    StableHlo.TRef.ternary (.of main_v441 : StableHlo.TRef sig ⟨S204800, .i1⟩) (.of main_v448 : StableHlo.TRef sig ⟨S204800, .i32⟩) (.of main_call47_v1 : StableHlo.TRef sig ⟨S204800, .i32⟩) (.of main_v449 : StableHlo.TRef sig ⟨S204800, .i32⟩) select,
    StableHlo.unary main_v439 main_v450 (sitofp .f32 : (⟨S204800, .i32⟩ : BufTy).Contents (Elt F) → (⟨S204800, .f32⟩ : BufTy).Contents (Elt F)),
    StableHlo.binary main_v418 main_v450 main_v451 (mulf : (⟨S204800, .f32⟩ : BufTy).Contents (Elt F) → (⟨S204800, .f32⟩ : BufTy).Contents (Elt F) → (⟨S204800, .f32⟩ : BufTy).Contents (Elt F)),
    StableHlo.unary main_v451 main_v452 (fptosi 32 : (⟨S204800, .f32⟩ : BufTy).Contents (Elt F) → (⟨S204800, .i32⟩ : BufTy).Contents (Elt F)),
    StableHlo.binary main_v452 main_v449 main_v453 (addi : (⟨S204800, .i32⟩ : BufTy).Contents (Elt F) → (⟨S204800, .i32⟩ : BufTy).Contents (Elt F) → (⟨S204800, .i32⟩ : BufTy).Contents (Elt F)),
    StableHlo.nullary main_c_165 (constantI S_ 32 0#32),
    StableHlo.nullary main_c_166 (constantI S_ 32 302234#32),
    StableHlo.TRef.unary (.of main_c_165 : StableHlo.TRef sig ⟨S_, .i32⟩) (.of main_call48_v0 : StableHlo.TRef sig ⟨S_, .i32⟩) id,
    StableHlo.TRef.unary (.of main_call48_v0 : StableHlo.TRef sig ⟨S_, .i32⟩) (.of main_call48_v1 : StableHlo.TRef sig ⟨S204800, .i32⟩) (broadcastInDim S204800 ![] bcast_S_S204800),
    StableHlo.TRef.binary (.of main_call48_v1 : StableHlo.TRef sig ⟨S204800, .i32⟩) (.of main_v453 : StableHlo.TRef sig ⟨S204800, .i32⟩) (.of main_call48_v2 : StableHlo.TRef sig ⟨S204800, .i32⟩) maxsi,
    StableHlo.TRef.unary (.of main_c_166 : StableHlo.TRef sig ⟨S_, .i32⟩) (.of main_call48_v3 : StableHlo.TRef sig ⟨S_, .i32⟩) id,
    StableHlo.TRef.unary (.of main_call48_v3 : StableHlo.TRef sig ⟨S_, .i32⟩) (.of main_call48_v4 : StableHlo.TRef sig ⟨S204800, .i32⟩) (broadcastInDim S204800 ![] bcast_S_S204800),
    StableHlo.TRef.binary (.of main_call48_v4 : StableHlo.TRef sig ⟨S204800, .i32⟩) (.of main_call48_v2 : StableHlo.TRef sig ⟨S204800, .i32⟩) (.of main_v454 : StableHlo.TRef sig ⟨S204800, .i32⟩) minsi,
    StableHlo.nullary main_c_167 (constantI S_ 32 0#32),
    StableHlo.unary main_c_167 main_v455 (broadcastInDim S204800 ![] bcast_S_S204800 : (⟨S_, .i32⟩ : BufTy).Contents (Elt F) → (⟨S204800, .i32⟩ : BufTy).Contents (Elt F)),
    StableHlo.binary main_v454 main_v455 main_v456 (cmpi .slt : (⟨S204800, .i32⟩ : BufTy).Contents (Elt F) → (⟨S204800, .i32⟩ : BufTy).Contents (Elt F) → (⟨S204800, .i1⟩ : BufTy).Contents (Elt F)),
    StableHlo.nullary main_c_168 (constantI S_ 32 302235#32),
    StableHlo.unary main_c_168 main_v457 (broadcastInDim S204800 ![] bcast_S_S204800 : (⟨S_, .i32⟩ : BufTy).Contents (Elt F) → (⟨S204800, .i32⟩ : BufTy).Contents (Elt F)),
    StableHlo.binary main_v454 main_v457 main_v458 (addi : (⟨S204800, .i32⟩ : BufTy).Contents (Elt F) → (⟨S204800, .i32⟩ : BufTy).Contents (Elt F) → (⟨S204800, .i32⟩ : BufTy).Contents (Elt F)),
    StableHlo.ternary main_v456 main_v458 main_v454 main_v459 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v459 main_v460 (broadcastInDim S204800x1 ![0] bcast_S204800_S204800x1_0 : (⟨S204800, .i32⟩ : BufTy).Contents (Elt F) → (⟨S204800x1, .i32⟩ : BufTy).Contents (Elt F)),
    StableHlo.binary main_arg6 main_v460 main_v461 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_169 (constantI S_ 32 120000#32),
    StableHlo.TRef.unary (.of main_c_169 : StableHlo.TRef sig ⟨S_, .i32⟩) (.of main_call49_v0 : StableHlo.TRef sig ⟨S_, .i32⟩) id,
    StableHlo.TRef.unary (.of main_call49_v0 : StableHlo.TRef sig ⟨S_, .i32⟩) (.of main_call49_v1 : StableHlo.TRef sig ⟨S204800, .i32⟩) (broadcastInDim S204800 ![] bcast_S_S204800),
    StableHlo.TRef.ternary (.of main_v441 : StableHlo.TRef sig ⟨S204800, .i1⟩) (.of main_v461 : StableHlo.TRef sig ⟨S204800, .i32⟩) (.of main_call49_v1 : StableHlo.TRef sig ⟨S204800, .i32⟩) (.of main_v462 : StableHlo.TRef sig ⟨S204800, .i32⟩) select,
    StableHlo.unary main_arg0 main_v463 ((extractStridedSlice S204800x1 ![0, 10] · slices_S204800x20_S204800x1_0_10) : (⟨S204800x20, .f32⟩ : BufTy).Contents (Elt F) → (⟨S204800x1, .f32⟩ : BufTy).Contents (Elt F)),
    StableHlo.reshape main_v463 main_v464 rfl shapeCasts_S204800x1_S204800,
    StableHlo.nullary main_c_170 (constantI S_ 32 120000#32),
    StableHlo.unary main_c_170 main_v465 (broadcastInDim S204800 ![] bcast_S_S204800 : (⟨S_, .i32⟩ : BufTy).Contents (Elt F) → (⟨S204800, .i32⟩ : BufTy).Contents (Elt F)),
    StableHlo.binary main_v462 main_v465 main_v466 (cmpi .slt : (⟨S204800, .i32⟩ : BufTy).Contents (Elt F) → (⟨S204800, .i32⟩ : BufTy).Contents (Elt F) → (⟨S204800, .i1⟩ : BufTy).Contents (Elt F)),
    StableHlo.nullary main_c_171 (constantI S_ 32 0#32),
    StableHlo.TRef.unary (.of main_c_171 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S204800, .i32⟩) (broadcastInDim S204800 ![] bcast_S_S204800),
    StableHlo.TRef.ternary (.of main_v466 : StableHlo.TRef sig ⟨S204800, .i1⟩) (.of main_v462 : StableHlo.TRef sig ⟨S204800, .i32⟩) (.of main_call50_v1 : StableHlo.TRef sig ⟨S204800, .i32⟩) (.of main_v467 : StableHlo.TRef sig ⟨S204800, .i32⟩) select,
    StableHlo.nullary main_c_172 (constantI S_ 32 1#32),
    StableHlo.unary main_c_172 main_v468 (broadcastInDim S204800 ![] bcast_S_S204800 : (⟨S_, .i32⟩ : BufTy).Contents (Elt F) → (⟨S204800, .i32⟩ : BufTy).Contents (Elt F)),
    StableHlo.binary main_v467 main_v468 main_v469 (addi : (⟨S204800, .i32⟩ : BufTy).Contents (Elt F) → (⟨S204800, .i32⟩ : BufTy).Contents (Elt F) → (⟨S204800, .i32⟩ : BufTy).Contents (Elt F)),
    StableHlo.nullary main_c_173 (constantI S_ 32 0#32),
    StableHlo.unary main_c_173 main_v470 (broadcastInDim S204800 ![] bcast_S_S204800 : (⟨S_, .i32⟩ : BufTy).Contents (Elt F) → (⟨S204800, .i32⟩ : BufTy).Contents (Elt F)),
    StableHlo.binary main_v469 main_v470 main_v471 (cmpi .slt : (⟨S204800, .i32⟩ : BufTy).Contents (Elt F) → (⟨S204800, .i32⟩ : BufTy).Contents (Elt F) → (⟨S204800, .i1⟩ : BufTy).Contents (Elt F)),
    StableHlo.nullary main_c_174 (constantI S_ 32 3551#32),
    StableHlo.unary main_c_174 main_v472 (broadcastInDim S204800 ![] bcast_S_S204800 : (⟨S_, .i32⟩ : BufTy).Contents (Elt F) → (⟨S204800, .i32⟩ : BufTy).Contents (Elt F)),
    StableHlo.binary main_v469 main_v472 main_v473 (addi : (⟨S204800, .i32⟩ : BufTy).Contents (Elt F) → (⟨S204800, .i32⟩ : BufTy).Contents (Elt F) → (⟨S204800, .i32⟩ : BufTy).Contents (Elt F)),
    StableHlo.ternary main_v471 main_v473 main_v469 main_v474 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v474 main_v475 (broadcastInDim S204800x1 ![0] bcast_S204800_S204800x1_0 : (⟨S204800, .i32⟩ : BufTy).Contents (Elt F) → (⟨S204800x1, .i32⟩ : BufTy).Contents (Elt F)),
    StableHlo.binary main_arg3 main_v475 main_v476 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_175 (constantI S_ 32 0#32),
    StableHlo.unary main_c_175 main_v477 (broadcastInDim S204800 ![] bcast_S_S204800 : (⟨S_, .i32⟩ : BufTy).Contents (Elt F) → (⟨S204800, .i32⟩ : BufTy).Contents (Elt F)),
    StableHlo.binary main_v467 main_v477 main_v478 (cmpi .slt : (⟨S204800, .i32⟩ : BufTy).Contents (Elt F) → (⟨S204800, .i32⟩ : BufTy).Contents (Elt F) → (⟨S204800, .i1⟩ : BufTy).Contents (Elt F)),
    StableHlo.nullary main_c_176 (constantI S_ 32 3551#32),
    StableHlo.unary main_c_176 main_v479 (broadcastInDim S204800 ![] bcast_S_S204800 : (⟨S_, .i32⟩ : BufTy).Contents (Elt F) → (⟨S204800, .i32⟩ : BufTy).Contents (Elt F)),
    StableHlo.binary main_v467 main_v479 main_v480 (addi : (⟨S204800, .i32⟩ : BufTy).Contents (Elt F) → (⟨S204800, .i32⟩ : BufTy).Contents (Elt F) → (⟨S204800, .i32⟩ : BufTy).Contents (Elt F)),
    StableHlo.ternary main_v478 main_v480 main_v467 main_v481 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)) ]

/-- Window 11 of the entry function: its 73 operations, calls inlined. -/
abbrev ops11 : List (HloOp τ sig (Elt F)) :=
  [ StableHlo.unary main_v481 main_v482 (broadcastInDim S204800x1 ![0] bcast_S204800_S204800x1_0 : (⟨S204800, .i32⟩ : BufTy).Contents (Elt F) → (⟨S204800x1, .i32⟩ : BufTy).Contents (Elt F)),
    StableHlo.binary main_arg3 main_v482 main_v483 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v476 main_v483 main_v484 (subi : (⟨S204800, .i32⟩ : BufTy).Contents (Elt F) → (⟨S204800, .i32⟩ : BufTy).Contents (Elt F) → (⟨S204800, .i32⟩ : BufTy).Contents (Elt F)),
    StableHlo.nullary main_c_177 (constantI S_ 32 0#32),
    StableHlo.TRef.unary (.of main_c_177 : StableHlo.TRef sig ⟨S_, .i32⟩) (.of main_call51_v0 : StableHlo.TRef sig ⟨S_, .i32⟩) id,
    StableHlo.TRef.unary (.of main_call51_v0 : StableHlo.TRef sig ⟨S_, .i32⟩) (.of main_call51_v1 : StableHlo.TRef sig ⟨S204800, .i32⟩) (broadcastInDim S204800 ![] bcast_S_S204800),
    StableHlo.TRef.ternary (.of main_v466 : StableHlo.TRef sig ⟨S204800, .i1⟩) (.of main_v484 : StableHlo.TRef sig ⟨S204800, .i32⟩) (.of main_call51_v1 : StableHlo.TRef sig ⟨S204800, .i32⟩) (.of main_v485 : StableHlo.TRef sig ⟨S204800, .i32⟩) select,
    StableHlo.nullary main_c_178 (constantI S_ 32 0#32),
    StableHlo.unary main_c_178 main_v486 (broadcastInDim S204800 ![] bcast_S_S204800 : (⟨S_, .i32⟩ : BufTy).Contents (Elt F) → (⟨S204800, .i32⟩ : BufTy).Contents (Elt F)),
    StableHlo.binary main_v485 main_v486 main_v487 (cmpi .sgt : (⟨S204800, .i32⟩ : BufTy).Contents (Elt F) → (⟨S204800, .i32⟩ : BufTy).Contents (Elt F) → (⟨S204800, .i1⟩ : BufTy).Contents (Elt F)),
    StableHlo.nullary main_c_179 (constantI S_ 32 0#32),
    StableHlo.unary main_c_179 main_v488 (broadcastInDim S204800 ![] bcast_S_S204800 : (⟨S_, .i32⟩ : BufTy).Contents (Elt F) → (⟨S204800, .i32⟩ : BufTy).Contents (Elt F)),
    StableHlo.binary main_v467 main_v488 main_v489 (cmpi .slt : (⟨S204800, .i32⟩ : BufTy).Contents (Elt F) → (⟨S204800, .i32⟩ : BufTy).Contents (Elt F) → (⟨S204800, .i1⟩ : BufTy).Contents (Elt F)),
    StableHlo.nullary main_c_180 (constantI S_ 32 3551#32),
    StableHlo.unary main_c_180 main_v490 (broadcastInDim S204800 ![] bcast_S_S204800 : (⟨S_, .i32⟩ : BufTy).Contents (Elt F) → (⟨S204800, .i32⟩ : BufTy).Contents (Elt F)),
    StableHlo.binary main_v467 main_v490 main_v491 (addi : (⟨S204800, .i32⟩ : BufTy).Contents (Elt F) → (⟨S204800, .i32⟩ : BufTy).Contents (Elt F) → (⟨S204800, .i32⟩ : BufTy).Contents (Elt F)),
    StableHlo.ternary main_v489 main_v491 main_v467 main_v492 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v492 main_v493 (broadcastInDim S204800x1 ![0] bcast_S204800_S204800x1_0 : (⟨S204800, .i32⟩ : BufTy).Contents (Elt F) → (⟨S204800x1, .i32⟩ : BufTy).Contents (Elt F)),
    StableHlo.binary main_arg3 main_v493 main_v494 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_181 (constantI S_ 32 0#32),
    StableHlo.TRef.unary (.of main_c_181 : StableHlo.TRef sig ⟨S_, .i32⟩) (.of main_call52_v0 : StableHlo.TRef sig ⟨S_, .i32⟩) id,
    StableHlo.TRef.unary (.of main_call52_v0 : StableHlo.TRef sig ⟨S_, .i32⟩) (.of main_call52_v1 : StableHlo.TRef sig ⟨S204800, .i32⟩) (broadcastInDim S204800 ![] bcast_S_S204800),
    StableHlo.TRef.ternary (.of main_v487 : StableHlo.TRef sig ⟨S204800, .i1⟩) (.of main_v494 : StableHlo.TRef sig ⟨S204800, .i32⟩) (.of main_call52_v1 : StableHlo.TRef sig ⟨S204800, .i32⟩) (.of main_v495 : StableHlo.TRef sig ⟨S204800, .i32⟩) select,
    StableHlo.unary main_v485 main_v496 (sitofp .f32 : (⟨S204800, .i32⟩ : BufTy).Contents (Elt F) → (⟨S204800, .f32⟩ : BufTy).Contents (Elt F)),
    StableHlo.binary main_v464 main_v496 main_v497 (mulf : (⟨S204800, .f32⟩ : BufTy).Contents (Elt F) → (⟨S204800, .f32⟩ : BufTy).Contents (Elt F) → (⟨S204800, .f32⟩ : BufTy).Contents (Elt F)),
    StableHlo.unary main_v497 main_v498 (fptosi 32 : (⟨S204800, .f32⟩ : BufTy).Contents (Elt F) → (⟨S204800, .i32⟩ : BufTy).Contents (Elt F)),
    StableHlo.binary main_v498 main_v495 main_v499 (addi : (⟨S204800, .i32⟩ : BufTy).Contents (Elt F) → (⟨S204800, .i32⟩ : BufTy).Contents (Elt F) → (⟨S204800, .i32⟩ : BufTy).Contents (Elt F)),
    StableHlo.nullary main_c_182 (constantI S_ 32 0#32),
    StableHlo.nullary main_c_183 (constantI S_ 32 217263#32),
    StableHlo.TRef.unary (.of main_c_182 : StableHlo.TRef sig ⟨S_, .i32⟩) (.of main_call53_v0 : StableHlo.TRef sig ⟨S_, .i32⟩) id,
    StableHlo.TRef.unary (.of main_call53_v0 : StableHlo.TRef sig ⟨S_, .i32⟩) (.of main_call53_v1 : StableHlo.TRef sig ⟨S204800, .i32⟩) (broadcastInDim S204800 ![] bcast_S_S204800),
    StableHlo.TRef.binary (.of main_call53_v1 : StableHlo.TRef sig ⟨S204800, .i32⟩) (.of main_v499 : StableHlo.TRef sig ⟨S204800, .i32⟩) (.of main_call53_v2 : StableHlo.TRef sig ⟨S204800, .i32⟩) maxsi,
    StableHlo.TRef.unary (.of main_c_183 : StableHlo.TRef sig ⟨S_, .i32⟩) (.of main_call53_v3 : StableHlo.TRef sig ⟨S_, .i32⟩) id,
    StableHlo.TRef.unary (.of main_call53_v3 : StableHlo.TRef sig ⟨S_, .i32⟩) (.of main_call53_v4 : StableHlo.TRef sig ⟨S204800, .i32⟩) (broadcastInDim S204800 ![] bcast_S_S204800),
    StableHlo.TRef.binary (.of main_call53_v4 : StableHlo.TRef sig ⟨S204800, .i32⟩) (.of main_call53_v2 : StableHlo.TRef sig ⟨S204800, .i32⟩) (.of main_v500 : StableHlo.TRef sig ⟨S204800, .i32⟩) minsi,
    StableHlo.nullary main_c_184 (constantI S_ 32 0#32),
    StableHlo.unary main_c_184 main_v501 (broadcastInDim S204800 ![] bcast_S_S204800 : (⟨S_, .i32⟩ : BufTy).Contents (Elt F) → (⟨S204800, .i32⟩ : BufTy).Contents (Elt F)),
    StableHlo.binary main_v500 main_v501 main_v502 (cmpi .slt : (⟨S204800, .i32⟩ : BufTy).Contents (Elt F) → (⟨S204800, .i32⟩ : BufTy).Contents (Elt F) → (⟨S204800, .i1⟩ : BufTy).Contents (Elt F)),
    StableHlo.nullary main_c_185 (constantI S_ 32 217264#32),
    StableHlo.unary main_c_185 main_v503 (broadcastInDim S204800 ![] bcast_S_S204800 : (⟨S_, .i32⟩ : BufTy).Contents (Elt F) → (⟨S204800, .i32⟩ : BufTy).Contents (Elt F)),
    StableHlo.binary main_v500 main_v503 main_v504 (addi : (⟨S204800, .i32⟩ : BufTy).Contents (Elt F) → (⟨S204800, .i32⟩ : BufTy).Contents (Elt F) → (⟨S204800, .i32⟩ : BufTy).Contents (Elt F)),
    StableHlo.ternary main_v502 main_v504 main_v500 main_v505 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v505 main_v506 (broadcastInDim S204800x1 ![0] bcast_S204800_S204800x1_0 : (⟨S204800, .i32⟩ : BufTy).Contents (Elt F) → (⟨S204800x1, .i32⟩ : BufTy).Contents (Elt F)),
    StableHlo.binary main_arg4 main_v506 main_v507 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_186 (constantI S_ 32 120000#32),
    StableHlo.TRef.unary (.of main_c_186 : StableHlo.TRef sig ⟨S_, .i32⟩) (.of main_call54_v0 : StableHlo.TRef sig ⟨S_, .i32⟩) id,
    StableHlo.TRef.unary (.of main_call54_v0 : StableHlo.TRef sig ⟨S_, .i32⟩) (.of main_call54_v1 : StableHlo.TRef sig ⟨S204800, .i32⟩) (broadcastInDim S204800 ![] bcast_S_S204800),
    StableHlo.TRef.ternary (.of main_v487 : StableHlo.TRef sig ⟨S204800, .i1⟩) (.of main_v507 : StableHlo.TRef sig ⟨S204800, .i32⟩) (.of main_call54_v1 : StableHlo.TRef sig ⟨S204800, .i32⟩) (.of main_v508 : StableHlo.TRef sig ⟨S204800, .i32⟩) select,
    StableHlo.unary main_arg0 main_v509 ((extractStridedSlice S204800x1 ![0, 11] · slices_S204800x20_S204800x1_0_11) : (⟨S204800x20, .f32⟩ : BufTy).Contents (Elt F) → (⟨S204800x1, .f32⟩ : BufTy).Contents (Elt F)),
    StableHlo.reshape main_v509 main_v510 rfl shapeCasts_S204800x1_S204800,
    StableHlo.nullary main_c_187 (constantI S_ 32 120000#32),
    StableHlo.unary main_c_187 main_v511 (broadcastInDim S204800 ![] bcast_S_S204800 : (⟨S_, .i32⟩ : BufTy).Contents (Elt F) → (⟨S204800, .i32⟩ : BufTy).Contents (Elt F)),
    StableHlo.binary main_v508 main_v511 main_v512 (cmpi .slt : (⟨S204800, .i32⟩ : BufTy).Contents (Elt F) → (⟨S204800, .i32⟩ : BufTy).Contents (Elt F) → (⟨S204800, .i1⟩ : BufTy).Contents (Elt F)),
    StableHlo.nullary main_c_188 (constantI S_ 32 0#32),
    StableHlo.TRef.unary (.of main_c_188 : StableHlo.TRef sig ⟨S_, .i32⟩) (.of main_call55_v0 : StableHlo.TRef sig ⟨S_, .i32⟩) id,
    StableHlo.TRef.unary (.of main_call55_v0 : StableHlo.TRef sig ⟨S_, .i32⟩) (.of main_call55_v1 : StableHlo.TRef sig ⟨S204800, .i32⟩) (broadcastInDim S204800 ![] bcast_S_S204800),
    StableHlo.TRef.ternary (.of main_v512 : StableHlo.TRef sig ⟨S204800, .i1⟩) (.of main_v508 : StableHlo.TRef sig ⟨S204800, .i32⟩) (.of main_call55_v1 : StableHlo.TRef sig ⟨S204800, .i32⟩) (.of main_v513 : StableHlo.TRef sig ⟨S204800, .i32⟩) select,
    StableHlo.nullary main_c_189 (constantI S_ 32 1#32),
    StableHlo.unary main_c_189 main_v514 (broadcastInDim S204800 ![] bcast_S_S204800 : (⟨S_, .i32⟩ : BufTy).Contents (Elt F) → (⟨S204800, .i32⟩ : BufTy).Contents (Elt F)),
    StableHlo.binary main_v513 main_v514 main_v515 (addi : (⟨S204800, .i32⟩ : BufTy).Contents (Elt F) → (⟨S204800, .i32⟩ : BufTy).Contents (Elt F) → (⟨S204800, .i32⟩ : BufTy).Contents (Elt F)),
    StableHlo.nullary main_c_190 (constantI S_ 32 0#32),
    StableHlo.unary main_c_190 main_v516 (broadcastInDim S204800 ![] bcast_S_S204800 : (⟨S_, .i32⟩ : BufTy).Contents (Elt F) → (⟨S204800, .i32⟩ : BufTy).Contents (Elt F)),
    StableHlo.binary main_v515 main_v516 main_v517 (cmpi .slt : (⟨S204800, .i32⟩ : BufTy).Contents (Elt F) → (⟨S204800, .i32⟩ : BufTy).Contents (Elt F) → (⟨S204800, .i1⟩ : BufTy).Contents (Elt F)),
    StableHlo.nullary main_c_191 (constantI S_ 32 20001#32),
    StableHlo.unary main_c_191 main_v518 (broadcastInDim S204800 ![] bcast_S_S204800 : (⟨S_, .i32⟩ : BufTy).Contents (Elt F) → (⟨S204800, .i32⟩ : BufTy).Contents (Elt F)),
    StableHlo.binary main_v515 main_v518 main_v519 (addi : (⟨S204800, .i32⟩ : BufTy).Contents (Elt F) → (⟨S204800, .i32⟩ : BufTy).Contents (Elt F) → (⟨S204800, .i32⟩ : BufTy).Contents (Elt F)),
    StableHlo.ternary main_v517 main_v519 main_v515 main_v520 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v520 main_v521 (broadcastInDim S204800x1 ![0] bcast_S204800_S204800x1_0 : (⟨S204800, .i32⟩ : BufTy).Contents (Elt F) → (⟨S204800x1, .i32⟩ : BufTy).Contents (Elt F)),
    StableHlo.binary main_arg5 main_v521 main_v522 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_192 (constantI S_ 32 0#32),
    StableHlo.unary main_c_192 main_v523 (broadcastInDim S204800 ![] bcast_S_S204800 : (⟨S_, .i32⟩ : BufTy).Contents (Elt F) → (⟨S204800, .i32⟩ : BufTy).Contents (Elt F)),
    StableHlo.binary main_v513 main_v523 main_v524 (cmpi .slt : (⟨S204800, .i32⟩ : BufTy).Contents (Elt F) → (⟨S204800, .i32⟩ : BufTy).Contents (Elt F) → (⟨S204800, .i1⟩ : BufTy).Contents (Elt F)),
    StableHlo.nullary main_c_193 (constantI S_ 32 20001#32) ]

/-- Window 12 of the entry function: its 73 operations, calls inlined. -/
abbrev ops12 : List (HloOp τ sig (Elt F)) :=
  [ StableHlo.unary main_c_193 main_v525 (broadcastInDim S204800 ![] bcast_S_S204800 : (⟨S_, .i32⟩ : BufTy).Contents (Elt F) → (⟨S204800, .i32⟩ : BufTy).Contents (Elt F)),
    StableHlo.binary main_v513 main_v525 main_v526 (addi : (⟨S204800, .i32⟩ : BufTy).Contents (Elt F) → (⟨S204800, .i32⟩ : BufTy).Contents (Elt F) → (⟨S204800, .i32⟩ : BufTy).Contents (Elt F)),
    StableHlo.ternary main_v524 main_v526 main_v513 main_v527 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v527 main_v528 (broadcastInDim S204800x1 ![0] bcast_S204800_S204800x1_0 : (⟨S204800, .i32⟩ : BufTy).Contents (Elt F) → (⟨S204800x1, .i32⟩ : BufTy).Contents (Elt F)),
    StableHlo.binary main_arg5 main_v528 main_v529 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v522 main_v529 main_v530 (subi : (⟨S204800, .i32⟩ : BufTy).Contents (Elt F) → (⟨S204800, .i32⟩ : BufTy).Contents (Elt F) → (⟨S204800, .i32⟩ : BufTy).Contents (Elt F)),
    StableHlo.nullary main_c_194 (constantI S_ 32 0#32),
    StableHlo.TRef.unary (.of main_c_194 : StableHlo.TRef sig ⟨S_, .i32⟩) (.of main_call56_v0 : StableHlo.TRef sig ⟨S_, .i32⟩) id,
    StableHlo.TRef.unary (.of main_call56_v0 : StableHlo.TRef sig ⟨S_, .i32⟩) (.of main_call56_v1 : StableHlo.TRef sig ⟨S204800, .i32⟩) (broadcastInDim S204800 ![] bcast_S_S204800),
    StableHlo.TRef.ternary (.of main_v512 : StableHlo.TRef sig ⟨S204800, .i1⟩) (.of main_v530 : StableHlo.TRef sig ⟨S204800, .i32⟩) (.of main_call56_v1 : StableHlo.TRef sig ⟨S204800, .i32⟩) (.of main_v531 : StableHlo.TRef sig ⟨S204800, .i32⟩) select,
    StableHlo.nullary main_c_195 (constantI S_ 32 0#32),
    StableHlo.unary main_c_195 main_v532 (broadcastInDim S204800 ![] bcast_S_S204800 : (⟨S_, .i32⟩ : BufTy).Contents (Elt F) → (⟨S204800, .i32⟩ : BufTy).Contents (Elt F)),
    StableHlo.binary main_v531 main_v532 main_v533 (cmpi .sgt : (⟨S204800, .i32⟩ : BufTy).Contents (Elt F) → (⟨S204800, .i32⟩ : BufTy).Contents (Elt F) → (⟨S204800, .i1⟩ : BufTy).Contents (Elt F)),
    StableHlo.nullary main_c_196 (constantI S_ 32 0#32),
    StableHlo.unary main_c_196 main_v534 (broadcastInDim S204800 ![] bcast_S_S204800 : (⟨S_, .i32⟩ : BufTy).Contents (Elt F) → (⟨S204800, .i32⟩ : BufTy).Contents (Elt F)),
    StableHlo.binary main_v513 main_v534 main_v535 (cmpi .slt : (⟨S204800, .i32⟩ : BufTy).Contents (Elt F) → (⟨S204800, .i32⟩ : BufTy).Contents (Elt F) → (⟨S204800, .i1⟩ : BufTy).Contents (Elt F)),
    StableHlo.nullary main_c_197 (constantI S_ 32 20001#32),
    StableHlo.unary main_c_197 main_v536 (broadcastInDim S204800 ![] bcast_S_S204800 : (⟨S_, .i32⟩ : BufTy).Contents (Elt F) → (⟨S204800, .i32⟩ : BufTy).Contents (Elt F)),
    StableHlo.binary main_v513 main_v536 main_v537 (addi : (⟨S204800, .i32⟩ : BufTy).Contents (Elt F) → (⟨S204800, .i32⟩ : BufTy).Contents (Elt F) → (⟨S204800, .i32⟩ : BufTy).Contents (Elt F)),
    StableHlo.ternary main_v535 main_v537 main_v513 main_v538 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v538 main_v539 (broadcastInDim S204800x1 ![0] bcast_S204800_S204800x1_0 : (⟨S204800, .i32⟩ : BufTy).Contents (Elt F) → (⟨S204800x1, .i32⟩ : BufTy).Contents (Elt F)),
    StableHlo.binary main_arg5 main_v539 main_v540 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_198 (constantI S_ 32 0#32),
    StableHlo.TRef.unary (.of main_c_198 : StableHlo.TRef sig ⟨S_, .i32⟩) (.of main_call57_v0 : StableHlo.TRef sig ⟨S_, .i32⟩) id,
    StableHlo.TRef.unary (.of main_call57_v0 : StableHlo.TRef sig ⟨S_, .i32⟩) (.of main_call57_v1 : StableHlo.TRef sig ⟨S204800, .i32⟩) (broadcastInDim S204800 ![] bcast_S_S204800),
    StableHlo.TRef.ternary (.of main_v533 : StableHlo.TRef sig ⟨S204800, .i1⟩) (.of main_v540 : StableHlo.TRef sig ⟨S204800, .i32⟩) (.of main_call57_v1 : StableHlo.TRef sig ⟨S204800, .i32⟩) (.of main_v541 : StableHlo.TRef sig ⟨S204800, .i32⟩) select,
    StableHlo.unary main_v531 main_v542 (sitofp .f32 : (⟨S204800, .i32⟩ : BufTy).Contents (Elt F) → (⟨S204800, .f32⟩ : BufTy).Contents (Elt F)),
    StableHlo.binary main_v510 main_v542 main_v543 (mulf : (⟨S204800, .f32⟩ : BufTy).Contents (Elt F) → (⟨S204800, .f32⟩ : BufTy).Contents (Elt F) → (⟨S204800, .f32⟩ : BufTy).Contents (Elt F)),
    StableHlo.unary main_v543 main_v544 (fptosi 32 : (⟨S204800, .f32⟩ : BufTy).Contents (Elt F) → (⟨S204800, .i32⟩ : BufTy).Contents (Elt F)),
    StableHlo.binary main_v544 main_v541 main_v545 (addi : (⟨S204800, .i32⟩ : BufTy).Contents (Elt F) → (⟨S204800, .i32⟩ : BufTy).Contents (Elt F) → (⟨S204800, .i32⟩ : BufTy).Contents (Elt F)),
    StableHlo.nullary main_c_199 (constantI S_ 32 0#32),
    StableHlo.nullary main_c_200 (constantI S_ 32 302234#32),
    StableHlo.TRef.unary (.of main_c_199 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S204800, .i32⟩) (broadcastInDim S204800 ![] bcast_S_S204800),
    StableHlo.TRef.binary (.of main_call58_v1 : StableHlo.TRef sig ⟨S204800, .i32⟩) (.of main_v545 : StableHlo.TRef sig ⟨S204800, .i32⟩) (.of main_call58_v2 : StableHlo.TRef sig ⟨S204800, .i32⟩) maxsi,
    StableHlo.TRef.unary (.of main_c_200 : StableHlo.TRef sig ⟨S_, .i32⟩) (.of main_call58_v3 : StableHlo.TRef sig ⟨S_, .i32⟩) id,
    StableHlo.TRef.unary (.of main_call58_v3 : StableHlo.TRef sig ⟨S_, .i32⟩) (.of main_call58_v4 : StableHlo.TRef sig ⟨S204800, .i32⟩) (broadcastInDim S204800 ![] bcast_S_S204800),
    StableHlo.TRef.binary (.of main_call58_v4 : StableHlo.TRef sig ⟨S204800, .i32⟩) (.of main_call58_v2 : StableHlo.TRef sig ⟨S204800, .i32⟩) (.of main_v546 : StableHlo.TRef sig ⟨S204800, .i32⟩) minsi,
    StableHlo.nullary main_c_201 (constantI S_ 32 0#32),
    StableHlo.unary main_c_201 main_v547 (broadcastInDim S204800 ![] bcast_S_S204800 : (⟨S_, .i32⟩ : BufTy).Contents (Elt F) → (⟨S204800, .i32⟩ : BufTy).Contents (Elt F)),
    StableHlo.binary main_v546 main_v547 main_v548 (cmpi .slt : (⟨S204800, .i32⟩ : BufTy).Contents (Elt F) → (⟨S204800, .i32⟩ : BufTy).Contents (Elt F) → (⟨S204800, .i1⟩ : BufTy).Contents (Elt F)),
    StableHlo.nullary main_c_202 (constantI S_ 32 302235#32),
    StableHlo.unary main_c_202 main_v549 (broadcastInDim S204800 ![] bcast_S_S204800 : (⟨S_, .i32⟩ : BufTy).Contents (Elt F) → (⟨S204800, .i32⟩ : BufTy).Contents (Elt F)),
    StableHlo.binary main_v546 main_v549 main_v550 (addi : (⟨S204800, .i32⟩ : BufTy).Contents (Elt F) → (⟨S204800, .i32⟩ : BufTy).Contents (Elt F) → (⟨S204800, .i32⟩ : BufTy).Contents (Elt F)),
    StableHlo.ternary main_v548 main_v550 main_v546 main_v551 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v551 main_v552 (broadcastInDim S204800x1 ![0] bcast_S204800_S204800x1_0 : (⟨S204800, .i32⟩ : BufTy).Contents (Elt F) → (⟨S204800x1, .i32⟩ : BufTy).Contents (Elt F)),
    StableHlo.binary main_arg6 main_v552 main_v553 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_203 (constantI S_ 32 120000#32),
    StableHlo.TRef.unary (.of main_c_203 : StableHlo.TRef sig ⟨S_, .i32⟩) (.of main_call59_v0 : StableHlo.TRef sig ⟨S_, .i32⟩) id,
    StableHlo.TRef.unary (.of main_call59_v0 : StableHlo.TRef sig ⟨S_, .i32⟩) (.of main_call59_v1 : StableHlo.TRef sig ⟨S204800, .i32⟩) (broadcastInDim S204800 ![] bcast_S_S204800),
    StableHlo.TRef.ternary (.of main_v533 : StableHlo.TRef sig ⟨S204800, .i1⟩) (.of main_v553 : StableHlo.TRef sig ⟨S204800, .i32⟩) (.of main_call59_v1 : StableHlo.TRef sig ⟨S204800, .i32⟩) (.of main_v554 : StableHlo.TRef sig ⟨S204800, .i32⟩) select,
    StableHlo.unary main_arg0 main_v555 ((extractStridedSlice S204800x1 ![0, 12] · slices_S204800x20_S204800x1_0_12) : (⟨S204800x20, .f32⟩ : BufTy).Contents (Elt F) → (⟨S204800x1, .f32⟩ : BufTy).Contents (Elt F)),
    StableHlo.reshape main_v555 main_v556 rfl shapeCasts_S204800x1_S204800,
    StableHlo.nullary main_c_204 (constantI S_ 32 120000#32),
    StableHlo.unary main_c_204 main_v557 (broadcastInDim S204800 ![] bcast_S_S204800 : (⟨S_, .i32⟩ : BufTy).Contents (Elt F) → (⟨S204800, .i32⟩ : BufTy).Contents (Elt F)),
    StableHlo.binary main_v554 main_v557 main_v558 (cmpi .slt : (⟨S204800, .i32⟩ : BufTy).Contents (Elt F) → (⟨S204800, .i32⟩ : BufTy).Contents (Elt F) → (⟨S204800, .i1⟩ : BufTy).Contents (Elt F)),
    StableHlo.nullary main_c_205 (constantI S_ 32 0#32),
    StableHlo.TRef.unary (.of main_c_205 : StableHlo.TRef sig ⟨S_, .i32⟩) (.of main_call60_v0 : StableHlo.TRef sig ⟨S_, .i32⟩) id,
    StableHlo.TRef.unary (.of main_call60_v0 : StableHlo.TRef sig ⟨S_, .i32⟩) (.of main_call60_v1 : StableHlo.TRef sig ⟨S204800, .i32⟩) (broadcastInDim S204800 ![] bcast_S_S204800),
    StableHlo.TRef.ternary (.of main_v558 : StableHlo.TRef sig ⟨S204800, .i1⟩) (.of main_v554 : StableHlo.TRef sig ⟨S204800, .i32⟩) (.of main_call60_v1 : StableHlo.TRef sig ⟨S204800, .i32⟩) (.of main_v559 : StableHlo.TRef sig ⟨S204800, .i32⟩) select,
    StableHlo.nullary main_c_206 (constantI S_ 32 1#32),
    StableHlo.unary main_c_206 main_v560 (broadcastInDim S204800 ![] bcast_S_S204800 : (⟨S_, .i32⟩ : BufTy).Contents (Elt F) → (⟨S204800, .i32⟩ : BufTy).Contents (Elt F)),
    StableHlo.binary main_v559 main_v560 main_v561 (addi : (⟨S204800, .i32⟩ : BufTy).Contents (Elt F) → (⟨S204800, .i32⟩ : BufTy).Contents (Elt F) → (⟨S204800, .i32⟩ : BufTy).Contents (Elt F)),
    StableHlo.nullary main_c_207 (constantI S_ 32 0#32),
    StableHlo.unary main_c_207 main_v562 (broadcastInDim S204800 ![] bcast_S_S204800 : (⟨S_, .i32⟩ : BufTy).Contents (Elt F) → (⟨S204800, .i32⟩ : BufTy).Contents (Elt F)),
    StableHlo.binary main_v561 main_v562 main_v563 (cmpi .slt : (⟨S204800, .i32⟩ : BufTy).Contents (Elt F) → (⟨S204800, .i32⟩ : BufTy).Contents (Elt F) → (⟨S204800, .i1⟩ : BufTy).Contents (Elt F)),
    StableHlo.nullary main_c_208 (constantI S_ 32 3551#32),
    StableHlo.unary main_c_208 main_v564 (broadcastInDim S204800 ![] bcast_S_S204800 : (⟨S_, .i32⟩ : BufTy).Contents (Elt F) → (⟨S204800, .i32⟩ : BufTy).Contents (Elt F)),
    StableHlo.binary main_v561 main_v564 main_v565 (addi : (⟨S204800, .i32⟩ : BufTy).Contents (Elt F) → (⟨S204800, .i32⟩ : BufTy).Contents (Elt F) → (⟨S204800, .i32⟩ : BufTy).Contents (Elt F)),
    StableHlo.ternary main_v563 main_v565 main_v561 main_v566 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v566 main_v567 (broadcastInDim S204800x1 ![0] bcast_S204800_S204800x1_0 : (⟨S204800, .i32⟩ : BufTy).Contents (Elt F) → (⟨S204800x1, .i32⟩ : BufTy).Contents (Elt F)),
    StableHlo.binary main_arg3 main_v567 main_v568 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_209 (constantI S_ 32 0#32) ]

/-- Window 13 of the entry function: its 73 operations, calls inlined. -/
abbrev ops13 : List (HloOp τ sig (Elt F)) :=
  [ StableHlo.unary main_c_209 main_v569 (broadcastInDim S204800 ![] bcast_S_S204800 : (⟨S_, .i32⟩ : BufTy).Contents (Elt F) → (⟨S204800, .i32⟩ : BufTy).Contents (Elt F)),
    StableHlo.binary main_v559 main_v569 main_v570 (cmpi .slt : (⟨S204800, .i32⟩ : BufTy).Contents (Elt F) → (⟨S204800, .i32⟩ : BufTy).Contents (Elt F) → (⟨S204800, .i1⟩ : BufTy).Contents (Elt F)),
    StableHlo.nullary main_c_210 (constantI S_ 32 3551#32),
    StableHlo.unary main_c_210 main_v571 (broadcastInDim S204800 ![] bcast_S_S204800 : (⟨S_, .i32⟩ : BufTy).Contents (Elt F) → (⟨S204800, .i32⟩ : BufTy).Contents (Elt F)),
    StableHlo.binary main_v559 main_v571 main_v572 (addi : (⟨S204800, .i32⟩ : BufTy).Contents (Elt F) → (⟨S204800, .i32⟩ : BufTy).Contents (Elt F) → (⟨S204800, .i32⟩ : BufTy).Contents (Elt F)),
    StableHlo.ternary main_v570 main_v572 main_v559 main_v573 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v573 main_v574 (broadcastInDim S204800x1 ![0] bcast_S204800_S204800x1_0 : (⟨S204800, .i32⟩ : BufTy).Contents (Elt F) → (⟨S204800x1, .i32⟩ : BufTy).Contents (Elt F)),
    StableHlo.binary main_arg3 main_v574 main_v575 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v568 main_v575 main_v576 (subi : (⟨S204800, .i32⟩ : BufTy).Contents (Elt F) → (⟨S204800, .i32⟩ : BufTy).Contents (Elt F) → (⟨S204800, .i32⟩ : BufTy).Contents (Elt F)),
    StableHlo.nullary main_c_211 (constantI S_ 32 0#32),
    StableHlo.TRef.unary (.of main_c_211 : StableHlo.TRef sig ⟨S_, .i32⟩) (.of main_call61_v0 : StableHlo.TRef sig ⟨S_, .i32⟩) id,
    StableHlo.TRef.unary (.of main_call61_v0 : StableHlo.TRef sig ⟨S_, .i32⟩) (.of main_call61_v1 : StableHlo.TRef sig ⟨S204800, .i32⟩) (broadcastInDim S204800 ![] bcast_S_S204800),
    StableHlo.TRef.ternary (.of main_v558 : StableHlo.TRef sig ⟨S204800, .i1⟩) (.of main_v576 : StableHlo.TRef sig ⟨S204800, .i32⟩) (.of main_call61_v1 : StableHlo.TRef sig ⟨S204800, .i32⟩) (.of main_v577 : StableHlo.TRef sig ⟨S204800, .i32⟩) select,
    StableHlo.nullary main_c_212 (constantI S_ 32 0#32),
    StableHlo.unary main_c_212 main_v578 (broadcastInDim S204800 ![] bcast_S_S204800 : (⟨S_, .i32⟩ : BufTy).Contents (Elt F) → (⟨S204800, .i32⟩ : BufTy).Contents (Elt F)),
    StableHlo.binary main_v577 main_v578 main_v579 (cmpi .sgt : (⟨S204800, .i32⟩ : BufTy).Contents (Elt F) → (⟨S204800, .i32⟩ : BufTy).Contents (Elt F) → (⟨S204800, .i1⟩ : BufTy).Contents (Elt F)),
    StableHlo.nullary main_c_213 (constantI S_ 32 0#32),
    StableHlo.unary main_c_213 main_v580 (broadcastInDim S204800 ![] bcast_S_S204800 : (⟨S_, .i32⟩ : BufTy).Contents (Elt F) → (⟨S204800, .i32⟩ : BufTy).Contents (Elt F)),
    StableHlo.binary main_v559 main_v580 main_v581 (cmpi .slt : (⟨S204800, .i32⟩ : BufTy).Contents (Elt F) → (⟨S204800, .i32⟩ : BufTy).Contents (Elt F) → (⟨S204800, .i1⟩ : BufTy).Contents (Elt F)),
    StableHlo.nullary main_c_214 (constantI S_ 32 3551#32),
    StableHlo.unary main_c_214 main_v582 (broadcastInDim S204800 ![] bcast_S_S204800 : (⟨S_, .i32⟩ : BufTy).Contents (Elt F) → (⟨S204800, .i32⟩ : BufTy).Contents (Elt F)),
    StableHlo.binary main_v559 main_v582 main_v583 (addi : (⟨S204800, .i32⟩ : BufTy).Contents (Elt F) → (⟨S204800, .i32⟩ : BufTy).Contents (Elt F) → (⟨S204800, .i32⟩ : BufTy).Contents (Elt F)),
    StableHlo.ternary main_v581 main_v583 main_v559 main_v584 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v584 main_v585 (broadcastInDim S204800x1 ![0] bcast_S204800_S204800x1_0 : (⟨S204800, .i32⟩ : BufTy).Contents (Elt F) → (⟨S204800x1, .i32⟩ : BufTy).Contents (Elt F)),
    StableHlo.binary main_arg3 main_v585 main_v586 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_215 (constantI S_ 32 0#32),
    StableHlo.TRef.unary (.of main_c_215 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S204800, .i32⟩) (broadcastInDim S204800 ![] bcast_S_S204800),
    StableHlo.TRef.ternary (.of main_v579 : StableHlo.TRef sig ⟨S204800, .i1⟩) (.of main_v586 : StableHlo.TRef sig ⟨S204800, .i32⟩) (.of main_call62_v1 : StableHlo.TRef sig ⟨S204800, .i32⟩) (.of main_v587 : StableHlo.TRef sig ⟨S204800, .i32⟩) select,
    StableHlo.unary main_v577 main_v588 (sitofp .f32 : (⟨S204800, .i32⟩ : BufTy).Contents (Elt F) → (⟨S204800, .f32⟩ : BufTy).Contents (Elt F)),
    StableHlo.binary main_v556 main_v588 main_v589 (mulf : (⟨S204800, .f32⟩ : BufTy).Contents (Elt F) → (⟨S204800, .f32⟩ : BufTy).Contents (Elt F) → (⟨S204800, .f32⟩ : BufTy).Contents (Elt F)),
    StableHlo.unary main_v589 main_v590 (fptosi 32 : (⟨S204800, .f32⟩ : BufTy).Contents (Elt F) → (⟨S204800, .i32⟩ : BufTy).Contents (Elt F)),
    StableHlo.binary main_v590 main_v587 main_v591 (addi : (⟨S204800, .i32⟩ : BufTy).Contents (Elt F) → (⟨S204800, .i32⟩ : BufTy).Contents (Elt F) → (⟨S204800, .i32⟩ : BufTy).Contents (Elt F)),
    StableHlo.nullary main_c_216 (constantI S_ 32 0#32),
    StableHlo.nullary main_c_217 (constantI S_ 32 217263#32),
    StableHlo.TRef.unary (.of main_c_216 : StableHlo.TRef sig ⟨S_, .i32⟩) (.of main_call63_v0 : StableHlo.TRef sig ⟨S_, .i32⟩) id,
    StableHlo.TRef.unary (.of main_call63_v0 : StableHlo.TRef sig ⟨S_, .i32⟩) (.of main_call63_v1 : StableHlo.TRef sig ⟨S204800, .i32⟩) (broadcastInDim S204800 ![] bcast_S_S204800),
    StableHlo.TRef.binary (.of main_call63_v1 : StableHlo.TRef sig ⟨S204800, .i32⟩) (.of main_v591 : StableHlo.TRef sig ⟨S204800, .i32⟩) (.of main_call63_v2 : StableHlo.TRef sig ⟨S204800, .i32⟩) maxsi,
    StableHlo.TRef.unary (.of main_c_217 : StableHlo.TRef sig ⟨S_, .i32⟩) (.of main_call63_v3 : StableHlo.TRef sig ⟨S_, .i32⟩) id,
    StableHlo.TRef.unary (.of main_call63_v3 : StableHlo.TRef sig ⟨S_, .i32⟩) (.of main_call63_v4 : StableHlo.TRef sig ⟨S204800, .i32⟩) (broadcastInDim S204800 ![] bcast_S_S204800),
    StableHlo.TRef.binary (.of main_call63_v4 : StableHlo.TRef sig ⟨S204800, .i32⟩) (.of main_call63_v2 : StableHlo.TRef sig ⟨S204800, .i32⟩) (.of main_v592 : StableHlo.TRef sig ⟨S204800, .i32⟩) minsi,
    StableHlo.nullary main_c_218 (constantI S_ 32 0#32),
    StableHlo.unary main_c_218 main_v593 (broadcastInDim S204800 ![] bcast_S_S204800 : (⟨S_, .i32⟩ : BufTy).Contents (Elt F) → (⟨S204800, .i32⟩ : BufTy).Contents (Elt F)),
    StableHlo.binary main_v592 main_v593 main_v594 (cmpi .slt : (⟨S204800, .i32⟩ : BufTy).Contents (Elt F) → (⟨S204800, .i32⟩ : BufTy).Contents (Elt F) → (⟨S204800, .i1⟩ : BufTy).Contents (Elt F)),
    StableHlo.nullary main_c_219 (constantI S_ 32 217264#32),
    StableHlo.unary main_c_219 main_v595 (broadcastInDim S204800 ![] bcast_S_S204800 : (⟨S_, .i32⟩ : BufTy).Contents (Elt F) → (⟨S204800, .i32⟩ : BufTy).Contents (Elt F)),
    StableHlo.binary main_v592 main_v595 main_v596 (addi : (⟨S204800, .i32⟩ : BufTy).Contents (Elt F) → (⟨S204800, .i32⟩ : BufTy).Contents (Elt F) → (⟨S204800, .i32⟩ : BufTy).Contents (Elt F)),
    StableHlo.ternary main_v594 main_v596 main_v592 main_v597 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v597 main_v598 (broadcastInDim S204800x1 ![0] bcast_S204800_S204800x1_0 : (⟨S204800, .i32⟩ : BufTy).Contents (Elt F) → (⟨S204800x1, .i32⟩ : BufTy).Contents (Elt F)),
    StableHlo.binary main_arg4 main_v598 main_v599 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_220 (constantI S_ 32 120000#32),
    StableHlo.TRef.unary (.of main_c_220 : StableHlo.TRef sig ⟨S_, .i32⟩) (.of main_call64_v0 : StableHlo.TRef sig ⟨S_, .i32⟩) id,
    StableHlo.TRef.unary (.of main_call64_v0 : StableHlo.TRef sig ⟨S_, .i32⟩) (.of main_call64_v1 : StableHlo.TRef sig ⟨S204800, .i32⟩) (broadcastInDim S204800 ![] bcast_S_S204800),
    StableHlo.TRef.ternary (.of main_v579 : StableHlo.TRef sig ⟨S204800, .i1⟩) (.of main_v599 : StableHlo.TRef sig ⟨S204800, .i32⟩) (.of main_call64_v1 : StableHlo.TRef sig ⟨S204800, .i32⟩) (.of main_v600 : StableHlo.TRef sig ⟨S204800, .i32⟩) select,
    StableHlo.unary main_arg0 main_v601 ((extractStridedSlice S204800x1 ![0, 13] · slices_S204800x20_S204800x1_0_13) : (⟨S204800x20, .f32⟩ : BufTy).Contents (Elt F) → (⟨S204800x1, .f32⟩ : BufTy).Contents (Elt F)),
    StableHlo.reshape main_v601 main_v602 rfl shapeCasts_S204800x1_S204800,
    StableHlo.nullary main_c_221 (constantI S_ 32 120000#32),
    StableHlo.unary main_c_221 main_v603 (broadcastInDim S204800 ![] bcast_S_S204800 : (⟨S_, .i32⟩ : BufTy).Contents (Elt F) → (⟨S204800, .i32⟩ : BufTy).Contents (Elt F)),
    StableHlo.binary main_v600 main_v603 main_v604 (cmpi .slt : (⟨S204800, .i32⟩ : BufTy).Contents (Elt F) → (⟨S204800, .i32⟩ : BufTy).Contents (Elt F) → (⟨S204800, .i1⟩ : BufTy).Contents (Elt F)),
    StableHlo.nullary main_c_222 (constantI S_ 32 0#32),
    StableHlo.TRef.unary (.of main_c_222 : StableHlo.TRef sig ⟨S_, .i32⟩) (.of main_call65_v0 : StableHlo.TRef sig ⟨S_, .i32⟩) id,
    StableHlo.TRef.unary (.of main_call65_v0 : StableHlo.TRef sig ⟨S_, .i32⟩) (.of main_call65_v1 : StableHlo.TRef sig ⟨S204800, .i32⟩) (broadcastInDim S204800 ![] bcast_S_S204800),
    StableHlo.TRef.ternary (.of main_v604 : StableHlo.TRef sig ⟨S204800, .i1⟩) (.of main_v600 : StableHlo.TRef sig ⟨S204800, .i32⟩) (.of main_call65_v1 : StableHlo.TRef sig ⟨S204800, .i32⟩) (.of main_v605 : StableHlo.TRef sig ⟨S204800, .i32⟩) select,
    StableHlo.nullary main_c_223 (constantI S_ 32 1#32),
    StableHlo.unary main_c_223 main_v606 (broadcastInDim S204800 ![] bcast_S_S204800 : (⟨S_, .i32⟩ : BufTy).Contents (Elt F) → (⟨S204800, .i32⟩ : BufTy).Contents (Elt F)),
    StableHlo.binary main_v605 main_v606 main_v607 (addi : (⟨S204800, .i32⟩ : BufTy).Contents (Elt F) → (⟨S204800, .i32⟩ : BufTy).Contents (Elt F) → (⟨S204800, .i32⟩ : BufTy).Contents (Elt F)),
    StableHlo.nullary main_c_224 (constantI S_ 32 0#32),
    StableHlo.unary main_c_224 main_v608 (broadcastInDim S204800 ![] bcast_S_S204800 : (⟨S_, .i32⟩ : BufTy).Contents (Elt F) → (⟨S204800, .i32⟩ : BufTy).Contents (Elt F)),
    StableHlo.binary main_v607 main_v608 main_v609 (cmpi .slt : (⟨S204800, .i32⟩ : BufTy).Contents (Elt F) → (⟨S204800, .i32⟩ : BufTy).Contents (Elt F) → (⟨S204800, .i1⟩ : BufTy).Contents (Elt F)),
    StableHlo.nullary main_c_225 (constantI S_ 32 20001#32),
    StableHlo.unary main_c_225 main_v610 (broadcastInDim S204800 ![] bcast_S_S204800 : (⟨S_, .i32⟩ : BufTy).Contents (Elt F) → (⟨S204800, .i32⟩ : BufTy).Contents (Elt F)),
    StableHlo.binary main_v607 main_v610 main_v611 (addi : (⟨S204800, .i32⟩ : BufTy).Contents (Elt F) → (⟨S204800, .i32⟩ : BufTy).Contents (Elt F) → (⟨S204800, .i32⟩ : BufTy).Contents (Elt F)),
    StableHlo.ternary main_v609 main_v611 main_v607 main_v612 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)) ]

/-- Window 14 of the entry function: its 73 operations, calls inlined. -/
abbrev ops14 : List (HloOp τ sig (Elt F)) :=
  [ StableHlo.unary main_v612 main_v613 (broadcastInDim S204800x1 ![0] bcast_S204800_S204800x1_0 : (⟨S204800, .i32⟩ : BufTy).Contents (Elt F) → (⟨S204800x1, .i32⟩ : BufTy).Contents (Elt F)),
    StableHlo.binary main_arg5 main_v613 main_v614 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_226 (constantI S_ 32 0#32),
    StableHlo.unary main_c_226 main_v615 (broadcastInDim S204800 ![] bcast_S_S204800 : (⟨S_, .i32⟩ : BufTy).Contents (Elt F) → (⟨S204800, .i32⟩ : BufTy).Contents (Elt F)),
    StableHlo.binary main_v605 main_v615 main_v616 (cmpi .slt : (⟨S204800, .i32⟩ : BufTy).Contents (Elt F) → (⟨S204800, .i32⟩ : BufTy).Contents (Elt F) → (⟨S204800, .i1⟩ : BufTy).Contents (Elt F)),
    StableHlo.nullary main_c_227 (constantI S_ 32 20001#32),
    StableHlo.unary main_c_227 main_v617 (broadcastInDim S204800 ![] bcast_S_S204800 : (⟨S_, .i32⟩ : BufTy).Contents (Elt F) → (⟨S204800, .i32⟩ : BufTy).Contents (Elt F)),
    StableHlo.binary main_v605 main_v617 main_v618 (addi : (⟨S204800, .i32⟩ : BufTy).Contents (Elt F) → (⟨S204800, .i32⟩ : BufTy).Contents (Elt F) → (⟨S204800, .i32⟩ : BufTy).Contents (Elt F)),
    StableHlo.ternary main_v616 main_v618 main_v605 main_v619 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v619 main_v620 (broadcastInDim S204800x1 ![0] bcast_S204800_S204800x1_0 : (⟨S204800, .i32⟩ : BufTy).Contents (Elt F) → (⟨S204800x1, .i32⟩ : BufTy).Contents (Elt F)),
    StableHlo.binary main_arg5 main_v620 main_v621 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v614 main_v621 main_v622 (subi : (⟨S204800, .i32⟩ : BufTy).Contents (Elt F) → (⟨S204800, .i32⟩ : BufTy).Contents (Elt F) → (⟨S204800, .i32⟩ : BufTy).Contents (Elt F)),
    StableHlo.nullary main_c_228 (constantI S_ 32 0#32),
    StableHlo.TRef.unary (.of main_c_228 : StableHlo.TRef sig ⟨S_, .i32⟩) (.of main_call66_v0 : StableHlo.TRef sig ⟨S_, .i32⟩) id,
    StableHlo.TRef.unary (.of main_call66_v0 : StableHlo.TRef sig ⟨S_, .i32⟩) (.of main_call66_v1 : StableHlo.TRef sig ⟨S204800, .i32⟩) (broadcastInDim S204800 ![] bcast_S_S204800),
    StableHlo.TRef.ternary (.of main_v604 : StableHlo.TRef sig ⟨S204800, .i1⟩) (.of main_v622 : StableHlo.TRef sig ⟨S204800, .i32⟩) (.of main_call66_v1 : StableHlo.TRef sig ⟨S204800, .i32⟩) (.of main_v623 : StableHlo.TRef sig ⟨S204800, .i32⟩) select,
    StableHlo.nullary main_c_229 (constantI S_ 32 0#32),
    StableHlo.unary main_c_229 main_v624 (broadcastInDim S204800 ![] bcast_S_S204800 : (⟨S_, .i32⟩ : BufTy).Contents (Elt F) → (⟨S204800, .i32⟩ : BufTy).Contents (Elt F)),
    StableHlo.binary main_v623 main_v624 main_v625 (cmpi .sgt : (⟨S204800, .i32⟩ : BufTy).Contents (Elt F) → (⟨S204800, .i32⟩ : BufTy).Contents (Elt F) → (⟨S204800, .i1⟩ : BufTy).Contents (Elt F)),
    StableHlo.nullary main_c_230 (constantI S_ 32 0#32),
    StableHlo.unary main_c_230 main_v626 (broadcastInDim S204800 ![] bcast_S_S204800 : (⟨S_, .i32⟩ : BufTy).Contents (Elt F) → (⟨S204800, .i32⟩ : BufTy).Contents (Elt F)),
    StableHlo.binary main_v605 main_v626 main_v627 (cmpi .slt : (⟨S204800, .i32⟩ : BufTy).Contents (Elt F) → (⟨S204800, .i32⟩ : BufTy).Contents (Elt F) → (⟨S204800, .i1⟩ : BufTy).Contents (Elt F)),
    StableHlo.nullary main_c_231 (constantI S_ 32 20001#32),
    StableHlo.unary main_c_231 main_v628 (broadcastInDim S204800 ![] bcast_S_S204800 : (⟨S_, .i32⟩ : BufTy).Contents (Elt F) → (⟨S204800, .i32⟩ : BufTy).Contents (Elt F)),
    StableHlo.binary main_v605 main_v628 main_v629 (addi : (⟨S204800, .i32⟩ : BufTy).Contents (Elt F) → (⟨S204800, .i32⟩ : BufTy).Contents (Elt F) → (⟨S204800, .i32⟩ : BufTy).Contents (Elt F)),
    StableHlo.ternary main_v627 main_v629 main_v605 main_v630 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v630 main_v631 (broadcastInDim S204800x1 ![0] bcast_S204800_S204800x1_0 : (⟨S204800, .i32⟩ : BufTy).Contents (Elt F) → (⟨S204800x1, .i32⟩ : BufTy).Contents (Elt F)),
    StableHlo.binary main_arg5 main_v631 main_v632 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_232 (constantI S_ 32 0#32),
    StableHlo.TRef.unary (.of main_c_232 : StableHlo.TRef sig ⟨S_, .i32⟩) (.of main_call67_v0 : StableHlo.TRef sig ⟨S_, .i32⟩) id,
    StableHlo.TRef.unary (.of main_call67_v0 : StableHlo.TRef sig ⟨S_, .i32⟩) (.of main_call67_v1 : StableHlo.TRef sig ⟨S204800, .i32⟩) (broadcastInDim S204800 ![] bcast_S_S204800),
    StableHlo.TRef.ternary (.of main_v625 : StableHlo.TRef sig ⟨S204800, .i1⟩) (.of main_v632 : StableHlo.TRef sig ⟨S204800, .i32⟩) (.of main_call67_v1 : StableHlo.TRef sig ⟨S204800, .i32⟩) (.of main_v633 : StableHlo.TRef sig ⟨S204800, .i32⟩) select,
    StableHlo.unary main_v623 main_v634 (sitofp .f32 : (⟨S204800, .i32⟩ : BufTy).Contents (Elt F) → (⟨S204800, .f32⟩ : BufTy).Contents (Elt F)),
    StableHlo.binary main_v602 main_v634 main_v635 (mulf : (⟨S204800, .f32⟩ : BufTy).Contents (Elt F) → (⟨S204800, .f32⟩ : BufTy).Contents (Elt F) → (⟨S204800, .f32⟩ : BufTy).Contents (Elt F)),
    StableHlo.unary main_v635 main_v636 (fptosi 32 : (⟨S204800, .f32⟩ : BufTy).Contents (Elt F) → (⟨S204800, .i32⟩ : BufTy).Contents (Elt F)),
    StableHlo.binary main_v636 main_v633 main_v637 (addi : (⟨S204800, .i32⟩ : BufTy).Contents (Elt F) → (⟨S204800, .i32⟩ : BufTy).Contents (Elt F) → (⟨S204800, .i32⟩ : BufTy).Contents (Elt F)),
    StableHlo.nullary main_c_233 (constantI S_ 32 0#32),
    StableHlo.nullary main_c_234 (constantI S_ 32 302234#32),
    StableHlo.TRef.unary (.of main_c_233 : StableHlo.TRef sig ⟨S_, .i32⟩) (.of main_call68_v0 : StableHlo.TRef sig ⟨S_, .i32⟩) id,
    StableHlo.TRef.unary (.of main_call68_v0 : StableHlo.TRef sig ⟨S_, .i32⟩) (.of main_call68_v1 : StableHlo.TRef sig ⟨S204800, .i32⟩) (broadcastInDim S204800 ![] bcast_S_S204800),
    StableHlo.TRef.binary (.of main_call68_v1 : StableHlo.TRef sig ⟨S204800, .i32⟩) (.of main_v637 : StableHlo.TRef sig ⟨S204800, .i32⟩) (.of main_call68_v2 : StableHlo.TRef sig ⟨S204800, .i32⟩) maxsi,
    StableHlo.TRef.unary (.of main_c_234 : StableHlo.TRef sig ⟨S_, .i32⟩) (.of main_call68_v3 : StableHlo.TRef sig ⟨S_, .i32⟩) id,
    StableHlo.TRef.unary (.of main_call68_v3 : StableHlo.TRef sig ⟨S_, .i32⟩) (.of main_call68_v4 : StableHlo.TRef sig ⟨S204800, .i32⟩) (broadcastInDim S204800 ![] bcast_S_S204800),
    StableHlo.TRef.binary (.of main_call68_v4 : StableHlo.TRef sig ⟨S204800, .i32⟩) (.of main_call68_v2 : StableHlo.TRef sig ⟨S204800, .i32⟩) (.of main_v638 : StableHlo.TRef sig ⟨S204800, .i32⟩) minsi,
    StableHlo.nullary main_c_235 (constantI S_ 32 0#32),
    StableHlo.unary main_c_235 main_v639 (broadcastInDim S204800 ![] bcast_S_S204800 : (⟨S_, .i32⟩ : BufTy).Contents (Elt F) → (⟨S204800, .i32⟩ : BufTy).Contents (Elt F)),
    StableHlo.binary main_v638 main_v639 main_v640 (cmpi .slt : (⟨S204800, .i32⟩ : BufTy).Contents (Elt F) → (⟨S204800, .i32⟩ : BufTy).Contents (Elt F) → (⟨S204800, .i1⟩ : BufTy).Contents (Elt F)),
    StableHlo.nullary main_c_236 (constantI S_ 32 302235#32),
    StableHlo.unary main_c_236 main_v641 (broadcastInDim S204800 ![] bcast_S_S204800 : (⟨S_, .i32⟩ : BufTy).Contents (Elt F) → (⟨S204800, .i32⟩ : BufTy).Contents (Elt F)),
    StableHlo.binary main_v638 main_v641 main_v642 (addi : (⟨S204800, .i32⟩ : BufTy).Contents (Elt F) → (⟨S204800, .i32⟩ : BufTy).Contents (Elt F) → (⟨S204800, .i32⟩ : BufTy).Contents (Elt F)),
    StableHlo.ternary main_v640 main_v642 main_v638 main_v643 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v643 main_v644 (broadcastInDim S204800x1 ![0] bcast_S204800_S204800x1_0 : (⟨S204800, .i32⟩ : BufTy).Contents (Elt F) → (⟨S204800x1, .i32⟩ : BufTy).Contents (Elt F)),
    StableHlo.binary main_arg6 main_v644 main_v645 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_237 (constantI S_ 32 120000#32),
    StableHlo.TRef.unary (.of main_c_237 : StableHlo.TRef sig ⟨S_, .i32⟩) (.of main_call69_v0 : StableHlo.TRef sig ⟨S_, .i32⟩) id,
    StableHlo.TRef.unary (.of main_call69_v0 : StableHlo.TRef sig ⟨S_, .i32⟩) (.of main_call69_v1 : StableHlo.TRef sig ⟨S204800, .i32⟩) (broadcastInDim S204800 ![] bcast_S_S204800),
    StableHlo.TRef.ternary (.of main_v625 : StableHlo.TRef sig ⟨S204800, .i1⟩) (.of main_v645 : StableHlo.TRef sig ⟨S204800, .i32⟩) (.of main_call69_v1 : StableHlo.TRef sig ⟨S204800, .i32⟩) (.of main_v646 : StableHlo.TRef sig ⟨S204800, .i32⟩) select,
    StableHlo.unary main_arg0 main_v647 ((extractStridedSlice S204800x1 ![0, 14] · slices_S204800x20_S204800x1_0_14) : (⟨S204800x20, .f32⟩ : BufTy).Contents (Elt F) → (⟨S204800x1, .f32⟩ : BufTy).Contents (Elt F)),
    StableHlo.reshape main_v647 main_v648 rfl shapeCasts_S204800x1_S204800,
    StableHlo.nullary main_c_238 (constantI S_ 32 120000#32),
    StableHlo.unary main_c_238 main_v649 (broadcastInDim S204800 ![] bcast_S_S204800 : (⟨S_, .i32⟩ : BufTy).Contents (Elt F) → (⟨S204800, .i32⟩ : BufTy).Contents (Elt F)),
    StableHlo.binary main_v646 main_v649 main_v650 (cmpi .slt : (⟨S204800, .i32⟩ : BufTy).Contents (Elt F) → (⟨S204800, .i32⟩ : BufTy).Contents (Elt F) → (⟨S204800, .i1⟩ : BufTy).Contents (Elt F)),
    StableHlo.nullary main_c_239 (constantI S_ 32 0#32),
    StableHlo.TRef.unary (.of main_c_239 : StableHlo.TRef sig ⟨S_, .i32⟩) (.of main_call70_v0 : StableHlo.TRef sig ⟨S_, .i32⟩) id,
    StableHlo.TRef.unary (.of main_call70_v0 : StableHlo.TRef sig ⟨S_, .i32⟩) (.of main_call70_v1 : StableHlo.TRef sig ⟨S204800, .i32⟩) (broadcastInDim S204800 ![] bcast_S_S204800),
    StableHlo.TRef.ternary (.of main_v650 : StableHlo.TRef sig ⟨S204800, .i1⟩) (.of main_v646 : StableHlo.TRef sig ⟨S204800, .i32⟩) (.of main_call70_v1 : StableHlo.TRef sig ⟨S204800, .i32⟩) (.of main_v651 : StableHlo.TRef sig ⟨S204800, .i32⟩) select,
    StableHlo.nullary main_c_240 (constantI S_ 32 1#32),
    StableHlo.unary main_c_240 main_v652 (broadcastInDim S204800 ![] bcast_S_S204800 : (⟨S_, .i32⟩ : BufTy).Contents (Elt F) → (⟨S204800, .i32⟩ : BufTy).Contents (Elt F)),
    StableHlo.binary main_v651 main_v652 main_v653 (addi : (⟨S204800, .i32⟩ : BufTy).Contents (Elt F) → (⟨S204800, .i32⟩ : BufTy).Contents (Elt F) → (⟨S204800, .i32⟩ : BufTy).Contents (Elt F)),
    StableHlo.nullary main_c_241 (constantI S_ 32 0#32),
    StableHlo.unary main_c_241 main_v654 (broadcastInDim S204800 ![] bcast_S_S204800 : (⟨S_, .i32⟩ : BufTy).Contents (Elt F) → (⟨S204800, .i32⟩ : BufTy).Contents (Elt F)),
    StableHlo.binary main_v653 main_v654 main_v655 (cmpi .slt : (⟨S204800, .i32⟩ : BufTy).Contents (Elt F) → (⟨S204800, .i32⟩ : BufTy).Contents (Elt F) → (⟨S204800, .i1⟩ : BufTy).Contents (Elt F)),
    StableHlo.nullary main_c_242 (constantI S_ 32 3551#32) ]

/-- Window 15 of the entry function: its 73 operations, calls inlined. -/
abbrev ops15 : List (HloOp τ sig (Elt F)) :=
  [ StableHlo.unary main_c_242 main_v656 (broadcastInDim S204800 ![] bcast_S_S204800 : (⟨S_, .i32⟩ : BufTy).Contents (Elt F) → (⟨S204800, .i32⟩ : BufTy).Contents (Elt F)),
    StableHlo.binary main_v653 main_v656 main_v657 (addi : (⟨S204800, .i32⟩ : BufTy).Contents (Elt F) → (⟨S204800, .i32⟩ : BufTy).Contents (Elt F) → (⟨S204800, .i32⟩ : BufTy).Contents (Elt F)),
    StableHlo.ternary main_v655 main_v657 main_v653 main_v658 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v658 main_v659 (broadcastInDim S204800x1 ![0] bcast_S204800_S204800x1_0 : (⟨S204800, .i32⟩ : BufTy).Contents (Elt F) → (⟨S204800x1, .i32⟩ : BufTy).Contents (Elt F)),
    StableHlo.binary main_arg3 main_v659 main_v660 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_243 (constantI S_ 32 0#32),
    StableHlo.unary main_c_243 main_v661 (broadcastInDim S204800 ![] bcast_S_S204800 : (⟨S_, .i32⟩ : BufTy).Contents (Elt F) → (⟨S204800, .i32⟩ : BufTy).Contents (Elt F)),
    StableHlo.binary main_v651 main_v661 main_v662 (cmpi .slt : (⟨S204800, .i32⟩ : BufTy).Contents (Elt F) → (⟨S204800, .i32⟩ : BufTy).Contents (Elt F) → (⟨S204800, .i1⟩ : BufTy).Contents (Elt F)),
    StableHlo.nullary main_c_244 (constantI S_ 32 3551#32),
    StableHlo.unary main_c_244 main_v663 (broadcastInDim S204800 ![] bcast_S_S204800 : (⟨S_, .i32⟩ : BufTy).Contents (Elt F) → (⟨S204800, .i32⟩ : BufTy).Contents (Elt F)),
    StableHlo.binary main_v651 main_v663 main_v664 (addi : (⟨S204800, .i32⟩ : BufTy).Contents (Elt F) → (⟨S204800, .i32⟩ : BufTy).Contents (Elt F) → (⟨S204800, .i32⟩ : BufTy).Contents (Elt F)),
    StableHlo.ternary main_v662 main_v664 main_v651 main_v665 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v665 main_v666 (broadcastInDim S204800x1 ![0] bcast_S204800_S204800x1_0 : (⟨S204800, .i32⟩ : BufTy).Contents (Elt F) → (⟨S204800x1, .i32⟩ : BufTy).Contents (Elt F)),
    StableHlo.binary main_arg3 main_v666 main_v667 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v660 main_v667 main_v668 (subi : (⟨S204800, .i32⟩ : BufTy).Contents (Elt F) → (⟨S204800, .i32⟩ : BufTy).Contents (Elt F) → (⟨S204800, .i32⟩ : BufTy).Contents (Elt F)),
    StableHlo.nullary main_c_245 (constantI S_ 32 0#32),
    StableHlo.TRef.unary (.of main_c_245 : StableHlo.TRef sig ⟨S_, .i32⟩) (.of main_call71_v0 : StableHlo.TRef sig ⟨S_, .i32⟩) id,
    StableHlo.TRef.unary (.of main_call71_v0 : StableHlo.TRef sig ⟨S_, .i32⟩) (.of main_call71_v1 : StableHlo.TRef sig ⟨S204800, .i32⟩) (broadcastInDim S204800 ![] bcast_S_S204800),
    StableHlo.TRef.ternary (.of main_v650 : StableHlo.TRef sig ⟨S204800, .i1⟩) (.of main_v668 : StableHlo.TRef sig ⟨S204800, .i32⟩) (.of main_call71_v1 : StableHlo.TRef sig ⟨S204800, .i32⟩) (.of main_v669 : StableHlo.TRef sig ⟨S204800, .i32⟩) select,
    StableHlo.nullary main_c_246 (constantI S_ 32 0#32),
    StableHlo.unary main_c_246 main_v670 (broadcastInDim S204800 ![] bcast_S_S204800 : (⟨S_, .i32⟩ : BufTy).Contents (Elt F) → (⟨S204800, .i32⟩ : BufTy).Contents (Elt F)),
    StableHlo.binary main_v669 main_v670 main_v671 (cmpi .sgt : (⟨S204800, .i32⟩ : BufTy).Contents (Elt F) → (⟨S204800, .i32⟩ : BufTy).Contents (Elt F) → (⟨S204800, .i1⟩ : BufTy).Contents (Elt F)),
    StableHlo.nullary main_c_247 (constantI S_ 32 0#32),
    StableHlo.unary main_c_247 main_v672 (broadcastInDim S204800 ![] bcast_S_S204800 : (⟨S_, .i32⟩ : BufTy).Contents (Elt F) → (⟨S204800, .i32⟩ : BufTy).Contents (Elt F)),
    StableHlo.binary main_v651 main_v672 main_v673 (cmpi .slt : (⟨S204800, .i32⟩ : BufTy).Contents (Elt F) → (⟨S204800, .i32⟩ : BufTy).Contents (Elt F) → (⟨S204800, .i1⟩ : BufTy).Contents (Elt F)),
    StableHlo.nullary main_c_248 (constantI S_ 32 3551#32),
    StableHlo.unary main_c_248 main_v674 (broadcastInDim S204800 ![] bcast_S_S204800 : (⟨S_, .i32⟩ : BufTy).Contents (Elt F) → (⟨S204800, .i32⟩ : BufTy).Contents (Elt F)),
    StableHlo.binary main_v651 main_v674 main_v675 (addi : (⟨S204800, .i32⟩ : BufTy).Contents (Elt F) → (⟨S204800, .i32⟩ : BufTy).Contents (Elt F) → (⟨S204800, .i32⟩ : BufTy).Contents (Elt F)),
    StableHlo.ternary main_v673 main_v675 main_v651 main_v676 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v676 main_v677 (broadcastInDim S204800x1 ![0] bcast_S204800_S204800x1_0 : (⟨S204800, .i32⟩ : BufTy).Contents (Elt F) → (⟨S204800x1, .i32⟩ : BufTy).Contents (Elt F)),
    StableHlo.binary main_arg3 main_v677 main_v678 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_249 (constantI S_ 32 0#32),
    StableHlo.TRef.unary (.of main_c_249 : StableHlo.TRef sig ⟨S_, .i32⟩) (.of main_call72_v0 : StableHlo.TRef sig ⟨S_, .i32⟩) id,
    StableHlo.TRef.unary (.of main_call72_v0 : StableHlo.TRef sig ⟨S_, .i32⟩) (.of main_call72_v1 : StableHlo.TRef sig ⟨S204800, .i32⟩) (broadcastInDim S204800 ![] bcast_S_S204800),
    StableHlo.TRef.ternary (.of main_v671 : StableHlo.TRef sig ⟨S204800, .i1⟩) (.of main_v678 : StableHlo.TRef sig ⟨S204800, .i32⟩) (.of main_call72_v1 : StableHlo.TRef sig ⟨S204800, .i32⟩) (.of main_v679 : StableHlo.TRef sig ⟨S204800, .i32⟩) select,
    StableHlo.unary main_v669 main_v680 (sitofp .f32 : (⟨S204800, .i32⟩ : BufTy).Contents (Elt F) → (⟨S204800, .f32⟩ : BufTy).Contents (Elt F)),
    StableHlo.binary main_v648 main_v680 main_v681 (mulf : (⟨S204800, .f32⟩ : BufTy).Contents (Elt F) → (⟨S204800, .f32⟩ : BufTy).Contents (Elt F) → (⟨S204800, .f32⟩ : BufTy).Contents (Elt F)),
    StableHlo.unary main_v681 main_v682 (fptosi 32 : (⟨S204800, .f32⟩ : BufTy).Contents (Elt F) → (⟨S204800, .i32⟩ : BufTy).Contents (Elt F)),
    StableHlo.binary main_v682 main_v679 main_v683 (addi : (⟨S204800, .i32⟩ : BufTy).Contents (Elt F) → (⟨S204800, .i32⟩ : BufTy).Contents (Elt F) → (⟨S204800, .i32⟩ : BufTy).Contents (Elt F)),
    StableHlo.nullary main_c_250 (constantI S_ 32 0#32),
    StableHlo.nullary main_c_251 (constantI S_ 32 217263#32),
    StableHlo.TRef.unary (.of main_c_250 : StableHlo.TRef sig ⟨S_, .i32⟩) (.of main_call73_v0 : StableHlo.TRef sig ⟨S_, .i32⟩) id,
    StableHlo.TRef.unary (.of main_call73_v0 : StableHlo.TRef sig ⟨S_, .i32⟩) (.of main_call73_v1 : StableHlo.TRef sig ⟨S204800, .i32⟩) (broadcastInDim S204800 ![] bcast_S_S204800),
    StableHlo.TRef.binary (.of main_call73_v1 : StableHlo.TRef sig ⟨S204800, .i32⟩) (.of main_v683 : StableHlo.TRef sig ⟨S204800, .i32⟩) (.of main_call73_v2 : StableHlo.TRef sig ⟨S204800, .i32⟩) maxsi,
    StableHlo.TRef.unary (.of main_c_251 : StableHlo.TRef sig ⟨S_, .i32⟩) (.of main_call73_v3 : StableHlo.TRef sig ⟨S_, .i32⟩) id,
    StableHlo.TRef.unary (.of main_call73_v3 : StableHlo.TRef sig ⟨S_, .i32⟩) (.of main_call73_v4 : StableHlo.TRef sig ⟨S204800, .i32⟩) (broadcastInDim S204800 ![] bcast_S_S204800),
    StableHlo.TRef.binary (.of main_call73_v4 : StableHlo.TRef sig ⟨S204800, .i32⟩) (.of main_call73_v2 : StableHlo.TRef sig ⟨S204800, .i32⟩) (.of main_v684 : StableHlo.TRef sig ⟨S204800, .i32⟩) minsi,
    StableHlo.nullary main_c_252 (constantI S_ 32 0#32),
    StableHlo.unary main_c_252 main_v685 (broadcastInDim S204800 ![] bcast_S_S204800 : (⟨S_, .i32⟩ : BufTy).Contents (Elt F) → (⟨S204800, .i32⟩ : BufTy).Contents (Elt F)),
    StableHlo.binary main_v684 main_v685 main_v686 (cmpi .slt : (⟨S204800, .i32⟩ : BufTy).Contents (Elt F) → (⟨S204800, .i32⟩ : BufTy).Contents (Elt F) → (⟨S204800, .i1⟩ : BufTy).Contents (Elt F)),
    StableHlo.nullary main_c_253 (constantI S_ 32 217264#32),
    StableHlo.unary main_c_253 main_v687 (broadcastInDim S204800 ![] bcast_S_S204800 : (⟨S_, .i32⟩ : BufTy).Contents (Elt F) → (⟨S204800, .i32⟩ : BufTy).Contents (Elt F)),
    StableHlo.binary main_v684 main_v687 main_v688 (addi : (⟨S204800, .i32⟩ : BufTy).Contents (Elt F) → (⟨S204800, .i32⟩ : BufTy).Contents (Elt F) → (⟨S204800, .i32⟩ : BufTy).Contents (Elt F)),
    StableHlo.ternary main_v686 main_v688 main_v684 main_v689 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v689 main_v690 (broadcastInDim S204800x1 ![0] bcast_S204800_S204800x1_0 : (⟨S204800, .i32⟩ : BufTy).Contents (Elt F) → (⟨S204800x1, .i32⟩ : BufTy).Contents (Elt F)),
    StableHlo.binary main_arg4 main_v690 main_v691 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_254 (constantI S_ 32 120000#32),
    StableHlo.TRef.unary (.of main_c_254 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S204800, .i32⟩) (broadcastInDim S204800 ![] bcast_S_S204800),
    StableHlo.TRef.ternary (.of main_v671 : StableHlo.TRef sig ⟨S204800, .i1⟩) (.of main_v691 : StableHlo.TRef sig ⟨S204800, .i32⟩) (.of main_call74_v1 : StableHlo.TRef sig ⟨S204800, .i32⟩) (.of main_v692 : StableHlo.TRef sig ⟨S204800, .i32⟩) select,
    StableHlo.unary main_arg0 main_v693 ((extractStridedSlice S204800x1 ![0, 15] · slices_S204800x20_S204800x1_0_15) : (⟨S204800x20, .f32⟩ : BufTy).Contents (Elt F) → (⟨S204800x1, .f32⟩ : BufTy).Contents (Elt F)),
    StableHlo.reshape main_v693 main_v694 rfl shapeCasts_S204800x1_S204800,
    StableHlo.nullary main_c_255 (constantI S_ 32 120000#32),
    StableHlo.unary main_c_255 main_v695 (broadcastInDim S204800 ![] bcast_S_S204800 : (⟨S_, .i32⟩ : BufTy).Contents (Elt F) → (⟨S204800, .i32⟩ : BufTy).Contents (Elt F)),
    StableHlo.binary main_v692 main_v695 main_v696 (cmpi .slt : (⟨S204800, .i32⟩ : BufTy).Contents (Elt F) → (⟨S204800, .i32⟩ : BufTy).Contents (Elt F) → (⟨S204800, .i1⟩ : BufTy).Contents (Elt F)),
    StableHlo.nullary main_c_256 (constantI S_ 32 0#32),
    StableHlo.TRef.unary (.of main_c_256 : StableHlo.TRef sig ⟨S_, .i32⟩) (.of main_call75_v0 : StableHlo.TRef sig ⟨S_, .i32⟩) id,
    StableHlo.TRef.unary (.of main_call75_v0 : StableHlo.TRef sig ⟨S_, .i32⟩) (.of main_call75_v1 : StableHlo.TRef sig ⟨S204800, .i32⟩) (broadcastInDim S204800 ![] bcast_S_S204800),
    StableHlo.TRef.ternary (.of main_v696 : StableHlo.TRef sig ⟨S204800, .i1⟩) (.of main_v692 : StableHlo.TRef sig ⟨S204800, .i32⟩) (.of main_call75_v1 : StableHlo.TRef sig ⟨S204800, .i32⟩) (.of main_v697 : StableHlo.TRef sig ⟨S204800, .i32⟩) select,
    StableHlo.nullary main_c_257 (constantI S_ 32 1#32),
    StableHlo.unary main_c_257 main_v698 (broadcastInDim S204800 ![] bcast_S_S204800 : (⟨S_, .i32⟩ : BufTy).Contents (Elt F) → (⟨S204800, .i32⟩ : BufTy).Contents (Elt F)),
    StableHlo.binary main_v697 main_v698 main_v699 (addi : (⟨S204800, .i32⟩ : BufTy).Contents (Elt F) → (⟨S204800, .i32⟩ : BufTy).Contents (Elt F) → (⟨S204800, .i32⟩ : BufTy).Contents (Elt F)),
    StableHlo.nullary main_c_258 (constantI S_ 32 0#32) ]

/-- Window 16 of the entry function: its 73 operations, calls inlined. -/
abbrev ops16 : List (HloOp τ sig (Elt F)) :=
  [ StableHlo.unary main_c_258 main_v700 (broadcastInDim S204800 ![] bcast_S_S204800 : (⟨S_, .i32⟩ : BufTy).Contents (Elt F) → (⟨S204800, .i32⟩ : BufTy).Contents (Elt F)),
    StableHlo.binary main_v699 main_v700 main_v701 (cmpi .slt : (⟨S204800, .i32⟩ : BufTy).Contents (Elt F) → (⟨S204800, .i32⟩ : BufTy).Contents (Elt F) → (⟨S204800, .i1⟩ : BufTy).Contents (Elt F)),
    StableHlo.nullary main_c_259 (constantI S_ 32 20001#32),
    StableHlo.unary main_c_259 main_v702 (broadcastInDim S204800 ![] bcast_S_S204800 : (⟨S_, .i32⟩ : BufTy).Contents (Elt F) → (⟨S204800, .i32⟩ : BufTy).Contents (Elt F)),
    StableHlo.binary main_v699 main_v702 main_v703 (addi : (⟨S204800, .i32⟩ : BufTy).Contents (Elt F) → (⟨S204800, .i32⟩ : BufTy).Contents (Elt F) → (⟨S204800, .i32⟩ : BufTy).Contents (Elt F)),
    StableHlo.ternary main_v701 main_v703 main_v699 main_v704 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v704 main_v705 (broadcastInDim S204800x1 ![0] bcast_S204800_S204800x1_0 : (⟨S204800, .i32⟩ : BufTy).Contents (Elt F) → (⟨S204800x1, .i32⟩ : BufTy).Contents (Elt F)),
    StableHlo.binary main_arg5 main_v705 main_v706 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_260 (constantI S_ 32 0#32),
    StableHlo.unary main_c_260 main_v707 (broadcastInDim S204800 ![] bcast_S_S204800 : (⟨S_, .i32⟩ : BufTy).Contents (Elt F) → (⟨S204800, .i32⟩ : BufTy).Contents (Elt F)),
    StableHlo.binary main_v697 main_v707 main_v708 (cmpi .slt : (⟨S204800, .i32⟩ : BufTy).Contents (Elt F) → (⟨S204800, .i32⟩ : BufTy).Contents (Elt F) → (⟨S204800, .i1⟩ : BufTy).Contents (Elt F)),
    StableHlo.nullary main_c_261 (constantI S_ 32 20001#32),
    StableHlo.unary main_c_261 main_v709 (broadcastInDim S204800 ![] bcast_S_S204800 : (⟨S_, .i32⟩ : BufTy).Contents (Elt F) → (⟨S204800, .i32⟩ : BufTy).Contents (Elt F)),
    StableHlo.binary main_v697 main_v709 main_v710 (addi : (⟨S204800, .i32⟩ : BufTy).Contents (Elt F) → (⟨S204800, .i32⟩ : BufTy).Contents (Elt F) → (⟨S204800, .i32⟩ : BufTy).Contents (Elt F)),
    StableHlo.ternary main_v708 main_v710 main_v697 main_v711 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v711 main_v712 (broadcastInDim S204800x1 ![0] bcast_S204800_S204800x1_0 : (⟨S204800, .i32⟩ : BufTy).Contents (Elt F) → (⟨S204800x1, .i32⟩ : BufTy).Contents (Elt F)),
    StableHlo.binary main_arg5 main_v712 main_v713 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v706 main_v713 main_v714 (subi : (⟨S204800, .i32⟩ : BufTy).Contents (Elt F) → (⟨S204800, .i32⟩ : BufTy).Contents (Elt F) → (⟨S204800, .i32⟩ : BufTy).Contents (Elt F)),
    StableHlo.nullary main_c_262 (constantI S_ 32 0#32),
    StableHlo.TRef.unary (.of main_c_262 : StableHlo.TRef sig ⟨S_, .i32⟩) (.of main_call76_v0 : StableHlo.TRef sig ⟨S_, .i32⟩) id,
    StableHlo.TRef.unary (.of main_call76_v0 : StableHlo.TRef sig ⟨S_, .i32⟩) (.of main_call76_v1 : StableHlo.TRef sig ⟨S204800, .i32⟩) (broadcastInDim S204800 ![] bcast_S_S204800),
    StableHlo.TRef.ternary (.of main_v696 : StableHlo.TRef sig ⟨S204800, .i1⟩) (.of main_v714 : StableHlo.TRef sig ⟨S204800, .i32⟩) (.of main_call76_v1 : StableHlo.TRef sig ⟨S204800, .i32⟩) (.of main_v715 : StableHlo.TRef sig ⟨S204800, .i32⟩) select,
    StableHlo.nullary main_c_263 (constantI S_ 32 0#32),
    StableHlo.unary main_c_263 main_v716 (broadcastInDim S204800 ![] bcast_S_S204800 : (⟨S_, .i32⟩ : BufTy).Contents (Elt F) → (⟨S204800, .i32⟩ : BufTy).Contents (Elt F)),
    StableHlo.binary main_v715 main_v716 main_v717 (cmpi .sgt : (⟨S204800, .i32⟩ : BufTy).Contents (Elt F) → (⟨S204800, .i32⟩ : BufTy).Contents (Elt F) → (⟨S204800, .i1⟩ : BufTy).Contents (Elt F)),
    StableHlo.nullary main_c_264 (constantI S_ 32 0#32),
    StableHlo.unary main_c_264 main_v718 (broadcastInDim S204800 ![] bcast_S_S204800 : (⟨S_, .i32⟩ : BufTy).Contents (Elt F) → (⟨S204800, .i32⟩ : BufTy).Contents (Elt F)),
    StableHlo.binary main_v697 main_v718 main_v719 (cmpi .slt : (⟨S204800, .i32⟩ : BufTy).Contents (Elt F) → (⟨S204800, .i32⟩ : BufTy).Contents (Elt F) → (⟨S204800, .i1⟩ : BufTy).Contents (Elt F)),
    StableHlo.nullary main_c_265 (constantI S_ 32 20001#32),
    StableHlo.unary main_c_265 main_v720 (broadcastInDim S204800 ![] bcast_S_S204800 : (⟨S_, .i32⟩ : BufTy).Contents (Elt F) → (⟨S204800, .i32⟩ : BufTy).Contents (Elt F)),
    StableHlo.binary main_v697 main_v720 main_v721 (addi : (⟨S204800, .i32⟩ : BufTy).Contents (Elt F) → (⟨S204800, .i32⟩ : BufTy).Contents (Elt F) → (⟨S204800, .i32⟩ : BufTy).Contents (Elt F)),
    StableHlo.ternary main_v719 main_v721 main_v697 main_v722 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v722 main_v723 (broadcastInDim S204800x1 ![0] bcast_S204800_S204800x1_0 : (⟨S204800, .i32⟩ : BufTy).Contents (Elt F) → (⟨S204800x1, .i32⟩ : BufTy).Contents (Elt F)),
    StableHlo.binary main_arg5 main_v723 main_v724 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_266 (constantI S_ 32 0#32),
    StableHlo.TRef.unary (.of main_c_266 : StableHlo.TRef sig ⟨S_, .i32⟩) (.of main_call77_v0 : StableHlo.TRef sig ⟨S_, .i32⟩) id,
    StableHlo.TRef.unary (.of main_call77_v0 : StableHlo.TRef sig ⟨S_, .i32⟩) (.of main_call77_v1 : StableHlo.TRef sig ⟨S204800, .i32⟩) (broadcastInDim S204800 ![] bcast_S_S204800),
    StableHlo.TRef.ternary (.of main_v717 : StableHlo.TRef sig ⟨S204800, .i1⟩) (.of main_v724 : StableHlo.TRef sig ⟨S204800, .i32⟩) (.of main_call77_v1 : StableHlo.TRef sig ⟨S204800, .i32⟩) (.of main_v725 : StableHlo.TRef sig ⟨S204800, .i32⟩) select,
    StableHlo.unary main_v715 main_v726 (sitofp .f32 : (⟨S204800, .i32⟩ : BufTy).Contents (Elt F) → (⟨S204800, .f32⟩ : BufTy).Contents (Elt F)),
    StableHlo.binary main_v694 main_v726 main_v727 (mulf : (⟨S204800, .f32⟩ : BufTy).Contents (Elt F) → (⟨S204800, .f32⟩ : BufTy).Contents (Elt F) → (⟨S204800, .f32⟩ : BufTy).Contents (Elt F)),
    StableHlo.unary main_v727 main_v728 (fptosi 32 : (⟨S204800, .f32⟩ : BufTy).Contents (Elt F) → (⟨S204800, .i32⟩ : BufTy).Contents (Elt F)),
    StableHlo.binary main_v728 main_v725 main_v729 (addi : (⟨S204800, .i32⟩ : BufTy).Contents (Elt F) → (⟨S204800, .i32⟩ : BufTy).Contents (Elt F) → (⟨S204800, .i32⟩ : BufTy).Contents (Elt F)),
    StableHlo.nullary main_c_267 (constantI S_ 32 0#32),
    StableHlo.nullary main_c_268 (constantI S_ 32 302234#32),
    StableHlo.TRef.unary (.of main_c_267 : StableHlo.TRef sig ⟨S_, .i32⟩) (.of main_call78_v0 : StableHlo.TRef sig ⟨S_, .i32⟩) id,
    StableHlo.TRef.unary (.of main_call78_v0 : StableHlo.TRef sig ⟨S_, .i32⟩) (.of main_call78_v1 : StableHlo.TRef sig ⟨S204800, .i32⟩) (broadcastInDim S204800 ![] bcast_S_S204800),
    StableHlo.TRef.binary (.of main_call78_v1 : StableHlo.TRef sig ⟨S204800, .i32⟩) (.of main_v729 : StableHlo.TRef sig ⟨S204800, .i32⟩) (.of main_call78_v2 : StableHlo.TRef sig ⟨S204800, .i32⟩) maxsi,
    StableHlo.TRef.unary (.of main_c_268 : StableHlo.TRef sig ⟨S_, .i32⟩) (.of main_call78_v3 : StableHlo.TRef sig ⟨S_, .i32⟩) id,
    StableHlo.TRef.unary (.of main_call78_v3 : StableHlo.TRef sig ⟨S_, .i32⟩) (.of main_call78_v4 : StableHlo.TRef sig ⟨S204800, .i32⟩) (broadcastInDim S204800 ![] bcast_S_S204800),
    StableHlo.TRef.binary (.of main_call78_v4 : StableHlo.TRef sig ⟨S204800, .i32⟩) (.of main_call78_v2 : StableHlo.TRef sig ⟨S204800, .i32⟩) (.of main_v730 : StableHlo.TRef sig ⟨S204800, .i32⟩) minsi,
    StableHlo.nullary main_c_269 (constantI S_ 32 0#32),
    StableHlo.unary main_c_269 main_v731 (broadcastInDim S204800 ![] bcast_S_S204800 : (⟨S_, .i32⟩ : BufTy).Contents (Elt F) → (⟨S204800, .i32⟩ : BufTy).Contents (Elt F)),
    StableHlo.binary main_v730 main_v731 main_v732 (cmpi .slt : (⟨S204800, .i32⟩ : BufTy).Contents (Elt F) → (⟨S204800, .i32⟩ : BufTy).Contents (Elt F) → (⟨S204800, .i1⟩ : BufTy).Contents (Elt F)),
    StableHlo.nullary main_c_270 (constantI S_ 32 302235#32),
    StableHlo.unary main_c_270 main_v733 (broadcastInDim S204800 ![] bcast_S_S204800 : (⟨S_, .i32⟩ : BufTy).Contents (Elt F) → (⟨S204800, .i32⟩ : BufTy).Contents (Elt F)),
    StableHlo.binary main_v730 main_v733 main_v734 (addi : (⟨S204800, .i32⟩ : BufTy).Contents (Elt F) → (⟨S204800, .i32⟩ : BufTy).Contents (Elt F) → (⟨S204800, .i32⟩ : BufTy).Contents (Elt F)),
    StableHlo.ternary main_v732 main_v734 main_v730 main_v735 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v735 main_v736 (broadcastInDim S204800x1 ![0] bcast_S204800_S204800x1_0 : (⟨S204800, .i32⟩ : BufTy).Contents (Elt F) → (⟨S204800x1, .i32⟩ : BufTy).Contents (Elt F)),
    StableHlo.binary main_arg6 main_v736 main_v737 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_271 (constantI S_ 32 120000#32),
    StableHlo.TRef.unary (.of main_c_271 : StableHlo.TRef sig ⟨S_, .i32⟩) (.of main_call79_v0 : StableHlo.TRef sig ⟨S_, .i32⟩) id,
    StableHlo.TRef.unary (.of main_call79_v0 : StableHlo.TRef sig ⟨S_, .i32⟩) (.of main_call79_v1 : StableHlo.TRef sig ⟨S204800, .i32⟩) (broadcastInDim S204800 ![] bcast_S_S204800),
    StableHlo.TRef.ternary (.of main_v717 : StableHlo.TRef sig ⟨S204800, .i1⟩) (.of main_v737 : StableHlo.TRef sig ⟨S204800, .i32⟩) (.of main_call79_v1 : StableHlo.TRef sig ⟨S204800, .i32⟩) (.of main_v738 : StableHlo.TRef sig ⟨S204800, .i32⟩) select,
    StableHlo.unary main_arg0 main_v739 ((extractStridedSlice S204800x1 ![0, 16] · slices_S204800x20_S204800x1_0_16) : (⟨S204800x20, .f32⟩ : BufTy).Contents (Elt F) → (⟨S204800x1, .f32⟩ : BufTy).Contents (Elt F)),
    StableHlo.reshape main_v739 main_v740 rfl shapeCasts_S204800x1_S204800,
    StableHlo.nullary main_c_272 (constantI S_ 32 120000#32),
    StableHlo.unary main_c_272 main_v741 (broadcastInDim S204800 ![] bcast_S_S204800 : (⟨S_, .i32⟩ : BufTy).Contents (Elt F) → (⟨S204800, .i32⟩ : BufTy).Contents (Elt F)),
    StableHlo.binary main_v738 main_v741 main_v742 (cmpi .slt : (⟨S204800, .i32⟩ : BufTy).Contents (Elt F) → (⟨S204800, .i32⟩ : BufTy).Contents (Elt F) → (⟨S204800, .i1⟩ : BufTy).Contents (Elt F)),
    StableHlo.nullary main_c_273 (constantI S_ 32 0#32),
    StableHlo.TRef.unary (.of main_c_273 : StableHlo.TRef sig ⟨S_, .i32⟩) (.of main_call80_v0 : StableHlo.TRef sig ⟨S_, .i32⟩) id,
    StableHlo.TRef.unary (.of main_call80_v0 : StableHlo.TRef sig ⟨S_, .i32⟩) (.of main_call80_v1 : StableHlo.TRef sig ⟨S204800, .i32⟩) (broadcastInDim S204800 ![] bcast_S_S204800),
    StableHlo.TRef.ternary (.of main_v742 : StableHlo.TRef sig ⟨S204800, .i1⟩) (.of main_v738 : StableHlo.TRef sig ⟨S204800, .i32⟩) (.of main_call80_v1 : StableHlo.TRef sig ⟨S204800, .i32⟩) (.of main_v743 : StableHlo.TRef sig ⟨S204800, .i32⟩) select,
    StableHlo.nullary main_c_274 (constantI S_ 32 1#32) ]

/-- Window 17 of the entry function: its 71 operations, calls inlined. -/
abbrev ops17 : List (HloOp τ sig (Elt F)) :=
  [ StableHlo.unary main_c_274 main_v744 (broadcastInDim S204800 ![] bcast_S_S204800 : (⟨S_, .i32⟩ : BufTy).Contents (Elt F) → (⟨S204800, .i32⟩ : BufTy).Contents (Elt F)),
    StableHlo.binary main_v743 main_v744 main_v745 (addi : (⟨S204800, .i32⟩ : BufTy).Contents (Elt F) → (⟨S204800, .i32⟩ : BufTy).Contents (Elt F) → (⟨S204800, .i32⟩ : BufTy).Contents (Elt F)),
    StableHlo.nullary main_c_275 (constantI S_ 32 0#32),
    StableHlo.unary main_c_275 main_v746 (broadcastInDim S204800 ![] bcast_S_S204800 : (⟨S_, .i32⟩ : BufTy).Contents (Elt F) → (⟨S204800, .i32⟩ : BufTy).Contents (Elt F)),
    StableHlo.binary main_v745 main_v746 main_v747 (cmpi .slt : (⟨S204800, .i32⟩ : BufTy).Contents (Elt F) → (⟨S204800, .i32⟩ : BufTy).Contents (Elt F) → (⟨S204800, .i1⟩ : BufTy).Contents (Elt F)),
    StableHlo.nullary main_c_276 (constantI S_ 32 3551#32),
    StableHlo.unary main_c_276 main_v748 (broadcastInDim S204800 ![] bcast_S_S204800 : (⟨S_, .i32⟩ : BufTy).Contents (Elt F) → (⟨S204800, .i32⟩ : BufTy).Contents (Elt F)),
    StableHlo.binary main_v745 main_v748 main_v749 (addi : (⟨S204800, .i32⟩ : BufTy).Contents (Elt F) → (⟨S204800, .i32⟩ : BufTy).Contents (Elt F) → (⟨S204800, .i32⟩ : BufTy).Contents (Elt F)),
    StableHlo.ternary main_v747 main_v749 main_v745 main_v750 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v750 main_v751 (broadcastInDim S204800x1 ![0] bcast_S204800_S204800x1_0 : (⟨S204800, .i32⟩ : BufTy).Contents (Elt F) → (⟨S204800x1, .i32⟩ : BufTy).Contents (Elt F)),
    StableHlo.binary main_arg3 main_v751 main_v752 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_277 (constantI S_ 32 0#32),
    StableHlo.unary main_c_277 main_v753 (broadcastInDim S204800 ![] bcast_S_S204800 : (⟨S_, .i32⟩ : BufTy).Contents (Elt F) → (⟨S204800, .i32⟩ : BufTy).Contents (Elt F)),
    StableHlo.binary main_v743 main_v753 main_v754 (cmpi .slt : (⟨S204800, .i32⟩ : BufTy).Contents (Elt F) → (⟨S204800, .i32⟩ : BufTy).Contents (Elt F) → (⟨S204800, .i1⟩ : BufTy).Contents (Elt F)),
    StableHlo.nullary main_c_278 (constantI S_ 32 3551#32),
    StableHlo.unary main_c_278 main_v755 (broadcastInDim S204800 ![] bcast_S_S204800 : (⟨S_, .i32⟩ : BufTy).Contents (Elt F) → (⟨S204800, .i32⟩ : BufTy).Contents (Elt F)),
    StableHlo.binary main_v743 main_v755 main_v756 (addi : (⟨S204800, .i32⟩ : BufTy).Contents (Elt F) → (⟨S204800, .i32⟩ : BufTy).Contents (Elt F) → (⟨S204800, .i32⟩ : BufTy).Contents (Elt F)),
    StableHlo.ternary main_v754 main_v756 main_v743 main_v757 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v757 main_v758 (broadcastInDim S204800x1 ![0] bcast_S204800_S204800x1_0 : (⟨S204800, .i32⟩ : BufTy).Contents (Elt F) → (⟨S204800x1, .i32⟩ : BufTy).Contents (Elt F)),
    StableHlo.binary main_arg3 main_v758 main_v759 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v752 main_v759 main_v760 (subi : (⟨S204800, .i32⟩ : BufTy).Contents (Elt F) → (⟨S204800, .i32⟩ : BufTy).Contents (Elt F) → (⟨S204800, .i32⟩ : BufTy).Contents (Elt F)),
    StableHlo.nullary main_c_279 (constantI S_ 32 0#32),
    StableHlo.TRef.unary (.of main_c_279 : StableHlo.TRef sig ⟨S_, .i32⟩) (.of main_call81_v0 : StableHlo.TRef sig ⟨S_, .i32⟩) id,
    StableHlo.TRef.unary (.of main_call81_v0 : StableHlo.TRef sig ⟨S_, .i32⟩) (.of main_call81_v1 : StableHlo.TRef sig ⟨S204800, .i32⟩) (broadcastInDim S204800 ![] bcast_S_S204800),
    StableHlo.TRef.ternary (.of main_v742 : StableHlo.TRef sig ⟨S204800, .i1⟩) (.of main_v760 : StableHlo.TRef sig ⟨S204800, .i32⟩) (.of main_call81_v1 : StableHlo.TRef sig ⟨S204800, .i32⟩) (.of main_v761 : StableHlo.TRef sig ⟨S204800, .i32⟩) select,
    StableHlo.nullary main_c_280 (constantI S_ 32 0#32),
    StableHlo.unary main_c_280 main_v762 (broadcastInDim S204800 ![] bcast_S_S204800 : (⟨S_, .i32⟩ : BufTy).Contents (Elt F) → (⟨S204800, .i32⟩ : BufTy).Contents (Elt F)),
    StableHlo.binary main_v761 main_v762 main_v763 (cmpi .sgt : (⟨S204800, .i32⟩ : BufTy).Contents (Elt F) → (⟨S204800, .i32⟩ : BufTy).Contents (Elt F) → (⟨S204800, .i1⟩ : BufTy).Contents (Elt F)),
    StableHlo.nullary main_c_281 (constantI S_ 32 0#32),
    StableHlo.unary main_c_281 main_v764 (broadcastInDim S204800 ![] bcast_S_S204800 : (⟨S_, .i32⟩ : BufTy).Contents (Elt F) → (⟨S204800, .i32⟩ : BufTy).Contents (Elt F)),
    StableHlo.binary main_v743 main_v764 main_v765 (cmpi .slt : (⟨S204800, .i32⟩ : BufTy).Contents (Elt F) → (⟨S204800, .i32⟩ : BufTy).Contents (Elt F) → (⟨S204800, .i1⟩ : BufTy).Contents (Elt F)),
    StableHlo.nullary main_c_282 (constantI S_ 32 3551#32),
    StableHlo.unary main_c_282 main_v766 (broadcastInDim S204800 ![] bcast_S_S204800 : (⟨S_, .i32⟩ : BufTy).Contents (Elt F) → (⟨S204800, .i32⟩ : BufTy).Contents (Elt F)),
    StableHlo.binary main_v743 main_v766 main_v767 (addi : (⟨S204800, .i32⟩ : BufTy).Contents (Elt F) → (⟨S204800, .i32⟩ : BufTy).Contents (Elt F) → (⟨S204800, .i32⟩ : BufTy).Contents (Elt F)),
    StableHlo.ternary main_v765 main_v767 main_v743 main_v768 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v768 main_v769 (broadcastInDim S204800x1 ![0] bcast_S204800_S204800x1_0 : (⟨S204800, .i32⟩ : BufTy).Contents (Elt F) → (⟨S204800x1, .i32⟩ : BufTy).Contents (Elt F)),
    StableHlo.binary main_arg3 main_v769 main_v770 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_283 (constantI S_ 32 0#32),
    StableHlo.TRef.unary (.of main_c_283 : StableHlo.TRef sig ⟨S_, .i32⟩) (.of main_call82_v0 : StableHlo.TRef sig ⟨S_, .i32⟩) id,
    StableHlo.TRef.unary (.of main_call82_v0 : StableHlo.TRef sig ⟨S_, .i32⟩) (.of main_call82_v1 : StableHlo.TRef sig ⟨S204800, .i32⟩) (broadcastInDim S204800 ![] bcast_S_S204800),
    StableHlo.TRef.ternary (.of main_v763 : StableHlo.TRef sig ⟨S204800, .i1⟩) (.of main_v770 : StableHlo.TRef sig ⟨S204800, .i32⟩) (.of main_call82_v1 : StableHlo.TRef sig ⟨S204800, .i32⟩) (.of main_v771 : StableHlo.TRef sig ⟨S204800, .i32⟩) select,
    StableHlo.unary main_v761 main_v772 (sitofp .f32 : (⟨S204800, .i32⟩ : BufTy).Contents (Elt F) → (⟨S204800, .f32⟩ : BufTy).Contents (Elt F)),
    StableHlo.binary main_v740 main_v772 main_v773 (mulf : (⟨S204800, .f32⟩ : BufTy).Contents (Elt F) → (⟨S204800, .f32⟩ : BufTy).Contents (Elt F) → (⟨S204800, .f32⟩ : BufTy).Contents (Elt F)),
    StableHlo.unary main_v773 main_v774 (fptosi 32 : (⟨S204800, .f32⟩ : BufTy).Contents (Elt F) → (⟨S204800, .i32⟩ : BufTy).Contents (Elt F)),
    StableHlo.binary main_v774 main_v771 main_v775 (addi : (⟨S204800, .i32⟩ : BufTy).Contents (Elt F) → (⟨S204800, .i32⟩ : BufTy).Contents (Elt F) → (⟨S204800, .i32⟩ : BufTy).Contents (Elt F)),
    StableHlo.nullary main_c_284 (constantI S_ 32 0#32),
    StableHlo.nullary main_c_285 (constantI S_ 32 217263#32),
    StableHlo.TRef.unary (.of main_c_284 : StableHlo.TRef sig ⟨S_, .i32⟩) (.of main_call83_v0 : StableHlo.TRef sig ⟨S_, .i32⟩) id,
    StableHlo.TRef.unary (.of main_call83_v0 : StableHlo.TRef sig ⟨S_, .i32⟩) (.of main_call83_v1 : StableHlo.TRef sig ⟨S204800, .i32⟩) (broadcastInDim S204800 ![] bcast_S_S204800),
    StableHlo.TRef.binary (.of main_call83_v1 : StableHlo.TRef sig ⟨S204800, .i32⟩) (.of main_v775 : StableHlo.TRef sig ⟨S204800, .i32⟩) (.of main_call83_v2 : StableHlo.TRef sig ⟨S204800, .i32⟩) maxsi,
    StableHlo.TRef.unary (.of main_c_285 : StableHlo.TRef sig ⟨S_, .i32⟩) (.of main_call83_v3 : StableHlo.TRef sig ⟨S_, .i32⟩) id,
    StableHlo.TRef.unary (.of main_call83_v3 : StableHlo.TRef sig ⟨S_, .i32⟩) (.of main_call83_v4 : StableHlo.TRef sig ⟨S204800, .i32⟩) (broadcastInDim S204800 ![] bcast_S_S204800),
    StableHlo.TRef.binary (.of main_call83_v4 : StableHlo.TRef sig ⟨S204800, .i32⟩) (.of main_call83_v2 : StableHlo.TRef sig ⟨S204800, .i32⟩) (.of main_v776 : StableHlo.TRef sig ⟨S204800, .i32⟩) minsi,
    StableHlo.nullary main_c_286 (constantI S_ 32 0#32),
    StableHlo.unary main_c_286 main_v777 (broadcastInDim S204800 ![] bcast_S_S204800 : (⟨S_, .i32⟩ : BufTy).Contents (Elt F) → (⟨S204800, .i32⟩ : BufTy).Contents (Elt F)),
    StableHlo.binary main_v776 main_v777 main_v778 (cmpi .slt : (⟨S204800, .i32⟩ : BufTy).Contents (Elt F) → (⟨S204800, .i32⟩ : BufTy).Contents (Elt F) → (⟨S204800, .i1⟩ : BufTy).Contents (Elt F)),
    StableHlo.nullary main_c_287 (constantI S_ 32 217264#32),
    StableHlo.unary main_c_287 main_v779 (broadcastInDim S204800 ![] bcast_S_S204800 : (⟨S_, .i32⟩ : BufTy).Contents (Elt F) → (⟨S204800, .i32⟩ : BufTy).Contents (Elt F)),
    StableHlo.binary main_v776 main_v779 main_v780 (addi : (⟨S204800, .i32⟩ : BufTy).Contents (Elt F) → (⟨S204800, .i32⟩ : BufTy).Contents (Elt F) → (⟨S204800, .i32⟩ : BufTy).Contents (Elt F)),
    StableHlo.ternary main_v778 main_v780 main_v776 main_v781 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v781 main_v782 (broadcastInDim S204800x1 ![0] bcast_S204800_S204800x1_0 : (⟨S204800, .i32⟩ : BufTy).Contents (Elt F) → (⟨S204800x1, .i32⟩ : BufTy).Contents (Elt F)),
    StableHlo.binary main_arg4 main_v782 main_v783 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_288 (constantI S_ 32 120000#32),
    StableHlo.TRef.unary (.of main_c_288 : StableHlo.TRef sig ⟨S_, .i32⟩) (.of main_call84_v0 : StableHlo.TRef sig ⟨S_, .i32⟩) id,
    StableHlo.TRef.unary (.of main_call84_v0 : StableHlo.TRef sig ⟨S_, .i32⟩) (.of main_call84_v1 : StableHlo.TRef sig ⟨S204800, .i32⟩) (broadcastInDim S204800 ![] bcast_S_S204800),
    StableHlo.TRef.ternary (.of main_v763 : StableHlo.TRef sig ⟨S204800, .i1⟩) (.of main_v783 : StableHlo.TRef sig ⟨S204800, .i32⟩) (.of main_call84_v1 : StableHlo.TRef sig ⟨S204800, .i32⟩) (.of main_v784 : StableHlo.TRef sig ⟨S204800, .i32⟩) select,
    StableHlo.unary main_arg0 main_v785 ((extractStridedSlice S204800x1 ![0, 17] · slices_S204800x20_S204800x1_0_17) : (⟨S204800x20, .f32⟩ : BufTy).Contents (Elt F) → (⟨S204800x1, .f32⟩ : BufTy).Contents (Elt F)),
    StableHlo.reshape main_v785 main_v786 rfl shapeCasts_S204800x1_S204800,
    StableHlo.nullary main_c_289 (constantI S_ 32 120000#32),
    StableHlo.unary main_c_289 main_v787 (broadcastInDim S204800 ![] bcast_S_S204800 : (⟨S_, .i32⟩ : BufTy).Contents (Elt F) → (⟨S204800, .i32⟩ : BufTy).Contents (Elt F)),
    StableHlo.binary main_v784 main_v787 main_v788 (cmpi .slt : (⟨S204800, .i32⟩ : BufTy).Contents (Elt F) → (⟨S204800, .i32⟩ : BufTy).Contents (Elt F) → (⟨S204800, .i1⟩ : BufTy).Contents (Elt F)) ]

/-- Window 18 of the entry function: its 73 operations, calls inlined. -/
abbrev ops18 : List (HloOp τ sig (Elt F)) :=
  [ StableHlo.nullary main_c_290 (constantI S_ 32 0#32),
    StableHlo.TRef.unary (.of main_c_290 : StableHlo.TRef sig ⟨S_, .i32⟩) (.of main_call85_v0 : StableHlo.TRef sig ⟨S_, .i32⟩) id,
    StableHlo.TRef.unary (.of main_call85_v0 : StableHlo.TRef sig ⟨S_, .i32⟩) (.of main_call85_v1 : StableHlo.TRef sig ⟨S204800, .i32⟩) (broadcastInDim S204800 ![] bcast_S_S204800),
    StableHlo.TRef.ternary (.of main_v788 : StableHlo.TRef sig ⟨S204800, .i1⟩) (.of main_v784 : StableHlo.TRef sig ⟨S204800, .i32⟩) (.of main_call85_v1 : StableHlo.TRef sig ⟨S204800, .i32⟩) (.of main_v789 : StableHlo.TRef sig ⟨S204800, .i32⟩) select,
    StableHlo.nullary main_c_291 (constantI S_ 32 1#32),
    StableHlo.unary main_c_291 main_v790 (broadcastInDim S204800 ![] bcast_S_S204800 : (⟨S_, .i32⟩ : BufTy).Contents (Elt F) → (⟨S204800, .i32⟩ : BufTy).Contents (Elt F)),
    StableHlo.binary main_v789 main_v790 main_v791 (addi : (⟨S204800, .i32⟩ : BufTy).Contents (Elt F) → (⟨S204800, .i32⟩ : BufTy).Contents (Elt F) → (⟨S204800, .i32⟩ : BufTy).Contents (Elt F)),
    StableHlo.nullary main_c_292 (constantI S_ 32 0#32),
    StableHlo.unary main_c_292 main_v792 (broadcastInDim S204800 ![] bcast_S_S204800 : (⟨S_, .i32⟩ : BufTy).Contents (Elt F) → (⟨S204800, .i32⟩ : BufTy).Contents (Elt F)),
    StableHlo.binary main_v791 main_v792 main_v793 (cmpi .slt : (⟨S204800, .i32⟩ : BufTy).Contents (Elt F) → (⟨S204800, .i32⟩ : BufTy).Contents (Elt F) → (⟨S204800, .i1⟩ : BufTy).Contents (Elt F)),
    StableHlo.nullary main_c_293 (constantI S_ 32 20001#32),
    StableHlo.unary main_c_293 main_v794 (broadcastInDim S204800 ![] bcast_S_S204800 : (⟨S_, .i32⟩ : BufTy).Contents (Elt F) → (⟨S204800, .i32⟩ : BufTy).Contents (Elt F)),
    StableHlo.binary main_v791 main_v794 main_v795 (addi : (⟨S204800, .i32⟩ : BufTy).Contents (Elt F) → (⟨S204800, .i32⟩ : BufTy).Contents (Elt F) → (⟨S204800, .i32⟩ : BufTy).Contents (Elt F)),
    StableHlo.ternary main_v793 main_v795 main_v791 main_v796 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v796 main_v797 (broadcastInDim S204800x1 ![0] bcast_S204800_S204800x1_0 : (⟨S204800, .i32⟩ : BufTy).Contents (Elt F) → (⟨S204800x1, .i32⟩ : BufTy).Contents (Elt F)),
    StableHlo.binary main_arg5 main_v797 main_v798 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_294 (constantI S_ 32 0#32),
    StableHlo.unary main_c_294 main_v799 (broadcastInDim S204800 ![] bcast_S_S204800 : (⟨S_, .i32⟩ : BufTy).Contents (Elt F) → (⟨S204800, .i32⟩ : BufTy).Contents (Elt F)),
    StableHlo.binary main_v789 main_v799 main_v800 (cmpi .slt : (⟨S204800, .i32⟩ : BufTy).Contents (Elt F) → (⟨S204800, .i32⟩ : BufTy).Contents (Elt F) → (⟨S204800, .i1⟩ : BufTy).Contents (Elt F)),
    StableHlo.nullary main_c_295 (constantI S_ 32 20001#32),
    StableHlo.unary main_c_295 main_v801 (broadcastInDim S204800 ![] bcast_S_S204800 : (⟨S_, .i32⟩ : BufTy).Contents (Elt F) → (⟨S204800, .i32⟩ : BufTy).Contents (Elt F)),
    StableHlo.binary main_v789 main_v801 main_v802 (addi : (⟨S204800, .i32⟩ : BufTy).Contents (Elt F) → (⟨S204800, .i32⟩ : BufTy).Contents (Elt F) → (⟨S204800, .i32⟩ : BufTy).Contents (Elt F)),
    StableHlo.ternary main_v800 main_v802 main_v789 main_v803 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v803 main_v804 (broadcastInDim S204800x1 ![0] bcast_S204800_S204800x1_0 : (⟨S204800, .i32⟩ : BufTy).Contents (Elt F) → (⟨S204800x1, .i32⟩ : BufTy).Contents (Elt F)),
    StableHlo.binary main_arg5 main_v804 main_v805 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v798 main_v805 main_v806 (subi : (⟨S204800, .i32⟩ : BufTy).Contents (Elt F) → (⟨S204800, .i32⟩ : BufTy).Contents (Elt F) → (⟨S204800, .i32⟩ : BufTy).Contents (Elt F)),
    StableHlo.nullary main_c_296 (constantI S_ 32 0#32),
    StableHlo.TRef.unary (.of main_c_296 : StableHlo.TRef sig ⟨S_, .i32⟩) (.of main_call86_v0 : StableHlo.TRef sig ⟨S_, .i32⟩) id,
    StableHlo.TRef.unary (.of main_call86_v0 : StableHlo.TRef sig ⟨S_, .i32⟩) (.of main_call86_v1 : StableHlo.TRef sig ⟨S204800, .i32⟩) (broadcastInDim S204800 ![] bcast_S_S204800),
    StableHlo.TRef.ternary (.of main_v788 : StableHlo.TRef sig ⟨S204800, .i1⟩) (.of main_v806 : StableHlo.TRef sig ⟨S204800, .i32⟩) (.of main_call86_v1 : StableHlo.TRef sig ⟨S204800, .i32⟩) (.of main_v807 : StableHlo.TRef sig ⟨S204800, .i32⟩) select,
    StableHlo.nullary main_c_297 (constantI S_ 32 0#32),
    StableHlo.unary main_c_297 main_v808 (broadcastInDim S204800 ![] bcast_S_S204800 : (⟨S_, .i32⟩ : BufTy).Contents (Elt F) → (⟨S204800, .i32⟩ : BufTy).Contents (Elt F)),
    StableHlo.binary main_v807 main_v808 main_v809 (cmpi .sgt : (⟨S204800, .i32⟩ : BufTy).Contents (Elt F) → (⟨S204800, .i32⟩ : BufTy).Contents (Elt F) → (⟨S204800, .i1⟩ : BufTy).Contents (Elt F)),
    StableHlo.nullary main_c_298 (constantI S_ 32 0#32),
    StableHlo.unary main_c_298 main_v810 (broadcastInDim S204800 ![] bcast_S_S204800 : (⟨S_, .i32⟩ : BufTy).Contents (Elt F) → (⟨S204800, .i32⟩ : BufTy).Contents (Elt F)),
    StableHlo.binary main_v789 main_v810 main_v811 (cmpi .slt : (⟨S204800, .i32⟩ : BufTy).Contents (Elt F) → (⟨S204800, .i32⟩ : BufTy).Contents (Elt F) → (⟨S204800, .i1⟩ : BufTy).Contents (Elt F)),
    StableHlo.nullary main_c_299 (constantI S_ 32 20001#32),
    StableHlo.unary main_c_299 main_v812 (broadcastInDim S204800 ![] bcast_S_S204800 : (⟨S_, .i32⟩ : BufTy).Contents (Elt F) → (⟨S204800, .i32⟩ : BufTy).Contents (Elt F)),
    StableHlo.binary main_v789 main_v812 main_v813 (addi : (⟨S204800, .i32⟩ : BufTy).Contents (Elt F) → (⟨S204800, .i32⟩ : BufTy).Contents (Elt F) → (⟨S204800, .i32⟩ : BufTy).Contents (Elt F)),
    StableHlo.ternary main_v811 main_v813 main_v789 main_v814 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v814 main_v815 (broadcastInDim S204800x1 ![0] bcast_S204800_S204800x1_0 : (⟨S204800, .i32⟩ : BufTy).Contents (Elt F) → (⟨S204800x1, .i32⟩ : BufTy).Contents (Elt F)),
    StableHlo.binary main_arg5 main_v815 main_v816 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_300 (constantI S_ 32 0#32),
    StableHlo.TRef.unary (.of main_c_300 : StableHlo.TRef sig ⟨S_, .i32⟩) (.of main_call87_v0 : StableHlo.TRef sig ⟨S_, .i32⟩) id,
    StableHlo.TRef.unary (.of main_call87_v0 : StableHlo.TRef sig ⟨S_, .i32⟩) (.of main_call87_v1 : StableHlo.TRef sig ⟨S204800, .i32⟩) (broadcastInDim S204800 ![] bcast_S_S204800),
    StableHlo.TRef.ternary (.of main_v809 : StableHlo.TRef sig ⟨S204800, .i1⟩) (.of main_v816 : StableHlo.TRef sig ⟨S204800, .i32⟩) (.of main_call87_v1 : StableHlo.TRef sig ⟨S204800, .i32⟩) (.of main_v817 : StableHlo.TRef sig ⟨S204800, .i32⟩) select,
    StableHlo.unary main_v807 main_v818 (sitofp .f32 : (⟨S204800, .i32⟩ : BufTy).Contents (Elt F) → (⟨S204800, .f32⟩ : BufTy).Contents (Elt F)),
    StableHlo.binary main_v786 main_v818 main_v819 (mulf : (⟨S204800, .f32⟩ : BufTy).Contents (Elt F) → (⟨S204800, .f32⟩ : BufTy).Contents (Elt F) → (⟨S204800, .f32⟩ : BufTy).Contents (Elt F)),
    StableHlo.unary main_v819 main_v820 (fptosi 32 : (⟨S204800, .f32⟩ : BufTy).Contents (Elt F) → (⟨S204800, .i32⟩ : BufTy).Contents (Elt F)),
    StableHlo.binary main_v820 main_v817 main_v821 (addi : (⟨S204800, .i32⟩ : BufTy).Contents (Elt F) → (⟨S204800, .i32⟩ : BufTy).Contents (Elt F) → (⟨S204800, .i32⟩ : BufTy).Contents (Elt F)),
    StableHlo.nullary main_c_301 (constantI S_ 32 0#32),
    StableHlo.nullary main_c_302 (constantI S_ 32 302234#32),
    StableHlo.TRef.unary (.of main_c_301 : StableHlo.TRef sig ⟨S_, .i32⟩) (.of main_call88_v0 : StableHlo.TRef sig ⟨S_, .i32⟩) id,
    StableHlo.TRef.unary (.of main_call88_v0 : StableHlo.TRef sig ⟨S_, .i32⟩) (.of main_call88_v1 : StableHlo.TRef sig ⟨S204800, .i32⟩) (broadcastInDim S204800 ![] bcast_S_S204800),
    StableHlo.TRef.binary (.of main_call88_v1 : StableHlo.TRef sig ⟨S204800, .i32⟩) (.of main_v821 : StableHlo.TRef sig ⟨S204800, .i32⟩) (.of main_call88_v2 : StableHlo.TRef sig ⟨S204800, .i32⟩) maxsi,
    StableHlo.TRef.unary (.of main_c_302 : StableHlo.TRef sig ⟨S_, .i32⟩) (.of main_call88_v3 : StableHlo.TRef sig ⟨S_, .i32⟩) id,
    StableHlo.TRef.unary (.of main_call88_v3 : StableHlo.TRef sig ⟨S_, .i32⟩) (.of main_call88_v4 : StableHlo.TRef sig ⟨S204800, .i32⟩) (broadcastInDim S204800 ![] bcast_S_S204800),
    StableHlo.TRef.binary (.of main_call88_v4 : StableHlo.TRef sig ⟨S204800, .i32⟩) (.of main_call88_v2 : StableHlo.TRef sig ⟨S204800, .i32⟩) (.of main_v822 : StableHlo.TRef sig ⟨S204800, .i32⟩) minsi,
    StableHlo.nullary main_c_303 (constantI S_ 32 0#32),
    StableHlo.unary main_c_303 main_v823 (broadcastInDim S204800 ![] bcast_S_S204800 : (⟨S_, .i32⟩ : BufTy).Contents (Elt F) → (⟨S204800, .i32⟩ : BufTy).Contents (Elt F)),
    StableHlo.binary main_v822 main_v823 main_v824 (cmpi .slt : (⟨S204800, .i32⟩ : BufTy).Contents (Elt F) → (⟨S204800, .i32⟩ : BufTy).Contents (Elt F) → (⟨S204800, .i1⟩ : BufTy).Contents (Elt F)),
    StableHlo.nullary main_c_304 (constantI S_ 32 302235#32),
    StableHlo.unary main_c_304 main_v825 (broadcastInDim S204800 ![] bcast_S_S204800 : (⟨S_, .i32⟩ : BufTy).Contents (Elt F) → (⟨S204800, .i32⟩ : BufTy).Contents (Elt F)),
    StableHlo.binary main_v822 main_v825 main_v826 (addi : (⟨S204800, .i32⟩ : BufTy).Contents (Elt F) → (⟨S204800, .i32⟩ : BufTy).Contents (Elt F) → (⟨S204800, .i32⟩ : BufTy).Contents (Elt F)),
    StableHlo.ternary main_v824 main_v826 main_v822 main_v827 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v827 main_v828 (broadcastInDim S204800x1 ![0] bcast_S204800_S204800x1_0 : (⟨S204800, .i32⟩ : BufTy).Contents (Elt F) → (⟨S204800x1, .i32⟩ : BufTy).Contents (Elt F)),
    StableHlo.binary main_arg6 main_v828 main_v829 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_305 (constantI S_ 32 120000#32),
    StableHlo.TRef.unary (.of main_c_305 : StableHlo.TRef sig ⟨S_, .i32⟩) (.of main_call89_v0 : StableHlo.TRef sig ⟨S_, .i32⟩) id,
    StableHlo.TRef.unary (.of main_call89_v0 : StableHlo.TRef sig ⟨S_, .i32⟩) (.of main_call89_v1 : StableHlo.TRef sig ⟨S204800, .i32⟩) (broadcastInDim S204800 ![] bcast_S_S204800),
    StableHlo.TRef.ternary (.of main_v809 : StableHlo.TRef sig ⟨S204800, .i1⟩) (.of main_v829 : StableHlo.TRef sig ⟨S204800, .i32⟩) (.of main_call89_v1 : StableHlo.TRef sig ⟨S204800, .i32⟩) (.of main_v830 : StableHlo.TRef sig ⟨S204800, .i32⟩) select,
    StableHlo.unary main_arg0 main_v831 ((extractStridedSlice S204800x1 ![0, 18] · slices_S204800x20_S204800x1_0_18) : (⟨S204800x20, .f32⟩ : BufTy).Contents (Elt F) → (⟨S204800x1, .f32⟩ : BufTy).Contents (Elt F)),
    StableHlo.reshape main_v831 main_v832 rfl shapeCasts_S204800x1_S204800 ]

/-- Window 19 of the entry function: its 71 operations, calls inlined. -/
abbrev ops19 : List (HloOp τ sig (Elt F)) :=
  [ StableHlo.nullary main_c_306 (constantI S_ 32 120000#32),
    StableHlo.unary main_c_306 main_v833 (broadcastInDim S204800 ![] bcast_S_S204800 : (⟨S_, .i32⟩ : BufTy).Contents (Elt F) → (⟨S204800, .i32⟩ : BufTy).Contents (Elt F)),
    StableHlo.binary main_v830 main_v833 main_v834 (cmpi .slt : (⟨S204800, .i32⟩ : BufTy).Contents (Elt F) → (⟨S204800, .i32⟩ : BufTy).Contents (Elt F) → (⟨S204800, .i1⟩ : BufTy).Contents (Elt F)),
    StableHlo.nullary main_c_307 (constantI S_ 32 0#32),
    StableHlo.TRef.unary (.of main_c_307 : StableHlo.TRef sig ⟨S_, .i32⟩) (.of main_call90_v0 : StableHlo.TRef sig ⟨S_, .i32⟩) id,
    StableHlo.TRef.unary (.of main_call90_v0 : StableHlo.TRef sig ⟨S_, .i32⟩) (.of main_call90_v1 : StableHlo.TRef sig ⟨S204800, .i32⟩) (broadcastInDim S204800 ![] bcast_S_S204800),
    StableHlo.TRef.ternary (.of main_v834 : StableHlo.TRef sig ⟨S204800, .i1⟩) (.of main_v830 : StableHlo.TRef sig ⟨S204800, .i32⟩) (.of main_call90_v1 : StableHlo.TRef sig ⟨S204800, .i32⟩) (.of main_v835 : StableHlo.TRef sig ⟨S204800, .i32⟩) select,
    StableHlo.nullary main_c_308 (constantI S_ 32 1#32),
    StableHlo.unary main_c_308 main_v836 (broadcastInDim S204800 ![] bcast_S_S204800 : (⟨S_, .i32⟩ : BufTy).Contents (Elt F) → (⟨S204800, .i32⟩ : BufTy).Contents (Elt F)),
    StableHlo.binary main_v835 main_v836 main_v837 (addi : (⟨S204800, .i32⟩ : BufTy).Contents (Elt F) → (⟨S204800, .i32⟩ : BufTy).Contents (Elt F) → (⟨S204800, .i32⟩ : BufTy).Contents (Elt F)),
    StableHlo.nullary main_c_309 (constantI S_ 32 0#32),
    StableHlo.unary main_c_309 main_v838 (broadcastInDim S204800 ![] bcast_S_S204800 : (⟨S_, .i32⟩ : BufTy).Contents (Elt F) → (⟨S204800, .i32⟩ : BufTy).Contents (Elt F)),
    StableHlo.binary main_v837 main_v838 main_v839 (cmpi .slt : (⟨S204800, .i32⟩ : BufTy).Contents (Elt F) → (⟨S204800, .i32⟩ : BufTy).Contents (Elt F) → (⟨S204800, .i1⟩ : BufTy).Contents (Elt F)),
    StableHlo.nullary main_c_310 (constantI S_ 32 3551#32),
    StableHlo.unary main_c_310 main_v840 (broadcastInDim S204800 ![] bcast_S_S204800 : (⟨S_, .i32⟩ : BufTy).Contents (Elt F) → (⟨S204800, .i32⟩ : BufTy).Contents (Elt F)),
    StableHlo.binary main_v837 main_v840 main_v841 (addi : (⟨S204800, .i32⟩ : BufTy).Contents (Elt F) → (⟨S204800, .i32⟩ : BufTy).Contents (Elt F) → (⟨S204800, .i32⟩ : BufTy).Contents (Elt F)),
    StableHlo.ternary main_v839 main_v841 main_v837 main_v842 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v842 main_v843 (broadcastInDim S204800x1 ![0] bcast_S204800_S204800x1_0 : (⟨S204800, .i32⟩ : BufTy).Contents (Elt F) → (⟨S204800x1, .i32⟩ : BufTy).Contents (Elt F)),
    StableHlo.binary main_arg3 main_v843 main_v844 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_311 (constantI S_ 32 0#32),
    StableHlo.unary main_c_311 main_v845 (broadcastInDim S204800 ![] bcast_S_S204800 : (⟨S_, .i32⟩ : BufTy).Contents (Elt F) → (⟨S204800, .i32⟩ : BufTy).Contents (Elt F)),
    StableHlo.binary main_v835 main_v845 main_v846 (cmpi .slt : (⟨S204800, .i32⟩ : BufTy).Contents (Elt F) → (⟨S204800, .i32⟩ : BufTy).Contents (Elt F) → (⟨S204800, .i1⟩ : BufTy).Contents (Elt F)),
    StableHlo.nullary main_c_312 (constantI S_ 32 3551#32),
    StableHlo.unary main_c_312 main_v847 (broadcastInDim S204800 ![] bcast_S_S204800 : (⟨S_, .i32⟩ : BufTy).Contents (Elt F) → (⟨S204800, .i32⟩ : BufTy).Contents (Elt F)),
    StableHlo.binary main_v835 main_v847 main_v848 (addi : (⟨S204800, .i32⟩ : BufTy).Contents (Elt F) → (⟨S204800, .i32⟩ : BufTy).Contents (Elt F) → (⟨S204800, .i32⟩ : BufTy).Contents (Elt F)),
    StableHlo.ternary main_v846 main_v848 main_v835 main_v849 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v849 main_v850 (broadcastInDim S204800x1 ![0] bcast_S204800_S204800x1_0 : (⟨S204800, .i32⟩ : BufTy).Contents (Elt F) → (⟨S204800x1, .i32⟩ : BufTy).Contents (Elt F)),
    StableHlo.binary main_arg3 main_v850 main_v851 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.binary main_v844 main_v851 main_v852 (subi : (⟨S204800, .i32⟩ : BufTy).Contents (Elt F) → (⟨S204800, .i32⟩ : BufTy).Contents (Elt F) → (⟨S204800, .i32⟩ : BufTy).Contents (Elt F)),
    StableHlo.nullary main_c_313 (constantI S_ 32 0#32),
    StableHlo.TRef.unary (.of main_c_313 : StableHlo.TRef sig ⟨S_, .i32⟩) (.of main_call91_v0 : StableHlo.TRef sig ⟨S_, .i32⟩) id,
    StableHlo.TRef.unary (.of main_call91_v0 : StableHlo.TRef sig ⟨S_, .i32⟩) (.of main_call91_v1 : StableHlo.TRef sig ⟨S204800, .i32⟩) (broadcastInDim S204800 ![] bcast_S_S204800),
    StableHlo.TRef.ternary (.of main_v834 : StableHlo.TRef sig ⟨S204800, .i1⟩) (.of main_v852 : StableHlo.TRef sig ⟨S204800, .i32⟩) (.of main_call91_v1 : StableHlo.TRef sig ⟨S204800, .i32⟩) (.of main_v853 : StableHlo.TRef sig ⟨S204800, .i32⟩) select,
    StableHlo.nullary main_c_314 (constantI S_ 32 0#32),
    StableHlo.unary main_c_314 main_v854 (broadcastInDim S204800 ![] bcast_S_S204800 : (⟨S_, .i32⟩ : BufTy).Contents (Elt F) → (⟨S204800, .i32⟩ : BufTy).Contents (Elt F)),
    StableHlo.binary main_v853 main_v854 main_v855 (cmpi .sgt : (⟨S204800, .i32⟩ : BufTy).Contents (Elt F) → (⟨S204800, .i32⟩ : BufTy).Contents (Elt F) → (⟨S204800, .i1⟩ : BufTy).Contents (Elt F)),
    StableHlo.nullary main_c_315 (constantI S_ 32 0#32),
    StableHlo.unary main_c_315 main_v856 (broadcastInDim S204800 ![] bcast_S_S204800 : (⟨S_, .i32⟩ : BufTy).Contents (Elt F) → (⟨S204800, .i32⟩ : BufTy).Contents (Elt F)),
    StableHlo.binary main_v835 main_v856 main_v857 (cmpi .slt : (⟨S204800, .i32⟩ : BufTy).Contents (Elt F) → (⟨S204800, .i32⟩ : BufTy).Contents (Elt F) → (⟨S204800, .i1⟩ : BufTy).Contents (Elt F)),
    StableHlo.nullary main_c_316 (constantI S_ 32 3551#32),
    StableHlo.unary main_c_316 main_v858 (broadcastInDim S204800 ![] bcast_S_S204800 : (⟨S_, .i32⟩ : BufTy).Contents (Elt F) → (⟨S204800, .i32⟩ : BufTy).Contents (Elt F)),
    StableHlo.binary main_v835 main_v858 main_v859 (addi : (⟨S204800, .i32⟩ : BufTy).Contents (Elt F) → (⟨S204800, .i32⟩ : BufTy).Contents (Elt F) → (⟨S204800, .i32⟩ : BufTy).Contents (Elt F)),
    StableHlo.ternary main_v857 main_v859 main_v835 main_v860 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v860 main_v861 (broadcastInDim S204800x1 ![0] bcast_S204800_S204800x1_0 : (⟨S204800, .i32⟩ : BufTy).Contents (Elt F) → (⟨S204800x1, .i32⟩ : BufTy).Contents (Elt F)),
    StableHlo.binary main_arg3 main_v861 main_v862 ((fun x i => Host.gather gather_S3551_S204800x1_S204800_n_0_n_n_0_1_1 x i) : (⟨S3551, .i32⟩ : BufTy).Contents (Elt F) → (⟨S204800x1, .i32⟩ : BufTy).Contents (Elt F) → (⟨S204800, .i32⟩ : BufTy).Contents (Elt F)),
    StableHlo.nullary main_c_317 (constantI S_ 32 0#32),
    StableHlo.TRef.unary (.of main_c_317 : StableHlo.TRef sig ⟨S_, .i32⟩) (.of main_call92_v0 : StableHlo.TRef sig ⟨S_, .i32⟩) id,
    StableHlo.TRef.unary (.of main_call92_v0 : StableHlo.TRef sig ⟨S_, .i32⟩) (.of main_call92_v1 : StableHlo.TRef sig ⟨S204800, .i32⟩) (broadcastInDim S204800 ![] bcast_S_S204800),
    StableHlo.TRef.ternary (.of main_v855 : StableHlo.TRef sig ⟨S204800, .i1⟩) (.of main_v862 : StableHlo.TRef sig ⟨S204800, .i32⟩) (.of main_call92_v1 : StableHlo.TRef sig ⟨S204800, .i32⟩) (.of main_v863 : StableHlo.TRef sig ⟨S204800, .i32⟩) select,
    StableHlo.unary main_v853 main_v864 (sitofp .f32 : (⟨S204800, .i32⟩ : BufTy).Contents (Elt F) → (⟨S204800, .f32⟩ : BufTy).Contents (Elt F)),
    StableHlo.binary main_v832 main_v864 main_v865 (mulf : (⟨S204800, .f32⟩ : BufTy).Contents (Elt F) → (⟨S204800, .f32⟩ : BufTy).Contents (Elt F) → (⟨S204800, .f32⟩ : BufTy).Contents (Elt F)),
    StableHlo.unary main_v865 main_v866 (fptosi 32 : (⟨S204800, .f32⟩ : BufTy).Contents (Elt F) → (⟨S204800, .i32⟩ : BufTy).Contents (Elt F)),
    StableHlo.binary main_v866 main_v863 main_v867 (addi : (⟨S204800, .i32⟩ : BufTy).Contents (Elt F) → (⟨S204800, .i32⟩ : BufTy).Contents (Elt F) → (⟨S204800, .i32⟩ : BufTy).Contents (Elt F)),
    StableHlo.nullary main_c_318 (constantI S_ 32 0#32),
    StableHlo.nullary main_c_319 (constantI S_ 32 217263#32),
    StableHlo.TRef.unary (.of main_c_318 : StableHlo.TRef sig ⟨S_, .i32⟩) (.of main_call93_v0 : StableHlo.TRef sig ⟨S_, .i32⟩) id,
    StableHlo.TRef.unary (.of main_call93_v0 : StableHlo.TRef sig ⟨S_, .i32⟩) (.of main_call93_v1 : StableHlo.TRef sig ⟨S204800, .i32⟩) (broadcastInDim S204800 ![] bcast_S_S204800),
    StableHlo.TRef.binary (.of main_call93_v1 : StableHlo.TRef sig ⟨S204800, .i32⟩) (.of main_v867 : StableHlo.TRef sig ⟨S204800, .i32⟩) (.of main_call93_v2 : StableHlo.TRef sig ⟨S204800, .i32⟩) maxsi,
    StableHlo.TRef.unary (.of main_c_319 : StableHlo.TRef sig ⟨S_, .i32⟩) (.of main_call93_v3 : StableHlo.TRef sig ⟨S_, .i32⟩) id,
    StableHlo.TRef.unary (.of main_call93_v3 : StableHlo.TRef sig ⟨S_, .i32⟩) (.of main_call93_v4 : StableHlo.TRef sig ⟨S204800, .i32⟩) (broadcastInDim S204800 ![] bcast_S_S204800),
    StableHlo.TRef.binary (.of main_call93_v4 : StableHlo.TRef sig ⟨S204800, .i32⟩) (.of main_call93_v2 : StableHlo.TRef sig ⟨S204800, .i32⟩) (.of main_v868 : StableHlo.TRef sig ⟨S204800, .i32⟩) minsi,
    StableHlo.nullary main_c_320 (constantI S_ 32 0#32),
    StableHlo.unary main_c_320 main_v869 (broadcastInDim S204800 ![] bcast_S_S204800 : (⟨S_, .i32⟩ : BufTy).Contents (Elt F) → (⟨S204800, .i32⟩ : BufTy).Contents (Elt F)),
    StableHlo.binary main_v868 main_v869 main_v870 (cmpi .slt : (⟨S204800, .i32⟩ : BufTy).Contents (Elt F) → (⟨S204800, .i32⟩ : BufTy).Contents (Elt F) → (⟨S204800, .i1⟩ : BufTy).Contents (Elt F)),
    StableHlo.nullary main_c_321 (constantI S_ 32 217264#32),
    StableHlo.unary main_c_321 main_v871 (broadcastInDim S204800 ![] bcast_S_S204800 : (⟨S_, .i32⟩ : BufTy).Contents (Elt F) → (⟨S204800, .i32⟩ : BufTy).Contents (Elt F)),
    StableHlo.binary main_v868 main_v871 main_v872 (addi : (⟨S204800, .i32⟩ : BufTy).Contents (Elt F) → (⟨S204800, .i32⟩ : BufTy).Contents (Elt F) → (⟨S204800, .i32⟩ : BufTy).Contents (Elt F)),
    StableHlo.ternary main_v870 main_v872 main_v868 main_v873 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v873 main_v874 (broadcastInDim S204800x1 ![0] bcast_S204800_S204800x1_0 : (⟨S204800, .i32⟩ : BufTy).Contents (Elt F) → (⟨S204800x1, .i32⟩ : BufTy).Contents (Elt F)),
    StableHlo.binary main_arg4 main_v874 main_v875 ((fun x i => Host.gather gather_S217264_S204800x1_S204800_n_0_n_n_0_1_1 x i) : (⟨S217264, .i32⟩ : BufTy).Contents (Elt F) → (⟨S204800x1, .i32⟩ : BufTy).Contents (Elt F) → (⟨S204800, .i32⟩ : BufTy).Contents (Elt F)),
    StableHlo.nullary main_c_322 (constantI S_ 32 120000#32) ]

/-- Window 20 of the entry function: its 73 operations, calls inlined. -/
abbrev ops20 : List (HloOp τ sig (Elt F)) :=
  [ StableHlo.TRef.unary (.of main_c_322 : StableHlo.TRef sig ⟨S_, .i32⟩) (.of main_call94_v0 : StableHlo.TRef sig ⟨S_, .i32⟩) id,
    StableHlo.TRef.unary (.of main_call94_v0 : StableHlo.TRef sig ⟨S_, .i32⟩) (.of main_call94_v1 : StableHlo.TRef sig ⟨S204800, .i32⟩) (broadcastInDim S204800 ![] bcast_S_S204800),
    StableHlo.TRef.ternary (.of main_v855 : StableHlo.TRef sig ⟨S204800, .i1⟩) (.of main_v875 : StableHlo.TRef sig ⟨S204800, .i32⟩) (.of main_call94_v1 : StableHlo.TRef sig ⟨S204800, .i32⟩) (.of main_v876 : StableHlo.TRef sig ⟨S204800, .i32⟩) select,
    StableHlo.unary main_arg0 main_v877 ((extractStridedSlice S204800x1 ![0, 19] · slices_S204800x20_S204800x1_0_19) : (⟨S204800x20, .f32⟩ : BufTy).Contents (Elt F) → (⟨S204800x1, .f32⟩ : BufTy).Contents (Elt F)),
    StableHlo.reshape main_v877 main_v878 rfl shapeCasts_S204800x1_S204800,
    StableHlo.nullary main_c_323 (constantI S_ 32 120000#32),
    StableHlo.unary main_c_323 main_v879 (broadcastInDim S204800 ![] bcast_S_S204800 : (⟨S_, .i32⟩ : BufTy).Contents (Elt F) → (⟨S204800, .i32⟩ : BufTy).Contents (Elt F)),
    StableHlo.binary main_v876 main_v879 main_v880 (cmpi .slt : (⟨S204800, .i32⟩ : BufTy).Contents (Elt F) → (⟨S204800, .i32⟩ : BufTy).Contents (Elt F) → (⟨S204800, .i1⟩ : BufTy).Contents (Elt F)),
    StableHlo.nullary main_c_324 (constantI S_ 32 0#32),
    StableHlo.TRef.unary (.of main_c_324 : StableHlo.TRef sig ⟨S_, .i32⟩) (.of main_call95_v0 : StableHlo.TRef sig ⟨S_, .i32⟩) id,
    StableHlo.TRef.unary (.of main_call95_v0 : StableHlo.TRef sig ⟨S_, .i32⟩) (.of main_call95_v1 : StableHlo.TRef sig ⟨S204800, .i32⟩) (broadcastInDim S204800 ![] bcast_S_S204800),
    StableHlo.TRef.ternary (.of main_v880 : StableHlo.TRef sig ⟨S204800, .i1⟩) (.of main_v876 : StableHlo.TRef sig ⟨S204800, .i32⟩) (.of main_call95_v1 : StableHlo.TRef sig ⟨S204800, .i32⟩) (.of main_v881 : StableHlo.TRef sig ⟨S204800, .i32⟩) select,
    StableHlo.nullary main_c_325 (constantI S_ 32 1#32),
    StableHlo.unary main_c_325 main_v882 (broadcastInDim S204800 ![] bcast_S_S204800 : (⟨S_, .i32⟩ : BufTy).Contents (Elt F) → (⟨S204800, .i32⟩ : BufTy).Contents (Elt F)),
    StableHlo.binary main_v881 main_v882 main_v883 (addi : (⟨S204800, .i32⟩ : BufTy).Contents (Elt F) → (⟨S204800, .i32⟩ : BufTy).Contents (Elt F) → (⟨S204800, .i32⟩ : BufTy).Contents (Elt F)),
    StableHlo.nullary main_c_326 (constantI S_ 32 0#32),
    StableHlo.unary main_c_326 main_v884 (broadcastInDim S204800 ![] bcast_S_S204800 : (⟨S_, .i32⟩ : BufTy).Contents (Elt F) → (⟨S204800, .i32⟩ : BufTy).Contents (Elt F)),
    StableHlo.binary main_v883 main_v884 main_v885 (cmpi .slt : (⟨S204800, .i32⟩ : BufTy).Contents (Elt F) → (⟨S204800, .i32⟩ : BufTy).Contents (Elt F) → (⟨S204800, .i1⟩ : BufTy).Contents (Elt F)),
    StableHlo.nullary main_c_327 (constantI S_ 32 20001#32),
    StableHlo.unary main_c_327 main_v886 (broadcastInDim S204800 ![] bcast_S_S204800 : (⟨S_, .i32⟩ : BufTy).Contents (Elt F) → (⟨S204800, .i32⟩ : BufTy).Contents (Elt F)),
    StableHlo.binary main_v883 main_v886 main_v887 (addi : (⟨S204800, .i32⟩ : BufTy).Contents (Elt F) → (⟨S204800, .i32⟩ : BufTy).Contents (Elt F) → (⟨S204800, .i32⟩ : BufTy).Contents (Elt F)),
    StableHlo.ternary main_v885 main_v887 main_v883 main_v888 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v888 main_v889 (broadcastInDim S204800x1 ![0] bcast_S204800_S204800x1_0 : (⟨S204800, .i32⟩ : BufTy).Contents (Elt F) → (⟨S204800x1, .i32⟩ : BufTy).Contents (Elt F)),
    StableHlo.binary main_arg5 main_v889 main_v890 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_328 (constantI S_ 32 0#32),
    StableHlo.unary main_c_328 main_v891 (broadcastInDim S204800 ![] bcast_S_S204800 : (⟨S_, .i32⟩ : BufTy).Contents (Elt F) → (⟨S204800, .i32⟩ : BufTy).Contents (Elt F)),
    StableHlo.binary main_v881 main_v891 main_v892 (cmpi .slt : (⟨S204800, .i32⟩ : BufTy).Contents (Elt F) → (⟨S204800, .i32⟩ : BufTy).Contents (Elt F) → (⟨S204800, .i1⟩ : BufTy).Contents (Elt F)),
    StableHlo.nullary main_c_329 (constantI S_ 32 20001#32),
    StableHlo.unary main_c_329 main_v893 (broadcastInDim S204800 ![] bcast_S_S204800 : (⟨S_, .i32⟩ : BufTy).Contents (Elt F) → (⟨S204800, .i32⟩ : BufTy).Contents (Elt F)),
    StableHlo.binary main_v881 main_v893 main_v894 (addi : (⟨S204800, .i32⟩ : BufTy).Contents (Elt F) → (⟨S204800, .i32⟩ : BufTy).Contents (Elt F) → (⟨S204800, .i32⟩ : BufTy).Contents (Elt F)),
    StableHlo.ternary main_v892 main_v894 main_v881 main_v895 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v895 main_v896 (broadcastInDim S204800x1 ![0] bcast_S204800_S204800x1_0 : (⟨S204800, .i32⟩ : BufTy).Contents (Elt F) → (⟨S204800x1, .i32⟩ : BufTy).Contents (Elt F)),
    StableHlo.binary main_arg5 main_v896 main_v897 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.binary main_v890 main_v897 main_v898 (subi : (⟨S204800, .i32⟩ : BufTy).Contents (Elt F) → (⟨S204800, .i32⟩ : BufTy).Contents (Elt F) → (⟨S204800, .i32⟩ : BufTy).Contents (Elt F)),
    StableHlo.nullary main_c_330 (constantI S_ 32 0#32),
    StableHlo.TRef.unary (.of main_c_330 : StableHlo.TRef sig ⟨S_, .i32⟩) (.of main_call96_v0 : StableHlo.TRef sig ⟨S_, .i32⟩) id,
    StableHlo.TRef.unary (.of main_call96_v0 : StableHlo.TRef sig ⟨S_, .i32⟩) (.of main_call96_v1 : StableHlo.TRef sig ⟨S204800, .i32⟩) (broadcastInDim S204800 ![] bcast_S_S204800),
    StableHlo.TRef.ternary (.of main_v880 : StableHlo.TRef sig ⟨S204800, .i1⟩) (.of main_v898 : StableHlo.TRef sig ⟨S204800, .i32⟩) (.of main_call96_v1 : StableHlo.TRef sig ⟨S204800, .i32⟩) (.of main_v899 : StableHlo.TRef sig ⟨S204800, .i32⟩) select,
    StableHlo.nullary main_c_331 (constantI S_ 32 0#32),
    StableHlo.unary main_c_331 main_v900 (broadcastInDim S204800 ![] bcast_S_S204800 : (⟨S_, .i32⟩ : BufTy).Contents (Elt F) → (⟨S204800, .i32⟩ : BufTy).Contents (Elt F)),
    StableHlo.binary main_v899 main_v900 main_v901 (cmpi .sgt : (⟨S204800, .i32⟩ : BufTy).Contents (Elt F) → (⟨S204800, .i32⟩ : BufTy).Contents (Elt F) → (⟨S204800, .i1⟩ : BufTy).Contents (Elt F)),
    StableHlo.nullary main_c_332 (constantI S_ 32 0#32),
    StableHlo.unary main_c_332 main_v902 (broadcastInDim S204800 ![] bcast_S_S204800 : (⟨S_, .i32⟩ : BufTy).Contents (Elt F) → (⟨S204800, .i32⟩ : BufTy).Contents (Elt F)),
    StableHlo.binary main_v881 main_v902 main_v903 (cmpi .slt : (⟨S204800, .i32⟩ : BufTy).Contents (Elt F) → (⟨S204800, .i32⟩ : BufTy).Contents (Elt F) → (⟨S204800, .i1⟩ : BufTy).Contents (Elt F)),
    StableHlo.nullary main_c_333 (constantI S_ 32 20001#32),
    StableHlo.unary main_c_333 main_v904 (broadcastInDim S204800 ![] bcast_S_S204800 : (⟨S_, .i32⟩ : BufTy).Contents (Elt F) → (⟨S204800, .i32⟩ : BufTy).Contents (Elt F)),
    StableHlo.binary main_v881 main_v904 main_v905 (addi : (⟨S204800, .i32⟩ : BufTy).Contents (Elt F) → (⟨S204800, .i32⟩ : BufTy).Contents (Elt F) → (⟨S204800, .i32⟩ : BufTy).Contents (Elt F)),
    StableHlo.ternary main_v903 main_v905 main_v881 main_v906 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)),
    StableHlo.unary main_v906 main_v907 (broadcastInDim S204800x1 ![0] bcast_S204800_S204800x1_0 : (⟨S204800, .i32⟩ : BufTy).Contents (Elt F) → (⟨S204800x1, .i32⟩ : BufTy).Contents (Elt F)),
    StableHlo.binary main_arg5 main_v907 main_v908 ((fun x i => Host.gather gather_S20001_S204800x1_S204800_n_0_n_n_0_1_1 x i) : (⟨S20001, .i32⟩ : BufTy).Contents (Elt F) → (⟨S204800x1, .i32⟩ : BufTy).Contents (Elt F) → (⟨S204800, .i32⟩ : BufTy).Contents (Elt F)),
    StableHlo.nullary main_c_334 (constantI S_ 32 0#32),
    StableHlo.TRef.unary (.of main_c_334 : StableHlo.TRef sig ⟨S_, .i32⟩) (.of main_call97_v0 : StableHlo.TRef sig ⟨S_, .i32⟩) id,
    StableHlo.TRef.unary (.of main_call97_v0 : StableHlo.TRef sig ⟨S_, .i32⟩) (.of main_call97_v1 : StableHlo.TRef sig ⟨S204800, .i32⟩) (broadcastInDim S204800 ![] bcast_S_S204800),
    StableHlo.TRef.ternary (.of main_v901 : StableHlo.TRef sig ⟨S204800, .i1⟩) (.of main_v908 : StableHlo.TRef sig ⟨S204800, .i32⟩) (.of main_call97_v1 : StableHlo.TRef sig ⟨S204800, .i32⟩) (.of main_v909 : StableHlo.TRef sig ⟨S204800, .i32⟩) select,
    StableHlo.unary main_v899 main_v910 (sitofp .f32 : (⟨S204800, .i32⟩ : BufTy).Contents (Elt F) → (⟨S204800, .f32⟩ : BufTy).Contents (Elt F)),
    StableHlo.binary main_v878 main_v910 main_v911 (mulf : (⟨S204800, .f32⟩ : BufTy).Contents (Elt F) → (⟨S204800, .f32⟩ : BufTy).Contents (Elt F) → (⟨S204800, .f32⟩ : BufTy).Contents (Elt F)),
    StableHlo.unary main_v911 main_v912 (fptosi 32 : (⟨S204800, .f32⟩ : BufTy).Contents (Elt F) → (⟨S204800, .i32⟩ : BufTy).Contents (Elt F)),
    StableHlo.binary main_v912 main_v909 main_v913 (addi : (⟨S204800, .i32⟩ : BufTy).Contents (Elt F) → (⟨S204800, .i32⟩ : BufTy).Contents (Elt F) → (⟨S204800, .i32⟩ : BufTy).Contents (Elt F)),
    StableHlo.nullary main_c_335 (constantI S_ 32 0#32),
    StableHlo.nullary main_c_336 (constantI S_ 32 302234#32),
    StableHlo.TRef.unary (.of main_c_335 : StableHlo.TRef sig ⟨S_, .i32⟩) (.of main_call98_v0 : StableHlo.TRef sig ⟨S_, .i32⟩) id,
    StableHlo.TRef.unary (.of main_call98_v0 : StableHlo.TRef sig ⟨S_, .i32⟩) (.of main_call98_v1 : StableHlo.TRef sig ⟨S204800, .i32⟩) (broadcastInDim S204800 ![] bcast_S_S204800),
    StableHlo.TRef.binary (.of main_call98_v1 : StableHlo.TRef sig ⟨S204800, .i32⟩) (.of main_v913 : StableHlo.TRef sig ⟨S204800, .i32⟩) (.of main_call98_v2 : StableHlo.TRef sig ⟨S204800, .i32⟩) maxsi,
    StableHlo.TRef.unary (.of main_c_336 : StableHlo.TRef sig ⟨S_, .i32⟩) (.of main_call98_v3 : StableHlo.TRef sig ⟨S_, .i32⟩) id,
    StableHlo.TRef.unary (.of main_call98_v3 : StableHlo.TRef sig ⟨S_, .i32⟩) (.of main_call98_v4 : StableHlo.TRef sig ⟨S204800, .i32⟩) (broadcastInDim S204800 ![] bcast_S_S204800),
    StableHlo.TRef.binary (.of main_call98_v4 : StableHlo.TRef sig ⟨S204800, .i32⟩) (.of main_call98_v2 : StableHlo.TRef sig ⟨S204800, .i32⟩) (.of main_v914 : StableHlo.TRef sig ⟨S204800, .i32⟩) minsi,
    StableHlo.nullary main_c_337 (constantI S_ 32 0#32),
    StableHlo.unary main_c_337 main_v915 (broadcastInDim S204800 ![] bcast_S_S204800 : (⟨S_, .i32⟩ : BufTy).Contents (Elt F) → (⟨S204800, .i32⟩ : BufTy).Contents (Elt F)),
    StableHlo.binary main_v914 main_v915 main_v916 (cmpi .slt : (⟨S204800, .i32⟩ : BufTy).Contents (Elt F) → (⟨S204800, .i32⟩ : BufTy).Contents (Elt F) → (⟨S204800, .i1⟩ : BufTy).Contents (Elt F)),
    StableHlo.nullary main_c_338 (constantI S_ 32 302235#32),
    StableHlo.unary main_c_338 main_v917 (broadcastInDim S204800 ![] bcast_S_S204800 : (⟨S_, .i32⟩ : BufTy).Contents (Elt F) → (⟨S204800, .i32⟩ : BufTy).Contents (Elt F)),
    StableHlo.binary main_v914 main_v917 main_v918 (addi : (⟨S204800, .i32⟩ : BufTy).Contents (Elt F) → (⟨S204800, .i32⟩ : BufTy).Contents (Elt F) → (⟨S204800, .i32⟩ : BufTy).Contents (Elt F)),
    StableHlo.ternary main_v916 main_v918 main_v914 main_v919 (select : (⟨S204800, .i1⟩ : BufTy).Contents (Elt F) → (⟨S204800, .i32⟩ : BufTy).Contents (Elt F) → (⟨S204800, .i32⟩ : BufTy).Contents (Elt F) → (⟨S204800, .i32⟩ : BufTy).Contents (Elt F)) ]

/-- Window 21 of the entry function: its 64 operations, calls inlined. -/
abbrev ops21 : List (HloOp τ sig (Elt F)) :=
  [ StableHlo.unary main_v919 main_v920 (broadcastInDim S204800x1 ![0] bcast_S204800_S204800x1_0 : (⟨S204800, .i32⟩ : BufTy).Contents (Elt F) → (⟨S204800x1, .i32⟩ : BufTy).Contents (Elt F)),
    StableHlo.binary main_arg6 main_v920 main_v921 ((fun x i => Host.gather gather_S302235_S204800x1_S204800_n_0_n_n_0_1_1 x i) : (⟨S302235, .i32⟩ : BufTy).Contents (Elt F) → (⟨S204800x1, .i32⟩ : BufTy).Contents (Elt F) → (⟨S204800, .i32⟩ : BufTy).Contents (Elt F)),
    StableHlo.nullary main_c_339 (constantI S_ 32 120000#32),
    StableHlo.TRef.unary (.of main_c_339 : StableHlo.TRef sig ⟨S_, .i32⟩) (.of main_call99_v0 : StableHlo.TRef sig ⟨S_, .i32⟩) id,
    StableHlo.TRef.unary (.of main_call99_v0 : StableHlo.TRef sig ⟨S_, .i32⟩) (.of main_call99_v1 : StableHlo.TRef sig ⟨S204800, .i32⟩) (broadcastInDim S204800 ![] bcast_S_S204800),
    StableHlo.TRef.ternary (.of main_v901 : StableHlo.TRef sig ⟨S204800, .i1⟩) (.of main_v921 : StableHlo.TRef sig ⟨S204800, .i32⟩) (.of main_call99_v1 : StableHlo.TRef sig ⟨S204800, .i32⟩) (.of main_v922 : StableHlo.TRef sig ⟨S204800, .i32⟩) select,
    StableHlo.unary main_v2 main_v923 (broadcastInDim S204800x1 ![0] bcast_S204800_S204800x1_0 : (⟨S204800, .i32⟩ : BufTy).Contents (Elt F) → (⟨S204800x1, .i32⟩ : BufTy).Contents (Elt F)),
    StableHlo.unary main_v48 main_v924 (broadcastInDim S204800x1 ![0] bcast_S204800_S204800x1_0 : (⟨S204800, .i32⟩ : BufTy).Contents (Elt F) → (⟨S204800x1, .i32⟩ : BufTy).Contents (Elt F)),
    StableHlo.unary main_v94 main_v925 (broadcastInDim S204800x1 ![0] bcast_S204800_S204800x1_0 : (⟨S204800, .i32⟩ : BufTy).Contents (Elt F) → (⟨S204800x1, .i32⟩ : BufTy).Contents (Elt F)),
    StableHlo.unary main_v140 main_v926 (broadcastInDim S204800x1 ![0] bcast_S204800_S204800x1_0 : (⟨S204800, .i32⟩ : BufTy).Contents (Elt F) → (⟨S204800x1, .i32⟩ : BufTy).Contents (Elt F)),
    StableHlo.unary main_v186 main_v927 (broadcastInDim S204800x1 ![0] bcast_S204800_S204800x1_0 : (⟨S204800, .i32⟩ : BufTy).Contents (Elt F) → (⟨S204800x1, .i32⟩ : BufTy).Contents (Elt F)),
    StableHlo.unary main_v232 main_v928 (broadcastInDim S204800x1 ![0] bcast_S204800_S204800x1_0 : (⟨S204800, .i32⟩ : BufTy).Contents (Elt F) → (⟨S204800x1, .i32⟩ : BufTy).Contents (Elt F)),
    StableHlo.unary main_v278 main_v929 (broadcastInDim S204800x1 ![0] bcast_S204800_S204800x1_0 : (⟨S204800, .i32⟩ : BufTy).Contents (Elt F) → (⟨S204800x1, .i32⟩ : BufTy).Contents (Elt F)),
    StableHlo.unary main_v324 main_v930 (broadcastInDim S204800x1 ![0] bcast_S204800_S204800x1_0 : (⟨S204800, .i32⟩ : BufTy).Contents (Elt F) → (⟨S204800x1, .i32⟩ : BufTy).Contents (Elt F)),
    StableHlo.unary main_v370 main_v931 (broadcastInDim S204800x1 ![0] bcast_S204800_S204800x1_0 : (⟨S204800, .i32⟩ : BufTy).Contents (Elt F) → (⟨S204800x1, .i32⟩ : BufTy).Contents (Elt F)),
    StableHlo.unary main_v416 main_v932 (broadcastInDim S204800x1 ![0] bcast_S204800_S204800x1_0 : (⟨S204800, .i32⟩ : BufTy).Contents (Elt F) → (⟨S204800x1, .i32⟩ : BufTy).Contents (Elt F)),
    StableHlo.unary main_v462 main_v933 (broadcastInDim S204800x1 ![0] bcast_S204800_S204800x1_0 : (⟨S204800, .i32⟩ : BufTy).Contents (Elt F) → (⟨S204800x1, .i32⟩ : BufTy).Contents (Elt F)),
    StableHlo.unary main_v508 main_v934 (broadcastInDim S204800x1 ![0] bcast_S204800_S204800x1_0 : (⟨S204800, .i32⟩ : BufTy).Contents (Elt F) → (⟨S204800x1, .i32⟩ : BufTy).Contents (Elt F)),
    StableHlo.unary main_v554 main_v935 (broadcastInDim S204800x1 ![0] bcast_S204800_S204800x1_0 : (⟨S204800, .i32⟩ : BufTy).Contents (Elt F) → (⟨S204800x1, .i32⟩ : BufTy).Contents (Elt F)),
    StableHlo.unary main_v600 main_v936 (broadcastInDim S204800x1 ![0] bcast_S204800_S204800x1_0 : (⟨S204800, .i32⟩ : BufTy).Contents (Elt F) → (⟨S204800x1, .i32⟩ : BufTy).Contents (Elt F)),
    StableHlo.unary main_v646 main_v937 (broadcastInDim S204800x1 ![0] bcast_S204800_S204800x1_0 : (⟨S204800, .i32⟩ : BufTy).Contents (Elt F) → (⟨S204800x1, .i32⟩ : BufTy).Contents (Elt F)),
    StableHlo.unary main_v692 main_v938 (broadcastInDim S204800x1 ![0] bcast_S204800_S204800x1_0 : (⟨S204800, .i32⟩ : BufTy).Contents (Elt F) → (⟨S204800x1, .i32⟩ : BufTy).Contents (Elt F)),
    StableHlo.unary main_v738 main_v939 (broadcastInDim S204800x1 ![0] bcast_S204800_S204800x1_0 : (⟨S204800, .i32⟩ : BufTy).Contents (Elt F) → (⟨S204800x1, .i32⟩ : BufTy).Contents (Elt F)),
    StableHlo.unary main_v784 main_v940 (broadcastInDim S204800x1 ![0] bcast_S204800_S204800x1_0 : (⟨S204800, .i32⟩ : BufTy).Contents (Elt F) → (⟨S204800x1, .i32⟩ : BufTy).Contents (Elt F)),
    StableHlo.unary main_v830 main_v941 (broadcastInDim S204800x1 ![0] bcast_S204800_S204800x1_0 : (⟨S204800, .i32⟩ : BufTy).Contents (Elt F) → (⟨S204800x1, .i32⟩ : BufTy).Contents (Elt F)),
    StableHlo.unary main_v876 main_v942 (broadcastInDim S204800x1 ![0] bcast_S204800_S204800x1_0 : (⟨S204800, .i32⟩ : BufTy).Contents (Elt F) → (⟨S204800x1, .i32⟩ : BufTy).Contents (Elt F)),
    StableHlo.unary main_v922 main_v943 (broadcastInDim S204800x1 ![0] bcast_S204800_S204800x1_0 : (⟨S204800, .i32⟩ : BufTy).Contents (Elt F) → (⟨S204800x1, .i32⟩ : BufTy).Contents (Elt F)),
    StableHlo.nary ![main_v923, main_v924, main_v925, main_v926, main_v927, main_v928, main_v929, main_v930, main_v931, main_v932, main_v933, main_v934, main_v935, main_v936, main_v937, main_v938] main_v944 (fun u => concatenate S204800x16 1 [⟨S204800x1, u 0⟩, ⟨S204800x1, u 1⟩, ⟨S204800x1, u 2⟩, ⟨S204800x1, u 3⟩, ⟨S204800x1, u 4⟩, ⟨S204800x1, u 5⟩, ⟨S204800x1, u 6⟩, ⟨S204800x1, u 7⟩, ⟨S204800x1, u 8⟩, ⟨S204800x1, u 9⟩, ⟨S204800x1, u 10⟩, ⟨S204800x1, u 11⟩, ⟨S204800x1, u 12⟩, ⟨S204800x1, u 13⟩, ⟨S204800x1, u 14⟩, ⟨S204800x1, u 15⟩] concatenates_S204800x1_S204800x1_S204800x1_S204800x1_S204800x1_S204800x1_S204800x1_S204800x1_S204800x1_S204800x1_S204800x1_S204800x1_S204800x1_S204800x1_S204800x1_S204800x1_S204800x16_d1),
    StableHlo.nary ![main_v939, main_v940, main_v941, main_v942, main_v943] main_v945 (fun u => concatenate S204800x5 1 [⟨S204800x1, u 0⟩, ⟨S204800x1, u 1⟩, ⟨S204800x1, u 2⟩, ⟨S204800x1, u 3⟩, ⟨S204800x1, u 4⟩] concatenates_S204800x1_S204800x1_S204800x1_S204800x1_S204800x1_S204800x5_d1),
    StableHlo.binary main_v944 main_v945 main_v946 ((fun a b => concatenate S204800x21 1 [⟨S204800x16, a⟩, ⟨S204800x5, b⟩] concatenates_S204800x16_S204800x5_S204800x21_d1) : (⟨S204800x16, .i32⟩ : BufTy).Contents (Elt F) → (⟨S204800x5, .i32⟩ : BufTy).Contents (Elt F) → (⟨S204800x21, .i32⟩ : BufTy).Contents (Elt F)),
    StableHlo.unary main_c main_v947 (broadcastInDim S1x21 ![1] bcast_S21_S1x21_1 : (⟨S21, .i32⟩ : BufTy).Contents (Elt F) → (⟨S1x21, .i32⟩ : BufTy).Contents (Elt F)),
    StableHlo.unary main_v947 main_v948 (broadcastInDim S204800x21 ![0, 1] bcast_S1x21_S204800x21_0_1 : (⟨S1x21, .i32⟩ : BufTy).Contents (Elt F) → (⟨S204800x21, .i32⟩ : BufTy).Contents (Elt F)),
    StableHlo.binary main_v946 main_v948 main_v949 (addi : (⟨S204800x21, .i32⟩ : BufTy).Contents (Elt F) → (⟨S204800x21, .i32⟩ : BufTy).Contents (Elt F) → (⟨S204800x21, .i32⟩ : BufTy).Contents (Elt F)),
    StableHlo.nullary main_c_340 (constantI S_ 32 120000#32),
    StableHlo.unary main_c_340 main_v950 (broadcastInDim S204800x21 ![] bcast_S_S204800x21 : (⟨S_, .i32⟩ : BufTy).Contents (Elt F) → (⟨S204800x21, .i32⟩ : BufTy).Contents (Elt F)),
    StableHlo.binary main_v949 main_v950 main_v951 (cmpi .sgt : (⟨S204800x21, .i32⟩ : BufTy).Contents (Elt F) → (⟨S204800x21, .i32⟩ : BufTy).Contents (Elt F) → (⟨S204800x21, .i1⟩ : BufTy).Contents (Elt F)),
    StableHlo.nullary main_c_341 (constantI S_ 32 120000#32),
    StableHlo.TRef.unary (.of main_c_341 : StableHlo.TRef sig ⟨S_, .i32⟩) (.of main_call100_v0 : StableHlo.TRef sig ⟨S_, .i32⟩) id,
    StableHlo.TRef.unary (.of main_call100_v0 : StableHlo.TRef sig ⟨S_, .i32⟩) (.of main_call100_v1 : StableHlo.TRef sig ⟨S204800x21, .i32⟩) (broadcastInDim S204800x21 ![] bcast_S_S204800x21),
    StableHlo.TRef.ternary (.of main_v951 : StableHlo.TRef sig ⟨S204800x21, .i1⟩) (.of main_call100_v1 : StableHlo.TRef sig ⟨S204800x21, .i32⟩) (.of main_v949 : StableHlo.TRef sig ⟨S204800x21, .i32⟩) (.of main_v952 : StableHlo.TRef sig ⟨S204800x21, .i32⟩) select,
    StableHlo.unary main_v952 main_v953 ((extractStridedSlice S204800x7 ![0, 0] · slices_S204800x21_S204800x7_0_0) : (⟨S204800x21, .i32⟩ : BufTy).Contents (Elt F) → (⟨S204800x7, .i32⟩ : BufTy).Contents (Elt F)),
    StableHlo.unary main_v952 main_v954 ((extractStridedSlice S204800x7 ![0, 1] · slices_S204800x21_S204800x7_0_1) : (⟨S204800x21, .i32⟩ : BufTy).Contents (Elt F) → (⟨S204800x7, .i32⟩ : BufTy).Contents (Elt F)),
    StableHlo.unary main_v952 main_v955 ((extractStridedSlice S204800x7 ![0, 2] · slices_S204800x21_S204800x7_0_2) : (⟨S204800x21, .i32⟩ : BufTy).Contents (Elt F) → (⟨S204800x7, .i32⟩ : BufTy).Contents (Elt F)),
    StableHlo.unary main_v952 main_v956 ((extractStridedSlice S204800x7 ![0, 3] · slices_S204800x21_S204800x7_0_3) : (⟨S204800x21, .i32⟩ : BufTy).Contents (Elt F) → (⟨S204800x7, .i32⟩ : BufTy).Contents (Elt F)),
    StableHlo.unary main_v952 main_v957 ((extractStridedSlice S204800x7 ![0, 4] · slices_S204800x21_S204800x7_0_4) : (⟨S204800x21, .i32⟩ : BufTy).Contents (Elt F) → (⟨S204800x7, .i32⟩ : BufTy).Contents (Elt F)),
    StableHlo.unary main_v952 main_v958 ((extractStridedSlice S204800x7 ![0, 5] · slices_S204800x21_S204800x7_0_5) : (⟨S204800x21, .i32⟩ : BufTy).Contents (Elt F) → (⟨S204800x7, .i32⟩ : BufTy).Contents (Elt F)),
    StableHlo.unary main_v952 main_v959 ((extractStridedSlice S204800x7 ![0, 6] · slices_S204800x21_S204800x7_0_6) : (⟨S204800x21, .i32⟩ : BufTy).Contents (Elt F) → (⟨S204800x7, .i32⟩ : BufTy).Contents (Elt F)),
    StableHlo.unary main_v952 main_v960 ((extractStridedSlice S204800x7 ![0, 7] · slices_S204800x21_S204800x7_0_7) : (⟨S204800x21, .i32⟩ : BufTy).Contents (Elt F) → (⟨S204800x7, .i32⟩ : BufTy).Contents (Elt F)),
    StableHlo.unary main_v952 main_v961 ((extractStridedSlice S204800x7 ![0, 8] · slices_S204800x21_S204800x7_0_8) : (⟨S204800x21, .i32⟩ : BufTy).Contents (Elt F) → (⟨S204800x7, .i32⟩ : BufTy).Contents (Elt F)),
    StableHlo.unary main_v952 main_v962 ((extractStridedSlice S204800x7 ![0, 9] · slices_S204800x21_S204800x7_0_9) : (⟨S204800x21, .i32⟩ : BufTy).Contents (Elt F) → (⟨S204800x7, .i32⟩ : BufTy).Contents (Elt F)),
    StableHlo.unary main_v952 main_v963 ((extractStridedSlice S204800x7 ![0, 10] · slices_S204800x21_S204800x7_0_10) : (⟨S204800x21, .i32⟩ : BufTy).Contents (Elt F) → (⟨S204800x7, .i32⟩ : BufTy).Contents (Elt F)),
    StableHlo.unary main_v952 main_v964 ((extractStridedSlice S204800x7 ![0, 11] · slices_S204800x21_S204800x7_0_11) : (⟨S204800x21, .i32⟩ : BufTy).Contents (Elt F) → (⟨S204800x7, .i32⟩ : BufTy).Contents (Elt F)),
    StableHlo.unary main_v952 main_v965 ((extractStridedSlice S204800x7 ![0, 12] · slices_S204800x21_S204800x7_0_12) : (⟨S204800x21, .i32⟩ : BufTy).Contents (Elt F) → (⟨S204800x7, .i32⟩ : BufTy).Contents (Elt F)),
    StableHlo.unary main_v952 main_v966 ((extractStridedSlice S204800x7 ![0, 13] · slices_S204800x21_S204800x7_0_13) : (⟨S204800x21, .i32⟩ : BufTy).Contents (Elt F) → (⟨S204800x7, .i32⟩ : BufTy).Contents (Elt F)),
    StableHlo.unary main_v952 main_v967 ((extractStridedSlice S204800x7 ![0, 14] · slices_S204800x21_S204800x7_0_14) : (⟨S204800x21, .i32⟩ : BufTy).Contents (Elt F) → (⟨S204800x7, .i32⟩ : BufTy).Contents (Elt F)),
    StableHlo.nary ![main_v953, main_v954, main_v955, main_v956, main_v957, main_v958, main_v959, main_v960, main_v961, main_v962, main_v963, main_v964, main_v965, main_v966, main_v967] main_v968 (fun u => concatenate S3072000x7 0 [⟨S204800x7, u 0⟩, ⟨S204800x7, u 1⟩, ⟨S204800x7, u 2⟩, ⟨S204800x7, u 3⟩, ⟨S204800x7, u 4⟩, ⟨S204800x7, u 5⟩, ⟨S204800x7, u 6⟩, ⟨S204800x7, u 7⟩, ⟨S204800x7, u 8⟩, ⟨S204800x7, u 9⟩, ⟨S204800x7, u 10⟩, ⟨S204800x7, u 11⟩, ⟨S204800x7, u 12⟩, ⟨S204800x7, u 13⟩, ⟨S204800x7, u 14⟩] concatenates_S204800x7_S204800x7_S204800x7_S204800x7_S204800x7_S204800x7_S204800x7_S204800x7_S204800x7_S204800x7_S204800x7_S204800x7_S204800x7_S204800x7_S204800x7_S3072000x7_d0),
    StableHlo.nullary main_c_342 (constantI S_ 32 120000#32),
    StableHlo.unary main_c_342 main_v969 (broadcastInDim S3072000x7 ![] bcast_S_S3072000x7 : (⟨S_, .i32⟩ : BufTy).Contents (Elt F) → (⟨S3072000x7, .i32⟩ : BufTy).Contents (Elt F)),
    StableHlo.binary main_v968 main_v969 main_v970 (cmpi .ne : (⟨S3072000x7, .i32⟩ : BufTy).Contents (Elt F) → (⟨S3072000x7, .i32⟩ : BufTy).Contents (Elt F) → (⟨S3072000x7, .i1⟩ : BufTy).Contents (Elt F)),
    StableHlo.nullary main_c_343 (constantI S_ 32 3550#32),
    StableHlo.unary main_c_343 main_v971 (broadcastInDim S3072000x7 ![] bcast_S_S3072000x7 : (⟨S_, .i32⟩ : BufTy).Contents (Elt F) → (⟨S3072000x7, .i32⟩ : BufTy).Contents (Elt F)),
    StableHlo.binary main_v968 main_v971 main_v972 (cmpi .sge : (⟨S3072000x7, .i32⟩ : BufTy).Contents (Elt F) → (⟨S3072000x7, .i32⟩ : BufTy).Contents (Elt F) → (⟨S3072000x7, .i1⟩ : BufTy).Contents (Elt F)),
    StableHlo.binary main_v970 main_v972 main_v973 (andi : (⟨S3072000x7, .i1⟩ : BufTy).Contents (Elt F) → (⟨S3072000x7, .i1⟩ : BufTy).Contents (Elt F) → (⟨S3072000x7, .i1⟩ : BufTy).Contents (Elt F)),
    StableHlo.nullary main_c_344 (constantI S_ 32 3550#32) ]

/-- Window 22 of the entry function: its 60 operations, calls inlined. -/
abbrev ops22 : List (HloOp τ sig (Elt F)) :=
  [ StableHlo.unary main_c_344 main_v974 (broadcastInDim S3072000x7 ![] bcast_S_S3072000x7 : (⟨S_, .i32⟩ : BufTy).Contents (Elt F) → (⟨S3072000x7, .i32⟩ : BufTy).Contents (Elt F)),
    StableHlo.binary main_v968 main_v974 main_v975 (subi : (⟨S3072000x7, .i32⟩ : BufTy).Contents (Elt F) → (⟨S3072000x7, .i32⟩ : BufTy).Contents (Elt F) → (⟨S3072000x7, .i32⟩ : BufTy).Contents (Elt F)),
    StableHlo.nullary main_c_345 (constantI S_ 32 9100#32),
    StableHlo.unary main_c_345 main_v976 (broadcastInDim S3072000x7 ![] bcast_S_S3072000x7 : (⟨S_, .i32⟩ : BufTy).Contents (Elt F) → (⟨S3072000x7, .i32⟩ : BufTy).Contents (Elt F)),
    StableHlo.binary main_v975 main_v976 main_v977 (addi : (⟨S3072000x7, .i32⟩ : BufTy).Contents (Elt F) → (⟨S3072000x7, .i32⟩ : BufTy).Contents (Elt F) → (⟨S3072000x7, .i32⟩ : BufTy).Contents (Elt F)),
    StableHlo.TRef.ternary (.of main_v973 : StableHlo.TRef sig ⟨S3072000x7, .i1⟩) (.of main_v977 : StableHlo.TRef sig ⟨S3072000x7, .i32⟩) (.of main_v968 : StableHlo.TRef sig ⟨S3072000x7, .i32⟩) (.of main_v978 : StableHlo.TRef sig ⟨S3072000x7, .i32⟩) select,
    StableHlo.reshape main_arg2 main_v979 rfl shapeCasts_S2048_S1x2048,
    StableHlo.unary main_v979 main_v980 (broadcastInDim S100x2048 ![0, 1] bcast_S1x2048_S100x2048_0_1 : (⟨S1x2048, .i32⟩ : BufTy).Contents (Elt F) → (⟨S100x2048, .i32⟩ : BufTy).Contents (Elt F)),
    StableHlo.reshape main_v980 main_v981 rfl shapeCasts_S100x2048_S204800,
    StableHlo.unary main_arg1 main_v982 ((extractStridedSlice S204800x1 ![0, 0] · slices_S204800x20_S204800x1_0_0) : (⟨S204800x20, .f32⟩ : BufTy).Contents (Elt F) → (⟨S204800x1, .f32⟩ : BufTy).Contents (Elt F)),
    StableHlo.reshape main_v982 main_v983 rfl shapeCasts_S204800x1_S204800,
    StableHlo.nullary main_cst (constant S_ .f32 0x469C4000#32),
    StableHlo.unary main_cst main_v984 (broadcastInDim S204800 ![] bcast_S_S204800 : (⟨S_, .f32⟩ : BufTy).Contents (Elt F) → (⟨S204800, .f32⟩ : BufTy).Contents (Elt F)),
    StableHlo.binary main_v983 main_v984 main_v985 (mulf : (⟨S204800, .f32⟩ : BufTy).Contents (Elt F) → (⟨S204800, .f32⟩ : BufTy).Contents (Elt F) → (⟨S204800, .f32⟩ : BufTy).Contents (Elt F)),
    StableHlo.unary main_v985 main_v986 (fptosi 32 : (⟨S204800, .f32⟩ : BufTy).Contents (Elt F) → (⟨S204800, .i32⟩ : BufTy).Contents (Elt F)),
    StableHlo.unary main_arg1 main_v987 ((extractStridedSlice S204800x1 ![0, 1] · slices_S204800x20_S204800x1_0_1) : (⟨S204800x20, .f32⟩ : BufTy).Contents (Elt F) → (⟨S204800x1, .f32⟩ : BufTy).Contents (Elt F)),
    StableHlo.reshape main_v987 main_v988 rfl shapeCasts_S204800x1_S204800,
    StableHlo.nullary main_cst_346 (constant S_ .f32 0x455DE000#32),
    StableHlo.unary main_cst_346 main_v989 (broadcastInDim S204800 ![] bcast_S_S204800 : (⟨S_, .f32⟩ : BufTy).Contents (Elt F) → (⟨S204800, .f32⟩ : BufTy).Contents (Elt F)),
    StableHlo.binary main_v988 main_v989 main_v990 (mulf : (⟨S204800, .f32⟩ : BufTy).Contents (Elt F) → (⟨S204800, .f32⟩ : BufTy).Contents (Elt F) → (⟨S204800, .f32⟩ : BufTy).Contents (Elt F)),
    StableHlo.unary main_v990 main_v991 (fptosi 32 : (⟨S204800, .f32⟩ : BufTy).Contents (Elt F) → (⟨S204800, .i32⟩ : BufTy).Contents (Elt F)),
    StableHlo.unary main_arg1 main_v992 ((extractStridedSlice S204800x1 ![0, 2] · slices_S204800x20_S204800x1_0_2) : (⟨S204800x20, .f32⟩ : BufTy).Contents (Elt F) → (⟨S204800x1, .f32⟩ : BufTy).Contents (Elt F)),
    StableHlo.reshape main_v992 main_v993 rfl shapeCasts_S204800x1_S204800,
    StableHlo.nullary main_cst_347 (constant S_ .f32 0x469C4000#32),
    StableHlo.unary main_cst_347 main_v994 (broadcastInDim S204800 ![] bcast_S_S204800 : (⟨S_, .f32⟩ : BufTy).Contents (Elt F) → (⟨S204800, .f32⟩ : BufTy).Contents (Elt F)),
    StableHlo.binary main_v993 main_v994 main_v995 (mulf : (⟨S204800, .f32⟩ : BufTy).Contents (Elt F) → (⟨S204800, .f32⟩ : BufTy).Contents (Elt F) → (⟨S204800, .f32⟩ : BufTy).Contents (Elt F)),
    StableHlo.unary main_v995 main_v996 (fptosi 32 : (⟨S204800, .f32⟩ : BufTy).Contents (Elt F) → (⟨S204800, .i32⟩ : BufTy).Contents (Elt F)),
    StableHlo.unary main_arg1 main_v997 ((extractStridedSlice S204800x1 ![0, 3] · slices_S204800x20_S204800x1_0_3) : (⟨S204800x20, .f32⟩ : BufTy).Contents (Elt F) → (⟨S204800x1, .f32⟩ : BufTy).Contents (Elt F)),
    StableHlo.reshape main_v997 main_v998 rfl shapeCasts_S204800x1_S204800,
    StableHlo.nullary main_cst_348 (constant S_ .f32 0x455DE000#32),
    StableHlo.unary main_cst_348 main_v999 (broadcastInDim S204800 ![] bcast_S_S204800 : (⟨S_, .f32⟩ : BufTy).Contents (Elt F) → (⟨S204800, .f32⟩ : BufTy).Contents (Elt F)),
    StableHlo.binary main_v998 main_v999 main_v1000 (mulf : (⟨S204800, .f32⟩ : BufTy).Contents (Elt F) → (⟨S204800, .f32⟩ : BufTy).Contents (Elt F) → (⟨S204800, .f32⟩ : BufTy).Contents (Elt F)),
    StableHlo.unary main_v1000 main_v1001 (fptosi 32 : (⟨S204800, .f32⟩ : BufTy).Contents (Elt F) → (⟨S204800, .i32⟩ : BufTy).Contents (Elt F)),
    StableHlo.unary main_arg1 main_v1002 ((extractStridedSlice S204800x1 ![0, 4] · slices_S204800x20_S204800x1_0_4) : (⟨S204800x20, .f32⟩ : BufTy).Contents (Elt F) → (⟨S204800x1, .f32⟩ : BufTy).Contents (Elt F)),
    StableHlo.reshape main_v1002 main_v1003 rfl shapeCasts_S204800x1_S204800,
    StableHlo.nullary main_cst_349 (constant S_ .f32 0x469C4000#32),
    StableHlo.unary main_cst_349 main_v1004 (broadcastInDim S204800 ![] bcast_S_S204800 : (⟨S_, .f32⟩ : BufTy).Contents (Elt F) → (⟨S204800, .f32⟩ : BufTy).Contents (Elt F)),
    StableHlo.binary main_v1003 main_v1004 main_v1005 (mulf : (⟨S204800, .f32⟩ : BufTy).Contents (Elt F) → (⟨S204800, .f32⟩ : BufTy).Contents (Elt F) → (⟨S204800, .f32⟩ : BufTy).Contents (Elt F)),
    StableHlo.unary main_v1005 main_v1006 (fptosi 32 : (⟨S204800, .f32⟩ : BufTy).Contents (Elt F) → (⟨S204800, .i32⟩ : BufTy).Contents (Elt F)),
    StableHlo.unary main_arg1 main_v1007 ((extractStridedSlice S204800x1 ![0, 5] · slices_S204800x20_S204800x1_0_5) : (⟨S204800x20, .f32⟩ : BufTy).Contents (Elt F) → (⟨S204800x1, .f32⟩ : BufTy).Contents (Elt F)),
    StableHlo.reshape main_v1007 main_v1008 rfl shapeCasts_S204800x1_S204800,
    StableHlo.nullary main_cst_350 (constant S_ .f32 0x455DE000#32),
    StableHlo.unary main_cst_350 main_v1009 (broadcastInDim S204800 ![] bcast_S_S204800 : (⟨S_, .f32⟩ : BufTy).Contents (Elt F) → (⟨S204800, .f32⟩ : BufTy).Contents (Elt F)),
    StableHlo.binary main_v1008 main_v1009 main_v1010 (mulf : (⟨S204800, .f32⟩ : BufTy).Contents (Elt F) → (⟨S204800, .f32⟩ : BufTy).Contents (Elt F) → (⟨S204800, .f32⟩ : BufTy).Contents (Elt F)),
    StableHlo.unary main_v1010 main_v1011 (fptosi 32 : (⟨S204800, .f32⟩ : BufTy).Contents (Elt F) → (⟨S204800, .i32⟩ : BufTy).Contents (Elt F)),
    StableHlo.unary main_arg1 main_v1012 ((extractStridedSlice S204800x1 ![0, 6] · slices_S204800x20_S204800x1_0_6) : (⟨S204800x20, .f32⟩ : BufTy).Contents (Elt F) → (⟨S204800x1, .f32⟩ : BufTy).Contents (Elt F)),
    StableHlo.reshape main_v1012 main_v1013 rfl shapeCasts_S204800x1_S204800,
    StableHlo.nullary main_cst_351 (constant S_ .f32 0x469C4000#32),
    StableHlo.unary main_cst_351 main_v1014 (broadcastInDim S204800 ![] bcast_S_S204800 : (⟨S_, .f32⟩ : BufTy).Contents (Elt F) → (⟨S204800, .f32⟩ : BufTy).Contents (Elt F)),
    StableHlo.binary main_v1013 main_v1014 main_v1015 (mulf : (⟨S204800, .f32⟩ : BufTy).Contents (Elt F) → (⟨S204800, .f32⟩ : BufTy).Contents (Elt F) → (⟨S204800, .f32⟩ : BufTy).Contents (Elt F)),
    StableHlo.unary main_v1015 main_v1016 (fptosi 32 : (⟨S204800, .f32⟩ : BufTy).Contents (Elt F) → (⟨S204800, .i32⟩ : BufTy).Contents (Elt F)),
    StableHlo.unary main_arg1 main_v1017 ((extractStridedSlice S204800x1 ![0, 7] · slices_S204800x20_S204800x1_0_7) : (⟨S204800x20, .f32⟩ : BufTy).Contents (Elt F) → (⟨S204800x1, .f32⟩ : BufTy).Contents (Elt F)),
    StableHlo.reshape main_v1017 main_v1018 rfl shapeCasts_S204800x1_S204800,
    StableHlo.nullary main_cst_352 (constant S_ .f32 0x455DE000#32),
    StableHlo.unary main_cst_352 main_v1019 (broadcastInDim S204800 ![] bcast_S_S204800 : (⟨S_, .f32⟩ : BufTy).Contents (Elt F) → (⟨S204800, .f32⟩ : BufTy).Contents (Elt F)),
    StableHlo.binary main_v1018 main_v1019 main_v1020 (mulf : (⟨S204800, .f32⟩ : BufTy).Contents (Elt F) → (⟨S204800, .f32⟩ : BufTy).Contents (Elt F) → (⟨S204800, .f32⟩ : BufTy).Contents (Elt F)),
    StableHlo.unary main_v1020 main_v1021 (fptosi 32 : (⟨S204800, .f32⟩ : BufTy).Contents (Elt F) → (⟨S204800, .i32⟩ : BufTy).Contents (Elt F)),
    StableHlo.unary main_arg1 main_v1022 ((extractStridedSlice S204800x1 ![0, 8] · slices_S204800x20_S204800x1_0_8) : (⟨S204800x20, .f32⟩ : BufTy).Contents (Elt F) → (⟨S204800x1, .f32⟩ : BufTy).Contents (Elt F)),
    StableHlo.reshape main_v1022 main_v1023 rfl shapeCasts_S204800x1_S204800,
    StableHlo.nullary main_cst_353 (constant S_ .f32 0x469C4000#32) ]

/-- Window 23 of the entry function: its 60 operations, calls inlined. -/
abbrev ops23 : List (HloOp τ sig (Elt F)) :=
  [ StableHlo.unary main_cst_353 main_v1024 (broadcastInDim S204800 ![] bcast_S_S204800 : (⟨S_, .f32⟩ : BufTy).Contents (Elt F) → (⟨S204800, .f32⟩ : BufTy).Contents (Elt F)),
    StableHlo.binary main_v1023 main_v1024 main_v1025 (mulf : (⟨S204800, .f32⟩ : BufTy).Contents (Elt F) → (⟨S204800, .f32⟩ : BufTy).Contents (Elt F) → (⟨S204800, .f32⟩ : BufTy).Contents (Elt F)),
    StableHlo.unary main_v1025 main_v1026 (fptosi 32 : (⟨S204800, .f32⟩ : BufTy).Contents (Elt F) → (⟨S204800, .i32⟩ : BufTy).Contents (Elt F)),
    StableHlo.unary main_arg1 main_v1027 ((extractStridedSlice S204800x1 ![0, 9] · slices_S204800x20_S204800x1_0_9) : (⟨S204800x20, .f32⟩ : BufTy).Contents (Elt F) → (⟨S204800x1, .f32⟩ : BufTy).Contents (Elt F)),
    StableHlo.reshape main_v1027 main_v1028 rfl shapeCasts_S204800x1_S204800,
    StableHlo.nullary main_cst_354 (constant S_ .f32 0x455DE000#32),
    StableHlo.unary main_cst_354 main_v1029 (broadcastInDim S204800 ![] bcast_S_S204800 : (⟨S_, .f32⟩ : BufTy).Contents (Elt F) → (⟨S204800, .f32⟩ : BufTy).Contents (Elt F)),
    StableHlo.binary main_v1028 main_v1029 main_v1030 (mulf : (⟨S204800, .f32⟩ : BufTy).Contents (Elt F) → (⟨S204800, .f32⟩ : BufTy).Contents (Elt F) → (⟨S204800, .f32⟩ : BufTy).Contents (Elt F)),
    StableHlo.unary main_v1030 main_v1031 (fptosi 32 : (⟨S204800, .f32⟩ : BufTy).Contents (Elt F) → (⟨S204800, .i32⟩ : BufTy).Contents (Elt F)),
    StableHlo.unary main_arg1 main_v1032 ((extractStridedSlice S204800x1 ![0, 10] · slices_S204800x20_S204800x1_0_10) : (⟨S204800x20, .f32⟩ : BufTy).Contents (Elt F) → (⟨S204800x1, .f32⟩ : BufTy).Contents (Elt F)),
    StableHlo.reshape main_v1032 main_v1033 rfl shapeCasts_S204800x1_S204800,
    StableHlo.nullary main_cst_355 (constant S_ .f32 0x469C4000#32),
    StableHlo.unary main_cst_355 main_v1034 (broadcastInDim S204800 ![] bcast_S_S204800 : (⟨S_, .f32⟩ : BufTy).Contents (Elt F) → (⟨S204800, .f32⟩ : BufTy).Contents (Elt F)),
    StableHlo.binary main_v1033 main_v1034 main_v1035 (mulf : (⟨S204800, .f32⟩ : BufTy).Contents (Elt F) → (⟨S204800, .f32⟩ : BufTy).Contents (Elt F) → (⟨S204800, .f32⟩ : BufTy).Contents (Elt F)),
    StableHlo.unary main_v1035 main_v1036 (fptosi 32 : (⟨S204800, .f32⟩ : BufTy).Contents (Elt F) → (⟨S204800, .i32⟩ : BufTy).Contents (Elt F)),
    StableHlo.unary main_arg1 main_v1037 ((extractStridedSlice S204800x1 ![0, 11] · slices_S204800x20_S204800x1_0_11) : (⟨S204800x20, .f32⟩ : BufTy).Contents (Elt F) → (⟨S204800x1, .f32⟩ : BufTy).Contents (Elt F)),
    StableHlo.reshape main_v1037 main_v1038 rfl shapeCasts_S204800x1_S204800,
    StableHlo.nullary main_cst_356 (constant S_ .f32 0x455DE000#32),
    StableHlo.unary main_cst_356 main_v1039 (broadcastInDim S204800 ![] bcast_S_S204800 : (⟨S_, .f32⟩ : BufTy).Contents (Elt F) → (⟨S204800, .f32⟩ : BufTy).Contents (Elt F)),
    StableHlo.binary main_v1038 main_v1039 main_v1040 (mulf : (⟨S204800, .f32⟩ : BufTy).Contents (Elt F) → (⟨S204800, .f32⟩ : BufTy).Contents (Elt F) → (⟨S204800, .f32⟩ : BufTy).Contents (Elt F)),
    StableHlo.unary main_v1040 main_v1041 (fptosi 32 : (⟨S204800, .f32⟩ : BufTy).Contents (Elt F) → (⟨S204800, .i32⟩ : BufTy).Contents (Elt F)),
    StableHlo.unary main_arg1 main_v1042 ((extractStridedSlice S204800x1 ![0, 12] · slices_S204800x20_S204800x1_0_12) : (⟨S204800x20, .f32⟩ : BufTy).Contents (Elt F) → (⟨S204800x1, .f32⟩ : BufTy).Contents (Elt F)),
    StableHlo.reshape main_v1042 main_v1043 rfl shapeCasts_S204800x1_S204800,
    StableHlo.nullary main_cst_357 (constant S_ .f32 0x469C4000#32),
    StableHlo.unary main_cst_357 main_v1044 (broadcastInDim S204800 ![] bcast_S_S204800 : (⟨S_, .f32⟩ : BufTy).Contents (Elt F) → (⟨S204800, .f32⟩ : BufTy).Contents (Elt F)),
    StableHlo.binary main_v1043 main_v1044 main_v1045 (mulf : (⟨S204800, .f32⟩ : BufTy).Contents (Elt F) → (⟨S204800, .f32⟩ : BufTy).Contents (Elt F) → (⟨S204800, .f32⟩ : BufTy).Contents (Elt F)),
    StableHlo.unary main_v1045 main_v1046 (fptosi 32 : (⟨S204800, .f32⟩ : BufTy).Contents (Elt F) → (⟨S204800, .i32⟩ : BufTy).Contents (Elt F)),
    StableHlo.unary main_arg1 main_v1047 ((extractStridedSlice S204800x1 ![0, 13] · slices_S204800x20_S204800x1_0_13) : (⟨S204800x20, .f32⟩ : BufTy).Contents (Elt F) → (⟨S204800x1, .f32⟩ : BufTy).Contents (Elt F)),
    StableHlo.reshape main_v1047 main_v1048 rfl shapeCasts_S204800x1_S204800,
    StableHlo.nullary main_cst_358 (constant S_ .f32 0x455DE000#32),
    StableHlo.unary main_cst_358 main_v1049 (broadcastInDim S204800 ![] bcast_S_S204800 : (⟨S_, .f32⟩ : BufTy).Contents (Elt F) → (⟨S204800, .f32⟩ : BufTy).Contents (Elt F)),
    StableHlo.binary main_v1048 main_v1049 main_v1050 (mulf : (⟨S204800, .f32⟩ : BufTy).Contents (Elt F) → (⟨S204800, .f32⟩ : BufTy).Contents (Elt F) → (⟨S204800, .f32⟩ : BufTy).Contents (Elt F)),
    StableHlo.unary main_v1050 main_v1051 (fptosi 32 : (⟨S204800, .f32⟩ : BufTy).Contents (Elt F) → (⟨S204800, .i32⟩ : BufTy).Contents (Elt F)),
    StableHlo.unary main_arg1 main_v1052 ((extractStridedSlice S204800x1 ![0, 14] · slices_S204800x20_S204800x1_0_14) : (⟨S204800x20, .f32⟩ : BufTy).Contents (Elt F) → (⟨S204800x1, .f32⟩ : BufTy).Contents (Elt F)),
    StableHlo.reshape main_v1052 main_v1053 rfl shapeCasts_S204800x1_S204800,
    StableHlo.nullary main_cst_359 (constant S_ .f32 0x469C4000#32),
    StableHlo.unary main_cst_359 main_v1054 (broadcastInDim S204800 ![] bcast_S_S204800 : (⟨S_, .f32⟩ : BufTy).Contents (Elt F) → (⟨S204800, .f32⟩ : BufTy).Contents (Elt F)),
    StableHlo.binary main_v1053 main_v1054 main_v1055 (mulf : (⟨S204800, .f32⟩ : BufTy).Contents (Elt F) → (⟨S204800, .f32⟩ : BufTy).Contents (Elt F) → (⟨S204800, .f32⟩ : BufTy).Contents (Elt F)),
    StableHlo.unary main_v1055 main_v1056 (fptosi 32 : (⟨S204800, .f32⟩ : BufTy).Contents (Elt F) → (⟨S204800, .i32⟩ : BufTy).Contents (Elt F)),
    StableHlo.unary main_arg1 main_v1057 ((extractStridedSlice S204800x1 ![0, 15] · slices_S204800x20_S204800x1_0_15) : (⟨S204800x20, .f32⟩ : BufTy).Contents (Elt F) → (⟨S204800x1, .f32⟩ : BufTy).Contents (Elt F)),
    StableHlo.reshape main_v1057 main_v1058 rfl shapeCasts_S204800x1_S204800,
    StableHlo.nullary main_cst_360 (constant S_ .f32 0x455DE000#32),
    StableHlo.unary main_cst_360 main_v1059 (broadcastInDim S204800 ![] bcast_S_S204800 : (⟨S_, .f32⟩ : BufTy).Contents (Elt F) → (⟨S204800, .f32⟩ : BufTy).Contents (Elt F)),
    StableHlo.binary main_v1058 main_v1059 main_v1060 (mulf : (⟨S204800, .f32⟩ : BufTy).Contents (Elt F) → (⟨S204800, .f32⟩ : BufTy).Contents (Elt F) → (⟨S204800, .f32⟩ : BufTy).Contents (Elt F)),
    StableHlo.unary main_v1060 main_v1061 (fptosi 32 : (⟨S204800, .f32⟩ : BufTy).Contents (Elt F) → (⟨S204800, .i32⟩ : BufTy).Contents (Elt F)),
    StableHlo.unary main_arg1 main_v1062 ((extractStridedSlice S204800x1 ![0, 16] · slices_S204800x20_S204800x1_0_16) : (⟨S204800x20, .f32⟩ : BufTy).Contents (Elt F) → (⟨S204800x1, .f32⟩ : BufTy).Contents (Elt F)),
    StableHlo.reshape main_v1062 main_v1063 rfl shapeCasts_S204800x1_S204800,
    StableHlo.nullary main_cst_361 (constant S_ .f32 0x469C4000#32),
    StableHlo.unary main_cst_361 main_v1064 (broadcastInDim S204800 ![] bcast_S_S204800 : (⟨S_, .f32⟩ : BufTy).Contents (Elt F) → (⟨S204800, .f32⟩ : BufTy).Contents (Elt F)),
    StableHlo.binary main_v1063 main_v1064 main_v1065 (mulf : (⟨S204800, .f32⟩ : BufTy).Contents (Elt F) → (⟨S204800, .f32⟩ : BufTy).Contents (Elt F) → (⟨S204800, .f32⟩ : BufTy).Contents (Elt F)),
    StableHlo.unary main_v1065 main_v1066 (fptosi 32 : (⟨S204800, .f32⟩ : BufTy).Contents (Elt F) → (⟨S204800, .i32⟩ : BufTy).Contents (Elt F)),
    StableHlo.unary main_arg1 main_v1067 ((extractStridedSlice S204800x1 ![0, 17] · slices_S204800x20_S204800x1_0_17) : (⟨S204800x20, .f32⟩ : BufTy).Contents (Elt F) → (⟨S204800x1, .f32⟩ : BufTy).Contents (Elt F)),
    StableHlo.reshape main_v1067 main_v1068 rfl shapeCasts_S204800x1_S204800,
    StableHlo.nullary main_cst_362 (constant S_ .f32 0x455DE000#32),
    StableHlo.unary main_cst_362 main_v1069 (broadcastInDim S204800 ![] bcast_S_S204800 : (⟨S_, .f32⟩ : BufTy).Contents (Elt F) → (⟨S204800, .f32⟩ : BufTy).Contents (Elt F)),
    StableHlo.binary main_v1068 main_v1069 main_v1070 (mulf : (⟨S204800, .f32⟩ : BufTy).Contents (Elt F) → (⟨S204800, .f32⟩ : BufTy).Contents (Elt F) → (⟨S204800, .f32⟩ : BufTy).Contents (Elt F)),
    StableHlo.unary main_v1070 main_v1071 (fptosi 32 : (⟨S204800, .f32⟩ : BufTy).Contents (Elt F) → (⟨S204800, .i32⟩ : BufTy).Contents (Elt F)),
    StableHlo.unary main_arg1 main_v1072 ((extractStridedSlice S204800x1 ![0, 18] · slices_S204800x20_S204800x1_0_18) : (⟨S204800x20, .f32⟩ : BufTy).Contents (Elt F) → (⟨S204800x1, .f32⟩ : BufTy).Contents (Elt F)),
    StableHlo.reshape main_v1072 main_v1073 rfl shapeCasts_S204800x1_S204800,
    StableHlo.nullary main_cst_363 (constant S_ .f32 0x469C4000#32) ]

/-- Window 24 of the entry function: its 60 operations, calls inlined. -/
abbrev ops24 : List (HloOp τ sig (Elt F)) :=
  [ StableHlo.unary main_cst_363 main_v1074 (broadcastInDim S204800 ![] bcast_S_S204800 : (⟨S_, .f32⟩ : BufTy).Contents (Elt F) → (⟨S204800, .f32⟩ : BufTy).Contents (Elt F)),
    StableHlo.binary main_v1073 main_v1074 main_v1075 (mulf : (⟨S204800, .f32⟩ : BufTy).Contents (Elt F) → (⟨S204800, .f32⟩ : BufTy).Contents (Elt F) → (⟨S204800, .f32⟩ : BufTy).Contents (Elt F)),
    StableHlo.unary main_v1075 main_v1076 (fptosi 32 : (⟨S204800, .f32⟩ : BufTy).Contents (Elt F) → (⟨S204800, .i32⟩ : BufTy).Contents (Elt F)),
    StableHlo.unary main_arg1 main_v1077 ((extractStridedSlice S204800x1 ![0, 19] · slices_S204800x20_S204800x1_0_19) : (⟨S204800x20, .f32⟩ : BufTy).Contents (Elt F) → (⟨S204800x1, .f32⟩ : BufTy).Contents (Elt F)),
    StableHlo.reshape main_v1077 main_v1078 rfl shapeCasts_S204800x1_S204800,
    StableHlo.nullary main_cst_364 (constant S_ .f32 0x455DE000#32),
    StableHlo.unary main_cst_364 main_v1079 (broadcastInDim S204800 ![] bcast_S_S204800 : (⟨S_, .f32⟩ : BufTy).Contents (Elt F) → (⟨S204800, .f32⟩ : BufTy).Contents (Elt F)),
    StableHlo.binary main_v1078 main_v1079 main_v1080 (mulf : (⟨S204800, .f32⟩ : BufTy).Contents (Elt F) → (⟨S204800, .f32⟩ : BufTy).Contents (Elt F) → (⟨S204800, .f32⟩ : BufTy).Contents (Elt F)),
    StableHlo.unary main_v1080 main_v1081 (fptosi 32 : (⟨S204800, .f32⟩ : BufTy).Contents (Elt F) → (⟨S204800, .i32⟩ : BufTy).Contents (Elt F)),
    StableHlo.unary main_v981 main_v1082 (broadcastInDim S204800x1 ![0] bcast_S204800_S204800x1_0 : (⟨S204800, .i32⟩ : BufTy).Contents (Elt F) → (⟨S204800x1, .i32⟩ : BufTy).Contents (Elt F)),
    StableHlo.unary main_v986 main_v1083 (broadcastInDim S204800x1 ![0] bcast_S204800_S204800x1_0 : (⟨S204800, .i32⟩ : BufTy).Contents (Elt F) → (⟨S204800x1, .i32⟩ : BufTy).Contents (Elt F)),
    StableHlo.unary main_v991 main_v1084 (broadcastInDim S204800x1 ![0] bcast_S204800_S204800x1_0 : (⟨S204800, .i32⟩ : BufTy).Contents (Elt F) → (⟨S204800x1, .i32⟩ : BufTy).Contents (Elt F)),
    StableHlo.unary main_v996 main_v1085 (broadcastInDim S204800x1 ![0] bcast_S204800_S204800x1_0 : (⟨S204800, .i32⟩ : BufTy).Contents (Elt F) → (⟨S204800x1, .i32⟩ : BufTy).Contents (Elt F)),
    StableHlo.unary main_v1001 main_v1086 (broadcastInDim S204800x1 ![0] bcast_S204800_S204800x1_0 : (⟨S204800, .i32⟩ : BufTy).Contents (Elt F) → (⟨S204800x1, .i32⟩ : BufTy).Contents (Elt F)),
    StableHlo.unary main_v1006 main_v1087 (broadcastInDim S204800x1 ![0] bcast_S204800_S204800x1_0 : (⟨S204800, .i32⟩ : BufTy).Contents (Elt F) → (⟨S204800x1, .i32⟩ : BufTy).Contents (Elt F)),
    StableHlo.unary main_v1011 main_v1088 (broadcastInDim S204800x1 ![0] bcast_S204800_S204800x1_0 : (⟨S204800, .i32⟩ : BufTy).Contents (Elt F) → (⟨S204800x1, .i32⟩ : BufTy).Contents (Elt F)),
    StableHlo.unary main_v1016 main_v1089 (broadcastInDim S204800x1 ![0] bcast_S204800_S204800x1_0 : (⟨S204800, .i32⟩ : BufTy).Contents (Elt F) → (⟨S204800x1, .i32⟩ : BufTy).Contents (Elt F)),
    StableHlo.unary main_v1021 main_v1090 (broadcastInDim S204800x1 ![0] bcast_S204800_S204800x1_0 : (⟨S204800, .i32⟩ : BufTy).Contents (Elt F) → (⟨S204800x1, .i32⟩ : BufTy).Contents (Elt F)),
    StableHlo.unary main_v1026 main_v1091 (broadcastInDim S204800x1 ![0] bcast_S204800_S204800x1_0 : (⟨S204800, .i32⟩ : BufTy).Contents (Elt F) → (⟨S204800x1, .i32⟩ : BufTy).Contents (Elt F)),
    StableHlo.unary main_v1031 main_v1092 (broadcastInDim S204800x1 ![0] bcast_S204800_S204800x1_0 : (⟨S204800, .i32⟩ : BufTy).Contents (Elt F) → (⟨S204800x1, .i32⟩ : BufTy).Contents (Elt F)),
    StableHlo.unary main_v1036 main_v1093 (broadcastInDim S204800x1 ![0] bcast_S204800_S204800x1_0 : (⟨S204800, .i32⟩ : BufTy).Contents (Elt F) → (⟨S204800x1, .i32⟩ : BufTy).Contents (Elt F)),
    StableHlo.unary main_v1041 main_v1094 (broadcastInDim S204800x1 ![0] bcast_S204800_S204800x1_0 : (⟨S204800, .i32⟩ : BufTy).Contents (Elt F) → (⟨S204800x1, .i32⟩ : BufTy).Contents (Elt F)),
    StableHlo.unary main_v1046 main_v1095 (broadcastInDim S204800x1 ![0] bcast_S204800_S204800x1_0 : (⟨S204800, .i32⟩ : BufTy).Contents (Elt F) → (⟨S204800x1, .i32⟩ : BufTy).Contents (Elt F)),
    StableHlo.unary main_v1051 main_v1096 (broadcastInDim S204800x1 ![0] bcast_S204800_S204800x1_0 : (⟨S204800, .i32⟩ : BufTy).Contents (Elt F) → (⟨S204800x1, .i32⟩ : BufTy).Contents (Elt F)),
    StableHlo.unary main_v1056 main_v1097 (broadcastInDim S204800x1 ![0] bcast_S204800_S204800x1_0 : (⟨S204800, .i32⟩ : BufTy).Contents (Elt F) → (⟨S204800x1, .i32⟩ : BufTy).Contents (Elt F)),
    StableHlo.unary main_v1061 main_v1098 (broadcastInDim S204800x1 ![0] bcast_S204800_S204800x1_0 : (⟨S204800, .i32⟩ : BufTy).Contents (Elt F) → (⟨S204800x1, .i32⟩ : BufTy).Contents (Elt F)),
    StableHlo.unary main_v1066 main_v1099 (broadcastInDim S204800x1 ![0] bcast_S204800_S204800x1_0 : (⟨S204800, .i32⟩ : BufTy).Contents (Elt F) → (⟨S204800x1, .i32⟩ : BufTy).Contents (Elt F)),
    StableHlo.unary main_v1071 main_v1100 (broadcastInDim S204800x1 ![0] bcast_S204800_S204800x1_0 : (⟨S204800, .i32⟩ : BufTy).Contents (Elt F) → (⟨S204800x1, .i32⟩ : BufTy).Contents (Elt F)),
    StableHlo.unary main_v1076 main_v1101 (broadcastInDim S204800x1 ![0] bcast_S204800_S204800x1_0 : (⟨S204800, .i32⟩ : BufTy).Contents (Elt F) → (⟨S204800x1, .i32⟩ : BufTy).Contents (Elt F)),
    StableHlo.unary main_v1081 main_v1102 (broadcastInDim S204800x1 ![0] bcast_S204800_S204800x1_0 : (⟨S204800, .i32⟩ : BufTy).Contents (Elt F) → (⟨S204800x1, .i32⟩ : BufTy).Contents (Elt F)),
    StableHlo.nary ![main_v1082, main_v1083, main_v1084, main_v1085, main_v1086, main_v1087, main_v1088, main_v1089, main_v1090, main_v1091, main_v1092, main_v1093, main_v1094, main_v1095, main_v1096, main_v1097] main_v1103 (fun u => concatenate S204800x16 1 [⟨S204800x1, u 0⟩, ⟨S204800x1, u 1⟩, ⟨S204800x1, u 2⟩, ⟨S204800x1, u 3⟩, ⟨S204800x1, u 4⟩, ⟨S204800x1, u 5⟩, ⟨S204800x1, u 6⟩, ⟨S204800x1, u 7⟩, ⟨S204800x1, u 8⟩, ⟨S204800x1, u 9⟩, ⟨S204800x1, u 10⟩, ⟨S204800x1, u 11⟩, ⟨S204800x1, u 12⟩, ⟨S204800x1, u 13⟩, ⟨S204800x1, u 14⟩, ⟨S204800x1, u 15⟩] concatenates_S204800x1_S204800x1_S204800x1_S204800x1_S204800x1_S204800x1_S204800x1_S204800x1_S204800x1_S204800x1_S204800x1_S204800x1_S204800x1_S204800x1_S204800x1_S204800x1_S204800x16_d1),
    StableHlo.nary ![main_v1098, main_v1099, main_v1100, main_v1101, main_v1102] main_v1104 (fun u => concatenate S204800x5 1 [⟨S204800x1, u 0⟩, ⟨S204800x1, u 1⟩, ⟨S204800x1, u 2⟩, ⟨S204800x1, u 3⟩, ⟨S204800x1, u 4⟩] concatenates_S204800x1_S204800x1_S204800x1_S204800x1_S204800x1_S204800x5_d1),
    StableHlo.binary main_v1103 main_v1104 main_v1105 ((fun a b => concatenate S204800x21 1 [⟨S204800x16, a⟩, ⟨S204800x5, b⟩] concatenates_S204800x16_S204800x5_S204800x21_d1) : (⟨S204800x16, .i32⟩ : BufTy).Contents (Elt F) → (⟨S204800x5, .i32⟩ : BufTy).Contents (Elt F) → (⟨S204800x21, .i32⟩ : BufTy).Contents (Elt F)),
    StableHlo.unary main_c main_v1106 (broadcastInDim S1x21 ![1] bcast_S21_S1x21_1 : (⟨S21, .i32⟩ : BufTy).Contents (Elt F) → (⟨S1x21, .i32⟩ : BufTy).Contents (Elt F)),
    StableHlo.unary main_v1106 main_v1107 (broadcastInDim S204800x21 ![0, 1] bcast_S1x21_S204800x21_0_1 : (⟨S1x21, .i32⟩ : BufTy).Contents (Elt F) → (⟨S204800x21, .i32⟩ : BufTy).Contents (Elt F)),
    StableHlo.binary main_v1105 main_v1107 main_v1108 (addi : (⟨S204800x21, .i32⟩ : BufTy).Contents (Elt F) → (⟨S204800x21, .i32⟩ : BufTy).Contents (Elt F) → (⟨S204800x21, .i32⟩ : BufTy).Contents (Elt F)),
    StableHlo.unary main_v1108 main_v1109 ((extractStridedSlice S204800x7 ![0, 0] · slices_S204800x21_S204800x7_0_0) : (⟨S204800x21, .i32⟩ : BufTy).Contents (Elt F) → (⟨S204800x7, .i32⟩ : BufTy).Contents (Elt F)),
    StableHlo.unary main_v1108 main_v1110 ((extractStridedSlice S204800x7 ![0, 1] · slices_S204800x21_S204800x7_0_1) : (⟨S204800x21, .i32⟩ : BufTy).Contents (Elt F) → (⟨S204800x7, .i32⟩ : BufTy).Contents (Elt F)),
    StableHlo.unary main_v1108 main_v1111 ((extractStridedSlice S204800x7 ![0, 2] · slices_S204800x21_S204800x7_0_2) : (⟨S204800x21, .i32⟩ : BufTy).Contents (Elt F) → (⟨S204800x7, .i32⟩ : BufTy).Contents (Elt F)),
    StableHlo.unary main_v1108 main_v1112 ((extractStridedSlice S204800x7 ![0, 3] · slices_S204800x21_S204800x7_0_3) : (⟨S204800x21, .i32⟩ : BufTy).Contents (Elt F) → (⟨S204800x7, .i32⟩ : BufTy).Contents (Elt F)),
    StableHlo.unary main_v1108 main_v1113 ((extractStridedSlice S204800x7 ![0, 4] · slices_S204800x21_S204800x7_0_4) : (⟨S204800x21, .i32⟩ : BufTy).Contents (Elt F) → (⟨S204800x7, .i32⟩ : BufTy).Contents (Elt F)),
    StableHlo.unary main_v1108 main_v1114 ((extractStridedSlice S204800x7 ![0, 5] · slices_S204800x21_S204800x7_0_5) : (⟨S204800x21, .i32⟩ : BufTy).Contents (Elt F) → (⟨S204800x7, .i32⟩ : BufTy).Contents (Elt F)),
    StableHlo.unary main_v1108 main_v1115 ((extractStridedSlice S204800x7 ![0, 6] · slices_S204800x21_S204800x7_0_6) : (⟨S204800x21, .i32⟩ : BufTy).Contents (Elt F) → (⟨S204800x7, .i32⟩ : BufTy).Contents (Elt F)),
    StableHlo.unary main_v1108 main_v1116 ((extractStridedSlice S204800x7 ![0, 7] · slices_S204800x21_S204800x7_0_7) : (⟨S204800x21, .i32⟩ : BufTy).Contents (Elt F) → (⟨S204800x7, .i32⟩ : BufTy).Contents (Elt F)),
    StableHlo.unary main_v1108 main_v1117 ((extractStridedSlice S204800x7 ![0, 8] · slices_S204800x21_S204800x7_0_8) : (⟨S204800x21, .i32⟩ : BufTy).Contents (Elt F) → (⟨S204800x7, .i32⟩ : BufTy).Contents (Elt F)),
    StableHlo.unary main_v1108 main_v1118 ((extractStridedSlice S204800x7 ![0, 9] · slices_S204800x21_S204800x7_0_9) : (⟨S204800x21, .i32⟩ : BufTy).Contents (Elt F) → (⟨S204800x7, .i32⟩ : BufTy).Contents (Elt F)),
    StableHlo.unary main_v1108 main_v1119 ((extractStridedSlice S204800x7 ![0, 10] · slices_S204800x21_S204800x7_0_10) : (⟨S204800x21, .i32⟩ : BufTy).Contents (Elt F) → (⟨S204800x7, .i32⟩ : BufTy).Contents (Elt F)),
    StableHlo.unary main_v1108 main_v1120 ((extractStridedSlice S204800x7 ![0, 11] · slices_S204800x21_S204800x7_0_11) : (⟨S204800x21, .i32⟩ : BufTy).Contents (Elt F) → (⟨S204800x7, .i32⟩ : BufTy).Contents (Elt F)),
    StableHlo.unary main_v1108 main_v1121 ((extractStridedSlice S204800x7 ![0, 12] · slices_S204800x21_S204800x7_0_12) : (⟨S204800x21, .i32⟩ : BufTy).Contents (Elt F) → (⟨S204800x7, .i32⟩ : BufTy).Contents (Elt F)),
    StableHlo.unary main_v1108 main_v1122 ((extractStridedSlice S204800x7 ![0, 13] · slices_S204800x21_S204800x7_0_13) : (⟨S204800x21, .i32⟩ : BufTy).Contents (Elt F) → (⟨S204800x7, .i32⟩ : BufTy).Contents (Elt F)),
    StableHlo.unary main_v1108 main_v1123 ((extractStridedSlice S204800x7 ![0, 14] · slices_S204800x21_S204800x7_0_14) : (⟨S204800x21, .i32⟩ : BufTy).Contents (Elt F) → (⟨S204800x7, .i32⟩ : BufTy).Contents (Elt F)),
    StableHlo.nary ![main_v1109, main_v1110, main_v1111, main_v1112, main_v1113, main_v1114, main_v1115, main_v1116, main_v1117, main_v1118, main_v1119, main_v1120, main_v1121, main_v1122, main_v1123] main_v1124 (fun u => concatenate S3072000x7 0 [⟨S204800x7, u 0⟩, ⟨S204800x7, u 1⟩, ⟨S204800x7, u 2⟩, ⟨S204800x7, u 3⟩, ⟨S204800x7, u 4⟩, ⟨S204800x7, u 5⟩, ⟨S204800x7, u 6⟩, ⟨S204800x7, u 7⟩, ⟨S204800x7, u 8⟩, ⟨S204800x7, u 9⟩, ⟨S204800x7, u 10⟩, ⟨S204800x7, u 11⟩, ⟨S204800x7, u 12⟩, ⟨S204800x7, u 13⟩, ⟨S204800x7, u 14⟩] concatenates_S204800x7_S204800x7_S204800x7_S204800x7_S204800x7_S204800x7_S204800x7_S204800x7_S204800x7_S204800x7_S204800x7_S204800x7_S204800x7_S204800x7_S204800x7_S3072000x7_d0),
    StableHlo.nullary main_c_365 (constantI S_ 32 120000#32),
    StableHlo.unary main_c_365 main_v1125 (broadcastInDim S3072000x7 ![] bcast_S_S3072000x7 : (⟨S_, .i32⟩ : BufTy).Contents (Elt F) → (⟨S3072000x7, .i32⟩ : BufTy).Contents (Elt F)),
    StableHlo.binary main_v1124 main_v1125 main_v1126 (cmpi .ne : (⟨S3072000x7, .i32⟩ : BufTy).Contents (Elt F) → (⟨S3072000x7, .i32⟩ : BufTy).Contents (Elt F) → (⟨S3072000x7, .i1⟩ : BufTy).Contents (Elt F)),
    StableHlo.nullary main_c_366 (constantI S_ 32 3550#32),
    StableHlo.unary main_c_366 main_v1127 (broadcastInDim S3072000x7 ![] bcast_S_S3072000x7 : (⟨S_, .i32⟩ : BufTy).Contents (Elt F) → (⟨S3072000x7, .i32⟩ : BufTy).Contents (Elt F)),
    StableHlo.binary main_v1124 main_v1127 main_v1128 (cmpi .sge : (⟨S3072000x7, .i32⟩ : BufTy).Contents (Elt F) → (⟨S3072000x7, .i32⟩ : BufTy).Contents (Elt F) → (⟨S3072000x7, .i1⟩ : BufTy).Contents (Elt F)),
    StableHlo.binary main_v1126 main_v1128 main_v1129 (andi : (⟨S3072000x7, .i1⟩ : BufTy).Contents (Elt F) → (⟨S3072000x7, .i1⟩ : BufTy).Contents (Elt F) → (⟨S3072000x7, .i1⟩ : BufTy).Contents (Elt F)),
    StableHlo.nullary main_c_367 (constantI S_ 32 3550#32) ]

/-- Window 25 of the entry function: its 6 operations, calls inlined. -/
abbrev ops25 : List (HloOp τ sig (Elt F)) :=
  [ StableHlo.unary main_c_367 main_v1130 (broadcastInDim S3072000x7 ![] bcast_S_S3072000x7 : (⟨S_, .i32⟩ : BufTy).Contents (Elt F) → (⟨S3072000x7, .i32⟩ : BufTy).Contents (Elt F)),
    StableHlo.binary main_v1124 main_v1130 main_v1131 (subi : (⟨S3072000x7, .i32⟩ : BufTy).Contents (Elt F) → (⟨S3072000x7, .i32⟩ : BufTy).Contents (Elt F) → (⟨S3072000x7, .i32⟩ : BufTy).Contents (Elt F)),
    StableHlo.nullary main_c_368 (constantI S_ 32 9100#32),
    StableHlo.unary main_c_368 main_v1132 (broadcastInDim S3072000x7 ![] bcast_S_S3072000x7 : (⟨S_, .i32⟩ : BufTy).Contents (Elt F) → (⟨S3072000x7, .i32⟩ : BufTy).Contents (Elt F)),
    StableHlo.binary main_v1131 main_v1132 main_v1133 (addi : (⟨S3072000x7, .i32⟩ : BufTy).Contents (Elt F) → (⟨S3072000x7, .i32⟩ : BufTy).Contents (Elt F) → (⟨S3072000x7, .i32⟩ : BufTy).Contents (Elt F)),
    StableHlo.TRef.ternary (.of main_v1129 : StableHlo.TRef sig ⟨S3072000x7, .i1⟩) (.of main_v1133 : StableHlo.TRef sig ⟨S3072000x7, .i32⟩) (.of main_v1124 : StableHlo.TRef sig ⟨S3072000x7, .i32⟩) (.of main_v1134 : StableHlo.TRef sig ⟨S3072000x7, .i32⟩) select ]

end Cert.ReferenceIdeal.Hand

end
-- ==== Proof.ROps.lean ====
import proofs.«416388_j86139864089342_3_alg».proof.Proof.RRunOps

noncomputable section

namespace Cert.ReferenceIdeal.Hand

open Idealize.ShloMosaic Idealize.SL.Sem Cert.ReferenceIdeal

variable {F : FTy → Type} [FloatOps F]

noncomputable abbrev ops : List (HloOp τ sig (Elt F)) :=
    ops0 ++ ops1 ++ ops2 ++ ops3 ++ ops4 ++ ops5 ++ ops6 ++ ops7 ++ ops8 ++
    ops9 ++ ops10 ++ ops11 ++ ops12 ++ ops13 ++ ops14 ++ ops15 ++ ops16 ++ ops17 ++
    ops18 ++ ops19 ++ ops20 ++ ops21 ++ ops22 ++ ops23 ++ ops24 ++ ops25

theorem ops_eq : (ops : List (HloOp τ sig (Elt F))) =
    ops0 ++ ops1 ++ ops2 ++ ops3 ++ ops4 ++ ops5 ++ ops6 ++ ops7 ++ ops8 ++
    ops9 ++ ops10 ++ ops11 ++ ops12 ++ ops13 ++ ops14 ++ ops15 ++ ops16 ++ ops17 ++
    ops18 ++ ops19 ++ ops20 ++ ops21 ++ ops22 ++ ops23 ++ ops24 ++ ops25 := rfl

end Cert.ReferenceIdeal.Hand

end
-- ==== Proof.RPlain.lean ====
import proofs.«416388_j86139864089342_3_alg».proof.ReferenceIdeal
import proofs.«416388_j86139864089342_3_alg».proof.Proof.LibWrites

noncomputable section

namespace Cert.ReferenceIdeal.Hand

open Idealize.ShloMosaic Idealize.SL.Sem Idealize.ShloMosaic.StableHlo Cert.ReferenceIdeal

variable {Val : EltTy → Type}

/-- What the run theorem asks of an operation; the seven arguments are buffers 0 … 6. -/
structure Plain (op : HloOp τ sig Val) : Prop where
  sub : op.bufs ⊆ tcRefs τ sig
  fresh : op.fresh = ∅
  high : WritesFrom 7 op

theorem plain_of_single {op : HloOp τ sig Val} {y : Ref sig .tc} (hs : op.bufs ⊆ tcRefs τ sig) (hf : op.fresh = ∅)
    (hw : op.writes = {Proc.devRef .tc y}) (hy : 7 ≤ y.idx.val) : Plain op :=
  ⟨hs, hf, writesFrom_of_single hw hy⟩

section Builders

variable (x a b c y : Ref sig .tc)

theorem plain_nullary (v : y.ty.Contents Val) (hy) (h : 7 ≤ y.idx.val) : Plain (nullary (τ := τ) y v hy) :=
  plain_of_single (nullary_bufs_sub ..) rfl (nullary_writes ..) h

theorem plain_unary (f : x.ty.Contents Val → y.ty.Contents Val) (hx hy) (h : 7 ≤ y.idx.val) :
    Plain (unary (τ := τ) x y f hx hy) :=
  plain_of_single (unary_bufs_sub ..) rfl (unary_writes ..) h

theorem plain_binary (f : a.ty.Contents Val → b.ty.Contents Val → y.ty.Contents Val) (ha hb hy) (h : 7 ≤ y.idx.val) :
    Plain (binary (τ := τ) a b y f ha hb hy) :=
  plain_of_single (binary_bufs_sub ..) rfl (binary_writes ..) h

theorem plain_ternary (f : c.ty.Contents Val → a.ty.Contents Val → b.ty.Contents Val → y.ty.Contents Val) (hc ha hb hy)
    (h : 7 ≤ y.idx.val) : Plain (ternary (τ := τ) c a b y f hc ha hb hy) :=
  plain_of_single (ternary_bufs_sub ..) rfl (ternary_writes ..) h

theorem plain_reshape (he hn hx hy) (h : 7 ≤ y.idx.val) : Plain (reshape (τ := τ) (Val := Val) x y he hn hx hy) :=
  plain_of_single (reshape_bufs_sub ..) rfl (reshape_writes ..) h

theorem plain_nary {n : Nat} (xs : Fin n → Ref sig .tc) (f : ((k : Fin n) → (xs k).ty.Contents Val) → y.ty.Contents Val)
    (hxs hy) (h : 7 ≤ y.idx.val) : Plain (nary (τ := τ) xs y f hxs hy) :=
  plain_of_single (nary_bufs_sub ..) rfl (nary_writes ..) h

end Builders

macro "plain_ops" : tactic => `(tactic|
  repeat' (first
    | apply And.intro
    | exact plain_unary _ _ _ _ _ (by decide)
    | exact plain_binary _ _ _ _ _ _ _ (by decide)
    | exact plain_nullary _ _ _ (by decide)
    | exact plain_ternary _ _ _ _ _ _ _ _ _ (by decide)
    | exact plain_reshape _ _ _ _ _ _ (by decide)
    | exact plain_nary _ _ _ _ _ (by decide)))

/-- A printed window unfolds, callees included, to the chain of steps that is the run of its listed operations. -/
macro "window_eq " w:ident : tactic => `(tactic|
  (simp only [$w:ident, fn_where.body, fn_where_0.body, fn_where_1.body, fn_where_2.body, fn_clip.body,
     StableHlo.seq, bind_assoc, pure_bind] <;> rfl))

variable {ops ops' : List (HloOp τ sig Val)}

def AllPlain (ops : List (HloOp τ sig Val)) : Prop := ∀ op ∈ ops, Plain op

theorem AllPlain.of_forall (h : ops.Forall Plain) : AllPlain ops := List.forall_iff_forall_mem.1 h

theorem AllPlain.append (h : AllPlain ops) (h' : AllPlain ops') : AllPlain (ops ++ ops') :=
  fun op hop => (List.mem_append.1 hop).elim (h op) (h' op)

theorem AllPlain.forall_sub (h : AllPlain ops) : ops.Forall fun op => op.bufs ⊆ tcRefs τ sig :=
  List.forall_iff_forall_mem.2 fun op hop => (h op hop).sub

theorem AllPlain.forall_fresh (h : AllPlain ops) : ∀ op ∈ ops, op.fresh = ∅ :=
  fun op hop => (h op hop).fresh

theorem AllPlain.kept (h : AllPlain ops) (V : Valuation τ sig Val) {r : Ref sig .tc} (hr : r.idx.val < 7) :
    after ops V (Proc.devRef .tc r) = V (Proc.devRef .tc r) :=
  AllFrom.kept (fun op hop => (h op hop).high) V hr

end Cert.ReferenceIdeal.Hand

end
-- ==== Proof.RWinA.lean ====
import proofs.«416388_j86139864089342_3_alg».proof.Proof.RRunOps
import proofs.«416388_j86139864089342_3_alg».proof.Proof.RPlain

set_option maxRecDepth 4096

noncomputable section

namespace Cert.ReferenceIdeal.Hand

open Idealize.ShloMosaic Idealize.SL.Sem Cert.ReferenceIdeal

variable {F : FTy → Type} [FloatOps F]

theorem main_part0_eq (d : Dev nD) : main_part0 (F := F) d = StableHlo.seq ops0 := by window_eq main_part0
theorem ops0_plain : AllPlain (ops0 (F := F)) := .of_forall (by plain_ops)

theorem main_part1_eq (d : Dev nD) : main_part1 (F := F) d = StableHlo.seq ops1 := by window_eq main_part1
theorem ops1_plain : AllPlain (ops1 (F := F)) := .of_forall (by plain_ops)

theorem main_part2_eq (d : Dev nD) : main_part2 (F := F) d = StableHlo.seq ops2 := by window_eq main_part2
theorem ops2_plain : AllPlain (ops2 (F := F)) := .of_forall (by plain_ops)

theorem main_part3_eq (d : Dev nD) : main_part3 (F := F) d = StableHlo.seq ops3 := by window_eq main_part3
theorem ops3_plain : AllPlain (ops3 (F := F)) := .of_forall (by plain_ops)

theorem main_part4_eq (d : Dev nD) : main_part4 (F := F) d = StableHlo.seq ops4 := by window_eq main_part4
theorem ops4_plain : AllPlain (ops4 (F := F)) := .of_forall (by plain_ops)

theorem main_part5_eq (d : Dev nD) : main_part5 (F := F) d = StableHlo.seq ops5 := by window_eq main_part5
theorem ops5_plain : AllPlain (ops5 (F := F)) := .of_forall (by plain_ops)

theorem main_part6_eq (d : Dev nD) : main_part6 (F := F) d = StableHlo.seq ops6 := by window_eq main_part6
theorem ops6_plain : AllPlain (ops6 (F := F)) := .of_forall (by plain_ops)

end Cert.ReferenceIdeal.Hand

end
-- ==== Proof.RWinB.lean ====
import proofs.«416388_j86139864089342_3_alg».proof.Proof.RRunOps
import proofs.«416388_j86139864089342_3_alg».proof.Proof.RPlain

set_option maxRecDepth 4096

noncomputable section

namespace Cert.ReferenceIdeal.Hand

open Idealize.ShloMosaic Idealize.SL.Sem Cert.ReferenceIdeal

variable {F : FTy → Type} [FloatOps F]

theorem main_part7_eq (d : Dev nD) : main_part7 (F := F) d = StableHlo.seq ops7 := by window_eq main_part7
theorem ops7_plain : AllPlain (ops7 (F := F)) := .of_forall (by plain_ops)

theorem main_part8_eq (d : Dev nD) : main_part8 (F := F) d = StableHlo.seq ops8 := by window_eq main_part8
theorem ops8_plain : AllPlain (ops8 (F := F)) := .of_forall (by plain_ops)

theorem main_part9_eq (d : Dev nD) : main_part9 (F := F) d = StableHlo.seq ops9 := by window_eq main_part9
theorem ops9_plain : AllPlain (ops9 (F := F)) := .of_forall (by plain_ops)

theorem main_part10_eq (d : Dev nD) : main_part10 (F := F) d = StableHlo.seq ops10 := by window_eq main_part10
theorem ops10_plain : AllPlain (ops10 (F := F)) := .of_forall (by plain_ops)

theorem main_part11_eq (d : Dev nD) : main_part11 (F := F) d = StableHlo.seq ops11 := by window_eq main_part11
theorem ops11_plain : AllPlain (ops11 (F := F)) := .of_forall (by plain_ops)

theorem main_part12_eq (d : Dev nD) : main_part12 (F := F) d = StableHlo.seq ops12 := by window_eq main_part12
theorem ops12_plain : AllPlain (ops12 (F := F)) := .of_forall (by plain_ops)

theorem main_part13_eq (d : Dev nD) : main_part13 (F := F) d = StableHlo.seq ops13 := by window_eq main_part13
theorem ops13_plain : AllPlain (ops13 (F := F)) := .of_forall (by plain_ops)

end Cert.ReferenceIdeal.Hand

end
-- ==== Proof.RWinC.lean ====
import proofs.«416388_j86139864089342_3_alg».proof.Proof.RRunOps
import proofs.«416388_j86139864089342_3_alg».proof.Proof.RPlain

set_option maxRecDepth 4096

noncomputable section

namespace Cert.ReferenceIdeal.Hand

open Idealize.ShloMosaic Idealize.SL.Sem Cert.ReferenceIdeal

variable {F : FTy → Type} [FloatOps F]

theorem main_part14_eq (d : Dev nD) : main_part14 (F := F) d = StableHlo.seq ops14 := by window_eq main_part14
theorem ops14_plain : AllPlain (ops14 (F := F)) := .of_forall (by plain_ops)

theorem main_part15_eq (d : Dev nD) : main_part15 (F := F) d = StableHlo.seq ops15 := by window_eq main_part15
theorem ops15_plain : AllPlain (ops15 (F := F)) := .of_forall (by plain_ops)

theorem main_part16_eq (d : Dev nD) : main_part16 (F := F) d = StableHlo.seq ops16 := by window_eq main_part16
theorem ops16_plain : AllPlain (ops16 (F := F)) := .of_forall (by plain_ops)

theorem main_part17_eq (d : Dev nD) : main_part17 (F := F) d = StableHlo.seq ops17 := by window_eq main_part17
theorem ops17_plain : AllPlain (ops17 (F := F)) := .of_forall (by plain_ops)

theorem main_part18_eq (d : Dev nD) : main_part18 (F := F) d = StableHlo.seq ops18 := by window_eq main_part18
theorem ops18_plain : AllPlain (ops18 (F := F)) := .of_forall (by plain_ops)

theorem main_part19_eq (d : Dev nD) : main_part19 (F := F) d = StableHlo.seq ops19 := by window_eq main_part19
theorem ops19_plain : AllPlain (ops19 (F := F)) := .of_forall (by plain_ops)

theorem main_part20_eq (d : Dev nD) : main_part20 (F := F) d = StableHlo.seq ops20 := by window_eq main_part20
theorem ops20_plain : AllPlain (ops20 (F := F)) := .of_forall (by plain_ops)

end Cert.ReferenceIdeal.Hand

end
-- ==== Proof.RWinD.lean ====
import proofs.«416388_j86139864089342_3_alg».proof.Proof.RRunOps
import proofs.«416388_j86139864089342_3_alg».proof.Proof.RPlain

set_option maxRecDepth 4096

noncomputable section

namespace Cert.ReferenceIdeal.Hand

open Idealize.ShloMosaic Idealize.SL.Sem Cert.ReferenceIdeal

variable {F : FTy → Type} [FloatOps F]

theorem main_part21_eq (d : Dev nD) : main_part21 (F := F) d = StableHlo.seq ops21 := by window_eq main_part21
theorem ops21_plain : AllPlain (ops21 (F := F)) := .of_forall (by plain_ops)

theorem main_part22_eq (d : Dev nD) : main_part22 (F := F) d = StableHlo.seq ops22 := by window_eq main_part22
theorem ops22_plain : AllPlain (ops22 (F := F)) := .of_forall (by plain_ops)

theorem main_part23_eq (d : Dev nD) : main_part23 (F := F) d = StableHlo.seq ops23 := by window_eq main_part23
theorem ops23_plain : AllPlain (ops23 (F := F)) := .of_forall (by plain_ops)

theorem main_part24_eq (d : Dev nD) : main_part24 (F := F) d = StableHlo.seq ops24 := by window_eq main_part24
theorem ops24_plain : AllPlain (ops24 (F := F)) := .of_forall (by plain_ops)

theorem main_part25_eq (d : Dev nD) : main_part25 (F := F) d = StableHlo.seq ops25 := by window_eq main_part25
theorem ops25_plain : AllPlain (ops25 (F := F)) := .of_forall (by plain_ops)

end Cert.ReferenceIdeal.Hand

end
-- ==== Proof.RRun.lean ====
import proofs.«416388_j86139864089342_3_alg».proof.Proof.ROps
import proofs.«416388_j86139864089342_3_alg».proof.Proof.RWinA
import proofs.«416388_j86139864089342_3_alg».proof.Proof.RWinB
import proofs.«416388_j86139864089342_3_alg».proof.Proof.RWinC
import proofs.«416388_j86139864089342_3_alg».proof.Proof.RWinD
import proofs.«416388_j86139864089342_3_alg».proof.Proof.Gen.Pre_finite_inputs
import proofs.«416388_j86139864089342_3_alg».proof.Defs

noncomputable section

namespace Cert.ReferenceIdeal.Hand

open Idealize.ShloMosaic Idealize.SL.Sem Idealize.ShloMosaic.StableHlo Cert.ReferenceIdeal

theorem seq_windows {nD : Nat} {τ : Topo} {sig : RefSig} {Val : EltTy → Type} {Λ : Labels}
    (l0 l1 l2 l3 l4 l5 l6 l7 l8 l9 l10 l11 l12 l13 l14 l15 l16 l17 l18 l19 l20 l21 l22 l23 l24 l25 :
      List (HloOp τ sig Val)) :
    (seq (l0 ++ l1 ++ l2 ++ l3 ++ l4 ++ l5 ++ l6 ++ l7 ++ l8 ++ l9 ++ l10 ++ l11 ++ l12 ++ l13 ++ l14 ++ l15 ++ l16
        ++ l17 ++ l18 ++ l19 ++ l20 ++ l21 ++ l22 ++ l23 ++ l24 ++ l25) : Prog (TpuEff nD τ sig Val Λ .tc) PUnit) = (do
      seq l0; seq l1; seq l2; seq l3; seq l4; seq l5; seq l6; seq l7; seq l8; seq l9; seq l10; seq l11; seq l12
      seq l13; seq l14; seq l15; seq l16; seq l17; seq l18; seq l19; seq l20; seq l21; seq l22; seq l23; seq l24
      seq l25) := by
  simp only [seq_append, bind_assoc]

variable {F : FTy → Type} [FloatOps F]

theorem main_eq (d : Dev nD) : main (F := F) d = seq ops := by
  rw [ops_eq, seq_windows, main, main_part0_eq, main_part1_eq, main_part2_eq, main_part3_eq, main_part4_eq,
    main_part5_eq, main_part6_eq, main_part7_eq, main_part8_eq, main_part9_eq, main_part10_eq, main_part11_eq,
    main_part12_eq, main_part13_eq, main_part14_eq, main_part15_eq, main_part16_eq, main_part17_eq, main_part18_eq,
    main_part19_eq, main_part20_eq, main_part21_eq, main_part22_eq, main_part23_eq, main_part24_eq, main_part25_eq]

theorem ops_plain : AllPlain (ops (F := F)) :=
  ops0_plain |>.append ops1_plain |>.append ops2_plain |>.append ops3_plain |>.append ops4_plain |>.append ops5_plain |>.append ops6_plain |>.append ops7_plain |>.append ops8_plain
    |>.append ops9_plain |>.append ops10_plain |>.append ops11_plain |>.append ops12_plain |>.append ops13_plain |>.append ops14_plain |>.append ops15_plain |>.append ops16_plain |>.append ops17_plain
    |>.append ops18_plain |>.append ops19_plain |>.append ops20_plain |>.append ops21_plain |>.append ops22_plain |>.append ops23_plain |>.append ops24_plain |>.append ops25_plain

theorem scopedRefs_eq : (Finset.univ.filter fun b : Ref sig .tc => b.isScoped) = ∅ := by
  set_option maxRecDepth 8000 in decide

theorem scopedSems_eq : (Finset.univ.filter fun sm : SemLoc sig => sm.isScoped .tc) = ∅ := by decide

theorem run_of_plain (l : List (HloOp τ sig (Elt F))) (hmain : ∀ d, main (F := F) d = seq l) (hp : AllPlain l)
    (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after l (StableHlo.launchContents m d) (Proc.devRef .tc b) :=
  run_seq scopedRefs_eq scopedSems_eq defs main (fun _ => l) hmain (fun _ => hp.forall_sub) m ρ
    (fun _ => hp.forall_fresh)

theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_of_plain ops main_eq ops_plain m ρ

theorem kept_arg (V : Valuation τ sig (Elt F)) {r : Ref sig .tc} (hr : r.idx.val < 7) :
    StableHlo.after ops V (Proc.devRef .tc r) = V (Proc.devRef .tc r) := ops_plain.kept V hr

theorem frame : Cert.frame_ReferenceIdeal := fun m g _ =>
  (θ_run _ _ _).mono
    (fun _ h c => ⟨(h c main_arg0).trans (kept_arg _ (by decide)), (h c main_arg1).trans (kept_arg _ (by decide)),
      (h c main_arg2).trans (kept_arg _ (by decide)), (h c main_arg3).trans (kept_arg _ (by decide)), (h c main_arg4).trans (kept_arg _ (by decide)),
      (h c main_arg5).trans (kept_arg _ (by decide)), (h c main_arg6).trans (kept_arg _ (by decide))⟩)
    (run (F := Ideal) m g)

end Cert.ReferenceIdeal.Hand

end
-- ==== Proof.RPostOps.lean ====
import proofs.«416388_j86139864089342_3_alg».proof.Proof.RRunOps
import proofs.«416388_j86139864089342_3_alg».proof.Proof.RPlain

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Facts]

noncomputable abbrev posStack : List (HloOp τ sig (Elt F)) := (ops21.drop 6).take 27
noncomputable abbrev posClip : List (HloOp τ sig (Elt F)) := (ops21.drop 33).take 7
noncomputable abbrev posWin : List (HloOp τ sig (Elt F)) := (ops21.drop 40).take 16
noncomputable abbrev posRemap : List (HloOp τ sig (Elt F)) := (ops21.drop 56) ++ ops22.take 6
noncomputable abbrev negStart : List (HloOp τ sig (Elt F)) := (ops22.drop 6).take 3
noncomputable abbrev negStack : List (HloOp τ sig (Elt F)) := (ops24.drop 9).take 27
noncomputable abbrev negWin : List (HloOp τ sig (Elt F)) := (ops24.drop 36).take 16
noncomputable abbrev negRemap : List (HloOp τ sig (Elt F)) := (ops24.drop 52) ++ ops25

noncomputable abbrev posOps : List (HloOp τ sig (Elt F)) := posStack ++ posClip ++ posWin ++ posRemap

noncomputable abbrev negDraws : List (HloOp τ sig (Elt F)) := (ops22.drop 9) ++ ops23 ++ ops24.take 9

noncomputable abbrev negOps : List (HloOp τ sig (Elt F)) := negStart ++ negDraws ++ negStack ++ negWin ++ negRemap

end Cert.ReferenceIdeal.Hand

end
-- ==== Proof.RNum.lean ====
import proofs.«416388_j86139864089342_3_alg».proof.Proof.RRunOps
import proofs.«416388_j86139864089342_3_alg».proof.Proof.RPlain

noncomputable section

namespace Cert.ReferenceIdeal.Hand

open Idealize.ShloMosaic Idealize.SL.Sem Cert.ReferenceIdeal

variable {F : FTy → Type} [FloatOps F]

theorem ops0_num : Numbered 7 (ops0 (F := F)) := by numbered
theorem ops1_num : Numbered 78 (ops1 (F := F)) := by numbered
theorem ops2_num : Numbered 151 (ops2 (F := F)) := by numbered
theorem ops3_num : Numbered 219 (ops3 (F := F)) := by numbered
theorem ops4_num : Numbered 292 (ops4 (F := F)) := by numbered
theorem ops5_num : Numbered 363 (ops5 (F := F)) := by numbered
theorem ops6_num : Numbered 436 (ops6 (F := F)) := by numbered
theorem ops7_num : Numbered 509 (ops7 (F := F)) := by numbered
theorem ops8_num : Numbered 582 (ops8 (F := F)) := by numbered
theorem ops9_num : Numbered 655 (ops9 (F := F)) := by numbered
theorem ops10_num : Numbered 726 (ops10 (F := F)) := by numbered
theorem ops11_num : Numbered 799 (ops11 (F := F)) := by numbered
theorem ops12_num : Numbered 872 (ops12 (F := F)) := by numbered
theorem ops13_num : Numbered 945 (ops13 (F := F)) := by numbered
theorem ops14_num : Numbered 1018 (ops14 (F := F)) := by numbered
theorem ops15_num : Numbered 1091 (ops15 (F := F)) := by numbered
theorem ops16_num : Numbered 1164 (ops16 (F := F)) := by numbered
theorem ops17_num : Numbered 1237 (ops17 (F := F)) := by numbered
theorem ops18_num : Numbered 1308 (ops18 (F := F)) := by numbered
theorem ops19_num : Numbered 1381 (ops19 (F := F)) := by numbered
theorem ops20_num : Numbered 1452 (ops20 (F := F)) := by numbered
theorem ops21_num : Numbered 1525 (ops21 (F := F)) := by numbered
theorem ops22_num : Numbered 1589 (ops22 (F := F)) := by numbered
theorem ops23_num : Numbered 1649 (ops23 (F := F)) := by numbered
theorem ops24_num : Numbered 1709 (ops24 (F := F)) := by numbered
theorem ops25_num : Numbered 1769 (ops25 (F := F)) := by numbered

end Cert.ReferenceIdeal.Hand

end
-- ==== Proof.RSplit.lean ====
import proofs.«416388_j86139864089342_3_alg».proof.Proof.ROps
import proofs.«416388_j86139864089342_3_alg».proof.Proof.RPostOps
import proofs.«416388_j86139864089342_3_alg».proof.Proof.RNum
import Idealize.ShloMosaic.Lib.Pipeline.Regions
import Idealize.ShloMosaic.Lib.Pipeline.Frame

noncomputable section

namespace Cert.ReferenceIdeal.Hand

open Idealize.ShloMosaic Idealize.SL.Sem Idealize.ShloMosaic.StableHlo Cert.ReferenceIdeal

theorem take_append_drop_append {α : Type} (n : ℕ) (l X : List α) : l.take n ++ (l.drop n ++ X) = l ++ X := by
  rw [← List.append_assoc, List.take_append_drop]

def chunks {α : Type} : List ℕ → List α → List (List α)
  | [], P => [P]
  | n :: ns, P => P.take n :: chunks ns (P.drop n)

theorem flatten_chunks {α : Type} : ∀ (ns : List ℕ) (P : List α), (chunks ns P).flatten = P
  | [], P => by simp only [chunks, List.flatten_cons, List.flatten_nil, List.append_nil]
  | n :: ns, P => by rw [chunks, List.flatten_cons, flatten_chunks ns, List.take_append_drop]

theorem flat4 {α : Type} (a b c d : List α) : a ++ b ++ c ++ d = [a, b, c, d].flatten := by
  simp only [List.flatten_cons, List.flatten_nil, List.append_nil, List.append_assoc]

theorem split_windows {α : Type} (l0 l1 l2 l3 l4 l5 l6 l7 l8 l9 l10 l11 l12 l13 l14 l15 l16 l17 l18 l19 l20 l21 l22 l23 l24 l25 : List α) :
    l0 ++ l1 ++ l2 ++ l3 ++ l4 ++ l5 ++ l6 ++ l7 ++ l8 ++ l9 ++ l10 ++ l11 ++ l12 ++ l13 ++ l14 ++ l15 ++ l16 ++ l17 ++ l18 ++ l19 ++ l20 ++ l21 ++ l22 ++ l23 ++ l24 ++ l25
      = l0 ++ (l1 ++ l2 ++ l3 ++ l4 ++ l5 ++ l6 ++ l7 ++ l8 ++ l9 ++ l10 ++ l11 ++ l12 ++ l13 ++ l14 ++ l15 ++ l16 ++ l17 ++ l18 ++ l19 ++ l20 ++ l21.take 6)
          ++ (l21.drop 6 ++ l22.take 6) ++ (l22.drop 6 ++ l23 ++ l24 ++ l25) := by
  simp only [List.append_assoc, take_append_drop_append]

variable {F : FTy → Type} [FloatOps F]

noncomputable abbrev midOps : List (HloOp τ sig (Elt F)) :=
  ops1 ++ ops2 ++ ops3 ++ ops4 ++ ops5 ++ ops6 ++ ops7 ++ ops8 ++ ops9 ++ ops10 ++ ops11 ++ ops12 ++ ops13 ++ ops14 ++ ops15 ++ ops16 ++ ops17 ++ ops18 ++ ops19 ++ ops20 ++ List.take 6 ops21

theorem posOps_eq : List.drop 6 (ops21 (F := F)) ++ List.take 6 ops22 = posOps := rfl

theorem negOps_eq : List.drop 6 (ops22 (F := F)) ++ ops23 ++ ops24 ++ ops25 = negOps :=
  (flat4 _ _ _ _).trans ((congrArg List.flatten
    (show [List.drop 6 (ops22 (F := F)), ops23, ops24, ops25] = chunks [54, 60, 60] negOps from by chain_rfl)).trans (flatten_chunks _ _))

theorem ops_split : (ops (F := F)) = ops0 ++ midOps ++ posOps ++ negOps :=
  (split_windows ops0 ops1 ops2 ops3 ops4 ops5 ops6 ops7 ops8 ops9 ops10 ops11 ops12 ops13 ops14 ops15 ops16 ops17 ops18 ops19 ops20 ops21 ops22 ops23 ops24 ops25).trans (by rw [posOps_eq, negOps_eq])

theorem after_ops (V : Valuation τ sig (Elt F)) :
    after ops V = after negOps (after posOps (after midOps (after ops0 V))) := by
  rw [ops_split, StableHlo.after_append (ops0 ++ midOps ++ posOps) negOps,
    StableHlo.after_append (ops0 ++ midOps) posOps, StableHlo.after_append ops0 midOps]

theorem posOps_from : AllFrom 1531 (posOps (F := F)) := by
  rw [← posOps_eq]
  exact (ops21_num.drop 6).allFrom.append ((ops22_num.allFrom.mono (by decide)).take 6)

theorem negOps_from : AllFrom 1595 (negOps (F := F)) := by
  rw [← negOps_eq]
  exact (((ops22_num.drop 6).allFrom.append (ops23_num.allFrom.mono (by decide))).append
    (ops24_num.allFrom.mono (by decide))).append (ops25_num.allFrom.mono (by decide))

theorem ops0_cons : (ops0 (F := F)) = StableHlo.nullary main_c (fun i => lit0 (S21.rowMajor i)) :: ops0.tail := rfl

theorem ops0_tail_from : AllFrom 8 (ops0 (F := F)).tail := (ops0_num.drop 1).allFrom

private theorem fr {b : ℕ} {l : List (HloOp τ sig (Elt F))} (h : Numbered b l) (hb : 8 ≤ b := by decide) : AllFrom 8 l :=
  h.allFrom.mono hb

theorem midOps_from : AllFrom 8 (midOps (F := F)) :=
  (fr ops1_num) |>.append (fr ops2_num) |>.append (fr ops3_num) |>.append (fr ops4_num) |>.append (fr ops5_num) |>.append (fr ops6_num) |>.append (fr ops7_num) |>.append (fr ops8_num) |>.append (fr ops9_num) |>.append (fr ops10_num) |>.append (fr ops11_num) |>.append (fr ops12_num) |>.append (fr ops13_num) |>.append (fr ops14_num) |>.append (fr ops15_num) |>.append (fr ops16_num) |>.append (fr ops17_num) |>.append (fr ops18_num) |>.append (fr ops19_num) |>.append (fr ops20_num)
    |>.append ((fr ops21_num).take 6)

theorem mid_main_c (V : Valuation τ sig (Elt F)) :
    after midOps (after ops0 V) (Proc.devRef .tc main_c) = fun i => lit0 (S21.rowMajor i) := by
  rw [midOps_from.kept _ (by decide), ops0_cons, after_cons, ops0_tail_from.kept _ (by decide)]
  exact StableHlo.nullary_result ..

theorem pos_main_c (V : Valuation τ sig (Elt F)) :
    after posOps (after midOps (after ops0 V)) (Proc.devRef .tc main_c) = fun i => lit0 (S21.rowMajor i) := by
  rw [posOps_from.kept _ (by decide)]
  exact mid_main_c V

theorem after_ops_of_lt (V : Valuation τ sig (Elt F)) {r : Ref sig .tc} (hr : r.idx.val < 1531) :
    after ops V (Proc.devRef .tc r) = after midOps (after ops0 V) (Proc.devRef .tc r) := by
  rw [after_ops, negOps_from.kept _ (by omega), posOps_from.kept _ hr]

theorem after_ops_pos (V : Valuation τ sig (Elt F)) :
    after ops V (Proc.devRef .tc main_v978) = after posOps (after midOps (after ops0 V)) (Proc.devRef .tc main_v978) := by
  rw [after_ops, negOps_from.kept _ (by decide)]

theorem mid_of_lt (V : Valuation τ sig (Elt F)) {r : Ref sig .tc} (hr : r.idx.val < 7) :
    after midOps (after ops0 V) (Proc.devRef .tc r) = V (Proc.devRef .tc r) := by
  rw [midOps_from.kept _ (by omega), ops0_num.allFrom.kept _ hr]

theorem pos_of_lt (V : Valuation τ sig (Elt F)) {r : Ref sig .tc} (hr : r.idx.val < 7) :
    after posOps (after midOps (after ops0 V)) (Proc.devRef .tc r) = V (Proc.devRef .tc r) := by
  rw [posOps_from.kept _ (by omega)]
  exact mid_of_lt V hr

end Cert.ReferenceIdeal.Hand

end
-- ==== Proof.RStep.lean ====
import proofs.«416388_j86139864089342_3_alg».proof.ReferenceIdeal

noncomputable section

namespace Cert.ReferenceIdeal.Hand

open Idealize.ShloMosaic Cert.ReferenceIdeal Cert.ReferenceIdeal.Facts₀

variable {F : FTy → Type} [FloatOps F] [Facts₀]

def bc (x : BitVec 32) : IVec S204800 32 := broadcastInDim S204800 ![] bcast_S_S204800 (constantI S_ 32 x)

def asCol (v : IVec S204800 32) : IVec S204800x1 32 := broadcastInDim S204800x1 ![0] bcast_S204800_S204800x1_0 v

def wrapIdx (n : BitVec 32) (v : IVec S204800 32) : IVec S204800 32 :=
  select (cmpi .slt v (bc 0#32)) (addi v (bc n)) v

def aliveOf (cur : IVec S204800 32) : IVec S204800 1 := cmpi .slt cur (bc 120000#32)

def safeOf (cur : IVec S204800 32) : IVec S204800 32 := select (aliveOf cur) cur (bc 0#32)

def rowcountOf (alive : IVec S204800 1) (rcRaw : IVec S204800 32) : IVec S204800 32 := select alive rcRaw (bc 0#32)

def okOf (rowcount : IVec S204800 32) : IVec S204800 1 := cmpi .sgt rowcount (bc 0#32)

def offOf (ok : IVec S204800 1) (offRaw : IVec S204800 32) : IVec S204800 32 := select ok offRaw (bc 0#32)

def pickIdx (u : FVec F S204800 .f32) (rowcount off : IVec S204800 32) : IVec S204800 32 :=
  addi (fptosi 32 (mulf u (sitofp .f32 rowcount))) off

def clipIdx (hi : BitVec 32) (idx : IVec S204800 32) : IVec S204800 32 := minsi (bc hi) (maxsi (bc 0#32) idx)

def sampleTail (hi ncol : BitVec 32) (look : IVec S204800x1 32 → IVec S204800 32) (alive : IVec S204800 1)
    (rcRaw offRaw : IVec S204800 32) (u : FVec F S204800 .f32) : IVec S204800 32 :=
  select (okOf (rowcountOf alive rcRaw))
    (look (asCol (wrapIdx ncol (clipIdx hi (pickIdx u (rowcountOf alive rcRaw) (offOf (okOf (rowcountOf alive rcRaw)) offRaw))))))
    (bc 120000#32)

def ptrAd (rowptr : IVec S3551 32) (i : IVec S204800x1 32) : IVec S204800 32 :=
  Host.gather gather_S3551_S204800x1_S204800_n_0_n_n_0_1_1 rowptr i
def ptrDa (rowptr : IVec S20001 32) (i : IVec S204800x1 32) : IVec S204800 32 :=
  Host.gather gather_S20001_S204800x1_S204800_n_0_n_n_0_1_1 rowptr i

def idxHi (n : BitVec 32) (cur : IVec S204800 32) : IVec S204800x1 32 := asCol (wrapIdx n (addi (safeOf cur) (bc 1#32)))
def idxLo (n : BitVec 32) (cur : IVec S204800 32) : IVec S204800x1 32 := asCol (wrapIdx n (safeOf cur))

def rcRawAd (rowptr : IVec S3551 32) (cur : IVec S204800 32) : IVec S204800 32 :=
  subi (ptrAd rowptr (idxHi 3551#32 cur)) (ptrAd rowptr (idxLo 3551#32 cur))
def offRawAd (rowptr : IVec S3551 32) (cur : IVec S204800 32) : IVec S204800 32 := ptrAd rowptr (idxLo 3551#32 cur)

def rcRawDa (rowptr : IVec S20001 32) (cur : IVec S204800 32) : IVec S204800 32 :=
  subi (ptrDa rowptr (idxHi 20001#32 cur)) (ptrDa rowptr (idxLo 20001#32 cur))
def offRawDa (rowptr : IVec S20001 32) (cur : IVec S204800 32) : IVec S204800 32 := ptrDa rowptr (idxLo 20001#32 cur)

def lookAd (col : IVec S217264 32) (i : IVec S204800x1 32) : IVec S204800 32 :=
  Host.gather gather_S217264_S204800x1_S204800_n_0_n_n_0_1_1 col i
def lookDa (col : IVec S302235 32) (i : IVec S204800x1 32) : IVec S204800 32 :=
  Host.gather gather_S302235_S204800x1_S204800_n_0_n_n_0_1_1 col i

def stepR_ad (rowptr : IVec S3551 32) (col : IVec S217264 32) (cur : IVec S204800 32) (u : FVec F S204800 .f32) :
    IVec S204800 32 :=
  sampleTail 217263#32 217264#32 (lookAd col) (aliveOf cur) (rcRawAd rowptr cur) (offRawAd rowptr cur) u

def stepR_da (rowptr : IVec S20001 32) (col : IVec S302235 32) (cur : IVec S204800 32) (u : FVec F S204800 .f32) :
    IVec S204800 32 :=
  sampleTail 302234#32 302235#32 (lookDa col) (aliveOf cur) (rcRawDa rowptr cur) (offRawDa rowptr cur) u

def tile (batch : IVec S2048 32) : IVec S204800 32 :=
  shapeCast S204800 (broadcastInDim S100x2048 ![0, 1] bcast_S1x2048_S100x2048_0_1 (shapeCast S1x2048 batch shapeCasts_S2048_S1x2048))
    shapeCasts_S100x2048_S204800

def ucol_0 (pr : FVec F S204800x20 .f32) : FVec F S204800 .f32 :=
  shapeCast S204800 (extractStridedSlice S204800x1 ![0, 0] pr slices_S204800x20_S204800x1_0_0) shapeCasts_S204800x1_S204800

def ucol_1 (pr : FVec F S204800x20 .f32) : FVec F S204800 .f32 :=
  shapeCast S204800 (extractStridedSlice S204800x1 ![0, 1] pr slices_S204800x20_S204800x1_0_1) shapeCasts_S204800x1_S204800

def ucol_2 (pr : FVec F S204800x20 .f32) : FVec F S204800 .f32 :=
  shapeCast S204800 (extractStridedSlice S204800x1 ![0, 2] pr slices_S204800x20_S204800x1_0_2) shapeCasts_S204800x1_S204800

def ucol_3 (pr : FVec F S204800x20 .f32) : FVec F S204800 .f32 :=
  shapeCast S204800 (extractStridedSlice S204800x1 ![0, 3] pr slices_S204800x20_S204800x1_0_3) shapeCasts_S204800x1_S204800

def ucol_4 (pr : FVec F S204800x20 .f32) : FVec F S204800 .f32 :=
  shapeCast S204800 (extractStridedSlice S204800x1 ![0, 4] pr slices_S204800x20_S204800x1_0_4) shapeCasts_S204800x1_S204800

def ucol_5 (pr : FVec F S204800x20 .f32) : FVec F S204800 .f32 :=
  shapeCast S204800 (extractStridedSlice S204800x1 ![0, 5] pr slices_S204800x20_S204800x1_0_5) shapeCasts_S204800x1_S204800

def ucol_6 (pr : FVec F S204800x20 .f32) : FVec F S204800 .f32 :=
  shapeCast S204800 (extractStridedSlice S204800x1 ![0, 6] pr slices_S204800x20_S204800x1_0_6) shapeCasts_S204800x1_S204800

def ucol_7 (pr : FVec F S204800x20 .f32) : FVec F S204800 .f32 :=
  shapeCast S204800 (extractStridedSlice S204800x1 ![0, 7] pr slices_S204800x20_S204800x1_0_7) shapeCasts_S204800x1_S204800

def ucol_8 (pr : FVec F S204800x20 .f32) : FVec F S204800 .f32 :=
  shapeCast S204800 (extractStridedSlice S204800x1 ![0, 8] pr slices_S204800x20_S204800x1_0_8) shapeCasts_S204800x1_S204800

def ucol_9 (pr : FVec F S204800x20 .f32) : FVec F S204800 .f32 :=
  shapeCast S204800 (extractStridedSlice S204800x1 ![0, 9] pr slices_S204800x20_S204800x1_0_9) shapeCasts_S204800x1_S204800

def ucol_10 (pr : FVec F S204800x20 .f32) : FVec F S204800 .f32 :=
  shapeCast S204800 (extractStridedSlice S204800x1 ![0, 10] pr slices_S204800x20_S204800x1_0_10) shapeCasts_S204800x1_S204800

def ucol_11 (pr : FVec F S204800x20 .f32) : FVec F S204800 .f32 :=
  shapeCast S204800 (extractStridedSlice S204800x1 ![0, 11] pr slices_S204800x20_S204800x1_0_11) shapeCasts_S204800x1_S204800

def ucol_12 (pr : FVec F S204800x20 .f32) : FVec F S204800 .f32 :=
  shapeCast S204800 (extractStridedSlice S204800x1 ![0, 12] pr slices_S204800x20_S204800x1_0_12) shapeCasts_S204800x1_S204800

def ucol_13 (pr : FVec F S204800x20 .f32) : FVec F S204800 .f32 :=
  shapeCast S204800 (extractStridedSlice S204800x1 ![0, 13] pr slices_S204800x20_S204800x1_0_13) shapeCasts_S204800x1_S204800

def ucol_14 (pr : FVec F S204800x20 .f32) : FVec F S204800 .f32 :=
  shapeCast S204800 (extractStridedSlice S204800x1 ![0, 14] pr slices_S204800x20_S204800x1_0_14) shapeCasts_S204800x1_S204800

def ucol_15 (pr : FVec F S204800x20 .f32) : FVec F S204800 .f32 :=
  shapeCast S204800 (extractStridedSlice S204800x1 ![0, 15] pr slices_S204800x20_S204800x1_0_15) shapeCasts_S204800x1_S204800

def ucol_16 (pr : FVec F S204800x20 .f32) : FVec F S204800 .f32 :=
  shapeCast S204800 (extractStridedSlice S204800x1 ![0, 16] pr slices_S204800x20_S204800x1_0_16) shapeCasts_S204800x1_S204800

def ucol_17 (pr : FVec F S204800x20 .f32) : FVec F S204800 .f32 :=
  shapeCast S204800 (extractStridedSlice S204800x1 ![0, 17] pr slices_S204800x20_S204800x1_0_17) shapeCasts_S204800x1_S204800

def ucol_18 (pr : FVec F S204800x20 .f32) : FVec F S204800 .f32 :=
  shapeCast S204800 (extractStridedSlice S204800x1 ![0, 18] pr slices_S204800x20_S204800x1_0_18) shapeCasts_S204800x1_S204800

def ucol_19 (pr : FVec F S204800x20 .f32) : FVec F S204800 .f32 :=
  shapeCast S204800 (extractStridedSlice S204800x1 ![0, 19] pr slices_S204800x20_S204800x1_0_19) shapeCasts_S204800x1_S204800

def ucol (i : ℕ) (pr : FVec F S204800x20 .f32) : FVec F S204800 .f32 :=
  match i with
  | 0 => ucol_0 pr
  | 1 => ucol_1 pr
  | 2 => ucol_2 pr
  | 3 => ucol_3 pr
  | 4 => ucol_4 pr
  | 5 => ucol_5 pr
  | 6 => ucol_6 pr
  | 7 => ucol_7 pr
  | 8 => ucol_8 pr
  | 9 => ucol_9 pr
  | 10 => ucol_10 pr
  | 11 => ucol_11 pr
  | 12 => ucol_12 pr
  | 13 => ucol_13 pr
  | 14 => ucol_14 pr
  | 15 => ucol_15 pr
  | 16 => ucol_16 pr
  | 17 => ucol_17 pr
  | 18 => ucol_18 pr
  | 19 => ucol_19 pr
  | _ => ucol_0 pr

end Cert.ReferenceIdeal.Hand

end
-- ==== Proof.RHostS0.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA0 : List (HloOp τ sig (Elt F)) := (ops0.drop 4).take 31
noncomputable abbrev stepB0 : List (HloOp τ sig (Elt F)) := (ops0.drop 35).take 20
noncomputable abbrev stepC0 : List (HloOp τ sig (Elt F)) := (ops0.drop 55) ++ ops1.take 9

theorem stepA0_from : AllFrom 11 (stepA0 (F := F)) := ((ops0_num.drop 4).allFrom).take 31
theorem stepB0_from : AllFrom 42 (stepB0 (F := F)) := ((ops0_num.drop 35).allFrom).take 20
theorem stepC0_from : AllFrom 62 (stepC0 (F := F)) := ((ops0_num.drop 55).allFrom).append ((ops1_num.allFrom.mono (by decide)).take 9)

/-- What each stretch of the step leaves in the buffers the next one reads; a stretch's slice is evaluated once for all its reads. -/
theorem stepA0_reads (W : Valuation τ sig (Elt F)) :
    after (stepA0 (F := F)) W (Proc.devRef .tc main_v4) = ucol_0 (W (Proc.devRef .tc main_arg0))
    ∧ after (stepA0 (F := F)) W (Proc.devRef .tc main_v6) = aliveOf (W (Proc.devRef .tc main_v2))
    ∧ after (stepA0 (F := F)) W (Proc.devRef .tc main_v7) = safeOf (W (Proc.devRef .tc main_v2))
    ∧ after (stepA0 (F := F)) W (Proc.devRef .tc main_v24) = rcRawAd (W (Proc.devRef .tc main_arg3)) (W (Proc.devRef .tc main_v2)) := by
  open_slices stepA0, ops0
  refine ⟨?_, ?_, ?_, ?_⟩ <;> read_values

theorem stepB0_reads (W : Valuation τ sig (Elt F)) :
    after (stepB0 (F := F)) W (Proc.devRef .tc main_v25) = rowcountOf (W (Proc.devRef .tc main_v6)) (W (Proc.devRef .tc main_v24))
    ∧ after (stepB0 (F := F)) W (Proc.devRef .tc main_v27) = okOf (rowcountOf (W (Proc.devRef .tc main_v6)) (W (Proc.devRef .tc main_v24)))
    ∧ after (stepB0 (F := F)) W (Proc.devRef .tc main_v35) =
        offOf (okOf (rowcountOf (W (Proc.devRef .tc main_v6)) (W (Proc.devRef .tc main_v24))))
          (ptrAd (W (Proc.devRef .tc main_arg3)) (asCol (wrapIdx 3551#32 (W (Proc.devRef .tc main_v7))))) := by
  open_slices stepB0, ops0
  refine ⟨?_, ?_, ?_⟩ <;> read_values

theorem stepC0_next (W : Valuation τ sig (Elt F)) :
    after (stepC0 (F := F)) W (Proc.devRef .tc main_v48) =
      select (W (Proc.devRef .tc main_v27))
        (lookAd (W (Proc.devRef .tc main_arg4)) (asCol (wrapIdx 217264#32 (clipIdx 217263#32
          (pickIdx (W (Proc.devRef .tc main_v4)) (W (Proc.devRef .tc main_v25)) (W (Proc.devRef .tc main_v35)))))))
        (bc 120000#32) := by
  open_slices stepC0, ops0, ops1
  read_values

noncomputable abbrev stepOps0 : List (HloOp τ sig (Elt F)) := stepA0 ++ (stepB0 ++ stepC0)

theorem step0_keep_lt (W : Valuation τ sig (Elt F)) (r : Ref sig .tc) (h : r.idx.val < 11) :
    after (stepOps0 (F := F)) W (Proc.devRef .tc r) = W (Proc.devRef .tc r) := by
  rw [StableHlo.after_append, StableHlo.after_append, stepC0_from.kept _ (r := r) (by omega), stepB0_from.kept _ (r := r) (by omega),
    stepA0_from.kept _ (r := r) h]

theorem step0_value (W : Valuation τ sig (Elt F)) :
    after (stepOps0 (F := F)) W (Proc.devRef .tc main_v48) =
      stepR_ad (W (Proc.devRef .tc main_arg3)) (W (Proc.devRef .tc main_arg4)) (W (Proc.devRef .tc main_v2))
        (ucol_0 (W (Proc.devRef .tc main_arg0))) := by
  rw [StableHlo.after_append, StableHlo.after_append, stepC0_next, (stepB0_reads _).2.1, (stepB0_reads _).1, (stepB0_reads _).2.2,
    stepB0_from.kept _ (r := main_arg4) (by decide), stepB0_from.kept _ (r := main_v4) (by decide),
    (stepA0_reads _).2.1, (stepA0_reads _).2.2.2, (stepA0_reads _).2.2.1, (stepA0_reads _).1,
    stepA0_from.kept _ (r := main_arg3) (by decide), stepA0_from.kept _ (r := main_arg4) (by decide)]
  rfl

end Cert.ReferenceIdeal.Hand

end
-- ==== Proof.RHostS1.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA1 : List (HloOp τ sig (Elt F)) := (ops1.drop 9).take 31
noncomputable abbrev stepB1 : List (HloOp τ sig (Elt F)) := (ops1.drop 40).take 20
noncomputable abbrev stepC1 : List (HloOp τ sig (Elt F)) := (ops1.drop 60) ++ ops2.take 12

theorem stepA1_from : AllFrom 87 (stepA1 (F := F)) := ((ops1_num.drop 9).allFrom).take 31
theorem stepB1_from : AllFrom 118 (stepB1 (F := F)) := ((ops1_num.drop 40).allFrom).take 20
theorem stepC1_from : AllFrom 138 (stepC1 (F := F)) := ((ops1_num.drop 60).allFrom).append ((ops2_num.allFrom.mono (by decide)).take 12)

/-- What each stretch of the step leaves in the buffers the next one reads; a stretch's slice is evaluated once for all its reads. -/
theorem stepA1_reads (W : Valuation τ sig (Elt F)) :
    after (stepA1 (F := F)) W (Proc.devRef .tc main_v50) = ucol_1 (W (Proc.devRef .tc main_arg0))
    ∧ after (stepA1 (F := F)) W (Proc.devRef .tc main_v52) = aliveOf (W (Proc.devRef .tc main_v48))
    ∧ after (stepA1 (F := F)) W (Proc.devRef .tc main_v53) = safeOf (W (Proc.devRef .tc main_v48))
    ∧ after (stepA1 (F := F)) W (Proc.devRef .tc main_v70) = rcRawDa (W (Proc.devRef .tc main_arg5)) (W (Proc.devRef .tc main_v48)) := by
  open_slices stepA1, ops1
  refine ⟨?_, ?_, ?_, ?_⟩ <;> read_values

theorem stepB1_reads (W : Valuation τ sig (Elt F)) :
    after (stepB1 (F := F)) W (Proc.devRef .tc main_v71) = rowcountOf (W (Proc.devRef .tc main_v52)) (W (Proc.devRef .tc main_v70))
    ∧ after (stepB1 (F := F)) W (Proc.devRef .tc main_v73) = okOf (rowcountOf (W (Proc.devRef .tc main_v52)) (W (Proc.devRef .tc main_v70)))
    ∧ after (stepB1 (F := F)) W (Proc.devRef .tc main_v81) =
        offOf (okOf (rowcountOf (W (Proc.devRef .tc main_v52)) (W (Proc.devRef .tc main_v70))))
          (ptrDa (W (Proc.devRef .tc main_arg5)) (asCol (wrapIdx 20001#32 (W (Proc.devRef .tc main_v53))))) := by
  open_slices stepB1, ops1
  refine ⟨?_, ?_, ?_⟩ <;> read_values

theorem stepC1_next (W : Valuation τ sig (Elt F)) :
    after (stepC1 (F := F)) W (Proc.devRef .tc main_v94) =
      select (W (Proc.devRef .tc main_v73))
        (lookDa (W (Proc.devRef .tc main_arg6)) (asCol (wrapIdx 302235#32 (clipIdx 302234#32
          (pickIdx (W (Proc.devRef .tc main_v50)) (W (Proc.devRef .tc main_v71)) (W (Proc.devRef .tc main_v81)))))))
        (bc 120000#32) := by
  open_slices stepC1, ops1, ops2
  read_values

noncomputable abbrev stepOps1 : List (HloOp τ sig (Elt F)) := stepA1 ++ (stepB1 ++ stepC1)

theorem step1_keep_lt (W : Valuation τ sig (Elt F)) (r : Ref sig .tc) (h : r.idx.val < 87) :
    after (stepOps1 (F := F)) W (Proc.devRef .tc r) = W (Proc.devRef .tc r) := by
  rw [StableHlo.after_append, StableHlo.after_append, stepC1_from.kept _ (r := r) (by omega), stepB1_from.kept _ (r := r) (by omega),
    stepA1_from.kept _ (r := r) h]

theorem step1_value (W : Valuation τ sig (Elt F)) :
    after (stepOps1 (F := F)) W (Proc.devRef .tc main_v94) =
      stepR_da (W (Proc.devRef .tc main_arg5)) (W (Proc.devRef .tc main_arg6)) (W (Proc.devRef .tc main_v48))
        (ucol_1 (W (Proc.devRef .tc main_arg0))) := by
  rw [StableHlo.after_append, StableHlo.after_append, stepC1_next, (stepB1_reads _).2.1, (stepB1_reads _).1, (stepB1_reads _).2.2,
    stepB1_from.kept _ (r := main_arg6) (by decide), stepB1_from.kept _ (r := main_v50) (by decide),
    (stepA1_reads _).2.1, (stepA1_reads _).2.2.2, (stepA1_reads _).2.2.1, (stepA1_reads _).1,
    stepA1_from.kept _ (r := main_arg5) (by decide), stepA1_from.kept _ (r := main_arg6) (by decide)]
  rfl

end Cert.ReferenceIdeal.Hand

end
-- ==== Proof.RHostS2.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA2 : List (HloOp τ sig (Elt F)) := (ops2.drop 12).take 31
noncomputable abbrev stepB2 : List (HloOp τ sig (Elt F)) := (ops2.drop 43).take 20
noncomputable abbrev stepC2 : List (HloOp τ sig (Elt F)) := (ops2.drop 63) ++ ops3.take 20

theorem stepA2_from : AllFrom 163 (stepA2 (F := F)) := ((ops2_num.drop 12).allFrom).take 31
theorem stepB2_from : AllFrom 194 (stepB2 (F := F)) := ((ops2_num.drop 43).allFrom).take 20
theorem stepC2_from : AllFrom 214 (stepC2 (F := F)) := ((ops2_num.drop 63).allFrom).append ((ops3_num.allFrom.mono (by decide)).take 20)

/-- What each stretch of the step leaves in the buffers the next one reads; a stretch's slice is evaluated once for all its reads. -/
theorem stepA2_reads (W : Valuation τ sig (Elt F)) :
    after (stepA2 (F := F)) W (Proc.devRef .tc main_v96) = ucol_2 (W (Proc.devRef .tc main_arg0))
    ∧ after (stepA2 (F := F)) W (Proc.devRef .tc main_v98) = aliveOf (W (Proc.devRef .tc main_v94))
    ∧ after (stepA2 (F := F)) W (Proc.devRef .tc main_v99) = safeOf (W (Proc.devRef .tc main_v94))
    ∧ after (stepA2 (F := F)) W (Proc.devRef .tc main_v116) = rcRawAd (W (Proc.devRef .tc main_arg3)) (W (Proc.devRef .tc main_v94)) := by
  open_slices stepA2, ops2
  refine ⟨?_, ?_, ?_, ?_⟩ <;> read_values

theorem stepB2_reads (W : Valuation τ sig (Elt F)) :
    after (stepB2 (F := F)) W (Proc.devRef .tc main_v117) = rowcountOf (W (Proc.devRef .tc main_v98)) (W (Proc.devRef .tc main_v116))
    ∧ after (stepB2 (F := F)) W (Proc.devRef .tc main_v119) = okOf (rowcountOf (W (Proc.devRef .tc main_v98)) (W (Proc.devRef .tc main_v116)))
    ∧ after (stepB2 (F := F)) W (Proc.devRef .tc main_v127) =
        offOf (okOf (rowcountOf (W (Proc.devRef .tc main_v98)) (W (Proc.devRef .tc main_v116))))
          (ptrAd (W (Proc.devRef .tc main_arg3)) (asCol (wrapIdx 3551#32 (W (Proc.devRef .tc main_v99))))) := by
  open_slices stepB2, ops2
  refine ⟨?_, ?_, ?_⟩ <;> read_values

theorem stepC2_next (W : Valuation τ sig (Elt F)) :
    after (stepC2 (F := F)) W (Proc.devRef .tc main_v140) =
      select (W (Proc.devRef .tc main_v119))
        (lookAd (W (Proc.devRef .tc main_arg4)) (asCol (wrapIdx 217264#32 (clipIdx 217263#32
          (pickIdx (W (Proc.devRef .tc main_v96)) (W (Proc.devRef .tc main_v117)) (W (Proc.devRef .tc main_v127)))))))
        (bc 120000#32) := by
  open_slices stepC2, ops2, ops3
  read_values

noncomputable abbrev stepOps2 : List (HloOp τ sig (Elt F)) := stepA2 ++ (stepB2 ++ stepC2)

theorem step2_keep_lt (W : Valuation τ sig (Elt F)) (r : Ref sig .tc) (h : r.idx.val < 163) :
    after (stepOps2 (F := F)) W (Proc.devRef .tc r) = W (Proc.devRef .tc r) := by
  rw [StableHlo.after_append, StableHlo.after_append, stepC2_from.kept _ (r := r) (by omega), stepB2_from.kept _ (r := r) (by omega),
    stepA2_from.kept _ (r := r) h]

theorem step2_value (W : Valuation τ sig (Elt F)) :
    after (stepOps2 (F := F)) W (Proc.devRef .tc main_v140) =
      stepR_ad (W (Proc.devRef .tc main_arg3)) (W (Proc.devRef .tc main_arg4)) (W (Proc.devRef .tc main_v94))
        (ucol_2 (W (Proc.devRef .tc main_arg0))) := by
  rw [StableHlo.after_append, StableHlo.after_append, stepC2_next, (stepB2_reads _).2.1, (stepB2_reads _).1, (stepB2_reads _).2.2,
    stepB2_from.kept _ (r := main_arg4) (by decide), stepB2_from.kept _ (r := main_v96) (by decide),
    (stepA2_reads _).2.1, (stepA2_reads _).2.2.2, (stepA2_reads _).2.2.1, (stepA2_reads _).1,
    stepA2_from.kept _ (r := main_arg3) (by decide), stepA2_from.kept _ (r := main_arg4) (by decide)]
  rfl

end Cert.ReferenceIdeal.Hand

end
-- ==== Proof.RHostS3.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA3 : List (HloOp τ sig (Elt F)) := (ops3.drop 20).take 31
noncomputable abbrev stepB3 : List (HloOp τ sig (Elt F)) := (ops3.drop 51).take 20
noncomputable abbrev stepC3 : List (HloOp τ sig (Elt F)) := (ops3.drop 71) ++ ops4.take 23

theorem stepA3_from : AllFrom 239 (stepA3 (F := F)) := ((ops3_num.drop 20).allFrom).take 31
theorem stepB3_from : AllFrom 270 (stepB3 (F := F)) := ((ops3_num.drop 51).allFrom).take 20
theorem stepC3_from : AllFrom 290 (stepC3 (F := F)) := ((ops3_num.drop 71).allFrom).append ((ops4_num.allFrom.mono (by decide)).take 23)

/-- What each stretch of the step leaves in the buffers the next one reads; a stretch's slice is evaluated once for all its reads. -/
theorem stepA3_reads (W : Valuation τ sig (Elt F)) :
    after (stepA3 (F := F)) W (Proc.devRef .tc main_v142) = ucol_3 (W (Proc.devRef .tc main_arg0))
    ∧ after (stepA3 (F := F)) W (Proc.devRef .tc main_v144) = aliveOf (W (Proc.devRef .tc main_v140))
    ∧ after (stepA3 (F := F)) W (Proc.devRef .tc main_v145) = safeOf (W (Proc.devRef .tc main_v140))
    ∧ after (stepA3 (F := F)) W (Proc.devRef .tc main_v162) = rcRawDa (W (Proc.devRef .tc main_arg5)) (W (Proc.devRef .tc main_v140)) := by
  open_slices stepA3, ops3
  refine ⟨?_, ?_, ?_, ?_⟩ <;> read_values

theorem stepB3_reads (W : Valuation τ sig (Elt F)) :
    after (stepB3 (F := F)) W (Proc.devRef .tc main_v163) = rowcountOf (W (Proc.devRef .tc main_v144)) (W (Proc.devRef .tc main_v162))
    ∧ after (stepB3 (F := F)) W (Proc.devRef .tc main_v165) = okOf (rowcountOf (W (Proc.devRef .tc main_v144)) (W (Proc.devRef .tc main_v162)))
    ∧ after (stepB3 (F := F)) W (Proc.devRef .tc main_v173) =
        offOf (okOf (rowcountOf (W (Proc.devRef .tc main_v144)) (W (Proc.devRef .tc main_v162))))
          (ptrDa (W (Proc.devRef .tc main_arg5)) (asCol (wrapIdx 20001#32 (W (Proc.devRef .tc main_v145))))) := by
  open_slices stepB3, ops3
  refine ⟨?_, ?_, ?_⟩ <;> read_values

theorem stepC3_next (W : Valuation τ sig (Elt F)) :
    after (stepC3 (F := F)) W (Proc.devRef .tc main_v186) =
      select (W (Proc.devRef .tc main_v165))
        (lookDa (W (Proc.devRef .tc main_arg6)) (asCol (wrapIdx 302235#32 (clipIdx 302234#32
          (pickIdx (W (Proc.devRef .tc main_v142)) (W (Proc.devRef .tc main_v163)) (W (Proc.devRef .tc main_v173)))))))
        (bc 120000#32) := by
  open_slices stepC3, ops3, ops4
  read_values

noncomputable abbrev stepOps3 : List (HloOp τ sig (Elt F)) := stepA3 ++ (stepB3 ++ stepC3)

theorem step3_keep_lt (W : Valuation τ sig (Elt F)) (r : Ref sig .tc) (h : r.idx.val < 239) :
    after (stepOps3 (F := F)) W (Proc.devRef .tc r) = W (Proc.devRef .tc r) := by
  rw [StableHlo.after_append, StableHlo.after_append, stepC3_from.kept _ (r := r) (by omega), stepB3_from.kept _ (r := r) (by omega),
    stepA3_from.kept _ (r := r) h]

theorem step3_value (W : Valuation τ sig (Elt F)) :
    after (stepOps3 (F := F)) W (Proc.devRef .tc main_v186) =
      stepR_da (W (Proc.devRef .tc main_arg5)) (W (Proc.devRef .tc main_arg6)) (W (Proc.devRef .tc main_v140))
        (ucol_3 (W (Proc.devRef .tc main_arg0))) := by
  rw [StableHlo.after_append, StableHlo.after_append, stepC3_next, (stepB3_reads _).2.1, (stepB3_reads _).1, (stepB3_reads _).2.2,
    stepB3_from.kept _ (r := main_arg6) (by decide), stepB3_from.kept _ (r := main_v142) (by decide),
    (stepA3_reads _).2.1, (stepA3_reads _).2.2.2, (stepA3_reads _).2.2.1, (stepA3_reads _).1,
    stepA3_from.kept _ (r := main_arg5) (by decide), stepA3_from.kept _ (r := main_arg6) (by decide)]
  rfl

end Cert.ReferenceIdeal.Hand

end
-- ==== Proof.RHostS4.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA4 : List (HloOp τ sig (Elt F)) := (ops4.drop 23).take 31
noncomputable abbrev stepB4 : List (HloOp τ sig (Elt F)) := (ops4.drop 54) ++ ops5.take 3
noncomputable abbrev stepC4 : List (HloOp τ sig (Elt F)) := (ops5.drop 3).take 25

theorem stepA4_from : AllFrom 315 (stepA4 (F := F)) := ((ops4_num.drop 23).allFrom).take 31
theorem stepB4_from : AllFrom 346 (stepB4 (F := F)) := ((ops4_num.drop 54).allFrom).append ((ops5_num.allFrom.mono (by decide)).take 3)
theorem stepC4_from : AllFrom 366 (stepC4 (F := F)) := ((ops5_num.drop 3).allFrom).take 25

/-- What each stretch of the step leaves in the buffers the next one reads; a stretch's slice is evaluated once for all its reads. -/
theorem stepA4_reads (W : Valuation τ sig (Elt F)) :
    after (stepA4 (F := F)) W (Proc.devRef .tc main_v188) = ucol_4 (W (Proc.devRef .tc main_arg0))
    ∧ after (stepA4 (F := F)) W (Proc.devRef .tc main_v190) = aliveOf (W (Proc.devRef .tc main_v186))
    ∧ after (stepA4 (F := F)) W (Proc.devRef .tc main_v191) = safeOf (W (Proc.devRef .tc main_v186))
    ∧ after (stepA4 (F := F)) W (Proc.devRef .tc main_v208) = rcRawAd (W (Proc.devRef .tc main_arg3)) (W (Proc.devRef .tc main_v186)) := by
  open_slices stepA4, ops4
  refine ⟨?_, ?_, ?_, ?_⟩ <;> read_values

theorem stepB4_reads (W : Valuation τ sig (Elt F)) :
    after (stepB4 (F := F)) W (Proc.devRef .tc main_v209) = rowcountOf (W (Proc.devRef .tc main_v190)) (W (Proc.devRef .tc main_v208))
    ∧ after (stepB4 (F := F)) W (Proc.devRef .tc main_v211) = okOf (rowcountOf (W (Proc.devRef .tc main_v190)) (W (Proc.devRef .tc main_v208)))
    ∧ after (stepB4 (F := F)) W (Proc.devRef .tc main_v219) =
        offOf (okOf (rowcountOf (W (Proc.devRef .tc main_v190)) (W (Proc.devRef .tc main_v208))))
          (ptrAd (W (Proc.devRef .tc main_arg3)) (asCol (wrapIdx 3551#32 (W (Proc.devRef .tc main_v191))))) := by
  open_slices stepB4, ops4, ops5
  refine ⟨?_, ?_, ?_⟩ <;> read_values

theorem stepC4_next (W : Valuation τ sig (Elt F)) :
    after (stepC4 (F := F)) W (Proc.devRef .tc main_v232) =
      select (W (Proc.devRef .tc main_v211))
        (lookAd (W (Proc.devRef .tc main_arg4)) (asCol (wrapIdx 217264#32 (clipIdx 217263#32
          (pickIdx (W (Proc.devRef .tc main_v188)) (W (Proc.devRef .tc main_v209)) (W (Proc.devRef .tc main_v219)))))))
        (bc 120000#32) := by
  open_slices stepC4, ops5
  read_values

noncomputable abbrev stepOps4 : List (HloOp τ sig (Elt F)) := stepA4 ++ (stepB4 ++ stepC4)

theorem step4_keep_lt (W : Valuation τ sig (Elt F)) (r : Ref sig .tc) (h : r.idx.val < 315) :
    after (stepOps4 (F := F)) W (Proc.devRef .tc r) = W (Proc.devRef .tc r) := by
  rw [StableHlo.after_append, StableHlo.after_append, stepC4_from.kept _ (r := r) (by omega), stepB4_from.kept _ (r := r) (by omega),
    stepA4_from.kept _ (r := r) h]

theorem step4_value (W : Valuation τ sig (Elt F)) :
    after (stepOps4 (F := F)) W (Proc.devRef .tc main_v232) =
      stepR_ad (W (Proc.devRef .tc main_arg3)) (W (Proc.devRef .tc main_arg4)) (W (Proc.devRef .tc main_v186))
        (ucol_4 (W (Proc.devRef .tc main_arg0))) := by
  rw [StableHlo.after_append, StableHlo.after_append, stepC4_next, (stepB4_reads _).2.1, (stepB4_reads _).1, (stepB4_reads _).2.2,
    stepB4_from.kept _ (r := main_arg4) (by decide), stepB4_from.kept _ (r := main_v188) (by decide),
    (stepA4_reads _).2.1, (stepA4_reads _).2.2.2, (stepA4_reads _).2.2.1, (stepA4_reads _).1,
    stepA4_from.kept _ (r := main_arg3) (by decide), stepA4_from.kept _ (r := main_arg4) (by decide)]
  rfl

end Cert.ReferenceIdeal.Hand

end
-- ==== Proof.RHostS5.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA5 : List (HloOp τ sig (Elt F)) := (ops5.drop 28).take 31
noncomputable abbrev stepB5 : List (HloOp τ sig (Elt F)) := (ops5.drop 59) ++ ops6.take 6
noncomputable abbrev stepC5 : List (HloOp τ sig (Elt F)) := (ops6.drop 6).take 25

theorem stepA5_from : AllFrom 391 (stepA5 (F := F)) := ((ops5_num.drop 28).allFrom).take 31
theorem stepB5_from : AllFrom 422 (stepB5 (F := F)) := ((ops5_num.drop 59).allFrom).append ((ops6_num.allFrom.mono (by decide)).take 6)
theorem stepC5_from : AllFrom 442 (stepC5 (F := F)) := ((ops6_num.drop 6).allFrom).take 25

/-- What each stretch of the step leaves in the buffers the next one reads; a stretch's slice is evaluated once for all its reads. -/
theorem stepA5_reads (W : Valuation τ sig (Elt F)) :
    after (stepA5 (F := F)) W (Proc.devRef .tc main_v234) = ucol_5 (W (Proc.devRef .tc main_arg0))
    ∧ after (stepA5 (F := F)) W (Proc.devRef .tc main_v236) = aliveOf (W (Proc.devRef .tc main_v232))
    ∧ after (stepA5 (F := F)) W (Proc.devRef .tc main_v237) = safeOf (W (Proc.devRef .tc main_v232))
    ∧ after (stepA5 (F := F)) W (Proc.devRef .tc main_v254) = rcRawDa (W (Proc.devRef .tc main_arg5)) (W (Proc.devRef .tc main_v232)) := by
  open_slices stepA5, ops5
  refine ⟨?_, ?_, ?_, ?_⟩ <;> read_values

theorem stepB5_reads (W : Valuation τ sig (Elt F)) :
    after (stepB5 (F := F)) W (Proc.devRef .tc main_v255) = rowcountOf (W (Proc.devRef .tc main_v236)) (W (Proc.devRef .tc main_v254))
    ∧ after (stepB5 (F := F)) W (Proc.devRef .tc main_v257) = okOf (rowcountOf (W (Proc.devRef .tc main_v236)) (W (Proc.devRef .tc main_v254)))
    ∧ after (stepB5 (F := F)) W (Proc.devRef .tc main_v265) =
        offOf (okOf (rowcountOf (W (Proc.devRef .tc main_v236)) (W (Proc.devRef .tc main_v254))))
          (ptrDa (W (Proc.devRef .tc main_arg5)) (asCol (wrapIdx 20001#32 (W (Proc.devRef .tc main_v237))))) := by
  open_slices stepB5, ops5, ops6
  refine ⟨?_, ?_, ?_⟩ <;> read_values

theorem stepC5_next (W : Valuation τ sig (Elt F)) :
    after (stepC5 (F := F)) W (Proc.devRef .tc main_v278) =
      select (W (Proc.devRef .tc main_v257))
        (lookDa (W (Proc.devRef .tc main_arg6)) (asCol (wrapIdx 302235#32 (clipIdx 302234#32
          (pickIdx (W (Proc.devRef .tc main_v234)) (W (Proc.devRef .tc main_v255)) (W (Proc.devRef .tc main_v265)))))))
        (bc 120000#32) := by
  open_slices stepC5, ops6
  read_values

noncomputable abbrev stepOps5 : List (HloOp τ sig (Elt F)) := stepA5 ++ (stepB5 ++ stepC5)

theorem step5_keep_lt (W : Valuation τ sig (Elt F)) (r : Ref sig .tc) (h : r.idx.val < 391) :
    after (stepOps5 (F := F)) W (Proc.devRef .tc r) = W (Proc.devRef .tc r) := by
  rw [StableHlo.after_append, StableHlo.after_append, stepC5_from.kept _ (r := r) (by omega), stepB5_from.kept _ (r := r) (by omega),
    stepA5_from.kept _ (r := r) h]

theorem step5_value (W : Valuation τ sig (Elt F)) :
    after (stepOps5 (F := F)) W (Proc.devRef .tc main_v278) =
      stepR_da (W (Proc.devRef .tc main_arg5)) (W (Proc.devRef .tc main_arg6)) (W (Proc.devRef .tc main_v232))
        (ucol_5 (W (Proc.devRef .tc main_arg0))) := by
  rw [StableHlo.after_append, StableHlo.after_append, stepC5_next, (stepB5_reads _).2.1, (stepB5_reads _).1, (stepB5_reads _).2.2,
    stepB5_from.kept _ (r := main_arg6) (by decide), stepB5_from.kept _ (r := main_v234) (by decide),
    (stepA5_reads _).2.1, (stepA5_reads _).2.2.2, (stepA5_reads _).2.2.1, (stepA5_reads _).1,
    stepA5_from.kept _ (r := main_arg5) (by decide), stepA5_from.kept _ (r := main_arg6) (by decide)]
  rfl

end Cert.ReferenceIdeal.Hand

end
-- ==== Proof.RHostS6.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA6 : List (HloOp τ sig (Elt F)) := (ops6.drop 31).take 31
noncomputable abbrev stepB6 : List (HloOp τ sig (Elt F)) := (ops6.drop 62) ++ ops7.take 9
noncomputable abbrev stepC6 : List (HloOp τ sig (Elt F)) := (ops7.drop 9).take 25

theorem stepA6_from : AllFrom 467 (stepA6 (F := F)) := ((ops6_num.drop 31).allFrom).take 31
theorem stepB6_from : AllFrom 498 (stepB6 (F := F)) := ((ops6_num.drop 62).allFrom).append ((ops7_num.allFrom.mono (by decide)).take 9)
theorem stepC6_from : AllFrom 518 (stepC6 (F := F)) := ((ops7_num.drop 9).allFrom).take 25

/-- What each stretch of the step leaves in the buffers the next one reads; a stretch's slice is evaluated once for all its reads. -/
theorem stepA6_reads (W : Valuation τ sig (Elt F)) :
    after (stepA6 (F := F)) W (Proc.devRef .tc main_v280) = ucol_6 (W (Proc.devRef .tc main_arg0))
    ∧ after (stepA6 (F := F)) W (Proc.devRef .tc main_v282) = aliveOf (W (Proc.devRef .tc main_v278))
    ∧ after (stepA6 (F := F)) W (Proc.devRef .tc main_v283) = safeOf (W (Proc.devRef .tc main_v278))
    ∧ after (stepA6 (F := F)) W (Proc.devRef .tc main_v300) = rcRawAd (W (Proc.devRef .tc main_arg3)) (W (Proc.devRef .tc main_v278)) := by
  open_slices stepA6, ops6
  refine ⟨?_, ?_, ?_, ?_⟩ <;> read_values

theorem stepB6_reads (W : Valuation τ sig (Elt F)) :
    after (stepB6 (F := F)) W (Proc.devRef .tc main_v301) = rowcountOf (W (Proc.devRef .tc main_v282)) (W (Proc.devRef .tc main_v300))
    ∧ after (stepB6 (F := F)) W (Proc.devRef .tc main_v303) = okOf (rowcountOf (W (Proc.devRef .tc main_v282)) (W (Proc.devRef .tc main_v300)))
    ∧ after (stepB6 (F := F)) W (Proc.devRef .tc main_v311) =
        offOf (okOf (rowcountOf (W (Proc.devRef .tc main_v282)) (W (Proc.devRef .tc main_v300))))
          (ptrAd (W (Proc.devRef .tc main_arg3)) (asCol (wrapIdx 3551#32 (W (Proc.devRef .tc main_v283))))) := by
  open_slices stepB6, ops6, ops7
  refine ⟨?_, ?_, ?_⟩ <;> read_values

theorem stepC6_next (W : Valuation τ sig (Elt F)) :
    after (stepC6 (F := F)) W (Proc.devRef .tc main_v324) =
      select (W (Proc.devRef .tc main_v303))
        (lookAd (W (Proc.devRef .tc main_arg4)) (asCol (wrapIdx 217264#32 (clipIdx 217263#32
          (pickIdx (W (Proc.devRef .tc main_v280)) (W (Proc.devRef .tc main_v301)) (W (Proc.devRef .tc main_v311)))))))
        (bc 120000#32) := by
  open_slices stepC6, ops7
  read_values

noncomputable abbrev stepOps6 : List (HloOp τ sig (Elt F)) := stepA6 ++ (stepB6 ++ stepC6)

theorem step6_keep_lt (W : Valuation τ sig (Elt F)) (r : Ref sig .tc) (h : r.idx.val < 467) :
    after (stepOps6 (F := F)) W (Proc.devRef .tc r) = W (Proc.devRef .tc r) := by
  rw [StableHlo.after_append, StableHlo.after_append, stepC6_from.kept _ (r := r) (by omega), stepB6_from.kept _ (r := r) (by omega),
    stepA6_from.kept _ (r := r) h]

theorem step6_value (W : Valuation τ sig (Elt F)) :
    after (stepOps6 (F := F)) W (Proc.devRef .tc main_v324) =
      stepR_ad (W (Proc.devRef .tc main_arg3)) (W (Proc.devRef .tc main_arg4)) (W (Proc.devRef .tc main_v278))
        (ucol_6 (W (Proc.devRef .tc main_arg0))) := by
  rw [StableHlo.after_append, StableHlo.after_append, stepC6_next, (stepB6_reads _).2.1, (stepB6_reads _).1, (stepB6_reads _).2.2,
    stepB6_from.kept _ (r := main_arg4) (by decide), stepB6_from.kept _ (r := main_v280) (by decide),
    (stepA6_reads _).2.1, (stepA6_reads _).2.2.2, (stepA6_reads _).2.2.1, (stepA6_reads _).1,
    stepA6_from.kept _ (r := main_arg3) (by decide), stepA6_from.kept _ (r := main_arg4) (by decide)]
  rfl

end Cert.ReferenceIdeal.Hand

end
-- ==== Proof.RHostS7.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA7 : List (HloOp τ sig (Elt F)) := (ops7.drop 34).take 31
noncomputable abbrev stepB7 : List (HloOp τ sig (Elt F)) := (ops7.drop 65) ++ ops8.take 12
noncomputable abbrev stepC7 : List (HloOp τ sig (Elt F)) := (ops8.drop 12).take 25

theorem stepA7_from : AllFrom 543 (stepA7 (F := F)) := ((ops7_num.drop 34).allFrom).take 31
theorem stepB7_from : AllFrom 574 (stepB7 (F := F)) := ((ops7_num.drop 65).allFrom).append ((ops8_num.allFrom.mono (by decide)).take 12)
theorem stepC7_from : AllFrom 594 (stepC7 (F := F)) := ((ops8_num.drop 12).allFrom).take 25

/-- What each stretch of the step leaves in the buffers the next one reads; a stretch's slice is evaluated once for all its reads. -/
theorem stepA7_reads (W : Valuation τ sig (Elt F)) :
    after (stepA7 (F := F)) W (Proc.devRef .tc main_v326) = ucol_7 (W (Proc.devRef .tc main_arg0))
    ∧ after (stepA7 (F := F)) W (Proc.devRef .tc main_v328) = aliveOf (W (Proc.devRef .tc main_v324))
    ∧ after (stepA7 (F := F)) W (Proc.devRef .tc main_v329) = safeOf (W (Proc.devRef .tc main_v324))
    ∧ after (stepA7 (F := F)) W (Proc.devRef .tc main_v346) = rcRawDa (W (Proc.devRef .tc main_arg5)) (W (Proc.devRef .tc main_v324)) := by
  open_slices stepA7, ops7
  refine ⟨?_, ?_, ?_, ?_⟩ <;> read_values

theorem stepB7_reads (W : Valuation τ sig (Elt F)) :
    after (stepB7 (F := F)) W (Proc.devRef .tc main_v347) = rowcountOf (W (Proc.devRef .tc main_v328)) (W (Proc.devRef .tc main_v346))
    ∧ after (stepB7 (F := F)) W (Proc.devRef .tc main_v349) = okOf (rowcountOf (W (Proc.devRef .tc main_v328)) (W (Proc.devRef .tc main_v346)))
    ∧ after (stepB7 (F := F)) W (Proc.devRef .tc main_v357) =
        offOf (okOf (rowcountOf (W (Proc.devRef .tc main_v328)) (W (Proc.devRef .tc main_v346))))
          (ptrDa (W (Proc.devRef .tc main_arg5)) (asCol (wrapIdx 20001#32 (W (Proc.devRef .tc main_v329))))) := by
  open_slices stepB7, ops7, ops8
  refine ⟨?_, ?_, ?_⟩ <;> read_values

theorem stepC7_next (W : Valuation τ sig (Elt F)) :
    after (stepC7 (F := F)) W (Proc.devRef .tc main_v370) =
      select (W (Proc.devRef .tc main_v349))
        (lookDa (W (Proc.devRef .tc main_arg6)) (asCol (wrapIdx 302235#32 (clipIdx 302234#32
          (pickIdx (W (Proc.devRef .tc main_v326)) (W (Proc.devRef .tc main_v347)) (W (Proc.devRef .tc main_v357)))))))
        (bc 120000#32) := by
  open_slices stepC7, ops8
  read_values

noncomputable abbrev stepOps7 : List (HloOp τ sig (Elt F)) := stepA7 ++ (stepB7 ++ stepC7)

theorem step7_keep_lt (W : Valuation τ sig (Elt F)) (r : Ref sig .tc) (h : r.idx.val < 543) :
    after (stepOps7 (F := F)) W (Proc.devRef .tc r) = W (Proc.devRef .tc r) := by
  rw [StableHlo.after_append, StableHlo.after_append, stepC7_from.kept _ (r := r) (by omega), stepB7_from.kept _ (r := r) (by omega),
    stepA7_from.kept _ (r := r) h]

theorem step7_value (W : Valuation τ sig (Elt F)) :
    after (stepOps7 (F := F)) W (Proc.devRef .tc main_v370) =
      stepR_da (W (Proc.devRef .tc main_arg5)) (W (Proc.devRef .tc main_arg6)) (W (Proc.devRef .tc main_v324))
        (ucol_7 (W (Proc.devRef .tc main_arg0))) := by
  rw [StableHlo.after_append, StableHlo.after_append, stepC7_next, (stepB7_reads _).2.1, (stepB7_reads _).1, (stepB7_reads _).2.2,
    stepB7_from.kept _ (r := main_arg6) (by decide), stepB7_from.kept _ (r := main_v326) (by decide),
    (stepA7_reads _).2.1, (stepA7_reads _).2.2.2, (stepA7_reads _).2.2.1, (stepA7_reads _).1,
    stepA7_from.kept _ (r := main_arg5) (by decide), stepA7_from.kept _ (r := main_arg6) (by decide)]
  rfl

end Cert.ReferenceIdeal.Hand

end
-- ==== Proof.RHostS8.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA8 : List (HloOp τ sig (Elt F)) := (ops8.drop 37).take 31
noncomputable abbrev stepB8 : List (HloOp τ sig (Elt F)) := (ops8.drop 68) ++ ops9.take 15
noncomputable abbrev stepC8 : List (HloOp τ sig (Elt F)) := (ops9.drop 15).take 25

theorem stepA8_from : AllFrom 619 (stepA8 (F := F)) := ((ops8_num.drop 37).allFrom).take 31
theorem stepB8_from : AllFrom 650 (stepB8 (F := F)) := ((ops8_num.drop 68).allFrom).append ((ops9_num.allFrom.mono (by decide)).take 15)
theorem stepC8_from : AllFrom 670 (stepC8 (F := F)) := ((ops9_num.drop 15).allFrom).take 25

/-- What each stretch of the step leaves in the buffers the next one reads; a stretch's slice is evaluated once for all its reads. -/
theorem stepA8_reads (W : Valuation τ sig (Elt F)) :
    after (stepA8 (F := F)) W (Proc.devRef .tc main_v372) = ucol_8 (W (Proc.devRef .tc main_arg0))
    ∧ after (stepA8 (F := F)) W (Proc.devRef .tc main_v374) = aliveOf (W (Proc.devRef .tc main_v370))
    ∧ after (stepA8 (F := F)) W (Proc.devRef .tc main_v375) = safeOf (W (Proc.devRef .tc main_v370))
    ∧ after (stepA8 (F := F)) W (Proc.devRef .tc main_v392) = rcRawAd (W (Proc.devRef .tc main_arg3)) (W (Proc.devRef .tc main_v370)) := by
  open_slices stepA8, ops8
  refine ⟨?_, ?_, ?_, ?_⟩ <;> read_values

theorem stepB8_reads (W : Valuation τ sig (Elt F)) :
    after (stepB8 (F := F)) W (Proc.devRef .tc main_v393) = rowcountOf (W (Proc.devRef .tc main_v374)) (W (Proc.devRef .tc main_v392))
    ∧ after (stepB8 (F := F)) W (Proc.devRef .tc main_v395) = okOf (rowcountOf (W (Proc.devRef .tc main_v374)) (W (Proc.devRef .tc main_v392)))
    ∧ after (stepB8 (F := F)) W (Proc.devRef .tc main_v403) =
        offOf (okOf (rowcountOf (W (Proc.devRef .tc main_v374)) (W (Proc.devRef .tc main_v392))))
          (ptrAd (W (Proc.devRef .tc main_arg3)) (asCol (wrapIdx 3551#32 (W (Proc.devRef .tc main_v375))))) := by
  open_slices stepB8, ops8, ops9
  refine ⟨?_, ?_, ?_⟩ <;> read_values

theorem stepC8_next (W : Valuation τ sig (Elt F)) :
    after (stepC8 (F := F)) W (Proc.devRef .tc main_v416) =
      select (W (Proc.devRef .tc main_v395))
        (lookAd (W (Proc.devRef .tc main_arg4)) (asCol (wrapIdx 217264#32 (clipIdx 217263#32
          (pickIdx (W (Proc.devRef .tc main_v372)) (W (Proc.devRef .tc main_v393)) (W (Proc.devRef .tc main_v403)))))))
        (bc 120000#32) := by
  open_slices stepC8, ops9
  read_values

noncomputable abbrev stepOps8 : List (HloOp τ sig (Elt F)) := stepA8 ++ (stepB8 ++ stepC8)

theorem step8_keep_lt (W : Valuation τ sig (Elt F)) (r : Ref sig .tc) (h : r.idx.val < 619) :
    after (stepOps8 (F := F)) W (Proc.devRef .tc r) = W (Proc.devRef .tc r) := by
  rw [StableHlo.after_append, StableHlo.after_append, stepC8_from.kept _ (r := r) (by omega), stepB8_from.kept _ (r := r) (by omega),
    stepA8_from.kept _ (r := r) h]

theorem step8_value (W : Valuation τ sig (Elt F)) :
    after (stepOps8 (F := F)) W (Proc.devRef .tc main_v416) =
      stepR_ad (W (Proc.devRef .tc main_arg3)) (W (Proc.devRef .tc main_arg4)) (W (Proc.devRef .tc main_v370))
        (ucol_8 (W (Proc.devRef .tc main_arg0))) := by
  rw [StableHlo.after_append, StableHlo.after_append, stepC8_next, (stepB8_reads _).2.1, (stepB8_reads _).1, (stepB8_reads _).2.2,
    stepB8_from.kept _ (r := main_arg4) (by decide), stepB8_from.kept _ (r := main_v372) (by decide),
    (stepA8_reads _).2.1, (stepA8_reads _).2.2.2, (stepA8_reads _).2.2.1, (stepA8_reads _).1,
    stepA8_from.kept _ (r := main_arg3) (by decide), stepA8_from.kept _ (r := main_arg4) (by decide)]
  rfl

end Cert.ReferenceIdeal.Hand

end
-- ==== Proof.RHostS9.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA9 : List (HloOp τ sig (Elt F)) := (ops9.drop 40)
noncomputable abbrev stepB9 : List (HloOp τ sig (Elt F)) := ops10.take 20
noncomputable abbrev stepC9 : List (HloOp τ sig (Elt F)) := (ops10.drop 20).take 25

theorem stepA9_from : AllFrom 695 (stepA9 (F := F)) := (ops9_num.drop 40).allFrom
theorem stepB9_from : AllFrom 726 (stepB9 (F := F)) := (ops10_num.allFrom).take 20
theorem stepC9_from : AllFrom 746 (stepC9 (F := F)) := ((ops10_num.drop 20).allFrom).take 25

/-- What each stretch of the step leaves in the buffers the next one reads; a stretch's slice is evaluated once for all its reads. -/
theorem stepA9_reads (W : Valuation τ sig (Elt F)) :
    after (stepA9 (F := F)) W (Proc.devRef .tc main_v418) = ucol_9 (W (Proc.devRef .tc main_arg0))
    ∧ after (stepA9 (F := F)) W (Proc.devRef .tc main_v420) = aliveOf (W (Proc.devRef .tc main_v416))
    ∧ after (stepA9 (F := F)) W (Proc.devRef .tc main_v421) = safeOf (W (Proc.devRef .tc main_v416))
    ∧ after (stepA9 (F := F)) W (Proc.devRef .tc main_v438) = rcRawDa (W (Proc.devRef .tc main_arg5)) (W (Proc.devRef .tc main_v416)) := by
  open_slices stepA9, ops9
  refine ⟨?_, ?_, ?_, ?_⟩ <;> read_values

theorem stepB9_reads (W : Valuation τ sig (Elt F)) :
    after (stepB9 (F := F)) W (Proc.devRef .tc main_v439) = rowcountOf (W (Proc.devRef .tc main_v420)) (W (Proc.devRef .tc main_v438))
    ∧ after (stepB9 (F := F)) W (Proc.devRef .tc main_v441) = okOf (rowcountOf (W (Proc.devRef .tc main_v420)) (W (Proc.devRef .tc main_v438)))
    ∧ after (stepB9 (F := F)) W (Proc.devRef .tc main_v449) =
        offOf (okOf (rowcountOf (W (Proc.devRef .tc main_v420)) (W (Proc.devRef .tc main_v438))))
          (ptrDa (W (Proc.devRef .tc main_arg5)) (asCol (wrapIdx 20001#32 (W (Proc.devRef .tc main_v421))))) := by
  open_slices stepB9, ops10
  refine ⟨?_, ?_, ?_⟩ <;> read_values

theorem stepC9_next (W : Valuation τ sig (Elt F)) :
    after (stepC9 (F := F)) W (Proc.devRef .tc main_v462) =
      select (W (Proc.devRef .tc main_v441))
        (lookDa (W (Proc.devRef .tc main_arg6)) (asCol (wrapIdx 302235#32 (clipIdx 302234#32
          (pickIdx (W (Proc.devRef .tc main_v418)) (W (Proc.devRef .tc main_v439)) (W (Proc.devRef .tc main_v449)))))))
        (bc 120000#32) := by
  open_slices stepC9, ops10
  read_values

noncomputable abbrev stepOps9 : List (HloOp τ sig (Elt F)) := stepA9 ++ (stepB9 ++ stepC9)

theorem step9_keep_lt (W : Valuation τ sig (Elt F)) (r : Ref sig .tc) (h : r.idx.val < 695) :
    after (stepOps9 (F := F)) W (Proc.devRef .tc r) = W (Proc.devRef .tc r) := by
  rw [StableHlo.after_append, StableHlo.after_append, stepC9_from.kept _ (r := r) (by omega), stepB9_from.kept _ (r := r) (by omega),
    stepA9_from.kept _ (r := r) h]

theorem step9_value (W : Valuation τ sig (Elt F)) :
    after (stepOps9 (F := F)) W (Proc.devRef .tc main_v462) =
      stepR_da (W (Proc.devRef .tc main_arg5)) (W (Proc.devRef .tc main_arg6)) (W (Proc.devRef .tc main_v416))
        (ucol_9 (W (Proc.devRef .tc main_arg0))) := by
  rw [StableHlo.after_append, StableHlo.after_append, stepC9_next, (stepB9_reads _).2.1, (stepB9_reads _).1, (stepB9_reads _).2.2,
    stepB9_from.kept _ (r := main_arg6) (by decide), stepB9_from.kept _ (r := main_v418) (by decide),
    (stepA9_reads _).2.1, (stepA9_reads _).2.2.2, (stepA9_reads _).2.2.1, (stepA9_reads _).1,
    stepA9_from.kept _ (r := main_arg5) (by decide), stepA9_from.kept _ (r := main_arg6) (by decide)]
  rfl

end Cert.ReferenceIdeal.Hand

end
-- ==== Proof.RHostS10.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA10 : List (HloOp τ sig (Elt F)) := (ops10.drop 45) ++ ops11.take 3
noncomputable abbrev stepB10 : List (HloOp τ sig (Elt F)) := (ops11.drop 3).take 20
noncomputable abbrev stepC10 : List (HloOp τ sig (Elt F)) := (ops11.drop 23).take 25

theorem stepA10_from : AllFrom 771 (stepA10 (F := F)) := ((ops10_num.drop 45).allFrom).append ((ops11_num.allFrom.mono (by decide)).take 3)
theorem stepB10_from : AllFrom 802 (stepB10 (F := F)) := ((ops11_num.drop 3).allFrom).take 20
theorem stepC10_from : AllFrom 822 (stepC10 (F := F)) := ((ops11_num.drop 23).allFrom).take 25

/-- What each stretch of the step leaves in the buffers the next one reads; a stretch's slice is evaluated once for all its reads. -/
theorem stepA10_reads (W : Valuation τ sig (Elt F)) :
    after (stepA10 (F := F)) W (Proc.devRef .tc main_v464) = ucol_10 (W (Proc.devRef .tc main_arg0))
    ∧ after (stepA10 (F := F)) W (Proc.devRef .tc main_v466) = aliveOf (W (Proc.devRef .tc main_v462))
    ∧ after (stepA10 (F := F)) W (Proc.devRef .tc main_v467) = safeOf (W (Proc.devRef .tc main_v462))
    ∧ after (stepA10 (F := F)) W (Proc.devRef .tc main_v484) = rcRawAd (W (Proc.devRef .tc main_arg3)) (W (Proc.devRef .tc main_v462)) := by
  open_slices stepA10, ops10, ops11
  refine ⟨?_, ?_, ?_, ?_⟩ <;> read_values

theorem stepB10_reads (W : Valuation τ sig (Elt F)) :
    after (stepB10 (F := F)) W (Proc.devRef .tc main_v485) = rowcountOf (W (Proc.devRef .tc main_v466)) (W (Proc.devRef .tc main_v484))
    ∧ after (stepB10 (F := F)) W (Proc.devRef .tc main_v487) = okOf (rowcountOf (W (Proc.devRef .tc main_v466)) (W (Proc.devRef .tc main_v484)))
    ∧ after (stepB10 (F := F)) W (Proc.devRef .tc main_v495) =
        offOf (okOf (rowcountOf (W (Proc.devRef .tc main_v466)) (W (Proc.devRef .tc main_v484))))
          (ptrAd (W (Proc.devRef .tc main_arg3)) (asCol (wrapIdx 3551#32 (W (Proc.devRef .tc main_v467))))) := by
  open_slices stepB10, ops11
  refine ⟨?_, ?_, ?_⟩ <;> read_values

theorem stepC10_next (W : Valuation τ sig (Elt F)) :
    after (stepC10 (F := F)) W (Proc.devRef .tc main_v508) =
      select (W (Proc.devRef .tc main_v487))
        (lookAd (W (Proc.devRef .tc main_arg4)) (asCol (wrapIdx 217264#32 (clipIdx 217263#32
          (pickIdx (W (Proc.devRef .tc main_v464)) (W (Proc.devRef .tc main_v485)) (W (Proc.devRef .tc main_v495)))))))
        (bc 120000#32) := by
  open_slices stepC10, ops11
  read_values

noncomputable abbrev stepOps10 : List (HloOp τ sig (Elt F)) := stepA10 ++ (stepB10 ++ stepC10)

theorem step10_keep_lt (W : Valuation τ sig (Elt F)) (r : Ref sig .tc) (h : r.idx.val < 771) :
    after (stepOps10 (F := F)) W (Proc.devRef .tc r) = W (Proc.devRef .tc r) := by
  rw [StableHlo.after_append, StableHlo.after_append, stepC10_from.kept _ (r := r) (by omega), stepB10_from.kept _ (r := r) (by omega),
    stepA10_from.kept _ (r := r) h]

theorem step10_value (W : Valuation τ sig (Elt F)) :
    after (stepOps10 (F := F)) W (Proc.devRef .tc main_v508) =
      stepR_ad (W (Proc.devRef .tc main_arg3)) (W (Proc.devRef .tc main_arg4)) (W (Proc.devRef .tc main_v462))
        (ucol_10 (W (Proc.devRef .tc main_arg0))) := by
  rw [StableHlo.after_append, StableHlo.after_append, stepC10_next, (stepB10_reads _).2.1, (stepB10_reads _).1, (stepB10_reads _).2.2,
    stepB10_from.kept _ (r := main_arg4) (by decide), stepB10_from.kept _ (r := main_v464) (by decide),
    (stepA10_reads _).2.1, (stepA10_reads _).2.2.2, (stepA10_reads _).2.2.1, (stepA10_reads _).1,
    stepA10_from.kept _ (r := main_arg3) (by decide), stepA10_from.kept _ (r := main_arg4) (by decide)]
  rfl

end Cert.ReferenceIdeal.Hand

end
-- ==== Proof.RHostS11.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA11 : List (HloOp τ sig (Elt F)) := (ops11.drop 48) ++ ops12.take 6
noncomputable abbrev stepB11 : List (HloOp τ sig (Elt F)) := (ops12.drop 6).take 20
noncomputable abbrev stepC11 : List (HloOp τ sig (Elt F)) := (ops12.drop 26).take 25

theorem stepA11_from : AllFrom 847 (stepA11 (F := F)) := ((ops11_num.drop 48).allFrom).append ((ops12_num.allFrom.mono (by decide)).take 6)
theorem stepB11_from : AllFrom 878 (stepB11 (F := F)) := ((ops12_num.drop 6).allFrom).take 20
theorem stepC11_from : AllFrom 898 (stepC11 (F := F)) := ((ops12_num.drop 26).allFrom).take 25

/-- What each stretch of the step leaves in the buffers the next one reads; a stretch's slice is evaluated once for all its reads. -/
theorem stepA11_reads (W : Valuation τ sig (Elt F)) :
    after (stepA11 (F := F)) W (Proc.devRef .tc main_v510) = ucol_11 (W (Proc.devRef .tc main_arg0))
    ∧ after (stepA11 (F := F)) W (Proc.devRef .tc main_v512) = aliveOf (W (Proc.devRef .tc main_v508))
    ∧ after (stepA11 (F := F)) W (Proc.devRef .tc main_v513) = safeOf (W (Proc.devRef .tc main_v508))
    ∧ after (stepA11 (F := F)) W (Proc.devRef .tc main_v530) = rcRawDa (W (Proc.devRef .tc main_arg5)) (W (Proc.devRef .tc main_v508)) := by
  open_slices stepA11, ops11, ops12
  refine ⟨?_, ?_, ?_, ?_⟩ <;> read_values

theorem stepB11_reads (W : Valuation τ sig (Elt F)) :
    after (stepB11 (F := F)) W (Proc.devRef .tc main_v531) = rowcountOf (W (Proc.devRef .tc main_v512)) (W (Proc.devRef .tc main_v530))
    ∧ after (stepB11 (F := F)) W (Proc.devRef .tc main_v533) = okOf (rowcountOf (W (Proc.devRef .tc main_v512)) (W (Proc.devRef .tc main_v530)))
    ∧ after (stepB11 (F := F)) W (Proc.devRef .tc main_v541) =
        offOf (okOf (rowcountOf (W (Proc.devRef .tc main_v512)) (W (Proc.devRef .tc main_v530))))
          (ptrDa (W (Proc.devRef .tc main_arg5)) (asCol (wrapIdx 20001#32 (W (Proc.devRef .tc main_v513))))) := by
  open_slices stepB11, ops12
  refine ⟨?_, ?_, ?_⟩ <;> read_values

theorem stepC11_next (W : Valuation τ sig (Elt F)) :
    after (stepC11 (F := F)) W (Proc.devRef .tc main_v554) =
      select (W (Proc.devRef .tc main_v533))
        (lookDa (W (Proc.devRef .tc main_arg6)) (asCol (wrapIdx 302235#32 (clipIdx 302234#32
          (pickIdx (W (Proc.devRef .tc main_v510)) (W (Proc.devRef .tc main_v531)) (W (Proc.devRef .tc main_v541)))))))
        (bc 120000#32) := by
  open_slices stepC11, ops12
  read_values

noncomputable abbrev stepOps11 : List (HloOp τ sig (Elt F)) := stepA11 ++ (stepB11 ++ stepC11)

theorem step11_keep_lt (W : Valuation τ sig (Elt F)) (r : Ref sig .tc) (h : r.idx.val < 847) :
    after (stepOps11 (F := F)) W (Proc.devRef .tc r) = W (Proc.devRef .tc r) := by
  rw [StableHlo.after_append, StableHlo.after_append, stepC11_from.kept _ (r := r) (by omega), stepB11_from.kept _ (r := r) (by omega),
    stepA11_from.kept _ (r := r) h]

theorem step11_value (W : Valuation τ sig (Elt F)) :
    after (stepOps11 (F := F)) W (Proc.devRef .tc main_v554) =
      stepR_da (W (Proc.devRef .tc main_arg5)) (W (Proc.devRef .tc main_arg6)) (W (Proc.devRef .tc main_v508))
        (ucol_11 (W (Proc.devRef .tc main_arg0))) := by
  rw [StableHlo.after_append, StableHlo.after_append, stepC11_next, (stepB11_reads _).2.1, (stepB11_reads _).1, (stepB11_reads _).2.2,
    stepB11_from.kept _ (r := main_arg6) (by decide), stepB11_from.kept _ (r := main_v510) (by decide),
    (stepA11_reads _).2.1, (stepA11_reads _).2.2.2, (stepA11_reads _).2.2.1, (stepA11_reads _).1,
    stepA11_from.kept _ (r := main_arg5) (by decide), stepA11_from.kept _ (r := main_arg6) (by decide)]
  rfl

end Cert.ReferenceIdeal.Hand

end
-- ==== Proof.RHostS12.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA12 : List (HloOp τ sig (Elt F)) := (ops12.drop 51) ++ ops13.take 9
noncomputable abbrev stepB12 : List (HloOp τ sig (Elt F)) := (ops13.drop 9).take 20
noncomputable abbrev stepC12 : List (HloOp τ sig (Elt F)) := (ops13.drop 29).take 25

theorem stepA12_from : AllFrom 923 (stepA12 (F := F)) := ((ops12_num.drop 51).allFrom).append ((ops13_num.allFrom.mono (by decide)).take 9)
theorem stepB12_from : AllFrom 954 (stepB12 (F := F)) := ((ops13_num.drop 9).allFrom).take 20
theorem stepC12_from : AllFrom 974 (stepC12 (F := F)) := ((ops13_num.drop 29).allFrom).take 25

/-- What each stretch of the step leaves in the buffers the next one reads; a stretch's slice is evaluated once for all its reads. -/
theorem stepA12_reads (W : Valuation τ sig (Elt F)) :
    after (stepA12 (F := F)) W (Proc.devRef .tc main_v556) = ucol_12 (W (Proc.devRef .tc main_arg0))
    ∧ after (stepA12 (F := F)) W (Proc.devRef .tc main_v558) = aliveOf (W (Proc.devRef .tc main_v554))
    ∧ after (stepA12 (F := F)) W (Proc.devRef .tc main_v559) = safeOf (W (Proc.devRef .tc main_v554))
    ∧ after (stepA12 (F := F)) W (Proc.devRef .tc main_v576) = rcRawAd (W (Proc.devRef .tc main_arg3)) (W (Proc.devRef .tc main_v554)) := by
  open_slices stepA12, ops12, ops13
  refine ⟨?_, ?_, ?_, ?_⟩ <;> read_values

theorem stepB12_reads (W : Valuation τ sig (Elt F)) :
    after (stepB12 (F := F)) W (Proc.devRef .tc main_v577) = rowcountOf (W (Proc.devRef .tc main_v558)) (W (Proc.devRef .tc main_v576))
    ∧ after (stepB12 (F := F)) W (Proc.devRef .tc main_v579) = okOf (rowcountOf (W (Proc.devRef .tc main_v558)) (W (Proc.devRef .tc main_v576)))
    ∧ after (stepB12 (F := F)) W (Proc.devRef .tc main_v587) =
        offOf (okOf (rowcountOf (W (Proc.devRef .tc main_v558)) (W (Proc.devRef .tc main_v576))))
          (ptrAd (W (Proc.devRef .tc main_arg3)) (asCol (wrapIdx 3551#32 (W (Proc.devRef .tc main_v559))))) := by
  open_slices stepB12, ops13
  refine ⟨?_, ?_, ?_⟩ <;> read_values

theorem stepC12_next (W : Valuation τ sig (Elt F)) :
    after (stepC12 (F := F)) W (Proc.devRef .tc main_v600) =
      select (W (Proc.devRef .tc main_v579))
        (lookAd (W (Proc.devRef .tc main_arg4)) (asCol (wrapIdx 217264#32 (clipIdx 217263#32
          (pickIdx (W (Proc.devRef .tc main_v556)) (W (Proc.devRef .tc main_v577)) (W (Proc.devRef .tc main_v587)))))))
        (bc 120000#32) := by
  open_slices stepC12, ops13
  read_values

noncomputable abbrev stepOps12 : List (HloOp τ sig (Elt F)) := stepA12 ++ (stepB12 ++ stepC12)

theorem step12_keep_lt (W : Valuation τ sig (Elt F)) (r : Ref sig .tc) (h : r.idx.val < 923) :
    after (stepOps12 (F := F)) W (Proc.devRef .tc r) = W (Proc.devRef .tc r) := by
  rw [StableHlo.after_append, StableHlo.after_append, stepC12_from.kept _ (r := r) (by omega), stepB12_from.kept _ (r := r) (by omega),
    stepA12_from.kept _ (r := r) h]

theorem step12_value (W : Valuation τ sig (Elt F)) :
    after (stepOps12 (F := F)) W (Proc.devRef .tc main_v600) =
      stepR_ad (W (Proc.devRef .tc main_arg3)) (W (Proc.devRef .tc main_arg4)) (W (Proc.devRef .tc main_v554))
        (ucol_12 (W (Proc.devRef .tc main_arg0))) := by
  rw [StableHlo.after_append, StableHlo.after_append, stepC12_next, (stepB12_reads _).2.1, (stepB12_reads _).1, (stepB12_reads _).2.2,
    stepB12_from.kept _ (r := main_arg4) (by decide), stepB12_from.kept _ (r := main_v556) (by decide),
    (stepA12_reads _).2.1, (stepA12_reads _).2.2.2, (stepA12_reads _).2.2.1, (stepA12_reads _).1,
    stepA12_from.kept _ (r := main_arg3) (by decide), stepA12_from.kept _ (r := main_arg4) (by decide)]
  rfl

end Cert.ReferenceIdeal.Hand

end
-- ==== Proof.RHostS13.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA13 : List (HloOp τ sig (Elt F)) := (ops13.drop 54) ++ ops14.take 12
noncomputable abbrev stepB13 : List (HloOp τ sig (Elt F)) := (ops14.drop 12).take 20
noncomputable abbrev stepC13 : List (HloOp τ sig (Elt F)) := (ops14.drop 32).take 25

theorem stepA13_from : AllFrom 999 (stepA13 (F := F)) := ((ops13_num.drop 54).allFrom).append ((ops14_num.allFrom.mono (by decide)).take 12)
theorem stepB13_from : AllFrom 1030 (stepB13 (F := F)) := ((ops14_num.drop 12).allFrom).take 20
theorem stepC13_from : AllFrom 1050 (stepC13 (F := F)) := ((ops14_num.drop 32).allFrom).take 25

/-- What each stretch of the step leaves in the buffers the next one reads; a stretch's slice is evaluated once for all its reads. -/
theorem stepA13_reads (W : Valuation τ sig (Elt F)) :
    after (stepA13 (F := F)) W (Proc.devRef .tc main_v602) = ucol_13 (W (Proc.devRef .tc main_arg0))
    ∧ after (stepA13 (F := F)) W (Proc.devRef .tc main_v604) = aliveOf (W (Proc.devRef .tc main_v600))
    ∧ after (stepA13 (F := F)) W (Proc.devRef .tc main_v605) = safeOf (W (Proc.devRef .tc main_v600))
    ∧ after (stepA13 (F := F)) W (Proc.devRef .tc main_v622) = rcRawDa (W (Proc.devRef .tc main_arg5)) (W (Proc.devRef .tc main_v600)) := by
  open_slices stepA13, ops13, ops14
  refine ⟨?_, ?_, ?_, ?_⟩ <;> read_values

theorem stepB13_reads (W : Valuation τ sig (Elt F)) :
    after (stepB13 (F := F)) W (Proc.devRef .tc main_v623) = rowcountOf (W (Proc.devRef .tc main_v604)) (W (Proc.devRef .tc main_v622))
    ∧ after (stepB13 (F := F)) W (Proc.devRef .tc main_v625) = okOf (rowcountOf (W (Proc.devRef .tc main_v604)) (W (Proc.devRef .tc main_v622)))
    ∧ after (stepB13 (F := F)) W (Proc.devRef .tc main_v633) =
        offOf (okOf (rowcountOf (W (Proc.devRef .tc main_v604)) (W (Proc.devRef .tc main_v622))))
          (ptrDa (W (Proc.devRef .tc main_arg5)) (asCol (wrapIdx 20001#32 (W (Proc.devRef .tc main_v605))))) := by
  open_slices stepB13, ops14
  refine ⟨?_, ?_, ?_⟩ <;> read_values

theorem stepC13_next (W : Valuation τ sig (Elt F)) :
    after (stepC13 (F := F)) W (Proc.devRef .tc main_v646) =
      select (W (Proc.devRef .tc main_v625))
        (lookDa (W (Proc.devRef .tc main_arg6)) (asCol (wrapIdx 302235#32 (clipIdx 302234#32
          (pickIdx (W (Proc.devRef .tc main_v602)) (W (Proc.devRef .tc main_v623)) (W (Proc.devRef .tc main_v633)))))))
        (bc 120000#32) := by
  open_slices stepC13, ops14
  read_values

noncomputable abbrev stepOps13 : List (HloOp τ sig (Elt F)) := stepA13 ++ (stepB13 ++ stepC13)

theorem step13_keep_lt (W : Valuation τ sig (Elt F)) (r : Ref sig .tc) (h : r.idx.val < 999) :
    after (stepOps13 (F := F)) W (Proc.devRef .tc r) = W (Proc.devRef .tc r) := by
  rw [StableHlo.after_append, StableHlo.after_append, stepC13_from.kept _ (r := r) (by omega), stepB13_from.kept _ (r := r) (by omega),
    stepA13_from.kept _ (r := r) h]

theorem step13_value (W : Valuation τ sig (Elt F)) :
    after (stepOps13 (F := F)) W (Proc.devRef .tc main_v646) =
      stepR_da (W (Proc.devRef .tc main_arg5)) (W (Proc.devRef .tc main_arg6)) (W (Proc.devRef .tc main_v600))
        (ucol_13 (W (Proc.devRef .tc main_arg0))) := by
  rw [StableHlo.after_append, StableHlo.after_append, stepC13_next, (stepB13_reads _).2.1, (stepB13_reads _).1, (stepB13_reads _).2.2,
    stepB13_from.kept _ (r := main_arg6) (by decide), stepB13_from.kept _ (r := main_v602) (by decide),
    (stepA13_reads _).2.1, (stepA13_reads _).2.2.2, (stepA13_reads _).2.2.1, (stepA13_reads _).1,
    stepA13_from.kept _ (r := main_arg5) (by decide), stepA13_from.kept _ (r := main_arg6) (by decide)]
  rfl

end Cert.ReferenceIdeal.Hand

end
-- ==== Proof.RHostS14.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA14 : List (HloOp τ sig (Elt F)) := (ops14.drop 57) ++ ops15.take 15
noncomputable abbrev stepB14 : List (HloOp τ sig (Elt F)) := (ops15.drop 15).take 20
noncomputable abbrev stepC14 : List (HloOp τ sig (Elt F)) := (ops15.drop 35).take 25

theorem stepA14_from : AllFrom 1075 (stepA14 (F := F)) := ((ops14_num.drop 57).allFrom).append ((ops15_num.allFrom.mono (by decide)).take 15)
theorem stepB14_from : AllFrom 1106 (stepB14 (F := F)) := ((ops15_num.drop 15).allFrom).take 20
theorem stepC14_from : AllFrom 1126 (stepC14 (F := F)) := ((ops15_num.drop 35).allFrom).take 25

/-- What each stretch of the step leaves in the buffers the next one reads; a stretch's slice is evaluated once for all its reads. -/
theorem stepA14_reads (W : Valuation τ sig (Elt F)) :
    after (stepA14 (F := F)) W (Proc.devRef .tc main_v648) = ucol_14 (W (Proc.devRef .tc main_arg0))
    ∧ after (stepA14 (F := F)) W (Proc.devRef .tc main_v650) = aliveOf (W (Proc.devRef .tc main_v646))
    ∧ after (stepA14 (F := F)) W (Proc.devRef .tc main_v651) = safeOf (W (Proc.devRef .tc main_v646))
    ∧ after (stepA14 (F := F)) W (Proc.devRef .tc main_v668) = rcRawAd (W (Proc.devRef .tc main_arg3)) (W (Proc.devRef .tc main_v646)) := by
  open_slices stepA14, ops14, ops15
  refine ⟨?_, ?_, ?_, ?_⟩ <;> read_values

theorem stepB14_reads (W : Valuation τ sig (Elt F)) :
    after (stepB14 (F := F)) W (Proc.devRef .tc main_v669) = rowcountOf (W (Proc.devRef .tc main_v650)) (W (Proc.devRef .tc main_v668))
    ∧ after (stepB14 (F := F)) W (Proc.devRef .tc main_v671) = okOf (rowcountOf (W (Proc.devRef .tc main_v650)) (W (Proc.devRef .tc main_v668)))
    ∧ after (stepB14 (F := F)) W (Proc.devRef .tc main_v679) =
        offOf (okOf (rowcountOf (W (Proc.devRef .tc main_v650)) (W (Proc.devRef .tc main_v668))))
          (ptrAd (W (Proc.devRef .tc main_arg3)) (asCol (wrapIdx 3551#32 (W (Proc.devRef .tc main_v651))))) := by
  open_slices stepB14, ops15
  refine ⟨?_, ?_, ?_⟩ <;> read_values

theorem stepC14_next (W : Valuation τ sig (Elt F)) :
    after (stepC14 (F := F)) W (Proc.devRef .tc main_v692) =
      select (W (Proc.devRef .tc main_v671))
        (lookAd (W (Proc.devRef .tc main_arg4)) (asCol (wrapIdx 217264#32 (clipIdx 217263#32
          (pickIdx (W (Proc.devRef .tc main_v648)) (W (Proc.devRef .tc main_v669)) (W (Proc.devRef .tc main_v679)))))))
        (bc 120000#32) := by
  open_slices stepC14, ops15
  read_values

noncomputable abbrev stepOps14 : List (HloOp τ sig (Elt F)) := stepA14 ++ (stepB14 ++ stepC14)

theorem step14_keep_lt (W : Valuation τ sig (Elt F)) (r : Ref sig .tc) (h : r.idx.val < 1075) :
    after (stepOps14 (F := F)) W (Proc.devRef .tc r) = W (Proc.devRef .tc r) := by
  rw [StableHlo.after_append, StableHlo.after_append, stepC14_from.kept _ (r := r) (by omega), stepB14_from.kept _ (r := r) (by omega),
    stepA14_from.kept _ (r := r) h]

theorem step14_value (W : Valuation τ sig (Elt F)) :
    after (stepOps14 (F := F)) W (Proc.devRef .tc main_v692) =
      stepR_ad (W (Proc.devRef .tc main_arg3)) (W (Proc.devRef .tc main_arg4)) (W (Proc.devRef .tc main_v646))
        (ucol_14 (W (Proc.devRef .tc main_arg0))) := by
  rw [StableHlo.after_append, StableHlo.after_append, stepC14_next, (stepB14_reads _).2.1, (stepB14_reads _).1, (stepB14_reads _).2.2,
    stepB14_from.kept _ (r := main_arg4) (by decide), stepB14_from.kept _ (r := main_v648) (by decide),
    (stepA14_reads _).2.1, (stepA14_reads _).2.2.2, (stepA14_reads _).2.2.1, (stepA14_reads _).1,
    stepA14_from.kept _ (r := main_arg3) (by decide), stepA14_from.kept _ (r := main_arg4) (by decide)]
  rfl

end Cert.ReferenceIdeal.Hand

end
-- ==== Proof.RHostS15.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA15 : List (HloOp τ sig (Elt F)) := (ops15.drop 60) ++ ops16.take 18
noncomputable abbrev stepB15 : List (HloOp τ sig (Elt F)) := (ops16.drop 18).take 20
noncomputable abbrev stepC15 : List (HloOp τ sig (Elt F)) := (ops16.drop 38).take 25

theorem stepA15_from : AllFrom 1151 (stepA15 (F := F)) := ((ops15_num.drop 60).allFrom).append ((ops16_num.allFrom.mono (by decide)).take 18)
theorem stepB15_from : AllFrom 1182 (stepB15 (F := F)) := ((ops16_num.drop 18).allFrom).take 20
theorem stepC15_from : AllFrom 1202 (stepC15 (F := F)) := ((ops16_num.drop 38).allFrom).take 25

/-- What each stretch of the step leaves in the buffers the next one reads; a stretch's slice is evaluated once for all its reads. -/
theorem stepA15_reads (W : Valuation τ sig (Elt F)) :
    after (stepA15 (F := F)) W (Proc.devRef .tc main_v694) = ucol_15 (W (Proc.devRef .tc main_arg0))
    ∧ after (stepA15 (F := F)) W (Proc.devRef .tc main_v696) = aliveOf (W (Proc.devRef .tc main_v692))
    ∧ after (stepA15 (F := F)) W (Proc.devRef .tc main_v697) = safeOf (W (Proc.devRef .tc main_v692))
    ∧ after (stepA15 (F := F)) W (Proc.devRef .tc main_v714) = rcRawDa (W (Proc.devRef .tc main_arg5)) (W (Proc.devRef .tc main_v692)) := by
  open_slices stepA15, ops15, ops16
  refine ⟨?_, ?_, ?_, ?_⟩ <;> read_values

theorem stepB15_reads (W : Valuation τ sig (Elt F)) :
    after (stepB15 (F := F)) W (Proc.devRef .tc main_v715) = rowcountOf (W (Proc.devRef .tc main_v696)) (W (Proc.devRef .tc main_v714))
    ∧ after (stepB15 (F := F)) W (Proc.devRef .tc main_v717) = okOf (rowcountOf (W (Proc.devRef .tc main_v696)) (W (Proc.devRef .tc main_v714)))
    ∧ after (stepB15 (F := F)) W (Proc.devRef .tc main_v725) =
        offOf (okOf (rowcountOf (W (Proc.devRef .tc main_v696)) (W (Proc.devRef .tc main_v714))))
          (ptrDa (W (Proc.devRef .tc main_arg5)) (asCol (wrapIdx 20001#32 (W (Proc.devRef .tc main_v697))))) := by
  open_slices stepB15, ops16
  refine ⟨?_, ?_, ?_⟩ <;> read_values

theorem stepC15_next (W : Valuation τ sig (Elt F)) :
    after (stepC15 (F := F)) W (Proc.devRef .tc main_v738) =
      select (W (Proc.devRef .tc main_v717))
        (lookDa (W (Proc.devRef .tc main_arg6)) (asCol (wrapIdx 302235#32 (clipIdx 302234#32
          (pickIdx (W (Proc.devRef .tc main_v694)) (W (Proc.devRef .tc main_v715)) (W (Proc.devRef .tc main_v725)))))))
        (bc 120000#32) := by
  open_slices stepC15, ops16
  read_values

noncomputable abbrev stepOps15 : List (HloOp τ sig (Elt F)) := stepA15 ++ (stepB15 ++ stepC15)

theorem step15_keep_lt (W : Valuation τ sig (Elt F)) (r : Ref sig .tc) (h : r.idx.val < 1151) :
    after (stepOps15 (F := F)) W (Proc.devRef .tc r) = W (Proc.devRef .tc r) := by
  rw [StableHlo.after_append, StableHlo.after_append, stepC15_from.kept _ (r := r) (by omega), stepB15_from.kept _ (r := r) (by omega),
    stepA15_from.kept _ (r := r) h]

theorem step15_value (W : Valuation τ sig (Elt F)) :
    after (stepOps15 (F := F)) W (Proc.devRef .tc main_v738) =
      stepR_da (W (Proc.devRef .tc main_arg5)) (W (Proc.devRef .tc main_arg6)) (W (Proc.devRef .tc main_v692))
        (ucol_15 (W (Proc.devRef .tc main_arg0))) := by
  rw [StableHlo.after_append, StableHlo.after_append, stepC15_next, (stepB15_reads _).2.1, (stepB15_reads _).1, (stepB15_reads _).2.2,
    stepB15_from.kept _ (r := main_arg6) (by decide), stepB15_from.kept _ (r := main_v694) (by decide),
    (stepA15_reads _).2.1, (stepA15_reads _).2.2.2, (stepA15_reads _).2.2.1, (stepA15_reads _).1,
    stepA15_from.kept _ (r := main_arg5) (by decide), stepA15_from.kept _ (r := main_arg6) (by decide)]
  rfl

end Cert.ReferenceIdeal.Hand

end
-- ==== Proof.RHostS16.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA16 : List (HloOp τ sig (Elt F)) := (ops16.drop 63) ++ ops17.take 21
noncomputable abbrev stepB16 : List (HloOp τ sig (Elt F)) := (ops17.drop 21).take 20
noncomputable abbrev stepC16 : List (HloOp τ sig (Elt F)) := (ops17.drop 41).take 25

theorem stepA16_from : AllFrom 1227 (stepA16 (F := F)) := ((ops16_num.drop 63).allFrom).append ((ops17_num.allFrom.mono (by decide)).take 21)
theorem stepB16_from : AllFrom 1258 (stepB16 (F := F)) := ((ops17_num.drop 21).allFrom).take 20
theorem stepC16_from : AllFrom 1278 (stepC16 (F := F)) := ((ops17_num.drop 41).allFrom).take 25

/-- What each stretch of the step leaves in the buffers the next one reads; a stretch's slice is evaluated once for all its reads. -/
theorem stepA16_reads (W : Valuation τ sig (Elt F)) :
    after (stepA16 (F := F)) W (Proc.devRef .tc main_v740) = ucol_16 (W (Proc.devRef .tc main_arg0))
    ∧ after (stepA16 (F := F)) W (Proc.devRef .tc main_v742) = aliveOf (W (Proc.devRef .tc main_v738))
    ∧ after (stepA16 (F := F)) W (Proc.devRef .tc main_v743) = safeOf (W (Proc.devRef .tc main_v738))
    ∧ after (stepA16 (F := F)) W (Proc.devRef .tc main_v760) = rcRawAd (W (Proc.devRef .tc main_arg3)) (W (Proc.devRef .tc main_v738)) := by
  open_slices stepA16, ops16, ops17
  refine ⟨?_, ?_, ?_, ?_⟩ <;> read_values

theorem stepB16_reads (W : Valuation τ sig (Elt F)) :
    after (stepB16 (F := F)) W (Proc.devRef .tc main_v761) = rowcountOf (W (Proc.devRef .tc main_v742)) (W (Proc.devRef .tc main_v760))
    ∧ after (stepB16 (F := F)) W (Proc.devRef .tc main_v763) = okOf (rowcountOf (W (Proc.devRef .tc main_v742)) (W (Proc.devRef .tc main_v760)))
    ∧ after (stepB16 (F := F)) W (Proc.devRef .tc main_v771) =
        offOf (okOf (rowcountOf (W (Proc.devRef .tc main_v742)) (W (Proc.devRef .tc main_v760))))
          (ptrAd (W (Proc.devRef .tc main_arg3)) (asCol (wrapIdx 3551#32 (W (Proc.devRef .tc main_v743))))) := by
  open_slices stepB16, ops17
  refine ⟨?_, ?_, ?_⟩ <;> read_values

theorem stepC16_next (W : Valuation τ sig (Elt F)) :
    after (stepC16 (F := F)) W (Proc.devRef .tc main_v784) =
      select (W (Proc.devRef .tc main_v763))
        (lookAd (W (Proc.devRef .tc main_arg4)) (asCol (wrapIdx 217264#32 (clipIdx 217263#32
          (pickIdx (W (Proc.devRef .tc main_v740)) (W (Proc.devRef .tc main_v761)) (W (Proc.devRef .tc main_v771)))))))
        (bc 120000#32) := by
  open_slices stepC16, ops17
  read_values

noncomputable abbrev stepOps16 : List (HloOp τ sig (Elt F)) := stepA16 ++ (stepB16 ++ stepC16)

theorem step16_keep_lt (W : Valuation τ sig (Elt F)) (r : Ref sig .tc) (h : r.idx.val < 1227) :
    after (stepOps16 (F := F)) W (Proc.devRef .tc r) = W (Proc.devRef .tc r) := by
  rw [StableHlo.after_append, StableHlo.after_append, stepC16_from.kept _ (r := r) (by omega), stepB16_from.kept _ (r := r) (by omega),
    stepA16_from.kept _ (r := r) h]

theorem step16_value (W : Valuation τ sig (Elt F)) :
    after (stepOps16 (F := F)) W (Proc.devRef .tc main_v784) =
      stepR_ad (W (Proc.devRef .tc main_arg3)) (W (Proc.devRef .tc main_arg4)) (W (Proc.devRef .tc main_v738))
        (ucol_16 (W (Proc.devRef .tc main_arg0))) := by
  rw [StableHlo.after_append, StableHlo.after_append, stepC16_next, (stepB16_reads _).2.1, (stepB16_reads _).1, (stepB16_reads _).2.2,
    stepB16_from.kept _ (r := main_arg4) (by decide), stepB16_from.kept _ (r := main_v740) (by decide),
    (stepA16_reads _).2.1, (stepA16_reads _).2.2.2, (stepA16_reads _).2.2.1, (stepA16_reads _).1,
    stepA16_from.kept _ (r := main_arg3) (by decide), stepA16_from.kept _ (r := main_arg4) (by decide)]
  rfl

end Cert.ReferenceIdeal.Hand

end
-- ==== Proof.RHostS17.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA17 : List (HloOp τ sig (Elt F)) := (ops17.drop 66) ++ ops18.take 26
noncomputable abbrev stepB17 : List (HloOp τ sig (Elt F)) := (ops18.drop 26).take 20
noncomputable abbrev stepC17 : List (HloOp τ sig (Elt F)) := (ops18.drop 46).take 25

theorem stepA17_from : AllFrom 1303 (stepA17 (F := F)) := ((ops17_num.drop 66).allFrom).append ((ops18_num.allFrom.mono (by decide)).take 26)
theorem stepB17_from : AllFrom 1334 (stepB17 (F := F)) := ((ops18_num.drop 26).allFrom).take 20
theorem stepC17_from : AllFrom 1354 (stepC17 (F := F)) := ((ops18_num.drop 46).allFrom).take 25

/-- What each stretch of the step leaves in the buffers the next one reads; a stretch's slice is evaluated once for all its reads. -/
theorem stepA17_reads (W : Valuation τ sig (Elt F)) :
    after (stepA17 (F := F)) W (Proc.devRef .tc main_v786) = ucol_17 (W (Proc.devRef .tc main_arg0))
    ∧ after (stepA17 (F := F)) W (Proc.devRef .tc main_v788) = aliveOf (W (Proc.devRef .tc main_v784))
    ∧ after (stepA17 (F := F)) W (Proc.devRef .tc main_v789) = safeOf (W (Proc.devRef .tc main_v784))
    ∧ after (stepA17 (F := F)) W (Proc.devRef .tc main_v806) = rcRawDa (W (Proc.devRef .tc main_arg5)) (W (Proc.devRef .tc main_v784)) := by
  open_slices stepA17, ops17, ops18
  refine ⟨?_, ?_, ?_, ?_⟩ <;> read_values

theorem stepB17_reads (W : Valuation τ sig (Elt F)) :
    after (stepB17 (F := F)) W (Proc.devRef .tc main_v807) = rowcountOf (W (Proc.devRef .tc main_v788)) (W (Proc.devRef .tc main_v806))
    ∧ after (stepB17 (F := F)) W (Proc.devRef .tc main_v809) = okOf (rowcountOf (W (Proc.devRef .tc main_v788)) (W (Proc.devRef .tc main_v806)))
    ∧ after (stepB17 (F := F)) W (Proc.devRef .tc main_v817) =
        offOf (okOf (rowcountOf (W (Proc.devRef .tc main_v788)) (W (Proc.devRef .tc main_v806))))
          (ptrDa (W (Proc.devRef .tc main_arg5)) (asCol (wrapIdx 20001#32 (W (Proc.devRef .tc main_v789))))) := by
  open_slices stepB17, ops18
  refine ⟨?_, ?_, ?_⟩ <;> read_values

theorem stepC17_next (W : Valuation τ sig (Elt F)) :
    after (stepC17 (F := F)) W (Proc.devRef .tc main_v830) =
      select (W (Proc.devRef .tc main_v809))
        (lookDa (W (Proc.devRef .tc main_arg6)) (asCol (wrapIdx 302235#32 (clipIdx 302234#32
          (pickIdx (W (Proc.devRef .tc main_v786)) (W (Proc.devRef .tc main_v807)) (W (Proc.devRef .tc main_v817)))))))
        (bc 120000#32) := by
  open_slices stepC17, ops18
  read_values

noncomputable abbrev stepOps17 : List (HloOp τ sig (Elt F)) := stepA17 ++ (stepB17 ++ stepC17)

theorem step17_keep_lt (W : Valuation τ sig (Elt F)) (r : Ref sig .tc) (h : r.idx.val < 1303) :
    after (stepOps17 (F := F)) W (Proc.devRef .tc r) = W (Proc.devRef .tc r) := by
  rw [StableHlo.after_append, StableHlo.after_append, stepC17_from.kept _ (r := r) (by omega), stepB17_from.kept _ (r := r) (by omega),
    stepA17_from.kept _ (r := r) h]

theorem step17_value (W : Valuation τ sig (Elt F)) :
    after (stepOps17 (F := F)) W (Proc.devRef .tc main_v830) =
      stepR_da (W (Proc.devRef .tc main_arg5)) (W (Proc.devRef .tc main_arg6)) (W (Proc.devRef .tc main_v784))
        (ucol_17 (W (Proc.devRef .tc main_arg0))) := by
  rw [StableHlo.after_append, StableHlo.after_append, stepC17_next, (stepB17_reads _).2.1, (stepB17_reads _).1, (stepB17_reads _).2.2,
    stepB17_from.kept _ (r := main_arg6) (by decide), stepB17_from.kept _ (r := main_v786) (by decide),
    (stepA17_reads _).2.1, (stepA17_reads _).2.2.2, (stepA17_reads _).2.2.1, (stepA17_reads _).1,
    stepA17_from.kept _ (r := main_arg5) (by decide), stepA17_from.kept _ (r := main_arg6) (by decide)]
  rfl

end Cert.ReferenceIdeal.Hand

end
-- ==== Proof.RHostS18.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA18 : List (HloOp τ sig (Elt F)) := (ops18.drop 71) ++ ops19.take 29
noncomputable abbrev stepB18 : List (HloOp τ sig (Elt F)) := (ops19.drop 29).take 20
noncomputable abbrev stepC18 : List (HloOp τ sig (Elt F)) := (ops19.drop 49) ++ ops20.take 3

theorem stepA18_from : AllFrom 1379 (stepA18 (F := F)) := ((ops18_num.drop 71).allFrom).append ((ops19_num.allFrom.mono (by decide)).take 29)
theorem stepB18_from : AllFrom 1410 (stepB18 (F := F)) := ((ops19_num.drop 29).allFrom).take 20
theorem stepC18_from : AllFrom 1430 (stepC18 (F := F)) := ((ops19_num.drop 49).allFrom).append ((ops20_num.allFrom.mono (by decide)).take 3)

/-- What each stretch of the step leaves in the buffers the next one reads; a stretch's slice is evaluated once for all its reads. -/
theorem stepA18_reads (W : Valuation τ sig (Elt F)) :
    after (stepA18 (F := F)) W (Proc.devRef .tc main_v832) = ucol_18 (W (Proc.devRef .tc main_arg0))
    ∧ after (stepA18 (F := F)) W (Proc.devRef .tc main_v834) = aliveOf (W (Proc.devRef .tc main_v830))
    ∧ after (stepA18 (F := F)) W (Proc.devRef .tc main_v835) = safeOf (W (Proc.devRef .tc main_v830))
    ∧ after (stepA18 (F := F)) W (Proc.devRef .tc main_v852) = rcRawAd (W (Proc.devRef .tc main_arg3)) (W (Proc.devRef .tc main_v830)) := by
  open_slices stepA18, ops18, ops19
  refine ⟨?_, ?_, ?_, ?_⟩ <;> read_values

theorem stepB18_reads (W : Valuation τ sig (Elt F)) :
    after (stepB18 (F := F)) W (Proc.devRef .tc main_v853) = rowcountOf (W (Proc.devRef .tc main_v834)) (W (Proc.devRef .tc main_v852))
    ∧ after (stepB18 (F := F)) W (Proc.devRef .tc main_v855) = okOf (rowcountOf (W (Proc.devRef .tc main_v834)) (W (Proc.devRef .tc main_v852)))
    ∧ after (stepB18 (F := F)) W (Proc.devRef .tc main_v863) =
        offOf (okOf (rowcountOf (W (Proc.devRef .tc main_v834)) (W (Proc.devRef .tc main_v852))))
          (ptrAd (W (Proc.devRef .tc main_arg3)) (asCol (wrapIdx 3551#32 (W (Proc.devRef .tc main_v835))))) := by
  open_slices stepB18, ops19
  refine ⟨?_, ?_, ?_⟩ <;> read_values

theorem stepC18_next (W : Valuation τ sig (Elt F)) :
    after (stepC18 (F := F)) W (Proc.devRef .tc main_v876) =
      select (W (Proc.devRef .tc main_v855))
        (lookAd (W (Proc.devRef .tc main_arg4)) (asCol (wrapIdx 217264#32 (clipIdx 217263#32
          (pickIdx (W (Proc.devRef .tc main_v832)) (W (Proc.devRef .tc main_v853)) (W (Proc.devRef .tc main_v863)))))))
        (bc 120000#32) := by
  open_slices stepC18, ops19, ops20
  read_values

noncomputable abbrev stepOps18 : List (HloOp τ sig (Elt F)) := stepA18 ++ (stepB18 ++ stepC18)

theorem step18_keep_lt (W : Valuation τ sig (Elt F)) (r : Ref sig .tc) (h : r.idx.val < 1379) :
    after (stepOps18 (F := F)) W (Proc.devRef .tc r) = W (Proc.devRef .tc r) := by
  rw [StableHlo.after_append, StableHlo.after_append, stepC18_from.kept _ (r := r) (by omega), stepB18_from.kept _ (r := r) (by omega),
    stepA18_from.kept _ (r := r) h]

theorem step18_value (W : Valuation τ sig (Elt F)) :
    after (stepOps18 (F := F)) W (Proc.devRef .tc main_v876) =
      stepR_ad (W (Proc.devRef .tc main_arg3)) (W (Proc.devRef .tc main_arg4)) (W (Proc.devRef .tc main_v830))
        (ucol_18 (W (Proc.devRef .tc main_arg0))) := by
  rw [StableHlo.after_append, StableHlo.after_append, stepC18_next, (stepB18_reads _).2.1, (stepB18_reads _).1, (stepB18_reads _).2.2,
    stepB18_from.kept _ (r := main_arg4) (by decide), stepB18_from.kept _ (r := main_v832) (by decide),
    (stepA18_reads _).2.1, (stepA18_reads _).2.2.2, (stepA18_reads _).2.2.1, (stepA18_reads _).1,
    stepA18_from.kept _ (r := main_arg3) (by decide), stepA18_from.kept _ (r := main_arg4) (by decide)]
  rfl

end Cert.ReferenceIdeal.Hand

end
-- ==== Proof.RHostS19.lean ====
import proofs.«416388_j86139864089342_3_alg».proof.Proof.RStep
import proofs.«416388_j86139864089342_3_alg».proof.Proof.RNum
import Idealize.ShloMosaic.Lib.Pipeline.Frame

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev stepA19 : List (HloOp τ sig (Elt F)) := (ops20.drop 3).take 31
noncomputable abbrev stepB19 : List (HloOp τ sig (Elt F)) := (ops20.drop 34).take 20
noncomputable abbrev stepC19 : List (HloOp τ sig (Elt F)) := (ops20.drop 54) ++ ops21.take 6

theorem stepA19_from : AllFrom 1455 (stepA19 (F := F)) := ((ops20_num.drop 3).allFrom).take 31
theorem stepB19_from : AllFrom 1486 (stepB19 (F := F)) := ((ops20_num.drop 34).allFrom).take 20
theorem stepC19_from : AllFrom 1506 (stepC19 (F := F)) := ((ops20_num.drop 54).allFrom).append ((ops21_num.allFrom.mono (by decide)).take 6)

/-- What each stretch of the step leaves in the buffers the next one reads; a stretch's slice is evaluated once for all its reads. -/
theorem stepA19_reads (W : Valuation τ sig (Elt F)) :
    after (stepA19 (F := F)) W (Proc.devRef .tc main_v878) = ucol_19 (W (Proc.devRef .tc main_arg0))
    ∧ after (stepA19 (F := F)) W (Proc.devRef .tc main_v880) = aliveOf (W (Proc.devRef .tc main_v876))
    ∧ after (stepA19 (F := F)) W (Proc.devRef .tc main_v881) = safeOf (W (Proc.devRef .tc main_v876))
    ∧ after (stepA19 (F := F)) W (Proc.devRef .tc main_v898) = rcRawDa (W (Proc.devRef .tc main_arg5)) (W (Proc.devRef .tc main_v876)) := by
  open_slices stepA19, ops20
  refine ⟨?_, ?_, ?_, ?_⟩ <;> read_values

theorem stepB19_reads (W : Valuation τ sig (Elt F)) :
    after (stepB19 (F := F)) W (Proc.devRef .tc main_v899) = rowcountOf (W (Proc.devRef .tc main_v880)) (W (Proc.devRef .tc main_v898))
    ∧ after (stepB19 (F := F)) W (Proc.devRef .tc main_v901) = okOf (rowcountOf (W (Proc.devRef .tc main_v880)) (W (Proc.devRef .tc main_v898)))
    ∧ after (stepB19 (F := F)) W (Proc.devRef .tc main_v909) =
        offOf (okOf (rowcountOf (W (Proc.devRef .tc main_v880)) (W (Proc.devRef .tc main_v898))))
          (ptrDa (W (Proc.devRef .tc main_arg5)) (asCol (wrapIdx 20001#32 (W (Proc.devRef .tc main_v881))))) := by
  open_slices stepB19, ops20
  refine ⟨?_, ?_, ?_⟩ <;> read_values

theorem stepC19_next (W : Valuation τ sig (Elt F)) :
    after (stepC19 (F := F)) W (Proc.devRef .tc main_v922) =
      select (W (Proc.devRef .tc main_v901))
        (lookDa (W (Proc.devRef .tc main_arg6)) (asCol (wrapIdx 302235#32 (clipIdx 302234#32
          (pickIdx (W (Proc.devRef .tc main_v878)) (W (Proc.devRef .tc main_v899)) (W (Proc.devRef .tc main_v909)))))))
        (bc 120000#32) := by
  open_slices stepC19, ops20, ops21
  read_values

noncomputable abbrev stepOps19 : List (HloOp τ sig (Elt F)) := stepA19 ++ (stepB19 ++ stepC19)

theorem step19_keep_lt (W : Valuation τ sig (Elt F)) (r : Ref sig .tc) (h : r.idx.val < 1455) :
    after (stepOps19 (F := F)) W (Proc.devRef .tc r) = W (Proc.devRef .tc r) := by
  rw [StableHlo.after_append, StableHlo.after_append, stepC19_from.kept _ (r := r) (by omega), stepB19_from.kept _ (r := r) (by omega),
    stepA19_from.kept _ (r := r) h]

theorem step19_value (W : Valuation τ sig (Elt F)) :
    after (stepOps19 (F := F)) W (Proc.devRef .tc main_v922) =
      stepR_da (W (Proc.devRef .tc main_arg5)) (W (Proc.devRef .tc main_arg6)) (W (Proc.devRef .tc main_v876))
        (ucol_19 (W (Proc.devRef .tc main_arg0))) := by
  rw [StableHlo.after_append, StableHlo.after_append, stepC19_next, (stepB19_reads _).2.1, (stepB19_reads _).1, (stepB19_reads _).2.2,
    stepB19_from.kept _ (r := main_arg6) (by decide), stepB19_from.kept _ (r := main_v878) (by decide),
    (stepA19_reads _).2.1, (stepA19_reads _).2.2.2, (stepA19_reads _).2.2.1, (stepA19_reads _).1,
    stepA19_from.kept _ (r := main_arg5) (by decide), stepA19_from.kept _ (r := main_arg6) (by decide)]
  rfl

end Cert.ReferenceIdeal.Hand

end
-- ==== Proof.RHostWalk.lean ====
import proofs.«416388_j86139864089342_3_alg».proof.Proof.RStep

noncomputable section

namespace Cert.ReferenceIdeal.Hand

open Idealize.ShloMosaic Idealize.SL.Sem Cert.ReferenceIdeal

variable {F : FTy → Type} [FloatOps F] [Facts₀]

def walkV (pr : FVec F S204800x20 .f32) (batch : IVec S2048 32) (rowptrAd : IVec S3551 32) (colAd : IVec S217264 32)
    (rowptrDa : IVec S20001 32) (colDa : IVec S302235 32) : ℕ → IVec S204800 32
  | 0 => tile batch
  | n + 1 =>
    if n % 2 = 0 then stepR_ad rowptrAd colAd (walkV pr batch rowptrAd colAd rowptrDa colDa n) (ucol n pr)
    else stepR_da rowptrDa colDa (walkV pr batch rowptrAd colAd rowptrDa colDa n) (ucol n pr)

variable (m : (ℓ : Loc nD τ sig) → Buf (Elt F) ℓ)

def walkR (d : Dev nD) (p : ℕ) : IVec S204800 32 :=
  walkV (m (d, Proc.devRef .tc main_arg0)) (m (d, Proc.devRef .tc main_arg2)) (m (d, Proc.devRef .tc main_arg3))
    (m (d, Proc.devRef .tc main_arg4)) (m (d, Proc.devRef .tc main_arg5)) (m (d, Proc.devRef .tc main_arg6)) p

theorem walkR_zero (d : Dev nD) : walkR m d 0 = tile (m (d, Proc.devRef .tc main_arg2)) := rfl

theorem walkR_succ_even (d : Dev nD) (j : ℕ) :
    walkR m d (2 * j + 1)
      = stepR_ad (m (d, Proc.devRef .tc main_arg3)) (m (d, Proc.devRef .tc main_arg4)) (walkR m d (2 * j))
          (ucol (2 * j) (m (d, Proc.devRef .tc main_arg0))) := by
  rw [walkR, walkV, if_pos (by omega)]
  rfl

theorem walkR_succ_odd (d : Dev nD) (j : ℕ) :
    walkR m d (2 * j + 2)
      = stepR_da (m (d, Proc.devRef .tc main_arg5)) (m (d, Proc.devRef .tc main_arg6)) (walkR m d (2 * j + 1))
          (ucol (2 * j + 1) (m (d, Proc.devRef .tc main_arg0))) := by
  show walkR m d (2 * j + 1 + 1) = _
  rw [walkR, walkV, if_neg (by omega)]
  rfl

end Cert.ReferenceIdeal.Hand

end
-- ==== Proof.RHost.lean ====
import proofs.«416388_j86139864089342_3_alg».proof.Proof.RHostS0
import proofs.«416388_j86139864089342_3_alg».proof.Proof.RHostS1
import proofs.«416388_j86139864089342_3_alg».proof.Proof.RHostS2
import proofs.«416388_j86139864089342_3_alg».proof.Proof.RHostS3
import proofs.«416388_j86139864089342_3_alg».proof.Proof.RHostS4
import proofs.«416388_j86139864089342_3_alg».proof.Proof.RHostS5
import proofs.«416388_j86139864089342_3_alg».proof.Proof.RHostS6
import proofs.«416388_j86139864089342_3_alg».proof.Proof.RHostS7
import proofs.«416388_j86139864089342_3_alg».proof.Proof.RHostS8
import proofs.«416388_j86139864089342_3_alg».proof.Proof.RHostS9
import proofs.«416388_j86139864089342_3_alg».proof.Proof.RHostS10
import proofs.«416388_j86139864089342_3_alg».proof.Proof.RHostS11
import proofs.«416388_j86139864089342_3_alg».proof.Proof.RHostS12
import proofs.«416388_j86139864089342_3_alg».proof.Proof.RHostS13
import proofs.«416388_j86139864089342_3_alg».proof.Proof.RHostS14
import proofs.«416388_j86139864089342_3_alg».proof.Proof.RHostS15
import proofs.«416388_j86139864089342_3_alg».proof.Proof.RHostS16
import proofs.«416388_j86139864089342_3_alg».proof.Proof.RHostS17
import proofs.«416388_j86139864089342_3_alg».proof.Proof.RHostS18
import proofs.«416388_j86139864089342_3_alg».proof.Proof.RHostS19
import proofs.«416388_j86139864089342_3_alg».proof.Proof.RHostWalk

noncomputable section

namespace Cert.ReferenceIdeal.Hand

open Idealize.ShloMosaic Idealize.SL.Sem Cert.ReferenceIdeal Cert.ReferenceIdeal.Facts₀
open Idealize.ShloMosaic.StableHlo (after)

variable {F : FTy → Type} [FloatOps F] [Facts₀]

noncomputable abbrev preOps : List (HloOp τ sig (Elt F)) :=
  [ StableHlo.nullary main_c (fun i => lit0 (S21.rowMajor i)),
    StableHlo.reshape main_arg2 main_v0 rfl shapeCasts_S2048_S1x2048,
    StableHlo.unary main_v0 main_v1 (broadcastInDim S100x2048 ![0, 1] bcast_S1x2048_S100x2048_0_1 : (⟨S1x2048, .i32⟩ : BufTy).Contents (Elt F) → (⟨S100x2048, .i32⟩ : BufTy).Contents (Elt F)),
    StableHlo.reshape main_v1 main_v2 rfl shapeCasts_S100x2048_S204800 ]

theorem pre_keep_lt (W : Valuation τ sig (Elt F)) (r : Ref sig .tc) (h : r.idx.val < 7) :
    after (preOps (F := F)) W (Proc.devRef .tc r) = W (Proc.devRef .tc r) :=
  (AllFrom.of_forall (N := 7) (by writes_from)).kept W h

theorem pre_value (W : Valuation τ sig (Elt F)) :
    after (preOps (F := F)) W (Proc.devRef .tc main_v2) = tile (W (Proc.devRef .tc main_arg2)) := by
  after_results_simp
  rfl

noncomputable def stepsOps : ℕ → List (HloOp τ sig (Elt F))
  | 0 => stepOps0
  | 1 => stepOps1
  | 2 => stepOps2
  | 3 => stepOps3
  | 4 => stepOps4
  | 5 => stepOps5
  | 6 => stepOps6
  | 7 => stepOps7
  | 8 => stepOps8
  | 9 => stepOps9
  | 10 => stepOps10
  | 11 => stepOps11
  | 12 => stepOps12
  | 13 => stepOps13
  | 14 => stepOps14
  | 15 => stepOps15
  | 16 => stepOps16
  | 17 => stepOps17
  | 18 => stepOps18
  | 19 => stepOps19
  | _ => []

noncomputable def rowAt (W : Valuation τ sig (Elt F)) : ℕ → IVec S204800 32
  | 0 => W (Proc.devRef .tc main_v2)
  | 1 => W (Proc.devRef .tc main_v48)
  | 2 => W (Proc.devRef .tc main_v94)
  | 3 => W (Proc.devRef .tc main_v140)
  | 4 => W (Proc.devRef .tc main_v186)
  | 5 => W (Proc.devRef .tc main_v232)
  | 6 => W (Proc.devRef .tc main_v278)
  | 7 => W (Proc.devRef .tc main_v324)
  | 8 => W (Proc.devRef .tc main_v370)
  | 9 => W (Proc.devRef .tc main_v416)
  | 10 => W (Proc.devRef .tc main_v462)
  | 11 => W (Proc.devRef .tc main_v508)
  | 12 => W (Proc.devRef .tc main_v554)
  | 13 => W (Proc.devRef .tc main_v600)
  | 14 => W (Proc.devRef .tc main_v646)
  | 15 => W (Proc.devRef .tc main_v692)
  | 16 => W (Proc.devRef .tc main_v738)
  | 17 => W (Proc.devRef .tc main_v784)
  | 18 => W (Proc.devRef .tc main_v830)
  | 19 => W (Proc.devRef .tc main_v876)
  | 20 => W (Proc.devRef .tc main_v922)
  | _ => fun _ => 0#32

theorem stepsOps_keep (W : Valuation τ sig (Elt F)) (r : Ref sig .tc) :
    ∀ i : ℕ, r.idx.val < 11 + 76 * i → after (stepsOps (F := F) i) W (Proc.devRef .tc r) = W (Proc.devRef .tc r)
  | 0, h => step0_keep_lt W r h
  | 1, h => step1_keep_lt W r h
  | 2, h => step2_keep_lt W r h
  | 3, h => step3_keep_lt W r h
  | 4, h => step4_keep_lt W r h
  | 5, h => step5_keep_lt W r h
  | 6, h => step6_keep_lt W r h
  | 7, h => step7_keep_lt W r h
  | 8, h => step8_keep_lt W r h
  | 9, h => step9_keep_lt W r h
  | 10, h => step10_keep_lt W r h
  | 11, h => step11_keep_lt W r h
  | 12, h => step12_keep_lt W r h
  | 13, h => step13_keep_lt W r h
  | 14, h => step14_keep_lt W r h
  | 15, h => step15_keep_lt W r h
  | 16, h => step16_keep_lt W r h
  | 17, h => step17_keep_lt W r h
  | 18, h => step18_keep_lt W r h
  | 19, h => step19_keep_lt W r h
  | _ + 20, _ => rfl

theorem rowAt_keep (W : Valuation τ sig (Elt F)) (i : ℕ) :
    ∀ p : ℕ, p ≤ i → rowAt (after (stepsOps (F := F) i) W) p = rowAt W p
  | 0, h => stepsOps_keep W main_v2 i (by have e : (main_v2 : Ref sig .tc).idx.val = 10 := rfl; omega)
  | 1, h => stepsOps_keep W main_v48 i (by have e : (main_v48 : Ref sig .tc).idx.val = 86 := rfl; omega)
  | 2, h => stepsOps_keep W main_v94 i (by have e : (main_v94 : Ref sig .tc).idx.val = 162 := rfl; omega)
  | 3, h => stepsOps_keep W main_v140 i (by have e : (main_v140 : Ref sig .tc).idx.val = 238 := rfl; omega)
  | 4, h => stepsOps_keep W main_v186 i (by have e : (main_v186 : Ref sig .tc).idx.val = 314 := rfl; omega)
  | 5, h => stepsOps_keep W main_v232 i (by have e : (main_v232 : Ref sig .tc).idx.val = 390 := rfl; omega)
  | 6, h => stepsOps_keep W main_v278 i (by have e : (main_v278 : Ref sig .tc).idx.val = 466 := rfl; omega)
  | 7, h => stepsOps_keep W main_v324 i (by have e : (main_v324 : Ref sig .tc).idx.val = 542 := rfl; omega)
  | 8, h => stepsOps_keep W main_v370 i (by have e : (main_v370 : Ref sig .tc).idx.val = 618 := rfl; omega)
  | 9, h => stepsOps_keep W main_v416 i (by have e : (main_v416 : Ref sig .tc).idx.val = 694 := rfl; omega)
  | 10, h => stepsOps_keep W main_v462 i (by have e : (main_v462 : Ref sig .tc).idx.val = 770 := rfl; omega)
  | 11, h => stepsOps_keep W main_v508 i (by have e : (main_v508 : Ref sig .tc).idx.val = 846 := rfl; omega)
  | 12, h => stepsOps_keep W main_v554 i (by have e : (main_v554 : Ref sig .tc).idx.val = 922 := rfl; omega)
  | 13, h => stepsOps_keep W main_v600 i (by have e : (main_v600 : Ref sig .tc).idx.val = 998 := rfl; omega)
  | 14, h => stepsOps_keep W main_v646 i (by have e : (main_v646 : Ref sig .tc).idx.val = 1074 := rfl; omega)
  | 15, h => stepsOps_keep W main_v692 i (by have e : (main_v692 : Ref sig .tc).idx.val = 1150 := rfl; omega)
  | 16, h => stepsOps_keep W main_v738 i (by have e : (main_v738 : Ref sig .tc).idx.val = 1226 := rfl; omega)
  | 17, h => stepsOps_keep W main_v784 i (by have e : (main_v784 : Ref sig .tc).idx.val = 1302 := rfl; omega)
  | 18, h => stepsOps_keep W main_v830 i (by have e : (main_v830 : Ref sig .tc).idx.val = 1378 := rfl; omega)
  | 19, h => stepsOps_keep W main_v876 i (by have e : (main_v876 : Ref sig .tc).idx.val = 1454 := rfl; omega)
  | 20, h => stepsOps_keep W main_v922 i (by have e : (main_v922 : Ref sig .tc).idx.val = 1530 := rfl; omega)
  | _ + 21, _ => rfl

noncomputable def stepFn (i : ℕ) (r3 : IVec S3551 32) (c4 : IVec S217264 32) (r5 : IVec S20001 32) (c6 : IVec S302235 32)
    (cur : IVec S204800 32) (u : FVec F S204800 .f32) : IVec S204800 32 :=
  if i % 2 = 0 then stepR_ad r3 c4 cur u else stepR_da r5 c6 cur u

theorem stepFn_even {i : ℕ} (h : i % 2 = 0) (r3 : IVec S3551 32) (c4 : IVec S217264 32) (r5 : IVec S20001 32)
    (c6 : IVec S302235 32) (cur : IVec S204800 32) (u : FVec F S204800 .f32) :
    stepFn i r3 c4 r5 c6 cur u = stepR_ad r3 c4 cur u := by
  unfold stepFn
  rw [if_pos h]

theorem stepFn_odd {i : ℕ} (h : i % 2 = 1) (r3 : IVec S3551 32) (c4 : IVec S217264 32) (r5 : IVec S20001 32)
    (c6 : IVec S302235 32) (cur : IVec S204800 32) (u : FVec F S204800 .f32) :
    stepFn i r3 c4 r5 c6 cur u = stepR_da r5 c6 cur u := by
  unfold stepFn
  rw [if_neg (by omega)]

set_option maxHeartbeats 2000000 in

theorem rowAt_value (W : Valuation τ sig (Elt F)) :
    ∀ i : ℕ, i < 20 → rowAt (after (stepsOps (F := F) i) W) (i + 1) =
      stepFn i (W (Proc.devRef .tc main_arg3)) (W (Proc.devRef .tc main_arg4)) (W (Proc.devRef .tc main_arg5))
        (W (Proc.devRef .tc main_arg6)) (rowAt W i) (ucol i (W (Proc.devRef .tc main_arg0)))
  | 0, _ => by
    have hv := step0_value (F := F) W
    simp only [stepsOps]
    generalize after (stepOps0 (F := F)) W = X at hv ⊢
    rw [stepFn_even (by rfl)]
    exact hv
  | 1, _ => by
    have hv := step1_value (F := F) W
    simp only [stepsOps]
    generalize after (stepOps1 (F := F)) W = X at hv ⊢
    rw [stepFn_odd (by rfl)]
    exact hv
  | 2, _ => by
    have hv := step2_value (F := F) W
    simp only [stepsOps]
    generalize after (stepOps2 (F := F)) W = X at hv ⊢
    rw [stepFn_even (by rfl)]
    exact hv
  | 3, _ => by
    have hv := step3_value (F := F) W
    simp only [stepsOps]
    generalize after (stepOps3 (F := F)) W = X at hv ⊢
    rw [stepFn_odd (by rfl)]
    exact hv
  | 4, _ => by
    have hv := step4_value (F := F) W
    simp only [stepsOps]
    generalize after (stepOps4 (F := F)) W = X at hv ⊢
    rw [stepFn_even (by rfl)]
    exact hv
  | 5, _ => by
    have hv := step5_value (F := F) W
    simp only [stepsOps]
    generalize after (stepOps5 (F := F)) W = X at hv ⊢
    rw [stepFn_odd (by rfl)]
    exact hv
  | 6, _ => by
    have hv := step6_value (F := F) W
    simp only [stepsOps]
    generalize after (stepOps6 (F := F)) W = X at hv ⊢
    rw [stepFn_even (by rfl)]
    exact hv
  | 7, _ => by
    have hv := step7_value (F := F) W
    simp only [stepsOps]
    generalize after (stepOps7 (F := F)) W = X at hv ⊢
    rw [stepFn_odd (by rfl)]
    exact hv
  | 8, _ => by
    have hv := step8_value (F := F) W
    simp only [stepsOps]
    generalize after (stepOps8 (F := F)) W = X at hv ⊢
    rw [stepFn_even (by rfl)]
    exact hv
  | 9, _ => by
    have hv := step9_value (F := F) W
    simp only [stepsOps]
    generalize after (stepOps9 (F := F)) W = X at hv ⊢
    rw [stepFn_odd (by rfl)]
    exact hv
  | 10, _ => by
    have hv := step10_value (F := F) W
    simp only [stepsOps]
    generalize after (stepOps10 (F := F)) W = X at hv ⊢
    rw [stepFn_even (by rfl)]
    exact hv
  | 11, _ => by
    have hv := step11_value (F := F) W
    simp only [stepsOps]
    generalize after (stepOps11 (F := F)) W = X at hv ⊢
    rw [stepFn_odd (by rfl)]
    exact hv
  | 12, _ => by
    have hv := step12_value (F := F) W
    simp only [stepsOps]
    generalize after (stepOps12 (F := F)) W = X at hv ⊢
    rw [stepFn_even (by rfl)]
    exact hv
  | 13, _ => by
    have hv := step13_value (F := F) W
    simp only [stepsOps]
    generalize after (stepOps13 (F := F)) W = X at hv ⊢
    rw [stepFn_odd (by rfl)]
    exact hv
  | 14, _ => by
    have hv := step14_value (F := F) W
    simp only [stepsOps]
    generalize after (stepOps14 (F := F)) W = X at hv ⊢
    rw [stepFn_even (by rfl)]
    exact hv
  | 15, _ => by
    have hv := step15_value (F := F) W
    simp only [stepsOps]
    generalize after (stepOps15 (F := F)) W = X at hv ⊢
    rw [stepFn_odd (by rfl)]
    exact hv
  | 16, _ => by
    have hv := step16_value (F := F) W
    simp only [stepsOps]
    generalize after (stepOps16 (F := F)) W = X at hv ⊢
    rw [stepFn_even (by rfl)]
    exact hv
  | 17, _ => by
    have hv := step17_value (F := F) W
    simp only [stepsOps]
    generalize after (stepOps17 (F := F)) W = X at hv ⊢
    rw [stepFn_odd (by rfl)]
    exact hv
  | 18, _ => by
    have hv := step18_value (F := F) W
    simp only [stepsOps]
    generalize after (stepOps18 (F := F)) W = X at hv ⊢
    rw [stepFn_even (by rfl)]
    exact hv
  | 19, _ => by
    have hv := step19_value (F := F) W
    simp only [stepsOps]
    generalize after (stepOps19 (F := F)) W = X at hv ⊢
    rw [stepFn_odd (by rfl)]
    exact hv
  | _ + 20, h => absurd h (by omega)

noncomputable def prefixOps : ℕ → List (HloOp τ sig (Elt F))
  | 0 => preOps
  | p + 1 => prefixOps p ++ stepsOps p

theorem prefixOps20_flat : prefixOps (F := F) 20 = preOps ++ (stepOps0 ++ (stepOps1 ++ (stepOps2 ++ (stepOps3 ++ (stepOps4 ++ (stepOps5 ++ (stepOps6 ++ (stepOps7 ++ (stepOps8 ++ (stepOps9 ++ (stepOps10 ++ (stepOps11 ++ (stepOps12 ++ (stepOps13 ++ (stepOps14 ++ (stepOps15 ++ (stepOps16 ++ (stepOps17 ++ (stepOps18 ++ (stepOps19)))))))))))))))))))) := by
  simp only [prefixOps, stepsOps, List.append_assoc]

theorem after_prefix_succ (V : Valuation τ sig (Elt F)) (p : ℕ) :
    after (prefixOps (F := F) (p + 1)) V = after (stepsOps p) (after (prefixOps p) V) := StableHlo.after_append _ _ V

theorem prefix_arg (V : Valuation τ sig (Elt F)) (r : Ref sig .tc) (h : r.idx.val < 7) :
    ∀ p : ℕ, after (prefixOps (F := F) p) V (Proc.devRef .tc r) = V (Proc.devRef .tc r)
  | 0 => pre_keep_lt V r h
  | p + 1 => by rw [after_prefix_succ, stepsOps_keep _ r p (by omega), prefix_arg V r h p]

noncomputable def walkOf (V : Valuation τ sig (Elt F)) (p : ℕ) : IVec S204800 32 :=
  walkV (V (Proc.devRef .tc main_arg0)) (V (Proc.devRef .tc main_arg2)) (V (Proc.devRef .tc main_arg3))
    (V (Proc.devRef .tc main_arg4)) (V (Proc.devRef .tc main_arg5)) (V (Proc.devRef .tc main_arg6)) p

theorem prefix_row_self (V : Valuation τ sig (Elt F)) :
    ∀ p : ℕ, p ≤ 20 → rowAt (after (prefixOps (F := F) p) V) p = walkOf V p
  | 0, _ => pre_value V
  | p + 1, h => by
    rw [after_prefix_succ, rowAt_value _ p (by omega), prefix_row_self V p (by omega),
      prefix_arg V main_arg0 (by decide), prefix_arg V main_arg3 (by decide), prefix_arg V main_arg4 (by decide),
      prefix_arg V main_arg5 (by decide), prefix_arg V main_arg6 (by decide)]
    rfl

theorem prefix_row (V : Valuation τ sig (Elt F)) (p : ℕ) (hp : p ≤ 20) :
    ∀ k : ℕ, p + k ≤ 20 → rowAt (after (prefixOps (F := F) (p + k)) V) p = walkOf V p
  | 0, _ => prefix_row_self V p hp
  | k + 1, h => by
    rw [← Nat.add_assoc, after_prefix_succ, rowAt_keep _ (p + k) p (by omega), prefix_row V p hp k (by omega)]

theorem prefix20_row (V : Valuation τ sig (Elt F)) (p : ℕ) (hp : p ≤ 20) :
    rowAt (after (prefixOps (F := F) 20) V) p = walkOf V p := by
  have h := prefix_row V p hp (20 - p) (by omega)
  rwa [show p + (20 - p) = 20 by omega] at h

theorem rowAt_post {post : List (HloOp τ sig (Elt F))}
    (hpost : ∀ (V' : Valuation τ sig (Elt F)) (r : Ref sig .tc), r.idx.val < 1531 →
      after post V' (Proc.devRef .tc r) = V' (Proc.devRef .tc r)) (V' : Valuation τ sig (Elt F)) :
    ∀ p : ℕ, rowAt (after post V') p = rowAt V' p
  | 0 => hpost V' main_v2 (by have e : (main_v2 : Ref sig .tc).idx.val = 10 := rfl; omega)
  | 1 => hpost V' main_v48 (by have e : (main_v48 : Ref sig .tc).idx.val = 86 := rfl; omega)
  | 2 => hpost V' main_v94 (by have e : (main_v94 : Ref sig .tc).idx.val = 162 := rfl; omega)
  | 3 => hpost V' main_v140 (by have e : (main_v140 : Ref sig .tc).idx.val = 238 := rfl; omega)
  | 4 => hpost V' main_v186 (by have e : (main_v186 : Ref sig .tc).idx.val = 314 := rfl; omega)
  | 5 => hpost V' main_v232 (by have e : (main_v232 : Ref sig .tc).idx.val = 390 := rfl; omega)
  | 6 => hpost V' main_v278 (by have e : (main_v278 : Ref sig .tc).idx.val = 466 := rfl; omega)
  | 7 => hpost V' main_v324 (by have e : (main_v324 : Ref sig .tc).idx.val = 542 := rfl; omega)
  | 8 => hpost V' main_v370 (by have e : (main_v370 : Ref sig .tc).idx.val = 618 := rfl; omega)
  | 9 => hpost V' main_v416 (by have e : (main_v416 : Ref sig .tc).idx.val = 694 := rfl; omega)
  | 10 => hpost V' main_v462 (by have e : (main_v462 : Ref sig .tc).idx.val = 770 := rfl; omega)
  | 11 => hpost V' main_v508 (by have e : (main_v508 : Ref sig .tc).idx.val = 846 := rfl; omega)
  | 12 => hpost V' main_v554 (by have e : (main_v554 : Ref sig .tc).idx.val = 922 := rfl; omega)
  | 13 => hpost V' main_v600 (by have e : (main_v600 : Ref sig .tc).idx.val = 998 := rfl; omega)
  | 14 => hpost V' main_v646 (by have e : (main_v646 : Ref sig .tc).idx.val = 1074 := rfl; omega)
  | 15 => hpost V' main_v692 (by have e : (main_v692 : Ref sig .tc).idx.val = 1150 := rfl; omega)
  | 16 => hpost V' main_v738 (by have e : (main_v738 : Ref sig .tc).idx.val = 1226 := rfl; omega)
  | 17 => hpost V' main_v784 (by have e : (main_v784 : Ref sig .tc).idx.val = 1302 := rfl; omega)
  | 18 => hpost V' main_v830 (by have e : (main_v830 : Ref sig .tc).idx.val = 1378 := rfl; omega)
  | 19 => hpost V' main_v876 (by have e : (main_v876 : Ref sig .tc).idx.val = 1454 := rfl; omega)
  | 20 => hpost V' main_v922 (by have e : (main_v922 : Ref sig .tc).idx.val = 1530 := rfl; omega)
  | _ + 21 => rfl

theorem ops_row {ops post : List (HloOp τ sig (Elt F))} (hops : ops = prefixOps 20 ++ post)
    (hpost : ∀ (V' : Valuation τ sig (Elt F)) (r : Ref sig .tc), r.idx.val < 1531 →
      after post V' (Proc.devRef .tc r) = V' (Proc.devRef .tc r))
    (V : Valuation τ sig (Elt F)) (p : ℕ) (hp : p ≤ 20) :
    rowAt (after ops V) p = walkOf V p := by
  rw [hops, StableHlo.after_append, rowAt_post hpost, prefix20_row V p hp]

variable (m : (ℓ : Loc nD τ sig) → Buf (Elt F) ℓ) (d : Dev nD)

theorem walkOf_launch (p : ℕ) : walkOf (StableHlo.launchContents m d) p = walkR m d p := rfl

theorem prefix20_walkR (p : ℕ) (hp : p ≤ 20) :
    rowAt (after (prefixOps (F := F) 20) (StableHlo.launchContents m d)) p = walkR m d p :=
  (prefix20_row _ p hp).trans (walkOf_launch m d p)

theorem X_cur {ops post : List (HloOp τ sig (Elt F))} (hops : ops = prefixOps 20 ++ post)
    (hpost : ∀ (V' : Valuation τ sig (Elt F)) (r : Ref sig .tc), r.idx.val < 1531 →
      after post V' (Proc.devRef .tc r) = V' (Proc.devRef .tc r)) (p : ℕ) (hp : p ≤ 20) :
    rowAt (after ops (StableHlo.launchContents m d)) p = walkR m d p :=
  (ops_row hops hpost _ p hp).trans (walkOf_launch m d p)

end Cert.ReferenceIdeal.Hand

end
-- ==== Proof.RPostLib.lean ====
import proofs.«416388_j86139864089342_3_alg».proof.Proof.Spec
import proofs.«416388_j86139864089342_3_alg».proof.ReferenceIdeal
import Idealize.ShloMosaic.Lib.ValueLayout

noncomputable section

namespace Cert.ReferenceIdeal.Hand

open Idealize.ShloMosaic Idealize.ShloMosaic.ValueIdx Idealize.SL.Sem Cert.ReferenceIdeal
open Cert.ReferenceIdeal.Facts₀ Cert.ReferenceIdeal.Facts

variable [Facts]

abbrev remapT (X : IVec S3072000x7 32) : IVec S3072000x7 32 :=
  select (andi (cmpi .ne X (broadcastInDim S3072000x7 ![] bcast_S_S3072000x7 (constantI S_ 32 120000#32)))
      (cmpi .sge X (broadcastInDim S3072000x7 ![] bcast_S_S3072000x7 (constantI S_ 32 3550#32))))
    (addi (subi X (broadcastInDim S3072000x7 ![] bcast_S_S3072000x7 (constantI S_ 32 3550#32)))
      (broadcastInDim S3072000x7 ![] bcast_S_S3072000x7 (constantI S_ 32 9100#32))) X

theorem remapT_apply (X : IVec S3072000x7 32) (i : S3072000x7.Idx) : remapT X i = Cert.Walk.remap (X i) := rfl

abbrev clipT (Y : IVec S204800x21 32) : IVec S204800x21 32 :=
  select (cmpi .sgt Y (broadcastInDim S204800x21 ![] bcast_S_S204800x21 (constantI S_ 32 120000#32)))
    (broadcastInDim S204800x21 ![] bcast_S_S204800x21 (constantI S_ 32 120000#32)) Y

theorem clipT_apply (Y : IVec S204800x21 32) (j : S204800x21.Idx) : clipT Y j = Cert.Walk.clipD (Y j) := rfl

section Pieces
variable {α : Type}

theorem concat16_apply (c : Fin 16 → S204800x1.Idx → α)
    (h : Shape.Concatenates [S204800x1, S204800x1, S204800x1, S204800x1, S204800x1, S204800x1, S204800x1, S204800x1, S204800x1, S204800x1, S204800x1, S204800x1, S204800x1, S204800x1, S204800x1, S204800x1] S204800x16 1) (w : Fin 204800) (p : Fin 16) :
    concatenate S204800x16 1 [⟨S204800x1, c 0⟩, ⟨S204800x1, c 1⟩, ⟨S204800x1, c 2⟩, ⟨S204800x1, c 3⟩, ⟨S204800x1, c 4⟩, ⟨S204800x1, c 5⟩, ⟨S204800x1, c 6⟩, ⟨S204800x1, c 7⟩, ⟨S204800x1, c 8⟩, ⟨S204800x1, c 9⟩, ⟨S204800x1, c 10⟩, ⟨S204800x1, c 11⟩, ⟨S204800x1, c 12⟩, ⟨S204800x1, c 13⟩, ⟨S204800x1, c 14⟩, ⟨S204800x1, c 15⟩] h (ix2 w p) = c p (ix2 w 0) :=
  concatenate_ofFn_unit_apply (t := S204800x16) (s₁ := S204800x1) (1 : Fin 2) c h rfl rfl (ix2 w p) p rfl (ix2 w 0)
    (fun b hb => by match b with | ⟨0, _⟩ => rfl | ⟨1, _⟩ => exact absurd rfl hb)

theorem concat5_apply (c : Fin 5 → S204800x1.Idx → α)
    (h : Shape.Concatenates [S204800x1, S204800x1, S204800x1, S204800x1, S204800x1] S204800x5 1) (w : Fin 204800) (p : Fin 5) :
    concatenate S204800x5 1 [⟨S204800x1, c 0⟩, ⟨S204800x1, c 1⟩, ⟨S204800x1, c 2⟩, ⟨S204800x1, c 3⟩, ⟨S204800x1, c 4⟩] h (ix2 w p) = c p (ix2 w 0) :=
  concatenate_ofFn_unit_apply (t := S204800x5) (s₁ := S204800x1) (1 : Fin 2) c h rfl rfl (ix2 w p) p rfl (ix2 w 0)
    (fun b hb => by match b with | ⟨0, _⟩ => rfl | ⟨1, _⟩ => exact absurd rfl hb)

theorem concat15_apply (x : Fin 15 → S204800x7.Idx → α)
    (h : Shape.Concatenates [S204800x7, S204800x7, S204800x7, S204800x7, S204800x7, S204800x7, S204800x7, S204800x7, S204800x7, S204800x7, S204800x7, S204800x7, S204800x7, S204800x7, S204800x7] S3072000x7 0) (a : Fin 3072000) (e : Fin 7) (k : Fin 15)
    (hk : a.val / 204800 = k.val) :
    concatenate S3072000x7 0 [⟨S204800x7, x 0⟩, ⟨S204800x7, x 1⟩, ⟨S204800x7, x 2⟩, ⟨S204800x7, x 3⟩, ⟨S204800x7, x 4⟩, ⟨S204800x7, x 5⟩, ⟨S204800x7, x 6⟩, ⟨S204800x7, x 7⟩, ⟨S204800x7, x 8⟩, ⟨S204800x7, x 9⟩, ⟨S204800x7, x 10⟩, ⟨S204800x7, x 11⟩, ⟨S204800x7, x 12⟩, ⟨S204800x7, x 13⟩, ⟨S204800x7, x 14⟩] h (ix2 a e)
      = x k (ix2 ⟨a.val % 204800, Nat.mod_lt _ (by decide)⟩ e) :=
  concatenate_ofFn_apply (t := S3072000x7) (s₁ := S204800x7) (0 : Fin 2) x h rfl 204800 rfl (ix2 a e) k hk (ix2 ⟨a.val % 204800, Nat.mod_lt _ (by decide)⟩ e) rfl
    (fun b hb => by match b with | ⟨0, _⟩ => exact absurd rfl hb | ⟨1, _⟩ => rfl)

end Pieces

abbrev stackT (c : ℕ → IVec S204800x1 32) : IVec S204800x21 32 :=
  concatenate S204800x21 1
    [⟨S204800x16, concatenate S204800x16 1 [⟨S204800x1, c 0⟩, ⟨S204800x1, c 1⟩, ⟨S204800x1, c 2⟩, ⟨S204800x1, c 3⟩, ⟨S204800x1, c 4⟩, ⟨S204800x1, c 5⟩, ⟨S204800x1, c 6⟩, ⟨S204800x1, c 7⟩, ⟨S204800x1, c 8⟩, ⟨S204800x1, c 9⟩, ⟨S204800x1, c 10⟩, ⟨S204800x1, c 11⟩, ⟨S204800x1, c 12⟩, ⟨S204800x1, c 13⟩, ⟨S204800x1, c 14⟩, ⟨S204800x1, c 15⟩] concatenates_S204800x1_S204800x1_S204800x1_S204800x1_S204800x1_S204800x1_S204800x1_S204800x1_S204800x1_S204800x1_S204800x1_S204800x1_S204800x1_S204800x1_S204800x1_S204800x1_S204800x16_d1⟩,
     ⟨S204800x5, concatenate S204800x5 1 [⟨S204800x1, c 16⟩, ⟨S204800x1, c 17⟩, ⟨S204800x1, c 18⟩, ⟨S204800x1, c 19⟩, ⟨S204800x1, c 20⟩] concatenates_S204800x1_S204800x1_S204800x1_S204800x1_S204800x1_S204800x5_d1⟩]
    concatenates_S204800x16_S204800x5_S204800x21_d1

theorem stackT_apply (c : ℕ → IVec S204800x1 32) (w : Fin 204800) (p : Fin 21) :
    stackT c (ix2 w p) = c p.val (ix2 w 0) := by
  by_cases hp : p.val < 16
  · refine (concatenate_pair_apply_left (t := S204800x21) (s₁ := S204800x16) (s₂ := S204800x5) (1 : Fin 2) _ _ _ (ix2 w p) rfl (ix2 w ⟨p.val, hp⟩) (fun b => ?_)).trans ?_
    · match b with
      | ⟨0, _⟩ => rfl
      | ⟨1, _⟩ => rfl
    · exact concat16_apply (fun n : Fin 16 => c n.val) _ w ⟨p.val, hp⟩
  · have hp5 : p.val - 16 < 5 := by have := p.isLt; omega
    refine (concatenate_pair_apply_right (t := S204800x21) (s₁ := S204800x16) (s₂ := S204800x5) (1 : Fin 2) _ _ _ (ix2 w p) rfl rfl (ix2 w ⟨p.val - 16, hp5⟩) (fun b hb => ?_) ?_).trans ?_
    · match b with
      | ⟨0, _⟩ => rfl
      | ⟨1, _⟩ => exact absurd rfl hb
    · show p.val - 16 + 16 = p.val
      omega
    · refine (concat5_apply (fun n : Fin 5 => c (16 + n.val)) _ w ⟨p.val - 16, hp5⟩).trans ?_
      show c (16 + (p.val - 16)) (ix2 w 0) = c p.val (ix2 w 0)
      rw [show 16 + (p.val - 16) = p.val by omega]

abbrev offsT (T : IVec S21 32) : IVec S204800x21 32 :=
  broadcastInDim S204800x21 ![0, 1] bcast_S1x21_S204800x21_0_1 (broadcastInDim S1x21 ![1] bcast_S21_S1x21_1 T)

theorem offsT_apply (T : IVec S21 32) (w : Fin 204800) (p : Fin 21) : offsT T (ix2 w p) = T (ix1 p) := by
  refine (broadcastInDim_apply (s := S1x21) (t := S204800x21) ![0, 1] _ _ (ix2 w p) (ix2 0 p) (fun a => ?_)).trans ?_
  · match a with
    | ⟨0, _⟩ => rfl
    | ⟨1, _⟩ => rfl
  · refine broadcastInDim_apply (s := S21) (t := S1x21) ![1] _ T (ix2 0 p) (ix1 p) (fun a => ?_)
    match a with
    | ⟨0, _⟩ => rfl

theorem lit0_offOf (p : Fin 21) : lit0 (S21.rowMajor (ix1 p)) = Cert.Walk.offOf p.val := by
  have h : S21.rowMajor (ix1 p) = p := by
    apply Fin.ext
    rw [Shape.rowMajor_val_one]
  rw [h]
  fin_cases p <;> rfl

theorem colOf_apply (r : IVec S204800 32) (w : Fin 204800) :
    broadcastInDim S204800x1 ![0] bcast_S204800_S204800x1_0 r (ix2 w 0) = r (ix1 w) := by
  refine broadcastInDim_apply (s := S204800) (t := S204800x1) ![0] _ r (ix2 w 0) (ix1 w) (fun a => ?_)
  match a with
  | ⟨0, _⟩ => rfl

abbrev windowsT (Y : IVec S204800x21 32) : IVec S3072000x7 32 :=
  concatenate S3072000x7 0
    [⟨S204800x7, extractStridedSlice S204800x7 ![0, 0] Y slices_S204800x21_S204800x7_0_0⟩,
     ⟨S204800x7, extractStridedSlice S204800x7 ![0, 1] Y slices_S204800x21_S204800x7_0_1⟩,
     ⟨S204800x7, extractStridedSlice S204800x7 ![0, 2] Y slices_S204800x21_S204800x7_0_2⟩,
     ⟨S204800x7, extractStridedSlice S204800x7 ![0, 3] Y slices_S204800x21_S204800x7_0_3⟩,
     ⟨S204800x7, extractStridedSlice S204800x7 ![0, 4] Y slices_S204800x21_S204800x7_0_4⟩,
     ⟨S204800x7, extractStridedSlice S204800x7 ![0, 5] Y slices_S204800x21_S204800x7_0_5⟩,
     ⟨S204800x7, extractStridedSlice S204800x7 ![0, 6] Y slices_S204800x21_S204800x7_0_6⟩,
     ⟨S204800x7, extractStridedSlice S204800x7 ![0, 7] Y slices_S204800x21_S204800x7_0_7⟩,
     ⟨S204800x7, extractStridedSlice S204800x7 ![0, 8] Y slices_S204800x21_S204800x7_0_8⟩,
     ⟨S204800x7, extractStridedSlice S204800x7 ![0, 9] Y slices_S204800x21_S204800x7_0_9⟩,
     ⟨S204800x7, extractStridedSlice S204800x7 ![0, 10] Y slices_S204800x21_S204800x7_0_10⟩,
     ⟨S204800x7, extractStridedSlice S204800x7 ![0, 11] Y slices_S204800x21_S204800x7_0_11⟩,
     ⟨S204800x7, extractStridedSlice S204800x7 ![0, 12] Y slices_S204800x21_S204800x7_0_12⟩,
     ⟨S204800x7, extractStridedSlice S204800x7 ![0, 13] Y slices_S204800x21_S204800x7_0_13⟩,
     ⟨S204800x7, extractStridedSlice S204800x7 ![0, 14] Y slices_S204800x21_S204800x7_0_14⟩]
    concatenates_S204800x7_S204800x7_S204800x7_S204800x7_S204800x7_S204800x7_S204800x7_S204800x7_S204800x7_S204800x7_S204800x7_S204800x7_S204800x7_S204800x7_S204800x7_S3072000x7_d0

theorem posOf_lt (i : S3072000x7.Idx) : Cert.Walk.posOf i < 21 := by
  have h0 := idx2_lt0 i
  have h1 := idx2_lt1 i
  unfold Cert.Walk.posOf Cert.Walk.winOf
  omega

theorem windowsT_apply (Y : IVec S204800x21 32) (i : S3072000x7.Idx) :
    windowsT Y i = Y (ix2 (Cert.Walk.walkOf i) ⟨Cert.Walk.posOf i, posOf_lt i⟩) := by
  have hsl : ∀ k : Fin 15, S204800x21.Slices ![0, k.val] S204800x7 := by decide
  have h0 := idx2_lt0 i
  have hk : (i 0).val / 204800 < 15 := by omega
  have hi : i = ix2 (i 0) (i 1) := eq_ix2 i
  rw [hi]
  refine (concat15_apply (fun k : Fin 15 => extractStridedSlice S204800x7 ![0, k.val] Y (hsl k)) _ (i 0) (i 1) ⟨(i 0).val / 204800, hk⟩ rfl).trans ?_
  exact slice2_axis1_apply _ Y _ _ (i 1) _ rfl

end Cert.ReferenceIdeal.Hand

end
-- ==== Proof.RPostPos.lean ====
import proofs.«416388_j86139864089342_3_alg».proof.Proof.RPostOps
import proofs.«416388_j86139864089342_3_alg».proof.Proof.RPostLib

noncomputable section

namespace Cert.ReferenceIdeal.Hand

open Idealize.ShloMosaic Idealize.ShloMosaic.ValueIdx Idealize.SL.Sem Cert.ReferenceIdeal
open Cert.ReferenceIdeal.Facts₀ Cert.ReferenceIdeal.Facts

variable {F : FTy → Type} [FloatOps F] [Facts]

macro "stage_results" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.reshape_result', Idealize.ShloMosaic.StableHlo.nary_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.reshape_result_ne', Idealize.ShloMosaic.StableHlo.nary_result_ne',
      Matrix.cons_val]))

def curRow (W : Valuation τ sig (Elt F)) : ℕ → IVec Cert.Walk.SW 32
  | 0 => W (Proc.devRef .tc main_v2)
  | 1 => W (Proc.devRef .tc main_v48)
  | 2 => W (Proc.devRef .tc main_v94)
  | 3 => W (Proc.devRef .tc main_v140)
  | 4 => W (Proc.devRef .tc main_v186)
  | 5 => W (Proc.devRef .tc main_v232)
  | 6 => W (Proc.devRef .tc main_v278)
  | 7 => W (Proc.devRef .tc main_v324)
  | 8 => W (Proc.devRef .tc main_v370)
  | 9 => W (Proc.devRef .tc main_v416)
  | 10 => W (Proc.devRef .tc main_v462)
  | 11 => W (Proc.devRef .tc main_v508)
  | 12 => W (Proc.devRef .tc main_v554)
  | 13 => W (Proc.devRef .tc main_v600)
  | 14 => W (Proc.devRef .tc main_v646)
  | 15 => W (Proc.devRef .tc main_v692)
  | 16 => W (Proc.devRef .tc main_v738)
  | 17 => W (Proc.devRef .tc main_v784)
  | 18 => W (Proc.devRef .tc main_v830)
  | 19 => W (Proc.devRef .tc main_v876)
  | 20 => W (Proc.devRef .tc main_v922)
  | _ => fun _ => 0#32

/-- What the four stretches of the positive result leave; the slices are evaluated once for all four. -/
theorem pos_reads (V : Valuation τ sig (Elt F)) :
    StableHlo.after posRemap V (Proc.devRef .tc main_v978) = remapT (V (Proc.devRef .tc main_v968))
    ∧ StableHlo.after posWin V (Proc.devRef .tc main_v968) = windowsT (V (Proc.devRef .tc main_v952))
    ∧ StableHlo.after posClip V (Proc.devRef .tc main_v952) = clipT (V (Proc.devRef .tc main_v949))
    ∧ StableHlo.after posStack V (Proc.devRef .tc main_v949)
        = addi (stackT fun p => broadcastInDim S204800x1 ![0] bcast_S204800_S204800x1_0 (curRow V p)) (offsT (V (Proc.devRef .tc main_c))) := by
  open_slices posRemap, posWin, posClip, posStack, ops21, ops22
  refine ⟨?_, ?_, ?_, ?_⟩ <;> (stage_results; try rfl)

theorem addi_apply {s : Shape} {w : ℕ} (a b : IVec s w) (j : s.Idx) : addi a b j = IntOp.addi (a j) (b j) := rfl

theorem post_pos (W : Valuation τ sig (Elt F)) (hc : W (Proc.devRef .tc main_c) = fun i => lit0 (S21.rowMajor i)) :
    StableHlo.after posOps W (Proc.devRef .tc main_v978) = Cert.Walk.posSpec (curRow W) := by
  show StableHlo.after (posStack ++ posClip ++ posWin ++ posRemap) W _ = _
  rw [StableHlo.after_append (posStack ++ posClip ++ posWin) posRemap, StableHlo.after_append (posStack ++ posClip) posWin,
    StableHlo.after_append posStack posClip, (pos_reads _).1, (pos_reads _).2.1, (pos_reads _).2.2.1, (pos_reads _).2.2.2, hc]
  funext i
  rw [remapT_apply, windowsT_apply, clipT_apply, addi_apply, stackT_apply, offsT_apply, colOf_apply]
  beta_reduce
  rw [lit0_offOf]
  rfl

end Cert.ReferenceIdeal.Hand

end
-- ==== Proof.RPostNegStages.lean ====
import proofs.«416388_j86139864089342_3_alg».proof.Proof.Spec
import proofs.«416388_j86139864089342_3_alg».proof.Proof.RPostOps
import proofs.«416388_j86139864089342_3_alg».proof.Proof.RPostLib
import proofs.«416388_j86139864089342_3_alg».proof.Proof.RStep
import Idealize.ShloMosaic.Lib.StableHlo.Run
import Idealize.ShloMosaic.Lib.Pipeline.Frame
import Idealize.ShloMosaic.Lib.Pipeline.Value
import Idealize.ShloMosaic.Lib.IdealHost

noncomputable section

namespace Cert.ReferenceIdeal.Hand

open Idealize.ShloMosaic Idealize.ShloMosaic.ValueIdx Idealize.SL.Sem Cert.ReferenceIdeal
open Cert.ReferenceIdeal.Facts₀ Cert.ReferenceIdeal.Facts
open Idealize.ShloMosaic.StableHlo

variable [Facts]

def negRowsV (V : Valuation τ sig (Elt Ideal)) : ℕ → IVec S204800 32
  | 0 => V (Proc.devRef .tc main_v981)
  | 1 => V (Proc.devRef .tc main_v986)
  | 2 => V (Proc.devRef .tc main_v991)
  | 3 => V (Proc.devRef .tc main_v996)
  | 4 => V (Proc.devRef .tc main_v1001)
  | 5 => V (Proc.devRef .tc main_v1006)
  | 6 => V (Proc.devRef .tc main_v1011)
  | 7 => V (Proc.devRef .tc main_v1016)
  | 8 => V (Proc.devRef .tc main_v1021)
  | 9 => V (Proc.devRef .tc main_v1026)
  | 10 => V (Proc.devRef .tc main_v1031)
  | 11 => V (Proc.devRef .tc main_v1036)
  | 12 => V (Proc.devRef .tc main_v1041)
  | 13 => V (Proc.devRef .tc main_v1046)
  | 14 => V (Proc.devRef .tc main_v1051)
  | 15 => V (Proc.devRef .tc main_v1056)
  | 16 => V (Proc.devRef .tc main_v1061)
  | 17 => V (Proc.devRef .tc main_v1066)
  | 18 => V (Proc.devRef .tc main_v1071)
  | 19 => V (Proc.devRef .tc main_v1076)
  | 20 => V (Proc.devRef .tc main_v1081)
  | _ => V (Proc.devRef .tc main_v981)

def scaleWord (q : ℕ) : BitVec 32 := if q % 2 = 0 then 0x469C4000#32 else 0x455DE000#32

def negRowT (batch : IVec S2048 32) (neg : FVec Ideal S204800x20 .f32) : ℕ → IVec S204800 32
  | 0 => tile batch
  | q + 1 => fptosi 32 (mulf (ucol q neg) (broadcastInDim S204800 ![] bcast_S_S204800 (constant S_ .f32 (scaleWord q))))

set_option maxHeartbeats 40000000 in

theorem rows_after (W : Valuation τ sig (Elt Ideal)) (p : Fin 21) :
    negRowsV (after (negStart (F := Ideal) ++ negDraws) W) p.val
      = negRowT (W (Proc.devRef .tc main_arg2)) (W (Proc.devRef .tc main_arg1)) p.val := by
  open_slices negStart, negDraws, ops22, ops23, ops24
  fin_cases p
  · show after _ W (Proc.devRef .tc main_v981) = _; after_results_simp; rfl
  · show after _ W (Proc.devRef .tc main_v986) = _; after_results_simp; rfl
  · show after _ W (Proc.devRef .tc main_v991) = _; after_results_simp; rfl
  · show after _ W (Proc.devRef .tc main_v996) = _; after_results_simp; rfl
  · show after _ W (Proc.devRef .tc main_v1001) = _; after_results_simp; rfl
  · show after _ W (Proc.devRef .tc main_v1006) = _; after_results_simp; rfl
  · show after _ W (Proc.devRef .tc main_v1011) = _; after_results_simp; rfl
  · show after _ W (Proc.devRef .tc main_v1016) = _; after_results_simp; rfl
  · show after _ W (Proc.devRef .tc main_v1021) = _; after_results_simp; rfl
  · show after _ W (Proc.devRef .tc main_v1026) = _; after_results_simp; rfl
  · show after _ W (Proc.devRef .tc main_v1031) = _; after_results_simp; rfl
  · show after _ W (Proc.devRef .tc main_v1036) = _; after_results_simp; rfl
  · show after _ W (Proc.devRef .tc main_v1041) = _; after_results_simp; rfl
  · show after _ W (Proc.devRef .tc main_v1046) = _; after_results_simp; rfl
  · show after _ W (Proc.devRef .tc main_v1051) = _; after_results_simp; rfl
  · show after _ W (Proc.devRef .tc main_v1056) = _; after_results_simp; rfl
  · show after _ W (Proc.devRef .tc main_v1061) = _; after_results_simp; rfl
  · show after _ W (Proc.devRef .tc main_v1066) = _; after_results_simp; rfl
  · show after _ W (Proc.devRef .tc main_v1071) = _; after_results_simp; rfl
  · show after _ W (Proc.devRef .tc main_v1076) = _; after_results_simp; rfl
  · show after _ W (Proc.devRef .tc main_v1081) = _; after_results_simp; rfl

set_option maxHeartbeats 40000000 in

theorem offs_after (W : Valuation τ sig (Elt Ideal)) :
    after (negStart (F := Ideal) ++ negDraws) W (Proc.devRef .tc main_c) = W (Proc.devRef .tc main_c) := by
  open_slices negStart, negDraws, ops22, ops23, ops24
  after_results_simp

set_option maxHeartbeats 4000000 in

theorem stack_after (V : Valuation τ sig (Elt Ideal)) :
    after (negStack (F := Ideal)) V (Proc.devRef .tc main_v1108)
      = addi (stackT fun p => broadcastInDim S204800x1 ![0] bcast_S204800_S204800x1_0 (negRowsV V p))
          (offsT (V (Proc.devRef .tc main_c))) := by
  open_slices negStack, ops24
  after_results
  rfl

set_option maxHeartbeats 4000000 in

theorem win_after (V : Valuation τ sig (Elt Ideal)) :
    after (negWin (F := Ideal)) V (Proc.devRef .tc main_v1124) = windowsT (V (Proc.devRef .tc main_v1108)) := by
  open_slices negWin, ops24
  after_results
  rfl

set_option maxHeartbeats 4000000 in

theorem remap_after (V : Valuation τ sig (Elt Ideal)) :
    after (negRemap (F := Ideal)) V (Proc.devRef .tc main_v1134) = remapT (V (Proc.devRef .tc main_v1124)) := by
  open_slices negRemap, ops24, ops25
  after_results_simp
  rfl

end Cert.ReferenceIdeal.Hand

end
-- ==== Proof.RPostNeg.lean ====
import proofs.«416388_j86139864089342_3_alg».proof.Proof.RPostNegStages
import Idealize.ShloMosaic.Lib.Pipeline.Value
import Idealize.ShloMosaic.Lib.IdealHost

noncomputable section

namespace Cert.ReferenceIdeal.Hand

open Idealize.ShloMosaic Idealize.ShloMosaic.ValueIdx Idealize.SL.Sem Cert.ReferenceIdeal
open Cert.ReferenceIdeal.Facts₀ Cert.ReferenceIdeal.Facts
open Idealize.ShloMosaic.StableHlo

variable [Facts]

theorem tile_apply (batch : IVec S2048 32) (w : Fin 204800) :
    tile batch (ix1 w) = batch (ix1 ⟨w.val % 2048, Nat.mod_lt _ (by decide)⟩) := by
  unfold tile
  rw [shapeCast_apply _ _ (ix1 w) (ix2 (⟨w.val / 2048, by have := w.isLt; omega⟩ : Fin 100) (⟨w.val % 2048, Nat.mod_lt _ (by decide)⟩ : Fin 2048))
        (by rw [Shape.rowMajor_val_two, Shape.rowMajor_val_one]; show w.val / 2048 * 2048 + w.val % 2048 = w.val; omega),
    broadcastInDim_apply (s := S1x2048) (t := S100x2048) ![0, 1] _ _ _ (ix2 (0 : Fin 1) (⟨w.val % 2048, Nat.mod_lt _ (by decide)⟩ : Fin 2048))
        (fun a => by match a with | ⟨0, _⟩ => rfl | ⟨1, _⟩ => rfl),
    shapeCast_apply _ _ (ix2 (0 : Fin 1) (⟨w.val % 2048, Nat.mod_lt _ (by decide)⟩ : Fin 2048)) (ix1 (⟨w.val % 2048, Nat.mod_lt _ (by decide)⟩ : Fin 2048))
        (by rw [Shape.rowMajor_val_two, Shape.rowMajor_val_one]; show w.val % 2048 = 0 * 2048 + w.val % 2048; omega)]

theorem col_slice_apply {α : Type} (pr : S204800x20.Idx → α) (k : Fin 20) (h : S204800x20.Slices ![0, k.val] S204800x1)
    (hc : S204800x1.ShapeCasts S204800) (w : Fin 204800) :
    shapeCast S204800 (extractStridedSlice S204800x1 ![0, k.val] pr h) hc (ix1 w) = pr (ix2 w k) := by
  rw [shapeCast_apply _ _ (ix1 w) (ix2 w (0 : Fin 1)) (by rw [Shape.rowMajor_val_two, Shape.rowMajor_val_one]; show w.val * 1 + 0 = w.val; omega),
    extractStridedSlice_apply _ _ _ (ix2 w (0 : Fin 1)) (ix2 w k)
      (fun a => by match a with | ⟨0, _⟩ => exact (Nat.zero_add _).symm | ⟨1, _⟩ => exact (Nat.add_zero _).symm)]

theorem ucol_apply (neg : FVec Ideal S204800x20 .f32) (q : Fin 20) (w : Fin 204800) : ucol q.val neg (ix1 w) = neg (ix2 w q) := by
  fin_cases q
  · exact col_slice_apply neg ⟨0, by decide⟩ slices_S204800x20_S204800x1_0_0 shapeCasts_S204800x1_S204800 w
  · exact col_slice_apply neg ⟨1, by decide⟩ slices_S204800x20_S204800x1_0_1 shapeCasts_S204800x1_S204800 w
  · exact col_slice_apply neg ⟨2, by decide⟩ slices_S204800x20_S204800x1_0_2 shapeCasts_S204800x1_S204800 w
  · exact col_slice_apply neg ⟨3, by decide⟩ slices_S204800x20_S204800x1_0_3 shapeCasts_S204800x1_S204800 w
  · exact col_slice_apply neg ⟨4, by decide⟩ slices_S204800x20_S204800x1_0_4 shapeCasts_S204800x1_S204800 w
  · exact col_slice_apply neg ⟨5, by decide⟩ slices_S204800x20_S204800x1_0_5 shapeCasts_S204800x1_S204800 w
  · exact col_slice_apply neg ⟨6, by decide⟩ slices_S204800x20_S204800x1_0_6 shapeCasts_S204800x1_S204800 w
  · exact col_slice_apply neg ⟨7, by decide⟩ slices_S204800x20_S204800x1_0_7 shapeCasts_S204800x1_S204800 w
  · exact col_slice_apply neg ⟨8, by decide⟩ slices_S204800x20_S204800x1_0_8 shapeCasts_S204800x1_S204800 w
  · exact col_slice_apply neg ⟨9, by decide⟩ slices_S204800x20_S204800x1_0_9 shapeCasts_S204800x1_S204800 w
  · exact col_slice_apply neg ⟨10, by decide⟩ slices_S204800x20_S204800x1_0_10 shapeCasts_S204800x1_S204800 w
  · exact col_slice_apply neg ⟨11, by decide⟩ slices_S204800x20_S204800x1_0_11 shapeCasts_S204800x1_S204800 w
  · exact col_slice_apply neg ⟨12, by decide⟩ slices_S204800x20_S204800x1_0_12 shapeCasts_S204800x1_S204800 w
  · exact col_slice_apply neg ⟨13, by decide⟩ slices_S204800x20_S204800x1_0_13 shapeCasts_S204800x1_S204800 w
  · exact col_slice_apply neg ⟨14, by decide⟩ slices_S204800x20_S204800x1_0_14 shapeCasts_S204800x1_S204800 w
  · exact col_slice_apply neg ⟨15, by decide⟩ slices_S204800x20_S204800x1_0_15 shapeCasts_S204800x1_S204800 w
  · exact col_slice_apply neg ⟨16, by decide⟩ slices_S204800x20_S204800x1_0_16 shapeCasts_S204800x1_S204800 w
  · exact col_slice_apply neg ⟨17, by decide⟩ slices_S204800x20_S204800x1_0_17 shapeCasts_S204800x1_S204800 w
  · exact col_slice_apply neg ⟨18, by decide⟩ slices_S204800x20_S204800x1_0_18 shapeCasts_S204800x1_S204800 w
  · exact col_slice_apply neg ⟨19, by decide⟩ slices_S204800x20_S204800x1_0_19 shapeCasts_S204800x1_S204800 w

theorem word_20000 : Ideal.ofBits .f32 0x469C4000#32 = FloatOps.sitofp (F := Ideal) .f32 (20000#32 : BitVec 32) := by
  show _ = (((20000#32 : BitVec 32).toInt : ℝ) : EReal)
  rw [show (20000#32 : BitVec 32).toInt = 20000 from by decide]
  simp [Ideal.ofBits, Ideal.ieee, -EReal.coe_mul]; norm_num

theorem word_3550 : Ideal.ofBits .f32 0x455DE000#32 = FloatOps.sitofp (F := Ideal) .f32 (3550#32 : BitVec 32) := by
  show _ = (((3550#32 : BitVec 32).toInt : ℝ) : EReal)
  rw [show (3550#32 : BitVec 32).toInt = 3550 from by decide]
  simp [Ideal.ofBits, Ideal.ieee, -EReal.coe_mul]; norm_num

theorem scaleWord_eq (q : ℕ) : Ideal.ofBits .f32 (scaleWord q) = FloatOps.sitofp (F := Ideal) .f32 (Cert.Walk.scaleOf q) := by
  unfold scaleWord Cert.Walk.scaleOf
  by_cases h : q % 2 = 0
  · rw [if_pos h, if_pos h]; exact word_20000
  · rw [if_neg h, if_neg h]; exact word_3550

theorem cell_eq (batch : IVec S2048 32) (neg : FVec Ideal S204800x20 .f32) (p : ℕ) (hp : p < 21) (w : Fin 204800) :
    IntOp.addi (negRowT batch neg p (ix1 w)) (Cert.Walk.offOf p)
      = Cert.Walk.negRowG (fun w => batch (ix1 ⟨w.val % 2048, Nat.mod_lt _ (by decide)⟩)) (fun w q => neg (ix2 w q)) p w := by
  match p, hp with
  | 0, _ =>
    show IntOp.addi (tile batch (ix1 w)) 0#32 = batch (ix1 ⟨w.val % 2048, _⟩)
    rw [tile_apply]
    exact BitVec.add_zero _
  | q + 1, hq =>
    have hq' : q < 20 := by omega
    have hr : Cert.Walk.negRowG (fun w => batch (ix1 ⟨w.val % 2048, Nat.mod_lt _ (by decide)⟩)) (fun w q => neg (ix2 w q)) (q + 1) w
        = IntOp.addi (FloatOps.fptosi (F := Ideal) 32 (FloatOps.mulf (F := Ideal) (φ := .f32) (neg (ix2 w ⟨q, hq'⟩))
            (FloatOps.sitofp (F := Ideal) .f32 (Cert.Walk.scaleOf q)))) (Cert.Walk.offOf (q + 1)) := by
      unfold Cert.Walk.negRowG
      rw [if_neg (Nat.succ_ne_zero _), dif_pos (show q + 1 - 1 < 20 from by omega)]
      rfl
    rw [hr]
    show IntOp.addi (FloatOps.fptosi (F := Ideal) 32 (FloatOps.mulf (F := Ideal) (φ := .f32) (ucol q neg (ix1 w))
      (Ideal.ofBits .f32 (scaleWord q)))) (Cert.Walk.offOf (q + 1)) = _
    rw [ucol_apply neg ⟨q, hq'⟩ w, scaleWord_eq]

theorem post_neg (W : Valuation τ sig (Elt Ideal)) (hc : W (Proc.devRef .tc main_c) = fun i => lit0 (S21.rowMajor i)) :
    after (negOps (F := Ideal)) W (Proc.devRef .tc main_v1134)
      = Cert.Walk.negSpec (W (Proc.devRef .tc main_arg2)) (W (Proc.devRef .tc main_arg1)) := by
  show after ((((negStart ++ negDraws) ++ negStack) ++ negWin) ++ negRemap) W _ = _
  rw [StableHlo.after_append (negStart ++ negDraws ++ negStack ++ negWin) negRemap, StableHlo.after_append (negStart ++ negDraws ++ negStack) negWin,
    StableHlo.after_append (negStart ++ negDraws) negStack, remap_after, win_after, stack_after, offs_after]
  funext i
  rw [remapT_apply, windowsT_apply]
  show Cert.Walk.remap (IntOp.addi (stackT _ (ix2 (Cert.Walk.walkOf i) ⟨Cert.Walk.posOf i, posOf_lt i⟩))
    (offsT _ (ix2 (Cert.Walk.walkOf i) ⟨Cert.Walk.posOf i, posOf_lt i⟩))) = _
  have hT : W (Proc.devRef .tc main_c) (ix1 ⟨Cert.Walk.posOf i, posOf_lt i⟩) = Cert.Walk.offOf (Cert.Walk.posOf i) := by
    rw [hc]; exact lit0_offOf ⟨Cert.Walk.posOf i, posOf_lt i⟩
  rw [stackT_apply, offsT_apply, hT, colOf_apply, rows_after W ⟨Cert.Walk.posOf i, posOf_lt i⟩]
  exact congrArg Cert.Walk.remap (cell_eq _ _ (Cert.Walk.posOf i) (posOf_lt i) (Cert.Walk.walkOf i))

end Cert.ReferenceIdeal.Hand

end
-- ==== Proof.RValue.lean ====
import proofs.«416388_j86139864089342_3_alg».proof.Proof.RSplit
import proofs.«416388_j86139864089342_3_alg».proof.Proof.RRun
import proofs.«416388_j86139864089342_3_alg».proof.Proof.RHost
import proofs.«416388_j86139864089342_3_alg».proof.Proof.RPostPos
import proofs.«416388_j86139864089342_3_alg».proof.Proof.RPostNeg
import proofs.«416388_j86139864089342_3_alg».proof.Proof.Spec
import Idealize.ShloMosaic.Lib.Pipeline.Regions
import Mathlib.Tactic.IntervalCases

noncomputable section

namespace Cert.ReferenceIdeal.Hand

open Idealize.ShloMosaic Idealize.SL.Sem Cert.ReferenceIdeal
open Idealize.ShloMosaic.StableHlo (after launchContents)

theorem flat22 {α : Type} (l0 l1 l2 l3 l4 l5 l6 l7 l8 l9 l10 l11 l12 l13 l14 l15 l16 l17 l18 l19 l20 l21 : List α) :
    l0 ++ (l1 ++ l2 ++ l3 ++ l4 ++ l5 ++ l6 ++ l7 ++ l8 ++ l9 ++ l10 ++ l11 ++ l12 ++ l13 ++ l14 ++ l15 ++ l16 ++ l17 ++ l18 ++ l19 ++ l20 ++ l21) = [l0, l1, l2, l3, l4, l5, l6, l7, l8, l9, l10, l11, l12, l13, l14, l15, l16, l17, l18, l19, l20, l21].flatten := by
  simp only [List.flatten_cons, List.flatten_nil, List.append_nil, List.append_assoc]

theorem walk_eq : (ops0 (F := Ideal)) ++ midOps = prefixOps 20 :=
  (flat22 _ _ _ _ _ _ _ _ _ _ _ _ _ _ _ _ _ _ _ _ _ _).trans ((congrArg List.flatten
    (show [ops0 (F := Ideal), ops1, ops2, ops3, ops4, ops5, ops6, ops7, ops8, ops9, ops10, ops11, ops12, ops13, ops14, ops15, ops16, ops17, ops18, ops19, ops20, List.take 6 ops21]
        = chunks [71, 73, 68, 73, 71, 73, 73, 73, 73, 71, 73, 73, 73, 73, 73, 73, 73, 71, 73, 71, 73] (prefixOps (F := Ideal) 20) from by chain_rfl)).trans (flatten_chunks _ _))

theorem ops_walk_post : (ops (F := Ideal)) = prefixOps 20 ++ (posOps ++ negOps) :=
  ops_split.trans ((congrArg (fun l => l ++ posOps ++ negOps) walk_eq).trans (List.append_assoc _ _ _))

theorem post_keeps (V' : Valuation τ sig (Elt Ideal)) (r : Ref sig .tc) (hr : r.idx.val < 1531) :
    after (posOps ++ negOps) V' (Proc.devRef .tc r) = V' (Proc.devRef .tc r) := by
  rw [StableHlo.after_append posOps negOps, negOps_from.kept _ (by omega), posOps_from.kept _ hr]

theorem rowAt_eq_curRow (W : Valuation τ sig (Elt Ideal)) (p : ℕ) (hp : p ≤ 20) : rowAt W p = curRow W p := by
  interval_cases p <;> rfl

theorem curRow_congr (W W' : Valuation τ sig (Elt Ideal))
    (h : ∀ r : Ref sig .tc, r.idx.val < 1531 → W (Proc.devRef .tc r) = W' (Proc.devRef .tc r)) :
    ∀ p : ℕ, p ≤ 20 → curRow W p = curRow W' p
  | 0, _ => h main_v2 (by decide)
  | 1, _ => h main_v48 (by decide)
  | 2, _ => h main_v94 (by decide)
  | 3, _ => h main_v140 (by decide)
  | 4, _ => h main_v186 (by decide)
  | 5, _ => h main_v232 (by decide)
  | 6, _ => h main_v278 (by decide)
  | 7, _ => h main_v324 (by decide)
  | 8, _ => h main_v370 (by decide)
  | 9, _ => h main_v416 (by decide)
  | 10, _ => h main_v462 (by decide)
  | 11, _ => h main_v508 (by decide)
  | 12, _ => h main_v554 (by decide)
  | 13, _ => h main_v600 (by decide)
  | 14, _ => h main_v646 (by decide)
  | 15, _ => h main_v692 (by decide)
  | 16, _ => h main_v738 (by decide)
  | 17, _ => h main_v784 (by decide)
  | 18, _ => h main_v830 (by decide)
  | 19, _ => h main_v876 (by decide)
  | 20, _ => h main_v922 (by decide)
  | p + 21, hp => absurd hp (by omega)

theorem curRow_mid (V : Valuation τ sig (Elt Ideal)) (p : ℕ) (hp : p ≤ 20) :
    curRow (after midOps (after ops0 V)) p = curRow (after ops V) p :=
  curRow_congr _ _ (fun r hr => (after_ops_of_lt V hr).symm) p hp

variable (m : (ℓ : Loc nD τ sig) → Buf (Elt Ideal) ℓ) (ρ : Dev nD → PrngReg)

theorem val_pos (d : Dev nD) :
    after ops (launchContents m d) (Proc.devRef .tc main_v978) = Cert.Walk.posSpec (walkR m d) := by
  rw [after_ops_pos, post_pos _ (mid_main_c _)]
  refine Cert.Walk.posSpec_congr fun p hp => ?_
  rw [curRow_mid _ p hp]
  exact (rowAt_eq_curRow _ p hp).symm.trans (X_cur m d ops_walk_post post_keeps p hp)

theorem val_neg (d : Dev nD) :
    after ops (launchContents m d) (Proc.devRef .tc main_v1134)
      = Cert.Walk.negSpec (m ((d.tc : Thread nD τ).loc main_arg2)) (m ((d.tc : Thread nD τ).loc main_arg1)) := by
  rw [after_ops, post_neg _ (pos_main_c _), pos_of_lt (r := main_arg2) _ (by decide), pos_of_lt (r := main_arg1) _ (by decide)]

theorem run_val : θ_run (defs (F := Ideal)) (onTc (τ := τ) (main (F := Ideal))) ⟨m, fun _ => 0, ρ⟩ (fun r => ∀ d : Dev nD,
      r.2.mem ((d.tc : Thread nD τ).loc main_v978) = Cert.Walk.posSpec (walkR m d)
      ∧ r.2.mem ((d.tc : Thread nD τ).loc main_v1134)
          = Cert.Walk.negSpec (m ((d.tc : Thread nD τ).loc main_arg2)) (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)) :=
  (θ_run _ _ _).mono (fun _ h d => ⟨(h d main_v978).trans (val_pos m d), (h d main_v1134).trans (val_neg m d),
      (h d main_arg0).trans (kept_arg _ (by decide)), (h d main_arg1).trans (kept_arg _ (by decide)), (h d main_arg2).trans (kept_arg _ (by decide)), (h d main_arg3).trans (kept_arg _ (by decide)), (h d main_arg4).trans (kept_arg _ (by decide)), (h d main_arg5).trans (kept_arg _ (by decide)), (h d main_arg6).trans (kept_arg _ (by decide))⟩)
    (run (F := Ideal) m ρ)

end Cert.ReferenceIdeal.Hand

end
-- ==== Proof.LibGatherRows.lean ====
import Idealize.ShloMosaic.Lib.StableHlo.Predicate
import Idealize.ShloMosaic.Lib.ValueIdx
import Idealize.ShloMosaic.Lib.Affine
import Idealize.ShloMosaic.Lib.WordArith

namespace Cert.LibGatherRows

open Idealize.ShloMosaic Idealize.ShloMosaic.ValueIdx

theorem getElem_singleton {α : Type} {l : List α} {a : α} (hl : l = [a]) (i : Nat) (hi : i < l.length) : l[i] = a := by
  subst hl
  have h0 : i = 0 := by simpa using hi
  subst h0; rfl

theorem ixP_eq {n : Nat} (p : Fin n) : StableHlo.Predicate.ixP p = ix2 p (0 : Fin 1) := by
  funext a; match a with | ⟨0, _⟩ => rfl | ⟨1, _⟩ => rfl

theorem ofFin_eq {n : Nat} (k : Fin n) : Shape.Idx.ofFin k = ix1 k := by
  funext a; match a with | ⟨0, _⟩ => exact Fin.ext rfl

theorem bit_eq_zero_of_ne_one {c : BitVec 1} (h : ¬ c = 1#1) : c = 0#1 := by
  rcases BitVec.eq_zero_or_eq_one c with h0 | h1
  · exact h0
  · exact absurd h1 h

theorem slt_eq_zero {a b : BitVec 32} (h : b.toInt ≤ a.toInt) : IntOp.cmpi .slt a b = 0#1 :=
  bit_eq_zero_of_ne_one fun h1 => absurd (IntOp.cmpi_slt.1 h1) (by omega)

theorem slt_eq_one {a b : BitVec 32} (h : a.toInt < b.toInt) : IntOp.cmpi .slt a b = 1#1 := IntOp.cmpi_slt.2 h

theorem sgt_eq_zero {a b : BitVec 32} (h : a.toInt ≤ b.toInt) : IntOp.cmpi .sgt a b = 0#1 :=
  bit_eq_zero_of_ne_one fun h1 => absurd (IntOp.cmpi_sgt.1 h1) (by omega)

theorem toInt_lit (k : ℕ) (hk : k < 2 ^ 31) : (BitVec.ofNat 32 k).toInt = k := StableHlo.Predicate.toInt_ofNat_small k hk

theorem wrap_of_nonneg (v m : BitVec 32) (h0 : 0 ≤ v.toInt) :
    Scalar.select (IntOp.cmpi .slt v 0#32) (IntOp.addi v m) v = v := by
  rw [slt_eq_zero (by rw [show (0#32 : BitVec 32).toInt = 0 from by decide]; exact h0), ValueIdx.select_zero]

theorem toInt_succ (v : BitVec 32) (h0 : 0 ≤ v.toInt) (h1 : v.toInt < 2 ^ 31 - 1) : (IntOp.addi v 1#32).toInt = v.toInt + 1 := by
  have h := WordArith.toInt_add_of_bounds (x := v) (y := 1#32)
    (by rw [show (1#32 : BitVec 32).toInt = 1 from by decide]; omega)
    (by rw [show (1#32 : BitVec 32).toInt = 1 from by decide]; omega)
  rw [show (1#32 : BitVec 32).toInt = 1 from by decide] at h
  exact h

section Take
variable {α : Type} {N n w : Nat} (d : GatherDims ⟨1, ![N]⟩ ⟨2, ![n, 1]⟩ ⟨1, ![n]⟩)
  (hcoll : d.collapsedSliceDims = [0]) (hob : d.operandBatchingDims = []) (hsim : d.startIndexMap = [0]) (hivd : d.indexVectorDim = 1)
include hcoll hob hsim hivd

theorem take_clamped (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  have h := StableHlo.Predicate.gather_take d hcoll hob hsim hivd x idx p hN
  simp only [ofFin_eq, ixP_eq] at h
  exact h

theorem take_of_inb (x : (⟨1, ![N]⟩ : Shape).Idx → α) (idx : IVec ⟨2, ![n, 1]⟩ w) (p : Fin n)
    (h0 : 0 ≤ (idx (ix2 p (0 : Fin 1))).toInt) (hlt : (idx (ix2 p (0 : Fin 1))).toInt < N) :
    Host.gather d x idx (ix1 p) = x (ix1 ⟨(idx (ix2 p (0 : Fin 1))).toInt.toNat, by omega⟩) := by
  rw [take_clamped d hcoll hob hsim hivd x idx p (by omega)]
  congr 2
  apply Fin.ext
  show min (idx (ix2 p (0 : Fin 1))).toInt.toNat (N - 1) = (idx (ix2 p (0 : Fin 1))).toInt.toNat
  omega

end Take

section Rows
variable {α : Type} {N n w : Nat} (d : GatherDims ⟨2, ![N, 2]⟩ ⟨2, ![n, 1]⟩ ⟨2, ![n, 2]⟩)
  (hoff : d.offsetDims = [1]) (hcoll : d.collapsedSliceDims = [0]) (hob : d.operandBatchingDims = [])
  (hsim : d.startIndexMap = [0]) (hivd : d.indexVectorDim = 1)
include hoff hcoll hob hsim hivd

theorem rows_clamped (x : (⟨2, ![N, 2]⟩ : Shape).Idx → α) (idx : IVec ⟨2, ![n, 1]⟩ w) (p : Fin n) (c : Fin 2) (hN : 0 < N) :
    Host.gather d x idx (ix2 p c) = x (ix2 ⟨min (idx (ix2 p (0 : Fin 1))).toInt.toNat (N - 1), by omega⟩ c) := by
  have hbd : d.batchDims = [0] := by
    show Shape.kept _ d.offsetDims = _
    rw [hoff]; rfl
  have hsk : d.sKept = [1] := by
    show Shape.kept _ (d.collapsedSliceDims ++ d.operandBatchingDims) = _
    rw [hcoll, hob]; rfl
  have hb : ∀ a : Fin 2, a ∉ d.operandBatchingDims := fun a => by rw [hob]; exact List.not_mem_nil
  unfold Host.gather
  congr 1
  funext a
  apply Fin.ext
  match a with
  | ⟨0, _⟩ =>
    have hk : (0 : Fin 2) ∉ d.sKept := by
      rw [hsk]; intro h
      exact absurd (congrArg Fin.val (List.mem_singleton.1 h)) Nat.zero_ne_one
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min (idx (ix2 p (0 : Fin 1))).toInt.toNat (N - 1)
    rw [d.batchCoord_eq_zero _ 0 (hb 0), d.offCoord_eq_zero _ 0 hk]
    simp only [Nat.add_zero]
    unfold GatherDims.start
    rw [dif_pos hm, hsl]
    show min (idx _).toInt.toNat (N - 1) = _
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      exact congrArg (fun q => ((ix2 p c : (⟨2, ![n, 2]⟩ : Shape).Idx) q).val) (getElem_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [hsk]; exact List.mem_singleton.mpr rfl
    have hm : (1 : Fin 2) ∉ d.startIndexMap := by
      rw [hsim]; intro h
      exact absurd (congrArg Fin.val (List.mem_singleton.1 h)) Nat.one_ne_zero
    show d.start (ix2 p c) idx 1 + d.batchCoord (ix2 p c) 1 + d.offCoord (ix2 p c) 1 = c.val
    rw [d.batchCoord_eq_zero _ 1 (hb 1)]
    unfold GatherDims.start GatherDims.offCoord
    rw [dif_neg hm, dif_pos hk]
    simp only [Nat.add_zero, Nat.zero_add]
    exact congrArg (fun q => ((ix2 p c : (⟨2, ![n, 2]⟩ : Shape).Idx) q).val) (getElem_singleton hoff _ _)

theorem rows_of_inb (x : (⟨2, ![N, 2]⟩ : Shape).Idx → α) (idx : IVec ⟨2, ![n, 1]⟩ w) (p : Fin n) (c : Fin 2)
    (h0 : 0 ≤ (idx (ix2 p (0 : Fin 1))).toInt) (hlt : (idx (ix2 p (0 : Fin 1))).toInt < N) :
    Host.gather d x idx (ix2 p c) = x (ix2 ⟨(idx (ix2 p (0 : Fin 1))).toInt.toNat, by omega⟩ c) := by
  rw [rows_clamped d hoff hcoll hob hsim hivd x idx p c (by omega)]
  congr 2
  apply Fin.ext
  show min (idx (ix2 p (0 : Fin 1))).toInt.toNat (N - 1) = (idx (ix2 p (0 : Fin 1))).toInt.toNat
  omega

end Rows

theorem column_apply {α : Type} {n : Nat} (h : (⟨1, ![n]⟩ : Shape).BroadcastsInDim ⟨2, ![n, 1]⟩ ![0])
    (v : (⟨1, ![n]⟩ : Shape).Idx → α) (p : Fin n) : broadcastInDim ⟨2, ![n, 1]⟩ ![0] h v (ix2 p (0 : Fin 1)) = v (ix1 p) := by
  rw [← ixP_eq, StableHlo.Predicate.bcast_col1 h v p, ofFin_eq]

theorem wrapped_apply {s : Shape} (v z m : IVec s 32) (hz : ∀ i, z i = 0#32) (i : s.Idx) (h0 : 0 ≤ (v i).toInt) :
    select (cmpi .slt v z) (addi v m) v i = v i := by
  show Scalar.select (IntOp.cmpi .slt (v i) (z i)) (IntOp.addi (v i) (m i)) (v i) = v i
  rw [hz]; exact wrap_of_nonneg _ _ h0

theorem take_index {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (h : (⟨1, ![n]⟩ : Shape).BroadcastsInDim ⟨2, ![n, 1]⟩ ![0])
    (x : (⟨1, ![N]⟩ : Shape).Idx → α) (v z m : IVec ⟨1, ![n]⟩ 32) (hz : ∀ i, z i = 0#32) (p : Fin n)
    (h0 : 0 ≤ (v (ix1 p)).toInt) (hlt : (v (ix1 p)).toInt < N) :
    Host.gather d x (broadcastInDim ⟨2, ![n, 1]⟩ ![0] h (select (cmpi .slt v z) (addi v m) v)) (ix1 p)
      = x (ix1 ⟨(v (ix1 p)).toInt.toNat, by omega⟩) := by
  have e : broadcastInDim ⟨2, ![n, 1]⟩ ![0] h (select (cmpi .slt v z) (addi v m) v) (ix2 p (0 : Fin 1)) = v (ix1 p) := by
    rw [column_apply, wrapped_apply v z m hz _ h0]
  rw [take_of_inb d hcoll hob hsim hivd x _ p (by rw [e]; exact h0) (by rw [e]; exact hlt)]
  congr 2
  apply Fin.ext
  show (broadcastInDim ⟨2, ![n, 1]⟩ ![0] h (select (cmpi .slt v z) (addi v m) v) (ix2 p (0 : Fin 1))).toInt.toNat = (v (ix1 p)).toInt.toNat
  rw [e]

theorem rows_index {α : Type} {N n : Nat} (d : GatherDims ⟨2, ![N, 2]⟩ ⟨2, ![n, 1]⟩ ⟨2, ![n, 2]⟩)
    (hoff : d.offsetDims = [1]) (hcoll : d.collapsedSliceDims = [0]) (hob : d.operandBatchingDims = [])
    (hsim : d.startIndexMap = [0]) (hivd : d.indexVectorDim = 1)
    (h : (⟨1, ![n]⟩ : Shape).BroadcastsInDim ⟨2, ![n, 1]⟩ ![0])
    (x : (⟨2, ![N, 2]⟩ : Shape).Idx → α) (v z m : IVec ⟨1, ![n]⟩ 32) (hz : ∀ i, z i = 0#32) (p : Fin n) (c : Fin 2)
    (h0 : 0 ≤ (v (ix1 p)).toInt) (hlt : (v (ix1 p)).toInt < N) :
    Host.gather d x (broadcastInDim ⟨2, ![n, 1]⟩ ![0] h (select (cmpi .slt v z) (addi v m) v)) (ix2 p c)
      = x (ix2 ⟨(v (ix1 p)).toInt.toNat, by omega⟩ c) := by
  have e : broadcastInDim ⟨2, ![n, 1]⟩ ![0] h (select (cmpi .slt v z) (addi v m) v) (ix2 p (0 : Fin 1)) = v (ix1 p) := by
    rw [column_apply, wrapped_apply v z m hz _ h0]
  rw [rows_of_inb d hoff hcoll hob hsim hivd x _ p c (by rw [e]; exact h0) (by rw [e]; exact hlt)]
  congr 2
  apply Fin.ext
  show (broadcastInDim ⟨2, ![n, 1]⟩ ![0] h (select (cmpi .slt v z) (addi v m) v) (ix2 p (0 : Fin 1))).toInt.toNat = (v (ix1 p)).toInt.toNat
  rw [e]

end Cert.LibGatherRows
-- ==== Proof.Law.lean ====
import proofs.«416388_j86139864089342_3_alg».proof.Proof.KIStep
import proofs.«416388_j86139864089342_3_alg».proof.Proof.RStep
import proofs.«416388_j86139864089342_3_alg».proof.Proof.LibGatherRows
import Idealize.ShloMosaic.Lib.Pipeline.Value

namespace Cert.Law

open Idealize.ShloMosaic Idealize.ShloMosaic.ValueIdx Cert.LibGatherRows

variable {F : FTy → Type} [FloatOps F] [Cert.KernelIdeal.Facts₀] [Cert.ReferenceIdeal.Facts₀]

def InRange (N : ℕ) (cur : IVec Cert.KernelIdeal.S204800 32) : Prop :=
  ∀ j, (cur j).toInt = 120000 ∨ (0 ≤ (cur j).toInt ∧ (cur j).toInt < N)

theorem safe_apply (cur : IVec Cert.KernelIdeal.S204800 32) (j : Cert.KernelIdeal.S204800.Idx) :
    Cert.KernelIdeal.Hand.safeOf cur j = Scalar.select (IntOp.cmpi .slt (cur j) 120000#32) (cur j) 0#32 := rfl

theorem safe_eq (cur : IVec Cert.KernelIdeal.S204800 32) : Cert.ReferenceIdeal.Hand.safeOf cur = Cert.KernelIdeal.Hand.safeOf cur := rfl

theorem safe_range {N : ℕ} (hN : 0 < N) (cur : IVec Cert.KernelIdeal.S204800 32) (j : Cert.KernelIdeal.S204800.Idx)
    (h : (cur j).toInt = 120000 ∨ (0 ≤ (cur j).toInt ∧ (cur j).toInt < N)) (hN' : N ≤ 120000) :
    0 ≤ (Cert.KernelIdeal.Hand.safeOf cur j).toInt ∧ (Cert.KernelIdeal.Hand.safeOf cur j).toInt < N := by
  have hd : (120000#32 : BitVec 32).toInt = 120000 := by decide
  rw [safe_apply]
  rcases h with h | ⟨h0, h1⟩
  · rw [slt_eq_zero (by rw [hd, h]), ValueIdx.select_zero]
    exact ⟨by decide, by rw [show (0#32 : BitVec 32).toInt = 0 from by decide]; exact_mod_cast hN⟩
  · rw [slt_eq_one (by rw [hd]; omega), ValueIdx.select_one]
    exact ⟨h0, h1⟩

theorem fieldOff_apply (g : IVec Cert.KernelIdeal.S204800x2 32) (p : Fin 204800) :
    Cert.KernelIdeal.Hand.fieldOff g (ix1 p) = g (ix2 p (0 : Fin 2)) := by
  unfold Cert.KernelIdeal.Hand.fieldOff
  rw [shapeCast_apply _ _ (ix1 p) (ix2 p (0 : Fin 1)) (by rw [Shape.rowMajor_val_two, Shape.rowMajor_val_one]; show p.val * 1 + 0 = p.val; omega),
    extractStridedSlice_apply _ _ _ (ix2 p (0 : Fin 1)) (ix2 p (0 : Fin 2)) (fun a => by match a with | ⟨0, _⟩ => exact (Nat.zero_add _).symm | ⟨1, _⟩ => rfl)]

theorem fieldCnt_apply (g : IVec Cert.KernelIdeal.S204800x2 32) (p : Fin 204800) :
    Cert.KernelIdeal.Hand.fieldCnt g (ix1 p) = g (ix2 p (1 : Fin 2)) := by
  unfold Cert.KernelIdeal.Hand.fieldCnt
  rw [shapeCast_apply _ _ (ix1 p) (ix2 p (0 : Fin 1)) (by rw [Shape.rowMajor_val_two, Shape.rowMajor_val_one]; show p.val * 1 + 0 = p.val; omega),
    extractStridedSlice_apply _ _ _ (ix2 p (0 : Fin 1)) (ix2 p (1 : Fin 2)) (fun a => by match a with | ⟨0, _⟩ => exact (Nat.zero_add _).symm | ⟨1, _⟩ => rfl)]

theorem infoAd_off (rowptr : IVec Cert.KernelIdeal.S3551 32) (q : Fin 3550) :
    Cert.KernelIdeal.Hand.infoAd rowptr (ix2 q (0 : Fin 2)) = rowptr (ix1 ⟨q.val, by omega⟩) := by
  unfold Cert.KernelIdeal.Hand.infoAd
  rw [concatenate_pair_apply_left (t := Cert.KernelIdeal.S3550x2) (s₁ := Cert.KernelIdeal.S3550x1) (s₂ := Cert.KernelIdeal.S3550x1) 1 _ _ _ (ix2 q (0 : Fin 2)) rfl (ix2 q (0 : Fin 1))
      (fun b => by match b with | ⟨0, _⟩ => rfl | ⟨1, _⟩ => rfl),
    column_apply,
    extractStridedSlice_apply _ _ _ (ix1 q) (ix1 ⟨q.val, by omega⟩) (fun a => by match a with | ⟨0, _⟩ => exact (Nat.zero_add _).symm)]

theorem infoAd_cnt (rowptr : IVec Cert.KernelIdeal.S3551 32) (q : Fin 3550) :
    Cert.KernelIdeal.Hand.infoAd rowptr (ix2 q (1 : Fin 2))
      = IntOp.subi (rowptr (ix1 ⟨q.val + 1, by omega⟩)) (rowptr (ix1 ⟨q.val, by omega⟩)) := by
  unfold Cert.KernelIdeal.Hand.infoAd
  rw [concatenate_pair_apply_right (t := Cert.KernelIdeal.S3550x2) (s₁ := Cert.KernelIdeal.S3550x1) (s₂ := Cert.KernelIdeal.S3550x1) 1 _ _ _ (ix2 q (1 : Fin 2)) rfl rfl (ix2 q (0 : Fin 1))
      (fun b hb => by match b with | ⟨0, _⟩ => rfl | ⟨1, _⟩ => exact absurd rfl hb) rfl,
    column_apply]
  show IntOp.subi (extractStridedSlice _ _ rowptr _ (ix1 q)) (extractStridedSlice _ _ rowptr _ (ix1 q)) = _
  rw [extractStridedSlice_apply ![1] rowptr _ (ix1 q) (ix1 ⟨q.val + 1, by omega⟩) (fun a => by match a with | ⟨0, _⟩ => exact Nat.add_comm _ _),
    extractStridedSlice_apply ![0] rowptr _ (ix1 q) (ix1 ⟨q.val, by omega⟩) (fun a => by match a with | ⟨0, _⟩ => exact (Nat.zero_add _).symm)]

theorem rowsAd_apply (info : IVec Cert.KernelIdeal.S3550x2 32) (cur : IVec Cert.KernelIdeal.S204800 32) (p : Fin 204800) (c : Fin 2)
    (h0 : 0 ≤ (Cert.KernelIdeal.Hand.safeOf cur (ix1 p)).toInt) (hlt : (Cert.KernelIdeal.Hand.safeOf cur (ix1 p)).toInt < 3550) :
    Cert.KernelIdeal.Hand.rowsAd info cur (ix2 p c)
      = info (ix2 ⟨(Cert.KernelIdeal.Hand.safeOf cur (ix1 p)).toInt.toNat, by omega⟩ c) :=
  rows_index Cert.KernelIdeal.gather_S3550x2_S204800x1_S204800x2_1_0_n_n_0_1_12 rfl rfl rfl rfl rfl
    Cert.KernelIdeal.Facts₀.bcast_S204800_S204800x1_0 info
    (Cert.KernelIdeal.Hand.safeOf cur) (Cert.KernelIdeal.Hand.bc 0#32) (Cert.KernelIdeal.Hand.bc 3550#32) (fun _ => rfl) p c h0
    (by exact_mod_cast hlt)

theorem ptrAd_lo (rowptr : IVec Cert.KernelIdeal.S3551 32) (cur : IVec Cert.KernelIdeal.S204800 32) (p : Fin 204800)
    (h0 : 0 ≤ (Cert.KernelIdeal.Hand.safeOf cur (ix1 p)).toInt) (hlt : (Cert.KernelIdeal.Hand.safeOf cur (ix1 p)).toInt < 3550) :
    Cert.ReferenceIdeal.Hand.ptrAd rowptr (Cert.ReferenceIdeal.Hand.idxLo 3551#32 cur) (ix1 p)
      = rowptr (ix1 ⟨(Cert.KernelIdeal.Hand.safeOf cur (ix1 p)).toInt.toNat, by omega⟩) :=
  take_index Cert.ReferenceIdeal.gather_S3551_S204800x1_S204800_n_0_n_n_0_1_1 rfl rfl rfl rfl
    Cert.ReferenceIdeal.Facts₀.bcast_S204800_S204800x1_0 rowptr
    (Cert.KernelIdeal.Hand.safeOf cur) (Cert.ReferenceIdeal.Hand.bc 0#32) (Cert.ReferenceIdeal.Hand.bc 3551#32) (fun _ => rfl) p h0
    (by have : (Cert.KernelIdeal.Hand.safeOf cur (ix1 p)).toInt < ((3551 : ℕ) : ℤ) := by omega
        exact this)

theorem safe_succ (cur : IVec Cert.KernelIdeal.S204800 32) (j : Cert.KernelIdeal.S204800.Idx)
    (h0 : 0 ≤ (Cert.KernelIdeal.Hand.safeOf cur j).toInt) (hlt : (Cert.KernelIdeal.Hand.safeOf cur j).toInt < 120000) :
    (addi (Cert.KernelIdeal.Hand.safeOf cur) (Cert.ReferenceIdeal.Hand.bc 1#32) j).toInt = (Cert.KernelIdeal.Hand.safeOf cur j).toInt + 1 :=
  toInt_succ _ h0 (by omega)

theorem ptrAd_hi (rowptr : IVec Cert.KernelIdeal.S3551 32) (cur : IVec Cert.KernelIdeal.S204800 32) (p : Fin 204800)
    (h0 : 0 ≤ (Cert.KernelIdeal.Hand.safeOf cur (ix1 p)).toInt) (hlt : (Cert.KernelIdeal.Hand.safeOf cur (ix1 p)).toInt < 3550) :
    Cert.ReferenceIdeal.Hand.ptrAd rowptr (Cert.ReferenceIdeal.Hand.idxHi 3551#32 cur) (ix1 p)
      = rowptr (ix1 ⟨(Cert.KernelIdeal.Hand.safeOf cur (ix1 p)).toInt.toNat + 1, by omega⟩) := by
  have hs := safe_succ cur (ix1 p) h0 (by omega)
  have e := take_index Cert.ReferenceIdeal.gather_S3551_S204800x1_S204800_n_0_n_n_0_1_1 rfl rfl rfl rfl
    Cert.ReferenceIdeal.Facts₀.bcast_S204800_S204800x1_0 rowptr
    (addi (Cert.KernelIdeal.Hand.safeOf cur) (Cert.ReferenceIdeal.Hand.bc 1#32)) (Cert.ReferenceIdeal.Hand.bc 0#32)
    (Cert.ReferenceIdeal.Hand.bc 3551#32) (fun _ => rfl) p (by rw [hs]; omega)
    (by rw [hs]; have : (Cert.KernelIdeal.Hand.safeOf cur (ix1 p)).toInt + 1 < ((3551 : ℕ) : ℤ) := by omega
        exact this)
  refine Eq.trans e ?_
  congr 2
  apply Fin.ext
  show (addi (Cert.KernelIdeal.Hand.safeOf cur) (Cert.ReferenceIdeal.Hand.bc 1#32) (ix1 p)).toInt.toNat
    = (Cert.KernelIdeal.Hand.safeOf cur (ix1 p)).toInt.toNat + 1
  rw [hs]; omega

theorem rcRaw_ad (rowptr : IVec Cert.KernelIdeal.S3551 32) (cur : IVec Cert.KernelIdeal.S204800 32) (hcur : InRange 3550 cur) :
    Cert.KernelIdeal.Hand.fieldCnt (Cert.KernelIdeal.Hand.rowsAd (Cert.KernelIdeal.Hand.infoAd rowptr) cur)
      = Cert.ReferenceIdeal.Hand.rcRawAd rowptr cur := by
  funext j
  obtain ⟨p, rfl⟩ : ∃ p : Fin 204800, j = ix1 p := ⟨j 0, eq_ix1 j⟩
  obtain ⟨h0, hlt⟩ := safe_range (N := 3550) (by norm_num) cur (ix1 p) (hcur _) (by norm_num)
  have hlt' : (Cert.KernelIdeal.Hand.safeOf cur (ix1 p)).toInt < 3550 := by exact_mod_cast hlt
  rw [fieldCnt_apply, rowsAd_apply _ cur p 1 h0 hlt', infoAd_cnt]
  show _ = IntOp.subi (Cert.ReferenceIdeal.Hand.ptrAd rowptr (Cert.ReferenceIdeal.Hand.idxHi 3551#32 cur) (ix1 p))
    (Cert.ReferenceIdeal.Hand.ptrAd rowptr (Cert.ReferenceIdeal.Hand.idxLo 3551#32 cur) (ix1 p))
  rw [ptrAd_hi rowptr cur p h0 hlt', ptrAd_lo rowptr cur p h0 hlt']

theorem offRaw_ad (rowptr : IVec Cert.KernelIdeal.S3551 32) (cur : IVec Cert.KernelIdeal.S204800 32) (hcur : InRange 3550 cur) :
    Cert.KernelIdeal.Hand.fieldOff (Cert.KernelIdeal.Hand.rowsAd (Cert.KernelIdeal.Hand.infoAd rowptr) cur)
      = Cert.ReferenceIdeal.Hand.offRawAd rowptr cur := by
  funext j
  obtain ⟨p, rfl⟩ : ∃ p : Fin 204800, j = ix1 p := ⟨j 0, eq_ix1 j⟩
  obtain ⟨h0, hlt⟩ := safe_range (N := 3550) (by norm_num) cur (ix1 p) (hcur _) (by norm_num)
  have hlt' : (Cert.KernelIdeal.Hand.safeOf cur (ix1 p)).toInt < 3550 := by exact_mod_cast hlt
  rw [fieldOff_apply, rowsAd_apply _ cur p 0 h0 hlt', infoAd_off]
  show _ = Cert.ReferenceIdeal.Hand.ptrAd rowptr (Cert.ReferenceIdeal.Hand.idxLo 3551#32 cur) (ix1 p)
  rw [ptrAd_lo rowptr cur p h0 hlt']

theorem step_ad_eq (rowptr : IVec Cert.KernelIdeal.S3551 32) (col : IVec Cert.KernelIdeal.S217264 32)
    (cur : IVec Cert.KernelIdeal.S204800 32) (u : FVec F Cert.KernelIdeal.S204800 .f32) (hcur : InRange 3550 cur) :
    Cert.KernelIdeal.Hand.stepK_ad (F := F) (Cert.KernelIdeal.Hand.infoAd rowptr) col cur u
      = Cert.ReferenceIdeal.Hand.stepR_ad (F := F) rowptr col cur u := by
  unfold Cert.KernelIdeal.Hand.stepK_ad Cert.ReferenceIdeal.Hand.stepR_ad
  rw [rcRaw_ad rowptr cur hcur, offRaw_ad rowptr cur hcur]
  rfl

theorem infoDa_off (rowptr : IVec Cert.KernelIdeal.S20001 32) (q : Fin 20000) :
    Cert.KernelIdeal.Hand.infoDa rowptr (ix2 q (0 : Fin 2)) = rowptr (ix1 ⟨q.val, by omega⟩) := by
  unfold Cert.KernelIdeal.Hand.infoDa
  rw [concatenate_pair_apply_left (t := Cert.KernelIdeal.S20000x2) (s₁ := Cert.KernelIdeal.S20000x1) (s₂ := Cert.KernelIdeal.S20000x1) 1 _ _ _ (ix2 q (0 : Fin 2)) rfl (ix2 q (0 : Fin 1))
      (fun b => by match b with | ⟨0, _⟩ => rfl | ⟨1, _⟩ => rfl),
    column_apply,
    extractStridedSlice_apply _ _ _ (ix1 q) (ix1 ⟨q.val, by omega⟩) (fun a => by match a with | ⟨0, _⟩ => exact (Nat.zero_add _).symm)]

theorem infoDa_cnt (rowptr : IVec Cert.KernelIdeal.S20001 32) (q : Fin 20000) :
    Cert.KernelIdeal.Hand.infoDa rowptr (ix2 q (1 : Fin 2))
      = IntOp.subi (rowptr (ix1 ⟨q.val + 1, by omega⟩)) (rowptr (ix1 ⟨q.val, by omega⟩)) := by
  unfold Cert.KernelIdeal.Hand.infoDa
  rw [concatenate_pair_apply_right (t := Cert.KernelIdeal.S20000x2) (s₁ := Cert.KernelIdeal.S20000x1) (s₂ := Cert.KernelIdeal.S20000x1) 1 _ _ _ (ix2 q (1 : Fin 2)) rfl rfl (ix2 q (0 : Fin 1))
      (fun b hb => by match b with | ⟨0, _⟩ => rfl | ⟨1, _⟩ => exact absurd rfl hb) rfl,
    column_apply]
  show IntOp.subi (extractStridedSlice _ _ rowptr _ (ix1 q)) (extractStridedSlice _ _ rowptr _ (ix1 q)) = _
  rw [extractStridedSlice_apply ![1] rowptr _ (ix1 q) (ix1 ⟨q.val + 1, by omega⟩) (fun a => by match a with | ⟨0, _⟩ => exact Nat.add_comm _ _),
    extractStridedSlice_apply ![0] rowptr _ (ix1 q) (ix1 ⟨q.val, by omega⟩) (fun a => by match a with | ⟨0, _⟩ => exact (Nat.zero_add _).symm)]

theorem rowsDa_apply (info : IVec Cert.KernelIdeal.S20000x2 32) (cur : IVec Cert.KernelIdeal.S204800 32) (p : Fin 204800) (c : Fin 2)
    (h0 : 0 ≤ (Cert.KernelIdeal.Hand.safeOf cur (ix1 p)).toInt) (hlt : (Cert.KernelIdeal.Hand.safeOf cur (ix1 p)).toInt < 20000) :
    Cert.KernelIdeal.Hand.rowsDa info cur (ix2 p c)
      = info (ix2 ⟨(Cert.KernelIdeal.Hand.safeOf cur (ix1 p)).toInt.toNat, by omega⟩ c) :=
  rows_index Cert.KernelIdeal.gather_S20000x2_S204800x1_S204800x2_1_0_n_n_0_1_12 rfl rfl rfl rfl rfl
    Cert.KernelIdeal.Facts₀.bcast_S204800_S204800x1_0 info
    (Cert.KernelIdeal.Hand.safeOf cur) (Cert.KernelIdeal.Hand.bc 0#32) (Cert.KernelIdeal.Hand.bc 20000#32) (fun _ => rfl) p c h0
    (by exact_mod_cast hlt)

theorem ptrDa_lo (rowptr : IVec Cert.KernelIdeal.S20001 32) (cur : IVec Cert.KernelIdeal.S204800 32) (p : Fin 204800)
    (h0 : 0 ≤ (Cert.KernelIdeal.Hand.safeOf cur (ix1 p)).toInt) (hlt : (Cert.KernelIdeal.Hand.safeOf cur (ix1 p)).toInt < 20000) :
    Cert.ReferenceIdeal.Hand.ptrDa rowptr (Cert.ReferenceIdeal.Hand.idxLo 20001#32 cur) (ix1 p)
      = rowptr (ix1 ⟨(Cert.KernelIdeal.Hand.safeOf cur (ix1 p)).toInt.toNat, by omega⟩) :=
  take_index Cert.ReferenceIdeal.gather_S20001_S204800x1_S204800_n_0_n_n_0_1_1 rfl rfl rfl rfl
    Cert.ReferenceIdeal.Facts₀.bcast_S204800_S204800x1_0 rowptr
    (Cert.KernelIdeal.Hand.safeOf cur) (Cert.ReferenceIdeal.Hand.bc 0#32) (Cert.ReferenceIdeal.Hand.bc 20001#32) (fun _ => rfl) p h0
    (by have : (Cert.KernelIdeal.Hand.safeOf cur (ix1 p)).toInt < ((20001 : ℕ) : ℤ) := by omega
        exact this)

theorem ptrDa_hi (rowptr : IVec Cert.KernelIdeal.S20001 32) (cur : IVec Cert.KernelIdeal.S204800 32) (p : Fin 204800)
    (h0 : 0 ≤ (Cert.KernelIdeal.Hand.safeOf cur (ix1 p)).toInt) (hlt : (Cert.KernelIdeal.Hand.safeOf cur (ix1 p)).toInt < 20000) :
    Cert.ReferenceIdeal.Hand.ptrDa rowptr (Cert.ReferenceIdeal.Hand.idxHi 20001#32 cur) (ix1 p)
      = rowptr (ix1 ⟨(Cert.KernelIdeal.Hand.safeOf cur (ix1 p)).toInt.toNat + 1, by omega⟩) := by
  have hs := safe_succ cur (ix1 p) h0 (by omega)
  have e := take_index Cert.ReferenceIdeal.gather_S20001_S204800x1_S204800_n_0_n_n_0_1_1 rfl rfl rfl rfl
    Cert.ReferenceIdeal.Facts₀.bcast_S204800_S204800x1_0 rowptr
    (addi (Cert.KernelIdeal.Hand.safeOf cur) (Cert.ReferenceIdeal.Hand.bc 1#32)) (Cert.ReferenceIdeal.Hand.bc 0#32)
    (Cert.ReferenceIdeal.Hand.bc 20001#32) (fun _ => rfl) p (by rw [hs]; omega)
    (by rw [hs]; have : (Cert.KernelIdeal.Hand.safeOf cur (ix1 p)).toInt + 1 < ((20001 : ℕ) : ℤ) := by omega
        exact this)
  refine Eq.trans e ?_
  congr 2
  apply Fin.ext
  show (addi (Cert.KernelIdeal.Hand.safeOf cur) (Cert.ReferenceIdeal.Hand.bc 1#32) (ix1 p)).toInt.toNat
    = (Cert.KernelIdeal.Hand.safeOf cur (ix1 p)).toInt.toNat + 1
  rw [hs]; omega

theorem rcRaw_da (rowptr : IVec Cert.KernelIdeal.S20001 32) (cur : IVec Cert.KernelIdeal.S204800 32) (hcur : InRange 20000 cur) :
    Cert.KernelIdeal.Hand.fieldCnt (Cert.KernelIdeal.Hand.rowsDa (Cert.KernelIdeal.Hand.infoDa rowptr) cur)
      = Cert.ReferenceIdeal.Hand.rcRawDa rowptr cur := by
  funext j
  obtain ⟨p, rfl⟩ : ∃ p : Fin 204800, j = ix1 p := ⟨j 0, eq_ix1 j⟩
  obtain ⟨h0, hlt⟩ := safe_range (N := 20000) (by norm_num) cur (ix1 p) (hcur _) (by norm_num)
  have hlt' : (Cert.KernelIdeal.Hand.safeOf cur (ix1 p)).toInt < 20000 := by exact_mod_cast hlt
  rw [fieldCnt_apply, rowsDa_apply _ cur p 1 h0 hlt', infoDa_cnt]
  show _ = IntOp.subi (Cert.ReferenceIdeal.Hand.ptrDa rowptr (Cert.ReferenceIdeal.Hand.idxHi 20001#32 cur) (ix1 p))
    (Cert.ReferenceIdeal.Hand.ptrDa rowptr (Cert.ReferenceIdeal.Hand.idxLo 20001#32 cur) (ix1 p))
  rw [ptrDa_hi rowptr cur p h0 hlt', ptrDa_lo rowptr cur p h0 hlt']

theorem offRaw_da (rowptr : IVec Cert.KernelIdeal.S20001 32) (cur : IVec Cert.KernelIdeal.S204800 32) (hcur : InRange 20000 cur) :
    Cert.KernelIdeal.Hand.fieldOff (Cert.KernelIdeal.Hand.rowsDa (Cert.KernelIdeal.Hand.infoDa rowptr) cur)
      = Cert.ReferenceIdeal.Hand.offRawDa rowptr cur := by
  funext j
  obtain ⟨p, rfl⟩ : ∃ p : Fin 204800, j = ix1 p := ⟨j 0, eq_ix1 j⟩
  obtain ⟨h0, hlt⟩ := safe_range (N := 20000) (by norm_num) cur (ix1 p) (hcur _) (by norm_num)
  have hlt' : (Cert.KernelIdeal.Hand.safeOf cur (ix1 p)).toInt < 20000 := by exact_mod_cast hlt
  rw [fieldOff_apply, rowsDa_apply _ cur p 0 h0 hlt', infoDa_off]
  show _ = Cert.ReferenceIdeal.Hand.ptrDa rowptr (Cert.ReferenceIdeal.Hand.idxLo 20001#32 cur) (ix1 p)
  rw [ptrDa_lo rowptr cur p h0 hlt']

theorem step_da_eq (rowptr : IVec Cert.KernelIdeal.S20001 32) (col : IVec Cert.KernelIdeal.S302235 32)
    (cur : IVec Cert.KernelIdeal.S204800 32) (u : FVec F Cert.KernelIdeal.S204800 .f32) (hcur : InRange 20000 cur) :
    Cert.KernelIdeal.Hand.stepK_da (F := F) (Cert.KernelIdeal.Hand.infoDa rowptr) col cur u
      = Cert.ReferenceIdeal.Hand.stepR_da (F := F) rowptr col cur u := by
  unfold Cert.KernelIdeal.Hand.stepK_da Cert.ReferenceIdeal.Hand.stepR_da
  rw [rcRaw_da rowptr cur hcur, offRaw_da rowptr cur hcur]
  rfl

theorem select_dummy_range {N : ℕ} (c : BitVec 1) (a : BitVec 32) (ha : 0 ≤ a.toInt ∧ a.toInt < N) :
    (Scalar.select c a 120000#32).toInt = 120000
      ∨ (0 ≤ (Scalar.select c a 120000#32).toInt ∧ (Scalar.select c a 120000#32).toInt < N) := by
  rcases BitVec.eq_zero_or_eq_one c with h | h
  · rw [h, ValueIdx.select_zero]; exact Or.inl (by decide)
  · rw [h, ValueIdx.select_one]; exact Or.inr ha

theorem lookAd_range (col : IVec Cert.KernelIdeal.S217264 32) (hcol : ∀ k, 0 ≤ (col k).toInt ∧ (col k).toInt < 20000)
    (i : IVec Cert.KernelIdeal.S204800x1 32) (p : Fin 204800) :
    0 ≤ (Cert.ReferenceIdeal.Hand.lookAd col i (ix1 p)).toInt ∧ (Cert.ReferenceIdeal.Hand.lookAd col i (ix1 p)).toInt < (20000 : ℕ) := by
  unfold Cert.ReferenceIdeal.Hand.lookAd
  rw [take_clamped Cert.ReferenceIdeal.gather_S217264_S204800x1_S204800_n_0_n_n_0_1_1 rfl rfl rfl rfl col i p (by norm_num)]
  exact_mod_cast hcol _

theorem lookDa_range (col : IVec Cert.KernelIdeal.S302235 32) (hcol : ∀ k, 0 ≤ (col k).toInt ∧ (col k).toInt < 3550)
    (i : IVec Cert.KernelIdeal.S204800x1 32) (p : Fin 204800) :
    0 ≤ (Cert.ReferenceIdeal.Hand.lookDa col i (ix1 p)).toInt ∧ (Cert.ReferenceIdeal.Hand.lookDa col i (ix1 p)).toInt < (3550 : ℕ) := by
  unfold Cert.ReferenceIdeal.Hand.lookDa
  rw [take_clamped Cert.ReferenceIdeal.gather_S302235_S204800x1_S204800_n_0_n_n_0_1_1 rfl rfl rfl rfl col i p (by norm_num)]
  exact_mod_cast hcol _

theorem step_ad_range (rowptr : IVec Cert.KernelIdeal.S3551 32) (col : IVec Cert.KernelIdeal.S217264 32)
    (cur : IVec Cert.KernelIdeal.S204800 32) (u : FVec F Cert.KernelIdeal.S204800 .f32)
    (hcol : ∀ k, 0 ≤ (col k).toInt ∧ (col k).toInt < 20000) :
    InRange 20000 (Cert.ReferenceIdeal.Hand.stepR_ad (F := F) rowptr col cur u) := by
  intro j
  obtain ⟨p, rfl⟩ : ∃ p : Fin 204800, j = ix1 p := ⟨j 0, eq_ix1 j⟩
  exact select_dummy_range _ _ (lookAd_range col hcol _ p)

theorem step_da_range (rowptr : IVec Cert.KernelIdeal.S20001 32) (col : IVec Cert.KernelIdeal.S302235 32)
    (cur : IVec Cert.KernelIdeal.S204800 32) (u : FVec F Cert.KernelIdeal.S204800 .f32)
    (hcol : ∀ k, 0 ≤ (col k).toInt ∧ (col k).toInt < 3550) :
    InRange 3550 (Cert.ReferenceIdeal.Hand.stepR_da (F := F) rowptr col cur u) := by
  intro j
  obtain ⟨p, rfl⟩ : ∃ p : Fin 204800, j = ix1 p := ⟨j 0, eq_ix1 j⟩
  exact select_dummy_range _ _ (lookDa_range col hcol _ p)

theorem tile_eq (batch : IVec Cert.KernelIdeal.S2048 32) : Cert.KernelIdeal.Hand.tile batch = Cert.ReferenceIdeal.Hand.tile batch := rfl

theorem tile_range (batch : IVec Cert.KernelIdeal.S2048 32) (hb : ∀ j, 0 ≤ (batch j).toInt ∧ (batch j).toInt < 3550) :
    InRange 3550 (Cert.ReferenceIdeal.Hand.tile batch) := by
  intro j
  obtain ⟨k, hk⟩ : ∃ k, Cert.ReferenceIdeal.Hand.tile batch j = batch k := ⟨_, rfl⟩
  rw [hk]; exact Or.inr (by exact_mod_cast hb k)

theorem walks_agree
    (walkK walkR : ℕ → IVec Cert.KernelIdeal.S204800 32) (uK uR : ℕ → FVec F Cert.KernelIdeal.S204800 .f32)
    (batch : IVec Cert.KernelIdeal.S2048 32)
    (rowptr_ad : IVec Cert.KernelIdeal.S3551 32) (col_ad : IVec Cert.KernelIdeal.S217264 32)
    (rowptr_da : IVec Cert.KernelIdeal.S20001 32) (col_da : IVec Cert.KernelIdeal.S302235 32)
    (hK0 : walkK 0 = Cert.KernelIdeal.Hand.tile batch) (hR0 : walkR 0 = Cert.ReferenceIdeal.Hand.tile batch)
    (hKe : ∀ i, i < 20 → i % 2 = 0 →
      walkK (i + 1) = Cert.KernelIdeal.Hand.stepK_ad (F := F) (Cert.KernelIdeal.Hand.infoAd rowptr_ad) col_ad (walkK i) (uK i))
    (hKo : ∀ i, i < 20 → i % 2 = 1 →
      walkK (i + 1) = Cert.KernelIdeal.Hand.stepK_da (F := F) (Cert.KernelIdeal.Hand.infoDa rowptr_da) col_da (walkK i) (uK i))
    (hRe : ∀ i, i < 20 → i % 2 = 0 → walkR (i + 1) = Cert.ReferenceIdeal.Hand.stepR_ad (F := F) rowptr_ad col_ad (walkR i) (uR i))
    (hRo : ∀ i, i < 20 → i % 2 = 1 → walkR (i + 1) = Cert.ReferenceIdeal.Hand.stepR_da (F := F) rowptr_da col_da (walkR i) (uR i))
    (hu : ∀ i, i < 20 → uK i = uR i)
    (hb : ∀ j, 0 ≤ (batch j).toInt ∧ (batch j).toInt < 3550)
    (hcad : ∀ k, 0 ≤ (col_ad k).toInt ∧ (col_ad k).toInt < 20000)
    (hcda : ∀ k, 0 ≤ (col_da k).toInt ∧ (col_da k).toInt < 3550) :
    ∀ p, p ≤ 20 → walkK p = walkR p ∧ (p % 2 = 0 → InRange 3550 (walkR p)) ∧ (p % 2 = 1 → InRange 20000 (walkR p)) := by
  intro p
  induction p with
  | zero =>
    intro _
    refine ⟨by rw [hK0, hR0, tile_eq], fun _ => by rw [hR0]; exact tile_range batch hb, fun h => absurd h (by decide)⟩
  | succ p ih =>
    intro hp
    have hp' : p < 20 := by omega
    obtain ⟨heq, hev, hod⟩ := ih (by omega)
    rcases Nat.mod_two_eq_zero_or_one p with h | h
    · refine ⟨?_, fun h' => by omega, fun _ => ?_⟩
      · rw [hKe p hp' h, hRe p hp' h, heq, hu p hp', step_ad_eq rowptr_ad col_ad (walkR p) (uR p) (hev h)]
      · rw [hRe p hp' h]; exact step_ad_range rowptr_ad col_ad _ _ hcad
    · refine ⟨?_, fun _ => ?_, fun h' => by omega⟩
      · rw [hKo p hp' h, hRo p hp' h, heq, hu p hp', step_da_eq rowptr_da col_da (walkR p) (uR p) (hod h)]
      · rw [hRo p hp' h]; exact step_da_range rowptr_da col_da _ _ hcda

theorem ucol_eq (i : ℕ) (pr : FVec F Cert.KernelIdeal.S204800x20 .f32) :
    Cert.KernelIdeal.Hand.ucol i pr = Cert.ReferenceIdeal.Hand.ucol i pr := by
  match i with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | 16 => rfl
  | 17 => rfl
  | 18 => rfl
  | 19 => rfl
  | _ + 20 => rfl

end Cert.Law
-- ==== Proof.PreDecode.lean ====
import proofs.«416388_j86139864089342_3_alg».proof.Pre_finite_inputs
import proofs.«416388_j86139864089342_3_alg».proof.Proof.Gen.Pre_finite_inputs
import Idealize.ShloMosaic.Lib.ReduceAll
import Idealize.ShloMosaic.Lib.ValueIdx

namespace Cert.Pre_finite_inputs.Hand

open Idealize.ShloMosaic Cert.Pre_finite_inputs

instance subsingleton_S_ : Subsingleton S_.Idx := ⟨fun a b => funext fun d => d.elim0⟩

theorem nonneg_of_test {s : Shape} (x : IVec s 32) (z : IVec s 32) (hz : ∀ i, z i = 0#32) (i : s.Idx)
    (h : cmpi .sge x z i = 1#1) : 0 ≤ (x i).toInt := by
  have h' : IntOp.cmpi .sge (x i) (z i) = 1#1 := h
  rw [hz, IntOp.cmpi_sge] at h'
  exact h'

theorem lt_of_test {s : Shape} (x : IVec s 32) (z : IVec s 32) (n : ℕ) (hn : n < 2 ^ 31) (hz : ∀ i, z i = BitVec.ofNat 32 n)
    (i : s.Idx) (h : cmpi .slt x z i = 1#1) : (x i).toInt < n := by
  have h' : IntOp.cmpi .slt (x i) (z i) = 1#1 := h
  rw [hz, IntOp.cmpi_slt, BitVec.toInt_ofNat'] at h'
  rwa [Int.bmod_eq_of_le (by omega) (by omega)] at h'

variable [Facts]

theorem ranges {F : FTy → Type} [FloatOps F] (a0 a1 : FVec F S204800x20 .f32) (a2 : IVec S2048 32) (a3 : IVec S3551 32)
    (a4 : IVec S217264 32) (a5 : IVec S20001 32) (a6 : IVec S302235 32)
    (h : fn (F := F) a0 a1 a2 a3 a4 a5 a6 = (fun _ => 1#1)) :
    (∀ j, 0 ≤ (a2 j).toInt ∧ (a2 j).toInt < 3550) ∧ (∀ k, 0 ≤ (a4 k).toInt ∧ (a4 k).toInt < 20000)
      ∧ (∀ k, 0 ≤ (a6 k).toInt ∧ (a6 k).toInt < 3550) := by
  have e := congrFun h ValueIdx.ix0
  dsimp only [fn, fn_part1, fn_part2] at e
  simp only [andi, IntOp.andi_eq_one] at e
  obtain ⟨⟨⟨⟨⟨⟨-, h2a⟩, h2b⟩, h4a⟩, h4b⟩, h6a⟩, h6b⟩ := e
  refine ⟨fun j => ⟨?_, ?_⟩, fun k => ⟨?_, ?_⟩, fun k => ⟨?_, ?_⟩⟩
  · exact nonneg_of_test a2 _ (fun _ => rfl) j (Host.reduce_andi_all _ _ _ _ _ h2a j)
  · exact lt_of_test a2 _ 3550 (by norm_num) (fun _ => rfl) j (Host.reduce_andi_all _ _ _ _ _ h2b j)
  · exact nonneg_of_test a4 _ (fun _ => rfl) k (Host.reduce_andi_all _ _ _ _ _ h4a k)
  · exact lt_of_test a4 _ 20000 (by norm_num) (fun _ => rfl) k (Host.reduce_andi_all _ _ _ _ _ h4b k)
  · exact nonneg_of_test a6 _ (fun _ => rfl) k (Host.reduce_andi_all _ _ _ _ _ h6a k)
  · exact lt_of_test a6 _ 3550 (by norm_num) (fun _ => rfl) k (Host.reduce_andi_all _ _ _ _ _ h6b k)

end Cert.Pre_finite_inputs.Hand
-- ==== Proof.lean ====
import proofs.«416388_j86139864089342_3_alg».proof.Defs
import proofs.«416388_j86139864089342_3_alg».proof.Proof.Spec
import proofs.«416388_j86139864089342_3_alg».proof.Proof.KFrame
import proofs.«416388_j86139864089342_3_alg».proof.Proof.KIFrame
import proofs.«416388_j86139864089342_3_alg».proof.Proof.KISpec
import proofs.«416388_j86139864089342_3_alg».proof.Proof.RRun
import proofs.«416388_j86139864089342_3_alg».proof.Proof.RValue
import proofs.«416388_j86139864089342_3_alg».proof.Proof.Law
import proofs.«416388_j86139864089342_3_alg».proof.Proof.PreDecode
import proofs.«416388_j86139864089342_3_alg».proof.Proof.Gen.Kernel
import proofs.«416388_j86139864089342_3_alg».proof.Proof.Gen.KernelIdeal
import proofs.«416388_j86139864089342_3_alg».proof.Proof.Gen.ReferenceIdeal
import proofs.«416388_j86139864089342_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem walk_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (p : ℕ) (hp : p ≤ 20) :
    Cert.KernelIdeal.Hand.walkK m c p = Cert.ReferenceIdeal.Hand.walkR m' c p := by
  obtain ⟨hb, hcad, hcda⟩ := Cert.Pre_finite_inputs.Hand.ranges (F := Ideal) _ _ _ _ _ _ _ (hpre c)
  refine (Cert.Law.walks_agree (F := Ideal) (Cert.KernelIdeal.Hand.walkK m c) (Cert.ReferenceIdeal.Hand.walkR m' c)
    (fun i => Cert.KernelIdeal.Hand.ucol i (m ((c.tc : Thread Cert.KernelIdeal.nD Cert.KernelIdeal.τ).loc Cert.KernelIdeal.main_arg0)))
    (fun i => Cert.ReferenceIdeal.Hand.ucol i (m ((c.tc : Thread Cert.KernelIdeal.nD Cert.KernelIdeal.τ).loc Cert.KernelIdeal.main_arg0)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (Cert.KernelIdeal.Hand.walkK_zero m c) ?_ ?_ ?_ ?_ ?_ (fun i _ => Cert.Law.ucol_eq i _) hb hcad hcda p hp).1
  · exact (Cert.ReferenceIdeal.Hand.walkR_zero m' c).trans (congrArg Cert.ReferenceIdeal.Hand.tile h2)
  · intro i _ hi
    obtain ⟨j, rfl⟩ : ∃ j, i = 2 * j := ⟨i / 2, by omega⟩
    exact Cert.KernelIdeal.Hand.walkK_succ_even m c j
  · intro i _ hi
    obtain ⟨j, rfl⟩ : ∃ j, i = 2 * j + 1 := ⟨i / 2, by omega⟩
    exact Cert.KernelIdeal.Hand.walkK_succ_odd m c j
  · intro i _ hi
    obtain ⟨j, rfl⟩ : ∃ j, i = 2 * j := ⟨i / 2, by omega⟩
    refine (Cert.ReferenceIdeal.Hand.walkR_succ_even m' c j).trans ?_
    exact congr (congr (congr (congrArg Cert.ReferenceIdeal.Hand.stepR_ad h3) h4) rfl) (congrArg (Cert.ReferenceIdeal.Hand.ucol (2 * j)) h0)
  · intro i _ hi
    obtain ⟨j, rfl⟩ : ∃ j, i = 2 * j + 1 := ⟨i / 2, by omega⟩
    refine (Cert.ReferenceIdeal.Hand.walkR_succ_odd m' c j).trans ?_
    exact congr (congr (congr (congrArg Cert.ReferenceIdeal.Hand.stepR_da h5) h6) rfl) (congrArg (Cert.ReferenceIdeal.Hand.ucol (2 * j + 1)) h0)

theorem algebraic : Cert.algebraic_KernelIdeal_ReferenceIdeal := by
  intro m ρ m' ρ' hpre hagree
  refine ⟨fun c => Cert.Walk.posSpec (Cert.ReferenceIdeal.Hand.walkR m' c),
    fun c => Cert.Walk.negSpec (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg1)), ?_, ?_⟩
  · refine (θ_run (Cert.KernelIdeal.defs (F := Ideal)) _ _).mono (fun r h c => ⟨(h c).1.trans ?_, (h c).2.1.trans ?_, (h c).2.2⟩)
      (Cert.KernelIdeal.Hand.run_spec m ρ)
    · obtain ⟨a0, a1, a2, a3, a4, a5, a6⟩ := hagree c
      exact Cert.Walk.posSpec_congr fun p hp => walk_eq m m' hpre c a0 a2 a3 a4 a5 a6 p hp
    · obtain ⟨a0, a1, a2, a3, a4, a5, a6⟩ := hagree c
      exact (congrArg₂ Cert.Walk.negSpec a2 a1).symm
  · exact Cert.ReferenceIdeal.Hand.run_val m' ρ'

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.Hand.frame,
  trivial,
  algebraic⟩

end Cert.Proof

end
